-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.named_const.Statement Cert.KernelIdeal.κ "fold_c_134217728_9395241" .f32 0x41649249#32 ((134217728 / 9395241 : ℝ) : EReal)
  ∧ IdealRules.named_const.Statement Cert.KernelIdeal.κ "fold_sum_c_10973641_2p31_c_14073749_2p47" .f32 0x3BA772A0#32 ((719182610325 / 140737488355328 : ℝ) : EReal)
  ∧ IdealRules.named_const.Statement Cert.KernelIdeal.κ "fold_sum_c_10973641_2p31_c_14073749_2p47" .f32 0x3BA772A0#32 ((719182610325 / 140737488355328 : ℝ) : EReal)
  ∧ IdealRules.named_const.Statement Cert.KernelIdeal.κ "fold_c_134217728_9395241" .f32 0x41649249#32 ((134217728 / 9395241 : ℝ) : EReal)
  ∧ IdealRules.named_const.Statement Cert.KernelIdeal.κ "fold_sum_c_10973641_2p31_c_14073749_2p47" .f32 0x3BA772A0#32 ((719182610325 / 140737488355328 : ℝ) : EReal)
  ∧ IdealRules.named_const.Statement Cert.KernelIdeal.κ "fold_sum_c_10973641_2p31_c_14073749_2p47" .f32 0x3BA772A0#32 ((719182610325 / 140737488355328 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S_ : Shape := ⟨0, ![]⟩
abbrev S1024x2048 : Shape := ⟨2, ![1024, 2048]⟩
abbrev S1024 : Shape := ⟨1, ![1024]⟩
abbrev S1024x511 : Shape := ⟨2, ![1024, 511]⟩
abbrev S2048x128 : Shape := ⟨2, ![2048, 128]⟩
abbrev S128 : Shape := ⟨1, ![128]⟩
abbrev S100000x128 : Shape := ⟨2, ![100000, 128]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S2048x128 : S_.BroadcastsInDim S2048x128 (![] : Fin 0 → Fin S2048x128.rank)
  reducesTo_S2048x128_S_d0_1 : S2048x128.ReducesTo [0, 1] S_
  bcast_S_S128 : S_.BroadcastsInDim S128 (![] : Fin 0 → Fin S128.rank)
  reducesTo_S128_S_d0 : S128.ReducesTo [0] S_
  bcast_S_S100000x128 : S_.BroadcastsInDim S100000x128 (![] : Fin 0 → Fin S100000x128.rank)
  reducesTo_S100000x128_S_d0_1 : S100000x128.ReducesTo [0, 1] S_
  reducesTo_S_S_d : S_.ReducesTo [] S_
  bcast_S_S1024 : S_.BroadcastsInDim S1024 (![] : Fin 0 → Fin S1024.rank)
  reducesTo_S1024_S_d0 : S1024.ReducesTo [0] S_
  bcast_S_S1024x511 : S_.BroadcastsInDim S1024x511 (![] : Fin 0 → Fin S1024x511.rank)
  reducesTo_S1024x511_S_d0_1 : S1024x511.ReducesTo [0, 1] S_

variable [Facts]

def fn_part3 {F : FTy → Type} [FloatOps F] (main_arg4 : IVec S1024x511 32) (main_v43 : IVec S_ 1) (main_v49 : IVec S_ 1) : IVec S_ 1 :=
  let main_v50 : IVec S_ 1 := andi main_v43 main_v49
  let main_c_20 : IVec S_ 32 := constantI S_ 32 0#32
  let main_v51 : IVec S1024x511 32 := broadcastInDim S1024x511 ![] bcast_S_S1024x511 main_c_20
  let main_v52 : IVec S1024x511 1 := cmpi .sge main_arg4 main_v51
  let main_c_21 : IVec S_ 32 := constantI S_ 32 99999#32
  let main_v53 : IVec S1024x511 32 := broadcastInDim S1024x511 ![] bcast_S_S1024x511 main_c_21
  let main_v54 : IVec S1024x511 1 := cmpi .sle main_arg4 main_v53
  let main_v55 : IVec S1024x511 1 := andi main_v52 main_v54
  let main_c_22 : IVec S_ 1 := constantI S_ 1 1#1
  let main_v56 : IVec S_ 1 := (fun x v => Host.reduce IntOp.andi x v reducesTo_S1024x511_S_d0_1 h_S_) main_v55 main_c_22
  let main_v57 : IVec S_ 1 := andi main_v50 main_v56
  main_v57

def fn_part2 {F : FTy → Type} [FloatOps F] (main_arg0 : IVec S_ 32) (main_arg3 : IVec S1024 32) (main_arg4 : IVec S1024x511 32) (main_arg10 : FVec F S100000x128 .f32) (main_v33 : IVec S_ 1) : IVec S_ 1 :=
  let main_v34 : FVec F S100000x128 .f32 := Host.absf main_arg10
  let main_cst_12 : FVec F S_ .f32 := constant S_ .f32 0x7F800000#32
  let main_v35 : FVec F S100000x128 .f32 := broadcastInDim S100000x128 ![] bcast_S_S100000x128 main_cst_12
  let main_v36 : IVec S100000x128 1 := cmpf .olt main_v34 main_v35
  let main_c_13 : IVec S_ 1 := constantI S_ 1 1#1
  let main_v37 : IVec S_ 1 := (fun x v => Host.reduce IntOp.andi x v reducesTo_S100000x128_S_d0_1 h_S_) main_v36 main_c_13
  let main_v38 : IVec S_ 1 := andi main_v33 main_v37
  let main_c_14 : IVec S_ 32 := constantI S_ 32 10#32
  let main_v39 : IVec S_ 1 := cmpi .sge main_arg0 main_c_14
  let main_c_15 : IVec S_ 32 := constantI S_ 32 10#32
  let main_v40 : IVec S_ 1 := cmpi .sle main_arg0 main_c_15
  let main_v41 : IVec S_ 1 := andi main_v39 main_v40
  let main_c_16 : IVec S_ 1 := constantI S_ 1 1#1
  let main_v42 : IVec S_ 1 := (fun x v => Host.reduce IntOp.andi x v reducesTo_S_S_d h_S_) main_v41 main_c_16
  let main_v43 : IVec S_ 1 := andi main_v38 main_v42
  let main_c_17 : IVec S_ 32 := constantI S_ 32 0#32
  let main_v44 : IVec S1024 32 := broadcastInDim S1024 ![] bcast_S_S1024 main_c_17
  let main_v45 : IVec S1024 1 := cmpi .sge main_arg3 main_v44
  let main_c_18 : IVec S_ 32 := constantI S_ 32 99999#32
  let main_v46 : IVec S1024 32 := broadcastInDim S1024 ![] bcast_S_S1024 main_c_18
  let main_v47 : IVec S1024 1 := cmpi .sle main_arg3 main_v46
  let main_v48 : IVec S1024 1 := andi main_v45 main_v47
  let main_c_19 : IVec S_ 1 := constantI S_ 1 1#1
  let main_v49 : IVec S_ 1 := (fun x v => Host.reduce IntOp.andi x v reducesTo_S1024_S_d0 h_S_) main_v48 main_c_19
  fn_part3 (F := F) main_arg4 main_v43 main_v49

def fn_part1 {F : FTy → Type} [FloatOps F] (main_arg0 : IVec S_ 32) (main_arg3 : IVec S1024 32) (main_arg4 : IVec S1024x511 32) (main_arg7 : FVec F S2048x128 .f32) (main_arg8 : FVec F S128 .f32) (main_arg9 : FVec F S100000x128 .f32) (main_arg10 : FVec F S100000x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S2048x128 .f32 := Host.absf main_arg7
  let main_cst_6 : FVec F S_ .f32 := constant S_ .f32 0x7F800000#32
  let main_v20 : FVec F S2048x128 .f32 := broadcastInDim S2048x128 ![] bcast_S_S2048x128 main_cst_6
  let main_v21 : IVec S2048x128 1 := cmpf .olt main_v19 main_v20
  let main_c_7 : IVec S_ 1 := constantI S_ 1 1#1
  let main_v22 : IVec S_ 1 := (fun x v => Host.reduce IntOp.andi x v reducesTo_S2048x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S100000x128 .f32 := Host.absf main_arg9
  let main_cst_10 : FVec F S_ .f32 := constant S_ .f32 0x7F800000#32
  let main_v30 : FVec F S100000x128 .f32 := broadcastInDim S100000x128 ![] bcast_S_S100000x128 main_cst_10
  let main_v31 : IVec S100000x128 1 := cmpf .olt main_v29 main_v30
  let main_c_11 : IVec S_ 1 := constantI S_ 1 1#1
  let main_v32 : IVec S_ 1 := (fun x v => Host.reduce IntOp.andi x v reducesTo_S100000x128_S_d0_1 h_S_) main_v31 main_c_11
  let main_v33 : IVec S_ 1 := andi main_v28 main_v32
  fn_part2 (F := F) main_arg0 main_arg3 main_arg4 main_arg10 main_v33

def fn {F : FTy → Type} [FloatOps F] (main_arg0 : IVec S_ 32) (main_arg1 : FVec F S1024x2048 .f32) (main_arg2 : FVec F S1024x2048 .f32) (main_arg3 : IVec S1024 32) (main_arg4 : IVec S1024x511 32) (main_arg5 : FVec F S2048x128 .f32) (main_arg6 : FVec F S128 .f32) (main_arg7 : FVec F S2048x128 .f32) (main_arg8 : FVec F S128 .f32) (main_arg9 : FVec F S100000x128 .f32) (main_arg10 : FVec F S100000x128 .f32) : IVec S_ 1 :=
  let main_v0 : FVec F S1024x2048 .f32 := Host.absf main_arg1
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S1024x2048 .f32 := Host.absf main_arg2
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S2048x128 .f32 := Host.absf main_arg5
  let main_cst_2 : FVec F S_ .f32 := constant S_ .f32 0x7F800000#32
  let main_v10 : FVec F S2048x128 .f32 := broadcastInDim S2048x128 ![] bcast_S_S2048x128 main_cst_2
  let main_v11 : IVec S2048x128 1 := cmpf .olt main_v9 main_v10
  let main_c_3 : IVec S_ 1 := constantI S_ 1 1#1
  let main_v12 : IVec S_ 1 := (fun x v => Host.reduce IntOp.andi x v reducesTo_S2048x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg3 main_arg4 main_arg7 main_arg8 main_arg9 main_arg10 main_v13 main_v16
-- ==== Kernel.lean ====
abbrev S_ : Shape := ⟨0, ![]⟩
abbrev S1024x2048 : Shape := ⟨2, ![1024, 2048]⟩
abbrev S1024 : Shape := ⟨1, ![1024]⟩
abbrev S1024x511 : Shape := ⟨2, ![1024, 511]⟩
abbrev S2048x128 : Shape := ⟨2, ![2048, 128]⟩
abbrev S128 : Shape := ⟨1, ![128]⟩
abbrev S100000x128 : Shape := ⟨2, ![100000, 128]⟩
abbrev S1024x1 : Shape := ⟨2, ![1024, 1]⟩
abbrev S1024x512 : Shape := ⟨2, ![1024, 512]⟩
abbrev S1x128 : Shape := ⟨2, ![1, 128]⟩
abbrev S2x1024x128 : Shape := ⟨3, ![2, 1024, 128]⟩
abbrev S256x2048 : Shape := ⟨2, ![256, 2048]⟩
abbrev S2x256x128 : Shape := ⟨3, ![2, 256, 128]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩
abbrev S2x1024x512 : Shape := ⟨3, ![2, 1024, 512]⟩
abbrev S128x128 : Shape := ⟨2, ![128, 128]⟩
abbrev S16 : Shape := ⟨1, ![16]⟩
abbrev S1x1x128 : Shape := ⟨3, ![1, 1, 128]⟩
abbrev S1 : Shape := ⟨1, ![1]⟩
abbrev S1x1 : Shape := ⟨2, ![1, 1]⟩
abbrev S1x1024x512 : Shape := ⟨3, ![1, 1024, 512]⟩
abbrev S1x1x1 : Shape := ⟨3, ![1, 1, 1]⟩

abbrev nBuf : Table → Nat
  | .hbm => 19
  | .local .tc .vmem => 12
  | .local .scVector .vmem => 4
  | _ => 0

abbrev bufTy : (tb : Table) → Fin (nBuf tb) → BufTy
  | .hbm, ⟨0, _⟩ => ⟨S_, .i32⟩
  | .hbm, ⟨1, _⟩ => ⟨S1024x2048, .f32⟩
  | .hbm, ⟨2, _⟩ => ⟨S1024x2048, .f32⟩
  | .hbm, ⟨3, _⟩ => ⟨S1024, .i32⟩
  | .hbm, ⟨4, _⟩ => ⟨S1024x511, .i32⟩
  | .hbm, ⟨5, _⟩ => ⟨S2048x128, .f32⟩
  | .hbm, ⟨6, _⟩ => ⟨S128, .f32⟩
  | .hbm, ⟨7, _⟩ => ⟨S2048x128, .f32⟩
  | .hbm, ⟨8, _⟩ => ⟨S128, .f32⟩
  | .hbm, ⟨9, _⟩ => ⟨S100000x128, .f32⟩
  | .hbm, ⟨10, _⟩ => ⟨S100000x128, .f32⟩
  | .hbm, ⟨11, _⟩ => ⟨S1024x1, .i32⟩
  | .hbm, ⟨12, _⟩ => ⟨S1024x512, .i32⟩
  | .hbm, ⟨13, _⟩ => ⟨S1x128, .f32⟩
  | .hbm, ⟨14, _⟩ => ⟨S1x128, .f32⟩
  | .hbm, ⟨15, _⟩ => ⟨S2x1024x128, .f32⟩
  | .hbm, ⟨16, _⟩ => ⟨S2x1024x512, .f32⟩
  | .hbm, ⟨17, _⟩ => ⟨S1x1, .f32⟩
  | .hbm, ⟨18, _⟩ => ⟨S_, .f32⟩
  | .local .tc .vmem, ⟨0, _⟩ => ⟨S256x2048, .f32⟩
  | .local .tc .vmem, ⟨1, _⟩ => ⟨S256x2048, .f32⟩
  | .local .tc .vmem, ⟨2, _⟩ => ⟨S256x2048, .f32⟩
  | .local .tc .vmem, ⟨3, _⟩ => ⟨S256x2048, .f32⟩
  | .local .tc .vmem, ⟨4, _⟩ => ⟨S2048x128, .f32⟩
  | .local .tc .vmem, ⟨5, _⟩ => ⟨S1x128, .f32⟩
  | .local .tc .vmem, ⟨6, _⟩ => ⟨S2048x128, .f32⟩
  | .local .tc .vmem, ⟨7, _⟩ => ⟨S1x128, .f32⟩
  | .local .tc .vmem, ⟨8, _⟩ => ⟨S2x256x128, .f32⟩
  | .local .tc .vmem, ⟨9, _⟩ => ⟨S2x256x128, .f32⟩
  | .local .tc .vmem, ⟨10, _⟩ => ⟨S2x1024x512, .f32⟩
  | .local .tc .vmem, ⟨11, _⟩ => ⟨S1x1, .f32⟩
  | .local .scVector .vmem, ⟨0, _⟩ => ⟨S128, .i32⟩
  | .local .scVector .vmem, ⟨1, _⟩ => ⟨S128x128, .f32⟩
  | .local .scVector .vmem, ⟨2, _⟩ => ⟨S128, .f32⟩
  | .local .scVector .vmem, ⟨3, _⟩ => ⟨S128, .f32⟩
  | _, _ => ⟨S_, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => true
  | ⟨18, _⟩ => true
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_arg10_scv : Ref sig .scVector := ⟨.hbm, 10, rfl⟩
abbrev main_arg9_scv : Ref sig .scVector := ⟨.hbm, 9, rfl⟩
abbrev main_v1_scv : Ref sig .scVector := ⟨.hbm, 12, rfl⟩
abbrev main_v4_scv : Ref sig .scVector := ⟨.hbm, 15, rfl⟩
abbrev main_v5_scv : Ref sig .scVector := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc2_stg0_0 : Ref sig .tc := ⟨.vmem, 10, rfl⟩
abbrev cc2_stg1_0 : Ref sig .tc := ⟨.vmem, 11, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc2_sem0_0 : DmaSem sig := 17
abbrev cc2_sem1_0 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 16], ![false, false]⟩

@[reducible] def k1_t1_loop : Scf.Loop 32 :=
  let c0_i32_0 : BitVec 32 := 0#32
  let c32_i32_1 : BitVec 32 := 32#32
  let v4 : BitVec 32 := Scalar.addi c0_i32_0 c32_i32_1
  let c1_i32 : BitVec 32 := 1#32
  ⟨c0_i32_0, v4, c1_i32⟩
def k1_off1 (i : grid1.Coords) (k1_t1 : Fin k1_t1_loop.trips) : Fin 3 → Nat :=
  let c0_i32_8 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_0 : BitVec 32 := 0#32
  let c1_i32 : BitVec 32 := 1#32
  let arg12 : BitVec 32 := Scf.iv c0_i32_0 c1_i32 k1_t1
  let v8 : BitVec 32 := Scalar.addi v2 arg12
  let c0_i32_14_r0 : BitVec 32 := 0#32
  ![0, v8.toNat, 0]
@[reducible] def k1_t2_loop : Scf.Loop 32 :=
  let c0_i32_10 : BitVec 32 := 0#32
  let c4_i32 : BitVec 32 := 4#32
  let v9 : BitVec 32 := Scalar.addi c0_i32_10 c4_i32
  let c1_i32_11 : BitVec 32 := 1#32
  ⟨c0_i32_10, v9, c1_i32_11⟩
def k1_off2 (i : grid1.Coords) (k1_t1 : Fin k1_t1_loop.trips) (k1_t2 : Fin k1_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_0 : BitVec 32 := 0#32
  let c1_i32 : BitVec 32 := 1#32
  let arg12 : BitVec 32 := Scf.iv c0_i32_0 c1_i32 k1_t1
  let v8 : BitVec 32 := Scalar.addi v2 arg12
  let c0_i32_10 : BitVec 32 := 0#32
  let c1_i32_11 : BitVec 32 := 1#32
  let arg14 : BitVec 32 := Scf.iv c0_i32_10 c1_i32_11 k1_t2
  let c128_i32 : BitVec 32 := 128#32
  let v11 : BitVec 32 := Scalar.muli arg14 c128_i32
  ![v8.toNat, v11.toNat]
@[reducible] def k1_t3_loop : Scf.Loop 32 :=
  let c0_i32_25 : BitVec 32 := 0#32
  let c8_i32 : BitVec 32 := 8#32
  let v22 : BitVec 32 := Scalar.addi c0_i32_25 c8_i32
  let c1_i32_26 : BitVec 32 := 1#32
  ⟨c0_i32_25, v22, c1_i32_26⟩
def k1_off3 (k1_t3 : Fin k1_t3_loop.trips) : Fin 1 → Nat :=
  let c0_i32_25 : BitVec 32 := 0#32
  let c1_i32_26 : BitVec 32 := 1#32
  let arg16 : BitVec 32 := Scf.iv c0_i32_25 c1_i32_26 k1_t3
  let c16_i32 : BitVec 32 := 16#32
  let v33 : BitVec 32 := Scalar.muli arg16 c16_i32
  let v34 : Index := Scalar.indexCast v33
  ![v34.toNat]

def k1_chk1 (v37 : IVec S16 32) (v40 : IVec S16 32) : Prop :=
  (∀ a x, ((![v37, v40] : Fin 2 → IVec S16 32) a x).toNat < S128x128.size a)
instance k1_chk1.dec : ∀ (v37 : IVec S16 32) (v40 : IVec S16 32), Decidable (k1_chk1 v37 v40) := fun v37 v40 => decidable_of_iff' _ (Iff.of_eq (k1_chk1.eq_1 v37 v40))
theorem k1_idx1_inb : ∀ (v37 : IVec S16 32) (v40 : IVec S16 32) (k1_hw1 : k1_chk1 v37 v40), ∀ a x, ((![v37, v40] : Fin 2 → IVec S16 32) a x).toNat < S128x128.size a := fun v37 v40 k1_hw1 => k1_hw1

def k1_chk2 (v37 : IVec S16 32) (v49 : IVec S16 32) : Prop :=
  (∀ a x, ((![v37, v49] : Fin 2 → IVec S16 32) a x).toNat < S128x128.size a)
instance k1_chk2.dec : ∀ (v37 : IVec S16 32) (v49 : IVec S16 32), Decidable (k1_chk2 v37 v49) := fun v37 v49 => decidable_of_iff' _ (Iff.of_eq (k1_chk2.eq_1 v37 v49))
theorem k1_idx2_inb : ∀ (v37 : IVec S16 32) (v49 : IVec S16 32) (k1_hw2 : k1_chk2 v37 v49), ∀ a x, ((![v37, v49] : Fin 2 → IVec S16 32) a x).toNat < S128x128.size a := fun v37 v49 k1_hw2 => k1_hw2

def k1_chk3 (v37 : IVec S16 32) (v58 : IVec S16 32) : Prop :=
  (∀ a x, ((![v37, v58] : Fin 2 → IVec S16 32) a x).toNat < S128x128.size a)
instance k1_chk3.dec : ∀ (v37 : IVec S16 32) (v58 : IVec S16 32), Decidable (k1_chk3 v37 v58) := fun v37 v58 => decidable_of_iff' _ (Iff.of_eq (k1_chk3.eq_1 v37 v58))
theorem k1_idx3_inb : ∀ (v37 : IVec S16 32) (v58 : IVec S16 32) (k1_hw3 : k1_chk3 v37 v58), ∀ a x, ((![v37, v58] : Fin 2 → IVec S16 32) a x).toNat < S128x128.size a := fun v37 v58 k1_hw3 => k1_hw3

def k1_chk4 (v37 : IVec S16 32) (v67 : IVec S16 32) : Prop :=
  (∀ a x, ((![v37, v67] : Fin 2 → IVec S16 32) a x).toNat < S128x128.size a)
instance k1_chk4.dec : ∀ (v37 : IVec S16 32) (v67 : IVec S16 32), Decidable (k1_chk4 v37 v67) := fun v37 v67 => decidable_of_iff' _ (Iff.of_eq (k1_chk4.eq_1 v37 v67))
theorem k1_idx4_inb : ∀ (v37 : IVec S16 32) (v67 : IVec S16 32) (k1_hw4 : k1_chk4 v37 v67), ∀ a x, ((![v37, v67] : Fin 2 → IVec S16 32) a x).toNat < S128x128.size a := fun v37 v67 k1_hw4 => k1_hw4

def k1_chk5 (v37 : IVec S16 32) (v76 : IVec S16 32) : Prop :=
  (∀ a x, ((![v37, v76] : Fin 2 → IVec S16 32) a x).toNat < S128x128.size a)
instance k1_chk5.dec : ∀ (v37 : IVec S16 32) (v76 : IVec S16 32), Decidable (k1_chk5 v37 v76) := fun v37 v76 => decidable_of_iff' _ (Iff.of_eq (k1_chk5.eq_1 v37 v76))
theorem k1_idx5_inb : ∀ (v37 : IVec S16 32) (v76 : IVec S16 32) (k1_hw5 : k1_chk5 v37 v76), ∀ a x, ((![v37, v76] : Fin 2 → IVec S16 32) a x).toNat < S128x128.size a := fun v37 v76 k1_hw5 => k1_hw5

def k1_chk6 (v37 : IVec S16 32) (v85 : IVec S16 32) : Prop :=
  (∀ a x, ((![v37, v85] : Fin 2 → IVec S16 32) a x).toNat < S128x128.size a)
instance k1_chk6.dec : ∀ (v37 : IVec S16 32) (v85 : IVec S16 32), Decidable (k1_chk6 v37 v85) := fun v37 v85 => decidable_of_iff' _ (Iff.of_eq (k1_chk6.eq_1 v37 v85))
theorem k1_idx6_inb : ∀ (v37 : IVec S16 32) (v85 : IVec S16 32) (k1_hw6 : k1_chk6 v37 v85), ∀ a x, ((![v37, v85] : Fin 2 → IVec S16 32) a x).toNat < S128x128.size a := fun v37 v85 k1_hw6 => k1_hw6

def k1_chk7 (v37 : IVec S16 32) (v94 : IVec S16 32) : Prop :=
  (∀ a x, ((![v37, v94] : Fin 2 → IVec S16 32) a x).toNat < S128x128.size a)
instance k1_chk7.dec : ∀ (v37 : IVec S16 32) (v94 : IVec S16 32), Decidable (k1_chk7 v37 v94) := fun v37 v94 => decidable_of_iff' _ (Iff.of_eq (k1_chk7.eq_1 v37 v94))
theorem k1_idx7_inb : ∀ (v37 : IVec S16 32) (v94 : IVec S16 32) (k1_hw7 : k1_chk7 v37 v94), ∀ a x, ((![v37, v94] : Fin 2 → IVec S16 32) a x).toNat < S128x128.size a := fun v37 v94 k1_hw7 => k1_hw7

def k1_chk8 (v37 : IVec S16 32) (v103 : IVec S16 32) : Prop :=
  (∀ a x, ((![v37, v103] : Fin 2 → IVec S16 32) a x).toNat < S128x128.size a)
instance k1_chk8.dec : ∀ (v37 : IVec S16 32) (v103 : IVec S16 32), Decidable (k1_chk8 v37 v103) := fun v37 v103 => decidable_of_iff' _ (Iff.of_eq (k1_chk8.eq_1 v37 v103))
theorem k1_idx8_inb : ∀ (v37 : IVec S16 32) (v103 : IVec S16 32) (k1_hw8 : k1_chk8 v37 v103), ∀ a x, ((![v37, v103] : Fin 2 → IVec S16 32) a x).toNat < S128x128.size a := fun v37 v103 k1_hw8 => k1_hw8

def k1_chk9 (v37 : IVec S16 32) (v112 : IVec S16 32) : Prop :=
  (∀ a x, ((![v37, v112] : Fin 2 → IVec S16 32) a x).toNat < S128x128.size a)
instance k1_chk9.dec : ∀ (v37 : IVec S16 32) (v112 : IVec S16 32), Decidable (k1_chk9 v37 v112) := fun v37 v112 => decidable_of_iff' _ (Iff.of_eq (k1_chk9.eq_1 v37 v112))
theorem k1_idx9_inb : ∀ (v37 : IVec S16 32) (v112 : IVec S16 32) (k1_hw9 : k1_chk9 v37 v112), ∀ a x, ((![v37, v112] : Fin 2 → IVec S16 32) a x).toNat < S128x128.size a := fun v37 v112 k1_hw9 => k1_hw9

def k1_chk10 (v37 : IVec S16 32) (v121 : IVec S16 32) : Prop :=
  (∀ a x, ((![v37, v121] : Fin 2 → IVec S16 32) a x).toNat < S128x128.size a)
instance k1_chk10.dec : ∀ (v37 : IVec S16 32) (v121 : IVec S16 32), Decidable (k1_chk10 v37 v121) := fun v37 v121 => decidable_of_iff' _ (Iff.of_eq (k1_chk10.eq_1 v37 v121))
theorem k1_idx10_inb : ∀ (v37 : IVec S16 32) (v121 : IVec S16 32) (k1_hw10 : k1_chk10 v37 v121), ∀ a x, ((![v37, v121] : Fin 2 → IVec S16 32) a x).toNat < S128x128.size a := fun v37 v121 k1_hw10 => k1_hw10

def k1_chk11 (v37 : IVec S16 32) (v130 : IVec S16 32) : Prop :=
  (∀ a x, ((![v37, v130] : Fin 2 → IVec S16 32) a x).toNat < S128x128.size a)
instance k1_chk11.dec : ∀ (v37 : IVec S16 32) (v130 : IVec S16 32), Decidable (k1_chk11 v37 v130) := fun v37 v130 => decidable_of_iff' _ (Iff.of_eq (k1_chk11.eq_1 v37 v130))
theorem k1_idx11_inb : ∀ (v37 : IVec S16 32) (v130 : IVec S16 32) (k1_hw11 : k1_chk11 v37 v130), ∀ a x, ((![v37, v130] : Fin 2 → IVec S16 32) a x).toNat < S128x128.size a := fun v37 v130 k1_hw11 => k1_hw11

def k1_chk12 (v37 : IVec S16 32) (v139 : IVec S16 32) : Prop :=
  (∀ a x, ((![v37, v139] : Fin 2 → IVec S16 32) a x).toNat < S128x128.size a)
instance k1_chk12.dec : ∀ (v37 : IVec S16 32) (v139 : IVec S16 32), Decidable (k1_chk12 v37 v139) := fun v37 v139 => decidable_of_iff' _ (Iff.of_eq (k1_chk12.eq_1 v37 v139))
theorem k1_idx12_inb : ∀ (v37 : IVec S16 32) (v139 : IVec S16 32) (k1_hw12 : k1_chk12 v37 v139), ∀ a x, ((![v37, v139] : Fin 2 → IVec S16 32) a x).toNat < S128x128.size a := fun v37 v139 k1_hw12 => k1_hw12

def k1_chk13 (v37 : IVec S16 32) (v148 : IVec S16 32) : Prop :=
  (∀ a x, ((![v37, v148] : Fin 2 → IVec S16 32) a x).toNat < S128x128.size a)
instance k1_chk13.dec : ∀ (v37 : IVec S16 32) (v148 : IVec S16 32), Decidable (k1_chk13 v37 v148) := fun v37 v148 => decidable_of_iff' _ (Iff.of_eq (k1_chk13.eq_1 v37 v148))
theorem k1_idx13_inb : ∀ (v37 : IVec S16 32) (v148 : IVec S16 32) (k1_hw13 : k1_chk13 v37 v148), ∀ a x, ((![v37, v148] : Fin 2 → IVec S16 32) a x).toNat < S128x128.size a := fun v37 v148 k1_hw13 => k1_hw13

def k1_chk14 (v37 : IVec S16 32) (v157 : IVec S16 32) : Prop :=
  (∀ a x, ((![v37, v157] : Fin 2 → IVec S16 32) a x).toNat < S128x128.size a)
instance k1_chk14.dec : ∀ (v37 : IVec S16 32) (v157 : IVec S16 32), Decidable (k1_chk14 v37 v157) := fun v37 v157 => decidable_of_iff' _ (Iff.of_eq (k1_chk14.eq_1 v37 v157))
theorem k1_idx14_inb : ∀ (v37 : IVec S16 32) (v157 : IVec S16 32) (k1_hw14 : k1_chk14 v37 v157), ∀ a x, ((![v37, v157] : Fin 2 → IVec S16 32) a x).toNat < S128x128.size a := fun v37 v157 k1_hw14 => k1_hw14

def k1_chk15 (v37 : IVec S16 32) (v166 : IVec S16 32) : Prop :=
  (∀ a x, ((![v37, v166] : Fin 2 → IVec S16 32) a x).toNat < S128x128.size a)
instance k1_chk15.dec : ∀ (v37 : IVec S16 32) (v166 : IVec S16 32), Decidable (k1_chk15 v37 v166) := fun v37 v166 => decidable_of_iff' _ (Iff.of_eq (k1_chk15.eq_1 v37 v166))
theorem k1_idx15_inb : ∀ (v37 : IVec S16 32) (v166 : IVec S16 32) (k1_hw15 : k1_chk15 v37 v166), ∀ a x, ((![v37, v166] : Fin 2 → IVec S16 32) a x).toNat < S128x128.size a := fun v37 v166 k1_hw15 => k1_hw15

def k1_chk16 (v37 : IVec S16 32) (v175 : IVec S16 32) : Prop :=
  (∀ a x, ((![v37, v175] : Fin 2 → IVec S16 32) a x).toNat < S128x128.size a)
instance k1_chk16.dec : ∀ (v37 : IVec S16 32) (v175 : IVec S16 32), Decidable (k1_chk16 v37 v175) := fun v37 v175 => decidable_of_iff' _ (Iff.of_eq (k1_chk16.eq_1 v37 v175))
theorem k1_idx16_inb : ∀ (v37 : IVec S16 32) (v175 : IVec S16 32) (k1_hw16 : k1_chk16 v37 v175), ∀ a x, ((![v37, v175] : Fin 2 → IVec S16 32) a x).toNat < S128x128.size a := fun v37 v175 k1_hw16 => k1_hw16

def k1_chk17 (v183 : IVec S16 32) (v186 : IVec S16 32) : Prop :=
  (∀ a x, ((![v183, v186] : Fin 2 → IVec S16 32) a x).toNat < S128x128.size a)
instance k1_chk17.dec : ∀ (v183 : IVec S16 32) (v186 : IVec S16 32), Decidable (k1_chk17 v183 v186) := fun v183 v186 => decidable_of_iff' _ (Iff.of_eq (k1_chk17.eq_1 v183 v186))
theorem k1_idx17_inb : ∀ (v183 : IVec S16 32) (v186 : IVec S16 32) (k1_hw17 : k1_chk17 v183 v186), ∀ a x, ((![v183, v186] : Fin 2 → IVec S16 32) a x).toNat < S128x128.size a := fun v183 v186 k1_hw17 => k1_hw17

def k1_chk18 (v183 : IVec S16 32) (v195 : IVec S16 32) : Prop :=
  (∀ a x, ((![v183, v195] : Fin 2 → IVec S16 32) a x).toNat < S128x128.size a)
instance k1_chk18.dec : ∀ (v183 : IVec S16 32) (v195 : IVec S16 32), Decidable (k1_chk18 v183 v195) := fun v183 v195 => decidable_of_iff' _ (Iff.of_eq (k1_chk18.eq_1 v183 v195))
theorem k1_idx18_inb : ∀ (v183 : IVec S16 32) (v195 : IVec S16 32) (k1_hw18 : k1_chk18 v183 v195), ∀ a x, ((![v183, v195] : Fin 2 → IVec S16 32) a x).toNat < S128x128.size a := fun v183 v195 k1_hw18 => k1_hw18

def k1_chk19 (v183 : IVec S16 32) (v204 : IVec S16 32) : Prop :=
  (∀ a x, ((![v183, v204] : Fin 2 → IVec S16 32) a x).toNat < S128x128.size a)
instance k1_chk19.dec : ∀ (v183 : IVec S16 32) (v204 : IVec S16 32), Decidable (k1_chk19 v183 v204) := fun v183 v204 => decidable_of_iff' _ (Iff.of_eq (k1_chk19.eq_1 v183 v204))
theorem k1_idx19_inb : ∀ (v183 : IVec S16 32) (v204 : IVec S16 32) (k1_hw19 : k1_chk19 v183 v204), ∀ a x, ((![v183, v204] : Fin 2 → IVec S16 32) a x).toNat < S128x128.size a := fun v183 v204 k1_hw19 => k1_hw19

def k1_chk20 (v183 : IVec S16 32) (v213 : IVec S16 32) : Prop :=
  (∀ a x, ((![v183, v213] : Fin 2 → IVec S16 32) a x).toNat < S128x128.size a)
instance k1_chk20.dec : ∀ (v183 : IVec S16 32) (v213 : IVec S16 32), Decidable (k1_chk20 v183 v213) := fun v183 v213 => decidable_of_iff' _ (Iff.of_eq (k1_chk20.eq_1 v183 v213))
theorem k1_idx20_inb : ∀ (v183 : IVec S16 32) (v213 : IVec S16 32) (k1_hw20 : k1_chk20 v183 v213), ∀ a x, ((![v183, v213] : Fin 2 → IVec S16 32) a x).toNat < S128x128.size a := fun v183 v213 k1_hw20 => k1_hw20

def k1_chk21 (v183 : IVec S16 32) (v222 : IVec S16 32) : Prop :=
  (∀ a x, ((![v183, v222] : Fin 2 → IVec S16 32) a x).toNat < S128x128.size a)
instance k1_chk21.dec : ∀ (v183 : IVec S16 32) (v222 : IVec S16 32), Decidable (k1_chk21 v183 v222) := fun v183 v222 => decidable_of_iff' _ (Iff.of_eq (k1_chk21.eq_1 v183 v222))
theorem k1_idx21_inb : ∀ (v183 : IVec S16 32) (v222 : IVec S16 32) (k1_hw21 : k1_chk21 v183 v222), ∀ a x, ((![v183, v222] : Fin 2 → IVec S16 32) a x).toNat < S128x128.size a := fun v183 v222 k1_hw21 => k1_hw21

def k1_chk22 (v183 : IVec S16 32) (v231 : IVec S16 32) : Prop :=
  (∀ a x, ((![v183, v231] : Fin 2 → IVec S16 32) a x).toNat < S128x128.size a)
instance k1_chk22.dec : ∀ (v183 : IVec S16 32) (v231 : IVec S16 32), Decidable (k1_chk22 v183 v231) := fun v183 v231 => decidable_of_iff' _ (Iff.of_eq (k1_chk22.eq_1 v183 v231))
theorem k1_idx22_inb : ∀ (v183 : IVec S16 32) (v231 : IVec S16 32) (k1_hw22 : k1_chk22 v183 v231), ∀ a x, ((![v183, v231] : Fin 2 → IVec S16 32) a x).toNat < S128x128.size a := fun v183 v231 k1_hw22 => k1_hw22

def k1_chk23 (v183 : IVec S16 32) (v240 : IVec S16 32) : Prop :=
  (∀ a x, ((![v183, v240] : Fin 2 → IVec S16 32) a x).toNat < S128x128.size a)
instance k1_chk23.dec : ∀ (v183 : IVec S16 32) (v240 : IVec S16 32), Decidable (k1_chk23 v183 v240) := fun v183 v240 => decidable_of_iff' _ (Iff.of_eq (k1_chk23.eq_1 v183 v240))
theorem k1_idx23_inb : ∀ (v183 : IVec S16 32) (v240 : IVec S16 32) (k1_hw23 : k1_chk23 v183 v240), ∀ a x, ((![v183, v240] : Fin 2 → IVec S16 32) a x).toNat < S128x128.size a := fun v183 v240 k1_hw23 => k1_hw23

def k1_chk24 (v183 : IVec S16 32) (v249 : IVec S16 32) : Prop :=
  (∀ a x, ((![v183, v249] : Fin 2 → IVec S16 32) a x).toNat < S128x128.size a)
instance k1_chk24.dec : ∀ (v183 : IVec S16 32) (v249 : IVec S16 32), Decidable (k1_chk24 v183 v249) := fun v183 v249 => decidable_of_iff' _ (Iff.of_eq (k1_chk24.eq_1 v183 v249))
theorem k1_idx24_inb : ∀ (v183 : IVec S16 32) (v249 : IVec S16 32) (k1_hw24 : k1_chk24 v183 v249), ∀ a x, ((![v183, v249] : Fin 2 → IVec S16 32) a x).toNat < S128x128.size a := fun v183 v249 k1_hw24 => k1_hw24

def k1_chk25 (v183 : IVec S16 32) (v258 : IVec S16 32) : Prop :=
  (∀ a x, ((![v183, v258] : Fin 2 → IVec S16 32) a x).toNat < S128x128.size a)
instance k1_chk25.dec : ∀ (v183 : IVec S16 32) (v258 : IVec S16 32), Decidable (k1_chk25 v183 v258) := fun v183 v258 => decidable_of_iff' _ (Iff.of_eq (k1_chk25.eq_1 v183 v258))
theorem k1_idx25_inb : ∀ (v183 : IVec S16 32) (v258 : IVec S16 32) (k1_hw25 : k1_chk25 v183 v258), ∀ a x, ((![v183, v258] : Fin 2 → IVec S16 32) a x).toNat < S128x128.size a := fun v183 v258 k1_hw25 => k1_hw25

def k1_chk26 (v183 : IVec S16 32) (v267 : IVec S16 32) : Prop :=
  (∀ a x, ((![v183, v267] : Fin 2 → IVec S16 32) a x).toNat < S128x128.size a)
instance k1_chk26.dec : ∀ (v183 : IVec S16 32) (v267 : IVec S16 32), Decidable (k1_chk26 v183 v267) := fun v183 v267 => decidable_of_iff' _ (Iff.of_eq (k1_chk26.eq_1 v183 v267))
theorem k1_idx26_inb : ∀ (v183 : IVec S16 32) (v267 : IVec S16 32) (k1_hw26 : k1_chk26 v183 v267), ∀ a x, ((![v183, v267] : Fin 2 → IVec S16 32) a x).toNat < S128x128.size a := fun v183 v267 k1_hw26 => k1_hw26

def k1_chk27 (v183 : IVec S16 32) (v276 : IVec S16 32) : Prop :=
  (∀ a x, ((![v183, v276] : Fin 2 → IVec S16 32) a x).toNat < S128x128.size a)
instance k1_chk27.dec : ∀ (v183 : IVec S16 32) (v276 : IVec S16 32), Decidable (k1_chk27 v183 v276) := fun v183 v276 => decidable_of_iff' _ (Iff.of_eq (k1_chk27.eq_1 v183 v276))
theorem k1_idx27_inb : ∀ (v183 : IVec S16 32) (v276 : IVec S16 32) (k1_hw27 : k1_chk27 v183 v276), ∀ a x, ((![v183, v276] : Fin 2 → IVec S16 32) a x).toNat < S128x128.size a := fun v183 v276 k1_hw27 => k1_hw27

def k1_chk28 (v183 : IVec S16 32) (v285 : IVec S16 32) : Prop :=
  (∀ a x, ((![v183, v285] : Fin 2 → IVec S16 32) a x).toNat < S128x128.size a)
instance k1_chk28.dec : ∀ (v183 : IVec S16 32) (v285 : IVec S16 32), Decidable (k1_chk28 v183 v285) := fun v183 v285 => decidable_of_iff' _ (Iff.of_eq (k1_chk28.eq_1 v183 v285))
theorem k1_idx28_inb : ∀ (v183 : IVec S16 32) (v285 : IVec S16 32) (k1_hw28 : k1_chk28 v183 v285), ∀ a x, ((![v183, v285] : Fin 2 → IVec S16 32) a x).toNat < S128x128.size a := fun v183 v285 k1_hw28 => k1_hw28

def k1_chk29 (v183 : IVec S16 32) (v294 : IVec S16 32) : Prop :=
  (∀ a x, ((![v183, v294] : Fin 2 → IVec S16 32) a x).toNat < S128x128.size a)
instance k1_chk29.dec : ∀ (v183 : IVec S16 32) (v294 : IVec S16 32), Decidable (k1_chk29 v183 v294) := fun v183 v294 => decidable_of_iff' _ (Iff.of_eq (k1_chk29.eq_1 v183 v294))
theorem k1_idx29_inb : ∀ (v183 : IVec S16 32) (v294 : IVec S16 32) (k1_hw29 : k1_chk29 v183 v294), ∀ a x, ((![v183, v294] : Fin 2 → IVec S16 32) a x).toNat < S128x128.size a := fun v183 v294 k1_hw29 => k1_hw29

def k1_chk30 (v183 : IVec S16 32) (v303 : IVec S16 32) : Prop :=
  (∀ a x, ((![v183, v303] : Fin 2 → IVec S16 32) a x).toNat < S128x128.size a)
instance k1_chk30.dec : ∀ (v183 : IVec S16 32) (v303 : IVec S16 32), Decidable (k1_chk30 v183 v303) := fun v183 v303 => decidable_of_iff' _ (Iff.of_eq (k1_chk30.eq_1 v183 v303))
theorem k1_idx30_inb : ∀ (v183 : IVec S16 32) (v303 : IVec S16 32) (k1_hw30 : k1_chk30 v183 v303), ∀ a x, ((![v183, v303] : Fin 2 → IVec S16 32) a x).toNat < S128x128.size a := fun v183 v303 k1_hw30 => k1_hw30

def k1_chk31 (v183 : IVec S16 32) (v312 : IVec S16 32) : Prop :=
  (∀ a x, ((![v183, v312] : Fin 2 → IVec S16 32) a x).toNat < S128x128.size a)
instance k1_chk31.dec : ∀ (v183 : IVec S16 32) (v312 : IVec S16 32), Decidable (k1_chk31 v183 v312) := fun v183 v312 => decidable_of_iff' _ (Iff.of_eq (k1_chk31.eq_1 v183 v312))
theorem k1_idx31_inb : ∀ (v183 : IVec S16 32) (v312 : IVec S16 32) (k1_hw31 : k1_chk31 v183 v312), ∀ a x, ((![v183, v312] : Fin 2 → IVec S16 32) a x).toNat < S128x128.size a := fun v183 v312 k1_hw31 => k1_hw31

def k1_chk32 (v183 : IVec S16 32) (v321 : IVec S16 32) : Prop :=
  (∀ a x, ((![v183, v321] : Fin 2 → IVec S16 32) a x).toNat < S128x128.size a)
instance k1_chk32.dec : ∀ (v183 : IVec S16 32) (v321 : IVec S16 32), Decidable (k1_chk32 v183 v321) := fun v183 v321 => decidable_of_iff' _ (Iff.of_eq (k1_chk32.eq_1 v183 v321))
theorem k1_idx32_inb : ∀ (v183 : IVec S16 32) (v321 : IVec S16 32) (k1_hw32 : k1_chk32 v183 v321), ∀ a x, ((![v183, v321] : Fin 2 → IVec S16 32) a x).toNat < S128x128.size a := fun v183 v321 k1_hw32 => k1_hw32

def k1_chk33 (v329 : IVec S16 32) (v332 : IVec S16 32) : Prop :=
  (∀ a x, ((![v329, v332] : Fin 2 → IVec S16 32) a x).toNat < S128x128.size a)
instance k1_chk33.dec : ∀ (v329 : IVec S16 32) (v332 : IVec S16 32), Decidable (k1_chk33 v329 v332) := fun v329 v332 => decidable_of_iff' _ (Iff.of_eq (k1_chk33.eq_1 v329 v332))
theorem k1_idx33_inb : ∀ (v329 : IVec S16 32) (v332 : IVec S16 32) (k1_hw33 : k1_chk33 v329 v332), ∀ a x, ((![v329, v332] : Fin 2 → IVec S16 32) a x).toNat < S128x128.size a := fun v329 v332 k1_hw33 => k1_hw33

def k1_chk34 (v329 : IVec S16 32) (v341 : IVec S16 32) : Prop :=
  (∀ a x, ((![v329, v341] : Fin 2 → IVec S16 32) a x).toNat < S128x128.size a)
instance k1_chk34.dec : ∀ (v329 : IVec S16 32) (v341 : IVec S16 32), Decidable (k1_chk34 v329 v341) := fun v329 v341 => decidable_of_iff' _ (Iff.of_eq (k1_chk34.eq_1 v329 v341))
theorem k1_idx34_inb : ∀ (v329 : IVec S16 32) (v341 : IVec S16 32) (k1_hw34 : k1_chk34 v329 v341), ∀ a x, ((![v329, v341] : Fin 2 → IVec S16 32) a x).toNat < S128x128.size a := fun v329 v341 k1_hw34 => k1_hw34

def k1_chk35 (v329 : IVec S16 32) (v350 : IVec S16 32) : Prop :=
  (∀ a x, ((![v329, v350] : Fin 2 → IVec S16 32) a x).toNat < S128x128.size a)
instance k1_chk35.dec : ∀ (v329 : IVec S16 32) (v350 : IVec S16 32), Decidable (k1_chk35 v329 v350) := fun v329 v350 => decidable_of_iff' _ (Iff.of_eq (k1_chk35.eq_1 v329 v350))
theorem k1_idx35_inb : ∀ (v329 : IVec S16 32) (v350 : IVec S16 32) (k1_hw35 : k1_chk35 v329 v350), ∀ a x, ((![v329, v350] : Fin 2 → IVec S16 32) a x).toNat < S128x128.size a := fun v329 v350 k1_hw35 => k1_hw35

def k1_chk36 (v329 : IVec S16 32) (v359 : IVec S16 32) : Prop :=
  (∀ a x, ((![v329, v359] : Fin 2 → IVec S16 32) a x).toNat < S128x128.size a)
instance k1_chk36.dec : ∀ (v329 : IVec S16 32) (v359 : IVec S16 32), Decidable (k1_chk36 v329 v359) := fun v329 v359 => decidable_of_iff' _ (Iff.of_eq (k1_chk36.eq_1 v329 v359))
theorem k1_idx36_inb : ∀ (v329 : IVec S16 32) (v359 : IVec S16 32) (k1_hw36 : k1_chk36 v329 v359), ∀ a x, ((![v329, v359] : Fin 2 → IVec S16 32) a x).toNat < S128x128.size a := fun v329 v359 k1_hw36 => k1_hw36

def k1_chk37 (v329 : IVec S16 32) (v368 : IVec S16 32) : Prop :=
  (∀ a x, ((![v329, v368] : Fin 2 → IVec S16 32) a x).toNat < S128x128.size a)
instance k1_chk37.dec : ∀ (v329 : IVec S16 32) (v368 : IVec S16 32), Decidable (k1_chk37 v329 v368) := fun v329 v368 => decidable_of_iff' _ (Iff.of_eq (k1_chk37.eq_1 v329 v368))
theorem k1_idx37_inb : ∀ (v329 : IVec S16 32) (v368 : IVec S16 32) (k1_hw37 : k1_chk37 v329 v368), ∀ a x, ((![v329, v368] : Fin 2 → IVec S16 32) a x).toNat < S128x128.size a := fun v329 v368 k1_hw37 => k1_hw37

def k1_chk38 (v329 : IVec S16 32) (v377 : IVec S16 32) : Prop :=
  (∀ a x, ((![v329, v377] : Fin 2 → IVec S16 32) a x).toNat < S128x128.size a)
instance k1_chk38.dec : ∀ (v329 : IVec S16 32) (v377 : IVec S16 32), Decidable (k1_chk38 v329 v377) := fun v329 v377 => decidable_of_iff' _ (Iff.of_eq (k1_chk38.eq_1 v329 v377))
theorem k1_idx38_inb : ∀ (v329 : IVec S16 32) (v377 : IVec S16 32) (k1_hw38 : k1_chk38 v329 v377), ∀ a x, ((![v329, v377] : Fin 2 → IVec S16 32) a x).toNat < S128x128.size a := fun v329 v377 k1_hw38 => k1_hw38

def k1_chk39 (v329 : IVec S16 32) (v386 : IVec S16 32) : Prop :=
  (∀ a x, ((![v329, v386] : Fin 2 → IVec S16 32) a x).toNat < S128x128.size a)
instance k1_chk39.dec : ∀ (v329 : IVec S16 32) (v386 : IVec S16 32), Decidable (k1_chk39 v329 v386) := fun v329 v386 => decidable_of_iff' _ (Iff.of_eq (k1_chk39.eq_1 v329 v386))
theorem k1_idx39_inb : ∀ (v329 : IVec S16 32) (v386 : IVec S16 32) (k1_hw39 : k1_chk39 v329 v386), ∀ a x, ((![v329, v386] : Fin 2 → IVec S16 32) a x).toNat < S128x128.size a := fun v329 v386 k1_hw39 => k1_hw39

def k1_chk40 (v329 : IVec S16 32) (v395 : IVec S16 32) : Prop :=
  (∀ a x, ((![v329, v395] : Fin 2 → IVec S16 32) a x).toNat < S128x128.size a)
instance k1_chk40.dec : ∀ (v329 : IVec S16 32) (v395 : IVec S16 32), Decidable (k1_chk40 v329 v395) := fun v329 v395 => decidable_of_iff' _ (Iff.of_eq (k1_chk40.eq_1 v329 v395))
theorem k1_idx40_inb : ∀ (v329 : IVec S16 32) (v395 : IVec S16 32) (k1_hw40 : k1_chk40 v329 v395), ∀ a x, ((![v329, v395] : Fin 2 → IVec S16 32) a x).toNat < S128x128.size a := fun v329 v395 k1_hw40 => k1_hw40

def k1_chk41 (v329 : IVec S16 32) (v404 : IVec S16 32) : Prop :=
  (∀ a x, ((![v329, v404] : Fin 2 → IVec S16 32) a x).toNat < S128x128.size a)
instance k1_chk41.dec : ∀ (v329 : IVec S16 32) (v404 : IVec S16 32), Decidable (k1_chk41 v329 v404) := fun v329 v404 => decidable_of_iff' _ (Iff.of_eq (k1_chk41.eq_1 v329 v404))
theorem k1_idx41_inb : ∀ (v329 : IVec S16 32) (v404 : IVec S16 32) (k1_hw41 : k1_chk41 v329 v404), ∀ a x, ((![v329, v404] : Fin 2 → IVec S16 32) a x).toNat < S128x128.size a := fun v329 v404 k1_hw41 => k1_hw41

def k1_chk42 (v329 : IVec S16 32) (v413 : IVec S16 32) : Prop :=
  (∀ a x, ((![v329, v413] : Fin 2 → IVec S16 32) a x).toNat < S128x128.size a)
instance k1_chk42.dec : ∀ (v329 : IVec S16 32) (v413 : IVec S16 32), Decidable (k1_chk42 v329 v413) := fun v329 v413 => decidable_of_iff' _ (Iff.of_eq (k1_chk42.eq_1 v329 v413))
theorem k1_idx42_inb : ∀ (v329 : IVec S16 32) (v413 : IVec S16 32) (k1_hw42 : k1_chk42 v329 v413), ∀ a x, ((![v329, v413] : Fin 2 → IVec S16 32) a x).toNat < S128x128.size a := fun v329 v413 k1_hw42 => k1_hw42

def k1_chk43 (v329 : IVec S16 32) (v422 : IVec S16 32) : Prop :=
  (∀ a x, ((![v329, v422] : Fin 2 → IVec S16 32) a x).toNat < S128x128.size a)
instance k1_chk43.dec : ∀ (v329 : IVec S16 32) (v422 : IVec S16 32), Decidable (k1_chk43 v329 v422) := fun v329 v422 => decidable_of_iff' _ (Iff.of_eq (k1_chk43.eq_1 v329 v422))
theorem k1_idx43_inb : ∀ (v329 : IVec S16 32) (v422 : IVec S16 32) (k1_hw43 : k1_chk43 v329 v422), ∀ a x, ((![v329, v422] : Fin 2 → IVec S16 32) a x).toNat < S128x128.size a := fun v329 v422 k1_hw43 => k1_hw43

def k1_chk44 (v329 : IVec S16 32) (v431 : IVec S16 32) : Prop :=
  (∀ a x, ((![v329, v431] : Fin 2 → IVec S16 32) a x).toNat < S128x128.size a)
instance k1_chk44.dec : ∀ (v329 : IVec S16 32) (v431 : IVec S16 32), Decidable (k1_chk44 v329 v431) := fun v329 v431 => decidable_of_iff' _ (Iff.of_eq (k1_chk44.eq_1 v329 v431))
theorem k1_idx44_inb : ∀ (v329 : IVec S16 32) (v431 : IVec S16 32) (k1_hw44 : k1_chk44 v329 v431), ∀ a x, ((![v329, v431] : Fin 2 → IVec S16 32) a x).toNat < S128x128.size a := fun v329 v431 k1_hw44 => k1_hw44

def k1_chk45 (v329 : IVec S16 32) (v440 : IVec S16 32) : Prop :=
  (∀ a x, ((![v329, v440] : Fin 2 → IVec S16 32) a x).toNat < S128x128.size a)
instance k1_chk45.dec : ∀ (v329 : IVec S16 32) (v440 : IVec S16 32), Decidable (k1_chk45 v329 v440) := fun v329 v440 => decidable_of_iff' _ (Iff.of_eq (k1_chk45.eq_1 v329 v440))
theorem k1_idx45_inb : ∀ (v329 : IVec S16 32) (v440 : IVec S16 32) (k1_hw45 : k1_chk45 v329 v440), ∀ a x, ((![v329, v440] : Fin 2 → IVec S16 32) a x).toNat < S128x128.size a := fun v329 v440 k1_hw45 => k1_hw45

def k1_chk46 (v329 : IVec S16 32) (v449 : IVec S16 32) : Prop :=
  (∀ a x, ((![v329, v449] : Fin 2 → IVec S16 32) a x).toNat < S128x128.size a)
instance k1_chk46.dec : ∀ (v329 : IVec S16 32) (v449 : IVec S16 32), Decidable (k1_chk46 v329 v449) := fun v329 v449 => decidable_of_iff' _ (Iff.of_eq (k1_chk46.eq_1 v329 v449))
theorem k1_idx46_inb : ∀ (v329 : IVec S16 32) (v449 : IVec S16 32) (k1_hw46 : k1_chk46 v329 v449), ∀ a x, ((![v329, v449] : Fin 2 → IVec S16 32) a x).toNat < S128x128.size a := fun v329 v449 k1_hw46 => k1_hw46

def k1_chk47 (v329 : IVec S16 32) (v458 : IVec S16 32) : Prop :=
  (∀ a x, ((![v329, v458] : Fin 2 → IVec S16 32) a x).toNat < S128x128.size a)
instance k1_chk47.dec : ∀ (v329 : IVec S16 32) (v458 : IVec S16 32), Decidable (k1_chk47 v329 v458) := fun v329 v458 => decidable_of_iff' _ (Iff.of_eq (k1_chk47.eq_1 v329 v458))
theorem k1_idx47_inb : ∀ (v329 : IVec S16 32) (v458 : IVec S16 32) (k1_hw47 : k1_chk47 v329 v458), ∀ a x, ((![v329, v458] : Fin 2 → IVec S16 32) a x).toNat < S128x128.size a := fun v329 v458 k1_hw47 => k1_hw47

def k1_chk48 (v329 : IVec S16 32) (v467 : IVec S16 32) : Prop :=
  (∀ a x, ((![v329, v467] : Fin 2 → IVec S16 32) a x).toNat < S128x128.size a)
instance k1_chk48.dec : ∀ (v329 : IVec S16 32) (v467 : IVec S16 32), Decidable (k1_chk48 v329 v467) := fun v329 v467 => decidable_of_iff' _ (Iff.of_eq (k1_chk48.eq_1 v329 v467))
theorem k1_idx48_inb : ∀ (v329 : IVec S16 32) (v467 : IVec S16 32) (k1_hw48 : k1_chk48 v329 v467), ∀ a x, ((![v329, v467] : Fin 2 → IVec S16 32) a x).toNat < S128x128.size a := fun v329 v467 k1_hw48 => k1_hw48

def k1_chk49 (v475 : IVec S16 32) (v478 : IVec S16 32) : Prop :=
  (∀ a x, ((![v475, v478] : Fin 2 → IVec S16 32) a x).toNat < S128x128.size a)
instance k1_chk49.dec : ∀ (v475 : IVec S16 32) (v478 : IVec S16 32), Decidable (k1_chk49 v475 v478) := fun v475 v478 => decidable_of_iff' _ (Iff.of_eq (k1_chk49.eq_1 v475 v478))
theorem k1_idx49_inb : ∀ (v475 : IVec S16 32) (v478 : IVec S16 32) (k1_hw49 : k1_chk49 v475 v478), ∀ a x, ((![v475, v478] : Fin 2 → IVec S16 32) a x).toNat < S128x128.size a := fun v475 v478 k1_hw49 => k1_hw49

def k1_chk50 (v475 : IVec S16 32) (v487 : IVec S16 32) : Prop :=
  (∀ a x, ((![v475, v487] : Fin 2 → IVec S16 32) a x).toNat < S128x128.size a)
instance k1_chk50.dec : ∀ (v475 : IVec S16 32) (v487 : IVec S16 32), Decidable (k1_chk50 v475 v487) := fun v475 v487 => decidable_of_iff' _ (Iff.of_eq (k1_chk50.eq_1 v475 v487))
theorem k1_idx50_inb : ∀ (v475 : IVec S16 32) (v487 : IVec S16 32) (k1_hw50 : k1_chk50 v475 v487), ∀ a x, ((![v475, v487] : Fin 2 → IVec S16 32) a x).toNat < S128x128.size a := fun v475 v487 k1_hw50 => k1_hw50

def k1_chk51 (v475 : IVec S16 32) (v496 : IVec S16 32) : Prop :=
  (∀ a x, ((![v475, v496] : Fin 2 → IVec S16 32) a x).toNat < S128x128.size a)
instance k1_chk51.dec : ∀ (v475 : IVec S16 32) (v496 : IVec S16 32), Decidable (k1_chk51 v475 v496) := fun v475 v496 => decidable_of_iff' _ (Iff.of_eq (k1_chk51.eq_1 v475 v496))
theorem k1_idx51_inb : ∀ (v475 : IVec S16 32) (v496 : IVec S16 32) (k1_hw51 : k1_chk51 v475 v496), ∀ a x, ((![v475, v496] : Fin 2 → IVec S16 32) a x).toNat < S128x128.size a := fun v475 v496 k1_hw51 => k1_hw51

def k1_chk52 (v475 : IVec S16 32) (v505 : IVec S16 32) : Prop :=
  (∀ a x, ((![v475, v505] : Fin 2 → IVec S16 32) a x).toNat < S128x128.size a)
instance k1_chk52.dec : ∀ (v475 : IVec S16 32) (v505 : IVec S16 32), Decidable (k1_chk52 v475 v505) := fun v475 v505 => decidable_of_iff' _ (Iff.of_eq (k1_chk52.eq_1 v475 v505))
theorem k1_idx52_inb : ∀ (v475 : IVec S16 32) (v505 : IVec S16 32) (k1_hw52 : k1_chk52 v475 v505), ∀ a x, ((![v475, v505] : Fin 2 → IVec S16 32) a x).toNat < S128x128.size a := fun v475 v505 k1_hw52 => k1_hw52

def k1_chk53 (v475 : IVec S16 32) (v514 : IVec S16 32) : Prop :=
  (∀ a x, ((![v475, v514] : Fin 2 → IVec S16 32) a x).toNat < S128x128.size a)
instance k1_chk53.dec : ∀ (v475 : IVec S16 32) (v514 : IVec S16 32), Decidable (k1_chk53 v475 v514) := fun v475 v514 => decidable_of_iff' _ (Iff.of_eq (k1_chk53.eq_1 v475 v514))
theorem k1_idx53_inb : ∀ (v475 : IVec S16 32) (v514 : IVec S16 32) (k1_hw53 : k1_chk53 v475 v514), ∀ a x, ((![v475, v514] : Fin 2 → IVec S16 32) a x).toNat < S128x128.size a := fun v475 v514 k1_hw53 => k1_hw53

def k1_chk54 (v475 : IVec S16 32) (v523 : IVec S16 32) : Prop :=
  (∀ a x, ((![v475, v523] : Fin 2 → IVec S16 32) a x).toNat < S128x128.size a)
instance k1_chk54.dec : ∀ (v475 : IVec S16 32) (v523 : IVec S16 32), Decidable (k1_chk54 v475 v523) := fun v475 v523 => decidable_of_iff' _ (Iff.of_eq (k1_chk54.eq_1 v475 v523))
theorem k1_idx54_inb : ∀ (v475 : IVec S16 32) (v523 : IVec S16 32) (k1_hw54 : k1_chk54 v475 v523), ∀ a x, ((![v475, v523] : Fin 2 → IVec S16 32) a x).toNat < S128x128.size a := fun v475 v523 k1_hw54 => k1_hw54

def k1_chk55 (v475 : IVec S16 32) (v532 : IVec S16 32) : Prop :=
  (∀ a x, ((![v475, v532] : Fin 2 → IVec S16 32) a x).toNat < S128x128.size a)
instance k1_chk55.dec : ∀ (v475 : IVec S16 32) (v532 : IVec S16 32), Decidable (k1_chk55 v475 v532) := fun v475 v532 => decidable_of_iff' _ (Iff.of_eq (k1_chk55.eq_1 v475 v532))
theorem k1_idx55_inb : ∀ (v475 : IVec S16 32) (v532 : IVec S16 32) (k1_hw55 : k1_chk55 v475 v532), ∀ a x, ((![v475, v532] : Fin 2 → IVec S16 32) a x).toNat < S128x128.size a := fun v475 v532 k1_hw55 => k1_hw55

def k1_chk56 (v475 : IVec S16 32) (v541 : IVec S16 32) : Prop :=
  (∀ a x, ((![v475, v541] : Fin 2 → IVec S16 32) a x).toNat < S128x128.size a)
instance k1_chk56.dec : ∀ (v475 : IVec S16 32) (v541 : IVec S16 32), Decidable (k1_chk56 v475 v541) := fun v475 v541 => decidable_of_iff' _ (Iff.of_eq (k1_chk56.eq_1 v475 v541))
theorem k1_idx56_inb : ∀ (v475 : IVec S16 32) (v541 : IVec S16 32) (k1_hw56 : k1_chk56 v475 v541), ∀ a x, ((![v475, v541] : Fin 2 → IVec S16 32) a x).toNat < S128x128.size a := fun v475 v541 k1_hw56 => k1_hw56

def k1_chk57 (v475 : IVec S16 32) (v550 : IVec S16 32) : Prop :=
  (∀ a x, ((![v475, v550] : Fin 2 → IVec S16 32) a x).toNat < S128x128.size a)
instance k1_chk57.dec : ∀ (v475 : IVec S16 32) (v550 : IVec S16 32), Decidable (k1_chk57 v475 v550) := fun v475 v550 => decidable_of_iff' _ (Iff.of_eq (k1_chk57.eq_1 v475 v550))
theorem k1_idx57_inb : ∀ (v475 : IVec S16 32) (v550 : IVec S16 32) (k1_hw57 : k1_chk57 v475 v550), ∀ a x, ((![v475, v550] : Fin 2 → IVec S16 32) a x).toNat < S128x128.size a := fun v475 v550 k1_hw57 => k1_hw57

def k1_chk58 (v475 : IVec S16 32) (v559 : IVec S16 32) : Prop :=
  (∀ a x, ((![v475, v559] : Fin 2 → IVec S16 32) a x).toNat < S128x128.size a)
instance k1_chk58.dec : ∀ (v475 : IVec S16 32) (v559 : IVec S16 32), Decidable (k1_chk58 v475 v559) := fun v475 v559 => decidable_of_iff' _ (Iff.of_eq (k1_chk58.eq_1 v475 v559))
theorem k1_idx58_inb : ∀ (v475 : IVec S16 32) (v559 : IVec S16 32) (k1_hw58 : k1_chk58 v475 v559), ∀ a x, ((![v475, v559] : Fin 2 → IVec S16 32) a x).toNat < S128x128.size a := fun v475 v559 k1_hw58 => k1_hw58

def k1_chk59 (v475 : IVec S16 32) (v568 : IVec S16 32) : Prop :=
  (∀ a x, ((![v475, v568] : Fin 2 → IVec S16 32) a x).toNat < S128x128.size a)
instance k1_chk59.dec : ∀ (v475 : IVec S16 32) (v568 : IVec S16 32), Decidable (k1_chk59 v475 v568) := fun v475 v568 => decidable_of_iff' _ (Iff.of_eq (k1_chk59.eq_1 v475 v568))
theorem k1_idx59_inb : ∀ (v475 : IVec S16 32) (v568 : IVec S16 32) (k1_hw59 : k1_chk59 v475 v568), ∀ a x, ((![v475, v568] : Fin 2 → IVec S16 32) a x).toNat < S128x128.size a := fun v475 v568 k1_hw59 => k1_hw59

def k1_chk60 (v475 : IVec S16 32) (v577 : IVec S16 32) : Prop :=
  (∀ a x, ((![v475, v577] : Fin 2 → IVec S16 32) a x).toNat < S128x128.size a)
instance k1_chk60.dec : ∀ (v475 : IVec S16 32) (v577 : IVec S16 32), Decidable (k1_chk60 v475 v577) := fun v475 v577 => decidable_of_iff' _ (Iff.of_eq (k1_chk60.eq_1 v475 v577))
theorem k1_idx60_inb : ∀ (v475 : IVec S16 32) (v577 : IVec S16 32) (k1_hw60 : k1_chk60 v475 v577), ∀ a x, ((![v475, v577] : Fin 2 → IVec S16 32) a x).toNat < S128x128.size a := fun v475 v577 k1_hw60 => k1_hw60

def k1_chk61 (v475 : IVec S16 32) (v586 : IVec S16 32) : Prop :=
  (∀ a x, ((![v475, v586] : Fin 2 → IVec S16 32) a x).toNat < S128x128.size a)
instance k1_chk61.dec : ∀ (v475 : IVec S16 32) (v586 : IVec S16 32), Decidable (k1_chk61 v475 v586) := fun v475 v586 => decidable_of_iff' _ (Iff.of_eq (k1_chk61.eq_1 v475 v586))
theorem k1_idx61_inb : ∀ (v475 : IVec S16 32) (v586 : IVec S16 32) (k1_hw61 : k1_chk61 v475 v586), ∀ a x, ((![v475, v586] : Fin 2 → IVec S16 32) a x).toNat < S128x128.size a := fun v475 v586 k1_hw61 => k1_hw61

def k1_chk62 (v475 : IVec S16 32) (v595 : IVec S16 32) : Prop :=
  (∀ a x, ((![v475, v595] : Fin 2 → IVec S16 32) a x).toNat < S128x128.size a)
instance k1_chk62.dec : ∀ (v475 : IVec S16 32) (v595 : IVec S16 32), Decidable (k1_chk62 v475 v595) := fun v475 v595 => decidable_of_iff' _ (Iff.of_eq (k1_chk62.eq_1 v475 v595))
theorem k1_idx62_inb : ∀ (v475 : IVec S16 32) (v595 : IVec S16 32) (k1_hw62 : k1_chk62 v475 v595), ∀ a x, ((![v475, v595] : Fin 2 → IVec S16 32) a x).toNat < S128x128.size a := fun v475 v595 k1_hw62 => k1_hw62

def k1_chk63 (v475 : IVec S16 32) (v604 : IVec S16 32) : Prop :=
  (∀ a x, ((![v475, v604] : Fin 2 → IVec S16 32) a x).toNat < S128x128.size a)
instance k1_chk63.dec : ∀ (v475 : IVec S16 32) (v604 : IVec S16 32), Decidable (k1_chk63 v475 v604) := fun v475 v604 => decidable_of_iff' _ (Iff.of_eq (k1_chk63.eq_1 v475 v604))
theorem k1_idx63_inb : ∀ (v475 : IVec S16 32) (v604 : IVec S16 32) (k1_hw63 : k1_chk63 v475 v604), ∀ a x, ((![v475, v604] : Fin 2 → IVec S16 32) a x).toNat < S128x128.size a := fun v475 v604 k1_hw63 => k1_hw63

def k1_chk64 (v475 : IVec S16 32) (v613 : IVec S16 32) : Prop :=
  (∀ a x, ((![v475, v613] : Fin 2 → IVec S16 32) a x).toNat < S128x128.size a)
instance k1_chk64.dec : ∀ (v475 : IVec S16 32) (v613 : IVec S16 32), Decidable (k1_chk64 v475 v613) := fun v475 v613 => decidable_of_iff' _ (Iff.of_eq (k1_chk64.eq_1 v475 v613))
theorem k1_idx64_inb : ∀ (v475 : IVec S16 32) (v613 : IVec S16 32) (k1_hw64 : k1_chk64 v475 v613), ∀ a x, ((![v475, v613] : Fin 2 → IVec S16 32) a x).toNat < S128x128.size a := fun v475 v613 k1_hw64 => k1_hw64

def k1_chk65 (v621 : IVec S16 32) (v624 : IVec S16 32) : Prop :=
  (∀ a x, ((![v621, v624] : Fin 2 → IVec S16 32) a x).toNat < S128x128.size a)
instance k1_chk65.dec : ∀ (v621 : IVec S16 32) (v624 : IVec S16 32), Decidable (k1_chk65 v621 v624) := fun v621 v624 => decidable_of_iff' _ (Iff.of_eq (k1_chk65.eq_1 v621 v624))
theorem k1_idx65_inb : ∀ (v621 : IVec S16 32) (v624 : IVec S16 32) (k1_hw65 : k1_chk65 v621 v624), ∀ a x, ((![v621, v624] : Fin 2 → IVec S16 32) a x).toNat < S128x128.size a := fun v621 v624 k1_hw65 => k1_hw65

def k1_chk66 (v621 : IVec S16 32) (v633 : IVec S16 32) : Prop :=
  (∀ a x, ((![v621, v633] : Fin 2 → IVec S16 32) a x).toNat < S128x128.size a)
instance k1_chk66.dec : ∀ (v621 : IVec S16 32) (v633 : IVec S16 32), Decidable (k1_chk66 v621 v633) := fun v621 v633 => decidable_of_iff' _ (Iff.of_eq (k1_chk66.eq_1 v621 v633))
theorem k1_idx66_inb : ∀ (v621 : IVec S16 32) (v633 : IVec S16 32) (k1_hw66 : k1_chk66 v621 v633), ∀ a x, ((![v621, v633] : Fin 2 → IVec S16 32) a x).toNat < S128x128.size a := fun v621 v633 k1_hw66 => k1_hw66

def k1_chk67 (v621 : IVec S16 32) (v642 : IVec S16 32) : Prop :=
  (∀ a x, ((![v621, v642] : Fin 2 → IVec S16 32) a x).toNat < S128x128.size a)
instance k1_chk67.dec : ∀ (v621 : IVec S16 32) (v642 : IVec S16 32), Decidable (k1_chk67 v621 v642) := fun v621 v642 => decidable_of_iff' _ (Iff.of_eq (k1_chk67.eq_1 v621 v642))
theorem k1_idx67_inb : ∀ (v621 : IVec S16 32) (v642 : IVec S16 32) (k1_hw67 : k1_chk67 v621 v642), ∀ a x, ((![v621, v642] : Fin 2 → IVec S16 32) a x).toNat < S128x128.size a := fun v621 v642 k1_hw67 => k1_hw67

def k1_chk68 (v621 : IVec S16 32) (v651 : IVec S16 32) : Prop :=
  (∀ a x, ((![v621, v651] : Fin 2 → IVec S16 32) a x).toNat < S128x128.size a)
instance k1_chk68.dec : ∀ (v621 : IVec S16 32) (v651 : IVec S16 32), Decidable (k1_chk68 v621 v651) := fun v621 v651 => decidable_of_iff' _ (Iff.of_eq (k1_chk68.eq_1 v621 v651))
theorem k1_idx68_inb : ∀ (v621 : IVec S16 32) (v651 : IVec S16 32) (k1_hw68 : k1_chk68 v621 v651), ∀ a x, ((![v621, v651] : Fin 2 → IVec S16 32) a x).toNat < S128x128.size a := fun v621 v651 k1_hw68 => k1_hw68

def k1_chk69 (v621 : IVec S16 32) (v660 : IVec S16 32) : Prop :=
  (∀ a x, ((![v621, v660] : Fin 2 → IVec S16 32) a x).toNat < S128x128.size a)
instance k1_chk69.dec : ∀ (v621 : IVec S16 32) (v660 : IVec S16 32), Decidable (k1_chk69 v621 v660) := fun v621 v660 => decidable_of_iff' _ (Iff.of_eq (k1_chk69.eq_1 v621 v660))
theorem k1_idx69_inb : ∀ (v621 : IVec S16 32) (v660 : IVec S16 32) (k1_hw69 : k1_chk69 v621 v660), ∀ a x, ((![v621, v660] : Fin 2 → IVec S16 32) a x).toNat < S128x128.size a := fun v621 v660 k1_hw69 => k1_hw69

def k1_chk70 (v621 : IVec S16 32) (v669 : IVec S16 32) : Prop :=
  (∀ a x, ((![v621, v669] : Fin 2 → IVec S16 32) a x).toNat < S128x128.size a)
instance k1_chk70.dec : ∀ (v621 : IVec S16 32) (v669 : IVec S16 32), Decidable (k1_chk70 v621 v669) := fun v621 v669 => decidable_of_iff' _ (Iff.of_eq (k1_chk70.eq_1 v621 v669))
theorem k1_idx70_inb : ∀ (v621 : IVec S16 32) (v669 : IVec S16 32) (k1_hw70 : k1_chk70 v621 v669), ∀ a x, ((![v621, v669] : Fin 2 → IVec S16 32) a x).toNat < S128x128.size a := fun v621 v669 k1_hw70 => k1_hw70

def k1_chk71 (v621 : IVec S16 32) (v678 : IVec S16 32) : Prop :=
  (∀ a x, ((![v621, v678] : Fin 2 → IVec S16 32) a x).toNat < S128x128.size a)
instance k1_chk71.dec : ∀ (v621 : IVec S16 32) (v678 : IVec S16 32), Decidable (k1_chk71 v621 v678) := fun v621 v678 => decidable_of_iff' _ (Iff.of_eq (k1_chk71.eq_1 v621 v678))
theorem k1_idx71_inb : ∀ (v621 : IVec S16 32) (v678 : IVec S16 32) (k1_hw71 : k1_chk71 v621 v678), ∀ a x, ((![v621, v678] : Fin 2 → IVec S16 32) a x).toNat < S128x128.size a := fun v621 v678 k1_hw71 => k1_hw71

def k1_chk72 (v621 : IVec S16 32) (v687 : IVec S16 32) : Prop :=
  (∀ a x, ((![v621, v687] : Fin 2 → IVec S16 32) a x).toNat < S128x128.size a)
instance k1_chk72.dec : ∀ (v621 : IVec S16 32) (v687 : IVec S16 32), Decidable (k1_chk72 v621 v687) := fun v621 v687 => decidable_of_iff' _ (Iff.of_eq (k1_chk72.eq_1 v621 v687))
theorem k1_idx72_inb : ∀ (v621 : IVec S16 32) (v687 : IVec S16 32) (k1_hw72 : k1_chk72 v621 v687), ∀ a x, ((![v621, v687] : Fin 2 → IVec S16 32) a x).toNat < S128x128.size a := fun v621 v687 k1_hw72 => k1_hw72

def k1_chk73 (v621 : IVec S16 32) (v696 : IVec S16 32) : Prop :=
  (∀ a x, ((![v621, v696] : Fin 2 → IVec S16 32) a x).toNat < S128x128.size a)
instance k1_chk73.dec : ∀ (v621 : IVec S16 32) (v696 : IVec S16 32), Decidable (k1_chk73 v621 v696) := fun v621 v696 => decidable_of_iff' _ (Iff.of_eq (k1_chk73.eq_1 v621 v696))
theorem k1_idx73_inb : ∀ (v621 : IVec S16 32) (v696 : IVec S16 32) (k1_hw73 : k1_chk73 v621 v696), ∀ a x, ((![v621, v696] : Fin 2 → IVec S16 32) a x).toNat < S128x128.size a := fun v621 v696 k1_hw73 => k1_hw73

def k1_chk74 (v621 : IVec S16 32) (v705 : IVec S16 32) : Prop :=
  (∀ a x, ((![v621, v705] : Fin 2 → IVec S16 32) a x).toNat < S128x128.size a)
instance k1_chk74.dec : ∀ (v621 : IVec S16 32) (v705 : IVec S16 32), Decidable (k1_chk74 v621 v705) := fun v621 v705 => decidable_of_iff' _ (Iff.of_eq (k1_chk74.eq_1 v621 v705))
theorem k1_idx74_inb : ∀ (v621 : IVec S16 32) (v705 : IVec S16 32) (k1_hw74 : k1_chk74 v621 v705), ∀ a x, ((![v621, v705] : Fin 2 → IVec S16 32) a x).toNat < S128x128.size a := fun v621 v705 k1_hw74 => k1_hw74

def k1_chk75 (v621 : IVec S16 32) (v714 : IVec S16 32) : Prop :=
  (∀ a x, ((![v621, v714] : Fin 2 → IVec S16 32) a x).toNat < S128x128.size a)
instance k1_chk75.dec : ∀ (v621 : IVec S16 32) (v714 : IVec S16 32), Decidable (k1_chk75 v621 v714) := fun v621 v714 => decidable_of_iff' _ (Iff.of_eq (k1_chk75.eq_1 v621 v714))
theorem k1_idx75_inb : ∀ (v621 : IVec S16 32) (v714 : IVec S16 32) (k1_hw75 : k1_chk75 v621 v714), ∀ a x, ((![v621, v714] : Fin 2 → IVec S16 32) a x).toNat < S128x128.size a := fun v621 v714 k1_hw75 => k1_hw75

def k1_chk76 (v621 : IVec S16 32) (v723 : IVec S16 32) : Prop :=
  (∀ a x, ((![v621, v723] : Fin 2 → IVec S16 32) a x).toNat < S128x128.size a)
instance k1_chk76.dec : ∀ (v621 : IVec S16 32) (v723 : IVec S16 32), Decidable (k1_chk76 v621 v723) := fun v621 v723 => decidable_of_iff' _ (Iff.of_eq (k1_chk76.eq_1 v621 v723))
theorem k1_idx76_inb : ∀ (v621 : IVec S16 32) (v723 : IVec S16 32) (k1_hw76 : k1_chk76 v621 v723), ∀ a x, ((![v621, v723] : Fin 2 → IVec S16 32) a x).toNat < S128x128.size a := fun v621 v723 k1_hw76 => k1_hw76

def k1_chk77 (v621 : IVec S16 32) (v732 : IVec S16 32) : Prop :=
  (∀ a x, ((![v621, v732] : Fin 2 → IVec S16 32) a x).toNat < S128x128.size a)
instance k1_chk77.dec : ∀ (v621 : IVec S16 32) (v732 : IVec S16 32), Decidable (k1_chk77 v621 v732) := fun v621 v732 => decidable_of_iff' _ (Iff.of_eq (k1_chk77.eq_1 v621 v732))
theorem k1_idx77_inb : ∀ (v621 : IVec S16 32) (v732 : IVec S16 32) (k1_hw77 : k1_chk77 v621 v732), ∀ a x, ((![v621, v732] : Fin 2 → IVec S16 32) a x).toNat < S128x128.size a := fun v621 v732 k1_hw77 => k1_hw77

def k1_chk78 (v621 : IVec S16 32) (v741 : IVec S16 32) : Prop :=
  (∀ a x, ((![v621, v741] : Fin 2 → IVec S16 32) a x).toNat < S128x128.size a)
instance k1_chk78.dec : ∀ (v621 : IVec S16 32) (v741 : IVec S16 32), Decidable (k1_chk78 v621 v741) := fun v621 v741 => decidable_of_iff' _ (Iff.of_eq (k1_chk78.eq_1 v621 v741))
theorem k1_idx78_inb : ∀ (v621 : IVec S16 32) (v741 : IVec S16 32) (k1_hw78 : k1_chk78 v621 v741), ∀ a x, ((![v621, v741] : Fin 2 → IVec S16 32) a x).toNat < S128x128.size a := fun v621 v741 k1_hw78 => k1_hw78

def k1_chk79 (v621 : IVec S16 32) (v750 : IVec S16 32) : Prop :=
  (∀ a x, ((![v621, v750] : Fin 2 → IVec S16 32) a x).toNat < S128x128.size a)
instance k1_chk79.dec : ∀ (v621 : IVec S16 32) (v750 : IVec S16 32), Decidable (k1_chk79 v621 v750) := fun v621 v750 => decidable_of_iff' _ (Iff.of_eq (k1_chk79.eq_1 v621 v750))
theorem k1_idx79_inb : ∀ (v621 : IVec S16 32) (v750 : IVec S16 32) (k1_hw79 : k1_chk79 v621 v750), ∀ a x, ((![v621, v750] : Fin 2 → IVec S16 32) a x).toNat < S128x128.size a := fun v621 v750 k1_hw79 => k1_hw79

def k1_chk80 (v621 : IVec S16 32) (v759 : IVec S16 32) : Prop :=
  (∀ a x, ((![v621, v759] : Fin 2 → IVec S16 32) a x).toNat < S128x128.size a)
instance k1_chk80.dec : ∀ (v621 : IVec S16 32) (v759 : IVec S16 32), Decidable (k1_chk80 v621 v759) := fun v621 v759 => decidable_of_iff' _ (Iff.of_eq (k1_chk80.eq_1 v621 v759))
theorem k1_idx80_inb : ∀ (v621 : IVec S16 32) (v759 : IVec S16 32) (k1_hw80 : k1_chk80 v621 v759), ∀ a x, ((![v621, v759] : Fin 2 → IVec S16 32) a x).toNat < S128x128.size a := fun v621 v759 k1_hw80 => k1_hw80

def k1_chk81 (v767 : IVec S16 32) (v770 : IVec S16 32) : Prop :=
  (∀ a x, ((![v767, v770] : Fin 2 → IVec S16 32) a x).toNat < S128x128.size a)
instance k1_chk81.dec : ∀ (v767 : IVec S16 32) (v770 : IVec S16 32), Decidable (k1_chk81 v767 v770) := fun v767 v770 => decidable_of_iff' _ (Iff.of_eq (k1_chk81.eq_1 v767 v770))
theorem k1_idx81_inb : ∀ (v767 : IVec S16 32) (v770 : IVec S16 32) (k1_hw81 : k1_chk81 v767 v770), ∀ a x, ((![v767, v770] : Fin 2 → IVec S16 32) a x).toNat < S128x128.size a := fun v767 v770 k1_hw81 => k1_hw81

def k1_chk82 (v767 : IVec S16 32) (v779 : IVec S16 32) : Prop :=
  (∀ a x, ((![v767, v779] : Fin 2 → IVec S16 32) a x).toNat < S128x128.size a)
instance k1_chk82.dec : ∀ (v767 : IVec S16 32) (v779 : IVec S16 32), Decidable (k1_chk82 v767 v779) := fun v767 v779 => decidable_of_iff' _ (Iff.of_eq (k1_chk82.eq_1 v767 v779))
theorem k1_idx82_inb : ∀ (v767 : IVec S16 32) (v779 : IVec S16 32) (k1_hw82 : k1_chk82 v767 v779), ∀ a x, ((![v767, v779] : Fin 2 → IVec S16 32) a x).toNat < S128x128.size a := fun v767 v779 k1_hw82 => k1_hw82

def k1_chk83 (v767 : IVec S16 32) (v788 : IVec S16 32) : Prop :=
  (∀ a x, ((![v767, v788] : Fin 2 → IVec S16 32) a x).toNat < S128x128.size a)
instance k1_chk83.dec : ∀ (v767 : IVec S16 32) (v788 : IVec S16 32), Decidable (k1_chk83 v767 v788) := fun v767 v788 => decidable_of_iff' _ (Iff.of_eq (k1_chk83.eq_1 v767 v788))
theorem k1_idx83_inb : ∀ (v767 : IVec S16 32) (v788 : IVec S16 32) (k1_hw83 : k1_chk83 v767 v788), ∀ a x, ((![v767, v788] : Fin 2 → IVec S16 32) a x).toNat < S128x128.size a := fun v767 v788 k1_hw83 => k1_hw83

def k1_chk84 (v767 : IVec S16 32) (v797 : IVec S16 32) : Prop :=
  (∀ a x, ((![v767, v797] : Fin 2 → IVec S16 32) a x).toNat < S128x128.size a)
instance k1_chk84.dec : ∀ (v767 : IVec S16 32) (v797 : IVec S16 32), Decidable (k1_chk84 v767 v797) := fun v767 v797 => decidable_of_iff' _ (Iff.of_eq (k1_chk84.eq_1 v767 v797))
theorem k1_idx84_inb : ∀ (v767 : IVec S16 32) (v797 : IVec S16 32) (k1_hw84 : k1_chk84 v767 v797), ∀ a x, ((![v767, v797] : Fin 2 → IVec S16 32) a x).toNat < S128x128.size a := fun v767 v797 k1_hw84 => k1_hw84

def k1_chk85 (v767 : IVec S16 32) (v806 : IVec S16 32) : Prop :=
  (∀ a x, ((![v767, v806] : Fin 2 → IVec S16 32) a x).toNat < S128x128.size a)
instance k1_chk85.dec : ∀ (v767 : IVec S16 32) (v806 : IVec S16 32), Decidable (k1_chk85 v767 v806) := fun v767 v806 => decidable_of_iff' _ (Iff.of_eq (k1_chk85.eq_1 v767 v806))
theorem k1_idx85_inb : ∀ (v767 : IVec S16 32) (v806 : IVec S16 32) (k1_hw85 : k1_chk85 v767 v806), ∀ a x, ((![v767, v806] : Fin 2 → IVec S16 32) a x).toNat < S128x128.size a := fun v767 v806 k1_hw85 => k1_hw85

def k1_chk86 (v767 : IVec S16 32) (v815 : IVec S16 32) : Prop :=
  (∀ a x, ((![v767, v815] : Fin 2 → IVec S16 32) a x).toNat < S128x128.size a)
instance k1_chk86.dec : ∀ (v767 : IVec S16 32) (v815 : IVec S16 32), Decidable (k1_chk86 v767 v815) := fun v767 v815 => decidable_of_iff' _ (Iff.of_eq (k1_chk86.eq_1 v767 v815))
theorem k1_idx86_inb : ∀ (v767 : IVec S16 32) (v815 : IVec S16 32) (k1_hw86 : k1_chk86 v767 v815), ∀ a x, ((![v767, v815] : Fin 2 → IVec S16 32) a x).toNat < S128x128.size a := fun v767 v815 k1_hw86 => k1_hw86

def k1_chk87 (v767 : IVec S16 32) (v824 : IVec S16 32) : Prop :=
  (∀ a x, ((![v767, v824] : Fin 2 → IVec S16 32) a x).toNat < S128x128.size a)
instance k1_chk87.dec : ∀ (v767 : IVec S16 32) (v824 : IVec S16 32), Decidable (k1_chk87 v767 v824) := fun v767 v824 => decidable_of_iff' _ (Iff.of_eq (k1_chk87.eq_1 v767 v824))
theorem k1_idx87_inb : ∀ (v767 : IVec S16 32) (v824 : IVec S16 32) (k1_hw87 : k1_chk87 v767 v824), ∀ a x, ((![v767, v824] : Fin 2 → IVec S16 32) a x).toNat < S128x128.size a := fun v767 v824 k1_hw87 => k1_hw87

def k1_chk88 (v767 : IVec S16 32) (v833 : IVec S16 32) : Prop :=
  (∀ a x, ((![v767, v833] : Fin 2 → IVec S16 32) a x).toNat < S128x128.size a)
instance k1_chk88.dec : ∀ (v767 : IVec S16 32) (v833 : IVec S16 32), Decidable (k1_chk88 v767 v833) := fun v767 v833 => decidable_of_iff' _ (Iff.of_eq (k1_chk88.eq_1 v767 v833))
theorem k1_idx88_inb : ∀ (v767 : IVec S16 32) (v833 : IVec S16 32) (k1_hw88 : k1_chk88 v767 v833), ∀ a x, ((![v767, v833] : Fin 2 → IVec S16 32) a x).toNat < S128x128.size a := fun v767 v833 k1_hw88 => k1_hw88

def k1_chk89 (v767 : IVec S16 32) (v842 : IVec S16 32) : Prop :=
  (∀ a x, ((![v767, v842] : Fin 2 → IVec S16 32) a x).toNat < S128x128.size a)
instance k1_chk89.dec : ∀ (v767 : IVec S16 32) (v842 : IVec S16 32), Decidable (k1_chk89 v767 v842) := fun v767 v842 => decidable_of_iff' _ (Iff.of_eq (k1_chk89.eq_1 v767 v842))
theorem k1_idx89_inb : ∀ (v767 : IVec S16 32) (v842 : IVec S16 32) (k1_hw89 : k1_chk89 v767 v842), ∀ a x, ((![v767, v842] : Fin 2 → IVec S16 32) a x).toNat < S128x128.size a := fun v767 v842 k1_hw89 => k1_hw89

def k1_chk90 (v767 : IVec S16 32) (v851 : IVec S16 32) : Prop :=
  (∀ a x, ((![v767, v851] : Fin 2 → IVec S16 32) a x).toNat < S128x128.size a)
instance k1_chk90.dec : ∀ (v767 : IVec S16 32) (v851 : IVec S16 32), Decidable (k1_chk90 v767 v851) := fun v767 v851 => decidable_of_iff' _ (Iff.of_eq (k1_chk90.eq_1 v767 v851))
theorem k1_idx90_inb : ∀ (v767 : IVec S16 32) (v851 : IVec S16 32) (k1_hw90 : k1_chk90 v767 v851), ∀ a x, ((![v767, v851] : Fin 2 → IVec S16 32) a x).toNat < S128x128.size a := fun v767 v851 k1_hw90 => k1_hw90

def k1_chk91 (v767 : IVec S16 32) (v860 : IVec S16 32) : Prop :=
  (∀ a x, ((![v767, v860] : Fin 2 → IVec S16 32) a x).toNat < S128x128.size a)
instance k1_chk91.dec : ∀ (v767 : IVec S16 32) (v860 : IVec S16 32), Decidable (k1_chk91 v767 v860) := fun v767 v860 => decidable_of_iff' _ (Iff.of_eq (k1_chk91.eq_1 v767 v860))
theorem k1_idx91_inb : ∀ (v767 : IVec S16 32) (v860 : IVec S16 32) (k1_hw91 : k1_chk91 v767 v860), ∀ a x, ((![v767, v860] : Fin 2 → IVec S16 32) a x).toNat < S128x128.size a := fun v767 v860 k1_hw91 => k1_hw91

def k1_chk92 (v767 : IVec S16 32) (v869 : IVec S16 32) : Prop :=
  (∀ a x, ((![v767, v869] : Fin 2 → IVec S16 32) a x).toNat < S128x128.size a)
instance k1_chk92.dec : ∀ (v767 : IVec S16 32) (v869 : IVec S16 32), Decidable (k1_chk92 v767 v869) := fun v767 v869 => decidable_of_iff' _ (Iff.of_eq (k1_chk92.eq_1 v767 v869))
theorem k1_idx92_inb : ∀ (v767 : IVec S16 32) (v869 : IVec S16 32) (k1_hw92 : k1_chk92 v767 v869), ∀ a x, ((![v767, v869] : Fin 2 → IVec S16 32) a x).toNat < S128x128.size a := fun v767 v869 k1_hw92 => k1_hw92

def k1_chk93 (v767 : IVec S16 32) (v878 : IVec S16 32) : Prop :=
  (∀ a x, ((![v767, v878] : Fin 2 → IVec S16 32) a x).toNat < S128x128.size a)
instance k1_chk93.dec : ∀ (v767 : IVec S16 32) (v878 : IVec S16 32), Decidable (k1_chk93 v767 v878) := fun v767 v878 => decidable_of_iff' _ (Iff.of_eq (k1_chk93.eq_1 v767 v878))
theorem k1_idx93_inb : ∀ (v767 : IVec S16 32) (v878 : IVec S16 32) (k1_hw93 : k1_chk93 v767 v878), ∀ a x, ((![v767, v878] : Fin 2 → IVec S16 32) a x).toNat < S128x128.size a := fun v767 v878 k1_hw93 => k1_hw93

def k1_chk94 (v767 : IVec S16 32) (v887 : IVec S16 32) : Prop :=
  (∀ a x, ((![v767, v887] : Fin 2 → IVec S16 32) a x).toNat < S128x128.size a)
instance k1_chk94.dec : ∀ (v767 : IVec S16 32) (v887 : IVec S16 32), Decidable (k1_chk94 v767 v887) := fun v767 v887 => decidable_of_iff' _ (Iff.of_eq (k1_chk94.eq_1 v767 v887))
theorem k1_idx94_inb : ∀ (v767 : IVec S16 32) (v887 : IVec S16 32) (k1_hw94 : k1_chk94 v767 v887), ∀ a x, ((![v767, v887] : Fin 2 → IVec S16 32) a x).toNat < S128x128.size a := fun v767 v887 k1_hw94 => k1_hw94

def k1_chk95 (v767 : IVec S16 32) (v896 : IVec S16 32) : Prop :=
  (∀ a x, ((![v767, v896] : Fin 2 → IVec S16 32) a x).toNat < S128x128.size a)
instance k1_chk95.dec : ∀ (v767 : IVec S16 32) (v896 : IVec S16 32), Decidable (k1_chk95 v767 v896) := fun v767 v896 => decidable_of_iff' _ (Iff.of_eq (k1_chk95.eq_1 v767 v896))
theorem k1_idx95_inb : ∀ (v767 : IVec S16 32) (v896 : IVec S16 32) (k1_hw95 : k1_chk95 v767 v896), ∀ a x, ((![v767, v896] : Fin 2 → IVec S16 32) a x).toNat < S128x128.size a := fun v767 v896 k1_hw95 => k1_hw95

def k1_chk96 (v767 : IVec S16 32) (v905 : IVec S16 32) : Prop :=
  (∀ a x, ((![v767, v905] : Fin 2 → IVec S16 32) a x).toNat < S128x128.size a)
instance k1_chk96.dec : ∀ (v767 : IVec S16 32) (v905 : IVec S16 32), Decidable (k1_chk96 v767 v905) := fun v767 v905 => decidable_of_iff' _ (Iff.of_eq (k1_chk96.eq_1 v767 v905))
theorem k1_idx96_inb : ∀ (v767 : IVec S16 32) (v905 : IVec S16 32) (k1_hw96 : k1_chk96 v767 v905), ∀ a x, ((![v767, v905] : Fin 2 → IVec S16 32) a x).toNat < S128x128.size a := fun v767 v905 k1_hw96 => k1_hw96

def k1_chk97 (v913 : IVec S16 32) (v916 : IVec S16 32) : Prop :=
  (∀ a x, ((![v913, v916] : Fin 2 → IVec S16 32) a x).toNat < S128x128.size a)
instance k1_chk97.dec : ∀ (v913 : IVec S16 32) (v916 : IVec S16 32), Decidable (k1_chk97 v913 v916) := fun v913 v916 => decidable_of_iff' _ (Iff.of_eq (k1_chk97.eq_1 v913 v916))
theorem k1_idx97_inb : ∀ (v913 : IVec S16 32) (v916 : IVec S16 32) (k1_hw97 : k1_chk97 v913 v916), ∀ a x, ((![v913, v916] : Fin 2 → IVec S16 32) a x).toNat < S128x128.size a := fun v913 v916 k1_hw97 => k1_hw97

def k1_chk98 (v913 : IVec S16 32) (v925 : IVec S16 32) : Prop :=
  (∀ a x, ((![v913, v925] : Fin 2 → IVec S16 32) a x).toNat < S128x128.size a)
instance k1_chk98.dec : ∀ (v913 : IVec S16 32) (v925 : IVec S16 32), Decidable (k1_chk98 v913 v925) := fun v913 v925 => decidable_of_iff' _ (Iff.of_eq (k1_chk98.eq_1 v913 v925))
theorem k1_idx98_inb : ∀ (v913 : IVec S16 32) (v925 : IVec S16 32) (k1_hw98 : k1_chk98 v913 v925), ∀ a x, ((![v913, v925] : Fin 2 → IVec S16 32) a x).toNat < S128x128.size a := fun v913 v925 k1_hw98 => k1_hw98

def k1_chk99 (v913 : IVec S16 32) (v934 : IVec S16 32) : Prop :=
  (∀ a x, ((![v913, v934] : Fin 2 → IVec S16 32) a x).toNat < S128x128.size a)
instance k1_chk99.dec : ∀ (v913 : IVec S16 32) (v934 : IVec S16 32), Decidable (k1_chk99 v913 v934) := fun v913 v934 => decidable_of_iff' _ (Iff.of_eq (k1_chk99.eq_1 v913 v934))
theorem k1_idx99_inb : ∀ (v913 : IVec S16 32) (v934 : IVec S16 32) (k1_hw99 : k1_chk99 v913 v934), ∀ a x, ((![v913, v934] : Fin 2 → IVec S16 32) a x).toNat < S128x128.size a := fun v913 v934 k1_hw99 => k1_hw99

def k1_chk100 (v913 : IVec S16 32) (v943 : IVec S16 32) : Prop :=
  (∀ a x, ((![v913, v943] : Fin 2 → IVec S16 32) a x).toNat < S128x128.size a)
instance k1_chk100.dec : ∀ (v913 : IVec S16 32) (v943 : IVec S16 32), Decidable (k1_chk100 v913 v943) := fun v913 v943 => decidable_of_iff' _ (Iff.of_eq (k1_chk100.eq_1 v913 v943))
theorem k1_idx100_inb : ∀ (v913 : IVec S16 32) (v943 : IVec S16 32) (k1_hw100 : k1_chk100 v913 v943), ∀ a x, ((![v913, v943] : Fin 2 → IVec S16 32) a x).toNat < S128x128.size a := fun v913 v943 k1_hw100 => k1_hw100

def k1_chk101 (v913 : IVec S16 32) (v952 : IVec S16 32) : Prop :=
  (∀ a x, ((![v913, v952] : Fin 2 → IVec S16 32) a x).toNat < S128x128.size a)
instance k1_chk101.dec : ∀ (v913 : IVec S16 32) (v952 : IVec S16 32), Decidable (k1_chk101 v913 v952) := fun v913 v952 => decidable_of_iff' _ (Iff.of_eq (k1_chk101.eq_1 v913 v952))
theorem k1_idx101_inb : ∀ (v913 : IVec S16 32) (v952 : IVec S16 32) (k1_hw101 : k1_chk101 v913 v952), ∀ a x, ((![v913, v952] : Fin 2 → IVec S16 32) a x).toNat < S128x128.size a := fun v913 v952 k1_hw101 => k1_hw101

def k1_chk102 (v913 : IVec S16 32) (v961 : IVec S16 32) : Prop :=
  (∀ a x, ((![v913, v961] : Fin 2 → IVec S16 32) a x).toNat < S128x128.size a)
instance k1_chk102.dec : ∀ (v913 : IVec S16 32) (v961 : IVec S16 32), Decidable (k1_chk102 v913 v961) := fun v913 v961 => decidable_of_iff' _ (Iff.of_eq (k1_chk102.eq_1 v913 v961))
theorem k1_idx102_inb : ∀ (v913 : IVec S16 32) (v961 : IVec S16 32) (k1_hw102 : k1_chk102 v913 v961), ∀ a x, ((![v913, v961] : Fin 2 → IVec S16 32) a x).toNat < S128x128.size a := fun v913 v961 k1_hw102 => k1_hw102

def k1_chk103 (v913 : IVec S16 32) (v970 : IVec S16 32) : Prop :=
  (∀ a x, ((![v913, v970] : Fin 2 → IVec S16 32) a x).toNat < S128x128.size a)
instance k1_chk103.dec : ∀ (v913 : IVec S16 32) (v970 : IVec S16 32), Decidable (k1_chk103 v913 v970) := fun v913 v970 => decidable_of_iff' _ (Iff.of_eq (k1_chk103.eq_1 v913 v970))
theorem k1_idx103_inb : ∀ (v913 : IVec S16 32) (v970 : IVec S16 32) (k1_hw103 : k1_chk103 v913 v970), ∀ a x, ((![v913, v970] : Fin 2 → IVec S16 32) a x).toNat < S128x128.size a := fun v913 v970 k1_hw103 => k1_hw103

def k1_chk104 (v913 : IVec S16 32) (v979 : IVec S16 32) : Prop :=
  (∀ a x, ((![v913, v979] : Fin 2 → IVec S16 32) a x).toNat < S128x128.size a)
instance k1_chk104.dec : ∀ (v913 : IVec S16 32) (v979 : IVec S16 32), Decidable (k1_chk104 v913 v979) := fun v913 v979 => decidable_of_iff' _ (Iff.of_eq (k1_chk104.eq_1 v913 v979))
theorem k1_idx104_inb : ∀ (v913 : IVec S16 32) (v979 : IVec S16 32) (k1_hw104 : k1_chk104 v913 v979), ∀ a x, ((![v913, v979] : Fin 2 → IVec S16 32) a x).toNat < S128x128.size a := fun v913 v979 k1_hw104 => k1_hw104

def k1_chk105 (v913 : IVec S16 32) (v988 : IVec S16 32) : Prop :=
  (∀ a x, ((![v913, v988] : Fin 2 → IVec S16 32) a x).toNat < S128x128.size a)
instance k1_chk105.dec : ∀ (v913 : IVec S16 32) (v988 : IVec S16 32), Decidable (k1_chk105 v913 v988) := fun v913 v988 => decidable_of_iff' _ (Iff.of_eq (k1_chk105.eq_1 v913 v988))
theorem k1_idx105_inb : ∀ (v913 : IVec S16 32) (v988 : IVec S16 32) (k1_hw105 : k1_chk105 v913 v988), ∀ a x, ((![v913, v988] : Fin 2 → IVec S16 32) a x).toNat < S128x128.size a := fun v913 v988 k1_hw105 => k1_hw105

def k1_chk106 (v913 : IVec S16 32) (v997 : IVec S16 32) : Prop :=
  (∀ a x, ((![v913, v997] : Fin 2 → IVec S16 32) a x).toNat < S128x128.size a)
instance k1_chk106.dec : ∀ (v913 : IVec S16 32) (v997 : IVec S16 32), Decidable (k1_chk106 v913 v997) := fun v913 v997 => decidable_of_iff' _ (Iff.of_eq (k1_chk106.eq_1 v913 v997))
theorem k1_idx106_inb : ∀ (v913 : IVec S16 32) (v997 : IVec S16 32) (k1_hw106 : k1_chk106 v913 v997), ∀ a x, ((![v913, v997] : Fin 2 → IVec S16 32) a x).toNat < S128x128.size a := fun v913 v997 k1_hw106 => k1_hw106

def k1_chk107 (v913 : IVec S16 32) (v1006 : IVec S16 32) : Prop :=
  (∀ a x, ((![v913, v1006] : Fin 2 → IVec S16 32) a x).toNat < S128x128.size a)
instance k1_chk107.dec : ∀ (v913 : IVec S16 32) (v1006 : IVec S16 32), Decidable (k1_chk107 v913 v1006) := fun v913 v1006 => decidable_of_iff' _ (Iff.of_eq (k1_chk107.eq_1 v913 v1006))
theorem k1_idx107_inb : ∀ (v913 : IVec S16 32) (v1006 : IVec S16 32) (k1_hw107 : k1_chk107 v913 v1006), ∀ a x, ((![v913, v1006] : Fin 2 → IVec S16 32) a x).toNat < S128x128.size a := fun v913 v1006 k1_hw107 => k1_hw107

def k1_chk108 (v913 : IVec S16 32) (v1015 : IVec S16 32) : Prop :=
  (∀ a x, ((![v913, v1015] : Fin 2 → IVec S16 32) a x).toNat < S128x128.size a)
instance k1_chk108.dec : ∀ (v913 : IVec S16 32) (v1015 : IVec S16 32), Decidable (k1_chk108 v913 v1015) := fun v913 v1015 => decidable_of_iff' _ (Iff.of_eq (k1_chk108.eq_1 v913 v1015))
theorem k1_idx108_inb : ∀ (v913 : IVec S16 32) (v1015 : IVec S16 32) (k1_hw108 : k1_chk108 v913 v1015), ∀ a x, ((![v913, v1015] : Fin 2 → IVec S16 32) a x).toNat < S128x128.size a := fun v913 v1015 k1_hw108 => k1_hw108

def k1_chk109 (v913 : IVec S16 32) (v1024 : IVec S16 32) : Prop :=
  (∀ a x, ((![v913, v1024] : Fin 2 → IVec S16 32) a x).toNat < S128x128.size a)
instance k1_chk109.dec : ∀ (v913 : IVec S16 32) (v1024 : IVec S16 32), Decidable (k1_chk109 v913 v1024) := fun v913 v1024 => decidable_of_iff' _ (Iff.of_eq (k1_chk109.eq_1 v913 v1024))
theorem k1_idx109_inb : ∀ (v913 : IVec S16 32) (v1024 : IVec S16 32) (k1_hw109 : k1_chk109 v913 v1024), ∀ a x, ((![v913, v1024] : Fin 2 → IVec S16 32) a x).toNat < S128x128.size a := fun v913 v1024 k1_hw109 => k1_hw109

def k1_chk110 (v913 : IVec S16 32) (v1033 : IVec S16 32) : Prop :=
  (∀ a x, ((![v913, v1033] : Fin 2 → IVec S16 32) a x).toNat < S128x128.size a)
instance k1_chk110.dec : ∀ (v913 : IVec S16 32) (v1033 : IVec S16 32), Decidable (k1_chk110 v913 v1033) := fun v913 v1033 => decidable_of_iff' _ (Iff.of_eq (k1_chk110.eq_1 v913 v1033))
theorem k1_idx110_inb : ∀ (v913 : IVec S16 32) (v1033 : IVec S16 32) (k1_hw110 : k1_chk110 v913 v1033), ∀ a x, ((![v913, v1033] : Fin 2 → IVec S16 32) a x).toNat < S128x128.size a := fun v913 v1033 k1_hw110 => k1_hw110

def k1_chk111 (v913 : IVec S16 32) (v1042 : IVec S16 32) : Prop :=
  (∀ a x, ((![v913, v1042] : Fin 2 → IVec S16 32) a x).toNat < S128x128.size a)
instance k1_chk111.dec : ∀ (v913 : IVec S16 32) (v1042 : IVec S16 32), Decidable (k1_chk111 v913 v1042) := fun v913 v1042 => decidable_of_iff' _ (Iff.of_eq (k1_chk111.eq_1 v913 v1042))
theorem k1_idx111_inb : ∀ (v913 : IVec S16 32) (v1042 : IVec S16 32) (k1_hw111 : k1_chk111 v913 v1042), ∀ a x, ((![v913, v1042] : Fin 2 → IVec S16 32) a x).toNat < S128x128.size a := fun v913 v1042 k1_hw111 => k1_hw111

def k1_chk112 (v913 : IVec S16 32) (v1051 : IVec S16 32) : Prop :=
  (∀ a x, ((![v913, v1051] : Fin 2 → IVec S16 32) a x).toNat < S128x128.size a)
instance k1_chk112.dec : ∀ (v913 : IVec S16 32) (v1051 : IVec S16 32), Decidable (k1_chk112 v913 v1051) := fun v913 v1051 => decidable_of_iff' _ (Iff.of_eq (k1_chk112.eq_1 v913 v1051))
theorem k1_idx112_inb : ∀ (v913 : IVec S16 32) (v1051 : IVec S16 32) (k1_hw112 : k1_chk112 v913 v1051), ∀ a x, ((![v913, v1051] : Fin 2 → IVec S16 32) a x).toNat < S128x128.size a := fun v913 v1051 k1_hw112 => k1_hw112

def k1_chk113 (v1059 : IVec S16 32) (v1062 : IVec S16 32) : Prop :=
  (∀ a x, ((![v1059, v1062] : Fin 2 → IVec S16 32) a x).toNat < S128x128.size a)
instance k1_chk113.dec : ∀ (v1059 : IVec S16 32) (v1062 : IVec S16 32), Decidable (k1_chk113 v1059 v1062) := fun v1059 v1062 => decidable_of_iff' _ (Iff.of_eq (k1_chk113.eq_1 v1059 v1062))
theorem k1_idx113_inb : ∀ (v1059 : IVec S16 32) (v1062 : IVec S16 32) (k1_hw113 : k1_chk113 v1059 v1062), ∀ a x, ((![v1059, v1062] : Fin 2 → IVec S16 32) a x).toNat < S128x128.size a := fun v1059 v1062 k1_hw113 => k1_hw113

def k1_chk114 (v1059 : IVec S16 32) (v1071 : IVec S16 32) : Prop :=
  (∀ a x, ((![v1059, v1071] : Fin 2 → IVec S16 32) a x).toNat < S128x128.size a)
instance k1_chk114.dec : ∀ (v1059 : IVec S16 32) (v1071 : IVec S16 32), Decidable (k1_chk114 v1059 v1071) := fun v1059 v1071 => decidable_of_iff' _ (Iff.of_eq (k1_chk114.eq_1 v1059 v1071))
theorem k1_idx114_inb : ∀ (v1059 : IVec S16 32) (v1071 : IVec S16 32) (k1_hw114 : k1_chk114 v1059 v1071), ∀ a x, ((![v1059, v1071] : Fin 2 → IVec S16 32) a x).toNat < S128x128.size a := fun v1059 v1071 k1_hw114 => k1_hw114

def k1_chk115 (v1059 : IVec S16 32) (v1080 : IVec S16 32) : Prop :=
  (∀ a x, ((![v1059, v1080] : Fin 2 → IVec S16 32) a x).toNat < S128x128.size a)
instance k1_chk115.dec : ∀ (v1059 : IVec S16 32) (v1080 : IVec S16 32), Decidable (k1_chk115 v1059 v1080) := fun v1059 v1080 => decidable_of_iff' _ (Iff.of_eq (k1_chk115.eq_1 v1059 v1080))
theorem k1_idx115_inb : ∀ (v1059 : IVec S16 32) (v1080 : IVec S16 32) (k1_hw115 : k1_chk115 v1059 v1080), ∀ a x, ((![v1059, v1080] : Fin 2 → IVec S16 32) a x).toNat < S128x128.size a := fun v1059 v1080 k1_hw115 => k1_hw115

def k1_chk116 (v1059 : IVec S16 32) (v1089 : IVec S16 32) : Prop :=
  (∀ a x, ((![v1059, v1089] : Fin 2 → IVec S16 32) a x).toNat < S128x128.size a)
instance k1_chk116.dec : ∀ (v1059 : IVec S16 32) (v1089 : IVec S16 32), Decidable (k1_chk116 v1059 v1089) := fun v1059 v1089 => decidable_of_iff' _ (Iff.of_eq (k1_chk116.eq_1 v1059 v1089))
theorem k1_idx116_inb : ∀ (v1059 : IVec S16 32) (v1089 : IVec S16 32) (k1_hw116 : k1_chk116 v1059 v1089), ∀ a x, ((![v1059, v1089] : Fin 2 → IVec S16 32) a x).toNat < S128x128.size a := fun v1059 v1089 k1_hw116 => k1_hw116

def k1_chk117 (v1059 : IVec S16 32) (v1098 : IVec S16 32) : Prop :=
  (∀ a x, ((![v1059, v1098] : Fin 2 → IVec S16 32) a x).toNat < S128x128.size a)
instance k1_chk117.dec : ∀ (v1059 : IVec S16 32) (v1098 : IVec S16 32), Decidable (k1_chk117 v1059 v1098) := fun v1059 v1098 => decidable_of_iff' _ (Iff.of_eq (k1_chk117.eq_1 v1059 v1098))
theorem k1_idx117_inb : ∀ (v1059 : IVec S16 32) (v1098 : IVec S16 32) (k1_hw117 : k1_chk117 v1059 v1098), ∀ a x, ((![v1059, v1098] : Fin 2 → IVec S16 32) a x).toNat < S128x128.size a := fun v1059 v1098 k1_hw117 => k1_hw117

def k1_chk118 (v1059 : IVec S16 32) (v1107 : IVec S16 32) : Prop :=
  (∀ a x, ((![v1059, v1107] : Fin 2 → IVec S16 32) a x).toNat < S128x128.size a)
instance k1_chk118.dec : ∀ (v1059 : IVec S16 32) (v1107 : IVec S16 32), Decidable (k1_chk118 v1059 v1107) := fun v1059 v1107 => decidable_of_iff' _ (Iff.of_eq (k1_chk118.eq_1 v1059 v1107))
theorem k1_idx118_inb : ∀ (v1059 : IVec S16 32) (v1107 : IVec S16 32) (k1_hw118 : k1_chk118 v1059 v1107), ∀ a x, ((![v1059, v1107] : Fin 2 → IVec S16 32) a x).toNat < S128x128.size a := fun v1059 v1107 k1_hw118 => k1_hw118

def k1_chk119 (v1059 : IVec S16 32) (v1116 : IVec S16 32) : Prop :=
  (∀ a x, ((![v1059, v1116] : Fin 2 → IVec S16 32) a x).toNat < S128x128.size a)
instance k1_chk119.dec : ∀ (v1059 : IVec S16 32) (v1116 : IVec S16 32), Decidable (k1_chk119 v1059 v1116) := fun v1059 v1116 => decidable_of_iff' _ (Iff.of_eq (k1_chk119.eq_1 v1059 v1116))
theorem k1_idx119_inb : ∀ (v1059 : IVec S16 32) (v1116 : IVec S16 32) (k1_hw119 : k1_chk119 v1059 v1116), ∀ a x, ((![v1059, v1116] : Fin 2 → IVec S16 32) a x).toNat < S128x128.size a := fun v1059 v1116 k1_hw119 => k1_hw119

def k1_chk120 (v1059 : IVec S16 32) (v1125 : IVec S16 32) : Prop :=
  (∀ a x, ((![v1059, v1125] : Fin 2 → IVec S16 32) a x).toNat < S128x128.size a)
instance k1_chk120.dec : ∀ (v1059 : IVec S16 32) (v1125 : IVec S16 32), Decidable (k1_chk120 v1059 v1125) := fun v1059 v1125 => decidable_of_iff' _ (Iff.of_eq (k1_chk120.eq_1 v1059 v1125))
theorem k1_idx120_inb : ∀ (v1059 : IVec S16 32) (v1125 : IVec S16 32) (k1_hw120 : k1_chk120 v1059 v1125), ∀ a x, ((![v1059, v1125] : Fin 2 → IVec S16 32) a x).toNat < S128x128.size a := fun v1059 v1125 k1_hw120 => k1_hw120

def k1_chk121 (v1059 : IVec S16 32) (v1134 : IVec S16 32) : Prop :=
  (∀ a x, ((![v1059, v1134] : Fin 2 → IVec S16 32) a x).toNat < S128x128.size a)
instance k1_chk121.dec : ∀ (v1059 : IVec S16 32) (v1134 : IVec S16 32), Decidable (k1_chk121 v1059 v1134) := fun v1059 v1134 => decidable_of_iff' _ (Iff.of_eq (k1_chk121.eq_1 v1059 v1134))
theorem k1_idx121_inb : ∀ (v1059 : IVec S16 32) (v1134 : IVec S16 32) (k1_hw121 : k1_chk121 v1059 v1134), ∀ a x, ((![v1059, v1134] : Fin 2 → IVec S16 32) a x).toNat < S128x128.size a := fun v1059 v1134 k1_hw121 => k1_hw121

def k1_chk122 (v1059 : IVec S16 32) (v1143 : IVec S16 32) : Prop :=
  (∀ a x, ((![v1059, v1143] : Fin 2 → IVec S16 32) a x).toNat < S128x128.size a)
instance k1_chk122.dec : ∀ (v1059 : IVec S16 32) (v1143 : IVec S16 32), Decidable (k1_chk122 v1059 v1143) := fun v1059 v1143 => decidable_of_iff' _ (Iff.of_eq (k1_chk122.eq_1 v1059 v1143))
theorem k1_idx122_inb : ∀ (v1059 : IVec S16 32) (v1143 : IVec S16 32) (k1_hw122 : k1_chk122 v1059 v1143), ∀ a x, ((![v1059, v1143] : Fin 2 → IVec S16 32) a x).toNat < S128x128.size a := fun v1059 v1143 k1_hw122 => k1_hw122

def k1_chk123 (v1059 : IVec S16 32) (v1152 : IVec S16 32) : Prop :=
  (∀ a x, ((![v1059, v1152] : Fin 2 → IVec S16 32) a x).toNat < S128x128.size a)
instance k1_chk123.dec : ∀ (v1059 : IVec S16 32) (v1152 : IVec S16 32), Decidable (k1_chk123 v1059 v1152) := fun v1059 v1152 => decidable_of_iff' _ (Iff.of_eq (k1_chk123.eq_1 v1059 v1152))
theorem k1_idx123_inb : ∀ (v1059 : IVec S16 32) (v1152 : IVec S16 32) (k1_hw123 : k1_chk123 v1059 v1152), ∀ a x, ((![v1059, v1152] : Fin 2 → IVec S16 32) a x).toNat < S128x128.size a := fun v1059 v1152 k1_hw123 => k1_hw123

def k1_chk124 (v1059 : IVec S16 32) (v1161 : IVec S16 32) : Prop :=
  (∀ a x, ((![v1059, v1161] : Fin 2 → IVec S16 32) a x).toNat < S128x128.size a)
instance k1_chk124.dec : ∀ (v1059 : IVec S16 32) (v1161 : IVec S16 32), Decidable (k1_chk124 v1059 v1161) := fun v1059 v1161 => decidable_of_iff' _ (Iff.of_eq (k1_chk124.eq_1 v1059 v1161))
theorem k1_idx124_inb : ∀ (v1059 : IVec S16 32) (v1161 : IVec S16 32) (k1_hw124 : k1_chk124 v1059 v1161), ∀ a x, ((![v1059, v1161] : Fin 2 → IVec S16 32) a x).toNat < S128x128.size a := fun v1059 v1161 k1_hw124 => k1_hw124

def k1_chk125 (v1059 : IVec S16 32) (v1170 : IVec S16 32) : Prop :=
  (∀ a x, ((![v1059, v1170] : Fin 2 → IVec S16 32) a x).toNat < S128x128.size a)
instance k1_chk125.dec : ∀ (v1059 : IVec S16 32) (v1170 : IVec S16 32), Decidable (k1_chk125 v1059 v1170) := fun v1059 v1170 => decidable_of_iff' _ (Iff.of_eq (k1_chk125.eq_1 v1059 v1170))
theorem k1_idx125_inb : ∀ (v1059 : IVec S16 32) (v1170 : IVec S16 32) (k1_hw125 : k1_chk125 v1059 v1170), ∀ a x, ((![v1059, v1170] : Fin 2 → IVec S16 32) a x).toNat < S128x128.size a := fun v1059 v1170 k1_hw125 => k1_hw125

def k1_chk126 (v1059 : IVec S16 32) (v1179 : IVec S16 32) : Prop :=
  (∀ a x, ((![v1059, v1179] : Fin 2 → IVec S16 32) a x).toNat < S128x128.size a)
instance k1_chk126.dec : ∀ (v1059 : IVec S16 32) (v1179 : IVec S16 32), Decidable (k1_chk126 v1059 v1179) := fun v1059 v1179 => decidable_of_iff' _ (Iff.of_eq (k1_chk126.eq_1 v1059 v1179))
theorem k1_idx126_inb : ∀ (v1059 : IVec S16 32) (v1179 : IVec S16 32) (k1_hw126 : k1_chk126 v1059 v1179), ∀ a x, ((![v1059, v1179] : Fin 2 → IVec S16 32) a x).toNat < S128x128.size a := fun v1059 v1179 k1_hw126 => k1_hw126

def k1_chk127 (v1059 : IVec S16 32) (v1188 : IVec S16 32) : Prop :=
  (∀ a x, ((![v1059, v1188] : Fin 2 → IVec S16 32) a x).toNat < S128x128.size a)
instance k1_chk127.dec : ∀ (v1059 : IVec S16 32) (v1188 : IVec S16 32), Decidable (k1_chk127 v1059 v1188) := fun v1059 v1188 => decidable_of_iff' _ (Iff.of_eq (k1_chk127.eq_1 v1059 v1188))
theorem k1_idx127_inb : ∀ (v1059 : IVec S16 32) (v1188 : IVec S16 32) (k1_hw127 : k1_chk127 v1059 v1188), ∀ a x, ((![v1059, v1188] : Fin 2 → IVec S16 32) a x).toNat < S128x128.size a := fun v1059 v1188 k1_hw127 => k1_hw127

def k1_chk128 (v1059 : IVec S16 32) (v1197 : IVec S16 32) : Prop :=
  (∀ a x, ((![v1059, v1197] : Fin 2 → IVec S16 32) a x).toNat < S128x128.size a)
instance k1_chk128.dec : ∀ (v1059 : IVec S16 32) (v1197 : IVec S16 32), Decidable (k1_chk128 v1059 v1197) := fun v1059 v1197 => decidable_of_iff' _ (Iff.of_eq (k1_chk128.eq_1 v1059 v1197))
theorem k1_idx128_inb : ∀ (v1059 : IVec S16 32) (v1197 : IVec S16 32) (k1_hw128 : k1_chk128 v1059 v1197), ∀ a x, ((![v1059, v1197] : Fin 2 → IVec S16 32) a x).toNat < S128x128.size a := fun v1059 v1197 k1_hw128 => k1_hw128
def k1_off4 (i : grid1.Coords) (k1_t1 : Fin k1_t1_loop.trips) (k1_t2 : Fin k1_t2_loop.trips) : Fin 3 → Nat :=
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_0 : BitVec 32 := 0#32
  let c1_i32 : BitVec 32 := 1#32
  let arg12 : BitVec 32 := Scf.iv c0_i32_0 c1_i32 k1_t1
  let v8 : BitVec 32 := Scalar.addi v2 arg12
  let c0_i32_10 : BitVec 32 := 0#32
  let c1_i32_11 : BitVec 32 := 1#32
  let arg14 : BitVec 32 := Scf.iv c0_i32_10 c1_i32_11 k1_t2
  let c128_i32_28 : BitVec 32 := 128#32
  let v32 : BitVec 32 := Scalar.muli arg14 c128_i32_28
  ![0, v8.toNat, v32.toNat]
@[reducible] def k1_t4_loop : Scf.Loop 32 :=
  let c0_i32_4 : BitVec 32 := 0#32
  let c32_i32_5 : BitVec 32 := 32#32
  let v6 : BitVec 32 := Scalar.addi c0_i32_4 c32_i32_5
  let c1_i32_6 : BitVec 32 := 1#32
  ⟨c0_i32_4, v6, c1_i32_6⟩
def k1_off5 (i : grid1.Coords) (k1_t4 : Fin k1_t4_loop.trips) : Fin 3 → Nat :=
  let c1_i32_8 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_4 : BitVec 32 := 0#32
  let c1_i32_6 : BitVec 32 := 1#32
  let arg12 : BitVec 32 := Scf.iv c0_i32_4 c1_i32_6 k1_t4
  let v8 : BitVec 32 := Scalar.addi v2 arg12
  let c0_i32_14_r3 : BitVec 32 := 0#32
  ![1, v8.toNat, 0]
@[reducible] def k1_t5_loop : Scf.Loop 32 :=
  let c0_i32_10 : BitVec 32 := 0#32
  let c4_i32 : BitVec 32 := 4#32
  let v9 : BitVec 32 := Scalar.addi c0_i32_10 c4_i32
  let c1_i32_11 : BitVec 32 := 1#32
  ⟨c0_i32_10, v9, c1_i32_11⟩
def k1_off6 (i : grid1.Coords) (k1_t4 : Fin k1_t4_loop.trips) (k1_t5 : Fin k1_t5_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_4 : BitVec 32 := 0#32
  let c1_i32_6 : BitVec 32 := 1#32
  let arg12 : BitVec 32 := Scf.iv c0_i32_4 c1_i32_6 k1_t4
  let v8 : BitVec 32 := Scalar.addi v2 arg12
  let c0_i32_10 : BitVec 32 := 0#32
  let c1_i32_11 : BitVec 32 := 1#32
  let arg14 : BitVec 32 := Scf.iv c0_i32_10 c1_i32_11 k1_t5
  let c128_i32 : BitVec 32 := 128#32
  let v11 : BitVec 32 := Scalar.muli arg14 c128_i32
  ![v8.toNat, v11.toNat]
@[reducible] def k1_t6_loop : Scf.Loop 32 :=
  let c0_i32_25 : BitVec 32 := 0#32
  let c8_i32 : BitVec 32 := 8#32
  let v22 : BitVec 32 := Scalar.addi c0_i32_25 c8_i32
  let c1_i32_26 : BitVec 32 := 1#32
  ⟨c0_i32_25, v22, c1_i32_26⟩
def k1_off7 (k1_t6 : Fin k1_t6_loop.trips) : Fin 1 → Nat :=
  let c0_i32_25 : BitVec 32 := 0#32
  let c1_i32_26 : BitVec 32 := 1#32
  let arg16 : BitVec 32 := Scf.iv c0_i32_25 c1_i32_26 k1_t6
  let c16_i32 : BitVec 32 := 16#32
  let v33 : BitVec 32 := Scalar.muli arg16 c16_i32
  let v34 : Index := Scalar.indexCast v33
  ![v34.toNat]

def k1_chk129 (v37 : IVec S16 32) (v40 : IVec S16 32) : Prop :=
  (∀ a x, ((![v37, v40] : Fin 2 → IVec S16 32) a x).toNat < S128x128.size a)
instance k1_chk129.dec : ∀ (v37 : IVec S16 32) (v40 : IVec S16 32), Decidable (k1_chk129 v37 v40) := fun v37 v40 => decidable_of_iff' _ (Iff.of_eq (k1_chk129.eq_1 v37 v40))
theorem k1_idx129_inb : ∀ (v37 : IVec S16 32) (v40 : IVec S16 32) (k1_hw129 : k1_chk129 v37 v40), ∀ a x, ((![v37, v40] : Fin 2 → IVec S16 32) a x).toNat < S128x128.size a := fun v37 v40 k1_hw129 => k1_hw129

def k1_chk130 (v37 : IVec S16 32) (v49 : IVec S16 32) : Prop :=
  (∀ a x, ((![v37, v49] : Fin 2 → IVec S16 32) a x).toNat < S128x128.size a)
instance k1_chk130.dec : ∀ (v37 : IVec S16 32) (v49 : IVec S16 32), Decidable (k1_chk130 v37 v49) := fun v37 v49 => decidable_of_iff' _ (Iff.of_eq (k1_chk130.eq_1 v37 v49))
theorem k1_idx130_inb : ∀ (v37 : IVec S16 32) (v49 : IVec S16 32) (k1_hw130 : k1_chk130 v37 v49), ∀ a x, ((![v37, v49] : Fin 2 → IVec S16 32) a x).toNat < S128x128.size a := fun v37 v49 k1_hw130 => k1_hw130

def k1_chk131 (v37 : IVec S16 32) (v58 : IVec S16 32) : Prop :=
  (∀ a x, ((![v37, v58] : Fin 2 → IVec S16 32) a x).toNat < S128x128.size a)
instance k1_chk131.dec : ∀ (v37 : IVec S16 32) (v58 : IVec S16 32), Decidable (k1_chk131 v37 v58) := fun v37 v58 => decidable_of_iff' _ (Iff.of_eq (k1_chk131.eq_1 v37 v58))
theorem k1_idx131_inb : ∀ (v37 : IVec S16 32) (v58 : IVec S16 32) (k1_hw131 : k1_chk131 v37 v58), ∀ a x, ((![v37, v58] : Fin 2 → IVec S16 32) a x).toNat < S128x128.size a := fun v37 v58 k1_hw131 => k1_hw131

def k1_chk132 (v37 : IVec S16 32) (v67 : IVec S16 32) : Prop :=
  (∀ a x, ((![v37, v67] : Fin 2 → IVec S16 32) a x).toNat < S128x128.size a)
instance k1_chk132.dec : ∀ (v37 : IVec S16 32) (v67 : IVec S16 32), Decidable (k1_chk132 v37 v67) := fun v37 v67 => decidable_of_iff' _ (Iff.of_eq (k1_chk132.eq_1 v37 v67))
theorem k1_idx132_inb : ∀ (v37 : IVec S16 32) (v67 : IVec S16 32) (k1_hw132 : k1_chk132 v37 v67), ∀ a x, ((![v37, v67] : Fin 2 → IVec S16 32) a x).toNat < S128x128.size a := fun v37 v67 k1_hw132 => k1_hw132

def k1_chk133 (v37 : IVec S16 32) (v76 : IVec S16 32) : Prop :=
  (∀ a x, ((![v37, v76] : Fin 2 → IVec S16 32) a x).toNat < S128x128.size a)
instance k1_chk133.dec : ∀ (v37 : IVec S16 32) (v76 : IVec S16 32), Decidable (k1_chk133 v37 v76) := fun v37 v76 => decidable_of_iff' _ (Iff.of_eq (k1_chk133.eq_1 v37 v76))
theorem k1_idx133_inb : ∀ (v37 : IVec S16 32) (v76 : IVec S16 32) (k1_hw133 : k1_chk133 v37 v76), ∀ a x, ((![v37, v76] : Fin 2 → IVec S16 32) a x).toNat < S128x128.size a := fun v37 v76 k1_hw133 => k1_hw133

def k1_chk134 (v37 : IVec S16 32) (v85 : IVec S16 32) : Prop :=
  (∀ a x, ((![v37, v85] : Fin 2 → IVec S16 32) a x).toNat < S128x128.size a)
instance k1_chk134.dec : ∀ (v37 : IVec S16 32) (v85 : IVec S16 32), Decidable (k1_chk134 v37 v85) := fun v37 v85 => decidable_of_iff' _ (Iff.of_eq (k1_chk134.eq_1 v37 v85))
theorem k1_idx134_inb : ∀ (v37 : IVec S16 32) (v85 : IVec S16 32) (k1_hw134 : k1_chk134 v37 v85), ∀ a x, ((![v37, v85] : Fin 2 → IVec S16 32) a x).toNat < S128x128.size a := fun v37 v85 k1_hw134 => k1_hw134

def k1_chk135 (v37 : IVec S16 32) (v94 : IVec S16 32) : Prop :=
  (∀ a x, ((![v37, v94] : Fin 2 → IVec S16 32) a x).toNat < S128x128.size a)
instance k1_chk135.dec : ∀ (v37 : IVec S16 32) (v94 : IVec S16 32), Decidable (k1_chk135 v37 v94) := fun v37 v94 => decidable_of_iff' _ (Iff.of_eq (k1_chk135.eq_1 v37 v94))
theorem k1_idx135_inb : ∀ (v37 : IVec S16 32) (v94 : IVec S16 32) (k1_hw135 : k1_chk135 v37 v94), ∀ a x, ((![v37, v94] : Fin 2 → IVec S16 32) a x).toNat < S128x128.size a := fun v37 v94 k1_hw135 => k1_hw135

def k1_chk136 (v37 : IVec S16 32) (v103 : IVec S16 32) : Prop :=
  (∀ a x, ((![v37, v103] : Fin 2 → IVec S16 32) a x).toNat < S128x128.size a)
instance k1_chk136.dec : ∀ (v37 : IVec S16 32) (v103 : IVec S16 32), Decidable (k1_chk136 v37 v103) := fun v37 v103 => decidable_of_iff' _ (Iff.of_eq (k1_chk136.eq_1 v37 v103))
theorem k1_idx136_inb : ∀ (v37 : IVec S16 32) (v103 : IVec S16 32) (k1_hw136 : k1_chk136 v37 v103), ∀ a x, ((![v37, v103] : Fin 2 → IVec S16 32) a x).toNat < S128x128.size a := fun v37 v103 k1_hw136 => k1_hw136

def k1_chk137 (v37 : IVec S16 32) (v112 : IVec S16 32) : Prop :=
  (∀ a x, ((![v37, v112] : Fin 2 → IVec S16 32) a x).toNat < S128x128.size a)
instance k1_chk137.dec : ∀ (v37 : IVec S16 32) (v112 : IVec S16 32), Decidable (k1_chk137 v37 v112) := fun v37 v112 => decidable_of_iff' _ (Iff.of_eq (k1_chk137.eq_1 v37 v112))
theorem k1_idx137_inb : ∀ (v37 : IVec S16 32) (v112 : IVec S16 32) (k1_hw137 : k1_chk137 v37 v112), ∀ a x, ((![v37, v112] : Fin 2 → IVec S16 32) a x).toNat < S128x128.size a := fun v37 v112 k1_hw137 => k1_hw137

def k1_chk138 (v37 : IVec S16 32) (v121 : IVec S16 32) : Prop :=
  (∀ a x, ((![v37, v121] : Fin 2 → IVec S16 32) a x).toNat < S128x128.size a)
instance k1_chk138.dec : ∀ (v37 : IVec S16 32) (v121 : IVec S16 32), Decidable (k1_chk138 v37 v121) := fun v37 v121 => decidable_of_iff' _ (Iff.of_eq (k1_chk138.eq_1 v37 v121))
theorem k1_idx138_inb : ∀ (v37 : IVec S16 32) (v121 : IVec S16 32) (k1_hw138 : k1_chk138 v37 v121), ∀ a x, ((![v37, v121] : Fin 2 → IVec S16 32) a x).toNat < S128x128.size a := fun v37 v121 k1_hw138 => k1_hw138

def k1_chk139 (v37 : IVec S16 32) (v130 : IVec S16 32) : Prop :=
  (∀ a x, ((![v37, v130] : Fin 2 → IVec S16 32) a x).toNat < S128x128.size a)
instance k1_chk139.dec : ∀ (v37 : IVec S16 32) (v130 : IVec S16 32), Decidable (k1_chk139 v37 v130) := fun v37 v130 => decidable_of_iff' _ (Iff.of_eq (k1_chk139.eq_1 v37 v130))
theorem k1_idx139_inb : ∀ (v37 : IVec S16 32) (v130 : IVec S16 32) (k1_hw139 : k1_chk139 v37 v130), ∀ a x, ((![v37, v130] : Fin 2 → IVec S16 32) a x).toNat < S128x128.size a := fun v37 v130 k1_hw139 => k1_hw139

def k1_chk140 (v37 : IVec S16 32) (v139 : IVec S16 32) : Prop :=
  (∀ a x, ((![v37, v139] : Fin 2 → IVec S16 32) a x).toNat < S128x128.size a)
instance k1_chk140.dec : ∀ (v37 : IVec S16 32) (v139 : IVec S16 32), Decidable (k1_chk140 v37 v139) := fun v37 v139 => decidable_of_iff' _ (Iff.of_eq (k1_chk140.eq_1 v37 v139))
theorem k1_idx140_inb : ∀ (v37 : IVec S16 32) (v139 : IVec S16 32) (k1_hw140 : k1_chk140 v37 v139), ∀ a x, ((![v37, v139] : Fin 2 → IVec S16 32) a x).toNat < S128x128.size a := fun v37 v139 k1_hw140 => k1_hw140

def k1_chk141 (v37 : IVec S16 32) (v148 : IVec S16 32) : Prop :=
  (∀ a x, ((![v37, v148] : Fin 2 → IVec S16 32) a x).toNat < S128x128.size a)
instance k1_chk141.dec : ∀ (v37 : IVec S16 32) (v148 : IVec S16 32), Decidable (k1_chk141 v37 v148) := fun v37 v148 => decidable_of_iff' _ (Iff.of_eq (k1_chk141.eq_1 v37 v148))
theorem k1_idx141_inb : ∀ (v37 : IVec S16 32) (v148 : IVec S16 32) (k1_hw141 : k1_chk141 v37 v148), ∀ a x, ((![v37, v148] : Fin 2 → IVec S16 32) a x).toNat < S128x128.size a := fun v37 v148 k1_hw141 => k1_hw141

def k1_chk142 (v37 : IVec S16 32) (v157 : IVec S16 32) : Prop :=
  (∀ a x, ((![v37, v157] : Fin 2 → IVec S16 32) a x).toNat < S128x128.size a)
instance k1_chk142.dec : ∀ (v37 : IVec S16 32) (v157 : IVec S16 32), Decidable (k1_chk142 v37 v157) := fun v37 v157 => decidable_of_iff' _ (Iff.of_eq (k1_chk142.eq_1 v37 v157))
theorem k1_idx142_inb : ∀ (v37 : IVec S16 32) (v157 : IVec S16 32) (k1_hw142 : k1_chk142 v37 v157), ∀ a x, ((![v37, v157] : Fin 2 → IVec S16 32) a x).toNat < S128x128.size a := fun v37 v157 k1_hw142 => k1_hw142

def k1_chk143 (v37 : IVec S16 32) (v166 : IVec S16 32) : Prop :=
  (∀ a x, ((![v37, v166] : Fin 2 → IVec S16 32) a x).toNat < S128x128.size a)
instance k1_chk143.dec : ∀ (v37 : IVec S16 32) (v166 : IVec S16 32), Decidable (k1_chk143 v37 v166) := fun v37 v166 => decidable_of_iff' _ (Iff.of_eq (k1_chk143.eq_1 v37 v166))
theorem k1_idx143_inb : ∀ (v37 : IVec S16 32) (v166 : IVec S16 32) (k1_hw143 : k1_chk143 v37 v166), ∀ a x, ((![v37, v166] : Fin 2 → IVec S16 32) a x).toNat < S128x128.size a := fun v37 v166 k1_hw143 => k1_hw143

def k1_chk144 (v37 : IVec S16 32) (v175 : IVec S16 32) : Prop :=
  (∀ a x, ((![v37, v175] : Fin 2 → IVec S16 32) a x).toNat < S128x128.size a)
instance k1_chk144.dec : ∀ (v37 : IVec S16 32) (v175 : IVec S16 32), Decidable (k1_chk144 v37 v175) := fun v37 v175 => decidable_of_iff' _ (Iff.of_eq (k1_chk144.eq_1 v37 v175))
theorem k1_idx144_inb : ∀ (v37 : IVec S16 32) (v175 : IVec S16 32) (k1_hw144 : k1_chk144 v37 v175), ∀ a x, ((![v37, v175] : Fin 2 → IVec S16 32) a x).toNat < S128x128.size a := fun v37 v175 k1_hw144 => k1_hw144

def k1_chk145 (v183 : IVec S16 32) (v186 : IVec S16 32) : Prop :=
  (∀ a x, ((![v183, v186] : Fin 2 → IVec S16 32) a x).toNat < S128x128.size a)
instance k1_chk145.dec : ∀ (v183 : IVec S16 32) (v186 : IVec S16 32), Decidable (k1_chk145 v183 v186) := fun v183 v186 => decidable_of_iff' _ (Iff.of_eq (k1_chk145.eq_1 v183 v186))
theorem k1_idx145_inb : ∀ (v183 : IVec S16 32) (v186 : IVec S16 32) (k1_hw145 : k1_chk145 v183 v186), ∀ a x, ((![v183, v186] : Fin 2 → IVec S16 32) a x).toNat < S128x128.size a := fun v183 v186 k1_hw145 => k1_hw145

def k1_chk146 (v183 : IVec S16 32) (v195 : IVec S16 32) : Prop :=
  (∀ a x, ((![v183, v195] : Fin 2 → IVec S16 32) a x).toNat < S128x128.size a)
instance k1_chk146.dec : ∀ (v183 : IVec S16 32) (v195 : IVec S16 32), Decidable (k1_chk146 v183 v195) := fun v183 v195 => decidable_of_iff' _ (Iff.of_eq (k1_chk146.eq_1 v183 v195))
theorem k1_idx146_inb : ∀ (v183 : IVec S16 32) (v195 : IVec S16 32) (k1_hw146 : k1_chk146 v183 v195), ∀ a x, ((![v183, v195] : Fin 2 → IVec S16 32) a x).toNat < S128x128.size a := fun v183 v195 k1_hw146 => k1_hw146

def k1_chk147 (v183 : IVec S16 32) (v204 : IVec S16 32) : Prop :=
  (∀ a x, ((![v183, v204] : Fin 2 → IVec S16 32) a x).toNat < S128x128.size a)
instance k1_chk147.dec : ∀ (v183 : IVec S16 32) (v204 : IVec S16 32), Decidable (k1_chk147 v183 v204) := fun v183 v204 => decidable_of_iff' _ (Iff.of_eq (k1_chk147.eq_1 v183 v204))
theorem k1_idx147_inb : ∀ (v183 : IVec S16 32) (v204 : IVec S16 32) (k1_hw147 : k1_chk147 v183 v204), ∀ a x, ((![v183, v204] : Fin 2 → IVec S16 32) a x).toNat < S128x128.size a := fun v183 v204 k1_hw147 => k1_hw147

def k1_chk148 (v183 : IVec S16 32) (v213 : IVec S16 32) : Prop :=
  (∀ a x, ((![v183, v213] : Fin 2 → IVec S16 32) a x).toNat < S128x128.size a)
instance k1_chk148.dec : ∀ (v183 : IVec S16 32) (v213 : IVec S16 32), Decidable (k1_chk148 v183 v213) := fun v183 v213 => decidable_of_iff' _ (Iff.of_eq (k1_chk148.eq_1 v183 v213))
theorem k1_idx148_inb : ∀ (v183 : IVec S16 32) (v213 : IVec S16 32) (k1_hw148 : k1_chk148 v183 v213), ∀ a x, ((![v183, v213] : Fin 2 → IVec S16 32) a x).toNat < S128x128.size a := fun v183 v213 k1_hw148 => k1_hw148

def k1_chk149 (v183 : IVec S16 32) (v222 : IVec S16 32) : Prop :=
  (∀ a x, ((![v183, v222] : Fin 2 → IVec S16 32) a x).toNat < S128x128.size a)
instance k1_chk149.dec : ∀ (v183 : IVec S16 32) (v222 : IVec S16 32), Decidable (k1_chk149 v183 v222) := fun v183 v222 => decidable_of_iff' _ (Iff.of_eq (k1_chk149.eq_1 v183 v222))
theorem k1_idx149_inb : ∀ (v183 : IVec S16 32) (v222 : IVec S16 32) (k1_hw149 : k1_chk149 v183 v222), ∀ a x, ((![v183, v222] : Fin 2 → IVec S16 32) a x).toNat < S128x128.size a := fun v183 v222 k1_hw149 => k1_hw149

def k1_chk150 (v183 : IVec S16 32) (v231 : IVec S16 32) : Prop :=
  (∀ a x, ((![v183, v231] : Fin 2 → IVec S16 32) a x).toNat < S128x128.size a)
instance k1_chk150.dec : ∀ (v183 : IVec S16 32) (v231 : IVec S16 32), Decidable (k1_chk150 v183 v231) := fun v183 v231 => decidable_of_iff' _ (Iff.of_eq (k1_chk150.eq_1 v183 v231))
theorem k1_idx150_inb : ∀ (v183 : IVec S16 32) (v231 : IVec S16 32) (k1_hw150 : k1_chk150 v183 v231), ∀ a x, ((![v183, v231] : Fin 2 → IVec S16 32) a x).toNat < S128x128.size a := fun v183 v231 k1_hw150 => k1_hw150

def k1_chk151 (v183 : IVec S16 32) (v240 : IVec S16 32) : Prop :=
  (∀ a x, ((![v183, v240] : Fin 2 → IVec S16 32) a x).toNat < S128x128.size a)
instance k1_chk151.dec : ∀ (v183 : IVec S16 32) (v240 : IVec S16 32), Decidable (k1_chk151 v183 v240) := fun v183 v240 => decidable_of_iff' _ (Iff.of_eq (k1_chk151.eq_1 v183 v240))
theorem k1_idx151_inb : ∀ (v183 : IVec S16 32) (v240 : IVec S16 32) (k1_hw151 : k1_chk151 v183 v240), ∀ a x, ((![v183, v240] : Fin 2 → IVec S16 32) a x).toNat < S128x128.size a := fun v183 v240 k1_hw151 => k1_hw151

def k1_chk152 (v183 : IVec S16 32) (v249 : IVec S16 32) : Prop :=
  (∀ a x, ((![v183, v249] : Fin 2 → IVec S16 32) a x).toNat < S128x128.size a)
instance k1_chk152.dec : ∀ (v183 : IVec S16 32) (v249 : IVec S16 32), Decidable (k1_chk152 v183 v249) := fun v183 v249 => decidable_of_iff' _ (Iff.of_eq (k1_chk152.eq_1 v183 v249))
theorem k1_idx152_inb : ∀ (v183 : IVec S16 32) (v249 : IVec S16 32) (k1_hw152 : k1_chk152 v183 v249), ∀ a x, ((![v183, v249] : Fin 2 → IVec S16 32) a x).toNat < S128x128.size a := fun v183 v249 k1_hw152 => k1_hw152

def k1_chk153 (v183 : IVec S16 32) (v258 : IVec S16 32) : Prop :=
  (∀ a x, ((![v183, v258] : Fin 2 → IVec S16 32) a x).toNat < S128x128.size a)
instance k1_chk153.dec : ∀ (v183 : IVec S16 32) (v258 : IVec S16 32), Decidable (k1_chk153 v183 v258) := fun v183 v258 => decidable_of_iff' _ (Iff.of_eq (k1_chk153.eq_1 v183 v258))
theorem k1_idx153_inb : ∀ (v183 : IVec S16 32) (v258 : IVec S16 32) (k1_hw153 : k1_chk153 v183 v258), ∀ a x, ((![v183, v258] : Fin 2 → IVec S16 32) a x).toNat < S128x128.size a := fun v183 v258 k1_hw153 => k1_hw153

def k1_chk154 (v183 : IVec S16 32) (v267 : IVec S16 32) : Prop :=
  (∀ a x, ((![v183, v267] : Fin 2 → IVec S16 32) a x).toNat < S128x128.size a)
instance k1_chk154.dec : ∀ (v183 : IVec S16 32) (v267 : IVec S16 32), Decidable (k1_chk154 v183 v267) := fun v183 v267 => decidable_of_iff' _ (Iff.of_eq (k1_chk154.eq_1 v183 v267))
theorem k1_idx154_inb : ∀ (v183 : IVec S16 32) (v267 : IVec S16 32) (k1_hw154 : k1_chk154 v183 v267), ∀ a x, ((![v183, v267] : Fin 2 → IVec S16 32) a x).toNat < S128x128.size a := fun v183 v267 k1_hw154 => k1_hw154

def k1_chk155 (v183 : IVec S16 32) (v276 : IVec S16 32) : Prop :=
  (∀ a x, ((![v183, v276] : Fin 2 → IVec S16 32) a x).toNat < S128x128.size a)
instance k1_chk155.dec : ∀ (v183 : IVec S16 32) (v276 : IVec S16 32), Decidable (k1_chk155 v183 v276) := fun v183 v276 => decidable_of_iff' _ (Iff.of_eq (k1_chk155.eq_1 v183 v276))
theorem k1_idx155_inb : ∀ (v183 : IVec S16 32) (v276 : IVec S16 32) (k1_hw155 : k1_chk155 v183 v276), ∀ a x, ((![v183, v276] : Fin 2 → IVec S16 32) a x).toNat < S128x128.size a := fun v183 v276 k1_hw155 => k1_hw155

def k1_chk156 (v183 : IVec S16 32) (v285 : IVec S16 32) : Prop :=
  (∀ a x, ((![v183, v285] : Fin 2 → IVec S16 32) a x).toNat < S128x128.size a)
instance k1_chk156.dec : ∀ (v183 : IVec S16 32) (v285 : IVec S16 32), Decidable (k1_chk156 v183 v285) := fun v183 v285 => decidable_of_iff' _ (Iff.of_eq (k1_chk156.eq_1 v183 v285))
theorem k1_idx156_inb : ∀ (v183 : IVec S16 32) (v285 : IVec S16 32) (k1_hw156 : k1_chk156 v183 v285), ∀ a x, ((![v183, v285] : Fin 2 → IVec S16 32) a x).toNat < S128x128.size a := fun v183 v285 k1_hw156 => k1_hw156

def k1_chk157 (v183 : IVec S16 32) (v294 : IVec S16 32) : Prop :=
  (∀ a x, ((![v183, v294] : Fin 2 → IVec S16 32) a x).toNat < S128x128.size a)
instance k1_chk157.dec : ∀ (v183 : IVec S16 32) (v294 : IVec S16 32), Decidable (k1_chk157 v183 v294) := fun v183 v294 => decidable_of_iff' _ (Iff.of_eq (k1_chk157.eq_1 v183 v294))
theorem k1_idx157_inb : ∀ (v183 : IVec S16 32) (v294 : IVec S16 32) (k1_hw157 : k1_chk157 v183 v294), ∀ a x, ((![v183, v294] : Fin 2 → IVec S16 32) a x).toNat < S128x128.size a := fun v183 v294 k1_hw157 => k1_hw157

def k1_chk158 (v183 : IVec S16 32) (v303 : IVec S16 32) : Prop :=
  (∀ a x, ((![v183, v303] : Fin 2 → IVec S16 32) a x).toNat < S128x128.size a)
instance k1_chk158.dec : ∀ (v183 : IVec S16 32) (v303 : IVec S16 32), Decidable (k1_chk158 v183 v303) := fun v183 v303 => decidable_of_iff' _ (Iff.of_eq (k1_chk158.eq_1 v183 v303))
theorem k1_idx158_inb : ∀ (v183 : IVec S16 32) (v303 : IVec S16 32) (k1_hw158 : k1_chk158 v183 v303), ∀ a x, ((![v183, v303] : Fin 2 → IVec S16 32) a x).toNat < S128x128.size a := fun v183 v303 k1_hw158 => k1_hw158

def k1_chk159 (v183 : IVec S16 32) (v312 : IVec S16 32) : Prop :=
  (∀ a x, ((![v183, v312] : Fin 2 → IVec S16 32) a x).toNat < S128x128.size a)
instance k1_chk159.dec : ∀ (v183 : IVec S16 32) (v312 : IVec S16 32), Decidable (k1_chk159 v183 v312) := fun v183 v312 => decidable_of_iff' _ (Iff.of_eq (k1_chk159.eq_1 v183 v312))
theorem k1_idx159_inb : ∀ (v183 : IVec S16 32) (v312 : IVec S16 32) (k1_hw159 : k1_chk159 v183 v312), ∀ a x, ((![v183, v312] : Fin 2 → IVec S16 32) a x).toNat < S128x128.size a := fun v183 v312 k1_hw159 => k1_hw159

def k1_chk160 (v183 : IVec S16 32) (v321 : IVec S16 32) : Prop :=
  (∀ a x, ((![v183, v321] : Fin 2 → IVec S16 32) a x).toNat < S128x128.size a)
instance k1_chk160.dec : ∀ (v183 : IVec S16 32) (v321 : IVec S16 32), Decidable (k1_chk160 v183 v321) := fun v183 v321 => decidable_of_iff' _ (Iff.of_eq (k1_chk160.eq_1 v183 v321))
theorem k1_idx160_inb : ∀ (v183 : IVec S16 32) (v321 : IVec S16 32) (k1_hw160 : k1_chk160 v183 v321), ∀ a x, ((![v183, v321] : Fin 2 → IVec S16 32) a x).toNat < S128x128.size a := fun v183 v321 k1_hw160 => k1_hw160

def k1_chk161 (v329 : IVec S16 32) (v332 : IVec S16 32) : Prop :=
  (∀ a x, ((![v329, v332] : Fin 2 → IVec S16 32) a x).toNat < S128x128.size a)
instance k1_chk161.dec : ∀ (v329 : IVec S16 32) (v332 : IVec S16 32), Decidable (k1_chk161 v329 v332) := fun v329 v332 => decidable_of_iff' _ (Iff.of_eq (k1_chk161.eq_1 v329 v332))
theorem k1_idx161_inb : ∀ (v329 : IVec S16 32) (v332 : IVec S16 32) (k1_hw161 : k1_chk161 v329 v332), ∀ a x, ((![v329, v332] : Fin 2 → IVec S16 32) a x).toNat < S128x128.size a := fun v329 v332 k1_hw161 => k1_hw161

def k1_chk162 (v329 : IVec S16 32) (v341 : IVec S16 32) : Prop :=
  (∀ a x, ((![v329, v341] : Fin 2 → IVec S16 32) a x).toNat < S128x128.size a)
instance k1_chk162.dec : ∀ (v329 : IVec S16 32) (v341 : IVec S16 32), Decidable (k1_chk162 v329 v341) := fun v329 v341 => decidable_of_iff' _ (Iff.of_eq (k1_chk162.eq_1 v329 v341))
theorem k1_idx162_inb : ∀ (v329 : IVec S16 32) (v341 : IVec S16 32) (k1_hw162 : k1_chk162 v329 v341), ∀ a x, ((![v329, v341] : Fin 2 → IVec S16 32) a x).toNat < S128x128.size a := fun v329 v341 k1_hw162 => k1_hw162

def k1_chk163 (v329 : IVec S16 32) (v350 : IVec S16 32) : Prop :=
  (∀ a x, ((![v329, v350] : Fin 2 → IVec S16 32) a x).toNat < S128x128.size a)
instance k1_chk163.dec : ∀ (v329 : IVec S16 32) (v350 : IVec S16 32), Decidable (k1_chk163 v329 v350) := fun v329 v350 => decidable_of_iff' _ (Iff.of_eq (k1_chk163.eq_1 v329 v350))
theorem k1_idx163_inb : ∀ (v329 : IVec S16 32) (v350 : IVec S16 32) (k1_hw163 : k1_chk163 v329 v350), ∀ a x, ((![v329, v350] : Fin 2 → IVec S16 32) a x).toNat < S128x128.size a := fun v329 v350 k1_hw163 => k1_hw163

def k1_chk164 (v329 : IVec S16 32) (v359 : IVec S16 32) : Prop :=
  (∀ a x, ((![v329, v359] : Fin 2 → IVec S16 32) a x).toNat < S128x128.size a)
instance k1_chk164.dec : ∀ (v329 : IVec S16 32) (v359 : IVec S16 32), Decidable (k1_chk164 v329 v359) := fun v329 v359 => decidable_of_iff' _ (Iff.of_eq (k1_chk164.eq_1 v329 v359))
theorem k1_idx164_inb : ∀ (v329 : IVec S16 32) (v359 : IVec S16 32) (k1_hw164 : k1_chk164 v329 v359), ∀ a x, ((![v329, v359] : Fin 2 → IVec S16 32) a x).toNat < S128x128.size a := fun v329 v359 k1_hw164 => k1_hw164

def k1_chk165 (v329 : IVec S16 32) (v368 : IVec S16 32) : Prop :=
  (∀ a x, ((![v329, v368] : Fin 2 → IVec S16 32) a x).toNat < S128x128.size a)
instance k1_chk165.dec : ∀ (v329 : IVec S16 32) (v368 : IVec S16 32), Decidable (k1_chk165 v329 v368) := fun v329 v368 => decidable_of_iff' _ (Iff.of_eq (k1_chk165.eq_1 v329 v368))
theorem k1_idx165_inb : ∀ (v329 : IVec S16 32) (v368 : IVec S16 32) (k1_hw165 : k1_chk165 v329 v368), ∀ a x, ((![v329, v368] : Fin 2 → IVec S16 32) a x).toNat < S128x128.size a := fun v329 v368 k1_hw165 => k1_hw165

def k1_chk166 (v329 : IVec S16 32) (v377 : IVec S16 32) : Prop :=
  (∀ a x, ((![v329, v377] : Fin 2 → IVec S16 32) a x).toNat < S128x128.size a)
instance k1_chk166.dec : ∀ (v329 : IVec S16 32) (v377 : IVec S16 32), Decidable (k1_chk166 v329 v377) := fun v329 v377 => decidable_of_iff' _ (Iff.of_eq (k1_chk166.eq_1 v329 v377))
theorem k1_idx166_inb : ∀ (v329 : IVec S16 32) (v377 : IVec S16 32) (k1_hw166 : k1_chk166 v329 v377), ∀ a x, ((![v329, v377] : Fin 2 → IVec S16 32) a x).toNat < S128x128.size a := fun v329 v377 k1_hw166 => k1_hw166

def k1_chk167 (v329 : IVec S16 32) (v386 : IVec S16 32) : Prop :=
  (∀ a x, ((![v329, v386] : Fin 2 → IVec S16 32) a x).toNat < S128x128.size a)
instance k1_chk167.dec : ∀ (v329 : IVec S16 32) (v386 : IVec S16 32), Decidable (k1_chk167 v329 v386) := fun v329 v386 => decidable_of_iff' _ (Iff.of_eq (k1_chk167.eq_1 v329 v386))
theorem k1_idx167_inb : ∀ (v329 : IVec S16 32) (v386 : IVec S16 32) (k1_hw167 : k1_chk167 v329 v386), ∀ a x, ((![v329, v386] : Fin 2 → IVec S16 32) a x).toNat < S128x128.size a := fun v329 v386 k1_hw167 => k1_hw167

def k1_chk168 (v329 : IVec S16 32) (v395 : IVec S16 32) : Prop :=
  (∀ a x, ((![v329, v395] : Fin 2 → IVec S16 32) a x).toNat < S128x128.size a)
instance k1_chk168.dec : ∀ (v329 : IVec S16 32) (v395 : IVec S16 32), Decidable (k1_chk168 v329 v395) := fun v329 v395 => decidable_of_iff' _ (Iff.of_eq (k1_chk168.eq_1 v329 v395))
theorem k1_idx168_inb : ∀ (v329 : IVec S16 32) (v395 : IVec S16 32) (k1_hw168 : k1_chk168 v329 v395), ∀ a x, ((![v329, v395] : Fin 2 → IVec S16 32) a x).toNat < S128x128.size a := fun v329 v395 k1_hw168 => k1_hw168

def k1_chk169 (v329 : IVec S16 32) (v404 : IVec S16 32) : Prop :=
  (∀ a x, ((![v329, v404] : Fin 2 → IVec S16 32) a x).toNat < S128x128.size a)
instance k1_chk169.dec : ∀ (v329 : IVec S16 32) (v404 : IVec S16 32), Decidable (k1_chk169 v329 v404) := fun v329 v404 => decidable_of_iff' _ (Iff.of_eq (k1_chk169.eq_1 v329 v404))
theorem k1_idx169_inb : ∀ (v329 : IVec S16 32) (v404 : IVec S16 32) (k1_hw169 : k1_chk169 v329 v404), ∀ a x, ((![v329, v404] : Fin 2 → IVec S16 32) a x).toNat < S128x128.size a := fun v329 v404 k1_hw169 => k1_hw169

def k1_chk170 (v329 : IVec S16 32) (v413 : IVec S16 32) : Prop :=
  (∀ a x, ((![v329, v413] : Fin 2 → IVec S16 32) a x).toNat < S128x128.size a)
instance k1_chk170.dec : ∀ (v329 : IVec S16 32) (v413 : IVec S16 32), Decidable (k1_chk170 v329 v413) := fun v329 v413 => decidable_of_iff' _ (Iff.of_eq (k1_chk170.eq_1 v329 v413))
theorem k1_idx170_inb : ∀ (v329 : IVec S16 32) (v413 : IVec S16 32) (k1_hw170 : k1_chk170 v329 v413), ∀ a x, ((![v329, v413] : Fin 2 → IVec S16 32) a x).toNat < S128x128.size a := fun v329 v413 k1_hw170 => k1_hw170

def k1_chk171 (v329 : IVec S16 32) (v422 : IVec S16 32) : Prop :=
  (∀ a x, ((![v329, v422] : Fin 2 → IVec S16 32) a x).toNat < S128x128.size a)
instance k1_chk171.dec : ∀ (v329 : IVec S16 32) (v422 : IVec S16 32), Decidable (k1_chk171 v329 v422) := fun v329 v422 => decidable_of_iff' _ (Iff.of_eq (k1_chk171.eq_1 v329 v422))
theorem k1_idx171_inb : ∀ (v329 : IVec S16 32) (v422 : IVec S16 32) (k1_hw171 : k1_chk171 v329 v422), ∀ a x, ((![v329, v422] : Fin 2 → IVec S16 32) a x).toNat < S128x128.size a := fun v329 v422 k1_hw171 => k1_hw171

def k1_chk172 (v329 : IVec S16 32) (v431 : IVec S16 32) : Prop :=
  (∀ a x, ((![v329, v431] : Fin 2 → IVec S16 32) a x).toNat < S128x128.size a)
instance k1_chk172.dec : ∀ (v329 : IVec S16 32) (v431 : IVec S16 32), Decidable (k1_chk172 v329 v431) := fun v329 v431 => decidable_of_iff' _ (Iff.of_eq (k1_chk172.eq_1 v329 v431))
theorem k1_idx172_inb : ∀ (v329 : IVec S16 32) (v431 : IVec S16 32) (k1_hw172 : k1_chk172 v329 v431), ∀ a x, ((![v329, v431] : Fin 2 → IVec S16 32) a x).toNat < S128x128.size a := fun v329 v431 k1_hw172 => k1_hw172

def k1_chk173 (v329 : IVec S16 32) (v440 : IVec S16 32) : Prop :=
  (∀ a x, ((![v329, v440] : Fin 2 → IVec S16 32) a x).toNat < S128x128.size a)
instance k1_chk173.dec : ∀ (v329 : IVec S16 32) (v440 : IVec S16 32), Decidable (k1_chk173 v329 v440) := fun v329 v440 => decidable_of_iff' _ (Iff.of_eq (k1_chk173.eq_1 v329 v440))
theorem k1_idx173_inb : ∀ (v329 : IVec S16 32) (v440 : IVec S16 32) (k1_hw173 : k1_chk173 v329 v440), ∀ a x, ((![v329, v440] : Fin 2 → IVec S16 32) a x).toNat < S128x128.size a := fun v329 v440 k1_hw173 => k1_hw173

def k1_chk174 (v329 : IVec S16 32) (v449 : IVec S16 32) : Prop :=
  (∀ a x, ((![v329, v449] : Fin 2 → IVec S16 32) a x).toNat < S128x128.size a)
instance k1_chk174.dec : ∀ (v329 : IVec S16 32) (v449 : IVec S16 32), Decidable (k1_chk174 v329 v449) := fun v329 v449 => decidable_of_iff' _ (Iff.of_eq (k1_chk174.eq_1 v329 v449))
theorem k1_idx174_inb : ∀ (v329 : IVec S16 32) (v449 : IVec S16 32) (k1_hw174 : k1_chk174 v329 v449), ∀ a x, ((![v329, v449] : Fin 2 → IVec S16 32) a x).toNat < S128x128.size a := fun v329 v449 k1_hw174 => k1_hw174

def k1_chk175 (v329 : IVec S16 32) (v458 : IVec S16 32) : Prop :=
  (∀ a x, ((![v329, v458] : Fin 2 → IVec S16 32) a x).toNat < S128x128.size a)
instance k1_chk175.dec : ∀ (v329 : IVec S16 32) (v458 : IVec S16 32), Decidable (k1_chk175 v329 v458) := fun v329 v458 => decidable_of_iff' _ (Iff.of_eq (k1_chk175.eq_1 v329 v458))
theorem k1_idx175_inb : ∀ (v329 : IVec S16 32) (v458 : IVec S16 32) (k1_hw175 : k1_chk175 v329 v458), ∀ a x, ((![v329, v458] : Fin 2 → IVec S16 32) a x).toNat < S128x128.size a := fun v329 v458 k1_hw175 => k1_hw175

def k1_chk176 (v329 : IVec S16 32) (v467 : IVec S16 32) : Prop :=
  (∀ a x, ((![v329, v467] : Fin 2 → IVec S16 32) a x).toNat < S128x128.size a)
instance k1_chk176.dec : ∀ (v329 : IVec S16 32) (v467 : IVec S16 32), Decidable (k1_chk176 v329 v467) := fun v329 v467 => decidable_of_iff' _ (Iff.of_eq (k1_chk176.eq_1 v329 v467))
theorem k1_idx176_inb : ∀ (v329 : IVec S16 32) (v467 : IVec S16 32) (k1_hw176 : k1_chk176 v329 v467), ∀ a x, ((![v329, v467] : Fin 2 → IVec S16 32) a x).toNat < S128x128.size a := fun v329 v467 k1_hw176 => k1_hw176

def k1_chk177 (v475 : IVec S16 32) (v478 : IVec S16 32) : Prop :=
  (∀ a x, ((![v475, v478] : Fin 2 → IVec S16 32) a x).toNat < S128x128.size a)
instance k1_chk177.dec : ∀ (v475 : IVec S16 32) (v478 : IVec S16 32), Decidable (k1_chk177 v475 v478) := fun v475 v478 => decidable_of_iff' _ (Iff.of_eq (k1_chk177.eq_1 v475 v478))
theorem k1_idx177_inb : ∀ (v475 : IVec S16 32) (v478 : IVec S16 32) (k1_hw177 : k1_chk177 v475 v478), ∀ a x, ((![v475, v478] : Fin 2 → IVec S16 32) a x).toNat < S128x128.size a := fun v475 v478 k1_hw177 => k1_hw177

def k1_chk178 (v475 : IVec S16 32) (v487 : IVec S16 32) : Prop :=
  (∀ a x, ((![v475, v487] : Fin 2 → IVec S16 32) a x).toNat < S128x128.size a)
instance k1_chk178.dec : ∀ (v475 : IVec S16 32) (v487 : IVec S16 32), Decidable (k1_chk178 v475 v487) := fun v475 v487 => decidable_of_iff' _ (Iff.of_eq (k1_chk178.eq_1 v475 v487))
theorem k1_idx178_inb : ∀ (v475 : IVec S16 32) (v487 : IVec S16 32) (k1_hw178 : k1_chk178 v475 v487), ∀ a x, ((![v475, v487] : Fin 2 → IVec S16 32) a x).toNat < S128x128.size a := fun v475 v487 k1_hw178 => k1_hw178

def k1_chk179 (v475 : IVec S16 32) (v496 : IVec S16 32) : Prop :=
  (∀ a x, ((![v475, v496] : Fin 2 → IVec S16 32) a x).toNat < S128x128.size a)
instance k1_chk179.dec : ∀ (v475 : IVec S16 32) (v496 : IVec S16 32), Decidable (k1_chk179 v475 v496) := fun v475 v496 => decidable_of_iff' _ (Iff.of_eq (k1_chk179.eq_1 v475 v496))
theorem k1_idx179_inb : ∀ (v475 : IVec S16 32) (v496 : IVec S16 32) (k1_hw179 : k1_chk179 v475 v496), ∀ a x, ((![v475, v496] : Fin 2 → IVec S16 32) a x).toNat < S128x128.size a := fun v475 v496 k1_hw179 => k1_hw179

def k1_chk180 (v475 : IVec S16 32) (v505 : IVec S16 32) : Prop :=
  (∀ a x, ((![v475, v505] : Fin 2 → IVec S16 32) a x).toNat < S128x128.size a)
instance k1_chk180.dec : ∀ (v475 : IVec S16 32) (v505 : IVec S16 32), Decidable (k1_chk180 v475 v505) := fun v475 v505 => decidable_of_iff' _ (Iff.of_eq (k1_chk180.eq_1 v475 v505))
theorem k1_idx180_inb : ∀ (v475 : IVec S16 32) (v505 : IVec S16 32) (k1_hw180 : k1_chk180 v475 v505), ∀ a x, ((![v475, v505] : Fin 2 → IVec S16 32) a x).toNat < S128x128.size a := fun v475 v505 k1_hw180 => k1_hw180

def k1_chk181 (v475 : IVec S16 32) (v514 : IVec S16 32) : Prop :=
  (∀ a x, ((![v475, v514] : Fin 2 → IVec S16 32) a x).toNat < S128x128.size a)
instance k1_chk181.dec : ∀ (v475 : IVec S16 32) (v514 : IVec S16 32), Decidable (k1_chk181 v475 v514) := fun v475 v514 => decidable_of_iff' _ (Iff.of_eq (k1_chk181.eq_1 v475 v514))
theorem k1_idx181_inb : ∀ (v475 : IVec S16 32) (v514 : IVec S16 32) (k1_hw181 : k1_chk181 v475 v514), ∀ a x, ((![v475, v514] : Fin 2 → IVec S16 32) a x).toNat < S128x128.size a := fun v475 v514 k1_hw181 => k1_hw181

def k1_chk182 (v475 : IVec S16 32) (v523 : IVec S16 32) : Prop :=
  (∀ a x, ((![v475, v523] : Fin 2 → IVec S16 32) a x).toNat < S128x128.size a)
instance k1_chk182.dec : ∀ (v475 : IVec S16 32) (v523 : IVec S16 32), Decidable (k1_chk182 v475 v523) := fun v475 v523 => decidable_of_iff' _ (Iff.of_eq (k1_chk182.eq_1 v475 v523))
theorem k1_idx182_inb : ∀ (v475 : IVec S16 32) (v523 : IVec S16 32) (k1_hw182 : k1_chk182 v475 v523), ∀ a x, ((![v475, v523] : Fin 2 → IVec S16 32) a x).toNat < S128x128.size a := fun v475 v523 k1_hw182 => k1_hw182

def k1_chk183 (v475 : IVec S16 32) (v532 : IVec S16 32) : Prop :=
  (∀ a x, ((![v475, v532] : Fin 2 → IVec S16 32) a x).toNat < S128x128.size a)
instance k1_chk183.dec : ∀ (v475 : IVec S16 32) (v532 : IVec S16 32), Decidable (k1_chk183 v475 v532) := fun v475 v532 => decidable_of_iff' _ (Iff.of_eq (k1_chk183.eq_1 v475 v532))
theorem k1_idx183_inb : ∀ (v475 : IVec S16 32) (v532 : IVec S16 32) (k1_hw183 : k1_chk183 v475 v532), ∀ a x, ((![v475, v532] : Fin 2 → IVec S16 32) a x).toNat < S128x128.size a := fun v475 v532 k1_hw183 => k1_hw183

def k1_chk184 (v475 : IVec S16 32) (v541 : IVec S16 32) : Prop :=
  (∀ a x, ((![v475, v541] : Fin 2 → IVec S16 32) a x).toNat < S128x128.size a)
instance k1_chk184.dec : ∀ (v475 : IVec S16 32) (v541 : IVec S16 32), Decidable (k1_chk184 v475 v541) := fun v475 v541 => decidable_of_iff' _ (Iff.of_eq (k1_chk184.eq_1 v475 v541))
theorem k1_idx184_inb : ∀ (v475 : IVec S16 32) (v541 : IVec S16 32) (k1_hw184 : k1_chk184 v475 v541), ∀ a x, ((![v475, v541] : Fin 2 → IVec S16 32) a x).toNat < S128x128.size a := fun v475 v541 k1_hw184 => k1_hw184

def k1_chk185 (v475 : IVec S16 32) (v550 : IVec S16 32) : Prop :=
  (∀ a x, ((![v475, v550] : Fin 2 → IVec S16 32) a x).toNat < S128x128.size a)
instance k1_chk185.dec : ∀ (v475 : IVec S16 32) (v550 : IVec S16 32), Decidable (k1_chk185 v475 v550) := fun v475 v550 => decidable_of_iff' _ (Iff.of_eq (k1_chk185.eq_1 v475 v550))
theorem k1_idx185_inb : ∀ (v475 : IVec S16 32) (v550 : IVec S16 32) (k1_hw185 : k1_chk185 v475 v550), ∀ a x, ((![v475, v550] : Fin 2 → IVec S16 32) a x).toNat < S128x128.size a := fun v475 v550 k1_hw185 => k1_hw185

def k1_chk186 (v475 : IVec S16 32) (v559 : IVec S16 32) : Prop :=
  (∀ a x, ((![v475, v559] : Fin 2 → IVec S16 32) a x).toNat < S128x128.size a)
instance k1_chk186.dec : ∀ (v475 : IVec S16 32) (v559 : IVec S16 32), Decidable (k1_chk186 v475 v559) := fun v475 v559 => decidable_of_iff' _ (Iff.of_eq (k1_chk186.eq_1 v475 v559))
theorem k1_idx186_inb : ∀ (v475 : IVec S16 32) (v559 : IVec S16 32) (k1_hw186 : k1_chk186 v475 v559), ∀ a x, ((![v475, v559] : Fin 2 → IVec S16 32) a x).toNat < S128x128.size a := fun v475 v559 k1_hw186 => k1_hw186

def k1_chk187 (v475 : IVec S16 32) (v568 : IVec S16 32) : Prop :=
  (∀ a x, ((![v475, v568] : Fin 2 → IVec S16 32) a x).toNat < S128x128.size a)
instance k1_chk187.dec : ∀ (v475 : IVec S16 32) (v568 : IVec S16 32), Decidable (k1_chk187 v475 v568) := fun v475 v568 => decidable_of_iff' _ (Iff.of_eq (k1_chk187.eq_1 v475 v568))
theorem k1_idx187_inb : ∀ (v475 : IVec S16 32) (v568 : IVec S16 32) (k1_hw187 : k1_chk187 v475 v568), ∀ a x, ((![v475, v568] : Fin 2 → IVec S16 32) a x).toNat < S128x128.size a := fun v475 v568 k1_hw187 => k1_hw187

def k1_chk188 (v475 : IVec S16 32) (v577 : IVec S16 32) : Prop :=
  (∀ a x, ((![v475, v577] : Fin 2 → IVec S16 32) a x).toNat < S128x128.size a)
instance k1_chk188.dec : ∀ (v475 : IVec S16 32) (v577 : IVec S16 32), Decidable (k1_chk188 v475 v577) := fun v475 v577 => decidable_of_iff' _ (Iff.of_eq (k1_chk188.eq_1 v475 v577))
theorem k1_idx188_inb : ∀ (v475 : IVec S16 32) (v577 : IVec S16 32) (k1_hw188 : k1_chk188 v475 v577), ∀ a x, ((![v475, v577] : Fin 2 → IVec S16 32) a x).toNat < S128x128.size a := fun v475 v577 k1_hw188 => k1_hw188

def k1_chk189 (v475 : IVec S16 32) (v586 : IVec S16 32) : Prop :=
  (∀ a x, ((![v475, v586] : Fin 2 → IVec S16 32) a x).toNat < S128x128.size a)
instance k1_chk189.dec : ∀ (v475 : IVec S16 32) (v586 : IVec S16 32), Decidable (k1_chk189 v475 v586) := fun v475 v586 => decidable_of_iff' _ (Iff.of_eq (k1_chk189.eq_1 v475 v586))
theorem k1_idx189_inb : ∀ (v475 : IVec S16 32) (v586 : IVec S16 32) (k1_hw189 : k1_chk189 v475 v586), ∀ a x, ((![v475, v586] : Fin 2 → IVec S16 32) a x).toNat < S128x128.size a := fun v475 v586 k1_hw189 => k1_hw189

def k1_chk190 (v475 : IVec S16 32) (v595 : IVec S16 32) : Prop :=
  (∀ a x, ((![v475, v595] : Fin 2 → IVec S16 32) a x).toNat < S128x128.size a)
instance k1_chk190.dec : ∀ (v475 : IVec S16 32) (v595 : IVec S16 32), Decidable (k1_chk190 v475 v595) := fun v475 v595 => decidable_of_iff' _ (Iff.of_eq (k1_chk190.eq_1 v475 v595))
theorem k1_idx190_inb : ∀ (v475 : IVec S16 32) (v595 : IVec S16 32) (k1_hw190 : k1_chk190 v475 v595), ∀ a x, ((![v475, v595] : Fin 2 → IVec S16 32) a x).toNat < S128x128.size a := fun v475 v595 k1_hw190 => k1_hw190

def k1_chk191 (v475 : IVec S16 32) (v604 : IVec S16 32) : Prop :=
  (∀ a x, ((![v475, v604] : Fin 2 → IVec S16 32) a x).toNat < S128x128.size a)
instance k1_chk191.dec : ∀ (v475 : IVec S16 32) (v604 : IVec S16 32), Decidable (k1_chk191 v475 v604) := fun v475 v604 => decidable_of_iff' _ (Iff.of_eq (k1_chk191.eq_1 v475 v604))
theorem k1_idx191_inb : ∀ (v475 : IVec S16 32) (v604 : IVec S16 32) (k1_hw191 : k1_chk191 v475 v604), ∀ a x, ((![v475, v604] : Fin 2 → IVec S16 32) a x).toNat < S128x128.size a := fun v475 v604 k1_hw191 => k1_hw191

def k1_chk192 (v475 : IVec S16 32) (v613 : IVec S16 32) : Prop :=
  (∀ a x, ((![v475, v613] : Fin 2 → IVec S16 32) a x).toNat < S128x128.size a)
instance k1_chk192.dec : ∀ (v475 : IVec S16 32) (v613 : IVec S16 32), Decidable (k1_chk192 v475 v613) := fun v475 v613 => decidable_of_iff' _ (Iff.of_eq (k1_chk192.eq_1 v475 v613))
theorem k1_idx192_inb : ∀ (v475 : IVec S16 32) (v613 : IVec S16 32) (k1_hw192 : k1_chk192 v475 v613), ∀ a x, ((![v475, v613] : Fin 2 → IVec S16 32) a x).toNat < S128x128.size a := fun v475 v613 k1_hw192 => k1_hw192

def k1_chk193 (v621 : IVec S16 32) (v624 : IVec S16 32) : Prop :=
  (∀ a x, ((![v621, v624] : Fin 2 → IVec S16 32) a x).toNat < S128x128.size a)
instance k1_chk193.dec : ∀ (v621 : IVec S16 32) (v624 : IVec S16 32), Decidable (k1_chk193 v621 v624) := fun v621 v624 => decidable_of_iff' _ (Iff.of_eq (k1_chk193.eq_1 v621 v624))
theorem k1_idx193_inb : ∀ (v621 : IVec S16 32) (v624 : IVec S16 32) (k1_hw193 : k1_chk193 v621 v624), ∀ a x, ((![v621, v624] : Fin 2 → IVec S16 32) a x).toNat < S128x128.size a := fun v621 v624 k1_hw193 => k1_hw193

def k1_chk194 (v621 : IVec S16 32) (v633 : IVec S16 32) : Prop :=
  (∀ a x, ((![v621, v633] : Fin 2 → IVec S16 32) a x).toNat < S128x128.size a)
instance k1_chk194.dec : ∀ (v621 : IVec S16 32) (v633 : IVec S16 32), Decidable (k1_chk194 v621 v633) := fun v621 v633 => decidable_of_iff' _ (Iff.of_eq (k1_chk194.eq_1 v621 v633))
theorem k1_idx194_inb : ∀ (v621 : IVec S16 32) (v633 : IVec S16 32) (k1_hw194 : k1_chk194 v621 v633), ∀ a x, ((![v621, v633] : Fin 2 → IVec S16 32) a x).toNat < S128x128.size a := fun v621 v633 k1_hw194 => k1_hw194

def k1_chk195 (v621 : IVec S16 32) (v642 : IVec S16 32) : Prop :=
  (∀ a x, ((![v621, v642] : Fin 2 → IVec S16 32) a x).toNat < S128x128.size a)
instance k1_chk195.dec : ∀ (v621 : IVec S16 32) (v642 : IVec S16 32), Decidable (k1_chk195 v621 v642) := fun v621 v642 => decidable_of_iff' _ (Iff.of_eq (k1_chk195.eq_1 v621 v642))
theorem k1_idx195_inb : ∀ (v621 : IVec S16 32) (v642 : IVec S16 32) (k1_hw195 : k1_chk195 v621 v642), ∀ a x, ((![v621, v642] : Fin 2 → IVec S16 32) a x).toNat < S128x128.size a := fun v621 v642 k1_hw195 => k1_hw195

def k1_chk196 (v621 : IVec S16 32) (v651 : IVec S16 32) : Prop :=
  (∀ a x, ((![v621, v651] : Fin 2 → IVec S16 32) a x).toNat < S128x128.size a)
instance k1_chk196.dec : ∀ (v621 : IVec S16 32) (v651 : IVec S16 32), Decidable (k1_chk196 v621 v651) := fun v621 v651 => decidable_of_iff' _ (Iff.of_eq (k1_chk196.eq_1 v621 v651))
theorem k1_idx196_inb : ∀ (v621 : IVec S16 32) (v651 : IVec S16 32) (k1_hw196 : k1_chk196 v621 v651), ∀ a x, ((![v621, v651] : Fin 2 → IVec S16 32) a x).toNat < S128x128.size a := fun v621 v651 k1_hw196 => k1_hw196

def k1_chk197 (v621 : IVec S16 32) (v660 : IVec S16 32) : Prop :=
  (∀ a x, ((![v621, v660] : Fin 2 → IVec S16 32) a x).toNat < S128x128.size a)
instance k1_chk197.dec : ∀ (v621 : IVec S16 32) (v660 : IVec S16 32), Decidable (k1_chk197 v621 v660) := fun v621 v660 => decidable_of_iff' _ (Iff.of_eq (k1_chk197.eq_1 v621 v660))
theorem k1_idx197_inb : ∀ (v621 : IVec S16 32) (v660 : IVec S16 32) (k1_hw197 : k1_chk197 v621 v660), ∀ a x, ((![v621, v660] : Fin 2 → IVec S16 32) a x).toNat < S128x128.size a := fun v621 v660 k1_hw197 => k1_hw197

def k1_chk198 (v621 : IVec S16 32) (v669 : IVec S16 32) : Prop :=
  (∀ a x, ((![v621, v669] : Fin 2 → IVec S16 32) a x).toNat < S128x128.size a)
instance k1_chk198.dec : ∀ (v621 : IVec S16 32) (v669 : IVec S16 32), Decidable (k1_chk198 v621 v669) := fun v621 v669 => decidable_of_iff' _ (Iff.of_eq (k1_chk198.eq_1 v621 v669))
theorem k1_idx198_inb : ∀ (v621 : IVec S16 32) (v669 : IVec S16 32) (k1_hw198 : k1_chk198 v621 v669), ∀ a x, ((![v621, v669] : Fin 2 → IVec S16 32) a x).toNat < S128x128.size a := fun v621 v669 k1_hw198 => k1_hw198

def k1_chk199 (v621 : IVec S16 32) (v678 : IVec S16 32) : Prop :=
  (∀ a x, ((![v621, v678] : Fin 2 → IVec S16 32) a x).toNat < S128x128.size a)
instance k1_chk199.dec : ∀ (v621 : IVec S16 32) (v678 : IVec S16 32), Decidable (k1_chk199 v621 v678) := fun v621 v678 => decidable_of_iff' _ (Iff.of_eq (k1_chk199.eq_1 v621 v678))
theorem k1_idx199_inb : ∀ (v621 : IVec S16 32) (v678 : IVec S16 32) (k1_hw199 : k1_chk199 v621 v678), ∀ a x, ((![v621, v678] : Fin 2 → IVec S16 32) a x).toNat < S128x128.size a := fun v621 v678 k1_hw199 => k1_hw199

def k1_chk200 (v621 : IVec S16 32) (v687 : IVec S16 32) : Prop :=
  (∀ a x, ((![v621, v687] : Fin 2 → IVec S16 32) a x).toNat < S128x128.size a)
instance k1_chk200.dec : ∀ (v621 : IVec S16 32) (v687 : IVec S16 32), Decidable (k1_chk200 v621 v687) := fun v621 v687 => decidable_of_iff' _ (Iff.of_eq (k1_chk200.eq_1 v621 v687))
theorem k1_idx200_inb : ∀ (v621 : IVec S16 32) (v687 : IVec S16 32) (k1_hw200 : k1_chk200 v621 v687), ∀ a x, ((![v621, v687] : Fin 2 → IVec S16 32) a x).toNat < S128x128.size a := fun v621 v687 k1_hw200 => k1_hw200

def k1_chk201 (v621 : IVec S16 32) (v696 : IVec S16 32) : Prop :=
  (∀ a x, ((![v621, v696] : Fin 2 → IVec S16 32) a x).toNat < S128x128.size a)
instance k1_chk201.dec : ∀ (v621 : IVec S16 32) (v696 : IVec S16 32), Decidable (k1_chk201 v621 v696) := fun v621 v696 => decidable_of_iff' _ (Iff.of_eq (k1_chk201.eq_1 v621 v696))
theorem k1_idx201_inb : ∀ (v621 : IVec S16 32) (v696 : IVec S16 32) (k1_hw201 : k1_chk201 v621 v696), ∀ a x, ((![v621, v696] : Fin 2 → IVec S16 32) a x).toNat < S128x128.size a := fun v621 v696 k1_hw201 => k1_hw201

def k1_chk202 (v621 : IVec S16 32) (v705 : IVec S16 32) : Prop :=
  (∀ a x, ((![v621, v705] : Fin 2 → IVec S16 32) a x).toNat < S128x128.size a)
instance k1_chk202.dec : ∀ (v621 : IVec S16 32) (v705 : IVec S16 32), Decidable (k1_chk202 v621 v705) := fun v621 v705 => decidable_of_iff' _ (Iff.of_eq (k1_chk202.eq_1 v621 v705))
theorem k1_idx202_inb : ∀ (v621 : IVec S16 32) (v705 : IVec S16 32) (k1_hw202 : k1_chk202 v621 v705), ∀ a x, ((![v621, v705] : Fin 2 → IVec S16 32) a x).toNat < S128x128.size a := fun v621 v705 k1_hw202 => k1_hw202

def k1_chk203 (v621 : IVec S16 32) (v714 : IVec S16 32) : Prop :=
  (∀ a x, ((![v621, v714] : Fin 2 → IVec S16 32) a x).toNat < S128x128.size a)
instance k1_chk203.dec : ∀ (v621 : IVec S16 32) (v714 : IVec S16 32), Decidable (k1_chk203 v621 v714) := fun v621 v714 => decidable_of_iff' _ (Iff.of_eq (k1_chk203.eq_1 v621 v714))
theorem k1_idx203_inb : ∀ (v621 : IVec S16 32) (v714 : IVec S16 32) (k1_hw203 : k1_chk203 v621 v714), ∀ a x, ((![v621, v714] : Fin 2 → IVec S16 32) a x).toNat < S128x128.size a := fun v621 v714 k1_hw203 => k1_hw203

def k1_chk204 (v621 : IVec S16 32) (v723 : IVec S16 32) : Prop :=
  (∀ a x, ((![v621, v723] : Fin 2 → IVec S16 32) a x).toNat < S128x128.size a)
instance k1_chk204.dec : ∀ (v621 : IVec S16 32) (v723 : IVec S16 32), Decidable (k1_chk204 v621 v723) := fun v621 v723 => decidable_of_iff' _ (Iff.of_eq (k1_chk204.eq_1 v621 v723))
theorem k1_idx204_inb : ∀ (v621 : IVec S16 32) (v723 : IVec S16 32) (k1_hw204 : k1_chk204 v621 v723), ∀ a x, ((![v621, v723] : Fin 2 → IVec S16 32) a x).toNat < S128x128.size a := fun v621 v723 k1_hw204 => k1_hw204

def k1_chk205 (v621 : IVec S16 32) (v732 : IVec S16 32) : Prop :=
  (∀ a x, ((![v621, v732] : Fin 2 → IVec S16 32) a x).toNat < S128x128.size a)
instance k1_chk205.dec : ∀ (v621 : IVec S16 32) (v732 : IVec S16 32), Decidable (k1_chk205 v621 v732) := fun v621 v732 => decidable_of_iff' _ (Iff.of_eq (k1_chk205.eq_1 v621 v732))
theorem k1_idx205_inb : ∀ (v621 : IVec S16 32) (v732 : IVec S16 32) (k1_hw205 : k1_chk205 v621 v732), ∀ a x, ((![v621, v732] : Fin 2 → IVec S16 32) a x).toNat < S128x128.size a := fun v621 v732 k1_hw205 => k1_hw205

def k1_chk206 (v621 : IVec S16 32) (v741 : IVec S16 32) : Prop :=
  (∀ a x, ((![v621, v741] : Fin 2 → IVec S16 32) a x).toNat < S128x128.size a)
instance k1_chk206.dec : ∀ (v621 : IVec S16 32) (v741 : IVec S16 32), Decidable (k1_chk206 v621 v741) := fun v621 v741 => decidable_of_iff' _ (Iff.of_eq (k1_chk206.eq_1 v621 v741))
theorem k1_idx206_inb : ∀ (v621 : IVec S16 32) (v741 : IVec S16 32) (k1_hw206 : k1_chk206 v621 v741), ∀ a x, ((![v621, v741] : Fin 2 → IVec S16 32) a x).toNat < S128x128.size a := fun v621 v741 k1_hw206 => k1_hw206

def k1_chk207 (v621 : IVec S16 32) (v750 : IVec S16 32) : Prop :=
  (∀ a x, ((![v621, v750] : Fin 2 → IVec S16 32) a x).toNat < S128x128.size a)
instance k1_chk207.dec : ∀ (v621 : IVec S16 32) (v750 : IVec S16 32), Decidable (k1_chk207 v621 v750) := fun v621 v750 => decidable_of_iff' _ (Iff.of_eq (k1_chk207.eq_1 v621 v750))
theorem k1_idx207_inb : ∀ (v621 : IVec S16 32) (v750 : IVec S16 32) (k1_hw207 : k1_chk207 v621 v750), ∀ a x, ((![v621, v750] : Fin 2 → IVec S16 32) a x).toNat < S128x128.size a := fun v621 v750 k1_hw207 => k1_hw207

def k1_chk208 (v621 : IVec S16 32) (v759 : IVec S16 32) : Prop :=
  (∀ a x, ((![v621, v759] : Fin 2 → IVec S16 32) a x).toNat < S128x128.size a)
instance k1_chk208.dec : ∀ (v621 : IVec S16 32) (v759 : IVec S16 32), Decidable (k1_chk208 v621 v759) := fun v621 v759 => decidable_of_iff' _ (Iff.of_eq (k1_chk208.eq_1 v621 v759))
theorem k1_idx208_inb : ∀ (v621 : IVec S16 32) (v759 : IVec S16 32) (k1_hw208 : k1_chk208 v621 v759), ∀ a x, ((![v621, v759] : Fin 2 → IVec S16 32) a x).toNat < S128x128.size a := fun v621 v759 k1_hw208 => k1_hw208

def k1_chk209 (v767 : IVec S16 32) (v770 : IVec S16 32) : Prop :=
  (∀ a x, ((![v767, v770] : Fin 2 → IVec S16 32) a x).toNat < S128x128.size a)
instance k1_chk209.dec : ∀ (v767 : IVec S16 32) (v770 : IVec S16 32), Decidable (k1_chk209 v767 v770) := fun v767 v770 => decidable_of_iff' _ (Iff.of_eq (k1_chk209.eq_1 v767 v770))
theorem k1_idx209_inb : ∀ (v767 : IVec S16 32) (v770 : IVec S16 32) (k1_hw209 : k1_chk209 v767 v770), ∀ a x, ((![v767, v770] : Fin 2 → IVec S16 32) a x).toNat < S128x128.size a := fun v767 v770 k1_hw209 => k1_hw209

def k1_chk210 (v767 : IVec S16 32) (v779 : IVec S16 32) : Prop :=
  (∀ a x, ((![v767, v779] : Fin 2 → IVec S16 32) a x).toNat < S128x128.size a)
instance k1_chk210.dec : ∀ (v767 : IVec S16 32) (v779 : IVec S16 32), Decidable (k1_chk210 v767 v779) := fun v767 v779 => decidable_of_iff' _ (Iff.of_eq (k1_chk210.eq_1 v767 v779))
theorem k1_idx210_inb : ∀ (v767 : IVec S16 32) (v779 : IVec S16 32) (k1_hw210 : k1_chk210 v767 v779), ∀ a x, ((![v767, v779] : Fin 2 → IVec S16 32) a x).toNat < S128x128.size a := fun v767 v779 k1_hw210 => k1_hw210

def k1_chk211 (v767 : IVec S16 32) (v788 : IVec S16 32) : Prop :=
  (∀ a x, ((![v767, v788] : Fin 2 → IVec S16 32) a x).toNat < S128x128.size a)
instance k1_chk211.dec : ∀ (v767 : IVec S16 32) (v788 : IVec S16 32), Decidable (k1_chk211 v767 v788) := fun v767 v788 => decidable_of_iff' _ (Iff.of_eq (k1_chk211.eq_1 v767 v788))
theorem k1_idx211_inb : ∀ (v767 : IVec S16 32) (v788 : IVec S16 32) (k1_hw211 : k1_chk211 v767 v788), ∀ a x, ((![v767, v788] : Fin 2 → IVec S16 32) a x).toNat < S128x128.size a := fun v767 v788 k1_hw211 => k1_hw211

def k1_chk212 (v767 : IVec S16 32) (v797 : IVec S16 32) : Prop :=
  (∀ a x, ((![v767, v797] : Fin 2 → IVec S16 32) a x).toNat < S128x128.size a)
instance k1_chk212.dec : ∀ (v767 : IVec S16 32) (v797 : IVec S16 32), Decidable (k1_chk212 v767 v797) := fun v767 v797 => decidable_of_iff' _ (Iff.of_eq (k1_chk212.eq_1 v767 v797))
theorem k1_idx212_inb : ∀ (v767 : IVec S16 32) (v797 : IVec S16 32) (k1_hw212 : k1_chk212 v767 v797), ∀ a x, ((![v767, v797] : Fin 2 → IVec S16 32) a x).toNat < S128x128.size a := fun v767 v797 k1_hw212 => k1_hw212

def k1_chk213 (v767 : IVec S16 32) (v806 : IVec S16 32) : Prop :=
  (∀ a x, ((![v767, v806] : Fin 2 → IVec S16 32) a x).toNat < S128x128.size a)
instance k1_chk213.dec : ∀ (v767 : IVec S16 32) (v806 : IVec S16 32), Decidable (k1_chk213 v767 v806) := fun v767 v806 => decidable_of_iff' _ (Iff.of_eq (k1_chk213.eq_1 v767 v806))
theorem k1_idx213_inb : ∀ (v767 : IVec S16 32) (v806 : IVec S16 32) (k1_hw213 : k1_chk213 v767 v806), ∀ a x, ((![v767, v806] : Fin 2 → IVec S16 32) a x).toNat < S128x128.size a := fun v767 v806 k1_hw213 => k1_hw213

def k1_chk214 (v767 : IVec S16 32) (v815 : IVec S16 32) : Prop :=
  (∀ a x, ((![v767, v815] : Fin 2 → IVec S16 32) a x).toNat < S128x128.size a)
instance k1_chk214.dec : ∀ (v767 : IVec S16 32) (v815 : IVec S16 32), Decidable (k1_chk214 v767 v815) := fun v767 v815 => decidable_of_iff' _ (Iff.of_eq (k1_chk214.eq_1 v767 v815))
theorem k1_idx214_inb : ∀ (v767 : IVec S16 32) (v815 : IVec S16 32) (k1_hw214 : k1_chk214 v767 v815), ∀ a x, ((![v767, v815] : Fin 2 → IVec S16 32) a x).toNat < S128x128.size a := fun v767 v815 k1_hw214 => k1_hw214

def k1_chk215 (v767 : IVec S16 32) (v824 : IVec S16 32) : Prop :=
  (∀ a x, ((![v767, v824] : Fin 2 → IVec S16 32) a x).toNat < S128x128.size a)
instance k1_chk215.dec : ∀ (v767 : IVec S16 32) (v824 : IVec S16 32), Decidable (k1_chk215 v767 v824) := fun v767 v824 => decidable_of_iff' _ (Iff.of_eq (k1_chk215.eq_1 v767 v824))
theorem k1_idx215_inb : ∀ (v767 : IVec S16 32) (v824 : IVec S16 32) (k1_hw215 : k1_chk215 v767 v824), ∀ a x, ((![v767, v824] : Fin 2 → IVec S16 32) a x).toNat < S128x128.size a := fun v767 v824 k1_hw215 => k1_hw215

def k1_chk216 (v767 : IVec S16 32) (v833 : IVec S16 32) : Prop :=
  (∀ a x, ((![v767, v833] : Fin 2 → IVec S16 32) a x).toNat < S128x128.size a)
instance k1_chk216.dec : ∀ (v767 : IVec S16 32) (v833 : IVec S16 32), Decidable (k1_chk216 v767 v833) := fun v767 v833 => decidable_of_iff' _ (Iff.of_eq (k1_chk216.eq_1 v767 v833))
theorem k1_idx216_inb : ∀ (v767 : IVec S16 32) (v833 : IVec S16 32) (k1_hw216 : k1_chk216 v767 v833), ∀ a x, ((![v767, v833] : Fin 2 → IVec S16 32) a x).toNat < S128x128.size a := fun v767 v833 k1_hw216 => k1_hw216

def k1_chk217 (v767 : IVec S16 32) (v842 : IVec S16 32) : Prop :=
  (∀ a x, ((![v767, v842] : Fin 2 → IVec S16 32) a x).toNat < S128x128.size a)
instance k1_chk217.dec : ∀ (v767 : IVec S16 32) (v842 : IVec S16 32), Decidable (k1_chk217 v767 v842) := fun v767 v842 => decidable_of_iff' _ (Iff.of_eq (k1_chk217.eq_1 v767 v842))
theorem k1_idx217_inb : ∀ (v767 : IVec S16 32) (v842 : IVec S16 32) (k1_hw217 : k1_chk217 v767 v842), ∀ a x, ((![v767, v842] : Fin 2 → IVec S16 32) a x).toNat < S128x128.size a := fun v767 v842 k1_hw217 => k1_hw217

def k1_chk218 (v767 : IVec S16 32) (v851 : IVec S16 32) : Prop :=
  (∀ a x, ((![v767, v851] : Fin 2 → IVec S16 32) a x).toNat < S128x128.size a)
instance k1_chk218.dec : ∀ (v767 : IVec S16 32) (v851 : IVec S16 32), Decidable (k1_chk218 v767 v851) := fun v767 v851 => decidable_of_iff' _ (Iff.of_eq (k1_chk218.eq_1 v767 v851))
theorem k1_idx218_inb : ∀ (v767 : IVec S16 32) (v851 : IVec S16 32) (k1_hw218 : k1_chk218 v767 v851), ∀ a x, ((![v767, v851] : Fin 2 → IVec S16 32) a x).toNat < S128x128.size a := fun v767 v851 k1_hw218 => k1_hw218

def k1_chk219 (v767 : IVec S16 32) (v860 : IVec S16 32) : Prop :=
  (∀ a x, ((![v767, v860] : Fin 2 → IVec S16 32) a x).toNat < S128x128.size a)
instance k1_chk219.dec : ∀ (v767 : IVec S16 32) (v860 : IVec S16 32), Decidable (k1_chk219 v767 v860) := fun v767 v860 => decidable_of_iff' _ (Iff.of_eq (k1_chk219.eq_1 v767 v860))
theorem k1_idx219_inb : ∀ (v767 : IVec S16 32) (v860 : IVec S16 32) (k1_hw219 : k1_chk219 v767 v860), ∀ a x, ((![v767, v860] : Fin 2 → IVec S16 32) a x).toNat < S128x128.size a := fun v767 v860 k1_hw219 => k1_hw219

def k1_chk220 (v767 : IVec S16 32) (v869 : IVec S16 32) : Prop :=
  (∀ a x, ((![v767, v869] : Fin 2 → IVec S16 32) a x).toNat < S128x128.size a)
instance k1_chk220.dec : ∀ (v767 : IVec S16 32) (v869 : IVec S16 32), Decidable (k1_chk220 v767 v869) := fun v767 v869 => decidable_of_iff' _ (Iff.of_eq (k1_chk220.eq_1 v767 v869))
theorem k1_idx220_inb : ∀ (v767 : IVec S16 32) (v869 : IVec S16 32) (k1_hw220 : k1_chk220 v767 v869), ∀ a x, ((![v767, v869] : Fin 2 → IVec S16 32) a x).toNat < S128x128.size a := fun v767 v869 k1_hw220 => k1_hw220

def k1_chk221 (v767 : IVec S16 32) (v878 : IVec S16 32) : Prop :=
  (∀ a x, ((![v767, v878] : Fin 2 → IVec S16 32) a x).toNat < S128x128.size a)
instance k1_chk221.dec : ∀ (v767 : IVec S16 32) (v878 : IVec S16 32), Decidable (k1_chk221 v767 v878) := fun v767 v878 => decidable_of_iff' _ (Iff.of_eq (k1_chk221.eq_1 v767 v878))
theorem k1_idx221_inb : ∀ (v767 : IVec S16 32) (v878 : IVec S16 32) (k1_hw221 : k1_chk221 v767 v878), ∀ a x, ((![v767, v878] : Fin 2 → IVec S16 32) a x).toNat < S128x128.size a := fun v767 v878 k1_hw221 => k1_hw221

def k1_chk222 (v767 : IVec S16 32) (v887 : IVec S16 32) : Prop :=
  (∀ a x, ((![v767, v887] : Fin 2 → IVec S16 32) a x).toNat < S128x128.size a)
instance k1_chk222.dec : ∀ (v767 : IVec S16 32) (v887 : IVec S16 32), Decidable (k1_chk222 v767 v887) := fun v767 v887 => decidable_of_iff' _ (Iff.of_eq (k1_chk222.eq_1 v767 v887))
theorem k1_idx222_inb : ∀ (v767 : IVec S16 32) (v887 : IVec S16 32) (k1_hw222 : k1_chk222 v767 v887), ∀ a x, ((![v767, v887] : Fin 2 → IVec S16 32) a x).toNat < S128x128.size a := fun v767 v887 k1_hw222 => k1_hw222

def k1_chk223 (v767 : IVec S16 32) (v896 : IVec S16 32) : Prop :=
  (∀ a x, ((![v767, v896] : Fin 2 → IVec S16 32) a x).toNat < S128x128.size a)
instance k1_chk223.dec : ∀ (v767 : IVec S16 32) (v896 : IVec S16 32), Decidable (k1_chk223 v767 v896) := fun v767 v896 => decidable_of_iff' _ (Iff.of_eq (k1_chk223.eq_1 v767 v896))
theorem k1_idx223_inb : ∀ (v767 : IVec S16 32) (v896 : IVec S16 32) (k1_hw223 : k1_chk223 v767 v896), ∀ a x, ((![v767, v896] : Fin 2 → IVec S16 32) a x).toNat < S128x128.size a := fun v767 v896 k1_hw223 => k1_hw223

def k1_chk224 (v767 : IVec S16 32) (v905 : IVec S16 32) : Prop :=
  (∀ a x, ((![v767, v905] : Fin 2 → IVec S16 32) a x).toNat < S128x128.size a)
instance k1_chk224.dec : ∀ (v767 : IVec S16 32) (v905 : IVec S16 32), Decidable (k1_chk224 v767 v905) := fun v767 v905 => decidable_of_iff' _ (Iff.of_eq (k1_chk224.eq_1 v767 v905))
theorem k1_idx224_inb : ∀ (v767 : IVec S16 32) (v905 : IVec S16 32) (k1_hw224 : k1_chk224 v767 v905), ∀ a x, ((![v767, v905] : Fin 2 → IVec S16 32) a x).toNat < S128x128.size a := fun v767 v905 k1_hw224 => k1_hw224

def k1_chk225 (v913 : IVec S16 32) (v916 : IVec S16 32) : Prop :=
  (∀ a x, ((![v913, v916] : Fin 2 → IVec S16 32) a x).toNat < S128x128.size a)
instance k1_chk225.dec : ∀ (v913 : IVec S16 32) (v916 : IVec S16 32), Decidable (k1_chk225 v913 v916) := fun v913 v916 => decidable_of_iff' _ (Iff.of_eq (k1_chk225.eq_1 v913 v916))
theorem k1_idx225_inb : ∀ (v913 : IVec S16 32) (v916 : IVec S16 32) (k1_hw225 : k1_chk225 v913 v916), ∀ a x, ((![v913, v916] : Fin 2 → IVec S16 32) a x).toNat < S128x128.size a := fun v913 v916 k1_hw225 => k1_hw225

def k1_chk226 (v913 : IVec S16 32) (v925 : IVec S16 32) : Prop :=
  (∀ a x, ((![v913, v925] : Fin 2 → IVec S16 32) a x).toNat < S128x128.size a)
instance k1_chk226.dec : ∀ (v913 : IVec S16 32) (v925 : IVec S16 32), Decidable (k1_chk226 v913 v925) := fun v913 v925 => decidable_of_iff' _ (Iff.of_eq (k1_chk226.eq_1 v913 v925))
theorem k1_idx226_inb : ∀ (v913 : IVec S16 32) (v925 : IVec S16 32) (k1_hw226 : k1_chk226 v913 v925), ∀ a x, ((![v913, v925] : Fin 2 → IVec S16 32) a x).toNat < S128x128.size a := fun v913 v925 k1_hw226 => k1_hw226

def k1_chk227 (v913 : IVec S16 32) (v934 : IVec S16 32) : Prop :=
  (∀ a x, ((![v913, v934] : Fin 2 → IVec S16 32) a x).toNat < S128x128.size a)
instance k1_chk227.dec : ∀ (v913 : IVec S16 32) (v934 : IVec S16 32), Decidable (k1_chk227 v913 v934) := fun v913 v934 => decidable_of_iff' _ (Iff.of_eq (k1_chk227.eq_1 v913 v934))
theorem k1_idx227_inb : ∀ (v913 : IVec S16 32) (v934 : IVec S16 32) (k1_hw227 : k1_chk227 v913 v934), ∀ a x, ((![v913, v934] : Fin 2 → IVec S16 32) a x).toNat < S128x128.size a := fun v913 v934 k1_hw227 => k1_hw227

def k1_chk228 (v913 : IVec S16 32) (v943 : IVec S16 32) : Prop :=
  (∀ a x, ((![v913, v943] : Fin 2 → IVec S16 32) a x).toNat < S128x128.size a)
instance k1_chk228.dec : ∀ (v913 : IVec S16 32) (v943 : IVec S16 32), Decidable (k1_chk228 v913 v943) := fun v913 v943 => decidable_of_iff' _ (Iff.of_eq (k1_chk228.eq_1 v913 v943))
theorem k1_idx228_inb : ∀ (v913 : IVec S16 32) (v943 : IVec S16 32) (k1_hw228 : k1_chk228 v913 v943), ∀ a x, ((![v913, v943] : Fin 2 → IVec S16 32) a x).toNat < S128x128.size a := fun v913 v943 k1_hw228 => k1_hw228

def k1_chk229 (v913 : IVec S16 32) (v952 : IVec S16 32) : Prop :=
  (∀ a x, ((![v913, v952] : Fin 2 → IVec S16 32) a x).toNat < S128x128.size a)
instance k1_chk229.dec : ∀ (v913 : IVec S16 32) (v952 : IVec S16 32), Decidable (k1_chk229 v913 v952) := fun v913 v952 => decidable_of_iff' _ (Iff.of_eq (k1_chk229.eq_1 v913 v952))
theorem k1_idx229_inb : ∀ (v913 : IVec S16 32) (v952 : IVec S16 32) (k1_hw229 : k1_chk229 v913 v952), ∀ a x, ((![v913, v952] : Fin 2 → IVec S16 32) a x).toNat < S128x128.size a := fun v913 v952 k1_hw229 => k1_hw229

def k1_chk230 (v913 : IVec S16 32) (v961 : IVec S16 32) : Prop :=
  (∀ a x, ((![v913, v961] : Fin 2 → IVec S16 32) a x).toNat < S128x128.size a)
instance k1_chk230.dec : ∀ (v913 : IVec S16 32) (v961 : IVec S16 32), Decidable (k1_chk230 v913 v961) := fun v913 v961 => decidable_of_iff' _ (Iff.of_eq (k1_chk230.eq_1 v913 v961))
theorem k1_idx230_inb : ∀ (v913 : IVec S16 32) (v961 : IVec S16 32) (k1_hw230 : k1_chk230 v913 v961), ∀ a x, ((![v913, v961] : Fin 2 → IVec S16 32) a x).toNat < S128x128.size a := fun v913 v961 k1_hw230 => k1_hw230

def k1_chk231 (v913 : IVec S16 32) (v970 : IVec S16 32) : Prop :=
  (∀ a x, ((![v913, v970] : Fin 2 → IVec S16 32) a x).toNat < S128x128.size a)
instance k1_chk231.dec : ∀ (v913 : IVec S16 32) (v970 : IVec S16 32), Decidable (k1_chk231 v913 v970) := fun v913 v970 => decidable_of_iff' _ (Iff.of_eq (k1_chk231.eq_1 v913 v970))
theorem k1_idx231_inb : ∀ (v913 : IVec S16 32) (v970 : IVec S16 32) (k1_hw231 : k1_chk231 v913 v970), ∀ a x, ((![v913, v970] : Fin 2 → IVec S16 32) a x).toNat < S128x128.size a := fun v913 v970 k1_hw231 => k1_hw231

def k1_chk232 (v913 : IVec S16 32) (v979 : IVec S16 32) : Prop :=
  (∀ a x, ((![v913, v979] : Fin 2 → IVec S16 32) a x).toNat < S128x128.size a)
instance k1_chk232.dec : ∀ (v913 : IVec S16 32) (v979 : IVec S16 32), Decidable (k1_chk232 v913 v979) := fun v913 v979 => decidable_of_iff' _ (Iff.of_eq (k1_chk232.eq_1 v913 v979))
theorem k1_idx232_inb : ∀ (v913 : IVec S16 32) (v979 : IVec S16 32) (k1_hw232 : k1_chk232 v913 v979), ∀ a x, ((![v913, v979] : Fin 2 → IVec S16 32) a x).toNat < S128x128.size a := fun v913 v979 k1_hw232 => k1_hw232

def k1_chk233 (v913 : IVec S16 32) (v988 : IVec S16 32) : Prop :=
  (∀ a x, ((![v913, v988] : Fin 2 → IVec S16 32) a x).toNat < S128x128.size a)
instance k1_chk233.dec : ∀ (v913 : IVec S16 32) (v988 : IVec S16 32), Decidable (k1_chk233 v913 v988) := fun v913 v988 => decidable_of_iff' _ (Iff.of_eq (k1_chk233.eq_1 v913 v988))
theorem k1_idx233_inb : ∀ (v913 : IVec S16 32) (v988 : IVec S16 32) (k1_hw233 : k1_chk233 v913 v988), ∀ a x, ((![v913, v988] : Fin 2 → IVec S16 32) a x).toNat < S128x128.size a := fun v913 v988 k1_hw233 => k1_hw233

def k1_chk234 (v913 : IVec S16 32) (v997 : IVec S16 32) : Prop :=
  (∀ a x, ((![v913, v997] : Fin 2 → IVec S16 32) a x).toNat < S128x128.size a)
instance k1_chk234.dec : ∀ (v913 : IVec S16 32) (v997 : IVec S16 32), Decidable (k1_chk234 v913 v997) := fun v913 v997 => decidable_of_iff' _ (Iff.of_eq (k1_chk234.eq_1 v913 v997))
theorem k1_idx234_inb : ∀ (v913 : IVec S16 32) (v997 : IVec S16 32) (k1_hw234 : k1_chk234 v913 v997), ∀ a x, ((![v913, v997] : Fin 2 → IVec S16 32) a x).toNat < S128x128.size a := fun v913 v997 k1_hw234 => k1_hw234

def k1_chk235 (v913 : IVec S16 32) (v1006 : IVec S16 32) : Prop :=
  (∀ a x, ((![v913, v1006] : Fin 2 → IVec S16 32) a x).toNat < S128x128.size a)
instance k1_chk235.dec : ∀ (v913 : IVec S16 32) (v1006 : IVec S16 32), Decidable (k1_chk235 v913 v1006) := fun v913 v1006 => decidable_of_iff' _ (Iff.of_eq (k1_chk235.eq_1 v913 v1006))
theorem k1_idx235_inb : ∀ (v913 : IVec S16 32) (v1006 : IVec S16 32) (k1_hw235 : k1_chk235 v913 v1006), ∀ a x, ((![v913, v1006] : Fin 2 → IVec S16 32) a x).toNat < S128x128.size a := fun v913 v1006 k1_hw235 => k1_hw235

def k1_chk236 (v913 : IVec S16 32) (v1015 : IVec S16 32) : Prop :=
  (∀ a x, ((![v913, v1015] : Fin 2 → IVec S16 32) a x).toNat < S128x128.size a)
instance k1_chk236.dec : ∀ (v913 : IVec S16 32) (v1015 : IVec S16 32), Decidable (k1_chk236 v913 v1015) := fun v913 v1015 => decidable_of_iff' _ (Iff.of_eq (k1_chk236.eq_1 v913 v1015))
theorem k1_idx236_inb : ∀ (v913 : IVec S16 32) (v1015 : IVec S16 32) (k1_hw236 : k1_chk236 v913 v1015), ∀ a x, ((![v913, v1015] : Fin 2 → IVec S16 32) a x).toNat < S128x128.size a := fun v913 v1015 k1_hw236 => k1_hw236

def k1_chk237 (v913 : IVec S16 32) (v1024 : IVec S16 32) : Prop :=
  (∀ a x, ((![v913, v1024] : Fin 2 → IVec S16 32) a x).toNat < S128x128.size a)
instance k1_chk237.dec : ∀ (v913 : IVec S16 32) (v1024 : IVec S16 32), Decidable (k1_chk237 v913 v1024) := fun v913 v1024 => decidable_of_iff' _ (Iff.of_eq (k1_chk237.eq_1 v913 v1024))
theorem k1_idx237_inb : ∀ (v913 : IVec S16 32) (v1024 : IVec S16 32) (k1_hw237 : k1_chk237 v913 v1024), ∀ a x, ((![v913, v1024] : Fin 2 → IVec S16 32) a x).toNat < S128x128.size a := fun v913 v1024 k1_hw237 => k1_hw237

def k1_chk238 (v913 : IVec S16 32) (v1033 : IVec S16 32) : Prop :=
  (∀ a x, ((![v913, v1033] : Fin 2 → IVec S16 32) a x).toNat < S128x128.size a)
instance k1_chk238.dec : ∀ (v913 : IVec S16 32) (v1033 : IVec S16 32), Decidable (k1_chk238 v913 v1033) := fun v913 v1033 => decidable_of_iff' _ (Iff.of_eq (k1_chk238.eq_1 v913 v1033))
theorem k1_idx238_inb : ∀ (v913 : IVec S16 32) (v1033 : IVec S16 32) (k1_hw238 : k1_chk238 v913 v1033), ∀ a x, ((![v913, v1033] : Fin 2 → IVec S16 32) a x).toNat < S128x128.size a := fun v913 v1033 k1_hw238 => k1_hw238

def k1_chk239 (v913 : IVec S16 32) (v1042 : IVec S16 32) : Prop :=
  (∀ a x, ((![v913, v1042] : Fin 2 → IVec S16 32) a x).toNat < S128x128.size a)
instance k1_chk239.dec : ∀ (v913 : IVec S16 32) (v1042 : IVec S16 32), Decidable (k1_chk239 v913 v1042) := fun v913 v1042 => decidable_of_iff' _ (Iff.of_eq (k1_chk239.eq_1 v913 v1042))
theorem k1_idx239_inb : ∀ (v913 : IVec S16 32) (v1042 : IVec S16 32) (k1_hw239 : k1_chk239 v913 v1042), ∀ a x, ((![v913, v1042] : Fin 2 → IVec S16 32) a x).toNat < S128x128.size a := fun v913 v1042 k1_hw239 => k1_hw239

def k1_chk240 (v913 : IVec S16 32) (v1051 : IVec S16 32) : Prop :=
  (∀ a x, ((![v913, v1051] : Fin 2 → IVec S16 32) a x).toNat < S128x128.size a)
instance k1_chk240.dec : ∀ (v913 : IVec S16 32) (v1051 : IVec S16 32), Decidable (k1_chk240 v913 v1051) := fun v913 v1051 => decidable_of_iff' _ (Iff.of_eq (k1_chk240.eq_1 v913 v1051))
theorem k1_idx240_inb : ∀ (v913 : IVec S16 32) (v1051 : IVec S16 32) (k1_hw240 : k1_chk240 v913 v1051), ∀ a x, ((![v913, v1051] : Fin 2 → IVec S16 32) a x).toNat < S128x128.size a := fun v913 v1051 k1_hw240 => k1_hw240

def k1_chk241 (v1059 : IVec S16 32) (v1062 : IVec S16 32) : Prop :=
  (∀ a x, ((![v1059, v1062] : Fin 2 → IVec S16 32) a x).toNat < S128x128.size a)
instance k1_chk241.dec : ∀ (v1059 : IVec S16 32) (v1062 : IVec S16 32), Decidable (k1_chk241 v1059 v1062) := fun v1059 v1062 => decidable_of_iff' _ (Iff.of_eq (k1_chk241.eq_1 v1059 v1062))
theorem k1_idx241_inb : ∀ (v1059 : IVec S16 32) (v1062 : IVec S16 32) (k1_hw241 : k1_chk241 v1059 v1062), ∀ a x, ((![v1059, v1062] : Fin 2 → IVec S16 32) a x).toNat < S128x128.size a := fun v1059 v1062 k1_hw241 => k1_hw241

def k1_chk242 (v1059 : IVec S16 32) (v1071 : IVec S16 32) : Prop :=
  (∀ a x, ((![v1059, v1071] : Fin 2 → IVec S16 32) a x).toNat < S128x128.size a)
instance k1_chk242.dec : ∀ (v1059 : IVec S16 32) (v1071 : IVec S16 32), Decidable (k1_chk242 v1059 v1071) := fun v1059 v1071 => decidable_of_iff' _ (Iff.of_eq (k1_chk242.eq_1 v1059 v1071))
theorem k1_idx242_inb : ∀ (v1059 : IVec S16 32) (v1071 : IVec S16 32) (k1_hw242 : k1_chk242 v1059 v1071), ∀ a x, ((![v1059, v1071] : Fin 2 → IVec S16 32) a x).toNat < S128x128.size a := fun v1059 v1071 k1_hw242 => k1_hw242

def k1_chk243 (v1059 : IVec S16 32) (v1080 : IVec S16 32) : Prop :=
  (∀ a x, ((![v1059, v1080] : Fin 2 → IVec S16 32) a x).toNat < S128x128.size a)
instance k1_chk243.dec : ∀ (v1059 : IVec S16 32) (v1080 : IVec S16 32), Decidable (k1_chk243 v1059 v1080) := fun v1059 v1080 => decidable_of_iff' _ (Iff.of_eq (k1_chk243.eq_1 v1059 v1080))
theorem k1_idx243_inb : ∀ (v1059 : IVec S16 32) (v1080 : IVec S16 32) (k1_hw243 : k1_chk243 v1059 v1080), ∀ a x, ((![v1059, v1080] : Fin 2 → IVec S16 32) a x).toNat < S128x128.size a := fun v1059 v1080 k1_hw243 => k1_hw243

def k1_chk244 (v1059 : IVec S16 32) (v1089 : IVec S16 32) : Prop :=
  (∀ a x, ((![v1059, v1089] : Fin 2 → IVec S16 32) a x).toNat < S128x128.size a)
instance k1_chk244.dec : ∀ (v1059 : IVec S16 32) (v1089 : IVec S16 32), Decidable (k1_chk244 v1059 v1089) := fun v1059 v1089 => decidable_of_iff' _ (Iff.of_eq (k1_chk244.eq_1 v1059 v1089))
theorem k1_idx244_inb : ∀ (v1059 : IVec S16 32) (v1089 : IVec S16 32) (k1_hw244 : k1_chk244 v1059 v1089), ∀ a x, ((![v1059, v1089] : Fin 2 → IVec S16 32) a x).toNat < S128x128.size a := fun v1059 v1089 k1_hw244 => k1_hw244

def k1_chk245 (v1059 : IVec S16 32) (v1098 : IVec S16 32) : Prop :=
  (∀ a x, ((![v1059, v1098] : Fin 2 → IVec S16 32) a x).toNat < S128x128.size a)
instance k1_chk245.dec : ∀ (v1059 : IVec S16 32) (v1098 : IVec S16 32), Decidable (k1_chk245 v1059 v1098) := fun v1059 v1098 => decidable_of_iff' _ (Iff.of_eq (k1_chk245.eq_1 v1059 v1098))
theorem k1_idx245_inb : ∀ (v1059 : IVec S16 32) (v1098 : IVec S16 32) (k1_hw245 : k1_chk245 v1059 v1098), ∀ a x, ((![v1059, v1098] : Fin 2 → IVec S16 32) a x).toNat < S128x128.size a := fun v1059 v1098 k1_hw245 => k1_hw245

def k1_chk246 (v1059 : IVec S16 32) (v1107 : IVec S16 32) : Prop :=
  (∀ a x, ((![v1059, v1107] : Fin 2 → IVec S16 32) a x).toNat < S128x128.size a)
instance k1_chk246.dec : ∀ (v1059 : IVec S16 32) (v1107 : IVec S16 32), Decidable (k1_chk246 v1059 v1107) := fun v1059 v1107 => decidable_of_iff' _ (Iff.of_eq (k1_chk246.eq_1 v1059 v1107))
theorem k1_idx246_inb : ∀ (v1059 : IVec S16 32) (v1107 : IVec S16 32) (k1_hw246 : k1_chk246 v1059 v1107), ∀ a x, ((![v1059, v1107] : Fin 2 → IVec S16 32) a x).toNat < S128x128.size a := fun v1059 v1107 k1_hw246 => k1_hw246

def k1_chk247 (v1059 : IVec S16 32) (v1116 : IVec S16 32) : Prop :=
  (∀ a x, ((![v1059, v1116] : Fin 2 → IVec S16 32) a x).toNat < S128x128.size a)
instance k1_chk247.dec : ∀ (v1059 : IVec S16 32) (v1116 : IVec S16 32), Decidable (k1_chk247 v1059 v1116) := fun v1059 v1116 => decidable_of_iff' _ (Iff.of_eq (k1_chk247.eq_1 v1059 v1116))
theorem k1_idx247_inb : ∀ (v1059 : IVec S16 32) (v1116 : IVec S16 32) (k1_hw247 : k1_chk247 v1059 v1116), ∀ a x, ((![v1059, v1116] : Fin 2 → IVec S16 32) a x).toNat < S128x128.size a := fun v1059 v1116 k1_hw247 => k1_hw247

def k1_chk248 (v1059 : IVec S16 32) (v1125 : IVec S16 32) : Prop :=
  (∀ a x, ((![v1059, v1125] : Fin 2 → IVec S16 32) a x).toNat < S128x128.size a)
instance k1_chk248.dec : ∀ (v1059 : IVec S16 32) (v1125 : IVec S16 32), Decidable (k1_chk248 v1059 v1125) := fun v1059 v1125 => decidable_of_iff' _ (Iff.of_eq (k1_chk248.eq_1 v1059 v1125))
theorem k1_idx248_inb : ∀ (v1059 : IVec S16 32) (v1125 : IVec S16 32) (k1_hw248 : k1_chk248 v1059 v1125), ∀ a x, ((![v1059, v1125] : Fin 2 → IVec S16 32) a x).toNat < S128x128.size a := fun v1059 v1125 k1_hw248 => k1_hw248

def k1_chk249 (v1059 : IVec S16 32) (v1134 : IVec S16 32) : Prop :=
  (∀ a x, ((![v1059, v1134] : Fin 2 → IVec S16 32) a x).toNat < S128x128.size a)
instance k1_chk249.dec : ∀ (v1059 : IVec S16 32) (v1134 : IVec S16 32), Decidable (k1_chk249 v1059 v1134) := fun v1059 v1134 => decidable_of_iff' _ (Iff.of_eq (k1_chk249.eq_1 v1059 v1134))
theorem k1_idx249_inb : ∀ (v1059 : IVec S16 32) (v1134 : IVec S16 32) (k1_hw249 : k1_chk249 v1059 v1134), ∀ a x, ((![v1059, v1134] : Fin 2 → IVec S16 32) a x).toNat < S128x128.size a := fun v1059 v1134 k1_hw249 => k1_hw249

def k1_chk250 (v1059 : IVec S16 32) (v1143 : IVec S16 32) : Prop :=
  (∀ a x, ((![v1059, v1143] : Fin 2 → IVec S16 32) a x).toNat < S128x128.size a)
instance k1_chk250.dec : ∀ (v1059 : IVec S16 32) (v1143 : IVec S16 32), Decidable (k1_chk250 v1059 v1143) := fun v1059 v1143 => decidable_of_iff' _ (Iff.of_eq (k1_chk250.eq_1 v1059 v1143))
theorem k1_idx250_inb : ∀ (v1059 : IVec S16 32) (v1143 : IVec S16 32) (k1_hw250 : k1_chk250 v1059 v1143), ∀ a x, ((![v1059, v1143] : Fin 2 → IVec S16 32) a x).toNat < S128x128.size a := fun v1059 v1143 k1_hw250 => k1_hw250

def k1_chk251 (v1059 : IVec S16 32) (v1152 : IVec S16 32) : Prop :=
  (∀ a x, ((![v1059, v1152] : Fin 2 → IVec S16 32) a x).toNat < S128x128.size a)
instance k1_chk251.dec : ∀ (v1059 : IVec S16 32) (v1152 : IVec S16 32), Decidable (k1_chk251 v1059 v1152) := fun v1059 v1152 => decidable_of_iff' _ (Iff.of_eq (k1_chk251.eq_1 v1059 v1152))
theorem k1_idx251_inb : ∀ (v1059 : IVec S16 32) (v1152 : IVec S16 32) (k1_hw251 : k1_chk251 v1059 v1152), ∀ a x, ((![v1059, v1152] : Fin 2 → IVec S16 32) a x).toNat < S128x128.size a := fun v1059 v1152 k1_hw251 => k1_hw251

def k1_chk252 (v1059 : IVec S16 32) (v1161 : IVec S16 32) : Prop :=
  (∀ a x, ((![v1059, v1161] : Fin 2 → IVec S16 32) a x).toNat < S128x128.size a)
instance k1_chk252.dec : ∀ (v1059 : IVec S16 32) (v1161 : IVec S16 32), Decidable (k1_chk252 v1059 v1161) := fun v1059 v1161 => decidable_of_iff' _ (Iff.of_eq (k1_chk252.eq_1 v1059 v1161))
theorem k1_idx252_inb : ∀ (v1059 : IVec S16 32) (v1161 : IVec S16 32) (k1_hw252 : k1_chk252 v1059 v1161), ∀ a x, ((![v1059, v1161] : Fin 2 → IVec S16 32) a x).toNat < S128x128.size a := fun v1059 v1161 k1_hw252 => k1_hw252

def k1_chk253 (v1059 : IVec S16 32) (v1170 : IVec S16 32) : Prop :=
  (∀ a x, ((![v1059, v1170] : Fin 2 → IVec S16 32) a x).toNat < S128x128.size a)
instance k1_chk253.dec : ∀ (v1059 : IVec S16 32) (v1170 : IVec S16 32), Decidable (k1_chk253 v1059 v1170) := fun v1059 v1170 => decidable_of_iff' _ (Iff.of_eq (k1_chk253.eq_1 v1059 v1170))
theorem k1_idx253_inb : ∀ (v1059 : IVec S16 32) (v1170 : IVec S16 32) (k1_hw253 : k1_chk253 v1059 v1170), ∀ a x, ((![v1059, v1170] : Fin 2 → IVec S16 32) a x).toNat < S128x128.size a := fun v1059 v1170 k1_hw253 => k1_hw253

def k1_chk254 (v1059 : IVec S16 32) (v1179 : IVec S16 32) : Prop :=
  (∀ a x, ((![v1059, v1179] : Fin 2 → IVec S16 32) a x).toNat < S128x128.size a)
instance k1_chk254.dec : ∀ (v1059 : IVec S16 32) (v1179 : IVec S16 32), Decidable (k1_chk254 v1059 v1179) := fun v1059 v1179 => decidable_of_iff' _ (Iff.of_eq (k1_chk254.eq_1 v1059 v1179))
theorem k1_idx254_inb : ∀ (v1059 : IVec S16 32) (v1179 : IVec S16 32) (k1_hw254 : k1_chk254 v1059 v1179), ∀ a x, ((![v1059, v1179] : Fin 2 → IVec S16 32) a x).toNat < S128x128.size a := fun v1059 v1179 k1_hw254 => k1_hw254

def k1_chk255 (v1059 : IVec S16 32) (v1188 : IVec S16 32) : Prop :=
  (∀ a x, ((![v1059, v1188] : Fin 2 → IVec S16 32) a x).toNat < S128x128.size a)
instance k1_chk255.dec : ∀ (v1059 : IVec S16 32) (v1188 : IVec S16 32), Decidable (k1_chk255 v1059 v1188) := fun v1059 v1188 => decidable_of_iff' _ (Iff.of_eq (k1_chk255.eq_1 v1059 v1188))
theorem k1_idx255_inb : ∀ (v1059 : IVec S16 32) (v1188 : IVec S16 32) (k1_hw255 : k1_chk255 v1059 v1188), ∀ a x, ((![v1059, v1188] : Fin 2 → IVec S16 32) a x).toNat < S128x128.size a := fun v1059 v1188 k1_hw255 => k1_hw255

def k1_chk256 (v1059 : IVec S16 32) (v1197 : IVec S16 32) : Prop :=
  (∀ a x, ((![v1059, v1197] : Fin 2 → IVec S16 32) a x).toNat < S128x128.size a)
instance k1_chk256.dec : ∀ (v1059 : IVec S16 32) (v1197 : IVec S16 32), Decidable (k1_chk256 v1059 v1197) := fun v1059 v1197 => decidable_of_iff' _ (Iff.of_eq (k1_chk256.eq_1 v1059 v1197))
theorem k1_idx256_inb : ∀ (v1059 : IVec S16 32) (v1197 : IVec S16 32) (k1_hw256 : k1_chk256 v1059 v1197), ∀ a x, ((![v1059, v1197] : Fin 2 → IVec S16 32) a x).toNat < S128x128.size a := fun v1059 v1197 k1_hw256 => k1_hw256
def k1_off8 (i : grid1.Coords) (k1_t4 : Fin k1_t4_loop.trips) (k1_t5 : Fin k1_t5_loop.trips) : Fin 3 → Nat :=
  let c1_i32_29 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_4 : BitVec 32 := 0#32
  let c1_i32_6 : BitVec 32 := 1#32
  let arg12 : BitVec 32 := Scf.iv c0_i32_4 c1_i32_6 k1_t4
  let v8 : BitVec 32 := Scalar.addi v2 arg12
  let c0_i32_10 : BitVec 32 := 0#32
  let c1_i32_11 : BitVec 32 := 1#32
  let arg14 : BitVec 32 := Scf.iv c0_i32_10 c1_i32_11 k1_t5
  let c128_i32_28 : BitVec 32 := 128#32
  let v32 : BitVec 32 := Scalar.muli arg14 c128_i32_28
  ![1, v8.toNat, v32.toNat]
abbrev grid2 : Pipeline.Grid := .none

abbrev stage2_0 : Fin 1 → Memref sig .tc .vmem S2x1024x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  bcast_S1024_S1024x1_0 : S1024.BroadcastsInDim S1024x1 (![0] : Fin 1 → Fin S1024x1.rank)
  concatenates_S1024x1_S1024x511_S1024x512_d1 : Shape.Concatenates [S1024x1, S1024x511] S1024x512 1
  shapeCasts_S128_S1x128 : S128.ShapeCasts S1x128
  inb_S256x2048_S256x2048_0_0 : ∀ a, (![0, 0] : Fin 2 → Nat) a + S256x2048.size a ≤ S256x2048.size a
  h_S256x2048 : 0 < S256x2048.numel
  inb_S2048x128_S2048x128_0_0 : ∀ a, (![0, 0] : Fin 2 → Nat) a + S2048x128.size a ≤ S2048x128.size a
  h_S2048x128 : 0 < S2048x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  reduces_S256x128_S256 : S256x128.Reduces [1] S256
  shapeCasts_S256_S256x1 : S256.ShapeCasts S256x1
  broadcasts_S256x1_S256x128 : S256x1.Broadcasts S256x128
  inb_S2x256x128_S1x256x128_0_0_0 : ∀ a, (![0, 0, 0] : Fin 3 → Nat) a + S1x256x128.size a ≤ S2x256x128.size a
  h_S1x256x128 : 0 < S1x256x128.numel
  shapeCasts_S1x256x128_S256x128 : S1x256x128.ShapeCasts S256x128
  shapeCasts_S256x128_S1x256x128 : S256x128.ShapeCasts S1x256x128
  inb_S2x256x128_S1x256x128_1_0_0 : ∀ a, (![1, 0, 0] : Fin 3 → Nat) a + S1x256x128.size a ≤ S2x256x128.size a
  iota_S16_d0_w32_scVector : S16.Iotas .scVector 32 [0]
  squeezes_S1x1x128_S128 : S1x1x128.Squeezes S128
  squeezes_S1x128_S128 : S1x128.Squeezes S128
  inb_S100000x128_S100000x128_0_0 : ∀ a, (![0, 0] : Fin 2 → Nat) a + S100000x128.size a ≤ S100000x128.size a
  gathers_S100000x128_S128x128 : S100000x128.Gathers 0 S128x128
  h_S16 : 0 < S16.numel
  h_S128x128 : 0 < S128x128.numel
  slices_S16_o0_S1 : S16.Slices ![0] S1
  inpos_S1_p0 : ∀ a, (![0] : Fin 1 → Nat) a < S1.size a
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  inb_S128_S16_0 : ∀ a, (![0] : Fin 1 → Nat) a + S16.size a ≤ S128.size a
  inb_S128_S16_16 : ∀ a, (![16] : Fin 1 → Nat) a + S16.size a ≤ S128.size a
  inb_S128_S16_32 : ∀ a, (![32] : Fin 1 → Nat) a + S16.size a ≤ S128.size a
  inb_S128_S16_48 : ∀ a, (![48] : Fin 1 → Nat) a + S16.size a ≤ S128.size a
  inb_S128_S16_64 : ∀ a, (![64] : Fin 1 → Nat) a + S16.size a ≤ S128.size a
  inb_S128_S16_80 : ∀ a, (![80] : Fin 1 → Nat) a + S16.size a ≤ S128.size a
  inb_S128_S16_96 : ∀ a, (![96] : Fin 1 → Nat) a + S16.size a ≤ S128.size a
  inb_S128_S16_112 : ∀ a, (![112] : Fin 1 → Nat) a + S16.size a ≤ S128.size a
  inb_S2x1024x512_S1x1024x512_0_0_0 : ∀ a, (![0, 0, 0] : Fin 3 → Nat) a + S1x1024x512.size a ≤ S2x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  reduces_S1x1024x512_S1 : S1x1024x512.Reduces [1, 2] S1
  shapeCasts_S1_S1x1x1 : S1.ShapeCasts S1x1x1
  inpos_S1x1x1_p0_0_0 : ∀ a, (![0, 0, 0] : Fin 3 → Nat) a < S1x1x1.size a
  iota_S1024x512_d1_w32 : S1024x512.Iotas .tc 32 [1]
  inb_S2x1024x512_S1x1024x512_1_0_0 : ∀ a, (![1, 0, 0] : Fin 3 → Nat) a + S1x1024x512.size a ≤ S2x1024x512.size a
  inb_S1x1_S1x1_0_0 : ∀ a, (![0, 0] : Fin 2 → Nat) a + S1x1.size a ≤ S1x1.size a
  h_S1x1 : 0 < S1x1.numel
  shapeCasts_S1x1_S_ : S1x1.ShapeCasts S_
  dot_S256x2048_S2048x128_S256x128_1_0_0_1_n_n_wf : DotDims.WF S256x2048 S2048x128 S256x128 [1] [0] [0] [1] [] []
  hcc1_scratch4 : 10 + S_.numel ≤ 19
  hcc1_scoped0 : 11 + S_.numel ≤ 19
  hcc1_scoped1 : 12 + S_.numel ≤ 19
  hcc1_scoped2 : 13 + S_.numel ≤ 19
  hcc1_scoped3 : 14 + S_.numel ≤ 19
  hcc1_scoped4 : 15 + S_.numel ≤ 19
  hcc1_scoped5 : 16 + S_.numel ≤ 19
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S1024x2048.size a
  hwx0_0 : ∀ i : grid0.Coords, EltTy.bits .f32 = 32 ∨ (Rect.block (s := S1024x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S1024x2048.size a
  hwx0_1 : ∀ i : grid0.Coords, EltTy.bits .f32 = 32 ∨ (Rect.block (s := S1024x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S2048x128.size a
  hwx0_2 : ∀ i : grid0.Coords, EltTy.bits .f32 = 32 ∨ (Rect.block (s := S2048x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S2048x128.size a
  hwx0_4 : ∀ i : grid0.Coords, EltTy.bits .f32 = 32 ∨ (Rect.block (s := S2048x128) S2048x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x256x128.size a ≤ S2x1024x128.size a
  hwx0_6 : ∀ i : grid0.Coords, EltTy.bits .f32 = 32 ∨ (Rect.block (s := S2x1024x128) S2x256x128.size (cc0_transform_6 i) (hinb0_6 i)).WholeWords (EltTy.packing .f32)
  hcore1 : grid1.bound 0 ≤ τ.nSC
  hsub1 : grid1.bound 1 ≤ τ.nSub
  k1_t1_ok : k1_t1_loop.OK
  k1_off1_inb : ∀ (i : grid1.Coords) (k1_t1 : Fin k1_t1_loop.trips), ∀ a, (k1_off1 i k1_t1) a + S1x1x128.size a ≤ S2x1024x128.size a
  k1_t2_ok : k1_t2_loop.OK
  k1_off2_inb : ∀ (i : grid1.Coords) (k1_t1 : Fin k1_t1_loop.trips) (k1_t2 : Fin k1_t2_loop.trips), ∀ a, (k1_off2 i k1_t1 k1_t2) a + S1x128.size a ≤ S1024x512.size a
  k1_t3_ok : k1_t3_loop.OK
  k1_off3_inb : ∀ k1_t3 : Fin k1_t3_loop.trips, ∀ a, (k1_off3 k1_t3) a + S16.size a ≤ S128.size a
  k1_off4_inb : ∀ (i : grid1.Coords) (k1_t1 : Fin k1_t1_loop.trips) (k1_t2 : Fin k1_t2_loop.trips), ∀ a, (k1_off4 i k1_t1 k1_t2) a + S1x1x128.size a ≤ S2x1024x512.size a
  k1_t4_ok : k1_t4_loop.OK
  k1_off5_inb : ∀ (i : grid1.Coords) (k1_t4 : Fin k1_t4_loop.trips), ∀ a, (k1_off5 i k1_t4) a + S1x1x128.size a ≤ S2x1024x128.size a
  k1_t5_ok : k1_t5_loop.OK
  k1_off6_inb : ∀ (i : grid1.Coords) (k1_t4 : Fin k1_t4_loop.trips) (k1_t5 : Fin k1_t5_loop.trips), ∀ a, (k1_off6 i k1_t4 k1_t5) a + S1x128.size a ≤ S1024x512.size a
  k1_t6_ok : k1_t6_loop.OK
  k1_off7_inb : ∀ k1_t6 : Fin k1_t6_loop.trips, ∀ a, (k1_off7 k1_t6) a + S16.size a ≤ S128.size a
  k1_off8_inb : ∀ (i : grid1.Coords) (k1_t4 : Fin k1_t4_loop.trips) (k1_t5 : Fin k1_t5_loop.trips), ∀ a, (k1_off8 i k1_t4 k1_t5) a + S1x1x128.size a ≤ S2x1024x512.size a
  hstage2_0 : ∀ j, (stage2_0 j).IsWhole
  hstage2_1 : ∀ j, (stage2_1 j).IsWhole

variable [Facts₀]

abbrev cc1_scratch4 : DmaSems sig S_ := SemArray.consecutive 10 S_ hcc1_scratch4
abbrev cc1_scoped0 : DmaSems sig S_ := SemArray.consecutive 11 S_ hcc1_scoped0
abbrev cc1_scoped1 : DmaSems sig S_ := SemArray.consecutive 12 S_ hcc1_scoped1
abbrev cc1_scoped2 : DmaSems sig S_ := SemArray.consecutive 13 S_ hcc1_scoped2
abbrev cc1_scoped3 : DmaSems sig S_ := SemArray.consecutive 14 S_ hcc1_scoped3
abbrev cc1_scoped4 : DmaSems sig S_ := SemArray.consecutive 15 S_ hcc1_scoped4
abbrev cc1_scoped5 : DmaSems sig S_ := SemArray.consecutive 16 S_ hcc1_scoped5
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf

abbrev win0_0 : Pipeline.Window sig grid0 :=
  Pipeline.Window.ofSpec (Memref.whole main_arg1) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S2048x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S2048x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S2x256x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win2_0 : Pipeline.Window sig grid2 :=
  Pipeline.Window.whole (Memref.whole main_v5) false false (stage2_0 0) (sem2_0 0) (Memref.isWhole_whole _) (hstage2_0 0)

abbrev win2_1 : Pipeline.Window sig grid2 :=
  Pipeline.Window.whole (Memref.whole main_v6) true false (stage2_1 0) (sem2_1 0) (Memref.isWhole_whole _) (hstage2_1 0)

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S_ : Shape := ⟨0, ![]⟩
abbrev S1024x2048 : Shape := ⟨2, ![1024, 2048]⟩
abbrev S1024 : Shape := ⟨1, ![1024]⟩
abbrev S1024x511 : Shape := ⟨2, ![1024, 511]⟩
abbrev S2048x128 : Shape := ⟨2, ![2048, 128]⟩
abbrev S128 : Shape := ⟨1, ![128]⟩
abbrev S100000x128 : Shape := ⟨2, ![100000, 128]⟩
abbrev S1024x128 : Shape := ⟨2, ![1024, 128]⟩
abbrev S1x128 : Shape := ⟨2, ![1, 128]⟩
abbrev S1024x1 : Shape := ⟨2, ![1024, 1]⟩
abbrev S1024x512 : Shape := ⟨2, ![1024, 512]⟩
abbrev S1024x512x1 : Shape := ⟨3, ![1024, 512, 1]⟩
abbrev S1 : Shape := ⟨1, ![1]⟩
abbrev S1x1x1 : Shape := ⟨3, ![1, 1, 1]⟩
abbrev S1024x512x128 : Shape := ⟨3, ![1024, 512, 128]⟩
abbrev S1024x1x1 : Shape := ⟨3, ![1024, 1, 1]⟩
abbrev S1024x511x1 : Shape := ⟨3, ![1024, 511, 1]⟩
abbrev S523264x1 : Shape := ⟨2, ![523264, 1]⟩
abbrev S1x523264x1x1 : Shape := ⟨4, ![1, 523264, 1, 1]⟩

abbrev nBuf : Space → Nat
  | .hbm => 196
  | .vmem => 0
  | .smem => 0
  | _ => 0

abbrev hbmTy0_0 (i : Nat) : BufTy := match i % 128 with
  | 0 => ⟨S_, .i32⟩
  | 1 => ⟨S1024x2048, .f32⟩
  | 2 => ⟨S1024x2048, .f32⟩
  | 3 => ⟨S1024, .i32⟩
  | 4 => ⟨S1024x511, .i32⟩
  | 5 => ⟨S2048x128, .f32⟩
  | 6 => ⟨S128, .f32⟩
  | 7 => ⟨S2048x128, .f32⟩
  | 8 => ⟨S128, .f32⟩
  | 9 => ⟨S100000x128, .f32⟩
  | 10 => ⟨S100000x128, .f32⟩
  | 11 => ⟨S1024x128, .f32⟩
  | 12 => ⟨S1x128, .f32⟩
  | 13 => ⟨S1024x128, .f32⟩
  | 14 => ⟨S1024x128, .f32⟩
  | 15 => ⟨S_, .f32⟩
  | 16 => ⟨S1024x128, .f32⟩
  | 17 => ⟨S1024x128, .f32⟩
  | 18 => ⟨S_, .f32⟩
  | 19 => ⟨S1024, .f32⟩
  | 20 => ⟨S1024x1, .f32⟩
  | 21 => ⟨S_, .f32⟩
  | 22 => ⟨S1024x1, .f32⟩
  | 23 => ⟨S1024x1, .f32⟩
  | 24 => ⟨S1024x128, .f32⟩
  | 25 => ⟨S1024x128, .f32⟩
  | 26 => ⟨S1024x128, .f32⟩
  | 27 => ⟨S1x128, .f32⟩
  | 28 => ⟨S1024x128, .f32⟩
  | 29 => ⟨S1024x128, .f32⟩
  | 30 => ⟨S_, .f32⟩
  | 31 => ⟨S1024x128, .f32⟩
  | 32 => ⟨S1024x128, .f32⟩
  | 33 => ⟨S_, .f32⟩
  | 34 => ⟨S1024, .f32⟩
  | 35 => ⟨S1024x1, .f32⟩
  | 36 => ⟨S_, .f32⟩
  | 37 => ⟨S1024x1, .f32⟩
  | 38 => ⟨S1024x1, .f32⟩
  | 39 => ⟨S1024x128, .f32⟩
  | 40 => ⟨S1024x128, .f32⟩
  | 41 => ⟨S1024x1, .i32⟩
  | 42 => ⟨S1024x512, .i32⟩
  | 43 => ⟨S_, .i32⟩
  | 44 => ⟨S1024x512, .i32⟩
  | 45 => ⟨S1024x512, .i1⟩
  | 46 => ⟨S_, .i32⟩
  | 47 => ⟨S1024x512, .i32⟩
  | 48 => ⟨S1024x512, .i32⟩
  | 49 => ⟨S1024x512, .i32⟩
  | 50 => ⟨S1024x512x1, .i32⟩
  | 51 => ⟨S1, .i32⟩
  | 52 => ⟨S_, .i32⟩
  | 53 => ⟨S1024x512x1, .i32⟩
  | 54 => ⟨S1024x512x1, .i1⟩
  | 55 => ⟨S1x1x1, .i32⟩
  | 56 => ⟨S1024x512x1, .i32⟩
  | 57 => ⟨S1024x512x1, .i1⟩
  | 58 => ⟨S1024x512x1, .i1⟩
  | 59 => ⟨S_, .i1⟩
  | 60 => ⟨S1024x512, .i1⟩
  | 61 => ⟨S1024x512x128, .f32⟩
  | 62 => ⟨S1024x512x128, .i1⟩
  | 63 => ⟨S_, .f32⟩
  | 64 => ⟨S1024x512x128, .f32⟩
  | 65 => ⟨S1024x512x128, .f32⟩
  | 66 => ⟨S_, .i32⟩
  | 67 => ⟨S1024x512, .i32⟩
  | 68 => ⟨S1024x512, .i1⟩
  | 69 => ⟨S_, .i32⟩
  | 70 => ⟨S1024x512, .i32⟩
  | 71 => ⟨S1024x512, .i32⟩
  | 72 => ⟨S1024x512, .i32⟩
  | 73 => ⟨S1024x512x1, .i32⟩
  | 74 => ⟨S1, .i32⟩
  | 75 => ⟨S_, .i32⟩
  | 76 => ⟨S1024x512x1, .i32⟩
  | 77 => ⟨S1024x512x1, .i1⟩
  | 78 => ⟨S1x1x1, .i32⟩
  | 79 => ⟨S1024x512x1, .i32⟩
  | 80 => ⟨S1024x512x1, .i1⟩
  | 81 => ⟨S1024x512x1, .i1⟩
  | 82 => ⟨S_, .i1⟩
  | 83 => ⟨S1024x512, .i1⟩
  | 84 => ⟨S1024x512x128, .f32⟩
  | 85 => ⟨S1024x512x128, .i1⟩
  | 86 => ⟨S_, .f32⟩
  | 87 => ⟨S1024x512x128, .f32⟩
  | 88 => ⟨S1024x512x128, .f32⟩
  | 89 => ⟨S1024x512, .f32⟩
  | 90 => ⟨S_, .f32⟩
  | 91 => ⟨S1024x512, .f32⟩
  | 92 => ⟨S1024x512, .f32⟩
  | 93 => ⟨S1024x512, .f32⟩
  | 94 => ⟨S1024x512x1, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S1024x512x1, .f32⟩
  | 102 => ⟨S1024x512x1, .f32⟩
  | 103 => ⟨S1024x512, .f32⟩
  | 104 => ⟨S_, .f32⟩
  | 105 => ⟨S1024x512, .f32⟩
  | 106 => ⟨S1024x512, .f32⟩
  | 107 => ⟨S1024x512, .f32⟩
  | 108 => ⟨S1024x512x1, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S1024x512x1, .f32⟩
  | 116 => ⟨S1024x512x1, .f32⟩
  | 117 => ⟨S1024x1x1, .f32⟩
  | 118 => ⟨S_, .f32⟩
  | 119 => ⟨S1024x1x1, .f32⟩
  | 120 => ⟨S1024x1x1, .f32⟩
  | 121 => ⟨S_, .f32⟩
  | 122 => ⟨S1024x1x1, .f32⟩
  | 123 => ⟨S1024x1x1, .f32⟩
  | 124 => ⟨S1024x1x1, .f32⟩
  | 125 => ⟨S1024x1x1, .f32⟩
  | 126 => ⟨S1024x511x1, .f32⟩
  | 127 => ⟨S_, .f32⟩
  | _ => ⟨S_, .i32⟩

abbrev hbmTy0_1 (i : Nat) : BufTy := match i % 128 with
  | 0 => ⟨S1024x511x1, .f32⟩
  | 1 => ⟨S1024x511x1, .f32⟩
  | 2 => ⟨S_, .f32⟩
  | 3 => ⟨S1024x511x1, .f32⟩
  | 4 => ⟨S1024x511x1, .f32⟩
  | 5 => ⟨S_, .f32⟩
  | 6 => ⟨S1024x511x1, .f32⟩
  | 7 => ⟨S1024x511x1, .f32⟩
  | 8 => ⟨S1024x511x1, .f32⟩
  | 9 => ⟨S1024, .f32⟩
  | 10 => ⟨S_, .f32⟩
  | 11 => ⟨S_, .f32⟩
  | 12 => ⟨S523264x1, .f32⟩
  | 13 => ⟨S1x523264x1x1, .f32⟩
  | 14 => ⟨S1x523264x1x1, .f32⟩
  | 15 => ⟨S523264x1, .f32⟩
  | 16 => ⟨S_, .f32⟩
  | 17 => ⟨S1, .f32⟩
  | 18 => ⟨S1, .f32⟩
  | 19 => ⟨S1, .f32⟩
  | 20 => ⟨S_, .f32⟩
  | 21 => ⟨S1, .f32⟩
  | 22 => ⟨S1, .f32⟩
  | 23 => ⟨S_, .f32⟩
  | 24 => ⟨S_, .f32⟩
  | 25 => ⟨S_, .f32⟩
  | 26 => ⟨S_, .f32⟩
  | 27 => ⟨S_, .f32⟩
  | 28 => ⟨S1024x1x1, .f32⟩
  | 29 => ⟨S_, .f32⟩
  | 30 => ⟨S1024x1x1, .f32⟩
  | 31 => ⟨S1024x1x1, .f32⟩
  | 32 => ⟨S_, .f32⟩
  | 33 => ⟨S1024x1x1, .f32⟩
  | 34 => ⟨S1024x1x1, .f32⟩
  | 35 => ⟨S1024x1x1, .f32⟩
  | 36 => ⟨S1024x1x1, .f32⟩
  | 37 => ⟨S1024x511x1, .f32⟩
  | 38 => ⟨S_, .f32⟩
  | 39 => ⟨S1024x511x1, .f32⟩
  | 40 => ⟨S1024x511x1, .f32⟩
  | 41 => ⟨S_, .f32⟩
  | 42 => ⟨S1024x511x1, .f32⟩
  | 43 => ⟨S1024x511x1, .f32⟩
  | 44 => ⟨S_, .f32⟩
  | 45 => ⟨S1024x511x1, .f32⟩
  | 46 => ⟨S1024x511x1, .f32⟩
  | 47 => ⟨S1024x511x1, .f32⟩
  | 48 => ⟨S1024, .f32⟩
  | 49 => ⟨S_, .f32⟩
  | 50 => ⟨S_, .f32⟩
  | 51 => ⟨S523264x1, .f32⟩
  | 52 => ⟨S1x523264x1x1, .f32⟩
  | 53 => ⟨S1x523264x1x1, .f32⟩
  | 54 => ⟨S523264x1, .f32⟩
  | 55 => ⟨S_, .f32⟩
  | 56 => ⟨S1, .f32⟩
  | 57 => ⟨S1, .f32⟩
  | 58 => ⟨S1, .f32⟩
  | 59 => ⟨S_, .f32⟩
  | 60 => ⟨S1, .f32⟩
  | 61 => ⟨S1, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | _ => ⟨S_, .i32⟩

abbrev hbmTy (i : Nat) : BufTy := match i / 128 with
  | 0 => hbmTy0_0 i
  | 1 => hbmTy0_1 i
  | _ => ⟨S_, .i32⟩

abbrev bufTy : (tb : Table) → Fin (tcTables nBuf tb) → BufTy
  | .hbm, ⟨i, _⟩ => hbmTy i
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call0_c : Ref sig .tc := ⟨.hbm, 43, rfl⟩
abbrev main_call0_v0 : Ref sig .tc := ⟨.hbm, 44, rfl⟩
abbrev main_call0_v1 : Ref sig .tc := ⟨.hbm, 45, rfl⟩
abbrev main_call0_c_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_c_1 : Ref sig .tc := ⟨.hbm, 51, rfl⟩
abbrev main_call0_c_2 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_c_3 : Ref sig .tc := ⟨.hbm, 59, rfl⟩
abbrev main_call0_v12 : Ref sig .tc := ⟨.hbm, 60, rfl⟩
abbrev main_call0_v13 : Ref sig .tc := ⟨.hbm, 61, rfl⟩
abbrev main_call0_v14 : Ref sig .tc := ⟨.hbm, 62, rfl⟩
abbrev main_call0_cst : Ref sig .tc := ⟨.hbm, 63, rfl⟩
abbrev main_call0_v15 : Ref sig .tc := ⟨.hbm, 64, rfl⟩
abbrev main_v26 : Ref sig .tc := ⟨.hbm, 65, rfl⟩
abbrev main_call1_c : Ref sig .tc := ⟨.hbm, 66, rfl⟩
abbrev main_call1_v0 : Ref sig .tc := ⟨.hbm, 67, rfl⟩
abbrev main_call1_v1 : Ref sig .tc := ⟨.hbm, 68, rfl⟩
abbrev main_call1_c_0 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_c_1 : Ref sig .tc := ⟨.hbm, 74, rfl⟩
abbrev main_call1_c_2 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_c_3 : Ref sig .tc := ⟨.hbm, 82, rfl⟩
abbrev main_call1_v12 : Ref sig .tc := ⟨.hbm, 83, rfl⟩
abbrev main_call1_v13 : Ref sig .tc := ⟨.hbm, 84, rfl⟩
abbrev main_call1_v14 : Ref sig .tc := ⟨.hbm, 85, rfl⟩
abbrev main_call1_cst : Ref sig .tc := ⟨.hbm, 86, rfl⟩
abbrev main_call1_v15 : Ref sig .tc := ⟨.hbm, 87, rfl⟩
abbrev main_v27 : Ref sig .tc := ⟨.hbm, 88, rfl⟩
abbrev main_v28 : Ref sig .tc := ⟨.hbm, 89, rfl⟩
abbrev main_cst_5 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_cst_6 : Ref sig .tc := ⟨.hbm, 95, rfl⟩
abbrev main_v33 : Ref sig .tc := ⟨.hbm, 96, rfl⟩
abbrev main_cst_7 : Ref sig .tc := ⟨.hbm, 97, rfl⟩
abbrev main_v34 : Ref sig .tc := ⟨.hbm, 98, rfl⟩
abbrev main_cst_8 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_cst_9 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_cst_10 : Ref sig .tc := ⟨.hbm, 109, rfl⟩
abbrev main_v43 : Ref sig .tc := ⟨.hbm, 110, rfl⟩
abbrev main_cst_11 : Ref sig .tc := ⟨.hbm, 111, rfl⟩
abbrev main_v44 : Ref sig .tc := ⟨.hbm, 112, rfl⟩
abbrev main_cst_12 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_cst_13 : Ref sig .tc := ⟨.hbm, 118, rfl⟩
abbrev main_v49 : Ref sig .tc := ⟨.hbm, 119, rfl⟩
abbrev main_v50 : Ref sig .tc := ⟨.hbm, 120, rfl⟩
abbrev main_cst_14 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_cst_15 : Ref sig .tc := ⟨.hbm, 127, rfl⟩
abbrev main_v56 : Ref sig .tc := ⟨.hbm, 128, rfl⟩
abbrev main_v57 : Ref sig .tc := ⟨.hbm, 129, rfl⟩
abbrev main_cst_16 : Ref sig .tc := ⟨.hbm, 130, rfl⟩
abbrev main_v58 : Ref sig .tc := ⟨.hbm, 131, rfl⟩
abbrev main_v59 : Ref sig .tc := ⟨.hbm, 132, rfl⟩
abbrev main_cst_17 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_cst_18 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_cst_19 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_cst_20 : Ref sig .tc := ⟨.hbm, 148, rfl⟩
abbrev main_v72 : Ref sig .tc := ⟨.hbm, 149, rfl⟩
abbrev main_v73 : Ref sig .tc := ⟨.hbm, 150, rfl⟩
abbrev main_cst_21 : Ref sig .tc := ⟨.hbm, 151, rfl⟩
abbrev main_v74 : Ref sig .tc := ⟨.hbm, 152, rfl⟩
abbrev main_v75 : Ref sig .tc := ⟨.hbm, 153, rfl⟩
abbrev main_cst_22 : Ref sig .tc := ⟨.hbm, 154, rfl⟩
abbrev main_v76 : Ref sig .tc := ⟨.hbm, 155, rfl⟩
abbrev main_v77 : Ref sig .tc := ⟨.hbm, 156, rfl⟩
abbrev main_cst_23 : Ref sig .tc := ⟨.hbm, 157, rfl⟩
abbrev main_v78 : Ref sig .tc := ⟨.hbm, 158, rfl⟩
abbrev main_v79 : Ref sig .tc := ⟨.hbm, 159, rfl⟩
abbrev main_cst_24 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_cst_25 : Ref sig .tc := ⟨.hbm, 166, rfl⟩
abbrev main_v85 : Ref sig .tc := ⟨.hbm, 167, rfl⟩
abbrev main_v86 : Ref sig .tc := ⟨.hbm, 168, rfl⟩
abbrev main_cst_26 : Ref sig .tc := ⟨.hbm, 169, rfl⟩
abbrev main_v87 : Ref sig .tc := ⟨.hbm, 170, rfl⟩
abbrev main_v88 : Ref sig .tc := ⟨.hbm, 171, rfl⟩
abbrev main_cst_27 : Ref sig .tc := ⟨.hbm, 172, rfl⟩
abbrev main_v89 : Ref sig .tc := ⟨.hbm, 173, rfl⟩
abbrev main_v90 : Ref sig .tc := ⟨.hbm, 174, rfl⟩
abbrev main_v91 : Ref sig .tc := ⟨.hbm, 175, rfl⟩
abbrev main_v92 : Ref sig .tc := ⟨.hbm, 176, rfl⟩
abbrev main_cst_28 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_cst_29 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_cst_30 : Ref sig .tc := ⟨.hbm, 187, rfl⟩
abbrev main_v101 : Ref sig .tc := ⟨.hbm, 188, rfl⟩
abbrev main_v102 : Ref sig .tc := ⟨.hbm, 189, rfl⟩
abbrev main_cst_31 : Ref sig .tc := ⟨.hbm, 190, rfl⟩
abbrev main_v103 : Ref sig .tc := ⟨.hbm, 191, rfl⟩
abbrev main_v104 : Ref sig .tc := ⟨.hbm, 192, rfl⟩
abbrev main_cst_32 : Ref sig .tc := ⟨.hbm, 193, rfl⟩
abbrev main_v105 : Ref sig .tc := ⟨.hbm, 194, rfl⟩
abbrev main_v106 : Ref sig .tc := ⟨.hbm, 195, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  reducesTo_S1024x128_S1024_d1 : S1024x128.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x128_0_1 : S1024x1.BroadcastsInDim S1024x128 (![0, 1] : Fin 2 → Fin S1024x128.rank)
  concatenates_S1024x1_S1024x511_S1024x512_d1 : Shape.Concatenates [S1024x1, S1024x511] S1024x512 1
  bcast_S_S1024x512 : S_.BroadcastsInDim S1024x512 (![] : Fin 0 → Fin S1024x512.rank)
  bcast_S1024x512_S1024x512x1_0_1 : S1024x512.BroadcastsInDim S1024x512x1 (![0, 1] : Fin 2 → Fin S1024x512x1.rank)
  bcast_S_S1024x512x1 : S_.BroadcastsInDim S1024x512x1 (![] : Fin 0 → Fin S1024x512x1.rank)
  bcast_S1_S1x1x1_2 : S1.BroadcastsInDim S1x1x1 (![2] : Fin 1 → Fin S1x1x1.rank)
  bcast_S1x1x1_S1024x512x1_0_1_2 : S1x1x1.BroadcastsInDim S1024x512x1 (![0, 1, 2] : Fin 3 → Fin S1024x512x1.rank)
  reducesTo_S1024x512x1_S1024x512_d2 : S1024x512x1.ReducesTo [2] S1024x512
  bcast_S1024x512_S1024x512x128_0_1 : S1024x512.BroadcastsInDim S1024x512x128 (![0, 1] : Fin 2 → Fin S1024x512x128.rank)
  bcast_S_S1024x512x128 : S_.BroadcastsInDim S1024x512x128 (![] : Fin 0 → Fin S1024x512x128.rank)
  reducesTo_S1024x512x1_S_d0_1_2 : S1024x512x1.ReducesTo [0, 1, 2] S_
  slices_S1024x512x1_S1024x1x1_0_0_0 : S1024x512x1.Slices ![0, 0, 0] S1024x1x1
  bcast_S_S1024x1x1 : S_.BroadcastsInDim S1024x1x1 (![] : Fin 0 → Fin S1024x1x1.rank)
  slices_S1024x512x1_S1024x511x1_0_1_0 : S1024x512x1.Slices ![0, 1, 0] S1024x511x1
  bcast_S_S1024x511x1 : S_.BroadcastsInDim S1024x511x1 (![] : Fin 0 → Fin S1024x511x1.rank)
  shapeCasts_S1024x1x1_S1024 : S1024x1x1.ShapeCasts S1024
  reducesTo_S1024_S_d0 : S1024.ReducesTo [0] S_
  shapeCasts_S1024x511x1_S523264x1 : S1024x511x1.ShapeCasts S523264x1
  shapeCasts_S523264x1_S1x523264x1x1 : S523264x1.ShapeCasts S1x523264x1x1
  bcast_S1x523264x1x1_S1x523264x1x1_0_1_2_3 : S1x523264x1x1.BroadcastsInDim S1x523264x1x1 (![0, 1, 2, 3] : Fin 4 → Fin S1x523264x1x1.rank)
  shapeCasts_S1x523264x1x1_S523264x1 : S1x523264x1x1.ShapeCasts S523264x1
  reducesTo_S523264x1_S1_d0 : S523264x1.ReducesTo [0] S1
  bcast_S_S1 : S_.BroadcastsInDim S1 (![] : Fin 0 → Fin S1.rank)
  reducesTo_S1_S_d0 : S1.ReducesTo [0] S_
  dot_S1024x2048_S2048x128_S1024x128_1_0_0_1_n_n_wf : DotDims.WF S1024x2048 S2048x128 S1024x128 [1] [0] [0] [1] [] []
  gather_S100000x128_S1024x512x1_S1024x512x128_2_0_n_n_0_2_1128_wf : GatherDims.WF S100000x128 S1024x512x1 S1024x512x128 [2] [0] [] [0] [] 2 ![1, 128]
  dot_S1024x512x128_S1024x128_S1024x512_2_1_1_n_0_0_wf : DotDims.WF S1024x512x128 S1024x128 S1024x512 [2] [1] [1] [] [0] [0]

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def gather_S100000x128_S1024x512x1_S1024x512x128_2_0_n_n_0_2_1128 : GatherDims S100000x128 S1024x512x1 S1024x512x128 where
  offsetDims := [2]
  collapsedSliceDims := [0]
  operandBatchingDims := []
  startIndicesBatchingDims := []
  startIndexMap := [0]
  indexVectorDim := 2
  sliceSizes := ![1, 128]
  wf := gather_S100000x128_S1024x512x1_S1024x512x128_2_0_n_n_0_2_1128_wf
def dot_S1024x512x128_S1024x128_S1024x512_2_1_1_n_0_0 : DotDims S1024x512x128 S1024x128 S1024x512 where
  lhsContracting := [2]
  rhsContracting := [1]
  lhsNonContracting := [1]
  rhsNonContracting := []
  lhsBatch := [0]
  rhsBatch := [0]
  wf := dot_S1024x512x128_S1024x128_S1024x512_2_1_1_n_0_0_wf

class Facts : Prop extends Facts₀ where

variable [Facts]
-- ==== Proof.Setup.lean ====
import proofs.«204931_g11295763988758_cont_test2_10_9_alg».proof.KernelIdeal
import proofs.«204931_g11295763988758_cont_test2_10_9_alg».proof.Proof.Gen.KernelIdeal
import proofs.«204931_g11295763988758_cont_test2_10_9_alg».proof.Proof.Gen.KernelIdeal.Skeleton
import proofs.«204931_g11295763988758_cont_test2_10_9_alg».proof.Proof.Gen.KernelIdeal.Launch
import Idealize.ShloMosaic.Lib.SparseCore.Launch
import Idealize.ShloMosaic.Lib.SparseCore.Ops
import Idealize.ShloMosaic.Lib.Pipeline.Regions
import Idealize.ShloMosaic.Lib.StableHlo.Run
import Idealize.ShloMosaic.Lib.Tactic
import Idealize.ShloMosaic.Lib.Transfers
import Idealize.ShloMosaic.Lib.Pipeline.Kit

noncomputable section

namespace Cert.HandI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP; infer_instance

example : CountersIn UU := inferInstance

end Cert.HandI

end
-- ==== Proof.ScDots.lean ====
import proofs.«204931_g11295763988758_cont_test2_10_9_alg».proof.KernelIdeal

noncomputable section

namespace Cert.HandI

open Cert.KernelIdeal
open Idealize.ShloMosaic

variable {F : FTy → Type} [FloatOps F]

def ix2 {n m : ℕ} (r : Fin n) (c : Fin m) : (⟨2, ![n, m]⟩ : Shape).Idx :=
  fun | 0 => r | 1 => c | ⟨_ + 2, h⟩ => absurd h (Nat.not_lt.2 (Nat.le_add_left _ _))

def ix3 {a b c : ℕ} (x : Fin a) (y : Fin b) (z : Fin c) : (⟨3, ![a, b, c]⟩ : Shape).Idx :=
  fun | 0 => x | 1 => y | 2 => z | ⟨_ + 3, h⟩ => absurd h (Nat.not_lt.2 (Nat.le_add_left _ _))

@[simp] theorem ix2_zero {n m : ℕ} (r : Fin n) (c : Fin m) : ix2 r c 0 = r := rfl
@[simp] theorem ix2_one {n m : ℕ} (r : Fin n) (c : Fin m) : ix2 r c 1 = c := rfl
@[simp] theorem ix3_zero {a b c : ℕ} (x : Fin a) (y : Fin b) (z : Fin c) : ix3 x y z 0 = x := rfl
@[simp] theorem ix3_one {a b c : ℕ} (x : Fin a) (y : Fin b) (z : Fin c) : ix3 x y z 1 = y := rfl
@[simp] theorem ix3_two {a b c : ℕ} (x : Fin a) (y : Fin b) (z : Fin c) : ix3 x y z 2 = z := rfl

def tblRow (n : ℕ) : Fin 100000 := ⟨n % 100000, Nat.mod_lt _ (by decide)⟩

theorem tblRow_of_lt {n : ℕ} (h : n < 100000) : tblRow n = ⟨n, h⟩ := Fin.ext (Nat.mod_eq_of_lt h)

def fmaStep (acc x y : F .f32) : F .f32 := FloatOps.addf acc (FloatOps.mulf x y)

def dotAt (M : FVec F S100000x128 .f32) (E : FVec F S2x1024x128 .f32) (n : ℕ) (bank : Fin 2) (r : Fin 1024) : F .f32 :=
  Fin.foldl 128 (fun acc d => fmaStep acc (M (ix2 (tblRow n) d)) (E (ix3 bank r d))) (Scalar.ofBits .f32 0x00000000#32)

def dotsK (MT MS : FVec F S100000x128 .f32) (I : IVec S1024x512 32) (E : FVec F S2x1024x128 .f32) : FVec F S2x1024x512 .f32 :=
  fun x => dotAt (if (x 0).val = 0 then MT else MS) E (I (ix2 (x 1) (x 2))).toNat (x 0) (x 1)

end Cert.HandI

end
-- ==== Proof.RegionDats.lean ====
import proofs.«204931_g11295763988758_cont_test2_10_9_alg».proof.Proof.Setup
import proofs.«204931_g11295763988758_cont_test2_10_9_alg».proof.Proof.Gen.KernelIdeal.Points
import Idealize.ShloMosaic.Lib.Pipeline.FrameBody
import Idealize.ShloMosaic.Lib.Pipeline.RegionsLoop
import Idealize.ShloMosaic.Lib.Pipeline.FrameSuffix

set_option maxRecDepth 16384

noncomputable section

namespace Cert.HandI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

theorem Otc_none (c : Dev nD) (n : ℕ) (g : GSem nD τ sig) : (K (F := F)).Otc c n g none = 0 :=
  Nat.eq_zero_of_not_pos fun h => by
    have := SparseCore.Cfg.lev_of_Otc_pos (K := K (F := F)) h
    rw [SparseCore.Cfg.lev_none] at this
    omega

def recBelow (c : Dev nD) (b : ℕ) : Set (SemLoc sig × HIx 1) := {p | (K (F := F)).lev ((c : Thread nD τ), p.1) p.2 ≤ b}

def ΦR {gr : Nat} {W : Nat} (win : Fin W → Pipeline.WinSpec sig gr) (c : Dev nD) : sProp 𝕄 :=
  Pipeline.scopedRest (Ix := HIx 1) (Name := ℕ) (U := UU) (Lvl := ℕ) (Val := Elt F) win c

section Regions

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) (HIx 1) ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) (HIx 1) ℕ UU ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) (HIx 1) ℕ UU ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) (HIx 1) ℕ UU ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) (HIx 1) ℕ UU ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) (HIx 1) ℕ UU ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S256x2048 := Rect.unit (s := S256x2048) ![0, 0] S256x2048.size inb_S256x2048_S256x2048_0_0

abbrev r0_1 : Rect S2048x128 := Rect.unit (s := S2048x128) ![0, 0] S2048x128.size inb_S2048x128_S2048x128_0_0

abbrev r0_2 : Rect S1x128 := Rect.unit (s := S1x128) ![0, 0] S1x128.size inb_S1x128_S1x128_0_0

abbrev r0_3 : Rect S2x256x128 := Rect.unit (s := S2x256x128) ![0, 0, 0] S1x256x128.size inb_S2x256x128_S1x256x128_0_0_0

abbrev r0_4 : Rect S2x256x128 := Rect.unit (s := S2x256x128) ![1, 0, 0] S1x256x128.size inb_S2x256x128_S1x256x128_1_0_0

def out0_6 (x0 : Vec F S256x2048 .f32) (x1 : Vec F S256x2048 .f32) (x2 : Vec F S2048x128 .f32) (x3 : Vec F S1x128 .f32)
    (x4 : Vec F S2048x128 .f32) (x5 : Vec F S1x128 .f32) : Vec F S2x256x128 .f32 :=
  View.canon [⟨r0_4, k0_pay2 (View.ld x1 r0_0) (View.ld x4 r0_1) (View.ld x5 r0_2)⟩,
    ⟨r0_3, k0_pay1 (View.ld x0 r0_0) (View.ld x2 r0_1) (View.ld x3 r0_2)⟩]

theorem cover0_6 (p0 : Vec F S1x256x128 .f32) (p1 : Vec F S1x256x128 .f32) (y : S2x256x128.Idx) :
    ∃ pc ∈ ([⟨r0_4, p0⟩, ⟨r0_3, p1⟩] : List (View.Piece (Elt F) S2x256x128 .f32)), y ∈ pc.1.set :=
  View.cover_of_tiled [⟨r0_4, p0⟩, ⟨r0_3, p1⟩] S1x256x128.size (by rfl) y

def dat0 (c : Dev nD) : Dat τ (Elt F) (HIx 1) ℕ UU ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := ΦR (F := F) spec0 c
  q _ := fullShare
  owed _ := (K (F := F)).Otc c 0
  recorded _ := recBelow (F := F) c (8 * 0)

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]

theorem after0_6 (c : Dev nD) (t : Fin cfg0.N) :
    (dat0 V c).after 6 t = out0_6 (iblk0 V c 0 t) (iblk0 V c 1 t) (iblk0 V c 2 t) (iblk0 V c 3 t) (iblk0 V c 4 t) (iblk0 V c 5 t) := by
  dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S2x1024x512 := Rect.unit (s := S2x1024x512) ![0, 0, 0] S1x1024x512.size inb_S2x1024x512_S1x1024x512_0_0_0

abbrev r2_1 : Rect S2x1024x512 := Rect.unit (s := S2x1024x512) ![1, 0, 0] S1x1024x512.size inb_S2x1024x512_S1x1024x512_1_0_0

abbrev r2_2 : Rect S1x1 := Rect.unit (s := S1x1) ![0, 0] S1x1.size inb_S1x1_S1x1_0_0

def out2_1 (x0 : Vec F S2x1024x512 .f32) : Vec F S1x1 .f32 :=
  View.canon [⟨r2_2, k2_pay1 (k2_pay2 (View.ld x0 r2_0)) (k2_pay3 (View.ld x0 r2_1)) (k2_pay4 (View.ld x0 r2_1))⟩]

theorem cover2_1 (p0 : Vec F S1x1 .f32) (y : S1x1.Idx) :
    ∃ pc ∈ ([⟨r2_2, p0⟩] : List (View.Piece (Elt F) S1x1 .f32)), y ∈ pc.1.set :=
  View.cover_of_tiled [⟨r2_2, p0⟩] S1x1.size (by rfl) y

def dat2 (c : Dev nD) : Dat τ (Elt F) (HIx 1) ℕ UU ℕ cfg2 c where
  A w := V c (Pipeline.arrRef spec2 w)
  after w t := match w with
    | ⟨0, _⟩ => iblk2 V c 0 t
    | ⟨1, _⟩ => out2_1 (iblk2 V c 0 t)
  Φ _ := ΦR (F := F) spec2 c
  q _ := fullShare
  owed _ := (K (F := F)).Otc c 1
  recorded _ := recBelow (F := F) c (8 * 1)

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]

theorem after2_1 (c : Dev nD) (t : Fin cfg2.N) : (dat2 V c).after 1 t = out2_1 (iblk2 V c 0 t) := by dsimp only [dat2]

theorem before2_0 (c : Dev nD) (t : Fin cfg2.N) (d) : (dat2 V c).before 0 t d = iblk2 V c 0 t :=
  before2_0_of V (dat2 V c) (A_eq2 V c 0) (after2_0 V c) t d

end Regions

abbrev Vof (W : Dev nD → Valuation τ sig (Elt F)) : (c : Dev nD) → (b : Ref sig .tc) → Buf (Elt F) ((c : Thread nD τ).loc b) :=
  fun c b => W c b

abbrev Rn (n : ℕ) (c : Dev nD) : sProp 𝕄 :=
  iprop(∃ W, ⌜(K (F := F)).WBelow (SparseCore.T c) W (8 * n)⌝ ∗ owes (SparseCore.T c) ((K (F := F)).Otc c n) W)

def Wx0 (W : Dev nD → Valuation τ sig (Elt F)) (c : Dev nD) : Valuation τ sig (Elt F) :=
  Pipeline.withArrays spec0 c (W c) fun w => (dat0 (Vof W) c).arrAt w cfg0.N

theorem Wx0_arr (W : Dev nD → Valuation τ sig (Elt F)) (c : Dev nD) (w : Fin cfg0.W) :
    Wx0 W c (Proc.devRef .tc (Pipeline.arrRef spec0 w)) = (dat0 (Vof W) c).arrAt w cfg0.N := by
  unfold Wx0; exact Pipeline.withArrays_arr spec0 winFacts0.arr_inj c _ _ w

theorem Wx0_of_ne (W : Dev nD → Valuation τ sig (Elt F)) (c : Dev nD) (b : Ref sig .tc) (hb : ∀ w, Pipeline.arrRef spec0 w ≠ b) :
    Wx0 W c (Proc.devRef .tc b) = W c (Proc.devRef .tc b) := by
  unfold Wx0; exact Pipeline.withArrays_of_ne spec0 c _ _ b hb

theorem hF0 (W : Dev nD → Valuation τ sig (Elt F)) (c : Dev nD) (w : Fin cfg0.W) :
    (dat0 (Vof W) c).arrAt w cfg0.N = Vof (Wx0 W) c (Pipeline.arrRef spec0 w) :=
  (Wx0_arr W c w).symm
theorem hrest0 (W : Dev nD → Valuation τ sig (Elt F)) (c : Dev nD) :
    ∀ b, b ∉ Finset.univ.image (Pipeline.arrRef spec0) → Vof (Wx0 W) c b = Vof W c b :=
  fun b hb => Wx0_of_ne W c b fun w e => hb (Finset.mem_image.mpr ⟨w, Finset.mem_univ _, e⟩)

def Wx2 (W : Dev nD → Valuation τ sig (Elt F)) (c : Dev nD) : Valuation τ sig (Elt F) :=
  Pipeline.withArrays spec2 c (W c) fun w => (dat2 (Vof W) c).arrAt w cfg2.N

theorem Wx2_arr (W : Dev nD → Valuation τ sig (Elt F)) (c : Dev nD) (w : Fin cfg2.W) :
    Wx2 W c (Proc.devRef .tc (Pipeline.arrRef spec2 w)) = (dat2 (Vof W) c).arrAt w cfg2.N := by
  unfold Wx2; exact Pipeline.withArrays_arr spec2 winFacts2.arr_inj c _ _ w

theorem Wx2_of_ne (W : Dev nD → Valuation τ sig (Elt F)) (c : Dev nD) (b : Ref sig .tc) (hb : ∀ w, Pipeline.arrRef spec2 w ≠ b) :
    Wx2 W c (Proc.devRef .tc b) = W c (Proc.devRef .tc b) := by
  unfold Wx2; exact Pipeline.withArrays_of_ne spec2 c _ _ b hb
theorem hF2 (W : Dev nD → Valuation τ sig (Elt F)) (c : Dev nD) (w : Fin cfg2.W) :
    (dat2 (Vof W) c).arrAt w cfg2.N = Vof (Wx2 W) c (Pipeline.arrRef spec2 w) :=
  (Wx2_arr W c w).symm
theorem hrest2 (W : Dev nD → Valuation τ sig (Elt F)) (c : Dev nD) :
    ∀ b, b ∉ Finset.univ.image (Pipeline.arrRef spec2) → Vof (Wx2 W) c b = Vof W c b :=
  fun b hb => Wx2_of_ne W c b fun w e => hb (Finset.mem_image.mpr ⟨w, Finset.mem_univ _, e⟩)

abbrev adm : (p : Fin 2) → (pcfgs (F := F) p).Adm := fun p => (cfgs p).toPCfg_adm

def pdats (Va Vb : (c : Dev nD) → (b : Ref sig .tc) → Buf (Elt F) ((c : Thread nD τ).loc b)) :
    (p : Fin 2) → (c : Dev nD) → Dat τ (Elt F) (HIx 1) ℕ UU ℕ (Pipeline.pin (pcfgs (F := F)) adm p) c
  | ⟨0, _⟩ => fun c => dat0 Va c
  | ⟨1, _⟩ => fun c => dat2 Vb c

end Cert.HandI

end
-- ==== Proof.Vals.lean ====
import proofs.«204931_g11295763988758_cont_test2_10_9_alg».proof.Proof.Setup
import proofs.«204931_g11295763988758_cont_test2_10_9_alg».proof.Proof.ScDots
import proofs.«204931_g11295763988758_cont_test2_10_9_alg».proof.Proof.RegionDats

noncomputable section

namespace Cert.HandI

open Cert.KernelIdeal Cert.KernelIdeal.Gen

open Idealize.ShloMosaic
open Idealize.ShloMosaic.SparseCore (S V T)
open Idealize.SL Idealize.SL.Sem

variable {F : FTy → Type} [FloatOps F] [Named F]

variable (m : (ℓ : Loc nD τ sig) → Buf (Elt F) ℓ)

abbrev op0 : HloOp τ sig (Elt F) :=
  StableHlo.unary main_arg3 main_v0 (broadcastInDim S1024x1 ![0] bcast_S1024_S1024x1_0 : (⟨S1024, .i32⟩ : BufTy).Contents (Elt F) → (⟨S1024x1, .i32⟩ : BufTy).Contents (Elt F))
abbrev op1 : HloOp τ sig (Elt F) :=
  StableHlo.binary main_v0 main_arg4 main_v1 ((fun a b => concatenate S1024x512 1 [⟨S1024x1, a⟩, ⟨S1024x511, b⟩] concatenates_S1024x1_S1024x511_S1024x512_d1) : (⟨S1024x1, .i32⟩ : BufTy).Contents (Elt F) → (⟨S1024x511, .i32⟩ : BufTy).Contents (Elt F) → (⟨S1024x512, .i32⟩ : BufTy).Contents (Elt F))
abbrev op2 : HloOp τ sig (Elt F) := StableHlo.reshape main_arg6 main_v2 rfl shapeCasts_S128_S1x128
abbrev op3 : HloOp τ sig (Elt F) := StableHlo.reshape main_arg8 main_v3 rfl shapeCasts_S128_S1x128
abbrev op7 : HloOp τ sig (Elt F) := StableHlo.reshape main_v6 main_v7 rfl shapeCasts_S1x1_S_

abbrev UC : Finset (DevRef τ sig) := Pipeline.ucRefs τ sig

theorem h0 : (op0 (F := F)).bufs ⊆ UC := Pipeline.sub_ucRefs _ (StableHlo.unary_bufs_sub ..)
theorem h1 : (op1 (F := F)).bufs ⊆ UC := Pipeline.sub_ucRefs _ (StableHlo.binary_bufs_sub ..)
theorem h2 : (op2 (F := F)).bufs ⊆ UC := Pipeline.sub_ucRefs _ (StableHlo.reshape_bufs_sub ..)
theorem h3 : (op3 (F := F)).bufs ⊆ UC := Pipeline.sub_ucRefs _ (StableHlo.reshape_bufs_sub ..)
theorem h7 : (op7 (F := F)).bufs ⊆ UC := Pipeline.sub_ucRefs _ (StableHlo.reshape_bufs_sub ..)

abbrev v1' : DevRef τ sig := Proc.devRef .tc (main_v1 : Ref sig .tc)
abbrev v4' : DevRef τ sig := Proc.devRef .tc (main_v4 : Ref sig .tc)
abbrev v5' : DevRef τ sig := Proc.devRef .tc (main_v5 : Ref sig .tc)
abbrev v7' : DevRef τ sig := Proc.devRef .tc (main_v7 : Ref sig .tc)
abbrev a9' : DevRef τ sig := Proc.devRef .tc (main_arg9 : Ref sig .tc)
abbrev a10' : DevRef τ sig := Proc.devRef .tc (main_arg10 : Ref sig .tc)

def W0 (d : Dev nD) : Valuation τ sig (Elt F) := fun b => m (d, b)

def Wa (d : Dev nD) : Valuation τ sig (Elt F) := (op3 (F := F)).result ((op2 (F := F)).result ((op1 (F := F)).result ((op0 (F := F)).result (W0 m d))))

def Wb (d : Dev nD) : Valuation τ sig (Elt F) := Wx0 (Wa m) d

def Ik (d : Dev nD) : IVec S1024x512 32 := Wa m d v1'
def Ek (d : Dev nD) : FVec F S2x1024x128 .f32 := Wb m d v4'

def Dk (d : Dev nD) : FVec F S2x1024x512 .f32 := dotsK (m (d, a10')) (m (d, a9')) (Ik m d) (Ek m d)

def Wc (d : Dev nD) : Valuation τ sig (Elt F) := Function.update (Wb m d) v5' (Dk m d)

def Wd (d : Dev nD) : Valuation τ sig (Elt F) := Wx2 (Wc m) d

def We (d : Dev nD) : Valuation τ sig (Elt F) := (op7 (F := F)).result (Wd m d)

def outK (d : Dev nD) : FVec F S_ .f32 := We m d v7'

end Cert.HandI

end
-- ==== Proof.LaunchElem.lean ====
import proofs.«204931_g11295763988758_cont_test2_10_9_alg».proof.Proof.Vals

noncomputable section

namespace Cert.HandI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ) (ρ : Dev nD → PrngReg)

abbrev pcs : Fin 2 → Pipeline.Cfg sig Λ₀ := Pipeline.pin (pcfgs (F := F)) adm

theorem pinj : Function.Injective (Pipeline.cellOf (nD := nD) (τ := τ) (pcs (F := F))) := cellOf_inj

theorem bigSep_emp' {I : Type} (s : Finset I) : (bigSep s fun _ => iprop(emp)) = (iprop(emp) : sProp 𝕄) := bigSep_emp_const s

def G (d : Dev nD) : sProp 𝕄 :=
  iprop((bigSep Finset.univ fun p : Fin 2 => Pipeline.cellsGhost (pcs (F := F)) EP p d)
    ∗ (bigSep Finset.univ fun p : Fin 2 => (Pipeline.toksInit (pcs (F := F)) EP p d : sProp 𝕄)))

def u₀ : UU :=
  (initOf (K (F := F)).hsCells (K (F := F)).hsToks,
    (initOf (Pipeline.cells (pcs (F := F)) pinj) (Pipeline.launchToks (pcs (F := F)) pinj), (1 : Counters)))

theorem hu₀ (P' : (K (F := F)).Pay (nD := nD) (Val := Elt F) (Name := ℕ) (U := UU)) (hx : ∀ q thr, P'.x q thr = iprop(emp)) :
    (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => P'.x q thr) := by
  have hEP : ∀ x : UP, (BI.own ((Emb.inl.trans (embR : Emb (UP × Counters) 𝕄)).toFun x) : sProp 𝕄) ⊢ BI.own ((EP : Emb UP 𝕄).toFun x) :=
    fun x => BI.Entails.refl _
  unfold u₀
  iintro Hu
  ihave H := (ownU_pair _ _) $$ Hu
  icases H with ⟨HH, HR⟩
  ihave H2 := (own_pair_emb _ _ _) $$ HR
  icases H2 with ⟨HP, -⟩
  ihave HP' := (hEP _) $$ HP
  imod (Pipeline.fund_ghost (pcs (F := F)) EP pinj) $$ HP' with ⟨Hg, Ht⟩
  imodintro
  isplitl [HH]; · iexact HH
  isplitl [Hg Ht]
  · unfold G
    rw [bigSep_sep']
    isplitl [Hg]; · iexact Hg
    iexact Ht
  · rw [bigSep_congr fun thr _ => bigSep_congr fun q _ => hx q thr]
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

end Cert.HandI
end
-- ==== Proof.ScPay.lean ====
import proofs.«204931_g11295763988758_cont_test2_10_9_alg».proof.Proof.Setup
import proofs.«204931_g11295763988758_cont_test2_10_9_alg».proof.Proof.ScDots

noncomputable section

namespace Cert.HandI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ) (I : IVec S1024x512 32) (E : FVec F S2x1024x128 .f32)

abbrev tLoc (d : Dev nD) : Loc nD τ sig := (SparseCore.T d).loc main_arg10
abbrev sLoc (d : Dev nD) : Loc nD τ sig := (SparseCore.T d).loc main_arg9
abbrev iLoc (d : Dev nD) : Loc nD τ sig := (SparseCore.T d).loc main_v1
abbrev eLoc (d : Dev nD) : Loc nD τ sig := (SparseCore.T d).loc main_v4
abbrev oLoc (d : Dev nD) : Loc nD τ sig := (SparseCore.T d).loc main_v5

abbrev tV : Memref sig .scVector .hbm S100000x128 .f32 := Memref.whole main_arg10_scv
abbrev sV : Memref sig .scVector .hbm S100000x128 .f32 := Memref.whole main_arg9_scv
abbrev iV : Memref sig .scVector .hbm S1024x512 .i32 := Memref.whole main_v1_scv
abbrev eV : Memref sig .scVector .hbm S2x1024x128 .f32 := Memref.whole main_v4_scv
abbrev oV : Memref sig .scVector .hbm S2x1024x512 .f32 := Memref.whole main_v5_scv

abbrev dotsM (d : Dev nD) : FVec F S2x1024x512 .f32 := dotsK (m (tLoc d)) (m (sLoc d)) I E

def coordsV (c : Fin 2) (s : Fin 16) : grid1.Coords :=
  fun | 0 => c | 1 => s | ⟨_ + 2, h⟩ => absurd h (Nat.not_lt.2 (Nat.le_add_left _ _))

theorem bound_zero : grid1.bound 0 = 2 := rfl

theorem bound_one : grid1.bound 1 = 16 := rfl

theorem trips1 : k1_t1_loop.trips = 32 := by decide

theorem trips2 : k1_t2_loop.trips = 4 := by decide

theorem trips4 : k1_t4_loop.trips = 32 := by decide

theorem trips5 : k1_t5_loop.trips = 4 := by decide

theorem lt1 (t : Fin k1_t1_loop.trips) : t.val < 32 := Nat.lt_of_lt_of_eq t.isLt trips1

theorem lt2 (t : Fin k1_t2_loop.trips) : t.val < 4 := Nat.lt_of_lt_of_eq t.isLt trips2

theorem lt4 (t : Fin k1_t4_loop.trips) : t.val < 32 := Nat.lt_of_lt_of_eq t.isLt trips4

theorem lt5 (t : Fin k1_t5_loop.trips) : t.val < 4 := Nat.lt_of_lt_of_eq t.isLt trips5

abbrev oPc0 (L : grid1.Coords) (t1 : Fin k1_t1_loop.trips) (t2 : Fin k1_t2_loop.trips) : Memref sig .scVector .hbm S128 .f32 :=
  ((oV).slice (Rect.unit (s := S2x1024x512) (k1_off4 L t1 t2) S1x1x128.size (k1_off4_inb L t1 t2)) (fun _ => rfl)).squeeze S128 squeezes_S1x1x128_S128

abbrev oPc1 (L : grid1.Coords) (t4 : Fin k1_t4_loop.trips) (t5 : Fin k1_t5_loop.trips) : Memref sig .scVector .hbm S128 .f32 :=
  ((oV).slice (Rect.unit (s := S2x1024x512) (k1_off8 L t4 t5) S1x1x128.size (k1_off8_inb L t4 t5)) (fun _ => rfl)).squeeze S128 squeezes_S1x1x128_S128

abbrev oSet0 (L : grid1.Coords) (t1 : Fin k1_t1_loop.trips) (t2 : Fin k1_t2_loop.trips) : Finset S2x1024x512.Idx := (oPc0 L t1 t2).view.set
abbrev oSet1 (L : grid1.Coords) (t4 : Fin k1_t4_loop.trips) (t5 : Fin k1_t5_loop.trips) : Finset S2x1024x512.Idx := (oPc1 L t4 t5).view.set

def scShare (c : ℕ) : PosShare TreeShare := if c = 0 then (fullShare : PosShare TreeShare).left else (fullShare : PosShare TreeShare).right

abbrev tileShare (c i : ℕ) : PosShare TreeShare := Transfers.shareTokN (scShare c) i

@[reducible] def roAt (d : Dev nD) (q : PosShare TreeShare) : sProp 𝕄 :=
  iprop((tLoc d ↦{q} m (tLoc d)) ∗ (sLoc d ↦{q} m (sLoc d)) ∗ (iLoc d ↦{q} (I : Buf (Elt F) (iLoc d))) ∗ (eLoc d ↦{q} (E : Buf (Elt F) (eLoc d))))

@[reducible] def outAny (d : Dev nD) (L : grid1.Coords) : sProp 𝕄 :=
  iprop((bigSep Finset.univ fun t1 : Fin k1_t1_loop.trips => bigSep Finset.univ fun t2 : Fin k1_t2_loop.trips => iprop(∃ f, oLoc d ↦[oSet0 L t1 t2]{fullShare} f))
    ∗ bigSep Finset.univ fun t4 : Fin k1_t4_loop.trips => bigSep Finset.univ fun t5 : Fin k1_t5_loop.trips => iprop(∃ f, oLoc d ↦[oSet1 L t4 t5]{fullShare} f))

@[reducible] def outAt (d : Dev nD) (f : Buf (Elt F) (oLoc d)) (L : grid1.Coords) : sProp 𝕄 :=
  iprop((bigSep Finset.univ fun t1 : Fin k1_t1_loop.trips => bigSep Finset.univ fun t2 : Fin k1_t2_loop.trips => oLoc d ↦[oSet0 L t1 t2]{fullShare} f)
    ∗ bigSep Finset.univ fun t4 : Fin k1_t4_loop.trips => bigSep Finset.univ fun t5 : Fin k1_t5_loop.trips => oLoc d ↦[oSet1 L t4 t5]{fullShare} f)

abbrev outDone (d : Dev nD) (L : grid1.Coords) : sProp 𝕄 := outAt d (dotsM m I E d : Buf (Elt F) (oLoc d)) L

omit [Named F] in

theorem outAt_any (d : Dev nD) (f : Buf (Elt F) (oLoc d)) (L : grid1.Coords) : (outAt d f L : sProp 𝕄) ⊢ outAny d L := by
  unfold outAt outAny
  have h0 : ∀ (t1 : Fin k1_t1_loop.trips) (t2 : Fin k1_t2_loop.trips),
      (oLoc d ↦[oSet0 L t1 t2]{fullShare} f : sProp 𝕄) ⊢ iprop(∃ f, oLoc d ↦[oSet0 L t1 t2]{fullShare} f) := fun t1 t2 => by
    iintro H; iexists f; iexact H
  have h1 : ∀ (t4 : Fin k1_t4_loop.trips) (t5 : Fin k1_t5_loop.trips),
      (oLoc d ↦[oSet1 L t4 t5]{fullShare} f : sProp 𝕄) ⊢ iprop(∃ f, oLoc d ↦[oSet1 L t4 t5]{fullShare} f) := fun t4 t5 => by
    iintro H; iexists f; iexact H
  iintro ⟨H0, H1⟩
  isplitl [H0]
  · iapply (Transfers.ent (bigSep_mono (s := Finset.univ) fun t1 _ => bigSep_mono (s := Finset.univ) fun t2 _ => h0 t1 t2)); iexact H0
  · iapply (Transfers.ent (bigSep_mono (s := Finset.univ) fun t4 _ => bigSep_mono (s := Finset.univ) fun t5 _ => h1 t4 t5)); iexact H1

def P : (K (F := F)).Pay (nD := nD) (Val := Elt F) (Name := ℕ) (U := UU) where
  st := fun q d c => match q with
    | 0 => iprop(roAt m I E d (scShare c.val) ∗ bigSep Finset.univ fun s : Fin 16 => outAny d (coordsV (Fin.cast nCore_zero c) s))
  dn := fun q d c => match q with
    | 0 => iprop(roAt m I E d (scShare c.val) ∗ bigSep Finset.univ fun s : Fin 16 => outDone m I E d (coordsV (Fin.cast nCore_zero c) s))
  go := fun q d c i => match q with
    | 0 => iprop(roAt m I E d (tileShare c.val i.val) ∗ outAny d (coordsV (Fin.cast nCore_zero c) (Fin.cast nSub_zero i)))
  td := fun q d c i => match q with
    | 0 => iprop(roAt m I E d (tileShare c.val i.val) ∗ outDone m I E d (coordsV (Fin.cast nCore_zero c) (Fin.cast nSub_zero i)))
  x := fun _ _ => iprop(emp)

instance P_storable : (P (F := F) m I E).IsStorable where
  st q d c := match q with | 0 => by unfold P; infer_instance
  dn q d c := match q with | 0 => by unfold P; infer_instance
  go q d c i := match q with | 0 => by unfold P; infer_instance
  td q d c i := match q with | 0 => by unfold P; infer_instance

theorem mem_oSet0 (L : grid1.Coords) (t1 : Fin k1_t1_loop.trips) (t2 : Fin k1_t2_loop.trips) (x : S2x1024x512.Idx) :
    x ∈ oSet0 L t1 t2 ↔ (x 0).val = 0 ∧ (x 1).val = 64 * (L 1).val + 32 * (L 0).val + t1.val
      ∧ 128 * t2.val ≤ (x 2).val ∧ (x 2).val < 128 * t2.val + 128 := by
  have hs : oSet0 L t1 t2 = (Rect.unit (s := S2x1024x512) (k1_off4 L t1 t2) S1x1x128.size (k1_off4_inb L t1 t2)).set := by
    show (((oV).view.slice (Rect.unit (s := S2x1024x512) (k1_off4 L t1 t2) S1x1x128.size (k1_off4_inb L t1 t2))).reshape S128
      squeezes_S1x1x128_S128.numel_eq).set = _
    rw [View.set_reshape]
    exact View.set_slice_whole _ _
  rw [hs, Rect.mem_set_unit, k1_off4_eq]
  constructor
  · intro h
    have h0 := h 0; have h1 := h 1; have h2 := h 2
    simp at h0 h1 h2
    omega
  · intro h a
    fin_cases a <;> simp <;> omega

theorem mem_oSet1 (L : grid1.Coords) (t4 : Fin k1_t4_loop.trips) (t5 : Fin k1_t5_loop.trips) (x : S2x1024x512.Idx) :
    x ∈ oSet1 L t4 t5 ↔ (x 0).val = 1 ∧ (x 1).val = 64 * (L 1).val + 32 * (L 0).val + t4.val
      ∧ 128 * t5.val ≤ (x 2).val ∧ (x 2).val < 128 * t5.val + 128 := by
  have hs : oSet1 L t4 t5 = (Rect.unit (s := S2x1024x512) (k1_off8 L t4 t5) S1x1x128.size (k1_off8_inb L t4 t5)).set := by
    show (((oV).view.slice (Rect.unit (s := S2x1024x512) (k1_off8 L t4 t5) S1x1x128.size (k1_off8_inb L t4 t5))).reshape S128
      squeezes_S1x1x128_S128.numel_eq).set = _
    rw [View.set_reshape]
    exact View.set_slice_whole _ _
  rw [hs, Rect.mem_set_unit, k1_off8_eq]
  constructor
  · intro h
    have h0 := h 0; have h1 := h 1; have h2 := h 2
    simp at h0 h1 h2
    omega
  · intro h a
    fin_cases a <;> simp <;> omega

abbrev J0 : Type := Fin 2 × Fin 16 × Fin k1_t1_loop.trips × Fin k1_t2_loop.trips
abbrev J1 : Type := Fin 2 × Fin 16 × Fin k1_t4_loop.trips × Fin k1_t5_loop.trips

def pcOf : J0 ⊕ J1 → Finset S2x1024x512.Idx
  | .inl j => oSet0 (coordsV j.1 j.2.1) j.2.2.1 j.2.2.2
  | .inr j => oSet1 (coordsV j.1 j.2.1) j.2.2.1 j.2.2.2

theorem pc_disjoint : ∀ a ∈ (Finset.univ : Finset (J0 ⊕ J1)), ∀ b ∈ (Finset.univ : Finset (J0 ⊕ J1)), a ≠ b → Disjoint (pcOf a) (pcOf b) := by
  intro a _ b _ hab
  refine Finset.disjoint_left.mpr fun x ha hb => hab ?_
  rcases a with ⟨c, s, t1, t2⟩ | ⟨c, s, t1, t2⟩ <;> rcases b with ⟨c', s', t1', t2'⟩ | ⟨c', s', t1', t2'⟩
  · have ha' := (mem_oSet0 _ _ _ x).mp ha; have hb' := (mem_oSet0 _ _ _ x).mp hb
    have hc : c.val < 2 := c.isLt; have hc' : c'.val < 2 := c'.isLt
    have ht : t1.val < 32 := lt1 t1; have ht' : t1'.val < 32 := lt1 t1'
    have hu := lt2 t2; have hu' := lt2 t2'
    simp only [coordsV] at ha' hb'
    have e1 : s = s' := Fin.ext (by omega)
    have e2 : c = c' := Fin.ext (by omega)
    have e3 : t1 = t1' := Fin.ext (by omega)
    have e4 : t2 = t2' := Fin.ext (by omega)
    subst e1 e2 e3 e4; rfl
  · have ha' := (mem_oSet0 _ _ _ x).mp ha; have hb' := (mem_oSet1 _ _ _ x).mp hb; omega
  · have ha' := (mem_oSet1 _ _ _ x).mp ha; have hb' := (mem_oSet0 _ _ _ x).mp hb; omega
  · have ha' := (mem_oSet1 _ _ _ x).mp ha; have hb' := (mem_oSet1 _ _ _ x).mp hb
    have hc : c.val < 2 := c.isLt; have hc' : c'.val < 2 := c'.isLt
    have ht : t1.val < 32 := lt4 t1; have ht' : t1'.val < 32 := lt4 t1'
    have hu := lt5 t2; have hu' := lt5 t2'
    simp only [coordsV] at ha' hb'
    have e1 : s = s' := Fin.ext (by omega)
    have e2 : c = c' := Fin.ext (by omega)
    have e3 : t1 = t1' := Fin.ext (by omega)
    have e4 : t2 = t2' := Fin.ext (by omega)
    subst e1 e2 e3 e4; rfl

theorem pc_cover : (Finset.univ : Finset (J0 ⊕ J1)).biUnion pcOf = Finset.univ := by
  ext x
  simp only [Finset.mem_biUnion, Finset.mem_univ, true_and, iff_true]
  have h0 : (x 0).val < 2 := (x 0).isLt
  have h1 : (x 1).val < 1024 := (x 1).isLt
  have h2 : (x 2).val < 512 := (x 2).isLt
  by_cases hb : (x 0).val = 0
  · refine ⟨.inl (⟨(x 1).val / 32 % 2, by omega⟩, ⟨(x 1).val / 64, by omega⟩,
      ⟨(x 1).val % 32, by rw [trips1]; omega⟩, ⟨(x 2).val / 128, by rw [trips2]; omega⟩), ?_⟩
    refine (mem_oSet0 _ _ _ x).mpr ⟨hb, ?_, ?_, ?_⟩ <;> simp only [coordsV] <;> omega
  · refine ⟨.inr (⟨(x 1).val / 32 % 2, by omega⟩, ⟨(x 1).val / 64, by omega⟩,
      ⟨(x 1).val % 32, by rw [trips4]; omega⟩, ⟨(x 2).val / 128, by rw [trips5]; omega⟩), ?_⟩
    refine (mem_oSet1 _ _ _ x).mpr ⟨by omega, ?_, ?_, ?_⟩ <;> simp only [coordsV] <;> omega

theorem o_pieces (d : Dev nD) (f : Buf (Elt F) (oLoc d)) :
    (oLoc d ↦{fullShare} f : sProp 𝕄) = bigSep Finset.univ fun c : Fin 2 => bigSep Finset.univ fun s : Fin 16 => outAt d f (coordsV c s) := by
  have e : (oLoc d ↦{fullShare} f : sProp 𝕄) = bigSep Finset.univ fun j : J0 ⊕ J1 => oLoc d ↦[pcOf j]{fullShare} f := by
    rw [← pointsTo_biUnion Finset.univ (ℓ := oLoc d) pcOf pc_disjoint, pc_cover]; try rfl
  rw [e, bigSep_univ_sum]
  unfold outAt
  simp only [bigSep_univ_prod, bigSep_sep', pcOf]
  rfl

theorem bigSep_cores (Φ : Fin 2 → sProp 𝕄) :
    (bigSep Finset.univ fun c : Fin ((K (F := F)).nCore 0) => Φ (Fin.cast nCore_zero c)) = iprop(Φ 0 ∗ Φ 1) := by
  rw [← bigSep_univ_two Φ]
  exact bigSep_congr fun _ _ => congrArg Φ (Fin.ext rfl)

theorem scShare_zero : scShare 0 = (fullShare : PosShare TreeShare).left := if_pos rfl

theorem scShare_one : scShare 1 = (fullShare : PosShare TreeShare).right := if_neg (by decide)

theorem roAt_halves (d : Dev nD) :
    (roAt m I E d fullShare : sProp 𝕄) ⊣⊢ iprop(roAt m I E d (scShare 0) ∗ roAt m I E d (scShare 1)) := by
  rw [scShare_zero, scShare_one]
  unfold roAt
  have ht := pointsTo_share (ℓ := tLoc d) (I := Finset.univ) (f := m (tLoc d)) (Val := Elt F) (Ix := HIx 1) (Name := ℕ) (U := UU) (Lvl := ℕ) (PosShare.mem_left_op_right (fullShare : PosShare TreeShare))
  have hs := pointsTo_share (ℓ := sLoc d) (I := Finset.univ) (f := m (sLoc d)) (Val := Elt F) (Ix := HIx 1) (Name := ℕ) (U := UU) (Lvl := ℕ) (PosShare.mem_left_op_right (fullShare : PosShare TreeShare))
  have hi := pointsTo_share (ℓ := iLoc d) (I := Finset.univ) (f := (I : Buf (Elt F) (iLoc d))) (Val := Elt F) (Ix := HIx 1) (Name := ℕ) (U := UU) (Lvl := ℕ) (PosShare.mem_left_op_right (fullShare : PosShare TreeShare))
  have he := pointsTo_share (ℓ := eLoc d) (I := Finset.univ) (f := (E : Buf (Elt F) (eLoc d))) (Val := Elt F) (Ix := HIx 1) (Name := ℕ) (U := UU) (Lvl := ℕ) (PosShare.mem_left_op_right (fullShare : PosShare TreeShare))
  constructor
  · iintro ⟨Ht, Hs, Hi, He⟩
    ihave Ht := ht.1 $$ Ht; ihave Hs := hs.1 $$ Hs; ihave Hi := hi.1 $$ Hi; ihave He := he.1 $$ He
    icases Ht with ⟨Ht1, Ht2⟩; icases Hs with ⟨Hs1, Hs2⟩; icases Hi with ⟨Hi1, Hi2⟩; icases He with ⟨He1, He2⟩
    isplitl [Ht1 Hs1 Hi1 He1]
    · isplitl [Ht1]; · iexact Ht1
      isplitl [Hs1]; · iexact Hs1
      isplitl [Hi1]; · iexact Hi1
      iexact He1
    · isplitl [Ht2]; · iexact Ht2
      isplitl [Hs2]; · iexact Hs2
      isplitl [Hi2]; · iexact Hi2
      iexact He2
  · iintro ⟨⟨Ht1, Hs1, Hi1, He1⟩, ⟨Ht2, Hs2, Hi2, He2⟩⟩
    isplitl [Ht1 Ht2]; · iapply ht.2; isplitl [Ht1]; · iexact Ht1
                         iexact Ht2
    isplitl [Hs1 Hs2]; · iapply hs.2; isplitl [Hs1]; · iexact Hs1
                         iexact Hs2
    isplitl [Hi1 Hi2]; · iapply hi.2; isplitl [Hi1]; · iexact Hi1
                         iexact Hi2
    iapply he.2; isplitl [He1]; · iexact He1
    iexact He2

theorem st0_intro (d : Dev nD) :
    iprop((tLoc d ↦{fullShare} m (tLoc d)) ∗ (sLoc d ↦{fullShare} m (sLoc d)) ∗ (iLoc d ↦{fullShare} (I : Buf (Elt F) (iLoc d)))
        ∗ (eLoc d ↦{fullShare} (E : Buf (Elt F) (eLoc d))) ∗ ∃ f, oLoc d ↦{fullShare} f)
      ⊢ (bigSep Finset.univ fun c : Fin ((K (F := F)).nCore 0) => (P m I E).st 0 d c : sProp 𝕄) := by
  rw [show (bigSep Finset.univ fun c : Fin ((K (F := F)).nCore 0) => (P m I E).st 0 d c : sProp 𝕄) = _ from
    bigSep_cores (F := F) (fun c' : Fin 2 => iprop(roAt m I E d (scShare c'.val) ∗ bigSep Finset.univ fun s : Fin 16 => outAny d (coordsV c' s)))]
  iintro ⟨Ht, Hs, Hi, He, %f, Ho⟩
  ihave Hro := (roAt_halves m I E d).1 $$ [Ht Hs Hi He]
  · isplitl [Ht]; · iexact Ht
    isplitl [Hs]; · iexact Hs
    isplitl [Hi]; · iexact Hi
    iexact He
  icases Hro with ⟨Hr0, Hr1⟩
  ihave Ho := (Entails.of_eq ((o_pieces d f).trans (bigSep_univ_two _))) $$ Ho
  icases Ho with ⟨Ho0, Ho1⟩
  isplitl [Hr0 Ho0]
  · isplitl [Hr0]; · iexact Hr0
    iapply (Transfers.ent (bigSep_mono (s := Finset.univ) fun s _ => outAt_any d f (coordsV 0 s))); iexact Ho0
  · isplitl [Hr1]; · iexact Hr1
    iapply (Transfers.ent (bigSep_mono (s := Finset.univ) fun s _ => outAt_any d f (coordsV 1 s))); iexact Ho1

theorem dn0_elim (d : Dev nD) :
    (bigSep Finset.univ fun c : Fin ((K (F := F)).nCore 0) => (P m I E).dn 0 d c : sProp 𝕄)
      ⊢ iprop((tLoc d ↦{fullShare} m (tLoc d)) ∗ (sLoc d ↦{fullShare} m (sLoc d)) ∗ (iLoc d ↦{fullShare} (I : Buf (Elt F) (iLoc d)))
        ∗ (eLoc d ↦{fullShare} (E : Buf (Elt F) (eLoc d))) ∗ oLoc d ↦{fullShare} (dotsM m I E d : Buf (Elt F) (oLoc d))) := by
  rw [show (bigSep Finset.univ fun c : Fin ((K (F := F)).nCore 0) => (P m I E).dn 0 d c : sProp 𝕄) = _ from
    bigSep_cores (F := F) (fun c' : Fin 2 => iprop(roAt m I E d (scShare c'.val) ∗ bigSep Finset.univ fun s : Fin 16 => outDone m I E d (coordsV c' s)))]
  iintro ⟨⟨Hr0, Ho0⟩, ⟨Hr1, Ho1⟩⟩
  ihave Hro := (roAt_halves m I E d).2 $$ [Hr0 Hr1]
  · isplitl [Hr0]; · iexact Hr0
    iexact Hr1
  icases Hro with ⟨Ht, Hs, Hi, He⟩
  isplitl [Ht]; · iexact Ht
  isplitl [Hs]; · iexact Hs
  isplitl [Hi]; · iexact Hi
  isplitl [He]; · iexact He
  iapply (Entails.of_eq ((o_pieces d (dotsM m I E d : Buf (Elt F) (oLoc d))).trans (bigSep_univ_two _)).symm)
  isplitl [Ho0]; · iexact Ho0
  iexact Ho1

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem roAt_toks (d : Dev nD) (q : PosShare TreeShare) :
    (roAt m I E d q : sProp 𝕄) ⊣⊢ iprop(roAt m I E d (Transfers.shareDrop q 16) ∗ bigSep Finset.univ fun i : Fin 16 => roAt m I E d (Transfers.shareTokN q i.val)) := by
  unfold roAt
  rw [bigSep_sep', bigSep_sep', bigSep_sep']
  have ht := Transfers.pointsTo_toks (ℓ := tLoc d) (S := Finset.univ) (f := m (tLoc d)) (Val := Elt F) (Ix := HIx 1) (Name := ℕ) (U := UU) (Lvl := ℕ) q 16
  have hs := Transfers.pointsTo_toks (ℓ := sLoc d) (S := Finset.univ) (f := m (sLoc d)) (Val := Elt F) (Ix := HIx 1) (Name := ℕ) (U := UU) (Lvl := ℕ) q 16
  have hi := Transfers.pointsTo_toks (ℓ := iLoc d) (S := Finset.univ) (f := (I : Buf (Elt F) (iLoc d))) (Val := Elt F) (Ix := HIx 1) (Name := ℕ) (U := UU) (Lvl := ℕ) q 16
  have he := Transfers.pointsTo_toks (ℓ := eLoc d) (S := Finset.univ) (f := (E : Buf (Elt F) (eLoc d))) (Val := Elt F) (Ix := HIx 1) (Name := ℕ) (U := UU) (Lvl := ℕ) q 16
  constructor
  · iintro ⟨Ht, Hs, Hi, He⟩
    ihave Ht := ht.1 $$ Ht; ihave Hs := hs.1 $$ Hs; ihave Hi := hi.1 $$ Hi; ihave He := he.1 $$ He
    icases Ht with ⟨Ht1, Ht2⟩; icases Hs with ⟨Hs1, Hs2⟩; icases Hi with ⟨Hi1, Hi2⟩; icases He with ⟨He1, He2⟩
    isplitl [Ht1 Hs1 Hi1 He1]
    · isplitl [Ht1]; · iexact Ht1
      isplitl [Hs1]; · iexact Hs1
      isplitl [Hi1]; · iexact Hi1
      iexact He1
    · isplitl [Ht2]; · iexact Ht2
      isplitl [Hs2]; · iexact Hs2
      isplitl [Hi2]; · iexact Hi2
      iexact He2
  · iintro ⟨⟨Ht1, Hs1, Hi1, He1⟩, ⟨Ht2, Hs2, Hi2, He2⟩⟩
    isplitl [Ht1 Ht2]
    · iapply ht.2; isplitl [Ht1]; · iexact Ht1
      iexact Ht2
    isplitl [Hs1 Hs2]
    · iapply hs.2; isplitl [Hs1]; · iexact Hs1
      iexact Hs2
    isplitl [Hi1 Hi2]
    · iapply hi.2; isplitl [Hi1]; · iexact Hi1
      iexact Hi2
    iapply he.2; isplitl [He1]; · iexact He1
    iexact He2

theorem vecSplit : (K (F := F)).VecSplit' (P m I E) 0 := by
  intro d c
  show iprop(roAt m I E d (scShare c.val) ∗ bigSep Finset.univ fun s : Fin 16 => outAny d (coordsV (Fin.cast nCore_zero c) s))
    ⊢ |={Set.univ}=> iprop(
      (bigSep Finset.univ fun i : Fin ((K (F := F)).nSub 0) =>
        (fun i' : Fin 16 => iprop(roAt m I E d (tileShare c.val i'.val) ∗ outAny d (coordsV (Fin.cast nCore_zero c) i'))) (Fin.cast nSub_zero i))
      ∗ ((bigSep Finset.univ fun i : Fin ((K (F := F)).nSub 0) =>
          (fun i' : Fin 16 => iprop(roAt m I E d (tileShare c.val i'.val) ∗ outDone m I E d (coordsV (Fin.cast nCore_zero c) i'))) (Fin.cast nSub_zero i))
          -∗ iprop(roAt m I E d (scShare c.val) ∗ bigSep Finset.univ fun s : Fin 16 => outDone m I E d (coordsV (Fin.cast nCore_zero c) s))))
  rw [bigSep_tasks (F := F) (fun i' : Fin 16 => iprop(roAt m I E d (tileShare c.val i'.val) ∗ outAny d (coordsV (Fin.cast nCore_zero c) i'))),
    bigSep_tasks (F := F) (fun i' : Fin 16 => iprop(roAt m I E d (tileShare c.val i'.val) ∗ outDone m I E d (coordsV (Fin.cast nCore_zero c) i'))),
    bigSep_sep' Finset.univ (fun i' : Fin 16 => roAt m I E d (tileShare c.val i'.val)) (fun i' : Fin 16 => outAny d (coordsV (Fin.cast nCore_zero c) i')),
    bigSep_sep' Finset.univ (fun i' : Fin 16 => roAt m I E d (tileShare c.val i'.val)) (fun i' : Fin 16 => outDone m I E d (coordsV (Fin.cast nCore_zero c) i'))]
  iintro ⟨Hro, Ho⟩
  ihave Hro := (roAt_toks m I E d (scShare c.val)).1 $$ Hro
  icases Hro with ⟨Hrem, Htoks⟩
  imodintro
  isplitl [Htoks Ho]
  · isplitl [Htoks]; · iexact Htoks
    iexact Ho
  iintro ⟨Htoks, Ho⟩
  isplitl [Hrem Htoks]
  · iapply (roAt_toks m I E d (scShare c.val)).2
    isplitl [Hrem]; · iexact Hrem
    iexact Htoks
  iexact Ho

end Cert.HandI

end
-- ==== Proof.HeldAgree.lean ====
import proofs.«204931_g11295763988758_cont_test2_10_9_alg».proof.Proof.Vals

noncomputable section

namespace Cert.HandI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

theorem held_agree (c : Thread nD τ) (A : Finset (DevRef τ sig)) (W : Valuation τ sig (Elt F)) (s' : Phys nD τ sig (Elt F)) :
    iprop(held c A W ∗ SI s') ⊢ (⌜∀ b ∈ A, s'.mem.mem (c.1, b) = W b⌝ : sProp 𝕄) := by
  induction A using Finset.induction_on with
  | empty =>
    iintro -
    ipureintro
    intro b hb
    exact absurd hb (Finset.notMem_empty b)
  | insert b A hb ih =>
    unfold held at ih ⊢
    have e : bigSep (insert b A) (fun b => ((c.1, b) ↦{fullShare} W b : sProp 𝕄))
        = iprop(((c.1, b) ↦{fullShare} W b) ∗ bigSep A (fun b => ((c.1, b) ↦{fullShare} W b : sProp 𝕄))) :=
      bigSep_insert hb
    rw [e]
    iintro ⟨⟨Hb, HA⟩, HSI⟩
    ihave H := (persistent_entails_right (SI_pointsTo_agree (st := s') (ℓ := (c.1, b)) (I := Finset.univ) (q := fullShare) (f := W b))) $$ [HSI Hb]
    · isplitl [HSI] <;> iassumption
    icases H with ⟨%h1, HSI, -⟩
    ihave H2 := ih $$ [HA HSI]
    · isplitl [HA] <;> iassumption
    icases H2 with %h2
    ipureintro
    intro b' hb'
    rcases Finset.mem_insert.1 hb' with rfl | h
    · exact funext fun i => h1 i (Finset.mem_univ i)
    · exact h2 b' h

variable (m : (ℓ : Loc nD τ sig) → Buf (Elt F) ℓ)

def fq (d : Dev nD) (s' : Phys nD τ sig (Elt F)) : Prop :=
  ∀ b ∈ (UC : Finset (DevRef τ sig)), s'.mem.mem (d, b) = We m d b

theorem hfin (d : Dev nD) (s' : Phys nD τ sig (Elt F)) :
    iprop(held (T d) UC (We m d) ∗ SI s') ⊢ (⌜fq m d s'⌝ : sProp 𝕄) :=
  held_agree (T d) UC (We m d) s'

end Cert.HandI

end
-- ==== Proof.Launch.lean ====
import proofs.«204931_g11295763988758_cont_test2_10_9_alg».proof.Proof.LaunchElem
import proofs.«204931_g11295763988758_cont_test2_10_9_alg».proof.Proof.ScPay
import proofs.«204931_g11295763988758_cont_test2_10_9_alg».proof.Proof.HeldAgree

noncomputable section

namespace Cert.HandI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ) (ρ : Dev nD → PrngReg)

abbrev d0 : Dev nD := 0

abbrev Pk : (K (F := F)).Pay (nD := nD) (Val := Elt F) (Name := ℕ) (U := UU) := P m (Ik m d0) (Ek m d0)

abbrev FIN (d : Dev nD) : sProp 𝕄 := held (T d) UC (We m d)

def QC : PUnit × MemSt nD τ sig (Elt F) → Prop := fun r => ∀ c : Dev nD, ∀ b ∈ (UC : Finset (DevRef τ sig)), r.2.mem (c, b) = We m c b

theorem run_main_of [∀ e, Nonempty (Elt F e)]
    (htile : (K (F := F)).TileObl (D (F := F)) 𝒱 (Pk m) v₀ 0)
    (hmain : ∀ (κ : GSem nD τ sig → ℕ) (d : Dev nD),
      iprop((K (F := F)).ctx EH (Pk m) κ ∗ (K (F := F)).tcSt EH d 0 ∗ (K (F := F)).tcRes m ρ d ∗ G (F := F) d)
        ⊢ wp frame (wpE ((K (F := F)).defs (D (F := F))) 𝒱 (SparseCore.T d) none) Set.univ (main d)
            fun _ => iprop((K (F := F)).tcSt EH d 1 ∗ FIN m d)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := Pk m) facts v₀
    (fun q hq => match q with | 0 => nomatch hq)
    (fun q _ => match q with | 0 => htile)
    (fun q _ => match q with | 0 => SparseCore.Cfg.VecSplit.of_plain (vecSplit m (Ik m d0) (Ek m d0)))
    m ρ main (G (F := F)) (FIN m) (u₀ (F := F)) (sep_elim_left.trans (hu₀ (Pk m) (fun _ _ => rfl))) hmain (fq m) (hfin m) (QC m) (fun _ h c => h c)

end Cert.HandI

end
-- ==== Proof.ValsKept.lean ====
import proofs.«204931_g11295763988758_cont_test2_10_9_alg».proof.Proof.Vals

noncomputable section

namespace Cert.HandI

open Cert.KernelIdeal Cert.KernelIdeal.Gen

open Idealize.ShloMosaic
open Idealize.ShloMosaic.SparseCore (S V T)
open Idealize.SL Idealize.SL.Sem

variable {F : FTy → Type} [FloatOps F] [Named F]

variable (m : (ℓ : Loc nD τ sig) → Buf (Elt F) ℓ)

theorem Wa_of_ne (c : Dev nD) {r : Ref sig .tc} (h0 : r ≠ main_v0) (h1 : r ≠ main_v1) (h2 : r ≠ main_v2) (h3 : r ≠ main_v3) :
    Wa m c (Proc.devRef .tc r) = m (c, Proc.devRef .tc r) := by
  unfold Wa
  rw [StableHlo.reshape_result_ne _ _ _ _ _ _ _ h3, StableHlo.reshape_result_ne _ _ _ _ _ _ _ h2,
    StableHlo.binary_result_ne _ _ _ _ _ _ _ _ h1, StableHlo.unary_result_ne _ _ _ _ _ _ h0]
  rfl

theorem Wb_of_ne (c : Dev nD) (r : Ref sig .tc) (hr : ∀ w, Pipeline.arrRef spec0 w ≠ r) :
    Wb m c (Proc.devRef .tc r) = Wa m c (Proc.devRef .tc r) := Wx0_of_ne (Wa m) c r hr

theorem Wb_in (c : Dev nD) (w : Fin cfg0.W) (hin : (cfg0.win w).isOut = false) :
    Wb m c (Proc.devRef .tc (Pipeline.arrRef spec0 w)) = Wa m c (Proc.devRef .tc (Pipeline.arrRef spec0 w)) :=
  (Wx0_arr (Wa m) c w).trans (((dat0 (Vof (Wa m)) c).arrAt_in w hin _).trans (A_eq0 (Vof (Wa m)) c w))

theorem Wc_of_ne (c : Dev nD) {r : Ref sig .tc} (h : r ≠ main_v5) : Wc m c (Proc.devRef .tc r) = Wb m c (Proc.devRef .tc r) := by
  unfold Wc
  exact Function.update_of_ne (StableHlo.devRef_ne_of_ne h) _ _

theorem Wd_of_ne (c : Dev nD) (r : Ref sig .tc) (hr : ∀ w, Pipeline.arrRef spec2 w ≠ r) :
    Wd m c (Proc.devRef .tc r) = Wc m c (Proc.devRef .tc r) := Wx2_of_ne (Wc m) c r hr

theorem We_of_ne (c : Dev nD) {r : Ref sig .tc} (h : r ≠ main_v7) : We m c (Proc.devRef .tc r) = Wd m c (Proc.devRef .tc r) := by
  unfold We
  exact StableHlo.reshape_result_ne _ _ _ _ _ _ _ h

theorem We_arg0 (c : Dev nD) : We m c (Proc.devRef .tc (main_arg0 : Ref sig .tc)) = m (c, Proc.devRef .tc main_arg0) :=
  calc We m c (Proc.devRef .tc (main_arg0 : Ref sig .tc))
    _ = Wd m c (Proc.devRef .tc main_arg0) := We_of_ne m c (by decide)
    _ = Wc m c (Proc.devRef .tc main_arg0) := Wd_of_ne m c main_arg0 (by decide)
    _ = Wb m c (Proc.devRef .tc main_arg0) := Wc_of_ne m c (by decide)
    _ = Wa m c (Proc.devRef .tc main_arg0) := Wb_of_ne m c main_arg0 (by decide)
    _ = m (c, Proc.devRef .tc main_arg0) := Wa_of_ne m c (by decide) (by decide) (by decide) (by decide)

theorem We_arg1 (c : Dev nD) : We m c (Proc.devRef .tc (main_arg1 : Ref sig .tc)) = m (c, Proc.devRef .tc main_arg1) :=
  calc We m c (Proc.devRef .tc (main_arg1 : Ref sig .tc))
    _ = Wd m c (Proc.devRef .tc main_arg1) := We_of_ne m c (by decide)
    _ = Wc m c (Proc.devRef .tc main_arg1) := Wd_of_ne m c main_arg1 (by decide)
    _ = Wb m c (Proc.devRef .tc main_arg1) := Wc_of_ne m c (by decide)
    _ = Wa m c (Proc.devRef .tc main_arg1) := Wb_in m c 0 rfl
    _ = m (c, Proc.devRef .tc main_arg1) := Wa_of_ne m c (by decide) (by decide) (by decide) (by decide)

theorem We_arg2 (c : Dev nD) : We m c (Proc.devRef .tc (main_arg2 : Ref sig .tc)) = m (c, Proc.devRef .tc main_arg2) :=
  calc We m c (Proc.devRef .tc (main_arg2 : Ref sig .tc))
    _ = Wd m c (Proc.devRef .tc main_arg2) := We_of_ne m c (by decide)
    _ = Wc m c (Proc.devRef .tc main_arg2) := Wd_of_ne m c main_arg2 (by decide)
    _ = Wb m c (Proc.devRef .tc main_arg2) := Wc_of_ne m c (by decide)
    _ = Wa m c (Proc.devRef .tc main_arg2) := Wb_in m c 1 rfl
    _ = m (c, Proc.devRef .tc main_arg2) := Wa_of_ne m c (by decide) (by decide) (by decide) (by decide)

theorem We_arg3 (c : Dev nD) : We m c (Proc.devRef .tc (main_arg3 : Ref sig .tc)) = m (c, Proc.devRef .tc main_arg3) :=
  calc We m c (Proc.devRef .tc (main_arg3 : Ref sig .tc))
    _ = Wd m c (Proc.devRef .tc main_arg3) := We_of_ne m c (by decide)
    _ = Wc m c (Proc.devRef .tc main_arg3) := Wd_of_ne m c main_arg3 (by decide)
    _ = Wb m c (Proc.devRef .tc main_arg3) := Wc_of_ne m c (by decide)
    _ = Wa m c (Proc.devRef .tc main_arg3) := Wb_of_ne m c main_arg3 (by decide)
    _ = m (c, Proc.devRef .tc main_arg3) := Wa_of_ne m c (by decide) (by decide) (by decide) (by decide)

theorem We_arg4 (c : Dev nD) : We m c (Proc.devRef .tc (main_arg4 : Ref sig .tc)) = m (c, Proc.devRef .tc main_arg4) :=
  calc We m c (Proc.devRef .tc (main_arg4 : Ref sig .tc))
    _ = Wd m c (Proc.devRef .tc main_arg4) := We_of_ne m c (by decide)
    _ = Wc m c (Proc.devRef .tc main_arg4) := Wd_of_ne m c main_arg4 (by decide)
    _ = Wb m c (Proc.devRef .tc main_arg4) := Wc_of_ne m c (by decide)
    _ = Wa m c (Proc.devRef .tc main_arg4) := Wb_of_ne m c main_arg4 (by decide)
    _ = m (c, Proc.devRef .tc main_arg4) := Wa_of_ne m c (by decide) (by decide) (by decide) (by decide)

theorem We_arg5 (c : Dev nD) : We m c (Proc.devRef .tc (main_arg5 : Ref sig .tc)) = m (c, Proc.devRef .tc main_arg5) :=
  calc We m c (Proc.devRef .tc (main_arg5 : Ref sig .tc))
    _ = Wd m c (Proc.devRef .tc main_arg5) := We_of_ne m c (by decide)
    _ = Wc m c (Proc.devRef .tc main_arg5) := Wd_of_ne m c main_arg5 (by decide)
    _ = Wb m c (Proc.devRef .tc main_arg5) := Wc_of_ne m c (by decide)
    _ = Wa m c (Proc.devRef .tc main_arg5) := Wb_in m c 2 rfl
    _ = m (c, Proc.devRef .tc main_arg5) := Wa_of_ne m c (by decide) (by decide) (by decide) (by decide)

theorem We_arg6 (c : Dev nD) : We m c (Proc.devRef .tc (main_arg6 : Ref sig .tc)) = m (c, Proc.devRef .tc main_arg6) :=
  calc We m c (Proc.devRef .tc (main_arg6 : Ref sig .tc))
    _ = Wd m c (Proc.devRef .tc main_arg6) := We_of_ne m c (by decide)
    _ = Wc m c (Proc.devRef .tc main_arg6) := Wd_of_ne m c main_arg6 (by decide)
    _ = Wb m c (Proc.devRef .tc main_arg6) := Wc_of_ne m c (by decide)
    _ = Wa m c (Proc.devRef .tc main_arg6) := Wb_of_ne m c main_arg6 (by decide)
    _ = m (c, Proc.devRef .tc main_arg6) := Wa_of_ne m c (by decide) (by decide) (by decide) (by decide)

theorem We_arg7 (c : Dev nD) : We m c (Proc.devRef .tc (main_arg7 : Ref sig .tc)) = m (c, Proc.devRef .tc main_arg7) :=
  calc We m c (Proc.devRef .tc (main_arg7 : Ref sig .tc))
    _ = Wd m c (Proc.devRef .tc main_arg7) := We_of_ne m c (by decide)
    _ = Wc m c (Proc.devRef .tc main_arg7) := Wd_of_ne m c main_arg7 (by decide)
    _ = Wb m c (Proc.devRef .tc main_arg7) := Wc_of_ne m c (by decide)
    _ = Wa m c (Proc.devRef .tc main_arg7) := Wb_in m c 4 rfl
    _ = m (c, Proc.devRef .tc main_arg7) := Wa_of_ne m c (by decide) (by decide) (by decide) (by decide)

theorem We_arg8 (c : Dev nD) : We m c (Proc.devRef .tc (main_arg8 : Ref sig .tc)) = m (c, Proc.devRef .tc main_arg8) :=
  calc We m c (Proc.devRef .tc (main_arg8 : Ref sig .tc))
    _ = Wd m c (Proc.devRef .tc main_arg8) := We_of_ne m c (by decide)
    _ = Wc m c (Proc.devRef .tc main_arg8) := Wd_of_ne m c main_arg8 (by decide)
    _ = Wb m c (Proc.devRef .tc main_arg8) := Wc_of_ne m c (by decide)
    _ = Wa m c (Proc.devRef .tc main_arg8) := Wb_of_ne m c main_arg8 (by decide)
    _ = m (c, Proc.devRef .tc main_arg8) := Wa_of_ne m c (by decide) (by decide) (by decide) (by decide)

theorem We_arg9 (c : Dev nD) : We m c (Proc.devRef .tc (main_arg9 : Ref sig .tc)) = m (c, Proc.devRef .tc main_arg9) :=
  calc We m c (Proc.devRef .tc (main_arg9 : Ref sig .tc))
    _ = Wd m c (Proc.devRef .tc main_arg9) := We_of_ne m c (by decide)
    _ = Wc m c (Proc.devRef .tc main_arg9) := Wd_of_ne m c main_arg9 (by decide)
    _ = Wb m c (Proc.devRef .tc main_arg9) := Wc_of_ne m c (by decide)
    _ = Wa m c (Proc.devRef .tc main_arg9) := Wb_of_ne m c main_arg9 (by decide)
    _ = m (c, Proc.devRef .tc main_arg9) := Wa_of_ne m c (by decide) (by decide) (by decide) (by decide)

theorem We_arg10 (c : Dev nD) : We m c (Proc.devRef .tc (main_arg10 : Ref sig .tc)) = m (c, Proc.devRef .tc main_arg10) :=
  calc We m c (Proc.devRef .tc (main_arg10 : Ref sig .tc))
    _ = Wd m c (Proc.devRef .tc main_arg10) := We_of_ne m c (by decide)
    _ = Wc m c (Proc.devRef .tc main_arg10) := Wd_of_ne m c main_arg10 (by decide)
    _ = Wb m c (Proc.devRef .tc main_arg10) := Wc_of_ne m c (by decide)
    _ = Wa m c (Proc.devRef .tc main_arg10) := Wb_of_ne m c main_arg10 (by decide)
    _ = m (c, Proc.devRef .tc main_arg10) := Wa_of_ne m c (by decide) (by decide) (by decide) (by decide)

theorem We_v7 (c : Dev nD) : We m c (Proc.devRef .tc (main_v7 : Ref sig .tc)) = outK m c := rfl

end Cert.HandI

end
-- ==== Proof.RegionBodies.lean ====
import proofs.«204931_g11295763988758_cont_test2_10_9_alg».proof.Proof.RegionDats

set_option maxRecDepth 16384

noncomputable section

namespace Cert.HandI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

set_option maxHeartbeats 1000000 in

theorem sound_kernel0 (c : Dev nD) (E : Set ℕ) (i : grid0.Coords)
    (arg1 : Memref sig .tc .vmem S256x2048 .f32) (harg1 : arg1.IsWhole) (arg2 : Memref sig .tc .vmem S256x2048 .f32) (harg2 : arg2.IsWhole)
    (arg3 : Memref sig .tc .vmem S2048x128 .f32) (harg3 : arg3.IsWhole) (arg4 : Memref sig .tc .vmem S1x128 .f32) (harg4 : arg4.IsWhole)
    (arg5 : Memref sig .tc .vmem S2048x128 .f32) (harg5 : arg5.IsWhole) (arg6 : Memref sig .tc .vmem S1x128 .f32) (harg6 : arg6.IsWhole)
    (arg7 : Memref sig .tc .vmem S2x256x128 .f32) (harg7 : arg7.IsWhole)
    (x0 : Vec F S256x2048 .f32) (x1 : Vec F S256x2048 .f32) (x2 : Vec F S2048x128 .f32) (x3 : Vec F S1x128 .f32)
    (x4 : Vec F S2048x128 .f32) (x5 : Vec F S1x128 .f32) (Q : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ Q ⟨⟩))
      ⊢ wp frame (wpE (defs₀ (F := F)) Variants.none c none) E
          (cc0__emb_body i arg1 harg1 arg2 harg2 arg3 harg3 arg4 harg4 arg5 harg5 arg6 harg6 arg7 harg7) Q := by
  simp only [cc0__emb_body_eq_skeleton]; unfold cc0__emb_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover0_6 _ _)

section Regions
variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt none t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt none t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt none t.succ = (dat0 V c).owesAt none t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none none Set.univ := fun t => by
  rw [bigSep_W0, bigSep_W0]
  exact sound_body0 V c t

end Regions

set_option maxHeartbeats 1000000 in

theorem sound_kernel2 (c : Dev nD) (E : Set ℕ)
    (arg0 : Memref sig .tc .vmem S2x1024x512 .f32) (harg0 : arg0.IsWhole) (arg1 : Memref sig .tc .vmem S1x1 .f32) (harg1 : arg1.IsWhole)
    (x0 : Vec F S2x1024x512 .f32) (Q : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out2_1 x0)) -∗ Q ⟨⟩))
      ⊢ wp frame (wpE (defs₀ (F := F)) Variants.none c none) E (cc2__loss_body arg0 harg0 arg1 harg1) Q := by
  simp only [cc2__loss_body_eq_skeleton]; unfold cc2__loss_body_skel
  simp only [k2_part1_eq_skeleton]; unfold k2_part1_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  try dsimp only
  exact View.read_writes_eq_canon _ _ _ (cover2_1 _)

section Regions
variable (V : (c : Dev nD) → (b : Ref sig .tc) → Buf (Elt F) ((c : Thread nD τ).loc b))

def bodyPre2 (c : Dev nD) (t : Fin cfg2.N) : sProp 𝕄 :=
  iprop((dat2 V c).Φ t.castSucc ∗ (dat2 V c).owesAt none t.castSucc
    ∗ (∃ d, owns (c : Thread nD τ) (st2_0 t) fullShare ((dat2 V c).before 0 t d))
    ∗ (∃ d, owns (c : Thread nD τ) (st2_1 t) fullShare ((dat2 V c).before 1 t d)))

def bodyPost2 (c : Dev nD) (t : Fin cfg2.N) : sProp 𝕄 :=
  iprop((dat2 V c).Φ t.succ ∗ (dat2 V c).owesAt none t.succ
    ∗ owns (c : Thread nD τ) (st2_0 t) fullShare ((dat2 V c).after 0 t)
    ∗ owns (c : Thread nD τ) (st2_1 t) fullShare ((dat2 V c).after 1 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt none t.succ = (dat2 V c).owesAt none t.castSucc from rfl,
    after2_0, after2_1]
  iintro ⟨HΦ, Ho, ⟨%d0, H0⟩, ⟨%d1, H1⟩⟩
  iapply (sound_kernel2 c Set.univ _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation2 (c : Dev nD) : BodyObligation (dat2 (F := F) V c) (defs₀ (F := F)) Variants.none none Set.univ := fun t => by
  rw [bigSep_W2, bigSep_W2]
  exact sound_body2 V c t

end Regions

end Cert.HandI

end
-- ==== Proof.RegionSegs.lean ====
import proofs.«204931_g11295763988758_cont_test2_10_9_alg».proof.Proof.RegionBodies

set_option maxRecDepth 16384

noncomputable section

namespace Cert.HandI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

theorem sub_bound_of_WBelow {c : Dev nD} {W : Waits sig (HIx 1)} {b : ℕ} {B : Set (SemLoc sig × HIx 1)}
    (h : (K (F := F)).WBelow (SparseCore.T c) W b) : (↑W : Set (SemLoc sig × HIx 1)) ⊆ recBelow (F := F) c b ∪ B :=
  fun p hp => Or.inl (h p (Finset.mem_coe.mp hp))

theorem WBelow_of_sub_bound {c : Dev nD} {W : Waits sig (HIx 1)} {b : ℕ} (cfg : Pipeline.Cfg sig Λ₀)
    (h : (↑W : Set (SemLoc sig × HIx 1)) ⊆ recBelow (F := F) c b ∪ cfg.waitPairs none) :
    (K (F := F)).WBelow (SparseCore.T c) W b := fun p hp => by
  rcases h (Finset.mem_coe.mpr hp) with h | ⟨w, s, rfl⟩
  · exact h
  · exact Nat.zero_le _

section Segs

variable (Wa Wb : Dev nD → Valuation τ sig (Elt F))

theorem hwaits0 (c : Dev nD) :
    (levAts (K (F := F)).L (K (F := F)).lev : sProp 𝕄)
      ⊢ Pipeline.cellsWaits (Pipeline.pin (pcfgs (F := F)) adm) (pdats (Vof Wa) (Vof Wb)) none 0 c :=
  Pipeline.cellsWaits_intro (Pipeline.pin (pcfgs (F := F)) adm) (pdats (Vof Wa) (Vof Wb)) none 0 c fun w s t =>
    (K (F := F)).mayWait_none _ (Otc_none c 0)

theorem hwaits2 (c : Dev nD) :
    (levAts (K (F := F)).L (K (F := F)).lev : sProp 𝕄)
      ⊢ Pipeline.cellsWaits (Pipeline.pin (pcfgs (F := F)) adm) (pdats (Vof Wa) (Vof Wb)) none 1 c :=
  Pipeline.cellsWaits_intro (Pipeline.pin (pcfgs (F := F)) adm) (pdats (Vof Wa) (Vof Wb)) none 1 c fun w s t =>
    (K (F := F)).mayWait_none _ (Otc_none c 1)

set_option backward.isDefEq.respectTransparency.types false in

def reg0 : Pipeline.RegionSeg (pcfgs (F := F)) adm (pdats (Vof Wa) (Vof Wb)) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 (Vof Wa) c).loose
  hwaits := hwaits0 Wa Wb
  pre c := iprop(StableHlo.held (c : Thread nD τ) (Pipeline.ucRefs τ sig) (Wa c) ∗ Rn (F := F) 0 c)
  post c := iprop(StableHlo.held (c : Thread nD τ) (Pipeline.ucRefs τ sig) (Wx0 Wa c) ∗ Rn (F := F) 0 c)
  X c := iprop(emp)
  Y c := iprop(emp)
  Z c := Pipeline.unscopedRest (Ix := HIx 1) (Name := ℕ) (U := UU) (Lvl := ℕ) spec0 c (Vof Wa c)
  hentry c := by
    rw [Pipeline.ownSems0_none]
    have hsplit := Pipeline.arrays_of_unscopedBufs (p := 0) (pcfgs (F := F)) adm (pdats (Vof Wa) (Vof Wb)) launch0.win launch0.arr_whole c
      ((pdats (Vof Wa) (Vof Wb) 0 c).share_full fun _ => rfl) (Vof Wa c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact sub_bound_of_WBelow hW
      iexact HO
    isplitr; · iempintro
    iexact Hrest
  hin c := by
    rw [show (pdats (Vof Wa) (Vof Wb) 0 c).Φ 0 = ΦR (F := F) spec0 c from rfl]; unfold ΦR
    iintro ⟨-, -, Hr⟩
    iexact Hr
  hout c := by
    rw [Pipeline.ownSems0_none, show (pdats (Vof Wa) (Vof Wb) 0 c).Φ (Fin.last _) = ΦR (F := F) spec0 c from rfl]; unfold ΦR
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats (Vof Wa) (Vof Wb)) ((pdats (Vof Wa) (Vof Wb) 0 c).share_full fun _ => rfl)
      (Vof Wa c) (Vof (Wx0 Wa) c) ((pdats (Vof Wa) (Vof Wb) 0 c).arrAt · cfg0.N) (hF0 Wa c) (hrest0 Wa c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr; · ipureintro; exact WBelow_of_sub_bound cfg0 hW
    iexact HO

set_option backward.isDefEq.respectTransparency.types false in

def reg2 : Pipeline.RegionSeg (pcfgs (F := F)) adm (pdats (Vof Wa) (Vof Wb)) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation2 (Vof Wb) c).loose
  hwaits := hwaits2 Wa Wb
  pre c := iprop(StableHlo.held (c : Thread nD τ) (Pipeline.ucRefs τ sig) (Wb c) ∗ Rn (F := F) 1 c)
  post c := iprop(StableHlo.held (c : Thread nD τ) (Pipeline.ucRefs τ sig) (Wx2 Wb c) ∗ Rn (F := F) 1 c)
  X c := iprop(emp)
  Y c := iprop(emp)
  Z c := Pipeline.unscopedRest (Ix := HIx 1) (Name := ℕ) (U := UU) (Lvl := ℕ) spec2 c (Vof Wb c)
  hentry c := by
    rw [Pipeline.ownSems0_none]
    have hsplit := Pipeline.arrays_of_unscopedBufs (p := 1) (pcfgs (F := F)) adm (pdats (Vof Wa) (Vof Wb)) launch2.win launch2.arr_whole c
      ((pdats (Vof Wa) (Vof Wb) 1 c).share_full fun _ => rfl) (Vof Wb c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact sub_bound_of_WBelow hW
      iexact HO
    isplitr; · iempintro
    iexact Hrest
  hin c := by
    rw [show (pdats (Vof Wa) (Vof Wb) 1 c).Φ 0 = ΦR (F := F) spec2 c from rfl]; unfold ΦR
    iintro ⟨-, -, Hr⟩
    iexact Hr
  hout c := by
    rw [Pipeline.ownSems0_none, show (pdats (Vof Wa) (Vof Wb) 1 c).Φ (Fin.last _) = ΦR (F := F) spec2 c from rfl]; unfold ΦR
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats (Vof Wa) (Vof Wb)) ((pdats (Vof Wa) (Vof Wb) 1 c).share_full fun _ => rfl)
      (Vof Wb c) (Vof (Wx2 Wb) c) ((pdats (Vof Wa) (Vof Wb) 1 c).arrAt · cfg2.N) (hF2 Wb c) (hrest2 Wb c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr; · ipureintro; exact WBelow_of_sub_bound cfg2 hW
    iexact HO

theorem reg0_pre (c : Dev nD) : (reg0 Wa Wb).pre c = iprop(StableHlo.held (c : Thread nD τ) (Pipeline.ucRefs τ sig) (Wa c) ∗ Rn (F := F) 0 c) := rfl
theorem reg0_post (c : Dev nD) : (reg0 Wa Wb).post c = iprop(StableHlo.held (c : Thread nD τ) (Pipeline.ucRefs τ sig) (Wx0 Wa c) ∗ Rn (F := F) 0 c) := rfl

theorem reg2_pre (c : Dev nD) : (reg2 Wa Wb).pre c = iprop(StableHlo.held (c : Thread nD τ) (Pipeline.ucRefs τ sig) (Wb c) ∗ Rn (F := F) 1 c) := rfl
theorem reg2_post (c : Dev nD) : (reg2 Wa Wb).post c = iprop(StableHlo.held (c : Thread nD τ) (Pipeline.ucRefs τ sig) (Wx2 Wb c) ∗ Rn (F := F) 1 c) := rfl

end Segs

end Cert.HandI

end
-- ==== Proof.Main.lean ====
import proofs.«204931_g11295763988758_cont_test2_10_9_alg».proof.Proof.Launch
import proofs.«204931_g11295763988758_cont_test2_10_9_alg».proof.Proof.ValsKept
import proofs.«204931_g11295763988758_cont_test2_10_9_alg».proof.Proof.RegionSegs

noncomputable section

namespace Cert.HandI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ) (ρ : Dev nD → PrngReg)

theorem tcSt_take (d : Dev nD) (n : ℕ) :
    ((K (F := F)).tcSt EH d n : sProp 𝕄) ⊢ iprop(Rn (F := F) n d ∗ (Rn (F := F) n d -∗ (K (F := F)).tcSt EH d n)) := by
  unfold SparseCore.Cfg.tcSt
  iintro ⟨HO, Hrest⟩
  isplitl [HO]; · iexact HO
  iintro HO
  isplitl [HO]; · iexact HO
  iexact Hrest

abbrev S5 : Finset (DevRef τ sig) := {a10', a9', v1', v4', v5'}

theorem S5_sub : S5 ⊆ (UC : Finset (DevRef τ sig)) := by decide

theorem held_S5 (d : Dev nD) (W : Valuation τ sig (Elt F)) :
    (held (T d) S5 W : sProp 𝕄) = iprop((tLoc d ↦{fullShare} W a10') ∗ (sLoc d ↦{fullShare} W a9')
      ∗ (iLoc d ↦{fullShare} W v1') ∗ (eLoc d ↦{fullShare} W v4') ∗ (oLoc d ↦{fullShare} W v5')) := by
  unfold held S5
  rw [SparseCore.bigSep_insert' (by decide), SparseCore.bigSep_insert' (by decide), SparseCore.bigSep_insert' (by decide), SparseCore.bigSep_insert' (by decide), bigSep_singleton]

theorem Wb_a10 (d : Dev nD) : Wb m d a10' = m (tLoc d) :=
  (Wb_of_ne m d main_arg10 (by decide)).trans (Wa_of_ne m d (by decide) (by decide) (by decide) (by decide))
theorem Wb_a9 (d : Dev nD) : Wb m d a9' = m (sLoc d) :=
  (Wb_of_ne m d main_arg9 (by decide)).trans (Wa_of_ne m d (by decide) (by decide) (by decide) (by decide))
theorem Wb_v1 (d : Dev nD) : Wb m d v1' = Ik m d := Wb_of_ne m d main_v1 (by decide)
theorem Wb_v4 (d : Dev nD) : Wb m d v4' = Ek m d := rfl

theorem Wc_a10 (d : Dev nD) : Wc m d a10' = m (tLoc d) := (Wc_of_ne m d (by decide)).trans (Wb_a10 m d)
theorem Wc_a9 (d : Dev nD) : Wc m d a9' = m (sLoc d) := (Wc_of_ne m d (by decide)).trans (Wb_a9 m d)
theorem Wc_v1 (d : Dev nD) : Wc m d v1' = Ik m d := (Wc_of_ne m d (by decide)).trans (Wb_v1 m d)
theorem Wc_v4 (d : Dev nD) : Wc m d v4' = Ek m d := (Wc_of_ne m d (by decide)).trans (Wb_v4 m d)
theorem Wc_out (d : Dev nD) : Wc m d v5' = Dk m d := by unfold Wc; exact Function.update_self _ _ _

theorem held_Wb_take (d : Dev nD) :
    (held (T d) UC (Wb m d) : sProp 𝕄) ⊢ iprop((tLoc d ↦{fullShare} m (tLoc d)) ∗ (sLoc d ↦{fullShare} m (sLoc d))
      ∗ (iLoc d ↦{fullShare} (Ik m d : Buf (Elt F) (iLoc d))) ∗ (eLoc d ↦{fullShare} (Ek m d : Buf (Elt F) (eLoc d)))
      ∗ (∃ f, oLoc d ↦{fullShare} f) ∗ held (T d) (UC \ S5) (Wb m d)) := by
  rw [StableHlo.held_sub_split (T d) S5_sub (Wb m d), held_S5, Wb_a10, Wb_a9, Wb_v1, Wb_v4]
  iintro ⟨⟨Ht, Hs, Hi, He, Ho⟩, Hrest⟩
  isplitl [Ht]; · iexact Ht
  isplitl [Hs]; · iexact Hs
  isplitl [Hi]; · iexact Hi
  isplitl [He]; · iexact He
  isplitl [Ho]; · iexists _; iexact Ho
  iexact Hrest

theorem held_Wc_join (d : Dev nD) :
    iprop((tLoc d ↦{fullShare} m (tLoc d)) ∗ (sLoc d ↦{fullShare} m (sLoc d))
      ∗ (iLoc d ↦{fullShare} (Ik m d : Buf (Elt F) (iLoc d))) ∗ (eLoc d ↦{fullShare} (Ek m d : Buf (Elt F) (eLoc d)))
      ∗ (oLoc d ↦{fullShare} (Dk m d : Buf (Elt F) (oLoc d))) ∗ held (T d) (UC \ S5) (Wb m d)) ⊢ (held (T d) UC (Wc m d) : sProp 𝕄) := by
  rw [StableHlo.held_sub_split (T d) S5_sub (Wc m d), held_S5, Wc_a10, Wc_a9, Wc_v1, Wc_v4, Wc_out,
    StableHlo.held_congr (T d) (S := UC \ S5) (V := Wc m d) (V' := Wb m d) (fun b hb => by
      have hne : b ≠ v5' := fun e => (Finset.mem_sdiff.mp hb).2 (by rw [e]; decide)
      unfold Wc
      exact Function.update_of_ne hne _ _)]
  iintro ⟨Ht, Hs, Hi, He, Ho, Hrest⟩
  isplitl [Ht Hs Hi He Ho]
  · isplitl [Ht]; · iexact Ht
    isplitl [Hs]; · iexact Hs
    isplitl [Hi]; · iexact Hi
    isplitl [He]; · iexact He
    iexact Ho
  iexact Hrest

set_option backward.isDefEq.respectTransparency.types false in

theorem hmain [∀ e, Nonempty (Elt F e)] (κ : GSem nD τ sig → ℕ) (d : Dev nD) :
    iprop((K (F := F)).ctx EH (Pk m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  obtain rfl : d = d0 := Subsingleton.elim _ _
  unfold SparseCore.Cfg.tcRes G
  rw [show unscopedBufs d0 (fun b => m ((SparseCore.T d0).loc b)) = held (T d0) UC (W0 m d0) from Pipeline.unscopedBufs_held d0 (W0 m d0),
    bigSep_W2, bigSep_W2]
  simp only [main, wp_bind, wp_pure]
  iintro ⟨#Hctx, Hst, ⟨Hb, Hheld, -, -⟩, ⟨⟨Hg0, Hg1⟩, ⟨Ht0, Ht1⟩⟩⟩

  iapply (wp_hlo_within 𝒱 (SparseCore.T d0) none Set.univ (op := op0) (S := UC) h0 (V := W0 m d0)) $$ [Hb Hheld]
  · isplitl [Hb]; · iexact Hb
    iexact Hheld
  iintro ⟨Hb, Hheld⟩
  rw [wp_ret]; imodintro
  iapply (wp_hlo_within 𝒱 (SparseCore.T d0) none Set.univ (op := op1) (S := UC) h1 (V := (op0 (F := F)).result (W0 m d0))) $$ [Hb Hheld]
  · isplitl [Hb]; · iexact Hb
    iexact Hheld
  iintro ⟨Hb, Hheld⟩
  rw [wp_ret]; imodintro
  iapply (wp_hlo_within 𝒱 (SparseCore.T d0) none Set.univ (op := op2) (S := UC) h2 (V := (op1 (F := F)).result ((op0 (F := F)).result (W0 m d0)))) $$ [Hb Hheld]
  · isplitl [Hb]; · iexact Hb
    iexact Hheld
  iintro ⟨Hb, Hheld⟩
  rw [wp_ret]; imodintro
  iapply (wp_hlo_within 𝒱 (SparseCore.T d0) none Set.univ (op := op3) (S := UC) h3 (V := (op2 (F := F)).result ((op1 (F := F)).result ((op0 (F := F)).result (W0 m d0))))) $$ [Hb Hheld]
  · isplitl [Hb]; · iexact Hb
    iexact Hheld
  iintro ⟨Hb, Hheld⟩
  rw [wp_ret]; imodintro

  ihave Hheld := (Entails.of_eq (show (held (T d0) UC ((op3 (F := F)).result ((op2 (F := F)).result ((op1 (F := F)).result ((op0 (F := F)).result (W0 m d0))))) : sProp 𝕄)
      = held (T d0) UC (Wa m d0) from rfl)) $$ Hheld
  ihave H := (tcSt_take (F := F) d0 0) $$ Hst
  icases H with ⟨HR, Hback⟩
  iapply ((K (F := F)).wp_liftProg (D (F := F)) 𝒱 (SparseCore.T d0) Set.univ none (Prog.lift (.customCall (Pipeline.entry 0) ())) _)
  iapply ((reg0 (Wa m) (Wc m)).wp (pcfgs (F := F)) adm (pdats (Vof (Wa m)) (Vof (Wc m))) none cellOf_inj EP defs₀ 𝒱₀ (K (F := F)).L (K (F := F)).lev d0 none
    (fun _ h => nomatch h) (fun u => .ret u) _) $$ [Hb Hheld HR Hg0 Ht0 Hback Hg1 Ht1]
  rw [reg0_pre, reg0_post]
  isplitl [Hback Hg1 Ht1]
  swap
  · isplitl [Hb]; · iexact Hb
    isplitl [Hheld HR]
    · isplitl [Hheld]; · iexact Hheld
      iexact HR
    isplitr; · iapply (SparseCore.Cfg.ctx_levAts κ); iexact Hctx
    isplitl [Hg0]; · iexact Hg0
    iexact Ht0
  iintro ⟨Hb, Hheld, HR⟩
  rw [wp_ret]; imodintro
  ihave Hst := Hback $$ HR

  ihave Hheld := (Entails.of_eq (show (held (T d0) UC (Wx0 (Wa m) d0) : sProp 𝕄) = held (T d0) UC (Wb m d0) from rfl)) $$ Hheld
  ihave H5 := (held_Wb_take m d0) $$ Hheld
  icases H5 with ⟨Ht, Hs, Hi, He, Ho, Hrest⟩
  iapply ((K (F := F)).wp_run (D (F := F)) 𝒱 (EH := EH) (P := Pk m) κ d0 0) $$ [Hst Ht Hs Hi He Ho Hb Hrest Hg1 Ht1]
  isplitr; · iexact Hctx
  isplitl [Hst]; · iexact Hst
  isplitl [Ht Hs Hi He Ho]
  · iapply (st0_intro m (Ik m d0) (Ek m d0) d0)
    isplitl [Ht]; · iexact Ht
    isplitl [Hs]; · iexact Hs
    isplitl [Hi]; · iexact Hi
    isplitl [He]; · iexact He
    iexact Ho
  iintro ⟨Hst, Hdn⟩
  ihave H5 := (dn0_elim m (Ik m d0) (Ek m d0) d0) $$ Hdn
  icases H5 with ⟨Ht, Hs, Hi, He, Ho⟩
  ihave Hheld := (held_Wc_join m d0) $$ [Ht Hs Hi He Ho Hrest]
  · isplitl [Ht]; · iexact Ht
    isplitl [Hs]; · iexact Hs
    isplitl [Hi]; · iexact Hi
    isplitl [He]; · iexact He
    isplitl [Ho]; · iexact Ho
    iexact Hrest

  ihave Hst := (Entails.of_eq (show ((K (F := F)).tcSt EH d0 ((0 : Fin 1).val + 1) : sProp 𝕄) = (K (F := F)).tcSt EH d0 1 from rfl)) $$ Hst
  ihave H := (tcSt_take (F := F) d0 1) $$ Hst
  icases H with ⟨HR, Hback⟩
  iapply ((K (F := F)).wp_liftProg (D (F := F)) 𝒱 (SparseCore.T d0) Set.univ none (Prog.lift (.customCall (Pipeline.entry 1) ())) _)
  iapply ((reg2 (Wa m) (Wc m)).wp (pcfgs (F := F)) adm (pdats (Vof (Wa m)) (Vof (Wc m))) none cellOf_inj EP defs₀ 𝒱₀ (K (F := F)).L (K (F := F)).lev d0 none
    (fun _ h => nomatch h) (fun u => .ret u) _) $$ [Hb Hheld HR Hg1 Ht1 Hback]
  rw [reg2_pre, reg2_post]
  isplitl [Hback]
  swap
  · isplitl [Hb]; · iexact Hb
    isplitl [Hheld HR]
    · isplitl [Hheld]; · iexact Hheld
      iexact HR
    isplitr; · iapply (SparseCore.Cfg.ctx_levAts κ); iexact Hctx
    isplitl [Hg1]; · iexact Hg1
    iexact Ht1
  iintro ⟨Hb, Hheld, HR⟩
  rw [wp_ret]; imodintro
  ihave Hst := Hback $$ HR

  ihave Hheld := (Entails.of_eq (show (held (T d0) UC (Wx2 (Wc m) d0) : sProp 𝕄) = held (T d0) UC (Wd m d0) from rfl)) $$ Hheld
  iapply (wp_hlo_within 𝒱 (SparseCore.T d0) none Set.univ (op := op7) (S := UC) h7 (V := Wd m d0)) $$ [Hb Hheld]
  · isplitl [Hb]; · iexact Hb
    iexact Hheld
  iintro ⟨Hb, Hheld⟩
  rw [wp_ret]; imodintro; imodintro
  isplitl [Hst]; · iexact Hst
  iexact Hheld

theorem run_main_of_tile [∀ e, Nonempty (Elt F e)] (htile : (K (F := F)).TileObl (D (F := F)) 𝒱 (Pk m) v₀ 0) :
    θ_run (Cert.KernelIdeal.defs (F := F)) (Cert.KernelIdeal.threads (F := F)) ⟨m, fun _ => 0, ρ⟩ (QC m) :=
  run_main_of m ρ htile (hmain m ρ)

end Cert.HandI

end
-- ==== Proof.ScTile.lean ====
import proofs.«204931_g11295763988758_cont_test2_10_9_alg».proof.Proof.ScPay

noncomputable section

namespace Cert.HandI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

abbrev sIdx : Memref sig .scVector .vmem S128 .i32 := Memref.whole cc1_scratch0
abbrev sRows : Memref sig .scVector .vmem S128x128 .f32 := Memref.whole cc1_scratch1
abbrev sEmb : Memref sig .scVector .vmem S128 .f32 := Memref.whole cc1_scratch2
abbrev sDots : Memref sig .scVector .vmem S128 .f32 := Memref.whole cc1_scratch3

abbrev bank0 : Fin 2 := 0
abbrev bank1 : Fin 2 := 1
abbrev tblV0 : Memref sig .scVector .hbm S100000x128 .f32 := tV
abbrev tblV1 : Memref sig .scVector .hbm S100000x128 .f32 := sV
abbrev tblLoc0 (d : Dev nD) : Loc nD τ sig := tLoc d
abbrev tblLoc1 (d : Dev nD) : Loc nD τ sig := sLoc d

abbrev lanes : IVec S16 32 := iota .scVector S16 32 [0] iota_S16_d0_w32_scVector

abbrev prog_main (L : grid1.Coords) :=
  cc1__sc_dots (F := F) L tV (Memref.isWhole_whole _) sV (Memref.isWhole_whole _) iV (Memref.isWhole_whole _) eV (Memref.isWhole_whole _) oV (Memref.isWhole_whole _)
    sIdx (Memref.isWhole_whole _) sRows (Memref.isWhole_whole _) sEmb (Memref.isWhole_whole _) sDots (Memref.isWhole_whole _)
    cc1_scratch4 cc1_scoped0 cc1_scoped1 cc1_scoped2 cc1_scoped3 cc1_scoped4 cc1_scoped5
abbrev prog_t1 (L : grid1.Coords) :=
  k1_t1_body (F := F) L tV (Memref.isWhole_whole _) sV (Memref.isWhole_whole _) iV (Memref.isWhole_whole _) eV (Memref.isWhole_whole _) oV (Memref.isWhole_whole _)
    sIdx (Memref.isWhole_whole _) sRows (Memref.isWhole_whole _) sEmb (Memref.isWhole_whole _) sDots (Memref.isWhole_whole _)
    cc1_scratch4 cc1_scoped0 cc1_scoped1 cc1_scoped2 cc1_scoped3 cc1_scoped4 cc1_scoped5 lanes
abbrev prog_t2 (L : grid1.Coords) (t1 : Fin k1_t1_loop.trips) :=
  k1_t2_body (F := F) L tV (Memref.isWhole_whole _) sV (Memref.isWhole_whole _) iV (Memref.isWhole_whole _) eV (Memref.isWhole_whole _) oV (Memref.isWhole_whole _)
    sIdx (Memref.isWhole_whole _) sRows (Memref.isWhole_whole _) sEmb (Memref.isWhole_whole _) sDots (Memref.isWhole_whole _)
    cc1_scratch4 cc1_scoped0 cc1_scoped1 cc1_scoped2 cc1_scoped3 cc1_scoped4 cc1_scoped5 lanes t1
abbrev prog_t4 (L : grid1.Coords) :=
  k1_t4_body (F := F) L tV (Memref.isWhole_whole _) sV (Memref.isWhole_whole _) iV (Memref.isWhole_whole _) eV (Memref.isWhole_whole _) oV (Memref.isWhole_whole _)
    sIdx (Memref.isWhole_whole _) sRows (Memref.isWhole_whole _) sEmb (Memref.isWhole_whole _) sDots (Memref.isWhole_whole _)
    cc1_scratch4 cc1_scoped0 cc1_scoped1 cc1_scoped2 cc1_scoped3 cc1_scoped4 cc1_scoped5 lanes
abbrev prog_t5 (L : grid1.Coords) (t4 : Fin k1_t4_loop.trips) :=
  k1_t5_body (F := F) L tV (Memref.isWhole_whole _) sV (Memref.isWhole_whole _) iV (Memref.isWhole_whole _) eV (Memref.isWhole_whole _) oV (Memref.isWhole_whole _)
    sIdx (Memref.isWhole_whole _) sRows (Memref.isWhole_whole _) sEmb (Memref.isWhole_whole _) sDots (Memref.isWhole_whole _)
    cc1_scratch4 cc1_scoped0 cc1_scoped1 cc1_scoped2 cc1_scoped3 cc1_scoped4 cc1_scoped5 lanes t4

def upto {n : ℕ} (k : ℕ) (A B : Fin n → sProp 𝕄) : sProp 𝕄 := bigSep Finset.univ fun t : Fin n => if t.val < k then A t else B t

omit [Named F] in

theorem upto_zero {n : ℕ} (A B : Fin n → sProp 𝕄) : upto 0 A B = bigSep Finset.univ B :=
  bigSep_congr fun t _ => if_neg (Nat.not_lt_zero _)
omit [Named F] in

theorem upto_all {n : ℕ} (A B : Fin n → sProp 𝕄) : upto n A B = bigSep Finset.univ A :=
  bigSep_congr fun t _ => if_pos t.isLt
omit [Named F] in

theorem upto_take {n : ℕ} (A B : Fin n → sProp 𝕄) (t : Fin n) :
    upto t.val A B = iprop(B t ∗ bigSep (Finset.univ.erase t) fun s : Fin n => if s.val < t.val then A s else B s) := by
  unfold upto
  rw [SparseCore.bigSep_erase' (Finset.mem_univ t)]
  simp only [Nat.lt_irrefl, ↓reduceIte]
omit [Named F] in

theorem upto_put {n : ℕ} (A B : Fin n → sProp 𝕄) (t : Fin n) :
    upto (t.val + 1) A B = iprop(A t ∗ bigSep (Finset.univ.erase t) fun s : Fin n => if s.val < t.val then A s else B s) := by
  unfold upto
  rw [SparseCore.bigSep_erase' (Finset.mem_univ t)]
  simp only [Nat.lt_succ_self, ↓reduceIte]
  congr 1
  refine bigSep_congr fun s hs => ?_
  have hne : s.val ≠ t.val := fun e => (Finset.mem_erase.mp hs).1 (Fin.ext e)
  by_cases h : s.val < t.val
  · rw [if_pos h, if_pos (by omega)]
  · rw [if_neg h, if_neg (by omega)]

end Cert.HandI

end
-- ==== Proof.ScObl.lean ====
import proofs.«204931_g11295763988758_cont_test2_10_9_alg».proof.Proof.ScPay
import proofs.«204931_g11295763988758_cont_test2_10_9_alg».proof.Proof.ScTile

noncomputable section

namespace Cert.HandI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ) (I : IVec S1024x512 32) (E : FVec F S2x1024x128 .f32)

theorem defs₀_vector (c : Fin τ.nSC) (s : Fin τ.nSub) :
    defs₀ (F := F) (.scVector c s) 1 ⟨⟩
      = SparseCore.onTile hcore1 hsub1 (fun c s => prog_main (F := F) (coordsV c s)) ⟨⟩ c s := rfl

omit [FloatOps F] [Named F] in

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

def TileBody : Prop :=
  ∀ (d : Dev nD) (L : grid1.Coords) (q : PosShare TreeShare) (O : CellTallies nD τ sig (HIx 1)) (W : Waits sig (HIx 1)), (∀ g, O g none = 0) →
    iprop(levAts (K (F := F)).L (K (F := F)).lev ∗ emp ∗ (roAt m I E d q ∗ outAny d L) ∗ scopedBufs (thr d L) ∗ scopedSems0 (thr d L) ∗ owes (thr d L) O W)
      ⊢ wp frame (wpE (defs₀ (F := F)) 𝒱₀ (thr d L) none) Set.univ (prog_main (F := F) L) fun _ =>
          iprop((roAt m I E d q ∗ outDone m I E d L) ∗ scopedBufs (thr d L) ∗ scopedSems0 (thr d L)
            ∗ ∃ W', ⌜∀ p ∈ W', p ∈ W ∨ p.2 = none⌝ ∗ owes (thr d L) O W')

theorem tileObl_of (htile : TileBody m I E) : (K (F := F)).TileObl (D (F := F)) 𝒱 (P m I E) v₀ 0 := by
  intro d c i O W hO _ _

  simp only [show (P m I E).ox = fun _ _ => 0 from rfl, add_zero]
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (htile d (coordsV ⟨_, hc.1⟩ ⟨_, hc.2⟩) _ O W hO).trans (wp_mono frame _ _ fun _ => obl_post)

end Cert.HandI

end
-- ==== Proof.ScAcc.lean ====
import proofs.«204931_g11295763988758_cont_test2_10_9_alg».proof.Proof.Gen.KernelIdeal

noncomputable section

namespace Cert.HandI

open Cert.KernelIdeal Cert.KernelIdeal.Gen

open Idealize.ShloMosaic

variable {F : FTy → Type} [FloatOps F]

def fma1 (a x y : F .f32) : F .f32 := FloatOps.addf a (FloatOps.mulf x y)

-- The first `n` terms `x₀·y₀, …, xₙ₋₁·yₙ₋₁` accumulated onto `a`, in order.
def fmaUpTo (X Y : ℕ → F .f32) : ℕ → F .f32 → F .f32
  | 0, a => a
  | n + 1, a => fma1 (fmaUpTo X Y n a) (X n) (Y n)

def fmaFrom (X Y : ℕ → F .f32) (s n : ℕ) (a : F .f32) : F .f32 :=
  fmaUpTo (fun i => X (s + i)) (fun i => Y (s + i)) n a

theorem fmaUpTo_add (X Y : ℕ → F .f32) (s n : ℕ) (a : F .f32) :
    fmaUpTo X Y (s + n) a = fmaFrom X Y s n (fmaUpTo X Y s a) := by
  induction n with
  | zero => rfl
  | succ n ih =>
    show fma1 (fmaUpTo X Y (s + n) a) (X (s + n)) (Y (s + n)) = fma1 (fmaFrom X Y s n (fmaUpTo X Y s a)) (X (s + n)) (Y (s + n))
    rw [ih]

theorem foldl_eq_fmaUpTo (X Y : ℕ → F .f32) (z : F .f32) :
    ∀ n, Fin.foldl n (fun a (d : Fin n) => fma1 a (X d.val) (Y d.val)) z = fmaUpTo X Y n z
  | 0 => Fin.foldl_zero _ _
  | n + 1 =>
    (Fin.foldl_succ_last (fun a (d : Fin (n + 1)) => fma1 a (X d.val) (Y d.val)) z).trans
      (congrArg (fun t => fma1 t (X n) (Y n)) (foldl_eq_fmaUpTo X Y z n))

def rcIdx (r c : ℕ) : S128x128.Idx := fun a => match a with
  | ⟨0, _⟩ => ⟨r % 128, Nat.mod_lt _ (by decide)⟩
  | ⟨1, _⟩ => ⟨c % 128, Nat.mod_lt _ (by decide)⟩

def eIdx (c : ℕ) : S128.Idx := fun a => match a with
  | ⟨0, _⟩ => ⟨c % 128, Nat.mod_lt _ (by decide)⟩

theorem rcIdx_eq {r : ℕ} (hr : r < 128) (c : Fin 128) :
    rcIdx r c.val = (fun a => match a with | ⟨0, _⟩ => (⟨r, hr⟩ : Fin 128) | ⟨1, _⟩ => c : S128x128.Idx) := by
  funext a
  match a with
  | ⟨0, _⟩ => exact Fin.ext (Nat.mod_eq_of_lt hr)
  | ⟨1, _⟩ => exact Fin.ext (Nat.mod_eq_of_lt c.isLt)

theorem eIdx_eq (c : Fin 128) : eIdx c.val = (fun a => match a with | ⟨0, _⟩ => c : S128.Idx) := by
  funext a
  match a with
  | ⟨0, _⟩ => exact Fin.ext (Nat.mod_eq_of_lt c.isLt)

-- Sixteen lanes of column `c0` of the block: rows `r0, …, r0 + 15`.
def gcol (R : Vec F S128x128 .f32) (r0 c0 : ℕ) : Vec F S16 .f32 := fun x => R (rcIdx (r0 + (x 0).val) c0)

def ecol (e : Vec F S128 .f32) (k : ℕ) : Vec F S16 .f32 := fun x => e (eIdx (16 * k + (x 0).val))

def stepG (R : Vec F S128x128 .f32) (e : Vec F S128 .f32) (r0 k : ℕ) (a : FVec F S16 .f32) : FVec F S16 .f32 :=
  fun x => fmaFrom (fun c => R (rcIdx (r0 + (x 0).val) c)) (fun c => e (eIdx c)) (16 * k) 16 (a x)

-- The accumulator of rows `r0 … r0 + 15` after the first `m` columns, from zero.
def accG (R : Vec F S128x128 .f32) (e : Vec F S128 .f32) (r0 m : ℕ) : FVec F S16 .f32 :=
  fun x => fmaUpTo (fun c => R (rcIdx (r0 + (x 0).val) c)) (fun c => e (eIdx c)) m (Scalar.ofBits .f32 0x00000000#32)

theorem stepG_accG (R : Vec F S128x128 .f32) (e : Vec F S128 .f32) (r0 k : ℕ) :
    stepG R e r0 k (accG R e r0 (16 * k)) = accG R e r0 (16 * (k + 1)) := by
  funext x
  show fmaFrom _ _ (16 * k) 16 (fmaUpTo _ _ (16 * k) _) = fmaUpTo _ _ (16 * (k + 1)) _
  rw [Nat.mul_add_one, fmaUpTo_add]

theorem accG_apply (R : Vec F S128x128 .f32) (e : Vec F S128 .f32) (r0 : ℕ) (x : S16.Idx) :
    accG R e r0 128 x
      = Fin.foldl 128 (fun a (d : Fin 128) => fma1 a (R (rcIdx (r0 + (x 0).val) d.val)) (e (eIdx d.val))) (Scalar.ofBits .f32 0x00000000#32) :=
  (foldl_eq_fmaUpTo (fun c => R (rcIdx (r0 + (x 0).val) c)) (fun c => e (eIdx c)) _ 128).symm

abbrev Acc8 (F : FTy → Type) : Type :=
  FVec F S16 .f32 × FVec F S16 .f32 × FVec F S16 .f32 × FVec F S16 .f32 × FVec F S16 .f32 × FVec F S16 .f32 × FVec F S16 .f32 × FVec F S16 .f32

def accAt (R : Vec F S128x128 .f32) (e : Vec F S128 .f32) (m : ℕ) : Acc8 F :=
  (accG R e 0 m, accG R e 16 m, accG R e 32 m, accG R e 48 m, accG R e 64 m, accG R e 80 m, accG R e 96 m, accG R e 112 m)

def stepAll (R : Vec F S128x128 .f32) (e : Vec F S128 .f32) (k : ℕ) (a0 a1 a2 a3 a4 a5 a6 a7 : FVec F S16 .f32) : Acc8 F :=
  (stepG R e 0 k a0, stepG R e 16 k a1, stepG R e 32 k a2, stepG R e 48 k a3, stepG R e 64 k a4, stepG R e 80 k a5, stepG R e 96 k a6, stepG R e 112 k a7)

theorem stepAll_accAt (R : Vec F S128x128 .f32) (e : Vec F S128 .f32) (k : ℕ) :
    stepAll R e k (accG R e 0 (16 * k)) (accG R e 16 (16 * k)) (accG R e 32 (16 * k)) (accG R e 48 (16 * k))
        (accG R e 64 (16 * k)) (accG R e 80 (16 * k)) (accG R e 96 (16 * k)) (accG R e 112 (16 * k))
      = accAt R e (16 * (k + 1)) := by
  unfold stepAll accAt
  simp only [stepG_accG]

theorem rowA (w : BitVec 32) (hw : w.toNat ≤ 112) (x : S16.Idx) :
    ((addi (broadcast S16 w) (iota .scVector S16 32 [0] iota_S16_d0_w32_scVector)) x).toNat = w.toNat + (x 0).val := by
  have hx : (x 0).val < 16 := (x 0).isLt
  show (w + BitVec.ofNat 32 (0 * 16 + (x 0).val)).toNat = w.toNat + (x 0).val
  rw [BitVec.toNat_add, BitVec.toNat_ofNat]
  omega

theorem trips3 : k1_t3_loop.trips = 8 := by decide +kernel

theorem lt3 (k : Fin k1_t3_loop.trips) : k.val < 8 := lt_of_lt_of_eq k.isLt trips3

theorem colB3 : ∀ (k : Fin k1_t3_loop.trips) (j : Fin 16),
    (Scalar.addi (Scalar.muli (Scf.iv 0#32 1#32 k.val) 16#32) (BitVec.ofNat 32 j.val)).toNat = 16 * k.val + j.val := by decide +kernel

-- The column word `16 kk + j` does not wrap.
theorem colW {kk j : ℕ} (hk : kk < 8) (hj : j < 16) :
    (Scalar.addi (Scalar.muli (Scf.iv 0#32 1#32 kk) 16#32) (BitVec.ofNat 32 j)).toNat = 16 * kk + j :=
  colB3 ⟨kk, lt_of_lt_of_eq hk trips3.symm⟩ ⟨j, hj⟩

theorem chk_of {rv cv : IVec S16 32} (r0 c0 : ℕ) (hrow : ∀ x, (rv x).toNat = r0 + (x 0).val) (hcol : ∀ x, (cv x).toNat = c0)
    (hr : r0 + 15 < 128) (hc : c0 < 128) :
    ∀ a x, ((![rv, cv] : Fin 2 → IVec S16 32) a x).toNat < S128x128.size a := by
  intro a x
  have hx : (x 0).val < 16 := (x 0).isLt
  match a with
  | ⟨0, _⟩ => show (rv x).toNat < 128; rw [hrow]; omega
  | ⟨1, _⟩ => show (cv x).toNat < 128; rw [hcol]; exact hc

-- A gather at rows `r0 … r0 + 15` and one column reads sixteen lanes of that column.
theorem loadIdx_eq_gcol (R : Vec F S128x128 .f32) {rv cv : IVec S16 32} (r0 c0 : ℕ) (hrow : ∀ x, (rv x).toNat = r0 + (x 0).val)
    (hcol : ∀ x, (cv x).toNat = c0) (hr : r0 + 15 < 128) (hc : c0 < 128)
    (h : ∀ a x, ((![rv, cv] : Fin 2 → IVec S16 32) a x).toNat < S128x128.size a) :
    loadIdx R (![rv, cv] : Fin 2 → IVec S16 32) h = gcol R r0 c0 := by
  funext x
  have hx : (x 0).val < 16 := (x 0).isLt
  show R (idxAt (![rv, cv] : Fin 2 → IVec S16 32) h x) = R (rcIdx (r0 + (x 0).val) c0)
  congr 1
  funext a
  match a with
  | ⟨0, _⟩ =>
    apply Fin.ext
    show (rv x).toNat = (r0 + (x 0).val) % 128
    rw [hrow]
    exact (Nat.mod_eq_of_lt (by omega)).symm
  | ⟨1, _⟩ =>
    apply Fin.ext
    show (cv x).toNat = c0 % 128
    rw [hcol]
    exact (Nat.mod_eq_of_lt hc).symm

end Cert.HandI

end
-- ==== Proof.ScIdx.lean ====
import proofs.«204931_g11295763988758_cont_test2_10_9_alg».proof.Proof.ScPay
import proofs.«204931_g11295763988758_cont_test2_10_9_alg».proof.Proof.ScAcc
import Idealize.ShloMosaic.Lib.SparseCore.Stream
import Idealize.ShloMosaic.Lib.Pipeline.Value

noncomputable section

namespace Cert.HandI

open Cert.KernelIdeal Cert.KernelIdeal.Gen

open Idealize.ShloMosaic

variable {F : FTy → Type} [FloatOps F]

def rowN (L : grid1.Coords) (t : ℕ) : ℕ := 64 * (L 1).val + 32 * (L 0).val + t

theorem rowN_lt (L : grid1.Coords) {t : ℕ} (ht : t < 32) : rowN L t < 1024 := by
  have h0 : (L 0).val < 2 := (L 0).isLt
  have h1 : (L 1).val < 16 := (L 1).isLt
  unfold rowN
  omega

theorem eq_eIdx (y : S128.Idx) : y = eIdx (y 0).val := by
  have h : (y 0).val < 128 := (y 0).isLt
  funext a
  match a with
  | ⟨0, _⟩ => exact Fin.ext (Nat.mod_eq_of_lt h).symm

theorem reshape_S128_S1x1x128 (j : Fin 128) :
    Shape.reshapeEquiv squeezes_S1x1x128_S128.numel_eq (eIdx j.val) = (ix3 (0 : Fin 1) (0 : Fin 1) j : S1x1x128.Idx) :=
  Shape.reshapeEquiv_eq_of_rowMajor _ (by
    rw [Shape.rowMajor_val_three, Shape.rowMajor_val_one]
    show ((0 : Fin 1).val * 1 + (0 : Fin 1).val) * 128 + j.val = j.val % 128
    rw [Nat.mod_eq_of_lt j.isLt]
    show (0 * 1 + 0) * 128 + j.val = j.val
    omega)

theorem reshape_S128_S1x128 (j : Fin 128) :
    Shape.reshapeEquiv squeezes_S1x128_S128.numel_eq (eIdx j.val) = (ix2 (0 : Fin 1) j : S1x128.Idx) :=
  Shape.reshapeEquiv_eq_of_rowMajor _ (by
    rw [Shape.rowMajor_val_two, Shape.rowMajor_val_one]
    show (0 : Fin 1).val * 128 + j.val = j.val % 128
    rw [Nat.mod_eq_of_lt j.isLt]
    show 0 * 128 + j.val = j.val
    omega)

abbrev eRow0 (L : grid1.Coords) (t1 : Fin k1_t1_loop.trips) : Memref sig .scVector .hbm S128 .f32 :=
  ((Memref.whole main_v4_scv : Memref sig .scVector .hbm S2x1024x128 .f32).slice
    (Rect.unit (s := S2x1024x128) (k1_off1 L t1) S1x1x128.size (k1_off1_inb L t1)) (fun _ => rfl)).squeeze S128 squeezes_S1x1x128_S128

abbrev eRow1 (L : grid1.Coords) (t4 : Fin k1_t4_loop.trips) : Memref sig .scVector .hbm S128 .f32 :=
  ((Memref.whole main_v4_scv : Memref sig .scVector .hbm S2x1024x128 .f32).slice
    (Rect.unit (s := S2x1024x128) (k1_off5 L t4) S1x1x128.size (k1_off5_inb L t4)) (fun _ => rfl)).squeeze S128 squeezes_S1x1x128_S128

abbrev iRow0 (L : grid1.Coords) (t1 : Fin k1_t1_loop.trips) (t2 : Fin k1_t2_loop.trips) : Memref sig .scVector .hbm S128 .i32 :=
  ((Memref.whole main_v1_scv : Memref sig .scVector .hbm S1024x512 .i32).slice
    (Rect.unit (s := S1024x512) (k1_off2 L t1 t2) S1x128.size (k1_off2_inb L t1 t2)) (fun _ => rfl)).squeeze S128 squeezes_S1x128_S128

abbrev iRow1 (L : grid1.Coords) (t4 : Fin k1_t4_loop.trips) (t5 : Fin k1_t5_loop.trips) : Memref sig .scVector .hbm S128 .i32 :=
  ((Memref.whole main_v1_scv : Memref sig .scVector .hbm S1024x512 .i32).slice
    (Rect.unit (s := S1024x512) (k1_off6 L t4 t5) S1x128.size (k1_off6_inb L t4 t5)) (fun _ => rfl)).squeeze S128 squeezes_S1x128_S128

theorem emb_eRow0 (L : grid1.Coords) (t1 : Fin k1_t1_loop.trips) (dd : Fin 128) :
    (eRow0 L t1).view.emb (eIdx dd.val)
      = (ix3 (0 : Fin 2) (⟨rowN L t1.val, rowN_lt L (lt1 t1)⟩ : Fin 1024) dd : S2x1024x128.Idx) := by
  have h1 : (eRow0 L t1).view.emb (eIdx dd.val)
      = (Rect.unit (s := S2x1024x128) (k1_off1 L t1) S1x1x128.size (k1_off1_inb L t1)).emb
          (Shape.reshapeEquiv squeezes_S1x1x128_S128.numel_eq (eIdx dd.val)) := rfl
  rw [h1, reshape_S128_S1x1x128]
  funext a
  apply Fin.ext
  match a with
  | ⟨0, _⟩ =>
    show (k1_off1 L t1) 0 + 1 * (0 : Fin 1).val = (0 : Fin 2).val
    rw [k1_off1_eq]; rfl
  | ⟨1, _⟩ =>
    show (k1_off1 L t1) 1 + 1 * (0 : Fin 1).val = rowN L t1.val
    rw [k1_off1_eq]
    show 64 * (L 1).val + 32 * (L 0).val + t1.val + 1 * 0 = 64 * (L 1).val + 32 * (L 0).val + t1.val
    omega
  | ⟨2, _⟩ =>
    show (k1_off1 L t1) 2 + 1 * dd.val = dd.val
    rw [k1_off1_eq]
    show 0 + 1 * dd.val = dd.val
    omega

theorem emb_eRow1 (L : grid1.Coords) (t4 : Fin k1_t4_loop.trips) (dd : Fin 128) :
    (eRow1 L t4).view.emb (eIdx dd.val)
      = (ix3 (1 : Fin 2) (⟨rowN L t4.val, rowN_lt L (lt4 t4)⟩ : Fin 1024) dd : S2x1024x128.Idx) := by
  have h1 : (eRow1 L t4).view.emb (eIdx dd.val)
      = (Rect.unit (s := S2x1024x128) (k1_off5 L t4) S1x1x128.size (k1_off5_inb L t4)).emb
          (Shape.reshapeEquiv squeezes_S1x1x128_S128.numel_eq (eIdx dd.val)) := rfl
  rw [h1, reshape_S128_S1x1x128]
  funext a
  apply Fin.ext
  match a with
  | ⟨0, _⟩ =>
    show (k1_off5 L t4) 0 + 1 * (0 : Fin 1).val = (1 : Fin 2).val
    rw [k1_off5_eq]; rfl
  | ⟨1, _⟩ =>
    show (k1_off5 L t4) 1 + 1 * (0 : Fin 1).val = rowN L t4.val
    rw [k1_off5_eq]
    show 64 * (L 1).val + 32 * (L 0).val + t4.val + 1 * 0 = 64 * (L 1).val + 32 * (L 0).val + t4.val
    omega
  | ⟨2, _⟩ =>
    show (k1_off5 L t4) 2 + 1 * dd.val = dd.val
    rw [k1_off5_eq]
    show 0 + 1 * dd.val = dd.val
    omega

theorem emb_iRow0 (L : grid1.Coords) (t1 : Fin k1_t1_loop.trips) (t2 : Fin k1_t2_loop.trips) (j : Fin 128) :
    (iRow0 L t1 t2).view.emb (eIdx j.val)
      = (ix2 (⟨rowN L t1.val, rowN_lt L (lt1 t1)⟩ : Fin 1024)
          (⟨128 * t2.val + j.val, by have := lt2 t2; have := j.isLt; omega⟩ : Fin 512) : S1024x512.Idx) := by
  have h1 : (iRow0 L t1 t2).view.emb (eIdx j.val)
      = (Rect.unit (s := S1024x512) (k1_off2 L t1 t2) S1x128.size (k1_off2_inb L t1 t2)).emb
          (Shape.reshapeEquiv squeezes_S1x128_S128.numel_eq (eIdx j.val)) := rfl
  rw [h1, reshape_S128_S1x128]
  funext a
  apply Fin.ext
  match a with
  | ⟨0, _⟩ =>
    show (k1_off2 L t1 t2) 0 + 1 * (0 : Fin 1).val = rowN L t1.val
    rw [k1_off2_eq]
    show 64 * (L 1).val + 32 * (L 0).val + t1.val + 1 * 0 = 64 * (L 1).val + 32 * (L 0).val + t1.val
    omega
  | ⟨1, _⟩ =>
    show (k1_off2 L t1 t2) 1 + 1 * j.val = 128 * t2.val + j.val
    rw [k1_off2_eq]
    show 128 * t2.val + 1 * j.val = 128 * t2.val + j.val
    omega

theorem emb_iRow1 (L : grid1.Coords) (t4 : Fin k1_t4_loop.trips) (t5 : Fin k1_t5_loop.trips) (j : Fin 128) :
    (iRow1 L t4 t5).view.emb (eIdx j.val)
      = (ix2 (⟨rowN L t4.val, rowN_lt L (lt4 t4)⟩ : Fin 1024)
          (⟨128 * t5.val + j.val, by have := lt5 t5; have := j.isLt; omega⟩ : Fin 512) : S1024x512.Idx) := by
  have h1 : (iRow1 L t4 t5).view.emb (eIdx j.val)
      = (Rect.unit (s := S1024x512) (k1_off6 L t4 t5) S1x128.size (k1_off6_inb L t4 t5)).emb
          (Shape.reshapeEquiv squeezes_S1x128_S128.numel_eq (eIdx j.val)) := rfl
  rw [h1, reshape_S128_S1x128]
  funext a
  apply Fin.ext
  match a with
  | ⟨0, _⟩ =>
    show (k1_off6 L t4 t5) 0 + 1 * (0 : Fin 1).val = rowN L t4.val
    rw [k1_off6_eq]
    show 64 * (L 1).val + 32 * (L 0).val + t4.val + 1 * 0 = 64 * (L 1).val + 32 * (L 0).val + t4.val
    omega
  | ⟨1, _⟩ =>
    show (k1_off6 L t4 t5) 1 + 1 * j.val = 128 * t5.val + j.val
    rw [k1_off6_eq]
    show 128 * t5.val + 1 * j.val = 128 * t5.val + j.val
    omega

theorem emb_oPc0 (L : grid1.Coords) (t1 : Fin k1_t1_loop.trips) (t2 : Fin k1_t2_loop.trips) (j : Fin 128) :
    (oPc0 L t1 t2).view.emb (eIdx j.val)
      = (ix3 (0 : Fin 2) (⟨rowN L t1.val, rowN_lt L (lt1 t1)⟩ : Fin 1024)
          (⟨128 * t2.val + j.val, by have := lt2 t2; have := j.isLt; omega⟩ : Fin 512) : S2x1024x512.Idx) := by
  have h1 : (oPc0 L t1 t2).view.emb (eIdx j.val)
      = (Rect.unit (s := S2x1024x512) (k1_off4 L t1 t2) S1x1x128.size (k1_off4_inb L t1 t2)).emb
          (Shape.reshapeEquiv squeezes_S1x1x128_S128.numel_eq (eIdx j.val)) := rfl
  rw [h1, reshape_S128_S1x1x128]
  funext a
  apply Fin.ext
  match a with
  | ⟨0, _⟩ =>
    show (k1_off4 L t1 t2) 0 + 1 * (0 : Fin 1).val = (0 : Fin 2).val
    rw [k1_off4_eq]; rfl
  | ⟨1, _⟩ =>
    show (k1_off4 L t1 t2) 1 + 1 * (0 : Fin 1).val = rowN L t1.val
    rw [k1_off4_eq]
    show 64 * (L 1).val + 32 * (L 0).val + t1.val + 1 * 0 = 64 * (L 1).val + 32 * (L 0).val + t1.val
    omega
  | ⟨2, _⟩ =>
    show (k1_off4 L t1 t2) 2 + 1 * j.val = 128 * t2.val + j.val
    rw [k1_off4_eq]
    show 128 * t2.val + 1 * j.val = 128 * t2.val + j.val
    omega

theorem emb_oPc1 (L : grid1.Coords) (t4 : Fin k1_t4_loop.trips) (t5 : Fin k1_t5_loop.trips) (j : Fin 128) :
    (oPc1 L t4 t5).view.emb (eIdx j.val)
      = (ix3 (1 : Fin 2) (⟨rowN L t4.val, rowN_lt L (lt4 t4)⟩ : Fin 1024)
          (⟨128 * t5.val + j.val, by have := lt5 t5; have := j.isLt; omega⟩ : Fin 512) : S2x1024x512.Idx) := by
  have h1 : (oPc1 L t4 t5).view.emb (eIdx j.val)
      = (Rect.unit (s := S2x1024x512) (k1_off8 L t4 t5) S1x1x128.size (k1_off8_inb L t4 t5)).emb
          (Shape.reshapeEquiv squeezes_S1x1x128_S128.numel_eq (eIdx j.val)) := rfl
  rw [h1, reshape_S128_S1x1x128]
  funext a
  apply Fin.ext
  match a with
  | ⟨0, _⟩ =>
    show (k1_off8 L t4 t5) 0 + 1 * (0 : Fin 1).val = (1 : Fin 2).val
    rw [k1_off8_eq]; rfl
  | ⟨1, _⟩ =>
    show (k1_off8 L t4 t5) 1 + 1 * (0 : Fin 1).val = rowN L t4.val
    rw [k1_off8_eq]
    show 64 * (L 1).val + 32 * (L 0).val + t4.val + 1 * 0 = 64 * (L 1).val + 32 * (L 0).val + t4.val
    omega
  | ⟨2, _⟩ =>
    show (k1_off8 L t4 t5) 2 + 1 * j.val = 128 * t5.val + j.val
    rw [k1_off8_eq]
    show 128 * t5.val + 1 * j.val = 128 * t5.val + j.val
    omega

theorem mem_oPc0_exists (L : grid1.Coords) (t1 : Fin k1_t1_loop.trips) (t2 : Fin k1_t2_loop.trips) (x : S2x1024x512.Idx)
    (hx : x ∈ (oPc0 L t1 t2).view.set) : ∃ j : Fin 128, x = (oPc0 L t1 t2).view.emb (eIdx j.val) := by
  obtain ⟨y, rfl⟩ := View.exists_emb_of_mem_set (oPc0 L t1 t2).view hx
  exact ⟨⟨(y 0).val, (y 0).isLt⟩, congrArg _ (eq_eIdx y)⟩

theorem mem_oPc1_exists (L : grid1.Coords) (t4 : Fin k1_t4_loop.trips) (t5 : Fin k1_t5_loop.trips) (x : S2x1024x512.Idx)
    (hx : x ∈ (oPc1 L t4 t5).view.set) : ∃ j : Fin 128, x = (oPc1 L t4 t5).view.emb (eIdx j.val) := by
  obtain ⟨y, rfl⟩ := View.exists_emb_of_mem_set (oPc1 L t4 t5).view hx
  exact ⟨⟨(y 0).val, (y 0).isLt⟩, congrArg _ (eq_eIdx y)⟩

theorem gather_at (Mv : S100000x128.Idx → Elt F .f32) (idxv : S128.Idx → Elt F .i32)
    (hn : S128.numel = S128x128.size gathers_S100000x128_S128x128.axis')
    (hin : ∀ x, (idxv x).toNat < S100000x128.size gathers_S100000x128_S128x128.axis) (j dd : Fin 128) :
    SparseCore.gatherPayload gathers_S100000x128_S128x128 Mv (SparseCore.rows idxv hn hin) (rcIdx j.val dd.val)
      = Mv (ix2 (⟨(idxv (eIdx j.val)).toNat, hin _⟩ : Fin 100000) dd) := by
  unfold SparseCore.gatherPayload
  refine congrArg Mv (funext fun b => Fin.ext ?_)
  match b with
  | ⟨0, hb⟩ =>
    have e := congrArg Fin.val (Shape.Gathers.idx_axis gathers_S100000x128_S128x128 (SparseCore.rows idxv hn hin)
      (rcIdx j.val dd.val))
    refine e.trans ?_
    show (idxv (S128.rowMajor.symm _)).toNat = (idxv (eIdx j.val)).toNat
    refine congrArg (fun y => (idxv y).toNat) ?_
    rw [Equiv.symm_apply_eq]
    apply Fin.ext
    rw [Shape.rowMajor_val_one]
    show j.val % 128 = j.val % 128
    rfl
  | ⟨1, hb⟩ =>
    refine (Shape.Gathers.idx_of_ne gathers_S100000x128_S128x128 (SparseCore.rows idxv hn hin) (rcIdx j.val dd.val)
      ⟨1, hb⟩ Nat.one_ne_zero).trans ?_
    show dd.val % 128 = dd.val
    exact Nat.mod_eq_of_lt dd.isLt

end Cert.HandI

end
-- ==== Proof.ScInvB0.lean ====
import proofs.«204931_g11295763988758_cont_test2_10_9_alg».proof.Proof.ScTile
import proofs.«204931_g11295763988758_cont_test2_10_9_alg».proof.Proof.ScIdx

noncomputable section

namespace Cert.HandI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ
variable (m : (ℓ : Loc nD τ sig) → Buf (Elt F) ℓ) (I : IVec S1024x512 32) (E : FVec F S2x1024x128 .f32)

section Bank

variable (d : Dev nD) (L : grid1.Coords)

def EmbIsB0 (t1 : Fin k1_t1_loop.trips) (fe : Buf (Elt F) ((sEmb).view.loc (thr d L))) : Prop :=
  ∀ dd : Fin 128, (sEmb).view.read (Elt F) fe (eIdx dd.val) = E (ix3 bank0 (⟨rowN L t1.val, rowN_lt L (lt1 t1)⟩ : Fin 1024) dd)

def invcB0 (q : PosShare TreeShare) (O : CellTallies nD τ sig (HIx 1)) (W : Waits sig (HIx 1)) (t1 : Fin k1_t1_loop.trips)
    (k : ℕ) (_ : BitVec 32) : sProp 𝕄 :=
  iprop(Transfers.MayWaits (thr d L) (none : HIx 1) O
    ∗ ((tblV0).view.loc (thr d L) ↦{q} m (tblLoc0 d))
    ∗ ((iV).view.loc (thr d L) ↦{q} (I : Buf (Elt F) (iLoc d)))
    ∗ (∃ f, (sIdx).view.loc (thr d L) ↦{fullShare} f)
    ∗ (∃ f, (sRows).view.loc (thr d L) ↦{fullShare} f)
    ∗ (∃ fe, ⌜EmbIsB0 E d L t1 fe⌝ ∗ (sEmb).view.loc (thr d L) ↦{fullShare} fe)
    ∗ (∃ f, (sDots).view.loc (thr d L) ↦{fullShare} f)
    ∗ semVal (thr d L, SemLoc.dma cc1_scratch4.sem) 0
    ∗ semVal (thr d L, SemLoc.dma cc1_scoped1.sem) 0
    ∗ semVal (thr d L, SemLoc.dma cc1_scoped2.sem) 0
    ∗ upto k (fun t2 : Fin k1_t2_loop.trips => (oPc0 L t1 t2).view.loc (thr d L) ↦[(oPc0 L t1 t2).view.set]{fullShare} (dotsM m I E d : Buf (Elt F) (oLoc d)))
        (fun t2 : Fin k1_t2_loop.trips => iprop(∃ f, (oPc0 L t1 t2).view.loc (thr d L) ↦[(oPc0 L t1 t2).view.set]{fullShare} f))
    ∗ ∃ W', ⌜∀ p ∈ W', p ∈ W ∨ p.2 = none⌝ ∗ owes (thr d L) O W')

def invB0 (q : PosShare TreeShare) (O : CellTallies nD τ sig (HIx 1)) (W : Waits sig (HIx 1)) (k : ℕ) (_ : BitVec 32) : sProp 𝕄 :=
  iprop(Transfers.MayWaits (thr d L) (none : HIx 1) O
    ∗ ((tblV0).view.loc (thr d L) ↦{q} m (tblLoc0 d))
    ∗ ((iV).view.loc (thr d L) ↦{q} (I : Buf (Elt F) (iLoc d)))
    ∗ ((eV).view.loc (thr d L) ↦{q} (E : Buf (Elt F) (eLoc d)))
    ∗ (∃ f, (sIdx).view.loc (thr d L) ↦{fullShare} f)
    ∗ (∃ f, (sRows).view.loc (thr d L) ↦{fullShare} f)
    ∗ (∃ f, (sEmb).view.loc (thr d L) ↦{fullShare} f)
    ∗ (∃ f, (sDots).view.loc (thr d L) ↦{fullShare} f)
    ∗ semVal (thr d L, SemLoc.dma cc1_scratch4.sem) 0
    ∗ semVal (thr d L, SemLoc.dma cc1_scoped0.sem) 0
    ∗ semVal (thr d L, SemLoc.dma cc1_scoped1.sem) 0
    ∗ semVal (thr d L, SemLoc.dma cc1_scoped2.sem) 0
    ∗ upto k (fun t1 : Fin k1_t1_loop.trips => bigSep Finset.univ fun t2 : Fin k1_t2_loop.trips =>
          (oPc0 L t1 t2).view.loc (thr d L) ↦[(oPc0 L t1 t2).view.set]{fullShare} (dotsM m I E d : Buf (Elt F) (oLoc d)))
        (fun t1 : Fin k1_t1_loop.trips => bigSep Finset.univ fun t2 : Fin k1_t2_loop.trips =>
          iprop(∃ f, (oPc0 L t1 t2).view.loc (thr d L) ↦[(oPc0 L t1 t2).view.set]{fullShare} f))
    ∗ ∃ W', ⌜∀ p ∈ W', p ∈ W ∨ p.2 = none⌝ ∗ owes (thr d L) O W')

end Bank

end Cert.HandI

end
-- ==== Proof.ScInvB1.lean ====
import proofs.«204931_g11295763988758_cont_test2_10_9_alg».proof.Proof.ScTile
import proofs.«204931_g11295763988758_cont_test2_10_9_alg».proof.Proof.ScIdx

noncomputable section

namespace Cert.HandI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ
variable (m : (ℓ : Loc nD τ sig) → Buf (Elt F) ℓ) (I : IVec S1024x512 32) (E : FVec F S2x1024x128 .f32)

section Bank

variable (d : Dev nD) (L : grid1.Coords)

def EmbIsB1 (t1 : Fin k1_t4_loop.trips) (fe : Buf (Elt F) ((sEmb).view.loc (thr d L))) : Prop :=
  ∀ dd : Fin 128, (sEmb).view.read (Elt F) fe (eIdx dd.val) = E (ix3 bank1 (⟨rowN L t1.val, rowN_lt L (lt4 t1)⟩ : Fin 1024) dd)

def invcB1 (q : PosShare TreeShare) (O : CellTallies nD τ sig (HIx 1)) (W : Waits sig (HIx 1)) (t1 : Fin k1_t4_loop.trips)
    (k : ℕ) (_ : BitVec 32) : sProp 𝕄 :=
  iprop(Transfers.MayWaits (thr d L) (none : HIx 1) O
    ∗ ((tblV1).view.loc (thr d L) ↦{q} m (tblLoc1 d))
    ∗ ((iV).view.loc (thr d L) ↦{q} (I : Buf (Elt F) (iLoc d)))
    ∗ (∃ f, (sIdx).view.loc (thr d L) ↦{fullShare} f)
    ∗ (∃ f, (sRows).view.loc (thr d L) ↦{fullShare} f)
    ∗ (∃ fe, ⌜EmbIsB1 E d L t1 fe⌝ ∗ (sEmb).view.loc (thr d L) ↦{fullShare} fe)
    ∗ (∃ f, (sDots).view.loc (thr d L) ↦{fullShare} f)
    ∗ semVal (thr d L, SemLoc.dma cc1_scratch4.sem) 0
    ∗ semVal (thr d L, SemLoc.dma cc1_scoped4.sem) 0
    ∗ semVal (thr d L, SemLoc.dma cc1_scoped5.sem) 0
    ∗ upto k (fun t2 : Fin k1_t5_loop.trips => (oPc1 L t1 t2).view.loc (thr d L) ↦[(oPc1 L t1 t2).view.set]{fullShare} (dotsM m I E d : Buf (Elt F) (oLoc d)))
        (fun t2 : Fin k1_t5_loop.trips => iprop(∃ f, (oPc1 L t1 t2).view.loc (thr d L) ↦[(oPc1 L t1 t2).view.set]{fullShare} f))
    ∗ ∃ W', ⌜∀ p ∈ W', p ∈ W ∨ p.2 = none⌝ ∗ owes (thr d L) O W')

def invB1 (q : PosShare TreeShare) (O : CellTallies nD τ sig (HIx 1)) (W : Waits sig (HIx 1)) (k : ℕ) (_ : BitVec 32) : sProp 𝕄 :=
  iprop(Transfers.MayWaits (thr d L) (none : HIx 1) O
    ∗ ((tblV1).view.loc (thr d L) ↦{q} m (tblLoc1 d))
    ∗ ((iV).view.loc (thr d L) ↦{q} (I : Buf (Elt F) (iLoc d)))
    ∗ ((eV).view.loc (thr d L) ↦{q} (E : Buf (Elt F) (eLoc d)))
    ∗ (∃ f, (sIdx).view.loc (thr d L) ↦{fullShare} f)
    ∗ (∃ f, (sRows).view.loc (thr d L) ↦{fullShare} f)
    ∗ (∃ f, (sEmb).view.loc (thr d L) ↦{fullShare} f)
    ∗ (∃ f, (sDots).view.loc (thr d L) ↦{fullShare} f)
    ∗ semVal (thr d L, SemLoc.dma cc1_scratch4.sem) 0
    ∗ semVal (thr d L, SemLoc.dma cc1_scoped3.sem) 0
    ∗ semVal (thr d L, SemLoc.dma cc1_scoped4.sem) 0
    ∗ semVal (thr d L, SemLoc.dma cc1_scoped5.sem) 0
    ∗ upto k (fun t1 : Fin k1_t4_loop.trips => bigSep Finset.univ fun t2 : Fin k1_t5_loop.trips =>
          (oPc1 L t1 t2).view.loc (thr d L) ↦[(oPc1 L t1 t2).view.set]{fullShare} (dotsM m I E d : Buf (Elt F) (oLoc d)))
        (fun t1 : Fin k1_t4_loop.trips => bigSep Finset.univ fun t2 : Fin k1_t5_loop.trips =>
          iprop(∃ f, (oPc1 L t1 t2).view.loc (thr d L) ↦[(oPc1 L t1 t2).view.set]{fullShare} f))
    ∗ ∃ W', ⌜∀ p ∈ W', p ∈ W ∨ p.2 = none⌝ ∗ owes (thr d L) O W')

end Bank

end Cert.HandI

end
-- ==== Proof.ScOwn.lean ====
import proofs.«204931_g11295763988758_cont_test2_10_9_alg».proof.Proof.ScTile

noncomputable section

namespace Cert.HandI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (d : Dev nD) (L : grid1.Coords)

def tileSems (d : Dev nD) (L : grid1.Coords) : Finset (GSem nD τ sig) :=
  {(thr d L, SemLoc.dma cc1_scratch4.sem), (thr d L, SemLoc.dma cc1_scoped0.sem), (thr d L, SemLoc.dma cc1_scoped1.sem),
   (thr d L, SemLoc.dma cc1_scoped2.sem), (thr d L, SemLoc.dma cc1_scoped3.sem), (thr d L, SemLoc.dma cc1_scoped4.sem),
   (thr d L, SemLoc.dma cc1_scoped5.sem)}

omit [FloatOps F] [Named F] in

theorem isScoped_thr (a : SemLoc sig) (h : a.isScoped .scVector = true) : GSem.isScoped ((thr d L, a) : GSem nD τ sig) = true := h

omit [FloatOps F] [Named F] in

theorem tileSems_sub : tileSems d L ⊆ ownCells (thr d L) := by
  intro g hg
  simp only [tileSems, Finset.mem_insert, Finset.mem_singleton] at hg
  rcases hg with rfl | rfl | rfl | rfl | rfl | rfl | rfl <;> exact mem_ownCells.mpr ⟨rfl, isScoped_thr d L _ (by decide)⟩

omit [FloatOps F] [Named F] in

theorem tileSems_ne :
    (SemLoc.dma cc1_scratch4.sem : SemLoc sig) ≠ SemLoc.dma cc1_scoped0.sem ∧ (SemLoc.dma cc1_scratch4.sem : SemLoc sig) ≠ SemLoc.dma cc1_scoped1.sem
    ∧ (SemLoc.dma cc1_scratch4.sem : SemLoc sig) ≠ SemLoc.dma cc1_scoped2.sem ∧ (SemLoc.dma cc1_scratch4.sem : SemLoc sig) ≠ SemLoc.dma cc1_scoped3.sem
    ∧ (SemLoc.dma cc1_scratch4.sem : SemLoc sig) ≠ SemLoc.dma cc1_scoped4.sem ∧ (SemLoc.dma cc1_scratch4.sem : SemLoc sig) ≠ SemLoc.dma cc1_scoped5.sem
    ∧ (SemLoc.dma cc1_scoped0.sem : SemLoc sig) ≠ SemLoc.dma cc1_scoped1.sem ∧ (SemLoc.dma cc1_scoped0.sem : SemLoc sig) ≠ SemLoc.dma cc1_scoped2.sem
    ∧ (SemLoc.dma cc1_scoped0.sem : SemLoc sig) ≠ SemLoc.dma cc1_scoped3.sem ∧ (SemLoc.dma cc1_scoped0.sem : SemLoc sig) ≠ SemLoc.dma cc1_scoped4.sem
    ∧ (SemLoc.dma cc1_scoped0.sem : SemLoc sig) ≠ SemLoc.dma cc1_scoped5.sem
    ∧ (SemLoc.dma cc1_scoped1.sem : SemLoc sig) ≠ SemLoc.dma cc1_scoped2.sem ∧ (SemLoc.dma cc1_scoped1.sem : SemLoc sig) ≠ SemLoc.dma cc1_scoped3.sem
    ∧ (SemLoc.dma cc1_scoped1.sem : SemLoc sig) ≠ SemLoc.dma cc1_scoped4.sem ∧ (SemLoc.dma cc1_scoped1.sem : SemLoc sig) ≠ SemLoc.dma cc1_scoped5.sem
    ∧ (SemLoc.dma cc1_scoped2.sem : SemLoc sig) ≠ SemLoc.dma cc1_scoped3.sem ∧ (SemLoc.dma cc1_scoped2.sem : SemLoc sig) ≠ SemLoc.dma cc1_scoped4.sem
    ∧ (SemLoc.dma cc1_scoped2.sem : SemLoc sig) ≠ SemLoc.dma cc1_scoped5.sem
    ∧ (SemLoc.dma cc1_scoped3.sem : SemLoc sig) ≠ SemLoc.dma cc1_scoped4.sem ∧ (SemLoc.dma cc1_scoped3.sem : SemLoc sig) ≠ SemLoc.dma cc1_scoped5.sem
    ∧ (SemLoc.dma cc1_scoped4.sem : SemLoc sig) ≠ SemLoc.dma cc1_scoped5.sem := by decide

omit [FloatOps F] [Named F] in

theorem cell_ne {a b : SemLoc sig} (h : a ≠ b) : ((thr d L, a) : GSem nD τ sig) ≠ (thr d L, b) :=
  fun e => h (Prod.mk.inj e).2

omit [FloatOps F] [Named F] in

theorem ownSems0_V :
    (ownSems0 (thr d L) : sProp 𝕄)
      = iprop((semVal (thr d L, SemLoc.dma cc1_scratch4.sem) 0 ∗ semVal (thr d L, SemLoc.dma cc1_scoped0.sem) 0
          ∗ semVal (thr d L, SemLoc.dma cc1_scoped1.sem) 0 ∗ semVal (thr d L, SemLoc.dma cc1_scoped2.sem) 0
          ∗ semVal (thr d L, SemLoc.dma cc1_scoped3.sem) 0 ∗ semVal (thr d L, SemLoc.dma cc1_scoped4.sem) 0
          ∗ semVal (thr d L, SemLoc.dma cc1_scoped5.sem) 0)
          ∗ bigSep (ownCells (thr d L) \ tileSems d L) fun g => semVal g 0) := by
  obtain ⟨n01, n02, n03, n04, n05, n06, n12, n13, n14, n15, n16, n23, n24, n25, n26, n34, n35, n36, n45, n46, n56⟩ := tileSems_ne
  unfold SparseCore.Cfg.ownSems0
  rw [SparseCore.bigSep_sdiff_split' (tileSems_sub d L)]
  congr 1
  unfold tileSems
  rw [SparseCore.bigSep_insert' (by
      simp only [Finset.mem_insert, Finset.mem_singleton, not_or]
      exact ⟨cell_ne d L n01, cell_ne d L n02, cell_ne d L n03, cell_ne d L n04, cell_ne d L n05, cell_ne d L n06⟩),
    SparseCore.bigSep_insert' (by
      simp only [Finset.mem_insert, Finset.mem_singleton, not_or]
      exact ⟨cell_ne d L n12, cell_ne d L n13, cell_ne d L n14, cell_ne d L n15, cell_ne d L n16⟩),
    SparseCore.bigSep_insert' (by
      simp only [Finset.mem_insert, Finset.mem_singleton, not_or]
      exact ⟨cell_ne d L n23, cell_ne d L n24, cell_ne d L n25, cell_ne d L n26⟩),
    SparseCore.bigSep_insert' (by
      simp only [Finset.mem_insert, Finset.mem_singleton, not_or]
      exact ⟨cell_ne d L n34, cell_ne d L n35, cell_ne d L n36⟩),
    SparseCore.bigSep_insert' (by
      simp only [Finset.mem_insert, Finset.mem_singleton, not_or]
      exact ⟨cell_ne d L n45, cell_ne d L n46⟩),
    SparseCore.bigSep_insert' (by
      simp only [Finset.mem_singleton]
      exact cell_ne d L n56),
    bigSep_singleton]

def tileBufs (L : grid1.Coords) : Finset (DevRef τ sig) :=
  {(Proc.scVector (cV L) (jV L)).devRef cc1_scratch0, (Proc.scVector (cV L) (jV L)).devRef cc1_scratch1,
   (Proc.scVector (cV L) (jV L)).devRef cc1_scratch2, (Proc.scVector (cV L) (jV L)).devRef cc1_scratch3}

omit [FloatOps F] [Named F] in

theorem tileBufs_sub : tileBufs L ⊆ ownRefs (τ := τ) (.scVector (cV L) (jV L)) := by
  intro b hb
  simp only [tileBufs, Finset.mem_insert, Finset.mem_singleton] at hb
  rcases hb with rfl | rfl | rfl | rfl <;> exact SparseCore.Cfg.mem_ownRefs_of_owner rfl

omit [FloatOps F] [Named F] in

theorem scratch_ne {a b : Ref sig .scVector} (h : a ≠ b) :
    (Proc.scVector (cV L) (jV L)).devRef a ≠ (Proc.scVector (cV L) (jV L)).devRef b :=
  fun e => h (Proc.devRef_injective _ e)

omit [FloatOps F] [Named F] in

theorem ownBufs_V :
    (ownBufs (thr d L) : sProp 𝕄)
      = iprop(((∃ f, (sIdx).view.loc (thr d L) ↦{fullShare} f) ∗ (∃ f, (sRows).view.loc (thr d L) ↦{fullShare} f)
          ∗ (∃ f, (sEmb).view.loc (thr d L) ↦{fullShare} f) ∗ (∃ f, (sDots).view.loc (thr d L) ↦{fullShare} f))
          ∗ bigSep (ownRefs (τ := τ) (.scVector (cV L) (jV L)) \ tileBufs L) fun b => iprop(∃ f, ((d, b) : Loc nD τ sig) ↦{fullShare} f)) := by
  unfold SparseCore.Cfg.ownBufs
  rw [show ((thr d L).2 : Proc τ) = .scVector (cV L) (jV L) from rfl, SparseCore.bigSep_sdiff_split' (tileBufs_sub L)]
  congr 1
  unfold tileBufs
  rw [SparseCore.bigSep_insert' (by
      simp only [Finset.mem_insert, Finset.mem_singleton, not_or]
      exact ⟨scratch_ne L (by decide), scratch_ne L (by decide), scratch_ne L (by decide)⟩),
    SparseCore.bigSep_insert' (by
      simp only [Finset.mem_insert, Finset.mem_singleton, not_or]
      exact ⟨scratch_ne L (by decide), scratch_ne L (by decide)⟩),
    SparseCore.bigSep_insert' (by
      simp only [Finset.mem_singleton]
      exact scratch_ne L (by decide)),
    bigSep_singleton]

end Cert.HandI

end
-- ==== Proof.ScBody.lean ====
import proofs.«204931_g11295763988758_cont_test2_10_9_alg».proof.Proof.ScInvB0
import proofs.«204931_g11295763988758_cont_test2_10_9_alg».proof.Proof.ScInvB1
import proofs.«204931_g11295763988758_cont_test2_10_9_alg».proof.Proof.ScOwn
import proofs.«204931_g11295763988758_cont_test2_10_9_alg».proof.Proof.ScTile
import Idealize.ShloMosaic.Lib.Tactic

noncomputable section

namespace Cert.HandI

open Cert.KernelIdeal Cert.KernelIdeal.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ) (I : IVec S1024x512 32) (E : FVec F S2x1024x128 .f32)

set_option maxHeartbeats 4000000 in

theorem tile_body_of (d : Dev nD) (L : grid1.Coords) (q : PosShare TreeShare)
    (O : CellTallies nD τ sig (HIx 1)) (W : Waits sig (HIx 1))
    (hrow0 : ∀ (t1 : Fin k1_t1_loop.trips) (acc : BitVec 32),
      invB0 m I E d L q O W t1.val acc
        ⊢ wp frame (wpE (defs₀ (F := F)) 𝒱₀ (thr d L) none) Set.univ (prog_t1 (F := F) L t1 acc)
            (invB0 m I E d L q O W (t1.val + 1)))
    (hrow1 : ∀ (t4 : Fin k1_t4_loop.trips) (acc : BitVec 32),
      invB1 m I E d L q O W t4.val acc
        ⊢ wp frame (wpE (defs₀ (F := F)) 𝒱₀ (thr d L) none) Set.univ (prog_t4 (F := F) L t4 acc)
            (invB1 m I E d L q O W (t4.val + 1)))
    (hF : (K (F := F)).Facts) (hO : ∀ g, O g none = 0) :
    iprop(levAts (K (F := F)).L (K (F := F)).lev ∗ emp ∗ (roAt m I E d q ∗ outAny d L)
        ∗ scopedBufs (thr d L) ∗ scopedSems0 (thr d L) ∗ owes (thr d L) O W)
      ⊢ wp frame (wpE (defs₀ (F := F)) 𝒱₀ (thr d L) none) Set.univ (prog_main (F := F) L)
          fun _ => iprop((roAt m I E d q ∗ outDone m I E d L) ∗ scopedBufs (thr d L) ∗ scopedSems0 (thr d L)
            ∗ ∃ W', ⌜∀ p ∈ W', p ∈ W ∨ p.2 = none⌝ ∗ owes (thr d L) O W') := by
  unfold prog_main
  simp only [cc1__sc_dots_eq_skeleton]; unfold cc1__sc_dots_skel
  rw [(K (F := F)).scopedBufs_V hF d (cV L) (jV L), SparseCore.Cfg.scopedSems0_V (Val := Elt F) d (cV L) (jV L), ownSems0_V, ownBufs_V]
  unfold roAt outAny outDone outAt
  iintro ⟨#Hlv, -, ⟨⟨Ht, Hs, Hi, He⟩, Hout0, Hout1⟩, ⟨⟨⟨%fi, Hsi⟩, ⟨%fr, Hsr⟩, ⟨%fe, Hse⟩, ⟨%fd, Hsd⟩⟩, Hbufs⟩,
    ⟨⟨HgA, Hg0, Hg1, Hg2, Hg3, Hg4, Hg5⟩, Hsems⟩, HO⟩
  ihave Hmw := (show levAts (K (F := F)).L (K (F := F)).lev ⊢ Transfers.MayWaits (thr d L) (none : HIx 1) O from
    (K (F := F)).mayWaits_none (thr := thr d L) hO) $$ Hlv
  sl_exec
  sl_for (invB0 m I E d L q O W) $$ [Hmw Ht Hi He Hsi Hsr Hse Hsd HgA Hg0 Hg1 Hg2 Hout0 HO]
  case region => exact fun t1 acc => hrow0 t1 acc
  · unfold invB0
    rw [upto_zero]
    isplitl [Hmw]; · iexact Hmw
    isplitl [Ht]; · iexact Ht
    isplitl [Hi]; · iexact Hi
    isplitl [He]; · iexact He
    isplitl [Hsi]; · iexists _; iexact Hsi
    isplitl [Hsr]; · iexists _; iexact Hsr
    isplitl [Hse]; · iexists _; iexact Hse
    isplitl [Hsd]; · iexists _; iexact Hsd
    isplitl [HgA]; · iexact HgA
    isplitl [Hg0]; · iexact Hg0
    isplitl [Hg1]; · iexact Hg1
    isplitl [Hg2]; · iexact Hg2
    isplitl [Hout0]; · iexact Hout0
    iexists W; isplitr
    · ipureintro; exact fun p hp => .inl hp
    · iexact HO
  iintro %_ HI
  unfold invB0
  rw [upto_all]
  icases HI with ⟨Hmw, Ht, Hi, He, ⟨%fi1, Hsi⟩, ⟨%fr1, Hsr⟩, ⟨%fe1, Hse⟩, ⟨%fd1, Hsd⟩, HgA, Hg0, Hg1, Hg2, Hdone0, %W1, %hW1, HO⟩
  sl_for (invB1 m I E d L q O W) $$ [Hmw Hs Hi He Hsi Hsr Hse Hsd HgA Hg3 Hg4 Hg5 Hout1 HO]
  case region => exact fun t4 acc => hrow1 t4 acc
  · unfold invB1
    rw [upto_zero]
    isplitl [Hmw]; · iexact Hmw
    isplitl [Hs]; · iexact Hs
    isplitl [Hi]; · iexact Hi
    isplitl [He]; · iexact He
    isplitl [Hsi]; · iexists _; iexact Hsi
    isplitl [Hsr]; · iexists _; iexact Hsr
    isplitl [Hse]; · iexists _; iexact Hse
    isplitl [Hsd]; · iexists _; iexact Hsd
    isplitl [HgA]; · iexact HgA
    isplitl [Hg3]; · iexact Hg3
    isplitl [Hg4]; · iexact Hg4
    isplitl [Hg5]; · iexact Hg5
    isplitl [Hout1]; · iexact Hout1
    iexists W1; isplitr
    · ipureintro; exact hW1
    · iexact HO
  iintro %_ HI
  unfold invB1
  rw [upto_all]
  icases HI with ⟨-, Hs, Hi, He, ⟨%fi2, Hsi⟩, ⟨%fr2, Hsr⟩, ⟨%fe2, Hse⟩, ⟨%fd2, Hsd⟩, HgA, Hg3, Hg4, Hg5, Hdone1, %W2, %hW2, HO⟩
  sl_exec
  sl_step
  isplitl [Ht Hs Hi He Hdone0 Hdone1]
  · isplitl [Ht Hs Hi He]
    · isplitl [Ht]; · iexact Ht
      isplitl [Hs]; · iexact Hs
      isplitl [Hi]; · iexact Hi
      iexact He
    isplitl [Hdone0]; · iexact Hdone0
    iexact Hdone1
  isplitl [Hsi Hsr Hse Hsd Hbufs]
  · isplitl [Hsi Hsr Hse Hsd]
    · isplitl [Hsi]; · iexists _; iexact Hsi
      isplitl [Hsr]; · iexists _; iexact Hsr
      isplitl [Hse]; · iexists _; iexact Hse
      iexists _; iexact Hsd
    iexact Hbufs
  isplitl [HgA Hg0 Hg1 Hg2 Hg3 Hg4 Hg5 Hsems]
  · isplitl [HgA Hg0 Hg1 Hg2 Hg3 Hg4 Hg5]
    · isplitl [HgA]; · iexact HgA
      isplitl [Hg0]; · iexact Hg0
      isplitl [Hg1]; · iexact Hg1
      isplitl [Hg2]; · iexact Hg2
      isplitl [Hg3]; · iexact Hg3
      isplitl [Hg4]; · iexact Hg4
      iexact Hg5
    iexact Hsems
  iexists W2; isplitr
  · ipureintro; exact hW2
  · iexact HO

end Cert.HandI

end
-- ==== Proof.ScRowB0.lean ====
import proofs.«204931_g11295763988758_cont_test2_10_9_alg».proof.Proof.ScInvB0
import proofs.«204931_g11295763988758_cont_test2_10_9_alg».proof.Proof.ScIdx
import Idealize.ShloMosaic.Lib.Tactic
import Idealize.ShloMosaic.Lib.SparseCore.Stream

noncomputable section

namespace Cert.HandI

open Cert.KernelIdeal Cert.KernelIdeal.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ) (I : IVec S1024x512 32) (E : FVec F S2x1024x128 .f32)

section Bank

variable (d : Dev nD) (L : grid1.Coords)

omit [Named F] in

theorem emb_landsB0 (t1 : Fin k1_t1_loop.trips) (fe : Buf (Elt F) ((sEmb).view.loc (thr d L))) :
    EmbIsB0 E d L t1 (View.write (Elt F) (sEmb).view fe ((eRow0 L t1).view.read (Elt F) (E : Buf (Elt F) (eLoc d))) Finset.univ) := by
  intro dd
  rw [View.write_whole_univ]
  simp only [Memref.view_whole, View.read_whole]
  rw [View.read_apply, emb_eRow0]
  rfl

set_option maxHeartbeats 4000000 in

theorem rowB0_of (q : PosShare TreeShare) (O : CellTallies nD τ sig (HIx 1)) (W : Waits sig (HIx 1))
    (t1 : Fin k1_t1_loop.trips) (acc : BitVec 32)
    (hchunk : ∀ (t2 : Fin k1_t2_loop.trips) (acc : BitVec 32),
      invcB0 m I E d L q O W t1 t2.val acc
        ⊢ wp frame (wpE (defs₀ (F := F)) 𝒱₀ (thr d L) none) Set.univ (prog_t2 (F := F) L t1 t2 acc)
            (invcB0 m I E d L q O W t1 (t2.val + 1))) :
    invB0 m I E d L q O W t1.val acc
      ⊢ wp frame (wpE (defs₀ (F := F)) 𝒱₀ (thr d L) none) Set.univ (prog_t1 (F := F) L t1 acc) (invB0 m I E d L q O W (t1.val + 1)) := by
  unfold prog_t1 k1_t1_body
  unfold invB0
  rw [upto_take]
  iintro ⟨Hmw, Ht, Hi, He, ⟨%fi, Hsi⟩, ⟨%fr, Hsr⟩, ⟨%fe, Hse⟩, ⟨%fd, Hsd⟩, HgA, Hg0, Hg1, Hg2, ⟨Hrow, Hrest⟩, %W', %hW', HO⟩
  sl_exec
  sl_for (invcB0 m I E d L q O W t1) $$ [Hmw Ht Hi Hsi Hsr Hse Hsd HgA Hg1 Hg2 Hrow HO]
  case region => exact fun t2 acc => hchunk t2 acc
  · unfold invcB0
    rw [upto_zero]
    isplitl [Hmw]; · iexact Hmw
    isplitl [Ht]; · iexact Ht
    isplitl [Hi]; · iexact Hi
    isplitl [Hsi]; · iexists _; iexact Hsi
    isplitl [Hsr]; · iexists _; iexact Hsr
    isplitl [Hse]
    · iexists _; isplitr
      · ipureintro; exact emb_landsB0 E d L t1 fe
      · iexact Hse
    isplitl [Hsd]; · iexists _; iexact Hsd
    isplitl [HgA]; · iexact HgA
    isplitl [Hg1]; · iexact Hg1
    isplitl [Hg2]; · iexact Hg2
    isplitl [Hrow]; · iexact Hrow
    iexists _; isplitr
    swap; · iexact HO
    ipureintro; intro p hp
    rcases Finset.mem_insert.mp hp with hp | hp; · exact .inr (hp ▸ rfl)
    exact hW' p hp
  iintro %_ HI
  unfold invcB0
  rw [upto_all]
  icases HI with ⟨Hmw, Ht, Hi, ⟨%fi1, Hsi⟩, ⟨%fr1, Hsr⟩, ⟨%fe1, -, Hse⟩, ⟨%fd1, Hsd⟩, HgA, Hg1, Hg2, Hrow, %W1, %hW1, HO⟩
  sl_exec
  sl_step
  rw [upto_put]
  isplitl [Hmw]; · iexact Hmw
  isplitl [Ht]; · iexact Ht
  isplitl [Hi]; · iexact Hi
  isplitl [He]; · iexact He
  isplitl [Hsi]; · iexists _; iexact Hsi
  isplitl [Hsr]; · iexists _; iexact Hsr
  isplitl [Hse]; · iexists _; iexact Hse
  isplitl [Hsd]; · iexists _; iexact Hsd
  isplitl [HgA]; · iexact HgA
  isplitl [Hg0]; · iexact Hg0
  isplitl [Hg1]; · iexact Hg1
  isplitl [Hg2]; · iexact Hg2
  isplitl [Hrow Hrest]
  · isplitl [Hrow]; · iexact Hrow
    iexact Hrest
  iexists W1; isplitr
  · ipureintro; exact hW1
  · iexact HO

end Bank

end Cert.HandI

end
-- ==== Proof.ScRowB1.lean ====
import proofs.«204931_g11295763988758_cont_test2_10_9_alg».proof.Proof.ScInvB1
import proofs.«204931_g11295763988758_cont_test2_10_9_alg».proof.Proof.ScIdx
import Idealize.ShloMosaic.Lib.Tactic
import Idealize.ShloMosaic.Lib.SparseCore.Stream

noncomputable section

namespace Cert.HandI

open Cert.KernelIdeal Cert.KernelIdeal.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ) (I : IVec S1024x512 32) (E : FVec F S2x1024x128 .f32)

section Bank

variable (d : Dev nD) (L : grid1.Coords)

omit [Named F] in

theorem emb_landsB1 (t1 : Fin k1_t4_loop.trips) (fe : Buf (Elt F) ((sEmb).view.loc (thr d L))) :
    EmbIsB1 E d L t1 (View.write (Elt F) (sEmb).view fe ((eRow1 L t1).view.read (Elt F) (E : Buf (Elt F) (eLoc d))) Finset.univ) := by
  intro dd
  rw [View.write_whole_univ]
  simp only [Memref.view_whole, View.read_whole]
  rw [View.read_apply, emb_eRow1]
  rfl

set_option maxHeartbeats 4000000 in

theorem rowB1_of (q : PosShare TreeShare) (O : CellTallies nD τ sig (HIx 1)) (W : Waits sig (HIx 1))
    (t1 : Fin k1_t4_loop.trips) (acc : BitVec 32)
    (hchunk : ∀ (t2 : Fin k1_t5_loop.trips) (acc : BitVec 32),
      invcB1 m I E d L q O W t1 t2.val acc
        ⊢ wp frame (wpE (defs₀ (F := F)) 𝒱₀ (thr d L) none) Set.univ (prog_t5 (F := F) L t1 t2 acc)
            (invcB1 m I E d L q O W t1 (t2.val + 1))) :
    invB1 m I E d L q O W t1.val acc
      ⊢ wp frame (wpE (defs₀ (F := F)) 𝒱₀ (thr d L) none) Set.univ (prog_t4 (F := F) L t1 acc) (invB1 m I E d L q O W (t1.val + 1)) := by
  unfold prog_t4 k1_t4_body
  unfold invB1
  rw [upto_take]
  iintro ⟨Hmw, Ht, Hi, He, ⟨%fi, Hsi⟩, ⟨%fr, Hsr⟩, ⟨%fe, Hse⟩, ⟨%fd, Hsd⟩, HgA, Hg0, Hg1, Hg2, ⟨Hrow, Hrest⟩, %W', %hW', HO⟩
  sl_exec
  sl_for (invcB1 m I E d L q O W t1) $$ [Hmw Ht Hi Hsi Hsr Hse Hsd HgA Hg1 Hg2 Hrow HO]
  case region => exact fun t2 acc => hchunk t2 acc
  · unfold invcB1
    rw [upto_zero]
    isplitl [Hmw]; · iexact Hmw
    isplitl [Ht]; · iexact Ht
    isplitl [Hi]; · iexact Hi
    isplitl [Hsi]; · iexists _; iexact Hsi
    isplitl [Hsr]; · iexists _; iexact Hsr
    isplitl [Hse]
    · iexists _; isplitr
      · ipureintro; exact emb_landsB1 E d L t1 fe
      · iexact Hse
    isplitl [Hsd]; · iexists _; iexact Hsd
    isplitl [HgA]; · iexact HgA
    isplitl [Hg1]; · iexact Hg1
    isplitl [Hg2]; · iexact Hg2
    isplitl [Hrow]; · iexact Hrow
    iexists _; isplitr
    swap; · iexact HO
    ipureintro; intro p hp
    rcases Finset.mem_insert.mp hp with hp | hp; · exact .inr (hp ▸ rfl)
    exact hW' p hp
  iintro %_ HI
  unfold invcB1
  rw [upto_all]
  icases HI with ⟨Hmw, Ht, Hi, ⟨%fi1, Hsi⟩, ⟨%fr1, Hsr⟩, ⟨%fe1, -, Hse⟩, ⟨%fd1, Hsd⟩, HgA, Hg1, Hg2, Hrow, %W1, %hW1, HO⟩
  sl_exec
  sl_step
  rw [upto_put]
  isplitl [Hmw]; · iexact Hmw
  isplitl [Ht]; · iexact Ht
  isplitl [Hi]; · iexact Hi
  isplitl [He]; · iexact He
  isplitl [Hsi]; · iexists _; iexact Hsi
  isplitl [Hsr]; · iexists _; iexact Hsr
  isplitl [Hse]; · iexists _; iexact Hse
  isplitl [Hsd]; · iexists _; iexact Hsd
  isplitl [HgA]; · iexact HgA
  isplitl [Hg0]; · iexact Hg0
  isplitl [Hg1]; · iexact Hg1
  isplitl [Hg2]; · iexact Hg2
  isplitl [Hrow Hrest]
  · isplitl [Hrow]; · iexact Hrow
    iexact Hrest
  iexists W1; isplitr
  · ipureintro; exact hW1
  · iexact HO

end Bank

end Cert.HandI

end
-- ==== Proof.ScReturns.lean ====
import proofs.«204931_g11295763988758_cont_test2_10_9_alg».proof.Proof.Gen.KernelIdeal.Skeleton
import proofs.«204931_g11295763988758_cont_test2_10_9_alg».proof.Proof.ScAcc
import Idealize.ShloMosaic.Lib.SparseCore.Ops
import Idealize.ShloMosaic.Lib.Tactic

noncomputable section

namespace Cert.HandI

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ₀} (𝒱 : Variants) (thr : Thread nD τ) (bd : Option 𝒱.V) (E : Set Name)
variable (rows : Memref sig thr.2.kind .vmem S128x128 .f32) (embv : Memref sig thr.2.kind .vmem S128 .f32)
variable (q8 q9 : PosShare TreeShare)
variable (fr : Buf (Elt F) ((rows.access (.whole S128x128)).loc thr)) (fe : Buf (Elt F) (embv.view.loc thr))

abbrev Held : sProp 𝕄 :=
  iprop(((rows.access (.whole S128x128)).loc thr ↦{q8} fr) ∗ (embv.view.loc thr ↦{q9} fe))

-- Run by a thread holding the two buffers, the program returns `v` and hands them back as they were.
def Returns {α : Type} (p : Prog (TpuEff nD τ sig (Elt F) Λ₀ thr.2) α) (v : α) : Prop :=
  ∀ Q : α → sProp 𝕄,
    iprop(Held (F := F) (Ix := Ix) (Name := Name) (U := U) (Lvl := Lvl) thr rows embv q8 q9 fr fe
        ∗ (Held (F := F) (Ix := Ix) (Name := Name) (U := U) (Lvl := Lvl) thr rows embv q8 q9 fr fe -∗ Q v))
      ⊢ wp frame (wpE defs 𝒱 thr bd) E p Q

variable {𝒱 thr bd E rows embv q8 q9 fr fe}

-- What the two buffers hold, read whole.
abbrev blockOf (fr : Buf (Elt F) ((rows.access (.whole S128x128)).loc thr)) := (rows.access (.whole S128x128)).read (Elt F) fr

abbrev featOf (fe : Buf (Elt F) (embv.view.loc thr)) := embv.view.read (Elt F) fe

theorem Returns.pure {α : Type} (v : α) : Returns (defs := defs) (Ix := Ix) (Name := Name) (U := U) (Lvl := Lvl) 𝒱 thr bd E rows embv q8 q9 fr fe (Pure.pure v) v := by
  intro Q
  rw [wp_pure]
  iintro ⟨H, HQ⟩
  imodintro
  iapply HQ; iexact H

theorem Returns.bind {α β : Type} {p : Prog (TpuEff nD τ sig (Elt F) Λ₀ thr.2) α} {k : α → Prog (TpuEff nD τ sig (Elt F) Λ₀ thr.2) β} {v : α} {w : β}
    (hp : Returns (defs := defs) (Ix := Ix) (Name := Name) (U := U) (Lvl := Lvl) 𝒱 thr bd E rows embv q8 q9 fr fe p v) (hk : Returns (defs := defs) (Ix := Ix) (Name := Name) (U := U) (Lvl := Lvl) 𝒱 thr bd E rows embv q8 q9 fr fe (k v) w) : Returns (defs := defs) (Ix := Ix) (Name := Name) (U := U) (Lvl := Lvl) 𝒱 thr bd E rows embv q8 q9 fr fe (p >>= k) w := by
  intro Q
  rw [wp_bind]
  iintro ⟨H, HQ⟩
  iapply (hp _)
  isplitl [H]; · iexact H
  iintro H
  iapply (hk Q)
  isplitl [H]; · iexact H
  iexact HQ

theorem Returns.assume {α : Type} {P : Prop} {dP : Decidable P} {k : PLift P → Prog (TpuEff nD τ sig (Elt F) Λ₀ thr.2) α} {v : α} (h : P)
    (hk : Returns (defs := defs) (Ix := Ix) (Name := Name) (U := U) (Lvl := Lvl) 𝒱 thr bd E rows embv q8 q9 fr fe (k ⟨h⟩) v) : Returns (defs := defs) (Ix := Ix) (Name := Name) (U := U) (Lvl := Lvl) 𝒱 thr bd E rows embv q8 q9 fr fe (Prog.lift (TpuEff.assume P dP) >>= k) v := by
  intro Q
  simp only [Prog.lift, Prog.bind_op, Prog.bind_ret]
  rw [wp_assume_of _ _ _ _ h]
  exact hk Q

theorem Returns.gather {α : Type} {t : Shape} {idxs : Fin S128x128.rank → IVec t 32} {h : ∀ a x, (idxs a x).toNat < S128x128.size a} {hl : rows.view.Loads}
    {k : Vec F t .f32 → Prog (TpuEff nD τ sig (Elt F) Λ₀ thr.2) α} {v : α}
    (hk : Returns (defs := defs) (Ix := Ix) (Name := Name) (U := U) (Lvl := Lvl) 𝒱 thr bd E rows embv q8 q9 fr fe (k (loadIdx ((rows.access (.whole S128x128)).read (Elt F) fr) idxs h)) v) :
    Returns (defs := defs) (Ix := Ix) (Name := Name) (U := U) (Lvl := Lvl) 𝒱 thr bd E rows embv q8 q9 fr fe (SparseCore.vectorLoadIdx rows idxs h hl >>= k) v := by
  intro Q
  iintro ⟨⟨HR, He⟩, HQ⟩
  iapply (SparseCore.wp_vectorLoadIdx 𝒱 thr bd E (base := rows) (S := Finset.univ) (q := q8) (Finset.subset_univ _)) $$ HR
  iintro HR
  iapply (hk Q)
  isplitl [HR He]
  · isplitl [HR]; · iexact HR
    iexact He
  iexact HQ

theorem Returns.gatherAt {α : Type} {rv cv : IVec S16 32} {h : ∀ a x, ((![rv, cv] : Fin 2 → IVec S16 32) a x).toNat < S128x128.size a} {hl : rows.view.Loads}
    {k : Vec F S16 .f32 → Prog (TpuEff nD τ sig (Elt F) Λ₀ thr.2) α} {v : α} (r0 c0 : ℕ)
    (hrow : ∀ x, (rv x).toNat = r0 + (x 0).val) (hcol : ∀ x, (cv x).toNat = c0) (hr : r0 + 15 < 128) (hc : c0 < 128)
    (hk : Returns (defs := defs) (Ix := Ix) (Name := Name) (U := U) (Lvl := Lvl) 𝒱 thr bd E rows embv q8 q9 fr fe (k (gcol ((rows.access (.whole S128x128)).read (Elt F) fr) r0 c0)) v) :
    Returns (defs := defs) (Ix := Ix) (Name := Name) (U := U) (Lvl := Lvl) 𝒱 thr bd E rows embv q8 q9 fr fe (SparseCore.vectorLoadIdx rows (![rv, cv] : Fin 2 → IVec S16 32) h hl >>= k) v := by
  refine Returns.gather ?_
  rw [loadIdx_eq_gcol _ r0 c0 hrow hcol hr hc h]
  exact hk

-- The returned value may be replaced by an equal one.
theorem Returns.congr {α : Type} {p : Prog (TpuEff nD τ sig (Elt F) Λ₀ thr.2) α} {v w : α}
    (h : Returns (defs := defs) (Ix := Ix) (Name := Name) (U := U) (Lvl := Lvl) 𝒱 thr bd E rows embv q8 q9 fr fe p v) (e : v = w) : Returns (defs := defs) (Ix := Ix) (Name := Name) (U := U) (Lvl := Lvl) 𝒱 thr bd E rows embv q8 q9 fr fe p w := e ▸ h

-- A gather of rows `r0 … r0 + 15` of column `c0`, both inside the block: sixteen lanes of that column.
theorem Returns.term {α : Type} {rv cv : IVec S16 32}
    {dP : Decidable (∀ a x, ((![rv, cv] : Fin 2 → IVec S16 32) a x).toNat < S128x128.size a)} {hl : rows.view.Loads}
    {k : Vec F S16 .f32 → Prog (TpuEff nD τ sig (Elt F) Λ₀ thr.2) α} {v : α} (r0 c0 : ℕ)
    (hrow : ∀ x, (rv x).toNat = r0 + (x 0).val) (hcol : ∀ x, (cv x).toNat = c0) (hr : r0 + 15 < 128) (hc : c0 < 128)
    (hk : Returns (defs := defs) (Ix := Ix) (Name := Name) (U := U) (Lvl := Lvl) 𝒱 thr bd E rows embv q8 q9 fr fe (k (gcol ((rows.access (.whole S128x128)).read (Elt F) fr) r0 c0)) v) :
    Returns (defs := defs) (Ix := Ix) (Name := Name) (U := U) (Lvl := Lvl) 𝒱 thr bd E rows embv q8 q9 fr fe
      (Prog.lift (TpuEff.assume _ dP) >>= fun hw => SparseCore.vectorLoadIdx rows (![rv, cv] : Fin 2 → IVec S16 32) hw.down hl >>= k) v :=
  Returns.assume (chk_of r0 c0 hrow hcol hr hc) (Returns.gatherAt r0 c0 hrow hcol hr hc hk)

-- The same at the column `16 kk + j`, whose word is made in place.
theorem Returns.termAt {α : Type} {rv : IVec S16 32} {kk : ℕ} (hkk : kk < 8) (j : ℕ) (hj : j < 16)
    {dP : Decidable (∀ a x, ((![rv, broadcast S16 (Scalar.addi (Scalar.muli (Scf.iv 0#32 1#32 kk) 16#32) (BitVec.ofNat 32 j))] : Fin 2 → IVec S16 32) a x).toNat < S128x128.size a)}
    {hl : rows.view.Loads} {k : Vec F S16 .f32 → Prog (TpuEff nD τ sig (Elt F) Λ₀ thr.2) α} {v : α} (r0 : ℕ)
    (hrow : ∀ x, (rv x).toNat = r0 + (x 0).val) (hr : r0 + 15 < 128)
    (hk : Returns (defs := defs) (Ix := Ix) (Name := Name) (U := U) (Lvl := Lvl) 𝒱 thr bd E rows embv q8 q9 fr fe (k (gcol ((rows.access (.whole S128x128)).read (Elt F) fr) r0 (16 * kk + j))) v) :
    Returns (defs := defs) (Ix := Ix) (Name := Name) (U := U) (Lvl := Lvl) 𝒱 thr bd E rows embv q8 q9 fr fe
      (Prog.lift (TpuEff.assume _ dP) >>= fun hw => SparseCore.vectorLoadIdx rows
        (![rv, broadcast S16 (Scalar.addi (Scalar.muli (Scf.iv 0#32 1#32 kk) 16#32) (BitVec.ofNat 32 j))] : Fin 2 → IVec S16 32) hw.down hl >>= k) v :=
  Returns.term r0 _ hrow (fun _ => colW hkk hj) hr (by omega) hk

theorem Returns.load {α : Type} {r : LoadRect S128} {hl : embv.view.LoadsAt r}
    {k : (r.shape.Idx → Elt F .f32) → Prog (TpuEff nD τ sig (Elt F) Λ₀ thr.2) α} {v : α}
    (hk : Returns (defs := defs) (Ix := Ix) (Name := Name) (U := U) (Lvl := Lvl) 𝒱 thr bd E rows embv q8 q9 fr fe (k (embv.view.readAt (Elt F) r fe)) v) :
    Returns (defs := defs) (Ix := Ix) (Name := Name) (U := U) (Lvl := Lvl) 𝒱 thr bd E rows embv q8 q9 fr fe (Prog.lift (TpuEff.load embv r hl) >>= k) v := by
  intro Q
  simp only [Prog.lift, Prog.bind_op, Prog.bind_ret]
  iintro ⟨⟨HR, He⟩, HQ⟩
  iapply (wp_load 𝒱 thr bd E (m := embv) (S := Finset.univ) (q := q9) (Finset.subset_univ _)) $$ He
  iintro He
  iapply (hk Q)
  isplitl [HR He]
  · isplitl [HR]; · iexact HR
    iexact He
  iexact HQ

theorem Returns.forFrom {σ : Type} {n : ℕ} {body : Fin n → σ → Prog (TpuEff nD τ sig (Elt F) Λ₀ thr.2) σ} (val : ℕ → σ)
    (hb : ∀ k : Fin n, Returns (defs := defs) (Ix := Ix) (Name := Name) (U := U) (Lvl := Lvl) 𝒱 thr bd E rows embv q8 q9 fr fe (body k (val k.val)) (val (k.val + 1))) :
    ∀ (k : ℕ) (_ : k ≤ n), Returns (defs := defs) (Ix := Ix) (Name := Name) (U := U) (Lvl := Lvl) 𝒱 thr bd E rows embv q8 q9 fr fe (Scf.forFrom body ((List.finRange n).drop k) (val k)) (val n) := by
  intro k
  induction h : n - k generalizing k with
  | zero =>
    intro hk
    obtain rfl : k = n := by omega
    rw [List.drop_of_length_le (by simp), Scf.forFrom_nil]
    exact Returns.pure _
  | succ m ih =>
    intro hk
    have hlt : k < n := by omega
    rw [List.drop_eq_getElem_cons (by simpa using hlt), List.getElem_finRange, Fin.cast_mk, Scf.forFrom_cons]
    exact Returns.bind (hb ⟨k, hlt⟩) (ih (k + 1) (by omega) (by omega))

-- A counted loop whose trip `k` takes `val k` to `val (k + 1)` returns `val` at its trip count.
theorem Returns.for {σ : Type} (l : Scf.Loop 32) (hok : l.OK) (init : σ) {body : Fin l.trips → σ → Prog (TpuEff nD τ sig (Elt F) Λ₀ thr.2) σ}
    (val : ℕ → σ) (h0 : val 0 = init) (hb : ∀ k : Fin l.trips, Returns (defs := defs) (Ix := Ix) (Name := Name) (U := U) (Lvl := Lvl) 𝒱 thr bd E rows embv q8 q9 fr fe (body k (val k.val)) (val (k.val + 1)))
    {fin : σ} (hfin : val l.trips = fin) :
    Returns (defs := defs) (Ix := Ix) (Name := Name) (U := U) (Lvl := Lvl) 𝒱 thr bd E rows embv q8 q9 fr fe (Scf.Loop.for l hok init body) fin := by
  subst hfin
  show Returns (defs := defs) (Ix := Ix) (Name := Name) (U := U) (Lvl := Lvl) 𝒱 thr bd E rows embv q8 q9 fr fe (Scf.for l.lb l.ub l.st hok init body) (val l.trips)
  rw [Scf.for_eq, ← h0]
  exact Returns.forFrom val hb 0 (Nat.zero_le _)

-- `Returns` for the tile `i` of device `d`.
abbrev TReturns (Ix U Lvl : Type) [DecidableEq Ix] [URA U] [Preorder Lvl] (defs : Defs nD τ sig (Elt F) Λ₀) (𝒱 : Variants) (bd : Option 𝒱.V) (E : Set Name)
    (d : Dev nD) (i : grid1.Coords) (rows : Memref sig .scVector .vmem S128x128 .f32) (embv : Memref sig .scVector .vmem S128 .f32) (q8 q9 : PosShare TreeShare)
    (fr : Buf (Elt F) ((rows.access (.whole S128x128)).loc (SparseCore.V d ((i 0).castLE hcore1) ((i 1).castLE hsub1))))
    (fe : Buf (Elt F) (embv.view.loc (SparseCore.V d ((i 0).castLE hcore1) ((i 1).castLE hsub1)))) {α : Type}
    (p : Prog (TpuEff nD τ sig (Elt F) Λ₀ (.scVector ((i 0).castLE hcore1) ((i 1).castLE hsub1))) α) (v : α) : Prop :=
  Returns (defs := defs) (Ix := Ix) (Name := Name) (U := U) (Lvl := Lvl) 𝒱 (SparseCore.V d ((i 0).castLE hcore1) ((i 1).castLE hsub1)) bd E rows embv q8 q9 fr fe p v

end Cert.HandI

end
-- ==== Proof.ScPartsA.lean ====
import proofs.«204931_g11295763988758_cont_test2_10_9_alg».proof.Proof.Gen.KernelIdeal.Skeleton
import proofs.«204931_g11295763988758_cont_test2_10_9_alg».proof.Proof.ScAcc
import proofs.«204931_g11295763988758_cont_test2_10_9_alg».proof.Proof.ScReturns
import Idealize.ShloMosaic.Lib.SparseCore.Ops
import Idealize.ShloMosaic.Lib.Tactic

set_option maxHeartbeats 0
set_option maxRecDepth 65536

noncomputable section

namespace Cert.HandI

open Cert.KernelIdeal Cert.KernelIdeal.Gen

open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {Ix : Type} [DecidableEq Ix] {Name : Type} [DecidableEq Name] {U : Type} [URA U] {Lvl : Type} [Preorder Lvl]
variable {defs : Defs nD τ sig (Elt F) Λ₀}

private theorem Returns.loadFeat3 {α : Type} {𝒱 : Variants} {thr : Thread nD τ} {bd : Option 𝒱.V} {E : Set Name}
    {rows : Memref sig thr.2.kind .vmem S128x128 .f32} {embv : Memref sig thr.2.kind .vmem S128 .f32} {q8 q9 : PosShare TreeShare}
    {fr : Buf (Elt F) ((rows.access (.whole S128x128)).loc thr)} {fe : Buf (Elt F) (embv.view.loc thr)}
    (k3 : Fin k1_t3_loop.trips)
    {hl : embv.view.LoadsAt (Rect.unit (s := S128) (k1_off3 k3) S16.size (k1_off3_inb k3)).toLoadRect}
    {k : Vec F S16 .f32 → Prog (TpuEff nD τ sig (Elt F) Λ₀ thr.2) α} {v : α}
    (hk : Returns (defs := defs) (Ix := Ix) (Name := Name) (U := U) (Lvl := Lvl) 𝒱 thr bd E rows embv q8 q9 fr fe (k (ecol (embv.view.read (Elt F) fe) k3.val)) v) :
    Returns (defs := defs) (Ix := Ix) (Name := Name) (U := U) (Lvl := Lvl) 𝒱 thr bd E rows embv q8 q9 fr fe
      (Prog.lift (TpuEff.load embv (Rect.unit (s := S128) (k1_off3 k3) S16.size (k1_off3_inb k3)).toLoadRect hl) >>= k) v := by
  have hk8 : k3.val < 8 := lt_of_lt_of_eq k3.isLt trips3
  refine Returns.load ?_
  have e : embv.view.readAt (Elt F) (Rect.unit (s := S128) (k1_off3 k3) S16.size (k1_off3_inb k3)).toLoadRect fe
      = ecol (embv.view.read (Elt F) fe) k3.val := by
    funext (x : S16.Idx)
    have hx : (x 0).val < 16 := (x 0).isLt
    rw [View.readAt_apply]
    show embv.view.read (Elt F) fe _ = embv.view.read (Elt F) fe (eIdx (16 * k3.val + (x 0).val))
    congr 1
    funext a
    match a with
    | ⟨0, _⟩ =>
      apply Fin.ext
      rw [LoadRect.idx_apply]
      show (k1_off3 k3) 0 + 1 * (x 0).val = (16 * k3.val + (x 0).val) % 128
      rw [k1_off3_eq]
      show 16 * k3.val + 1 * (x 0).val = (16 * k3.val + (x 0).val) % 128
      omega
  rw [e]
  exact hk

-- A tile's operands, and the two buffers it holds while it accumulates.
variable {𝒱 : Variants} {bd : Option 𝒱.V} {E : Set Name} {d : Dev nD} {i : grid1.Coords} {arg2 : Memref sig .scVector .hbm S100000x128 .f32} {harg2 : arg2.IsWhole} {arg3 : Memref sig .scVector .hbm S100000x128 .f32} {harg3 : arg3.IsWhole} {arg4 : Memref sig .scVector .hbm S1024x512 .i32} {harg4 : arg4.IsWhole} {arg5 : Memref sig .scVector .hbm S2x1024x128 .f32} {harg5 : arg5.IsWhole} {arg6 : Memref sig .scVector .hbm S2x1024x512 .f32} {harg6 : arg6.IsWhole} {arg7 : Memref sig .scVector .vmem S128 .i32} {harg7 : arg7.IsWhole} {arg8 : Memref sig .scVector .vmem S128x128 .f32} {harg8 : arg8.IsWhole} {arg9 : Memref sig .scVector .vmem S128 .f32} {harg9 : arg9.IsWhole} {arg10 : Memref sig .scVector .vmem S128 .f32} {harg10 : arg10.IsWhole} {arg11 : DmaSems sig S_} {v11_r0 : DmaSems sig S_} {v33_r1 : DmaSems sig S_} {v33_r2 : DmaSems sig S_} {v11_r3 : DmaSems sig S_} {v33_r4 : DmaSems sig S_} {v33_r5 : DmaSems sig S_}
  {q8 q9 : PosShare TreeShare} {fr : Buf (Elt F) ((arg8.access (.whole S128x128)).loc (V d ((i 0).castLE hcore1) ((i 1).castLE hsub1)))} {fe : Buf (Elt F) (arg9.view.loc (V d ((i 0).castLE hcore1) ((i 1).castLE hsub1)))}

theorem part1_returns
    (k : Fin k1_t3_loop.trips) (v3 : IVec S16 32) (arg17 : FVec F S16 .f32)
    (hv3 : v3 = iota .scVector S16 32 [0] iota_S16_d0_w32_scVector) :
    TReturns Ix U Lvl defs 𝒱 bd E d i arg8 arg9 q8 q9 fr fe
      (k1_part1_skel i arg2 harg2 arg3 harg3 arg4 harg4 arg5 harg5 arg6 harg6 arg7 harg7 arg8 harg8 arg9 harg9 arg10 harg10 arg11 v11_r0 v33_r1 v33_r2 v11_r3 v33_r4 v33_r5 v3 0#32 1#32 k arg17)
      ⟨Scf.iv 0#32 1#32 k.val, ecol (featOf fe) k.val, k1_pay1 v3,
        k1_pay2 arg17 (ecol (featOf fe) k.val) (gcol (blockOf fr) 0 (16 * k.val + 0)) (gcol (blockOf fr) 0 (16 * k.val + 1))
          (gcol (blockOf fr) 0 (16 * k.val + 2)) (gcol (blockOf fr) 0 (16 * k.val + 3)),
        (Scalar.addi (Scalar.muli (Scf.iv 0#32 1#32 k.val) 16#32) 4#32)⟩ := by
  subst hv3
  have hr : 0 + 15 < 128 := by decide
  have hrow : ∀ x, ((k1_pay1 (iota .scVector S16 32 [0] iota_S16_d0_w32_scVector)) x).toNat = 0 + (x 0).val := fun x => rowA 0#32 (by decide) x
  unfold k1_part1_skel
  refine Returns.loadFeat3 k ?_
  iterate 4 refine Returns.termAt (lt3 k) _ (by decide) 0 hrow hr ?_
  exact Returns.pure _

theorem part3_returns
    (k : Fin k1_t3_loop.trips) (v35 : Vec F S16 .f32) (v37 : IVec S16 32) (v118 : FVec F S16 .f32) (v120 : BitVec 32) (r0 : ℕ)
    (hrow : ∀ x, (v37 x).toNat = r0 + (x 0).val) (hr : r0 + 15 < 128) (h120 : v120.toNat = 16 * k.val + 9) :
    TReturns Ix U Lvl defs 𝒱 bd E d i arg8 arg9 q8 q9 fr fe
      (k1_part3_skel i arg2 harg2 arg3 harg3 arg4 harg4 arg5 harg5 arg6 harg6 arg7 harg7 arg8 harg8 arg9 harg9 arg10 harg10 arg11 v11_r0 v33_r1 v33_r2 v11_r3 v33_r4 v33_r5 (Scf.iv 0#32 1#32 k.val) v35 v37 v118 v120)
      ⟨k1_pay4 v35 v118 (gcol (blockOf fr) r0 (16 * k.val + 9)) (gcol (blockOf fr) r0 (16 * k.val + 10)) (gcol (blockOf fr) r0 (16 * k.val + 11))
          (gcol (blockOf fr) r0 (16 * k.val + 12)) (gcol (blockOf fr) r0 (16 * k.val + 13)),
        (Scalar.addi (Scalar.muli (Scf.iv 0#32 1#32 k.val) 16#32) 14#32)⟩ := by
  have hk8 := lt3 k
  have c9 : ∀ x, ((broadcast S16 v120 : IVec S16 32) x).toNat = 16 * k.val + 9 := fun _ => h120
  unfold k1_part3_skel
  refine Returns.term r0 (16 * k.val + 9) hrow c9 hr (by omega) ?_
  iterate 4 refine Returns.termAt (lt3 k) _ (by decide) r0 hrow hr ?_
  exact Returns.pure _

theorem part5_returns
    (k : Fin k1_t3_loop.trips) (v35 : Vec F S16 .f32) (v183 : IVec S16 32) (v210 : FVec F S16 .f32) (c : BitVec 32) (r0 : ℕ)
    (hrow : ∀ x, (v183 x).toNat = r0 + (x 0).val) (hr : r0 + 15 < 128) (hc16 : c = 16#32) :
    TReturns Ix U Lvl defs 𝒱 bd E d i arg8 arg9 q8 q9 fr fe
      (k1_part5_skel i arg2 harg2 arg3 harg3 arg4 harg4 arg5 harg5 arg6 harg6 arg7 harg7 arg8 harg8 arg9 harg9 arg10 harg10 arg11 v11_r0 v33_r1 v33_r2 v11_r3 v33_r4 v33_r5 (Scf.iv 0#32 1#32 k.val) v35 v183 v210 c)
      ⟨k1_pay8 v35 v210 (gcol (blockOf fr) r0 (16 * k.val + 3)) (gcol (blockOf fr) r0 (16 * k.val + 4)) (gcol (blockOf fr) r0 (16 * k.val + 5))
          (gcol (blockOf fr) r0 (16 * k.val + 6)) (gcol (blockOf fr) r0 (16 * k.val + 7)),
        16#32⟩ := by
  subst hc16
  unfold k1_part5_skel
  iterate 5 refine Returns.termAt (lt3 k) _ (by decide) r0 hrow hr ?_
  exact Returns.pure _

theorem part6_returns
    (k : Fin k1_t3_loop.trips) (v35 : Vec F S16 .f32) (v183 : IVec S16 32) (v255 : FVec F S16 .f32) (c : BitVec 32) (r0 : ℕ)
    (hrow : ∀ x, (v183 x).toNat = r0 + (x 0).val) (hr : r0 + 15 < 128) (hc16 : c = 16#32) :
    TReturns Ix U Lvl defs 𝒱 bd E d i arg8 arg9 q8 q9 fr fe
      (k1_part6_skel i arg2 harg2 arg3 harg3 arg4 harg4 arg5 harg5 arg6 harg6 arg7 harg7 arg8 harg8 arg9 harg9 arg10 harg10 arg11 v11_r0 v33_r1 v33_r2 v11_r3 v33_r4 v33_r5 (Scf.iv 0#32 1#32 k.val) v35 v183 v255 c)
      ⟨k1_pay9 v35 v255 (gcol (blockOf fr) r0 (16 * k.val + 8)) (gcol (blockOf fr) r0 (16 * k.val + 9)) (gcol (blockOf fr) r0 (16 * k.val + 10))
          (gcol (blockOf fr) r0 (16 * k.val + 11)) (gcol (blockOf fr) r0 (16 * k.val + 12)),
        16#32⟩ := by
  subst hc16
  unfold k1_part6_skel
  iterate 5 refine Returns.termAt (lt3 k) _ (by decide) r0 hrow hr ?_
  exact Returns.pure _

end Cert.HandI

end
-- ==== Proof.ScPartsB.lean ====
import proofs.«204931_g11295763988758_cont_test2_10_9_alg».proof.Proof.Gen.KernelIdeal.Skeleton
import proofs.«204931_g11295763988758_cont_test2_10_9_alg».proof.Proof.ScAcc
import proofs.«204931_g11295763988758_cont_test2_10_9_alg».proof.Proof.ScReturns
import Idealize.ShloMosaic.Lib.SparseCore.Ops
import Idealize.ShloMosaic.Lib.Tactic

set_option maxHeartbeats 0
set_option maxRecDepth 65536

noncomputable section

namespace Cert.HandI

open Cert.KernelIdeal Cert.KernelIdeal.Gen

open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {Ix : Type} [DecidableEq Ix] {Name : Type} [DecidableEq Name] {U : Type} [URA U] {Lvl : Type} [Preorder Lvl]
variable {defs : Defs nD τ sig (Elt F) Λ₀}

-- A tile's operands, and the two buffers it holds while it accumulates.
variable {𝒱 : Variants} {bd : Option 𝒱.V} {E : Set Name} {d : Dev nD} {i : grid1.Coords} {arg2 : Memref sig .scVector .hbm S100000x128 .f32} {harg2 : arg2.IsWhole} {arg3 : Memref sig .scVector .hbm S100000x128 .f32} {harg3 : arg3.IsWhole} {arg4 : Memref sig .scVector .hbm S1024x512 .i32} {harg4 : arg4.IsWhole} {arg5 : Memref sig .scVector .hbm S2x1024x128 .f32} {harg5 : arg5.IsWhole} {arg6 : Memref sig .scVector .hbm S2x1024x512 .f32} {harg6 : arg6.IsWhole} {arg7 : Memref sig .scVector .vmem S128 .i32} {harg7 : arg7.IsWhole} {arg8 : Memref sig .scVector .vmem S128x128 .f32} {harg8 : arg8.IsWhole} {arg9 : Memref sig .scVector .vmem S128 .f32} {harg9 : arg9.IsWhole} {arg10 : Memref sig .scVector .vmem S128 .f32} {harg10 : arg10.IsWhole} {arg11 : DmaSems sig S_} {v11_r0 : DmaSems sig S_} {v33_r1 : DmaSems sig S_} {v33_r2 : DmaSems sig S_} {v11_r3 : DmaSems sig S_} {v33_r4 : DmaSems sig S_} {v33_r5 : DmaSems sig S_}
  {q8 q9 : PosShare TreeShare} {fr : Buf (Elt F) ((arg8.access (.whole S128x128)).loc (V d ((i 0).castLE hcore1) ((i 1).castLE hsub1)))} {fe : Buf (Elt F) (arg9.view.loc (V d ((i 0).castLE hcore1) ((i 1).castLE hsub1)))}

theorem part2_returns
    (k : Fin k1_t3_loop.trips) (v35 : Vec F S16 .f32) (v37 : IVec S16 32) (v73 : FVec F S16 .f32) (v75 : BitVec 32) (r0 : ℕ)
    (hrow : ∀ x, (v37 x).toNat = r0 + (x 0).val) (hr : r0 + 15 < 128) (h75 : v75.toNat = 16 * k.val + 4) :
    TReturns Ix U Lvl defs 𝒱 bd E d i arg8 arg9 q8 q9 fr fe
      (k1_part2_skel i arg2 harg2 arg3 harg3 arg4 harg4 arg5 harg5 arg6 harg6 arg7 harg7 arg8 harg8 arg9 harg9 arg10 harg10 arg11 v11_r0 v33_r1 v33_r2 v11_r3 v33_r4 v33_r5 (Scf.iv 0#32 1#32 k.val) v35 v37 v73 v75)
      ⟨k1_pay3 v35 v73 (gcol (blockOf fr) r0 (16 * k.val + 4)) (gcol (blockOf fr) r0 (16 * k.val + 5)) (gcol (blockOf fr) r0 (16 * k.val + 6))
          (gcol (blockOf fr) r0 (16 * k.val + 7)) (gcol (blockOf fr) r0 (16 * k.val + 8)),
        (Scalar.addi (Scalar.muli (Scf.iv 0#32 1#32 k.val) 16#32) 9#32)⟩ := by
  have hk8 := lt3 k
  have c4 : ∀ x, ((broadcast S16 v75 : IVec S16 32) x).toNat = 16 * k.val + 4 := fun _ => h75
  unfold k1_part2_skel
  refine Returns.term r0 (16 * k.val + 4) hrow c4 hr (by omega) ?_
  iterate 4 refine Returns.termAt (lt3 k) _ (by decide) r0 hrow hr ?_
  exact Returns.pure _

theorem part8_returns
    (k : Fin k1_t3_loop.trips) (v35 : Vec F S16 .f32) (v329 : IVec S16 32) (v338 : FVec F S16 .f32) (v342 : Vec F S16 .f32) (v345 : FVec F S16 .f32) (r0 : ℕ)
    (hrow : ∀ x, (v329 x).toNat = r0 + (x 0).val) (hr : r0 + 15 < 128) :
    TReturns Ix U Lvl defs 𝒱 bd E d i arg8 arg9 q8 q9 fr fe
      (k1_part8_skel i arg2 harg2 arg3 harg3 arg4 harg4 arg5 harg5 arg6 harg6 arg7 harg7 arg8 harg8 arg9 harg9 arg10 harg10 arg11 v11_r0 v33_r1 v33_r2 v11_r3 v33_r4 v33_r5 (Scf.iv 0#32 1#32 k.val) v35 v329 v338 v342 v345)
      ⟨k1_pay14 v35 v338 v342 v345 (gcol (blockOf fr) r0 (16 * k.val + 2)) (gcol (blockOf fr) r0 (16 * k.val + 3)) (gcol (blockOf fr) r0 (16 * k.val + 4))
          (gcol (blockOf fr) r0 (16 * k.val + 5)),
        gcol (blockOf fr) r0 (16 * k.val + 6), k1_pay15 v35⟩ := by
  unfold k1_part8_skel
  iterate 5 refine Returns.termAt (lt3 k) _ (by decide) r0 hrow hr ?_
  exact Returns.pure _

theorem part9_returns
    (k : Fin k1_t3_loop.trips) (v35 : Vec F S16 .f32) (v329 : IVec S16 32) (v383 : FVec F S16 .f32) (v387 : Vec F S16 .f32) (v390 : FVec F S16 .f32) (r0 : ℕ)
    (hrow : ∀ x, (v329 x).toNat = r0 + (x 0).val) (hr : r0 + 15 < 128) :
    TReturns Ix U Lvl defs 𝒱 bd E d i arg8 arg9 q8 q9 fr fe
      (k1_part9_skel i arg2 harg2 arg3 harg3 arg4 harg4 arg5 harg5 arg6 harg6 arg7 harg7 arg8 harg8 arg9 harg9 arg10 harg10 arg11 v11_r0 v33_r1 v33_r2 v11_r3 v33_r4 v33_r5 (Scf.iv 0#32 1#32 k.val) v35 v329 v383 v387 v390)
      ⟨k1_pay16 v35 v383 v387 v390 (gcol (blockOf fr) r0 (16 * k.val + 7)) (gcol (blockOf fr) r0 (16 * k.val + 8)) (gcol (blockOf fr) r0 (16 * k.val + 9))
          (gcol (blockOf fr) r0 (16 * k.val + 10)),
        gcol (blockOf fr) r0 (16 * k.val + 11), k1_pay17 v35⟩ := by
  unfold k1_part9_skel
  iterate 5 refine Returns.termAt (lt3 k) _ (by decide) r0 hrow hr ?_
  exact Returns.pure _

theorem part13_returns
    (k : Fin k1_t3_loop.trips) (v35 : Vec F S16 .f32) (v475 : IVec S16 32) (v565 : FVec F S16 .f32) (v569 : Vec F S16 .f32) (r0 : ℕ)
    (hrow : ∀ x, (v475 x).toNat = r0 + (x 0).val) (hr : r0 + 15 < 128) :
    TReturns Ix U Lvl defs 𝒱 bd E d i arg8 arg9 q8 q9 fr fe
      (k1_part13_skel i arg2 harg2 arg3 harg3 arg4 harg4 arg5 harg5 arg6 harg6 arg7 harg7 arg8 harg8 arg9 harg9 arg10 harg10 arg11 v11_r0 v33_r1 v33_r2 v11_r3 v33_r4 v33_r5 (Scf.iv 0#32 1#32 k.val) v35 v475 v565 v569)
      ⟨k1_pay22 v35 v565 v569 (gcol (blockOf fr) r0 (16 * k.val + 11)) (gcol (blockOf fr) r0 (16 * k.val + 12)) (gcol (blockOf fr) r0 (16 * k.val + 13))
          (gcol (blockOf fr) r0 (16 * k.val + 14)),
        gcol (blockOf fr) r0 (16 * k.val + 15)⟩ := by
  unfold k1_part13_skel
  iterate 5 refine Returns.termAt (lt3 k) _ (by decide) r0 hrow hr ?_
  exact Returns.pure _

end Cert.HandI

end
-- ==== Proof.ScPartsC.lean ====
import proofs.«204931_g11295763988758_cont_test2_10_9_alg».proof.Proof.Gen.KernelIdeal.Skeleton
import proofs.«204931_g11295763988758_cont_test2_10_9_alg».proof.Proof.ScAcc
import proofs.«204931_g11295763988758_cont_test2_10_9_alg».proof.Proof.ScReturns
import Idealize.ShloMosaic.Lib.SparseCore.Ops
import Idealize.ShloMosaic.Lib.Tactic

set_option maxHeartbeats 0
set_option maxRecDepth 65536

noncomputable section

namespace Cert.HandI

open Cert.KernelIdeal Cert.KernelIdeal.Gen

open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {Ix : Type} [DecidableEq Ix] {Name : Type} [DecidableEq Name] {U : Type} [URA U] {Lvl : Type} [Preorder Lvl]
variable {defs : Defs nD τ sig (Elt F) Λ₀}

-- A tile's operands, and the two buffers it holds while it accumulates.
variable {𝒱 : Variants} {bd : Option 𝒱.V} {E : Set Name} {d : Dev nD} {i : grid1.Coords} {arg2 : Memref sig .scVector .hbm S100000x128 .f32} {harg2 : arg2.IsWhole} {arg3 : Memref sig .scVector .hbm S100000x128 .f32} {harg3 : arg3.IsWhole} {arg4 : Memref sig .scVector .hbm S1024x512 .i32} {harg4 : arg4.IsWhole} {arg5 : Memref sig .scVector .hbm S2x1024x128 .f32} {harg5 : arg5.IsWhole} {arg6 : Memref sig .scVector .hbm S2x1024x512 .f32} {harg6 : arg6.IsWhole} {arg7 : Memref sig .scVector .vmem S128 .i32} {harg7 : arg7.IsWhole} {arg8 : Memref sig .scVector .vmem S128x128 .f32} {harg8 : arg8.IsWhole} {arg9 : Memref sig .scVector .vmem S128 .f32} {harg9 : arg9.IsWhole} {arg10 : Memref sig .scVector .vmem S128 .f32} {harg10 : arg10.IsWhole} {arg11 : DmaSems sig S_} {v11_r0 : DmaSems sig S_} {v33_r1 : DmaSems sig S_} {v33_r2 : DmaSems sig S_} {v11_r3 : DmaSems sig S_} {v33_r4 : DmaSems sig S_} {v33_r5 : DmaSems sig S_}
  {q8 q9 : PosShare TreeShare} {fr : Buf (Elt F) ((arg8.access (.whole S128x128)).loc (V d ((i 0).castLE hcore1) ((i 1).castLE hsub1)))} {fe : Buf (Elt F) (arg9.view.loc (V d ((i 0).castLE hcore1) ((i 1).castLE hsub1)))}

theorem part4_returns
    (k : Fin k1_t3_loop.trips) (v3 : IVec S16 32) (arg18 : FVec F S16 .f32) (v35 : Vec F S16 .f32) (v37 : IVec S16 32) (v163 : FVec F S16 .f32) (v165 : BitVec 32) (r0 : ℕ)
    (hv3 : v3 = iota .scVector S16 32 [0] iota_S16_d0_w32_scVector)
    (hrow : ∀ x, (v37 x).toNat = r0 + (x 0).val) (hr : r0 + 15 < 128) (h165 : v165.toNat = 16 * k.val + 14) :
    TReturns Ix U Lvl defs 𝒱 bd E d i arg8 arg9 q8 q9 fr fe
      (k1_part4_skel i arg2 harg2 arg3 harg3 arg4 harg4 arg5 harg5 arg6 harg6 arg7 harg7 arg8 harg8 arg9 harg9 arg10 harg10 arg11 v11_r0 v33_r1 v33_r2 v11_r3 v33_r4 v33_r5 v3 arg18 (Scf.iv 0#32 1#32 k.val) v35 v37 v163 v165)
      ⟨k1_pay5 v35 v163 (gcol (blockOf fr) r0 (16 * k.val + 14)) (gcol (blockOf fr) r0 (16 * k.val + 15)),
        k1_pay6 (iota .scVector S16 32 [0] iota_S16_d0_w32_scVector),
        k1_pay7 arg18 v35 (gcol (blockOf fr) 16 (16 * k.val + 0)) (gcol (blockOf fr) 16 (16 * k.val + 1)) (gcol (blockOf fr) 16 (16 * k.val + 2)),
        16#32⟩ := by
  subst hv3
  have hk8 := lt3 k
  have c14 : ∀ x, ((broadcast S16 v165 : IVec S16 32) x).toNat = 16 * k.val + 14 := fun _ => h165
  have hrow1 : ∀ x, ((k1_pay6 (iota .scVector S16 32 [0] iota_S16_d0_w32_scVector)) x).toNat = 16 + (x 0).val := fun x => rowA 16#32 (by decide) x
  have hr1 : 16 + 15 < 128 := by decide
  unfold k1_part4_skel
  refine Returns.term r0 (16 * k.val + 14) hrow c14 hr (by omega) ?_
  refine Returns.termAt (lt3 k) 15 (by decide) r0 hrow hr ?_
  iterate 3 refine Returns.termAt (lt3 k) _ (by decide) 16 hrow1 hr1 ?_
  exact Returns.pure _

theorem part7_returns
    (k : Fin k1_t3_loop.trips) (v3 : IVec S16 32) (arg19 : FVec F S16 .f32) (v35 : Vec F S16 .f32) (v183 : IVec S16 32) (v300 : FVec F S16 .f32) (c16_i32_80 : BitVec 32) (r0 : ℕ)
    (hv3 : v3 = iota .scVector S16 32 [0] iota_S16_d0_w32_scVector) (hc16 : c16_i32_80 = 16#32)
    (hrow : ∀ x, (v183 x).toNat = r0 + (x 0).val) (hr : r0 + 15 < 128) :
    TReturns Ix U Lvl defs 𝒱 bd E d i arg8 arg9 q8 q9 fr fe
      (k1_part7_skel i arg2 harg2 arg3 harg3 arg4 harg4 arg5 harg5 arg6 harg6 arg7 harg7 arg8 harg8 arg9 harg9 arg10 harg10 arg11 v11_r0 v33_r1 v33_r2 v11_r3 v33_r4 v33_r5 v3 arg19 (Scf.iv 0#32 1#32 k.val) v35 v183 v300 c16_i32_80)
      ⟨k1_pay10 v35 v300 (gcol (blockOf fr) r0 (16 * k.val + 13)) (gcol (blockOf fr) r0 (16 * k.val + 14)) (gcol (blockOf fr) r0 (16 * k.val + 15)),
        k1_pay11 (iota .scVector S16 32 [0] iota_S16_d0_w32_scVector),
        k1_pay12 arg19 v35 (gcol (blockOf fr) 32 (16 * k.val + 0)),
        (gcol (blockOf fr) 32 (16 * k.val + 1)),
        k1_pay13 v35⟩ := by
  subst hv3
  subst hc16
  have hrow1 : ∀ x, ((k1_pay11 (iota .scVector S16 32 [0] iota_S16_d0_w32_scVector)) x).toNat = 32 + (x 0).val := fun x => rowA 32#32 (by decide) x
  have hr1 : 32 + 15 < 128 := by decide
  unfold k1_part7_skel
  iterate 3 refine Returns.termAt (lt3 k) _ (by decide) r0 hrow hr ?_
  iterate 2 refine Returns.termAt (lt3 k) _ (by decide) 32 hrow1 hr1 ?_
  exact Returns.pure _

theorem part10_returns
    (k : Fin k1_t3_loop.trips) (v3 : IVec S16 32) (v35 : Vec F S16 .f32) (v329 : IVec S16 32) (v428 : FVec F S16 .f32) (v432 : Vec F S16 .f32) (v435 : FVec F S16 .f32) (r0 : ℕ)
    (hv3 : v3 = iota .scVector S16 32 [0] iota_S16_d0_w32_scVector)
    (hrow : ∀ x, (v329 x).toNat = r0 + (x 0).val) (hr : r0 + 15 < 128) :
    TReturns Ix U Lvl defs 𝒱 bd E d i arg8 arg9 q8 q9 fr fe
      (k1_part10_skel i arg2 harg2 arg3 harg3 arg4 harg4 arg5 harg5 arg6 harg6 arg7 harg7 arg8 harg8 arg9 harg9 arg10 harg10 arg11 v11_r0 v33_r1 v33_r2 v11_r3 v33_r4 v33_r5 v3 (Scf.iv 0#32 1#32 k.val) v35 v329 v428 v432 v435)
      ⟨k1_pay18 v35 v428 v432 v435 (gcol (blockOf fr) r0 (16 * k.val + 12)) (gcol (blockOf fr) r0 (16 * k.val + 13)) (gcol (blockOf fr) r0 (16 * k.val + 14)) (gcol (blockOf fr) r0 (16 * k.val + 15)),
        k1_pay19 (iota .scVector S16 32 [0] iota_S16_d0_w32_scVector),
        (gcol (blockOf fr) 48 (16 * k.val + 0))⟩ := by
  subst hv3
  have hrow1 : ∀ x, ((k1_pay19 (iota .scVector S16 32 [0] iota_S16_d0_w32_scVector)) x).toNat = 48 + (x 0).val := fun x => rowA 48#32 (by decide) x
  have hr1 : 48 + 15 < 128 := by decide
  unfold k1_part10_skel
  iterate 4 refine Returns.termAt (lt3 k) _ (by decide) r0 hrow hr ?_
  refine Returns.termAt (lt3 k) 0 (by decide) 48 hrow1 hr1 ?_
  exact Returns.pure _

end Cert.HandI

end
-- ==== Proof.ScPartsE.lean ====
import proofs.«204931_g11295763988758_cont_test2_10_9_alg».proof.Proof.Gen.KernelIdeal.Skeleton
import proofs.«204931_g11295763988758_cont_test2_10_9_alg».proof.Proof.ScAcc
import proofs.«204931_g11295763988758_cont_test2_10_9_alg».proof.Proof.ScReturns
import Idealize.ShloMosaic.Lib.SparseCore.Ops
import Idealize.ShloMosaic.Lib.Tactic

set_option maxHeartbeats 0
set_option maxRecDepth 65536

noncomputable section

namespace Cert.HandI

open Cert.KernelIdeal Cert.KernelIdeal.Gen

open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {Ix : Type} [DecidableEq Ix] {Name : Type} [DecidableEq Name] {U : Type} [URA U] {Lvl : Type} [Preorder Lvl]
variable {defs : Defs nD τ sig (Elt F) Λ₀}

-- A tile's operands, and the two buffers it holds while it accumulates.
variable {𝒱 : Variants} {bd : Option 𝒱.V} {E : Set Name} {d : Dev nD} {i : grid1.Coords} {arg2 : Memref sig .scVector .hbm S100000x128 .f32} {harg2 : arg2.IsWhole} {arg3 : Memref sig .scVector .hbm S100000x128 .f32} {harg3 : arg3.IsWhole} {arg4 : Memref sig .scVector .hbm S1024x512 .i32} {harg4 : arg4.IsWhole} {arg5 : Memref sig .scVector .hbm S2x1024x128 .f32} {harg5 : arg5.IsWhole} {arg6 : Memref sig .scVector .hbm S2x1024x512 .f32} {harg6 : arg6.IsWhole} {arg7 : Memref sig .scVector .vmem S128 .i32} {harg7 : arg7.IsWhole} {arg8 : Memref sig .scVector .vmem S128x128 .f32} {harg8 : arg8.IsWhole} {arg9 : Memref sig .scVector .vmem S128 .f32} {harg9 : arg9.IsWhole} {arg10 : Memref sig .scVector .vmem S128 .f32} {harg10 : arg10.IsWhole} {arg11 : DmaSems sig S_} {v11_r0 : DmaSems sig S_} {v33_r1 : DmaSems sig S_} {v33_r2 : DmaSems sig S_} {v11_r3 : DmaSems sig S_} {v33_r4 : DmaSems sig S_} {v33_r5 : DmaSems sig S_}
  {q8 q9 : PosShare TreeShare} {fr : Buf (Elt F) ((arg8.access (.whole S128x128)).loc (V d ((i 0).castLE hcore1) ((i 1).castLE hsub1)))} {fe : Buf (Elt F) (arg9.view.loc (V d ((i 0).castLE hcore1) ((i 1).castLE hsub1)))}

theorem part11_returns
    (k : Fin k1_t3_loop.trips) (arg20 : FVec F S16 .f32) (v35 : Vec F S16 .f32) (v475 : IVec S16 32) (v479 : Vec F S16 .f32) (r0 : ℕ)
    (hrow : ∀ x, (v475 x).toNat = r0 + (x 0).val) (hr : r0 + 15 < 128) :
    TReturns Ix U Lvl defs 𝒱 bd E d i arg8 arg9 q8 q9 fr fe
      (k1_part11_skel i arg2 harg2 arg3 harg3 arg4 harg4 arg5 harg5 arg6 harg6 arg7 harg7 arg8 harg8 arg9 harg9 arg10 harg10 arg11 v11_r0 v33_r1 v33_r2 v11_r3 v33_r4 v33_r5 arg20 (Scf.iv 0#32 1#32 k.val) v35 v475 v479)
      ⟨k1_pay20 arg20 v35 v479 (gcol (blockOf fr) r0 (16 * k.val + 1)) (gcol (blockOf fr) r0 (16 * k.val + 2)) (gcol (blockOf fr) r0 (16 * k.val + 3))
          (gcol (blockOf fr) r0 (16 * k.val + 4)),
        gcol (blockOf fr) r0 (16 * k.val + 5)⟩ := by
  unfold k1_part11_skel
  iterate 5 refine Returns.termAt (lt3 k) _ (by decide) r0 hrow hr ?_
  exact Returns.pure _

theorem part12_returns
    (k : Fin k1_t3_loop.trips) (v35 : Vec F S16 .f32) (v475 : IVec S16 32) (v520 : FVec F S16 .f32) (v524 : Vec F S16 .f32) (r0 : ℕ)
    (hrow : ∀ x, (v475 x).toNat = r0 + (x 0).val) (hr : r0 + 15 < 128) :
    TReturns Ix U Lvl defs 𝒱 bd E d i arg8 arg9 q8 q9 fr fe
      (k1_part12_skel i arg2 harg2 arg3 harg3 arg4 harg4 arg5 harg5 arg6 harg6 arg7 harg7 arg8 harg8 arg9 harg9 arg10 harg10 arg11 v11_r0 v33_r1 v33_r2 v11_r3 v33_r4 v33_r5 (Scf.iv 0#32 1#32 k.val) v35 v475 v520 v524)
      ⟨k1_pay21 v35 v520 v524 (gcol (blockOf fr) r0 (16 * k.val + 6)) (gcol (blockOf fr) r0 (16 * k.val + 7)) (gcol (blockOf fr) r0 (16 * k.val + 8))
          (gcol (blockOf fr) r0 (16 * k.val + 9)),
        gcol (blockOf fr) r0 (16 * k.val + 10)⟩ := by
  unfold k1_part12_skel
  iterate 5 refine Returns.termAt (lt3 k) _ (by decide) r0 hrow hr ?_
  exact Returns.pure _

theorem part14_returns
    (k : Fin k1_t3_loop.trips) (v3 : IVec S16 32) (arg21 : FVec F S16 .f32) (v35 : Vec F S16 .f32) (v610 : FVec F S16 .f32) (v614 : Vec F S16 .f32)
    (hv3 : v3 = iota .scVector S16 32 [0] iota_S16_d0_w32_scVector) :
    TReturns Ix U Lvl defs 𝒱 bd E d i arg8 arg9 q8 q9 fr fe
      (k1_part14_skel i arg2 harg2 arg3 harg3 arg4 harg4 arg5 harg5 arg6 harg6 arg7 harg7 arg8 harg8 arg9 harg9 arg10 harg10 arg11 v11_r0 v33_r1 v33_r2 v11_r3 v33_r4 v33_r5 v3 arg21 (Scf.iv 0#32 1#32 k.val) v35 v610 v614)
      ⟨k1_pay23 v35 v610 v614, k1_pay24 v3,
        k1_pay25 arg21 v35 (gcol (blockOf fr) 64 (16 * k.val + 0)) (gcol (blockOf fr) 64 (16 * k.val + 1)) (gcol (blockOf fr) 64 (16 * k.val + 2))
          (gcol (blockOf fr) 64 (16 * k.val + 3)),
        (Scalar.addi (Scalar.muli (Scf.iv 0#32 1#32 k.val) 16#32) 4#32)⟩ := by
  subst hv3
  have hrow : ∀ x, ((k1_pay24 (iota .scVector S16 32 [0] iota_S16_d0_w32_scVector) : IVec S16 32) x).toNat = 64 + (x 0).val :=
    fun x => rowA 64#32 (by decide) x
  have hr : 64 + 15 < 128 := by decide
  unfold k1_part14_skel
  iterate 4 refine Returns.termAt (lt3 k) _ (by decide) 64 hrow hr ?_
  exact Returns.pure _

end Cert.HandI

end
-- ==== Proof.ScPartsF.lean ====
import proofs.«204931_g11295763988758_cont_test2_10_9_alg».proof.Proof.Gen.KernelIdeal.Skeleton
import proofs.«204931_g11295763988758_cont_test2_10_9_alg».proof.Proof.ScAcc
import proofs.«204931_g11295763988758_cont_test2_10_9_alg».proof.Proof.ScReturns
import Idealize.ShloMosaic.Lib.SparseCore.Ops
import Idealize.ShloMosaic.Lib.Tactic

set_option maxHeartbeats 0
set_option maxRecDepth 65536

noncomputable section

namespace Cert.HandI

open Cert.KernelIdeal Cert.KernelIdeal.Gen

open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {Ix : Type} [DecidableEq Ix] {Name : Type} [DecidableEq Name] {U : Type} [URA U] {Lvl : Type} [Preorder Lvl]
variable {defs : Defs nD τ sig (Elt F) Λ₀}

-- A tile's operands, and the two buffers it holds while it accumulates.
variable {𝒱 : Variants} {bd : Option 𝒱.V} {E : Set Name} {d : Dev nD} {i : grid1.Coords} {arg2 : Memref sig .scVector .hbm S100000x128 .f32} {harg2 : arg2.IsWhole} {arg3 : Memref sig .scVector .hbm S100000x128 .f32} {harg3 : arg3.IsWhole} {arg4 : Memref sig .scVector .hbm S1024x512 .i32} {harg4 : arg4.IsWhole} {arg5 : Memref sig .scVector .hbm S2x1024x128 .f32} {harg5 : arg5.IsWhole} {arg6 : Memref sig .scVector .hbm S2x1024x512 .f32} {harg6 : arg6.IsWhole} {arg7 : Memref sig .scVector .vmem S128 .i32} {harg7 : arg7.IsWhole} {arg8 : Memref sig .scVector .vmem S128x128 .f32} {harg8 : arg8.IsWhole} {arg9 : Memref sig .scVector .vmem S128 .f32} {harg9 : arg9.IsWhole} {arg10 : Memref sig .scVector .vmem S128 .f32} {harg10 : arg10.IsWhole} {arg11 : DmaSems sig S_} {v11_r0 : DmaSems sig S_} {v33_r1 : DmaSems sig S_} {v33_r2 : DmaSems sig S_} {v11_r3 : DmaSems sig S_} {v33_r4 : DmaSems sig S_} {v33_r5 : DmaSems sig S_}
  {q8 q9 : PosShare TreeShare} {fr : Buf (Elt F) ((arg8.access (.whole S128x128)).loc (V d ((i 0).castLE hcore1) ((i 1).castLE hsub1)))} {fe : Buf (Elt F) (arg9.view.loc (V d ((i 0).castLE hcore1) ((i 1).castLE hsub1)))}

theorem part15_returns
    (k : Fin k1_t3_loop.trips) (v35 : Vec F S16 .f32) (v621 : IVec S16 32) (v657 : FVec F S16 .f32) (v659 : BitVec 32) (r0 : ℕ)
    (hrow : ∀ x, (v621 x).toNat = r0 + (x 0).val) (hr : r0 + 15 < 128) (h659 : v659.toNat = 16 * k.val + 4) :
    TReturns Ix U Lvl defs 𝒱 bd E d i arg8 arg9 q8 q9 fr fe
      (k1_part15_skel i arg2 harg2 arg3 harg3 arg4 harg4 arg5 harg5 arg6 harg6 arg7 harg7 arg8 harg8 arg9 harg9 arg10 harg10 arg11 v11_r0 v33_r1 v33_r2 v11_r3 v33_r4 v33_r5 (Scf.iv 0#32 1#32 k.val) v35 v621 v657 v659)
      ⟨k1_pay26 v35 v657 (gcol (blockOf fr) r0 (16 * k.val + 4)) (gcol (blockOf fr) r0 (16 * k.val + 5)) (gcol (blockOf fr) r0 (16 * k.val + 6))
          (gcol (blockOf fr) r0 (16 * k.val + 7)) (gcol (blockOf fr) r0 (16 * k.val + 8)),
        (Scalar.addi (Scalar.muli (Scf.iv 0#32 1#32 k.val) 16#32) 9#32)⟩ := by
  have hk8 := lt3 k
  have c4 : ∀ x, ((broadcast S16 v659 : IVec S16 32) x).toNat = 16 * k.val + 4 := fun _ => h659
  unfold k1_part15_skel
  refine Returns.term r0 (16 * k.val + 4) hrow c4 hr (by omega) ?_
  iterate 4 refine Returns.termAt (lt3 k) _ (by decide) r0 hrow hr ?_
  exact Returns.pure _

theorem part16_returns
    (k : Fin k1_t3_loop.trips) (v35 : Vec F S16 .f32) (v621 : IVec S16 32) (v702 : FVec F S16 .f32) (v704 : BitVec 32) (r0 : ℕ)
    (hrow : ∀ x, (v621 x).toNat = r0 + (x 0).val) (hr : r0 + 15 < 128) (h704 : v704.toNat = 16 * k.val + 9) :
    TReturns Ix U Lvl defs 𝒱 bd E d i arg8 arg9 q8 q9 fr fe
      (k1_part16_skel i arg2 harg2 arg3 harg3 arg4 harg4 arg5 harg5 arg6 harg6 arg7 harg7 arg8 harg8 arg9 harg9 arg10 harg10 arg11 v11_r0 v33_r1 v33_r2 v11_r3 v33_r4 v33_r5 (Scf.iv 0#32 1#32 k.val) v35 v621 v702 v704)
      ⟨k1_pay27 v35 v702 (gcol (blockOf fr) r0 (16 * k.val + 9)) (gcol (blockOf fr) r0 (16 * k.val + 10)) (gcol (blockOf fr) r0 (16 * k.val + 11))
          (gcol (blockOf fr) r0 (16 * k.val + 12)) (gcol (blockOf fr) r0 (16 * k.val + 13)),
        (Scalar.addi (Scalar.muli (Scf.iv 0#32 1#32 k.val) 16#32) 14#32)⟩ := by
  have hk8 := lt3 k
  have c9 : ∀ x, ((broadcast S16 v704 : IVec S16 32) x).toNat = 16 * k.val + 9 := fun _ => h704
  unfold k1_part16_skel
  refine Returns.term r0 (16 * k.val + 9) hrow c9 hr (by omega) ?_
  iterate 4 refine Returns.termAt (lt3 k) _ (by decide) r0 hrow hr ?_
  exact Returns.pure _

theorem part17_returns
    (k : Fin k1_t3_loop.trips) (v3 : IVec S16 32) (hv3 : v3 = iota .scVector S16 32 [0] iota_S16_d0_w32_scVector) (arg22 : FVec F S16 .f32) (v35 : Vec F S16 .f32) (v621 : IVec S16 32) (v747 : FVec F S16 .f32) (v749 : BitVec 32) (r0 : ℕ)
    (hrow : ∀ x, (v621 x).toNat = r0 + (x 0).val) (hr : r0 + 15 < 128) (h749 : v749.toNat = 16 * k.val + 14) :
    TReturns Ix U Lvl defs 𝒱 bd E d i arg8 arg9 q8 q9 fr fe
      (k1_part17_skel i arg2 harg2 arg3 harg3 arg4 harg4 arg5 harg5 arg6 harg6 arg7 harg7 arg8 harg8 arg9 harg9 arg10 harg10 arg11 v11_r0 v33_r1 v33_r2 v11_r3 v33_r4 v33_r5 v3 arg22 (Scf.iv 0#32 1#32 k.val) v35 v621 v747 v749)
      ⟨k1_pay28 v35 v747 (gcol (blockOf fr) r0 (16 * k.val + 14)) (gcol (blockOf fr) r0 (16 * k.val + 15)),
        k1_pay29 v3,
        k1_pay30 arg22 v35 (gcol (blockOf fr) 80 (16 * k.val + 0)) (gcol (blockOf fr) 80 (16 * k.val + 1)) (gcol (blockOf fr) 80 (16 * k.val + 2)),
        16#32⟩ := by
  subst hv3
  have hk8 := lt3 k
  have c14 : ∀ x, ((broadcast S16 v749 : IVec S16 32) x).toNat = 16 * k.val + 14 := fun _ => h749
  have hrowN : ∀ x, ((k1_pay29 (iota .scVector S16 32 [0] iota_S16_d0_w32_scVector) : IVec S16 32) x).toNat = 80 + (x 0).val :=
    fun x => rowA 80#32 (by decide) x
  have hrN : 80 + 15 < 128 := by decide
  unfold k1_part17_skel
  refine Returns.term r0 (16 * k.val + 14) hrow c14 hr (by omega) ?_
  refine Returns.termAt (lt3 k) 15 (by decide) r0 hrow hr ?_
  iterate 3 refine Returns.termAt (lt3 k) _ (by decide) 80 hrowN hrN ?_
  exact Returns.pure _

theorem part18_returns
    (k : Fin k1_t3_loop.trips) (v35 : Vec F S16 .f32) (v767 : IVec S16 32) (v794 : FVec F S16 .f32) (c16 : BitVec 32) (hc16 : c16 = 16#32) (r0 : ℕ)
    (hrow : ∀ x, (v767 x).toNat = r0 + (x 0).val) (hr : r0 + 15 < 128) :
    TReturns Ix U Lvl defs 𝒱 bd E d i arg8 arg9 q8 q9 fr fe
      (k1_part18_skel i arg2 harg2 arg3 harg3 arg4 harg4 arg5 harg5 arg6 harg6 arg7 harg7 arg8 harg8 arg9 harg9 arg10 harg10 arg11 v11_r0 v33_r1 v33_r2 v11_r3 v33_r4 v33_r5 (Scf.iv 0#32 1#32 k.val) v35 v767 v794 c16)
      ⟨k1_pay31 v35 v794 (gcol (blockOf fr) r0 (16 * k.val + 3)) (gcol (blockOf fr) r0 (16 * k.val + 4)) (gcol (blockOf fr) r0 (16 * k.val + 5))
          (gcol (blockOf fr) r0 (16 * k.val + 6)) (gcol (blockOf fr) r0 (16 * k.val + 7)),
        16#32⟩ := by
  subst hc16
  unfold k1_part18_skel
  iterate 5 refine Returns.termAt (lt3 k) _ (by decide) r0 hrow hr ?_
  exact Returns.pure _

end Cert.HandI

end
-- ==== Proof.ScPartsG.lean ====
import proofs.«204931_g11295763988758_cont_test2_10_9_alg».proof.Proof.Gen.KernelIdeal.Skeleton
import proofs.«204931_g11295763988758_cont_test2_10_9_alg».proof.Proof.ScAcc
import proofs.«204931_g11295763988758_cont_test2_10_9_alg».proof.Proof.ScReturns
import Idealize.ShloMosaic.Lib.SparseCore.Ops
import Idealize.ShloMosaic.Lib.Tactic

set_option maxHeartbeats 0
set_option maxRecDepth 65536

noncomputable section

namespace Cert.HandI

open Cert.KernelIdeal Cert.KernelIdeal.Gen

open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {Ix : Type} [DecidableEq Ix] {Name : Type} [DecidableEq Name] {U : Type} [URA U] {Lvl : Type} [Preorder Lvl]
variable {defs : Defs nD τ sig (Elt F) Λ₀}

-- A tile's operands, and the two buffers it holds while it accumulates.
variable {𝒱 : Variants} {bd : Option 𝒱.V} {E : Set Name} {d : Dev nD} {i : grid1.Coords} {arg2 : Memref sig .scVector .hbm S100000x128 .f32} {harg2 : arg2.IsWhole} {arg3 : Memref sig .scVector .hbm S100000x128 .f32} {harg3 : arg3.IsWhole} {arg4 : Memref sig .scVector .hbm S1024x512 .i32} {harg4 : arg4.IsWhole} {arg5 : Memref sig .scVector .hbm S2x1024x128 .f32} {harg5 : arg5.IsWhole} {arg6 : Memref sig .scVector .hbm S2x1024x512 .f32} {harg6 : arg6.IsWhole} {arg7 : Memref sig .scVector .vmem S128 .i32} {harg7 : arg7.IsWhole} {arg8 : Memref sig .scVector .vmem S128x128 .f32} {harg8 : arg8.IsWhole} {arg9 : Memref sig .scVector .vmem S128 .f32} {harg9 : arg9.IsWhole} {arg10 : Memref sig .scVector .vmem S128 .f32} {harg10 : arg10.IsWhole} {arg11 : DmaSems sig S_} {v11_r0 : DmaSems sig S_} {v33_r1 : DmaSems sig S_} {v33_r2 : DmaSems sig S_} {v11_r3 : DmaSems sig S_} {v33_r4 : DmaSems sig S_} {v33_r5 : DmaSems sig S_}
  {q8 q9 : PosShare TreeShare} {fr : Buf (Elt F) ((arg8.access (.whole S128x128)).loc (V d ((i 0).castLE hcore1) ((i 1).castLE hsub1)))} {fe : Buf (Elt F) (arg9.view.loc (V d ((i 0).castLE hcore1) ((i 1).castLE hsub1)))}

theorem part19_returns
    (k : Fin k1_t3_loop.trips) (v35 : Vec F S16 .f32) (v767 : IVec S16 32) (v839 : FVec F S16 .f32) (c16 : BitVec 32) (r0 : ℕ)
    (hrow : ∀ x, (v767 x).toNat = r0 + (x 0).val) (hr : r0 + 15 < 128) (hc16 : c16 = 16#32) :
    TReturns Ix U Lvl defs 𝒱 bd E d i arg8 arg9 q8 q9 fr fe
      (k1_part19_skel i arg2 harg2 arg3 harg3 arg4 harg4 arg5 harg5 arg6 harg6 arg7 harg7 arg8 harg8 arg9 harg9 arg10 harg10 arg11 v11_r0 v33_r1 v33_r2 v11_r3 v33_r4 v33_r5 (Scf.iv 0#32 1#32 k.val) v35 v767 v839 c16)
      ⟨k1_pay32 v35 v839 (gcol (blockOf fr) r0 (16 * k.val + 8)) (gcol (blockOf fr) r0 (16 * k.val + 9)) (gcol (blockOf fr) r0 (16 * k.val + 10))
          (gcol (blockOf fr) r0 (16 * k.val + 11)) (gcol (blockOf fr) r0 (16 * k.val + 12)),
        16#32⟩ := by
  subst hc16
  unfold k1_part19_skel
  iterate 5 refine Returns.termAt (lt3 k) _ (by decide) r0 hrow hr ?_
  exact Returns.pure _

theorem part20_returns
    (k : Fin k1_t3_loop.trips) (v3 : IVec S16 32) (arg23 : FVec F S16 .f32) (v35 : Vec F S16 .f32) (v767 : IVec S16 32) (v884 : FVec F S16 .f32) (c16 : BitVec 32) (r0 : ℕ)
    (hv3 : v3 = iota .scVector S16 32 [0] iota_S16_d0_w32_scVector) (hrow : ∀ x, (v767 x).toNat = r0 + (x 0).val) (hr : r0 + 15 < 128) (hc16 : c16 = 16#32) :
    TReturns Ix U Lvl defs 𝒱 bd E d i arg8 arg9 q8 q9 fr fe
      (k1_part20_skel i arg2 harg2 arg3 harg3 arg4 harg4 arg5 harg5 arg6 harg6 arg7 harg7 arg8 harg8 arg9 harg9 arg10 harg10 arg11 v11_r0 v33_r1 v33_r2 v11_r3 v33_r4 v33_r5 v3 arg23 (Scf.iv 0#32 1#32 k.val) v35 v767 v884 c16)
      ⟨k1_pay33 v35 v884 (gcol (blockOf fr) r0 (16 * k.val + 13)) (gcol (blockOf fr) r0 (16 * k.val + 14)) (gcol (blockOf fr) r0 (16 * k.val + 15)),
        k1_pay34 v3,
        k1_pay35 arg23 v35 (gcol (blockOf fr) 96 (16 * k.val + 0)),
        gcol (blockOf fr) 96 (16 * k.val + 1), k1_pay36 v35⟩ := by
  subst hv3
  subst hc16
  have hrowN : ∀ x, ((k1_pay34 (iota .scVector S16 32 [0] iota_S16_d0_w32_scVector)) x).toNat = 96 + (x 0).val := fun x => rowA 96#32 (by decide) x
  unfold k1_part20_skel
  iterate 3 refine Returns.termAt (lt3 k) _ (by decide) r0 hrow hr ?_
  iterate 2 refine Returns.termAt (lt3 k) _ (by decide) 96 hrowN (by omega) ?_
  exact Returns.pure _

theorem part21_returns
    (k : Fin k1_t3_loop.trips) (v35 : Vec F S16 .f32) (v913 : IVec S16 32) (v922 : FVec F S16 .f32) (v926 : Vec F S16 .f32) (v929 : FVec F S16 .f32) (r0 : ℕ)
    (hrow : ∀ x, (v913 x).toNat = r0 + (x 0).val) (hr : r0 + 15 < 128) :
    TReturns Ix U Lvl defs 𝒱 bd E d i arg8 arg9 q8 q9 fr fe
      (k1_part21_skel i arg2 harg2 arg3 harg3 arg4 harg4 arg5 harg5 arg6 harg6 arg7 harg7 arg8 harg8 arg9 harg9 arg10 harg10 arg11 v11_r0 v33_r1 v33_r2 v11_r3 v33_r4 v33_r5 (Scf.iv 0#32 1#32 k.val) v35 v913 v922 v926 v929)
      ⟨k1_pay37 v35 v922 v926 v929 (gcol (blockOf fr) r0 (16 * k.val + 2)) (gcol (blockOf fr) r0 (16 * k.val + 3)) (gcol (blockOf fr) r0 (16 * k.val + 4))
          (gcol (blockOf fr) r0 (16 * k.val + 5)),
        gcol (blockOf fr) r0 (16 * k.val + 6), k1_pay38 v35⟩ := by
  unfold k1_part21_skel
  iterate 5 refine Returns.termAt (lt3 k) _ (by decide) r0 hrow hr ?_
  exact Returns.pure _

theorem part22_returns
    (k : Fin k1_t3_loop.trips) (v35 : Vec F S16 .f32) (v913 : IVec S16 32) (v967 : FVec F S16 .f32) (v971 : Vec F S16 .f32) (v974 : FVec F S16 .f32) (r0 : ℕ)
    (hrow : ∀ x, (v913 x).toNat = r0 + (x 0).val) (hr : r0 + 15 < 128) :
    TReturns Ix U Lvl defs 𝒱 bd E d i arg8 arg9 q8 q9 fr fe
      (k1_part22_skel i arg2 harg2 arg3 harg3 arg4 harg4 arg5 harg5 arg6 harg6 arg7 harg7 arg8 harg8 arg9 harg9 arg10 harg10 arg11 v11_r0 v33_r1 v33_r2 v11_r3 v33_r4 v33_r5 (Scf.iv 0#32 1#32 k.val) v35 v913 v967 v971 v974)
      ⟨k1_pay39 v35 v967 v971 v974 (gcol (blockOf fr) r0 (16 * k.val + 7)) (gcol (blockOf fr) r0 (16 * k.val + 8)) (gcol (blockOf fr) r0 (16 * k.val + 9))
          (gcol (blockOf fr) r0 (16 * k.val + 10)),
        gcol (blockOf fr) r0 (16 * k.val + 11), k1_pay40 v35⟩ := by
  unfold k1_part22_skel
  iterate 5 refine Returns.termAt (lt3 k) _ (by decide) r0 hrow hr ?_
  exact Returns.pure _

end Cert.HandI

end
-- ==== Proof.ScPartsH.lean ====
import proofs.«204931_g11295763988758_cont_test2_10_9_alg».proof.Proof.Gen.KernelIdeal.Skeleton
import proofs.«204931_g11295763988758_cont_test2_10_9_alg».proof.Proof.ScAcc
import proofs.«204931_g11295763988758_cont_test2_10_9_alg».proof.Proof.ScReturns
import Idealize.ShloMosaic.Lib.SparseCore.Ops
import Idealize.ShloMosaic.Lib.Tactic

set_option maxHeartbeats 0
set_option maxRecDepth 65536

noncomputable section

namespace Cert.HandI

open Cert.KernelIdeal Cert.KernelIdeal.Gen

open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {Ix : Type} [DecidableEq Ix] {Name : Type} [DecidableEq Name] {U : Type} [URA U] {Lvl : Type} [Preorder Lvl]
variable {defs : Defs nD τ sig (Elt F) Λ₀}

-- A tile's operands, and the two buffers it holds while it accumulates.
variable {𝒱 : Variants} {bd : Option 𝒱.V} {E : Set Name} {d : Dev nD} {i : grid1.Coords} {arg2 : Memref sig .scVector .hbm S100000x128 .f32} {harg2 : arg2.IsWhole} {arg3 : Memref sig .scVector .hbm S100000x128 .f32} {harg3 : arg3.IsWhole} {arg4 : Memref sig .scVector .hbm S1024x512 .i32} {harg4 : arg4.IsWhole} {arg5 : Memref sig .scVector .hbm S2x1024x128 .f32} {harg5 : arg5.IsWhole} {arg6 : Memref sig .scVector .hbm S2x1024x512 .f32} {harg6 : arg6.IsWhole} {arg7 : Memref sig .scVector .vmem S128 .i32} {harg7 : arg7.IsWhole} {arg8 : Memref sig .scVector .vmem S128x128 .f32} {harg8 : arg8.IsWhole} {arg9 : Memref sig .scVector .vmem S128 .f32} {harg9 : arg9.IsWhole} {arg10 : Memref sig .scVector .vmem S128 .f32} {harg10 : arg10.IsWhole} {arg11 : DmaSems sig S_} {v11_r0 : DmaSems sig S_} {v33_r1 : DmaSems sig S_} {v33_r2 : DmaSems sig S_} {v11_r3 : DmaSems sig S_} {v33_r4 : DmaSems sig S_} {v33_r5 : DmaSems sig S_}
  {q8 q9 : PosShare TreeShare} {fr : Buf (Elt F) ((arg8.access (.whole S128x128)).loc (V d ((i 0).castLE hcore1) ((i 1).castLE hsub1)))} {fe : Buf (Elt F) (arg9.view.loc (V d ((i 0).castLE hcore1) ((i 1).castLE hsub1)))}

theorem part23_returns
    (k : Fin k1_t3_loop.trips) (v3 : IVec S16 32) (hv3 : v3 = iota .scVector S16 32 [0] iota_S16_d0_w32_scVector)
    (v35 : Vec F S16 .f32) (v913 : IVec S16 32) (v1012 : FVec F S16 .f32) (v1016 : Vec F S16 .f32) (v1019 : FVec F S16 .f32) (r0 : ℕ)
    (hrow : ∀ x, (v913 x).toNat = r0 + (x 0).val) (hr : r0 + 15 < 128) :
    TReturns Ix U Lvl defs 𝒱 bd E d i arg8 arg9 q8 q9 fr fe
      (k1_part23_skel i arg2 harg2 arg3 harg3 arg4 harg4 arg5 harg5 arg6 harg6 arg7 harg7 arg8 harg8 arg9 harg9 arg10 harg10 arg11 v11_r0 v33_r1 v33_r2 v11_r3 v33_r4 v33_r5 v3 (Scf.iv 0#32 1#32 k.val) v35 v913 v1012 v1016 v1019)
      ⟨k1_pay41 v35 v1012 v1016 v1019 (gcol (blockOf fr) r0 (16 * k.val + 12)) (gcol (blockOf fr) r0 (16 * k.val + 13)) (gcol (blockOf fr) r0 (16 * k.val + 14))
          (gcol (blockOf fr) r0 (16 * k.val + 15)),
        k1_pay42 v3, gcol (blockOf fr) 112 (16 * k.val + 0)⟩ := by
  subst hv3
  have hrow7 : ∀ x, ((k1_pay42 (iota .scVector S16 32 [0] iota_S16_d0_w32_scVector)) x).toNat = 112 + (x 0).val := fun x => rowA 112#32 (by decide) x
  have hr7 : 112 + 15 < 128 := by decide
  unfold k1_part23_skel
  iterate 4 refine Returns.termAt (lt3 k) _ (by decide) r0 hrow hr ?_
  refine Returns.termAt (lt3 k) 0 (by decide) 112 hrow7 hr7 ?_
  exact Returns.pure _

theorem part24_returns
    (k : Fin k1_t3_loop.trips) (arg24 : FVec F S16 .f32) (v35 : Vec F S16 .f32) (v1059 : IVec S16 32) (v1063 : Vec F S16 .f32) (r0 : ℕ)
    (hrow : ∀ x, (v1059 x).toNat = r0 + (x 0).val) (hr : r0 + 15 < 128) :
    TReturns Ix U Lvl defs 𝒱 bd E d i arg8 arg9 q8 q9 fr fe
      (k1_part24_skel i arg2 harg2 arg3 harg3 arg4 harg4 arg5 harg5 arg6 harg6 arg7 harg7 arg8 harg8 arg9 harg9 arg10 harg10 arg11 v11_r0 v33_r1 v33_r2 v11_r3 v33_r4 v33_r5 arg24 (Scf.iv 0#32 1#32 k.val) v35 v1059 v1063)
      ⟨k1_pay43 arg24 v35 v1063 (gcol (blockOf fr) r0 (16 * k.val + 1)) (gcol (blockOf fr) r0 (16 * k.val + 2)) (gcol (blockOf fr) r0 (16 * k.val + 3))
          (gcol (blockOf fr) r0 (16 * k.val + 4)),
        gcol (blockOf fr) r0 (16 * k.val + 5)⟩ := by
  unfold k1_part24_skel
  iterate 5 refine Returns.termAt (lt3 k) _ (by decide) r0 hrow hr ?_
  exact Returns.pure _

theorem part25_returns
    (k : Fin k1_t3_loop.trips) (v35 : Vec F S16 .f32) (v1059 : IVec S16 32) (v1104 : FVec F S16 .f32) (v1108 : Vec F S16 .f32) (r0 : ℕ)
    (hrow : ∀ x, (v1059 x).toNat = r0 + (x 0).val) (hr : r0 + 15 < 128) :
    TReturns Ix U Lvl defs 𝒱 bd E d i arg8 arg9 q8 q9 fr fe
      (k1_part25_skel i arg2 harg2 arg3 harg3 arg4 harg4 arg5 harg5 arg6 harg6 arg7 harg7 arg8 harg8 arg9 harg9 arg10 harg10 arg11 v11_r0 v33_r1 v33_r2 v11_r3 v33_r4 v33_r5 (Scf.iv 0#32 1#32 k.val) v35 v1059 v1104 v1108)
      ⟨k1_pay44 v35 v1104 v1108 (gcol (blockOf fr) r0 (16 * k.val + 6)) (gcol (blockOf fr) r0 (16 * k.val + 7)) (gcol (blockOf fr) r0 (16 * k.val + 8))
          (gcol (blockOf fr) r0 (16 * k.val + 9)),
        gcol (blockOf fr) r0 (16 * k.val + 10)⟩ := by
  unfold k1_part25_skel
  iterate 5 refine Returns.termAt (lt3 k) _ (by decide) r0 hrow hr ?_
  exact Returns.pure _

theorem part26_returns
    (k : Fin k1_t3_loop.trips) (v35 : Vec F S16 .f32) (v1059 : IVec S16 32) (v1149 : FVec F S16 .f32) (v1153 : Vec F S16 .f32) (r0 : ℕ)
    (hrow : ∀ x, (v1059 x).toNat = r0 + (x 0).val) (hr : r0 + 15 < 128) :
    TReturns Ix U Lvl defs 𝒱 bd E d i arg8 arg9 q8 q9 fr fe
      (k1_part26_skel i arg2 harg2 arg3 harg3 arg4 harg4 arg5 harg5 arg6 harg6 arg7 harg7 arg8 harg8 arg9 harg9 arg10 harg10 arg11 v11_r0 v33_r1 v33_r2 v11_r3 v33_r4 v33_r5 (Scf.iv 0#32 1#32 k.val) v35 v1059 v1149 v1153)
      ⟨k1_pay45 v35 v1149 v1153 (gcol (blockOf fr) r0 (16 * k.val + 11)) (gcol (blockOf fr) r0 (16 * k.val + 12)) (gcol (blockOf fr) r0 (16 * k.val + 13))
          (gcol (blockOf fr) r0 (16 * k.val + 14)),
        gcol (blockOf fr) r0 (16 * k.val + 15)⟩ := by
  unfold k1_part26_skel
  iterate 5 refine Returns.termAt (lt3 k) _ (by decide) r0 hrow hr ?_
  exact Returns.pure _

end Cert.HandI

end
-- ==== Proof.ScTripChain.lean ====
import proofs.«204931_g11295763988758_cont_test2_10_9_alg».proof.Proof.Gen.KernelIdeal.Skeleton
import proofs.«204931_g11295763988758_cont_test2_10_9_alg».proof.Proof.ScAcc
import proofs.«204931_g11295763988758_cont_test2_10_9_alg».proof.Proof.ScReturns
import proofs.«204931_g11295763988758_cont_test2_10_9_alg».proof.Proof.ScPartsA
import proofs.«204931_g11295763988758_cont_test2_10_9_alg».proof.Proof.ScPartsB
import proofs.«204931_g11295763988758_cont_test2_10_9_alg».proof.Proof.ScPartsC
import proofs.«204931_g11295763988758_cont_test2_10_9_alg».proof.Proof.ScPartsE
import proofs.«204931_g11295763988758_cont_test2_10_9_alg».proof.Proof.ScPartsF
import proofs.«204931_g11295763988758_cont_test2_10_9_alg».proof.Proof.ScPartsG
import proofs.«204931_g11295763988758_cont_test2_10_9_alg».proof.Proof.ScPartsH
import Idealize.ShloMosaic.Lib.SparseCore.Ops
import Idealize.ShloMosaic.Lib.Tactic

set_option maxHeartbeats 0
set_option maxRecDepth 65536

noncomputable section

namespace Cert.HandI

open Cert.KernelIdeal Cert.KernelIdeal.Gen

open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {Ix : Type} [DecidableEq Ix] {Name : Type} [DecidableEq Name] {U : Type} [URA U] {Lvl : Type} [Preorder Lvl]
variable {defs : Defs nD τ sig (Elt F) Λ₀}

variable {𝒱 : Variants} {bd : Option 𝒱.V} {E : Set Name} {d : Dev nD} {i : grid1.Coords} {arg2 : Memref sig .scVector .hbm S100000x128 .f32} {harg2 : arg2.IsWhole} {arg3 : Memref sig .scVector .hbm S100000x128 .f32} {harg3 : arg3.IsWhole} {arg4 : Memref sig .scVector .hbm S1024x512 .i32} {harg4 : arg4.IsWhole} {arg5 : Memref sig .scVector .hbm S2x1024x128 .f32} {harg5 : arg5.IsWhole} {arg6 : Memref sig .scVector .hbm S2x1024x512 .f32} {harg6 : arg6.IsWhole} {arg7 : Memref sig .scVector .vmem S128 .i32} {harg7 : arg7.IsWhole} {arg8 : Memref sig .scVector .vmem S128x128 .f32} {harg8 : arg8.IsWhole} {arg9 : Memref sig .scVector .vmem S128 .f32} {harg9 : arg9.IsWhole} {arg10 : Memref sig .scVector .vmem S128 .f32} {harg10 : arg10.IsWhole} {arg11 : DmaSems sig S_} {v11_r0 : DmaSems sig S_} {v33_r1 : DmaSems sig S_} {v33_r2 : DmaSems sig S_} {v11_r3 : DmaSems sig S_} {v33_r4 : DmaSems sig S_} {v33_r5 : DmaSems sig S_}
  {q8 q9 : PosShare TreeShare} {fr : Buf (Elt F) ((arg8.access (.whole S128x128)).loc (V d ((i 0).castLE hcore1) ((i 1).castLE hsub1)))} {fe : Buf (Elt F) (arg9.view.loc (V d ((i 0).castLE hcore1) ((i 1).castLE hsub1)))}

-- One trip: its twenty-six stretches in sequence; lane by lane the closing payloads are sixteen more terms of the chain.
theorem trip3_chain (k1_t1 : Fin k1_t1_loop.trips) (c0_i32_10 c1_i32_11 : BitVec 32) (k1_t2 : Fin k1_t2_loop.trips)
    (k : Fin k1_t3_loop.trips) (a0 a1 a2 a3 a4 a5 a6 a7 : FVec F S16 .f32) :
    TReturns Ix U Lvl defs 𝒱 bd E d i arg8 arg9 q8 q9 fr fe
      (k1_t3_body i arg2 harg2 arg3 harg3 arg4 harg4 arg5 harg5 arg6 harg6 arg7 harg7 arg8 harg8 arg9 harg9 arg10 harg10 arg11 v11_r0 v33_r1 v33_r2 v11_r3 v33_r4 v33_r5 (iota .scVector S16 32 [0] iota_S16_d0_w32_scVector) k1_t1 c0_i32_10 c1_i32_11 k1_t2 k (a0, a1, a2, a3, a4, a5, a6, a7))
      (stepAll (blockOf fr) (featOf fe) k.val a0 a1 a2 a3 a4 a5 a6 a7) := by
  refine Returns.congr (v := ?w) ?h1 ?h2
  case h1 =>
    unfold k1_t3_body
    rw [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton]
    refine Returns.bind (part1_returns k _ _ rfl) ?_
    refine Returns.bind (part2_returns k _ _ _ _ 0 (rowA 0#32 (by decide)) (by decide) (colW (lt3 k) (by decide))) ?_
    refine Returns.bind (part3_returns k _ _ _ _ 0 (rowA 0#32 (by decide)) (by decide) (colW (lt3 k) (by decide))) ?_
    refine Returns.bind (part4_returns k _ _ _ _ _ _ 0 rfl (rowA 0#32 (by decide)) (by decide) (colW (lt3 k) (by decide))) ?_
    refine Returns.bind (part5_returns k _ _ _ _ 16 (rowA 16#32 (by decide)) (by decide) rfl) ?_
    refine Returns.bind (part6_returns k _ _ _ _ 16 (rowA 16#32 (by decide)) (by decide) rfl) ?_
    refine Returns.bind (part7_returns k _ _ _ _ _ _ 16 rfl rfl (rowA 16#32 (by decide)) (by decide)) ?_
    refine Returns.bind (part8_returns k _ _ _ _ _ 32 (rowA 32#32 (by decide)) (by decide)) ?_
    refine Returns.bind (part9_returns k _ _ _ _ _ 32 (rowA 32#32 (by decide)) (by decide)) ?_
    refine Returns.bind (part10_returns k _ _ _ _ _ _ 32 rfl (rowA 32#32 (by decide)) (by decide)) ?_
    refine Returns.bind (part11_returns k _ _ _ _ 48 (rowA 48#32 (by decide)) (by decide)) ?_
    refine Returns.bind (part12_returns k _ _ _ _ 48 (rowA 48#32 (by decide)) (by decide)) ?_
    refine Returns.bind (part13_returns k _ _ _ _ 48 (rowA 48#32 (by decide)) (by decide)) ?_
    refine Returns.bind (part14_returns k _ _ _ _ _ rfl) ?_
    refine Returns.bind (part15_returns k _ _ _ _ 64 (rowA 64#32 (by decide)) (by decide) (colW (lt3 k) (by decide))) ?_
    refine Returns.bind (part16_returns k _ _ _ _ 64 (rowA 64#32 (by decide)) (by decide) (colW (lt3 k) (by decide))) ?_
    refine Returns.bind (part17_returns k _ rfl _ _ _ _ _ 64 (rowA 64#32 (by decide)) (by decide) (colW (lt3 k) (by decide))) ?_
    refine Returns.bind (part18_returns k _ _ _ _ rfl 80 (rowA 80#32 (by decide)) (by decide)) ?_
    refine Returns.bind (part19_returns k _ _ _ _ 80 (rowA 80#32 (by decide)) (by decide) rfl) ?_
    refine Returns.bind (part20_returns k _ _ _ _ _ _ 80 rfl (rowA 80#32 (by decide)) (by decide) rfl) ?_
    refine Returns.bind (part21_returns k _ _ _ _ _ 96 (rowA 96#32 (by decide)) (by decide)) ?_
    refine Returns.bind (part22_returns k _ _ _ _ _ 96 (rowA 96#32 (by decide)) (by decide)) ?_
    refine Returns.bind (part23_returns k _ rfl _ _ _ _ _ 96 (rowA 96#32 (by decide)) (by decide)) ?_
    refine Returns.bind (part24_returns k _ _ _ _ 112 (rowA 112#32 (by decide)) (by decide)) ?_
    refine Returns.bind (part25_returns k _ _ _ _ 112 (rowA 112#32 (by decide)) (by decide)) ?_
    refine Returns.bind (part26_returns k _ _ _ _ 112 (rowA 112#32 (by decide)) (by decide)) ?_
    exact Returns.pure (defs := defs) (Ix := Ix) (Name := Name) (U := U) (Lvl := Lvl) _
  case h2 =>
    unfold stepAll
    refine Prod.ext ?_ (Prod.ext ?_ (Prod.ext ?_ (Prod.ext ?_ (Prod.ext ?_ (Prod.ext ?_ (Prod.ext ?_ ?_))))))
    all_goals (funext x; rfl)

end Cert.HandI

end
-- ==== Proof.ScTrip.lean ====
import proofs.«204931_g11295763988758_cont_test2_10_9_alg».proof.Proof.Gen.KernelIdeal.Skeleton
import proofs.«204931_g11295763988758_cont_test2_10_9_alg».proof.Proof.ScAcc
import proofs.«204931_g11295763988758_cont_test2_10_9_alg».proof.Proof.ScReturns
import proofs.«204931_g11295763988758_cont_test2_10_9_alg».proof.Proof.ScTripChain
import Idealize.ShloMosaic.Lib.SparseCore.Ops
import Idealize.ShloMosaic.Lib.Tactic

set_option maxHeartbeats 0
set_option maxRecDepth 65536

noncomputable section

namespace Cert.HandI

open Cert.KernelIdeal Cert.KernelIdeal.Gen

open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {Ix : Type} [DecidableEq Ix] {Name : Type} [DecidableEq Name] {U : Type} [URA U] {Lvl : Type} [Preorder Lvl]
variable {defs : Defs nD τ sig (Elt F) Λ₀}

variable (𝒱 : Variants) (bd : Option 𝒱.V) (E : Set Name) (d : Dev nD) (i : grid1.Coords) (arg2 : Memref sig .scVector .hbm S100000x128 .f32) (harg2 : arg2.IsWhole) (arg3 : Memref sig .scVector .hbm S100000x128 .f32) (harg3 : arg3.IsWhole) (arg4 : Memref sig .scVector .hbm S1024x512 .i32) (harg4 : arg4.IsWhole) (arg5 : Memref sig .scVector .hbm S2x1024x128 .f32) (harg5 : arg5.IsWhole) (arg6 : Memref sig .scVector .hbm S2x1024x512 .f32) (harg6 : arg6.IsWhole) (arg7 : Memref sig .scVector .vmem S128 .i32) (harg7 : arg7.IsWhole) (arg8 : Memref sig .scVector .vmem S128x128 .f32) (harg8 : arg8.IsWhole) (arg9 : Memref sig .scVector .vmem S128 .f32) (harg9 : arg9.IsWhole) (arg10 : Memref sig .scVector .vmem S128 .f32) (harg10 : arg10.IsWhole) (arg11 : DmaSems sig S_) (v11_r0 : DmaSems sig S_) (v33_r1 : DmaSems sig S_) (v33_r2 : DmaSems sig S_) (v11_r3 : DmaSems sig S_) (v33_r4 : DmaSems sig S_) (v33_r5 : DmaSems sig S_) (v3 : IVec S16 32)

-- Eight trips from zero leave, in lane `l` of group `g`, the chain over all 128 columns of row `16 g + l`.
theorem dotsLoop0 (k1_t1 : Fin k1_t1_loop.trips) (c0_i32_10 : BitVec 32) (c1_i32_11 : BitVec 32) (k1_t2 : Fin k1_t2_loop.trips) (hv3 : v3 = iota .scVector S16 32 [0] iota_S16_d0_w32_scVector)
    (q8 q9 : PosShare TreeShare) (fr : Buf (Elt F) ((arg8.access (.whole S128x128)).loc (V d ((i 0).castLE hcore1) ((i 1).castLE hsub1)))) (fe : Buf (Elt F) (arg9.view.loc (V d ((i 0).castLE hcore1) ((i 1).castLE hsub1)))) :
    Returns (defs := defs) (Ix := Ix) (Name := Name) (U := U) (Lvl := Lvl) 𝒱 (V d ((i 0).castLE hcore1) ((i 1).castLE hsub1)) bd E arg8 arg9 q8 q9 fr fe
      (Scf.Loop.for k1_t3_loop k1_t3_ok (k1_pay46 (F := F), k1_pay47 (F := F), k1_pay48 (F := F), k1_pay49 (F := F), k1_pay50 (F := F), k1_pay51 (F := F), k1_pay52 (F := F), k1_pay53 (F := F))
        (k1_t3_body i arg2 harg2 arg3 harg3 arg4 harg4 arg5 harg5 arg6 harg6 arg7 harg7 arg8 harg8 arg9 harg9 arg10 harg10 arg11 v11_r0 v33_r1 v33_r2 v11_r3 v33_r4 v33_r5 v3 k1_t1 c0_i32_10 c1_i32_11 k1_t2))
      (accAt ((arg8.access (.whole S128x128)).read (Elt F) fr) (arg9.view.read (Elt F) fe) 128) := by
  subst hv3
  refine Returns.for _ _ _ (fun n => accAt ((arg8.access (.whole S128x128)).read (Elt F) fr) (arg9.view.read (Elt F) fe) (16 * n)) rfl (fun k => ?_) (by rw [trips3])
  rw [← stepAll_accAt]
  unfold accAt
  exact trip3_chain k1_t1 c0_i32_10 c1_i32_11 k1_t2 k _ _ _ _ _ _ _ _

-- Bank 1's loop is bank 0's: the two loop bodies are the same term.
theorem dotsLoop1 (k1_t4 : Fin k1_t4_loop.trips) (c0_i32_10 : BitVec 32) (c1_i32_11 : BitVec 32) (k1_t5 : Fin k1_t5_loop.trips) (hv3 : v3 = iota .scVector S16 32 [0] iota_S16_d0_w32_scVector)
    (q8 q9 : PosShare TreeShare) (fr : Buf (Elt F) ((arg8.access (.whole S128x128)).loc (V d ((i 0).castLE hcore1) ((i 1).castLE hsub1)))) (fe : Buf (Elt F) (arg9.view.loc (V d ((i 0).castLE hcore1) ((i 1).castLE hsub1)))) :
    Returns (defs := defs) (Ix := Ix) (Name := Name) (U := U) (Lvl := Lvl) 𝒱 (V d ((i 0).castLE hcore1) ((i 1).castLE hsub1)) bd E arg8 arg9 q8 q9 fr fe
      (Scf.Loop.for k1_t6_loop k1_t6_ok (k1_pay100 (F := F), k1_pay101 (F := F), k1_pay102 (F := F), k1_pay103 (F := F), k1_pay104 (F := F), k1_pay105 (F := F), k1_pay106 (F := F), k1_pay107 (F := F))
        (k1_t6_body i arg2 harg2 arg3 harg3 arg4 harg4 arg5 harg5 arg6 harg6 arg7 harg7 arg8 harg8 arg9 harg9 arg10 harg10 arg11 v11_r0 v33_r1 v33_r2 v11_r3 v33_r4 v33_r5 v3 k1_t4 c0_i32_10 c1_i32_11 k1_t5))
      (accAt ((arg8.access (.whole S128x128)).read (Elt F) fr) (arg9.view.read (Elt F) fe) 128) :=
  dotsLoop0 𝒱 bd E d i arg2 harg2 arg3 harg3 arg4 harg4 arg5 harg5 arg6 harg6 arg7 harg7 arg8 harg8 arg9 harg9 arg10 harg10 arg11 v11_r0 v33_r1 v33_r2 v11_r3 v33_r4 v33_r5 v3 k1_t4 c0_i32_10 c1_i32_11 k1_t5 hv3 q8 q9 fr fe

end Cert.HandI

end
-- ==== Proof.ScVal.lean ====
import proofs.«204931_g11295763988758_cont_test2_10_9_alg».proof.Proof.ScIdx
import proofs.«204931_g11295763988758_cont_test2_10_9_alg».proof.Proof.ScDots
import proofs.«204931_g11295763988758_cont_test2_10_9_alg».proof.Proof.ScAcc
import Idealize.ShloMosaic.Lib.Writes

noncomputable section

namespace Cert.HandI

open Cert.KernelIdeal Cert.KernelIdeal.Gen

open Idealize.ShloMosaic

variable {F : FTy → Type} [FloatOps F]

def rowChain (R : Vec F S128x128 .f32) (e : Vec F S128 .f32) (r : ℕ) : F .f32 :=
  Fin.foldl 128 (fun a (dd : Fin 128) => fma1 a (R (rcIdx r dd.val)) (e (eIdx dd.val))) (Scalar.ofBits .f32 0x00000000#32)

theorem accG_eq_rowChain (R : Vec F S128x128 .f32) (e : Vec F S128 .f32) (r0 : ℕ) (x : S16.Idx) :
    accG R e r0 128 x = rowChain R e (r0 + (x 0).val) :=
  accG_apply R e r0 x

abbrev accPieces (R : Vec F S128x128 .f32) (e : Vec F S128 .f32) : List (View.Piece (Elt F) S128 .f32) :=
  [⟨Rect.unit ![112] ![16] inb_S128_S16_112, accG R e 112 128⟩,
    ⟨Rect.unit ![96] ![16] inb_S128_S16_96, accG R e 96 128⟩,
    ⟨Rect.unit ![80] ![16] inb_S128_S16_80, accG R e 80 128⟩,
    ⟨Rect.unit ![64] S16.size inb_S128_S16_64, accG R e 64 128⟩,
    ⟨Rect.unit ![48] S16.size inb_S128_S16_48, accG R e 48 128⟩,
    ⟨Rect.unit ![32] S16.size inb_S128_S16_32, accG R e 32 128⟩,
    ⟨Rect.unit ![16] S16.size inb_S128_S16_16, accG R e 16 128⟩,
    ⟨Rect.unit ![0] S16.size inb_S128_S16_0, accG R e 0 128⟩]

theorem accPieces_cover (R : Vec F S128x128 .f32) (e : Vec F S128 .f32) (y : S128.Idx) :
    ∃ p ∈ accPieces R e, y ∈ p.1.set :=
  View.cover_of_tiled (accPieces R e) S16.size (by rfl) y

theorem accPieces_chain (R : Vec F S128x128 .f32) (e : Vec F S128 .f32) :
    ∀ p ∈ accPieces R e, ∀ x : p.1.shape.Idx, p.2 x = (fun y : S128.Idx => rowChain R e (y 0).val) (p.1.emb x) := by
  intro p hp
  simp only [accPieces, List.mem_cons, List.not_mem_nil, or_false] at hp
  rcases hp with rfl | rfl | rfl | rfl | rfl | rfl | rfl | rfl
  · intro x; show accG R e 112 128 x = rowChain R e (112 + 1 * (x 0).val); rw [accG_eq_rowChain, Nat.one_mul]
  · intro x; show accG R e 96 128 x = rowChain R e (96 + 1 * (x 0).val); rw [accG_eq_rowChain, Nat.one_mul]
  · intro x; show accG R e 80 128 x = rowChain R e (80 + 1 * (x 0).val); rw [accG_eq_rowChain, Nat.one_mul]
  · intro x; show accG R e 64 128 x = rowChain R e (64 + 1 * (x 0).val); rw [accG_eq_rowChain, Nat.one_mul]
  · intro x; show accG R e 48 128 x = rowChain R e (48 + 1 * (x 0).val); rw [accG_eq_rowChain, Nat.one_mul]
  · intro x; show accG R e 32 128 x = rowChain R e (32 + 1 * (x 0).val); rw [accG_eq_rowChain, Nat.one_mul]
  · intro x; show accG R e 16 128 x = rowChain R e (16 + 1 * (x 0).val); rw [accG_eq_rowChain, Nat.one_mul]
  · intro x; show accG R e 0 128 x = rowChain R e (0 + 1 * (x 0).val); rw [accG_eq_rowChain, Nat.one_mul]

theorem scratch_read (R : Vec F S128x128 .f32) (e : Vec F S128 .f32)
    (fd : (Memref.whole cc1_scratch3 : Memref sig .scVector .vmem S128 .f32).view.ty.Contents (Elt F)) (y : S128.Idx) :
    (Memref.whole cc1_scratch3 : Memref sig .scVector .vmem S128 .f32).view.read (Elt F)
        ((Memref.whole cc1_scratch3 : Memref sig .scVector .vmem S128 .f32).view.writes (Elt F) fd (accPieces R e)) y
      = rowChain R e (y 0).val :=
  View.read_writes_apply_of_pieces _ fd (fun y : S128.Idx => rowChain R e (y 0).val) (accPieces R e) (accPieces_chain R e) y
    (accPieces_cover R e y)

theorem piece_value0 (MT MS : FVec F S100000x128 .f32) (I : IVec S1024x512 32) (E : FVec F S2x1024x128 .f32)
    (hI : ∀ j, (I j).toNat < 100000) (L : grid1.Coords) (t1 : Fin k1_t1_loop.trips) (t2 : Fin k1_t2_loop.trips)
    (idxv : S128.Idx → Elt F .i32)
    (hidx : ∀ j : Fin 128, idxv (eIdx j.val)
      = I (ix2 (⟨rowN L t1.val, rowN_lt L (lt1 t1)⟩ : Fin 1024)
          (⟨128 * t2.val + j.val, by have := lt2 t2; have := j.isLt; omega⟩ : Fin 512)))
    (hn : S128.numel = S128x128.size gathers_S100000x128_S128x128.axis')
    (hin : ∀ x, (idxv x).toNat < S100000x128.size gathers_S100000x128_S128x128.axis)
    (R : Vec F S128x128 .f32) (hR : R = SparseCore.gatherPayload gathers_S100000x128_S128x128 MT (SparseCore.rows idxv hn hin))
    (e : Vec F S128 .f32)
    (he : ∀ dd : Fin 128, e (eIdx dd.val) = E (ix3 (0 : Fin 2) (⟨rowN L t1.val, rowN_lt L (lt1 t1)⟩ : Fin 1024) dd))
    (fd : (Memref.whole cc1_scratch3 : Memref sig .scVector .vmem S128 .f32).view.ty.Contents (Elt F))
    (fo : (oPc0 L t1 t2).view.ty.Contents (Elt F)) :
    ∀ x ∈ (oPc0 L t1 t2).view.set,
      (oPc0 L t1 t2).view.writes (Elt F) fo
          [⟨Rect.whole S128,
            (Memref.whole cc1_scratch3 : Memref sig .scVector .vmem S128 .f32).view.read (Elt F)
              ((Memref.whole cc1_scratch3 : Memref sig .scVector .vmem S128 .f32).view.writes (Elt F) fd
                [⟨Rect.unit ![112] ![16] inb_S128_S16_112, accG R e 112 128⟩,
                  ⟨Rect.unit ![96] ![16] inb_S128_S16_96, accG R e 96 128⟩,
                  ⟨Rect.unit ![80] ![16] inb_S128_S16_80, accG R e 80 128⟩,
                  ⟨Rect.unit ![64] S16.size inb_S128_S16_64, accG R e 64 128⟩,
                  ⟨Rect.unit ![48] S16.size inb_S128_S16_48, accG R e 48 128⟩,
                  ⟨Rect.unit ![32] S16.size inb_S128_S16_32, accG R e 32 128⟩,
                  ⟨Rect.unit ![16] S16.size inb_S128_S16_16, accG R e 16 128⟩,
                  ⟨Rect.unit ![0] S16.size inb_S128_S16_0, accG R e 0 128⟩])⟩] x
        = dotsK MT MS I E x := by
  intro x hx
  obtain ⟨j, rfl⟩ := mem_oPc0_exists L t1 t2 x hx
  have hj : ((eIdx j.val : S128.Idx) 0).val = j.val := Nat.mod_eq_of_lt j.isLt
  have h1 := View.read_writes_cons_emb (oPc0 L t1 t2).view fo (Rect.whole S128)
    ((Memref.whole cc1_scratch3 : Memref sig .scVector .vmem S128 .f32).view.read (Elt F)
      ((Memref.whole cc1_scratch3 : Memref sig .scVector .vmem S128 .f32).view.writes (Elt F) fd (accPieces R e))) []
    (eIdx j.val)
  rw [Rect.emb_whole_apply] at h1
  refine (h1.trans ?_)
  rw [scratch_read, hj, emb_oPc0]
  show rowChain R e j.val
    = dotAt (if ((0 : Fin 2)).val = 0 then MT else MS) E
        (I (ix2 (⟨rowN L t1.val, rowN_lt L (lt1 t1)⟩ : Fin 1024)
          (⟨128 * t2.val + j.val, by have := lt2 t2; have := j.isLt; omega⟩ : Fin 512))).toNat (0 : Fin 2)
        (⟨rowN L t1.val, rowN_lt L (lt1 t1)⟩ : Fin 1024)
  rw [if_pos (show ((0 : Fin 2)).val = 0 from rfl)]
  unfold rowChain dotAt
  refine congrArg (fun f => Fin.foldl 128 f (Scalar.ofBits .f32 0x00000000#32)) (funext fun a => funext fun dd => ?_)
  show fma1 a (R (rcIdx j.val dd.val)) (e (eIdx dd.val)) = fma1 a _ _
  rw [he dd, hR, gather_at MT idxv hn hin j dd, tblRow_of_lt (hI _)]
  exact congrArg (fun k => fma1 a (MT (ix2 k dd)) _) (Fin.ext (congrArg BitVec.toNat (hidx j)))

theorem piece_value1 (MT MS : FVec F S100000x128 .f32) (I : IVec S1024x512 32) (E : FVec F S2x1024x128 .f32)
    (hI : ∀ j, (I j).toNat < 100000) (L : grid1.Coords) (t4 : Fin k1_t4_loop.trips) (t5 : Fin k1_t5_loop.trips)
    (idxv : S128.Idx → Elt F .i32)
    (hidx : ∀ j : Fin 128, idxv (eIdx j.val)
      = I (ix2 (⟨rowN L t4.val, rowN_lt L (lt4 t4)⟩ : Fin 1024)
          (⟨128 * t5.val + j.val, by have := lt5 t5; have := j.isLt; omega⟩ : Fin 512)))
    (hn : S128.numel = S128x128.size gathers_S100000x128_S128x128.axis')
    (hin : ∀ x, (idxv x).toNat < S100000x128.size gathers_S100000x128_S128x128.axis)
    (R : Vec F S128x128 .f32) (hR : R = SparseCore.gatherPayload gathers_S100000x128_S128x128 MS (SparseCore.rows idxv hn hin))
    (e : Vec F S128 .f32)
    (he : ∀ dd : Fin 128, e (eIdx dd.val) = E (ix3 (1 : Fin 2) (⟨rowN L t4.val, rowN_lt L (lt4 t4)⟩ : Fin 1024) dd))
    (fd : (Memref.whole cc1_scratch3 : Memref sig .scVector .vmem S128 .f32).view.ty.Contents (Elt F))
    (fo : (oPc1 L t4 t5).view.ty.Contents (Elt F)) :
    ∀ x ∈ (oPc1 L t4 t5).view.set,
      (oPc1 L t4 t5).view.writes (Elt F) fo
          [⟨Rect.whole S128,
            (Memref.whole cc1_scratch3 : Memref sig .scVector .vmem S128 .f32).view.read (Elt F)
              ((Memref.whole cc1_scratch3 : Memref sig .scVector .vmem S128 .f32).view.writes (Elt F) fd
                [⟨Rect.unit ![112] ![16] inb_S128_S16_112, accG R e 112 128⟩,
                  ⟨Rect.unit ![96] ![16] inb_S128_S16_96, accG R e 96 128⟩,
                  ⟨Rect.unit ![80] ![16] inb_S128_S16_80, accG R e 80 128⟩,
                  ⟨Rect.unit ![64] S16.size inb_S128_S16_64, accG R e 64 128⟩,
                  ⟨Rect.unit ![48] S16.size inb_S128_S16_48, accG R e 48 128⟩,
                  ⟨Rect.unit ![32] S16.size inb_S128_S16_32, accG R e 32 128⟩,
                  ⟨Rect.unit ![16] S16.size inb_S128_S16_16, accG R e 16 128⟩,
                  ⟨Rect.unit ![0] S16.size inb_S128_S16_0, accG R e 0 128⟩])⟩] x
        = dotsK MT MS I E x := by
  intro x hx
  obtain ⟨j, rfl⟩ := mem_oPc1_exists L t4 t5 x hx
  have hj : ((eIdx j.val : S128.Idx) 0).val = j.val := Nat.mod_eq_of_lt j.isLt
  have h1 := View.read_writes_cons_emb (oPc1 L t4 t5).view fo (Rect.whole S128)
    ((Memref.whole cc1_scratch3 : Memref sig .scVector .vmem S128 .f32).view.read (Elt F)
      ((Memref.whole cc1_scratch3 : Memref sig .scVector .vmem S128 .f32).view.writes (Elt F) fd (accPieces R e))) []
    (eIdx j.val)
  rw [Rect.emb_whole_apply] at h1
  refine (h1.trans ?_)
  rw [scratch_read, hj, emb_oPc1]
  show rowChain R e j.val
    = dotAt (if ((1 : Fin 2)).val = 0 then MT else MS) E
        (I (ix2 (⟨rowN L t4.val, rowN_lt L (lt4 t4)⟩ : Fin 1024)
          (⟨128 * t5.val + j.val, by have := lt5 t5; have := j.isLt; omega⟩ : Fin 512))).toNat (1 : Fin 2)
        (⟨rowN L t4.val, rowN_lt L (lt4 t4)⟩ : Fin 1024)
  rw [if_neg (show ¬(((1 : Fin 2)).val = 0) by decide)]
  unfold rowChain dotAt
  refine congrArg (fun f => Fin.foldl 128 f (Scalar.ofBits .f32 0x00000000#32)) (funext fun a => funext fun dd => ?_)
  show fma1 a (R (rcIdx j.val dd.val)) (e (eIdx dd.val)) = fma1 a _ _
  rw [he dd, hR, gather_at MS idxv hn hin j dd, tblRow_of_lt (hI _)]
  exact congrArg (fun k => fma1 a (MS (ix2 k dd)) _) (Fin.ext (congrArg BitVec.toNat (hidx j)))

end Cert.HandI

end
-- ==== Proof.ScChunkB0.lean ====
import proofs.«204931_g11295763988758_cont_test2_10_9_alg».proof.Proof.ScInvB0
import proofs.«204931_g11295763988758_cont_test2_10_9_alg».proof.Proof.ScTrip
import proofs.«204931_g11295763988758_cont_test2_10_9_alg».proof.Proof.ScVal
import Idealize.ShloMosaic.Lib.SparseCore.Stream
import Idealize.ShloMosaic.Lib.Writes
import Idealize.ShloMosaic.Lib.Tactic

noncomputable section

namespace Cert.HandI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ) (I : IVec S1024x512 32) (E : FVec F S2x1024x128 .f32)

section Bank

variable (d : Dev nD) (L : grid1.Coords)

theorem read_tblB0 (f : Buf (Elt F) (tblLoc0 d)) :
    ((tblV0).slice (Rect.unit (s := S100000x128) ![0, 0] S100000x128.size inb_S100000x128_S100000x128_0_0) (fun _ => rfl)).view.read (Elt F) f = f := by
  funext x
  rw [View.read_apply]
  have hx : ((tblV0).slice (Rect.unit (s := S100000x128) ![0, 0] S100000x128.size inb_S100000x128_S100000x128_0_0) (fun _ => rfl)).view.emb x = x := by
    funext a; apply Fin.ext
    show ((Rect.unit (s := S100000x128) ![0, 0] S100000x128.size inb_S100000x128_S100000x128_0_0).emb x a : ℕ) = x a
    rw [Rect.emb_apply]
    fin_cases a <;> simp
  rw [hx]; rfl

theorem rows_readB0 (fr : Buf (Elt F) ((sRows).view.loc (thr d L))) (idxv : S128.Idx → Elt F .i32)
    (hn : S128.numel = S128x128.size gathers_S100000x128_S128x128.axis') (hin : ∀ x, (idxv x).toNat < S100000x128.size gathers_S100000x128_S128x128.axis) :
    View.read (Elt F) (sRows.access (Rect.whole S128x128)) (sRows.view.writes (Elt F) fr [⟨Rect.whole S128x128,
      SparseCore.gatherPayload gathers_S100000x128_S128x128 (View.read (Elt F) ((tblV0).slice (Rect.unit (s := S100000x128) ![0, 0] S100000x128.size inb_S100000x128_S100000x128_0_0) (fun _ => rfl)).view (m (tblLoc0 d))) (SparseCore.rows idxv hn hin)⟩])
      = SparseCore.gatherPayload gathers_S100000x128_S128x128 (m (tblLoc0 d)) (SparseCore.rows idxv hn hin) := by
  refine (Memref.read_access_whole (Elt F) cc1_scratch1 _).trans ?_
  rw [read_tblB0]
  exact Memref.write_access_whole_univ (Elt F) cc1_scratch1 fr _

set_option maxHeartbeats 1000000 in

theorem chunkB0 (hI : ∀ j, (I j).toNat < 100000) (q : PosShare TreeShare) (O : CellTallies nD τ sig (HIx 1)) (W : Waits sig (HIx 1))
    (t1 : Fin k1_t1_loop.trips) (t2 : Fin k1_t2_loop.trips) (acc : BitVec 32) :
    invcB0 m I E d L q O W t1 t2.val acc
      ⊢ wp frame (wpE (defs₀ (F := F)) 𝒱₀ (thr d L) none) Set.univ (prog_t2 (F := F) L t1 t2 acc) (invcB0 m I E d L q O W t1 (t2.val + 1)) := by
  unfold prog_t2 k1_t2_body
  simp only [k1_part27_eq_skeleton]; unfold k1_part27_skel
  unfold invcB0
  rw [upto_take]
  iintro ⟨Hmw, Ht, Hi, ⟨%fi, Hsi⟩, ⟨%fr, Hsr⟩, ⟨%fe, %hfe, Hse⟩, ⟨%fd, Hsd⟩, HgA, Hg1, Hg2, ⟨⟨%fo, Ho⟩, Hrest⟩, %W', %hW', HO⟩

  have hin : ∀ (fi' : Buf (Elt F) ((sIdx).view.loc (thr d L))) (x : S128.Idx),
      (View.read (Elt F) sIdx.view (View.write (Elt F) sIdx.view fi' ((iRow0 L t1 t2).view.read (Elt F) (I : Buf (Elt F) (iLoc d))) Finset.univ) x).toNat < 100000 := by
    intro fi' x
    rw [View.write_whole_univ]
    simp only [Memref.view_whole, View.read_whole]
    rw [show ∀ j, (iRow0 L t1 t2).view.read (Elt F) (I : Buf (Elt F) (iLoc d)) j = (I : Buf (Elt F) (iLoc d)) ((iRow0 L t1 t2).view.emb j) from
      fun j => (View.read_apply _ _).trans (cast_eq _ _)]
    exact hI _
  sl_exec

  rw [wp_bind, wp_bind]
  iapply (dotsLoop0 (F := F) (defs := defs₀ (F := F)) (Ix := HIx 1) (Name := ℕ) (U := UU) (Lvl := ℕ) 𝒱₀ none Set.univ d L
    tV (Memref.isWhole_whole _) sV (Memref.isWhole_whole _) iV (Memref.isWhole_whole _) eV (Memref.isWhole_whole _) oV (Memref.isWhole_whole _)
    sIdx (Memref.isWhole_whole _) sRows (Memref.isWhole_whole _) sEmb (Memref.isWhole_whole _) sDots (Memref.isWhole_whole _)
    cc1_scratch4 cc1_scoped0 cc1_scoped1 cc1_scoped2 cc1_scoped3 cc1_scoped4 cc1_scoped5 lanes t1 (0#32) (1#32) t2 rfl fullShare fullShare _ fe _)
  isplitl [Hsr Hse]
  · isplitl [Hsr]; · iexact Hsr
    iexact Hse
  iintro ⟨Hsr, Hse⟩
  sl_exec
  sl_step

  have hidx : ∀ j : Fin 128, (View.read (Elt F) sIdx.view (View.write (Elt F) sIdx.view fi ((iRow0 L t1 t2).view.read (Elt F) (I : Buf (Elt F) (iLoc d))) Finset.univ)) (eIdx j.val)
      = I (ix2 (⟨rowN L t1.val, rowN_lt L (lt1 t1)⟩ : Fin 1024) (⟨128 * t2.val + j.val, by have := lt2 t2; have := j.isLt; omega⟩ : Fin 512)) := by
    intro j
    rw [View.write_whole_univ]
    simp only [Memref.view_whole, View.read_whole]
    rw [View.read_apply, emb_iRow0]
    rfl
  have e1 : chunkB0.sl.gather1 m I d L t1 t2 fi hin
      = SparseCore.gatherPayload gathers_S100000x128_S128x128
          (View.read (Elt F) ((tblV0).slice (Rect.unit (s := S100000x128) ![0, 0] S100000x128.size inb_S100000x128_S100000x128_0_0) (fun _ => rfl)).view (m (tblLoc0 d)))
          (SparseCore.rows (View.read (Elt F) sIdx.view (View.write (Elt F) sIdx.view fi ((iRow0 L t1 t2).view.read (Elt F) (I : Buf (Elt F) (iLoc d))) Finset.univ)) (by decide) (fun x => hin fi x)) := rfl
  have hR0 : (View.read (Elt F) (sRows.access (Rect.whole S128x128)) (sRows.view.writes (Elt F) fr [⟨Rect.whole S128x128, chunkB0.sl.gather1 m I d L t1 t2 fi hin⟩]))
      = SparseCore.gatherPayload gathers_S100000x128_S128x128 (m (tblLoc0 d)) (SparseCore.rows (View.read (Elt F) sIdx.view (View.write (Elt F) sIdx.view fi ((iRow0 L t1 t2).view.read (Elt F) (I : Buf (Elt F) (iLoc d))) Finset.univ)) (by decide) (fun x => hin fi x)) := by
    rw [e1]; exact rows_readB0 m d L fr _ _ _
  have e2 : chunkB0.sl.Hsd_8 m I d L t1 t2 fi fr fe hin
      = [⟨Rect.unit ![112] ![16] inb_S128_S16_112, accG (View.read (Elt F) (sRows.access (Rect.whole S128x128)) (sRows.view.writes (Elt F) fr [⟨Rect.whole S128x128, chunkB0.sl.gather1 m I d L t1 t2 fi hin⟩])) (View.read (Elt F) sEmb.view fe) 112 128⟩, ⟨Rect.unit ![96] ![16] inb_S128_S16_96, accG (View.read (Elt F) (sRows.access (Rect.whole S128x128)) (sRows.view.writes (Elt F) fr [⟨Rect.whole S128x128, chunkB0.sl.gather1 m I d L t1 t2 fi hin⟩])) (View.read (Elt F) sEmb.view fe) 96 128⟩,
        ⟨Rect.unit ![80] ![16] inb_S128_S16_80, accG (View.read (Elt F) (sRows.access (Rect.whole S128x128)) (sRows.view.writes (Elt F) fr [⟨Rect.whole S128x128, chunkB0.sl.gather1 m I d L t1 t2 fi hin⟩])) (View.read (Elt F) sEmb.view fe) 80 128⟩, ⟨Rect.unit ![64] S16.size inb_S128_S16_64, accG (View.read (Elt F) (sRows.access (Rect.whole S128x128)) (sRows.view.writes (Elt F) fr [⟨Rect.whole S128x128, chunkB0.sl.gather1 m I d L t1 t2 fi hin⟩])) (View.read (Elt F) sEmb.view fe) 64 128⟩,
        ⟨Rect.unit ![48] S16.size inb_S128_S16_48, accG (View.read (Elt F) (sRows.access (Rect.whole S128x128)) (sRows.view.writes (Elt F) fr [⟨Rect.whole S128x128, chunkB0.sl.gather1 m I d L t1 t2 fi hin⟩])) (View.read (Elt F) sEmb.view fe) 48 128⟩, ⟨Rect.unit ![32] S16.size inb_S128_S16_32, accG (View.read (Elt F) (sRows.access (Rect.whole S128x128)) (sRows.view.writes (Elt F) fr [⟨Rect.whole S128x128, chunkB0.sl.gather1 m I d L t1 t2 fi hin⟩])) (View.read (Elt F) sEmb.view fe) 32 128⟩,
        ⟨Rect.unit ![16] S16.size inb_S128_S16_16, accG (View.read (Elt F) (sRows.access (Rect.whole S128x128)) (sRows.view.writes (Elt F) fr [⟨Rect.whole S128x128, chunkB0.sl.gather1 m I d L t1 t2 fi hin⟩])) (View.read (Elt F) sEmb.view fe) 16 128⟩, ⟨Rect.unit ![0] S16.size inb_S128_S16_0, accG (View.read (Elt F) (sRows.access (Rect.whole S128x128)) (sRows.view.writes (Elt F) fr [⟨Rect.whole S128x128, chunkB0.sl.gather1 m I d L t1 t2 fi hin⟩])) (View.read (Elt F) sEmb.view fe) 0 128⟩] := rfl
  have e3 : chunkB0.sl.dma16 m I d L t1 t2 fi fr fe fd hin
      = View.read (Elt F) sDots.view (sDots.view.writes (Elt F) fd (chunkB0.sl.Hsd_8 m I d L t1 t2 fi fr fe hin)) := rfl
  have hval : ∀ x ∈ (oPc0 L t1 t2).view.set,
      (oPc0 L t1 t2).view.writes (Elt F) fo [⟨Rect.whole S128, chunkB0.sl.dma16 m I d L t1 t2 fi fr fe fd hin⟩] x = (dotsM m I E d : Buf (Elt F) (oLoc d)) x := by
    rw [e3, e2]
    exact piece_value0 (F := F) (m (tLoc d)) (m (sLoc d)) I E hI L t1 t2 (View.read (Elt F) sIdx.view (View.write (Elt F) sIdx.view fi ((iRow0 L t1 t2).view.read (Elt F) (I : Buf (Elt F) (iLoc d))) Finset.univ)) hidx (by decide) (fun x => hin fi x)
      (View.read (Elt F) (sRows.access (Rect.whole S128x128)) (sRows.view.writes (Elt F) fr [⟨Rect.whole S128x128, chunkB0.sl.gather1 m I d L t1 t2 fi hin⟩])) hR0 (View.read (Elt F) sEmb.view fe) (fun dd => hfe dd) fd fo
  rw [upto_put]
  isplitl [Hmw]; · iexact Hmw
  isplitl [Ht]; · iexact Ht
  isplitl [Hi]; · iexact Hi
  isplitl [Hsi]; · iexists _; iexact Hsi
  isplitl [Hsr]; · iexists _; iexact Hsr
  isplitl [Hse]
  · iexists fe; isplitr
    · ipureintro; exact hfe
    · iexact Hse
  isplitl [Hsd]; · iexists _; iexact Hsd
  isplitl [HgA]; · iexact HgA
  isplitl [Hg1]; · iexact Hg1
  isplitl [Hg2]; · iexact Hg2
  isplitl [Ho Hrest]
  · isplitl [Ho]
    · iapply (Entails.of_eq (pointsTo_congr hval)); iexact Ho
    · iexact Hrest
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Bank

end Cert.HandI

end
-- ==== Proof.ScChunkB1.lean ====
import proofs.«204931_g11295763988758_cont_test2_10_9_alg».proof.Proof.ScInvB1
import proofs.«204931_g11295763988758_cont_test2_10_9_alg».proof.Proof.ScTrip
import proofs.«204931_g11295763988758_cont_test2_10_9_alg».proof.Proof.ScVal
import Idealize.ShloMosaic.Lib.SparseCore.Stream
import Idealize.ShloMosaic.Lib.Writes
import Idealize.ShloMosaic.Lib.Tactic

noncomputable section

namespace Cert.HandI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ) (I : IVec S1024x512 32) (E : FVec F S2x1024x128 .f32)

section Bank

variable (d : Dev nD) (L : grid1.Coords)

theorem read_tblB1 (f : Buf (Elt F) (tblLoc1 d)) :
    ((tblV1).slice (Rect.unit (s := S100000x128) ![0, 0] S100000x128.size inb_S100000x128_S100000x128_0_0) (fun _ => rfl)).view.read (Elt F) f = f := by
  funext x
  rw [View.read_apply]
  have hx : ((tblV1).slice (Rect.unit (s := S100000x128) ![0, 0] S100000x128.size inb_S100000x128_S100000x128_0_0) (fun _ => rfl)).view.emb x = x := by
    funext a; apply Fin.ext
    show ((Rect.unit (s := S100000x128) ![0, 0] S100000x128.size inb_S100000x128_S100000x128_0_0).emb x a : ℕ) = x a
    rw [Rect.emb_apply]
    fin_cases a <;> simp
  rw [hx]; rfl

theorem rows_readB1 (fr : Buf (Elt F) ((sRows).view.loc (thr d L))) (idxv : S128.Idx → Elt F .i32)
    (hn : S128.numel = S128x128.size gathers_S100000x128_S128x128.axis') (hin : ∀ x, (idxv x).toNat < S100000x128.size gathers_S100000x128_S128x128.axis) :
    View.read (Elt F) (sRows.access (Rect.whole S128x128)) (sRows.view.writes (Elt F) fr [⟨Rect.whole S128x128,
      SparseCore.gatherPayload gathers_S100000x128_S128x128 (View.read (Elt F) ((tblV1).slice (Rect.unit (s := S100000x128) ![0, 0] S100000x128.size inb_S100000x128_S100000x128_0_0) (fun _ => rfl)).view (m (tblLoc1 d))) (SparseCore.rows idxv hn hin)⟩])
      = SparseCore.gatherPayload gathers_S100000x128_S128x128 (m (tblLoc1 d)) (SparseCore.rows idxv hn hin) := by
  refine (Memref.read_access_whole (Elt F) cc1_scratch1 _).trans ?_
  rw [read_tblB1]
  exact Memref.write_access_whole_univ (Elt F) cc1_scratch1 fr _

set_option maxHeartbeats 1000000 in

theorem chunkB1 (hI : ∀ j, (I j).toNat < 100000) (q : PosShare TreeShare) (O : CellTallies nD τ sig (HIx 1)) (W : Waits sig (HIx 1))
    (t1 : Fin k1_t4_loop.trips) (t2 : Fin k1_t5_loop.trips) (acc : BitVec 32) :
    invcB1 m I E d L q O W t1 t2.val acc
      ⊢ wp frame (wpE (defs₀ (F := F)) 𝒱₀ (thr d L) none) Set.univ (prog_t5 (F := F) L t1 t2 acc) (invcB1 m I E d L q O W t1 (t2.val + 1)) := by
  unfold prog_t5 k1_t5_body
  simp only [k1_part54_eq_skeleton]; unfold k1_part54_skel
  unfold invcB1
  rw [upto_take]
  iintro ⟨Hmw, Ht, Hi, ⟨%fi, Hsi⟩, ⟨%fr, Hsr⟩, ⟨%fe, %hfe, Hse⟩, ⟨%fd, Hsd⟩, HgA, Hg1, Hg2, ⟨⟨%fo, Ho⟩, Hrest⟩, %W', %hW', HO⟩

  have hin : ∀ (fi' : Buf (Elt F) ((sIdx).view.loc (thr d L))) (x : S128.Idx),
      (View.read (Elt F) sIdx.view (View.write (Elt F) sIdx.view fi' ((iRow1 L t1 t2).view.read (Elt F) (I : Buf (Elt F) (iLoc d))) Finset.univ) x).toNat < 100000 := by
    intro fi' x
    rw [View.write_whole_univ]
    simp only [Memref.view_whole, View.read_whole]
    rw [show ∀ j, (iRow1 L t1 t2).view.read (Elt F) (I : Buf (Elt F) (iLoc d)) j = (I : Buf (Elt F) (iLoc d)) ((iRow1 L t1 t2).view.emb j) from
      fun j => (View.read_apply _ _).trans (cast_eq _ _)]
    exact hI _
  sl_exec

  rw [wp_bind, wp_bind]
  iapply (dotsLoop1 (F := F) (defs := defs₀ (F := F)) (Ix := HIx 1) (Name := ℕ) (U := UU) (Lvl := ℕ) 𝒱₀ none Set.univ d L
    tV (Memref.isWhole_whole _) sV (Memref.isWhole_whole _) iV (Memref.isWhole_whole _) eV (Memref.isWhole_whole _) oV (Memref.isWhole_whole _)
    sIdx (Memref.isWhole_whole _) sRows (Memref.isWhole_whole _) sEmb (Memref.isWhole_whole _) sDots (Memref.isWhole_whole _)
    cc1_scratch4 cc1_scoped3 cc1_scoped4 cc1_scoped5 cc1_scoped3 cc1_scoped4 cc1_scoped5 lanes t1 (0#32) (1#32) t2 rfl fullShare fullShare _ fe _)
  isplitl [Hsr Hse]
  · isplitl [Hsr]; · iexact Hsr
    iexact Hse
  iintro ⟨Hsr, Hse⟩
  sl_exec
  sl_step

  have hidx : ∀ j : Fin 128, (View.read (Elt F) sIdx.view (View.write (Elt F) sIdx.view fi ((iRow1 L t1 t2).view.read (Elt F) (I : Buf (Elt F) (iLoc d))) Finset.univ)) (eIdx j.val)
      = I (ix2 (⟨rowN L t1.val, rowN_lt L (lt4 t1)⟩ : Fin 1024) (⟨128 * t2.val + j.val, by have := lt5 t2; have := j.isLt; omega⟩ : Fin 512)) := by
    intro j
    rw [View.write_whole_univ]
    simp only [Memref.view_whole, View.read_whole]
    rw [View.read_apply, emb_iRow1]
    rfl
  have e1 : chunkB1.sl.gather1 m I d L t1 t2 fi hin
      = SparseCore.gatherPayload gathers_S100000x128_S128x128
          (View.read (Elt F) ((tblV1).slice (Rect.unit (s := S100000x128) ![0, 0] S100000x128.size inb_S100000x128_S100000x128_0_0) (fun _ => rfl)).view (m (tblLoc1 d)))
          (SparseCore.rows (View.read (Elt F) sIdx.view (View.write (Elt F) sIdx.view fi ((iRow1 L t1 t2).view.read (Elt F) (I : Buf (Elt F) (iLoc d))) Finset.univ)) (by decide) (fun x => hin fi x)) := rfl
  have hR0 : (View.read (Elt F) (sRows.access (Rect.whole S128x128)) (sRows.view.writes (Elt F) fr [⟨Rect.whole S128x128, chunkB1.sl.gather1 m I d L t1 t2 fi hin⟩]))
      = SparseCore.gatherPayload gathers_S100000x128_S128x128 (m (tblLoc1 d)) (SparseCore.rows (View.read (Elt F) sIdx.view (View.write (Elt F) sIdx.view fi ((iRow1 L t1 t2).view.read (Elt F) (I : Buf (Elt F) (iLoc d))) Finset.univ)) (by decide) (fun x => hin fi x)) := by
    rw [e1]; exact rows_readB1 m d L fr _ _ _
  have e2 : chunkB1.sl.Hsd_8 m I d L t1 t2 fi fr fe hin
      = [⟨Rect.unit ![112] ![16] inb_S128_S16_112, accG (View.read (Elt F) (sRows.access (Rect.whole S128x128)) (sRows.view.writes (Elt F) fr [⟨Rect.whole S128x128, chunkB1.sl.gather1 m I d L t1 t2 fi hin⟩])) (View.read (Elt F) sEmb.view fe) 112 128⟩, ⟨Rect.unit ![96] ![16] inb_S128_S16_96, accG (View.read (Elt F) (sRows.access (Rect.whole S128x128)) (sRows.view.writes (Elt F) fr [⟨Rect.whole S128x128, chunkB1.sl.gather1 m I d L t1 t2 fi hin⟩])) (View.read (Elt F) sEmb.view fe) 96 128⟩,
        ⟨Rect.unit ![80] ![16] inb_S128_S16_80, accG (View.read (Elt F) (sRows.access (Rect.whole S128x128)) (sRows.view.writes (Elt F) fr [⟨Rect.whole S128x128, chunkB1.sl.gather1 m I d L t1 t2 fi hin⟩])) (View.read (Elt F) sEmb.view fe) 80 128⟩, ⟨Rect.unit ![64] S16.size inb_S128_S16_64, accG (View.read (Elt F) (sRows.access (Rect.whole S128x128)) (sRows.view.writes (Elt F) fr [⟨Rect.whole S128x128, chunkB1.sl.gather1 m I d L t1 t2 fi hin⟩])) (View.read (Elt F) sEmb.view fe) 64 128⟩,
        ⟨Rect.unit ![48] S16.size inb_S128_S16_48, accG (View.read (Elt F) (sRows.access (Rect.whole S128x128)) (sRows.view.writes (Elt F) fr [⟨Rect.whole S128x128, chunkB1.sl.gather1 m I d L t1 t2 fi hin⟩])) (View.read (Elt F) sEmb.view fe) 48 128⟩, ⟨Rect.unit ![32] S16.size inb_S128_S16_32, accG (View.read (Elt F) (sRows.access (Rect.whole S128x128)) (sRows.view.writes (Elt F) fr [⟨Rect.whole S128x128, chunkB1.sl.gather1 m I d L t1 t2 fi hin⟩])) (View.read (Elt F) sEmb.view fe) 32 128⟩,
        ⟨Rect.unit ![16] S16.size inb_S128_S16_16, accG (View.read (Elt F) (sRows.access (Rect.whole S128x128)) (sRows.view.writes (Elt F) fr [⟨Rect.whole S128x128, chunkB1.sl.gather1 m I d L t1 t2 fi hin⟩])) (View.read (Elt F) sEmb.view fe) 16 128⟩, ⟨Rect.unit ![0] S16.size inb_S128_S16_0, accG (View.read (Elt F) (sRows.access (Rect.whole S128x128)) (sRows.view.writes (Elt F) fr [⟨Rect.whole S128x128, chunkB1.sl.gather1 m I d L t1 t2 fi hin⟩])) (View.read (Elt F) sEmb.view fe) 0 128⟩] := rfl
  have e3 : chunkB1.sl.dma16 m I d L t1 t2 fi fr fe fd hin
      = View.read (Elt F) sDots.view (sDots.view.writes (Elt F) fd (chunkB1.sl.Hsd_8 m I d L t1 t2 fi fr fe hin)) := rfl
  have hval : ∀ x ∈ (oPc1 L t1 t2).view.set,
      (oPc1 L t1 t2).view.writes (Elt F) fo [⟨Rect.whole S128, chunkB1.sl.dma16 m I d L t1 t2 fi fr fe fd hin⟩] x = (dotsM m I E d : Buf (Elt F) (oLoc d)) x := by
    rw [e3, e2]
    exact piece_value1 (F := F) (m (tLoc d)) (m (sLoc d)) I E hI L t1 t2 (View.read (Elt F) sIdx.view (View.write (Elt F) sIdx.view fi ((iRow1 L t1 t2).view.read (Elt F) (I : Buf (Elt F) (iLoc d))) Finset.univ)) hidx (by decide) (fun x => hin fi x)
      (View.read (Elt F) (sRows.access (Rect.whole S128x128)) (sRows.view.writes (Elt F) fr [⟨Rect.whole S128x128, chunkB1.sl.gather1 m I d L t1 t2 fi hin⟩])) hR0 (View.read (Elt F) sEmb.view fe) (fun dd => hfe dd) fd fo
  rw [upto_put]
  isplitl [Hmw]; · iexact Hmw
  isplitl [Ht]; · iexact Ht
  isplitl [Hi]; · iexact Hi
  isplitl [Hsi]; · iexists _; iexact Hsi
  isplitl [Hsr]; · iexists _; iexact Hsr
  isplitl [Hse]
  · iexists fe; isplitr
    · ipureintro; exact hfe
    · iexact Hse
  isplitl [Hsd]; · iexists _; iexact Hsd
  isplitl [HgA]; · iexact HgA
  isplitl [Hg1]; · iexact Hg1
  isplitl [Hg2]; · iexact Hg2
  isplitl [Ho Hrest]
  · isplitl [Ho]
    · iapply (Entails.of_eq (pointsTo_congr hval)); iexact Ho
    · iexact Hrest
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Bank

end Cert.HandI

end
-- ==== Proof.Run.lean ====
import proofs.«204931_g11295763988758_cont_test2_10_9_alg».proof.Proof.Main
import proofs.«204931_g11295763988758_cont_test2_10_9_alg».proof.Proof.ScObl
import proofs.«204931_g11295763988758_cont_test2_10_9_alg».proof.Proof.ScBody
import proofs.«204931_g11295763988758_cont_test2_10_9_alg».proof.Proof.ScRowB0
import proofs.«204931_g11295763988758_cont_test2_10_9_alg».proof.Proof.ScRowB1
import proofs.«204931_g11295763988758_cont_test2_10_9_alg».proof.Proof.ScChunkB0
import proofs.«204931_g11295763988758_cont_test2_10_9_alg».proof.Proof.ScChunkB1

noncomputable section

namespace Cert.HandI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ) (ρ : Dev nD → PrngReg)

theorem tile_body (I : IVec S1024x512 32) (E : FVec F S2x1024x128 .f32) (hI : ∀ j, (I j).toNat < 100000) : TileBody m I E :=
  fun d L q O W hO =>
    tile_body_of m I E d L q O W
      (fun t1 acc => rowB0_of m I E d L q O W t1 acc (fun t2 acc => chunkB0 m I E d L hI q O W t1 t2 acc))
      (fun t4 acc => rowB1_of m I E d L q O W t4 acc (fun t5 acc => chunkB1 m I E d L hI q O W t4 t5 acc))
      facts hO

theorem run_main [∀ e, Nonempty (Elt F e)] (hI : ∀ j, (Ik m d0 j).toNat < 100000) :
    θ_run (Cert.KernelIdeal.defs (F := F)) (Cert.KernelIdeal.threads (F := F)) ⟨m, fun _ => 0, ρ⟩ (QC m) :=
  run_main_of_tile m ρ (tileObl_of m (Ik m d0) (Ek m d0) (tile_body m (Ik m d0) (Ek m d0) hI))

end Cert.HandI

end
-- ==== Proof.SetupB.lean ====
import proofs.«204931_g11295763988758_cont_test2_10_9_alg».proof.Kernel
import proofs.«204931_g11295763988758_cont_test2_10_9_alg».proof.Proof.Gen.Kernel
import proofs.«204931_g11295763988758_cont_test2_10_9_alg».proof.Proof.Gen.Kernel.Skeleton
import proofs.«204931_g11295763988758_cont_test2_10_9_alg».proof.Proof.Gen.Kernel.Launch
import Idealize.ShloMosaic.Lib.SparseCore.Launch
import Idealize.ShloMosaic.Lib.SparseCore.Ops
import Idealize.ShloMosaic.Lib.Pipeline.Regions
import Idealize.ShloMosaic.Lib.StableHlo.Run
import Idealize.ShloMosaic.Lib.Tactic
import Idealize.ShloMosaic.Lib.Transfers
import Idealize.ShloMosaic.Lib.Pipeline.Kit

noncomputable section

namespace Cert.HandB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP; infer_instance

example : CountersIn UU := inferInstance

end Cert.HandB

end
-- ==== Proof.ScDotsB.lean ====
import proofs.«204931_g11295763988758_cont_test2_10_9_alg».proof.Kernel

noncomputable section

namespace Cert.HandB

open Cert.Kernel
open Idealize.ShloMosaic

variable {F : FTy → Type} [FloatOps F]

def ix2 {n m : ℕ} (r : Fin n) (c : Fin m) : (⟨2, ![n, m]⟩ : Shape).Idx :=
  fun | 0 => r | 1 => c | ⟨_ + 2, h⟩ => absurd h (Nat.not_lt.2 (Nat.le_add_left _ _))

def ix3 {a b c : ℕ} (x : Fin a) (y : Fin b) (z : Fin c) : (⟨3, ![a, b, c]⟩ : Shape).Idx :=
  fun | 0 => x | 1 => y | 2 => z | ⟨_ + 3, h⟩ => absurd h (Nat.not_lt.2 (Nat.le_add_left _ _))

@[simp] theorem ix2_zero {n m : ℕ} (r : Fin n) (c : Fin m) : ix2 r c 0 = r := rfl
@[simp] theorem ix2_one {n m : ℕ} (r : Fin n) (c : Fin m) : ix2 r c 1 = c := rfl
@[simp] theorem ix3_zero {a b c : ℕ} (x : Fin a) (y : Fin b) (z : Fin c) : ix3 x y z 0 = x := rfl
@[simp] theorem ix3_one {a b c : ℕ} (x : Fin a) (y : Fin b) (z : Fin c) : ix3 x y z 1 = y := rfl
@[simp] theorem ix3_two {a b c : ℕ} (x : Fin a) (y : Fin b) (z : Fin c) : ix3 x y z 2 = z := rfl

def tblRow (n : ℕ) : Fin 100000 := ⟨n % 100000, Nat.mod_lt _ (by decide)⟩

theorem tblRow_of_lt {n : ℕ} (h : n < 100000) : tblRow n = ⟨n, h⟩ := Fin.ext (Nat.mod_eq_of_lt h)

def fmaStep (acc x y : F .f32) : F .f32 := FloatOps.addf acc (FloatOps.mulf x y)

def dotAt (M : FVec F S100000x128 .f32) (E : FVec F S2x1024x128 .f32) (n : ℕ) (bank : Fin 2) (r : Fin 1024) : F .f32 :=
  Fin.foldl 128 (fun acc d => fmaStep acc (M (ix2 (tblRow n) d)) (E (ix3 bank r d))) (Scalar.ofBits .f32 0x00000000#32)

def dotsK (MT MS : FVec F S100000x128 .f32) (I : IVec S1024x512 32) (E : FVec F S2x1024x128 .f32) : FVec F S2x1024x512 .f32 :=
  fun x => dotAt (if (x 0).val = 0 then MT else MS) E (I (ix2 (x 1) (x 2))).toNat (x 0) (x 1)

end Cert.HandB

end
-- ==== Proof.RegionDatsB.lean ====
import proofs.«204931_g11295763988758_cont_test2_10_9_alg».proof.Proof.SetupB
import proofs.«204931_g11295763988758_cont_test2_10_9_alg».proof.Proof.Gen.Kernel.Points
import Idealize.ShloMosaic.Lib.Pipeline.FrameBody
import Idealize.ShloMosaic.Lib.Pipeline.RegionsLoop
import Idealize.ShloMosaic.Lib.Pipeline.FrameSuffix

set_option maxRecDepth 16384

noncomputable section

namespace Cert.HandB

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

theorem Otc_none (c : Dev nD) (n : ℕ) (g : GSem nD τ sig) : (K (F := F)).Otc c n g none = 0 :=
  Nat.eq_zero_of_not_pos fun h => by
    have := SparseCore.Cfg.lev_of_Otc_pos (K := K (F := F)) h
    rw [SparseCore.Cfg.lev_none] at this
    omega

def recBelow (c : Dev nD) (b : ℕ) : Set (SemLoc sig × HIx 1) := {p | (K (F := F)).lev ((c : Thread nD τ), p.1) p.2 ≤ b}

def ΦR {gr : Nat} {W : Nat} (win : Fin W → Pipeline.WinSpec sig gr) (c : Dev nD) : sProp 𝕄 :=
  Pipeline.scopedRest (Ix := HIx 1) (Name := ℕ) (U := UU) (Lvl := ℕ) (Val := Elt F) win c

section Regions

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) (HIx 1) ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) (HIx 1) ℕ UU ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) (HIx 1) ℕ UU ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) (HIx 1) ℕ UU ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) (HIx 1) ℕ UU ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) (HIx 1) ℕ UU ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S256x2048 := Rect.unit (s := S256x2048) ![0, 0] S256x2048.size inb_S256x2048_S256x2048_0_0

abbrev r0_1 : Rect S2048x128 := Rect.unit (s := S2048x128) ![0, 0] S2048x128.size inb_S2048x128_S2048x128_0_0

abbrev r0_2 : Rect S1x128 := Rect.unit (s := S1x128) ![0, 0] S1x128.size inb_S1x128_S1x128_0_0

abbrev r0_3 : Rect S2x256x128 := Rect.unit (s := S2x256x128) ![0, 0, 0] S1x256x128.size inb_S2x256x128_S1x256x128_0_0_0

abbrev r0_4 : Rect S2x256x128 := Rect.unit (s := S2x256x128) ![1, 0, 0] S1x256x128.size inb_S2x256x128_S1x256x128_1_0_0

def out0_6 (x0 : Vec F S256x2048 .f32) (x1 : Vec F S256x2048 .f32) (x2 : Vec F S2048x128 .f32) (x3 : Vec F S1x128 .f32)
    (x4 : Vec F S2048x128 .f32) (x5 : Vec F S1x128 .f32) : Vec F S2x256x128 .f32 :=
  View.canon [⟨r0_4, k0_pay2 (View.ld x1 r0_0) (View.ld x4 r0_1) (View.ld x5 r0_2)⟩,
    ⟨r0_3, k0_pay1 (View.ld x0 r0_0) (View.ld x2 r0_1) (View.ld x3 r0_2)⟩]

theorem cover0_6 (p0 : Vec F S1x256x128 .f32) (p1 : Vec F S1x256x128 .f32) (y : S2x256x128.Idx) :
    ∃ pc ∈ ([⟨r0_4, p0⟩, ⟨r0_3, p1⟩] : List (View.Piece (Elt F) S2x256x128 .f32)), y ∈ pc.1.set :=
  View.cover_of_tiled [⟨r0_4, p0⟩, ⟨r0_3, p1⟩] S1x256x128.size (by rfl) y

def dat0 (c : Dev nD) : Dat τ (Elt F) (HIx 1) ℕ UU ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := ΦR (F := F) spec0 c
  q _ := fullShare
  owed _ := (K (F := F)).Otc c 0
  recorded _ := recBelow (F := F) c (8 * 0)

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]

theorem after0_6 (c : Dev nD) (t : Fin cfg0.N) :
    (dat0 V c).after 6 t = out0_6 (iblk0 V c 0 t) (iblk0 V c 1 t) (iblk0 V c 2 t) (iblk0 V c 3 t) (iblk0 V c 4 t) (iblk0 V c 5 t) := by
  dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S2x1024x512 := Rect.unit (s := S2x1024x512) ![0, 0, 0] S1x1024x512.size inb_S2x1024x512_S1x1024x512_0_0_0

abbrev r2_1 : Rect S2x1024x512 := Rect.unit (s := S2x1024x512) ![1, 0, 0] S1x1024x512.size inb_S2x1024x512_S1x1024x512_1_0_0

abbrev r2_2 : Rect S1x1 := Rect.unit (s := S1x1) ![0, 0] S1x1.size inb_S1x1_S1x1_0_0

def out2_1 (x0 : Vec F S2x1024x512 .f32) : Vec F S1x1 .f32 :=
  View.canon [⟨r2_2, k2_pay1 (k2_pay2 (View.ld x0 r2_0)) (k2_pay3 (View.ld x0 r2_1)) (k2_pay4 (View.ld x0 r2_1))⟩]

theorem cover2_1 (p0 : Vec F S1x1 .f32) (y : S1x1.Idx) :
    ∃ pc ∈ ([⟨r2_2, p0⟩] : List (View.Piece (Elt F) S1x1 .f32)), y ∈ pc.1.set :=
  View.cover_of_tiled [⟨r2_2, p0⟩] S1x1.size (by rfl) y

def dat2 (c : Dev nD) : Dat τ (Elt F) (HIx 1) ℕ UU ℕ cfg2 c where
  A w := V c (Pipeline.arrRef spec2 w)
  after w t := match w with
    | ⟨0, _⟩ => iblk2 V c 0 t
    | ⟨1, _⟩ => out2_1 (iblk2 V c 0 t)
  Φ _ := ΦR (F := F) spec2 c
  q _ := fullShare
  owed _ := (K (F := F)).Otc c 1
  recorded _ := recBelow (F := F) c (8 * 1)

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]

theorem after2_1 (c : Dev nD) (t : Fin cfg2.N) : (dat2 V c).after 1 t = out2_1 (iblk2 V c 0 t) := by dsimp only [dat2]

theorem before2_0 (c : Dev nD) (t : Fin cfg2.N) (d) : (dat2 V c).before 0 t d = iblk2 V c 0 t :=
  before2_0_of V (dat2 V c) (A_eq2 V c 0) (after2_0 V c) t d

end Regions

abbrev Vof (W : Dev nD → Valuation τ sig (Elt F)) : (c : Dev nD) → (b : Ref sig .tc) → Buf (Elt F) ((c : Thread nD τ).loc b) :=
  fun c b => W c b

abbrev Rn (n : ℕ) (c : Dev nD) : sProp 𝕄 :=
  iprop(∃ W, ⌜(K (F := F)).WBelow (SparseCore.T c) W (8 * n)⌝ ∗ owes (SparseCore.T c) ((K (F := F)).Otc c n) W)

def Wx0 (W : Dev nD → Valuation τ sig (Elt F)) (c : Dev nD) : Valuation τ sig (Elt F) :=
  Pipeline.withArrays spec0 c (W c) fun w => (dat0 (Vof W) c).arrAt w cfg0.N

theorem Wx0_arr (W : Dev nD → Valuation τ sig (Elt F)) (c : Dev nD) (w : Fin cfg0.W) :
    Wx0 W c (Proc.devRef .tc (Pipeline.arrRef spec0 w)) = (dat0 (Vof W) c).arrAt w cfg0.N := by
  unfold Wx0; exact Pipeline.withArrays_arr spec0 winFacts0.arr_inj c _ _ w

theorem Wx0_of_ne (W : Dev nD → Valuation τ sig (Elt F)) (c : Dev nD) (b : Ref sig .tc) (hb : ∀ w, Pipeline.arrRef spec0 w ≠ b) :
    Wx0 W c (Proc.devRef .tc b) = W c (Proc.devRef .tc b) := by
  unfold Wx0; exact Pipeline.withArrays_of_ne spec0 c _ _ b hb

theorem hF0 (W : Dev nD → Valuation τ sig (Elt F)) (c : Dev nD) (w : Fin cfg0.W) :
    (dat0 (Vof W) c).arrAt w cfg0.N = Vof (Wx0 W) c (Pipeline.arrRef spec0 w) :=
  (Wx0_arr W c w).symm
theorem hrest0 (W : Dev nD → Valuation τ sig (Elt F)) (c : Dev nD) :
    ∀ b, b ∉ Finset.univ.image (Pipeline.arrRef spec0) → Vof (Wx0 W) c b = Vof W c b :=
  fun b hb => Wx0_of_ne W c b fun w e => hb (Finset.mem_image.mpr ⟨w, Finset.mem_univ _, e⟩)

def Wx2 (W : Dev nD → Valuation τ sig (Elt F)) (c : Dev nD) : Valuation τ sig (Elt F) :=
  Pipeline.withArrays spec2 c (W c) fun w => (dat2 (Vof W) c).arrAt w cfg2.N

theorem Wx2_arr (W : Dev nD → Valuation τ sig (Elt F)) (c : Dev nD) (w : Fin cfg2.W) :
    Wx2 W c (Proc.devRef .tc (Pipeline.arrRef spec2 w)) = (dat2 (Vof W) c).arrAt w cfg2.N := by
  unfold Wx2; exact Pipeline.withArrays_arr spec2 winFacts2.arr_inj c _ _ w

theorem Wx2_of_ne (W : Dev nD → Valuation τ sig (Elt F)) (c : Dev nD) (b : Ref sig .tc) (hb : ∀ w, Pipeline.arrRef spec2 w ≠ b) :
    Wx2 W c (Proc.devRef .tc b) = W c (Proc.devRef .tc b) := by
  unfold Wx2; exact Pipeline.withArrays_of_ne spec2 c _ _ b hb
theorem hF2 (W : Dev nD → Valuation τ sig (Elt F)) (c : Dev nD) (w : Fin cfg2.W) :
    (dat2 (Vof W) c).arrAt w cfg2.N = Vof (Wx2 W) c (Pipeline.arrRef spec2 w) :=
  (Wx2_arr W c w).symm
theorem hrest2 (W : Dev nD → Valuation τ sig (Elt F)) (c : Dev nD) :
    ∀ b, b ∉ Finset.univ.image (Pipeline.arrRef spec2) → Vof (Wx2 W) c b = Vof W c b :=
  fun b hb => Wx2_of_ne W c b fun w e => hb (Finset.mem_image.mpr ⟨w, Finset.mem_univ _, e⟩)

abbrev adm : (p : Fin 2) → (pcfgs (F := F) p).Adm := fun p => (cfgs p).toPCfg_adm

def pdats (Va Vb : (c : Dev nD) → (b : Ref sig .tc) → Buf (Elt F) ((c : Thread nD τ).loc b)) :
    (p : Fin 2) → (c : Dev nD) → Dat τ (Elt F) (HIx 1) ℕ UU ℕ (Pipeline.pin (pcfgs (F := F)) adm p) c
  | ⟨0, _⟩ => fun c => dat0 Va c
  | ⟨1, _⟩ => fun c => dat2 Vb c

end Cert.HandB

end
-- ==== Proof.ValsB.lean ====
import proofs.«204931_g11295763988758_cont_test2_10_9_alg».proof.Proof.SetupB
import proofs.«204931_g11295763988758_cont_test2_10_9_alg».proof.Proof.ScDotsB
import proofs.«204931_g11295763988758_cont_test2_10_9_alg».proof.Proof.RegionDatsB

noncomputable section

namespace Cert.HandB

open Cert.Kernel Cert.Kernel.Gen

open Idealize.ShloMosaic
open Idealize.ShloMosaic.SparseCore (S V T)
open Idealize.SL Idealize.SL.Sem

variable {F : FTy → Type} [FloatOps F]

variable (m : (ℓ : Loc nD τ sig) → Buf (Elt F) ℓ)

abbrev op0 : HloOp τ sig (Elt F) :=
  StableHlo.unary main_arg3 main_v0 (broadcastInDim S1024x1 ![0] bcast_S1024_S1024x1_0 : (⟨S1024, .i32⟩ : BufTy).Contents (Elt F) → (⟨S1024x1, .i32⟩ : BufTy).Contents (Elt F))
abbrev op1 : HloOp τ sig (Elt F) :=
  StableHlo.binary main_v0 main_arg4 main_v1 ((fun a b => concatenate S1024x512 1 [⟨S1024x1, a⟩, ⟨S1024x511, b⟩] concatenates_S1024x1_S1024x511_S1024x512_d1) : (⟨S1024x1, .i32⟩ : BufTy).Contents (Elt F) → (⟨S1024x511, .i32⟩ : BufTy).Contents (Elt F) → (⟨S1024x512, .i32⟩ : BufTy).Contents (Elt F))
abbrev op2 : HloOp τ sig (Elt F) := StableHlo.reshape main_arg6 main_v2 rfl shapeCasts_S128_S1x128
abbrev op3 : HloOp τ sig (Elt F) := StableHlo.reshape main_arg8 main_v3 rfl shapeCasts_S128_S1x128
abbrev op7 : HloOp τ sig (Elt F) := StableHlo.reshape main_v6 main_v7 rfl shapeCasts_S1x1_S_

abbrev UC : Finset (DevRef τ sig) := Pipeline.ucRefs τ sig

theorem h0 : (op0 (F := F)).bufs ⊆ UC := Pipeline.sub_ucRefs _ (StableHlo.unary_bufs_sub ..)
theorem h1 : (op1 (F := F)).bufs ⊆ UC := Pipeline.sub_ucRefs _ (StableHlo.binary_bufs_sub ..)
theorem h2 : (op2 (F := F)).bufs ⊆ UC := Pipeline.sub_ucRefs _ (StableHlo.reshape_bufs_sub ..)
theorem h3 : (op3 (F := F)).bufs ⊆ UC := Pipeline.sub_ucRefs _ (StableHlo.reshape_bufs_sub ..)
theorem h7 : (op7 (F := F)).bufs ⊆ UC := Pipeline.sub_ucRefs _ (StableHlo.reshape_bufs_sub ..)

abbrev v1' : DevRef τ sig := Proc.devRef .tc (main_v1 : Ref sig .tc)
abbrev v4' : DevRef τ sig := Proc.devRef .tc (main_v4 : Ref sig .tc)
abbrev v5' : DevRef τ sig := Proc.devRef .tc (main_v5 : Ref sig .tc)
abbrev v7' : DevRef τ sig := Proc.devRef .tc (main_v7 : Ref sig .tc)
abbrev a9' : DevRef τ sig := Proc.devRef .tc (main_arg9 : Ref sig .tc)
abbrev a10' : DevRef τ sig := Proc.devRef .tc (main_arg10 : Ref sig .tc)

def W0 (d : Dev nD) : Valuation τ sig (Elt F) := fun b => m (d, b)

def Wa (d : Dev nD) : Valuation τ sig (Elt F) := (op3 (F := F)).result ((op2 (F := F)).result ((op1 (F := F)).result ((op0 (F := F)).result (W0 m d))))

def Wb (d : Dev nD) : Valuation τ sig (Elt F) := Wx0 (Wa m) d

def Ik (d : Dev nD) : IVec S1024x512 32 := Wa m d v1'
def Ek (d : Dev nD) : FVec F S2x1024x128 .f32 := Wb m d v4'

def Dk (d : Dev nD) : FVec F S2x1024x512 .f32 := dotsK (m (d, a10')) (m (d, a9')) (Ik m d) (Ek m d)

def Wc (d : Dev nD) : Valuation τ sig (Elt F) := Function.update (Wb m d) v5' (Dk m d)

def Wd (d : Dev nD) : Valuation τ sig (Elt F) := Wx2 (Wc m) d

def We (d : Dev nD) : Valuation τ sig (Elt F) := (op7 (F := F)).result (Wd m d)

def outK (d : Dev nD) : FVec F S_ .f32 := We m d v7'

end Cert.HandB

end
-- ==== Proof.LaunchElemB.lean ====
import proofs.«204931_g11295763988758_cont_test2_10_9_alg».proof.Proof.ValsB

noncomputable section

namespace Cert.HandB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

abbrev pcs : Fin 2 → Pipeline.Cfg sig Λ₀ := Pipeline.pin (pcfgs (F := F)) adm

theorem pinj : Function.Injective (Pipeline.cellOf (nD := nD) (τ := τ) (pcs (F := F))) := cellOf_inj

theorem bigSep_emp' {I : Type} (s : Finset I) : (bigSep s fun _ => iprop(emp)) = (iprop(emp) : sProp 𝕄) := bigSep_emp_const s

def G (d : Dev nD) : sProp 𝕄 :=
  iprop((bigSep Finset.univ fun p : Fin 2 => Pipeline.cellsGhost (pcs (F := F)) EP p d)
    ∗ (bigSep Finset.univ fun p : Fin 2 => (Pipeline.toksInit (pcs (F := F)) EP p d : sProp 𝕄)))

def u₀ : UU :=
  (initOf (K (F := F)).hsCells (K (F := F)).hsToks,
    (initOf (Pipeline.cells (pcs (F := F)) pinj) (Pipeline.launchToks (pcs (F := F)) pinj), (1 : Counters)))

theorem hu₀ (P' : (K (F := F)).Pay (nD := nD) (Val := Elt F) (Name := ℕ) (U := UU)) (hx : ∀ q thr, P'.x q thr = iprop(emp)) :
    (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => P'.x q thr) := by
  have hEP : ∀ x : UP, (BI.own ((Emb.inl.trans (embR : Emb (UP × Counters) 𝕄)).toFun x) : sProp 𝕄) ⊢ BI.own ((EP : Emb UP 𝕄).toFun x) :=
    fun x => BI.Entails.refl _
  unfold u₀
  iintro Hu
  ihave H := (ownU_pair _ _) $$ Hu
  icases H with ⟨HH, HR⟩
  ihave H2 := (own_pair_emb _ _ _) $$ HR
  icases H2 with ⟨HP, -⟩
  ihave HP' := (hEP _) $$ HP
  imod (Pipeline.fund_ghost (pcs (F := F)) EP pinj) $$ HP' with ⟨Hg, Ht⟩
  imodintro
  isplitl [HH]; · iexact HH
  isplitl [Hg Ht]
  · unfold G
    rw [bigSep_sep']
    isplitl [Hg]; · iexact Hg
    iexact Ht
  · rw [bigSep_congr fun thr _ => bigSep_congr fun q _ => hx q thr]
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

end Cert.HandB
end
-- ==== Proof.ScPayB.lean ====
import proofs.«204931_g11295763988758_cont_test2_10_9_alg».proof.Proof.SetupB
import proofs.«204931_g11295763988758_cont_test2_10_9_alg».proof.Proof.ScDotsB

noncomputable section

namespace Cert.HandB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (I : IVec S1024x512 32) (E : FVec F S2x1024x128 .f32)

abbrev tLoc (d : Dev nD) : Loc nD τ sig := (SparseCore.T d).loc main_arg10
abbrev sLoc (d : Dev nD) : Loc nD τ sig := (SparseCore.T d).loc main_arg9
abbrev iLoc (d : Dev nD) : Loc nD τ sig := (SparseCore.T d).loc main_v1
abbrev eLoc (d : Dev nD) : Loc nD τ sig := (SparseCore.T d).loc main_v4
abbrev oLoc (d : Dev nD) : Loc nD τ sig := (SparseCore.T d).loc main_v5

abbrev tV : Memref sig .scVector .hbm S100000x128 .f32 := Memref.whole main_arg10_scv
abbrev sV : Memref sig .scVector .hbm S100000x128 .f32 := Memref.whole main_arg9_scv
abbrev iV : Memref sig .scVector .hbm S1024x512 .i32 := Memref.whole main_v1_scv
abbrev eV : Memref sig .scVector .hbm S2x1024x128 .f32 := Memref.whole main_v4_scv
abbrev oV : Memref sig .scVector .hbm S2x1024x512 .f32 := Memref.whole main_v5_scv

abbrev dotsM (d : Dev nD) : FVec F S2x1024x512 .f32 := dotsK (m (tLoc d)) (m (sLoc d)) I E

def coordsV (c : Fin 2) (s : Fin 16) : grid1.Coords :=
  fun | 0 => c | 1 => s | ⟨_ + 2, h⟩ => absurd h (Nat.not_lt.2 (Nat.le_add_left _ _))

theorem bound_zero : grid1.bound 0 = 2 := rfl

theorem bound_one : grid1.bound 1 = 16 := rfl

theorem trips1 : k1_t1_loop.trips = 32 := by decide

theorem trips2 : k1_t2_loop.trips = 4 := by decide

theorem trips4 : k1_t4_loop.trips = 32 := by decide

theorem trips5 : k1_t5_loop.trips = 4 := by decide

theorem lt1 (t : Fin k1_t1_loop.trips) : t.val < 32 := Nat.lt_of_lt_of_eq t.isLt trips1

theorem lt2 (t : Fin k1_t2_loop.trips) : t.val < 4 := Nat.lt_of_lt_of_eq t.isLt trips2

theorem lt4 (t : Fin k1_t4_loop.trips) : t.val < 32 := Nat.lt_of_lt_of_eq t.isLt trips4

theorem lt5 (t : Fin k1_t5_loop.trips) : t.val < 4 := Nat.lt_of_lt_of_eq t.isLt trips5

abbrev oPc0 (L : grid1.Coords) (t1 : Fin k1_t1_loop.trips) (t2 : Fin k1_t2_loop.trips) : Memref sig .scVector .hbm S128 .f32 :=
  ((oV).slice (Rect.unit (s := S2x1024x512) (k1_off4 L t1 t2) S1x1x128.size (k1_off4_inb L t1 t2)) (fun _ => rfl)).squeeze S128 squeezes_S1x1x128_S128

abbrev oPc1 (L : grid1.Coords) (t4 : Fin k1_t4_loop.trips) (t5 : Fin k1_t5_loop.trips) : Memref sig .scVector .hbm S128 .f32 :=
  ((oV).slice (Rect.unit (s := S2x1024x512) (k1_off8 L t4 t5) S1x1x128.size (k1_off8_inb L t4 t5)) (fun _ => rfl)).squeeze S128 squeezes_S1x1x128_S128

abbrev oSet0 (L : grid1.Coords) (t1 : Fin k1_t1_loop.trips) (t2 : Fin k1_t2_loop.trips) : Finset S2x1024x512.Idx := (oPc0 L t1 t2).view.set
abbrev oSet1 (L : grid1.Coords) (t4 : Fin k1_t4_loop.trips) (t5 : Fin k1_t5_loop.trips) : Finset S2x1024x512.Idx := (oPc1 L t4 t5).view.set

def scShare (c : ℕ) : PosShare TreeShare := if c = 0 then (fullShare : PosShare TreeShare).left else (fullShare : PosShare TreeShare).right

abbrev tileShare (c i : ℕ) : PosShare TreeShare := Transfers.shareTokN (scShare c) i

@[reducible] def roAt (d : Dev nD) (q : PosShare TreeShare) : sProp 𝕄 :=
  iprop((tLoc d ↦{q} m (tLoc d)) ∗ (sLoc d ↦{q} m (sLoc d)) ∗ (iLoc d ↦{q} (I : Buf (Elt F) (iLoc d))) ∗ (eLoc d ↦{q} (E : Buf (Elt F) (eLoc d))))

@[reducible] def outAny (d : Dev nD) (L : grid1.Coords) : sProp 𝕄 :=
  iprop((bigSep Finset.univ fun t1 : Fin k1_t1_loop.trips => bigSep Finset.univ fun t2 : Fin k1_t2_loop.trips => iprop(∃ f, oLoc d ↦[oSet0 L t1 t2]{fullShare} f))
    ∗ bigSep Finset.univ fun t4 : Fin k1_t4_loop.trips => bigSep Finset.univ fun t5 : Fin k1_t5_loop.trips => iprop(∃ f, oLoc d ↦[oSet1 L t4 t5]{fullShare} f))

@[reducible] def outAt (d : Dev nD) (f : Buf (Elt F) (oLoc d)) (L : grid1.Coords) : sProp 𝕄 :=
  iprop((bigSep Finset.univ fun t1 : Fin k1_t1_loop.trips => bigSep Finset.univ fun t2 : Fin k1_t2_loop.trips => oLoc d ↦[oSet0 L t1 t2]{fullShare} f)
    ∗ bigSep Finset.univ fun t4 : Fin k1_t4_loop.trips => bigSep Finset.univ fun t5 : Fin k1_t5_loop.trips => oLoc d ↦[oSet1 L t4 t5]{fullShare} f)

abbrev outDone (d : Dev nD) (L : grid1.Coords) : sProp 𝕄 := outAt d (dotsM m I E d : Buf (Elt F) (oLoc d)) L

theorem outAt_any (d : Dev nD) (f : Buf (Elt F) (oLoc d)) (L : grid1.Coords) : (outAt d f L : sProp 𝕄) ⊢ outAny d L := by
  unfold outAt outAny
  have h0 : ∀ (t1 : Fin k1_t1_loop.trips) (t2 : Fin k1_t2_loop.trips),
      (oLoc d ↦[oSet0 L t1 t2]{fullShare} f : sProp 𝕄) ⊢ iprop(∃ f, oLoc d ↦[oSet0 L t1 t2]{fullShare} f) := fun t1 t2 => by
    iintro H; iexists f; iexact H
  have h1 : ∀ (t4 : Fin k1_t4_loop.trips) (t5 : Fin k1_t5_loop.trips),
      (oLoc d ↦[oSet1 L t4 t5]{fullShare} f : sProp 𝕄) ⊢ iprop(∃ f, oLoc d ↦[oSet1 L t4 t5]{fullShare} f) := fun t4 t5 => by
    iintro H; iexists f; iexact H
  iintro ⟨H0, H1⟩
  isplitl [H0]
  · iapply (Transfers.ent (bigSep_mono (s := Finset.univ) fun t1 _ => bigSep_mono (s := Finset.univ) fun t2 _ => h0 t1 t2)); iexact H0
  · iapply (Transfers.ent (bigSep_mono (s := Finset.univ) fun t4 _ => bigSep_mono (s := Finset.univ) fun t5 _ => h1 t4 t5)); iexact H1

def P : (K (F := F)).Pay (nD := nD) (Val := Elt F) (Name := ℕ) (U := UU) where
  st := fun q d c => match q with
    | 0 => iprop(roAt m I E d (scShare c.val) ∗ bigSep Finset.univ fun s : Fin 16 => outAny d (coordsV (Fin.cast nCore_zero c) s))
  dn := fun q d c => match q with
    | 0 => iprop(roAt m I E d (scShare c.val) ∗ bigSep Finset.univ fun s : Fin 16 => outDone m I E d (coordsV (Fin.cast nCore_zero c) s))
  go := fun q d c i => match q with
    | 0 => iprop(roAt m I E d (tileShare c.val i.val) ∗ outAny d (coordsV (Fin.cast nCore_zero c) (Fin.cast nSub_zero i)))
  td := fun q d c i => match q with
    | 0 => iprop(roAt m I E d (tileShare c.val i.val) ∗ outDone m I E d (coordsV (Fin.cast nCore_zero c) (Fin.cast nSub_zero i)))
  x := fun _ _ => iprop(emp)

instance P_storable : (P (F := F) m I E).IsStorable where
  st q d c := match q with | 0 => by unfold P; infer_instance
  dn q d c := match q with | 0 => by unfold P; infer_instance
  go q d c i := match q with | 0 => by unfold P; infer_instance
  td q d c i := match q with | 0 => by unfold P; infer_instance

theorem mem_oSet0 (L : grid1.Coords) (t1 : Fin k1_t1_loop.trips) (t2 : Fin k1_t2_loop.trips) (x : S2x1024x512.Idx) :
    x ∈ oSet0 L t1 t2 ↔ (x 0).val = 0 ∧ (x 1).val = 64 * (L 1).val + 32 * (L 0).val + t1.val
      ∧ 128 * t2.val ≤ (x 2).val ∧ (x 2).val < 128 * t2.val + 128 := by
  have hs : oSet0 L t1 t2 = (Rect.unit (s := S2x1024x512) (k1_off4 L t1 t2) S1x1x128.size (k1_off4_inb L t1 t2)).set := by
    show (((oV).view.slice (Rect.unit (s := S2x1024x512) (k1_off4 L t1 t2) S1x1x128.size (k1_off4_inb L t1 t2))).reshape S128
      squeezes_S1x1x128_S128.numel_eq).set = _
    rw [View.set_reshape]
    exact View.set_slice_whole _ _
  rw [hs, Rect.mem_set_unit, k1_off4_eq]
  constructor
  · intro h
    have h0 := h 0; have h1 := h 1; have h2 := h 2
    simp at h0 h1 h2
    omega
  · intro h a
    fin_cases a <;> simp <;> omega

theorem mem_oSet1 (L : grid1.Coords) (t4 : Fin k1_t4_loop.trips) (t5 : Fin k1_t5_loop.trips) (x : S2x1024x512.Idx) :
    x ∈ oSet1 L t4 t5 ↔ (x 0).val = 1 ∧ (x 1).val = 64 * (L 1).val + 32 * (L 0).val + t4.val
      ∧ 128 * t5.val ≤ (x 2).val ∧ (x 2).val < 128 * t5.val + 128 := by
  have hs : oSet1 L t4 t5 = (Rect.unit (s := S2x1024x512) (k1_off8 L t4 t5) S1x1x128.size (k1_off8_inb L t4 t5)).set := by
    show (((oV).view.slice (Rect.unit (s := S2x1024x512) (k1_off8 L t4 t5) S1x1x128.size (k1_off8_inb L t4 t5))).reshape S128
      squeezes_S1x1x128_S128.numel_eq).set = _
    rw [View.set_reshape]
    exact View.set_slice_whole _ _
  rw [hs, Rect.mem_set_unit, k1_off8_eq]
  constructor
  · intro h
    have h0 := h 0; have h1 := h 1; have h2 := h 2
    simp at h0 h1 h2
    omega
  · intro h a
    fin_cases a <;> simp <;> omega

abbrev J0 : Type := Fin 2 × Fin 16 × Fin k1_t1_loop.trips × Fin k1_t2_loop.trips
abbrev J1 : Type := Fin 2 × Fin 16 × Fin k1_t4_loop.trips × Fin k1_t5_loop.trips

def pcOf : J0 ⊕ J1 → Finset S2x1024x512.Idx
  | .inl j => oSet0 (coordsV j.1 j.2.1) j.2.2.1 j.2.2.2
  | .inr j => oSet1 (coordsV j.1 j.2.1) j.2.2.1 j.2.2.2

theorem pc_disjoint : ∀ a ∈ (Finset.univ : Finset (J0 ⊕ J1)), ∀ b ∈ (Finset.univ : Finset (J0 ⊕ J1)), a ≠ b → Disjoint (pcOf a) (pcOf b) := by
  intro a _ b _ hab
  refine Finset.disjoint_left.mpr fun x ha hb => hab ?_
  rcases a with ⟨c, s, t1, t2⟩ | ⟨c, s, t1, t2⟩ <;> rcases b with ⟨c', s', t1', t2'⟩ | ⟨c', s', t1', t2'⟩
  · have ha' := (mem_oSet0 _ _ _ x).mp ha; have hb' := (mem_oSet0 _ _ _ x).mp hb
    have hc : c.val < 2 := c.isLt; have hc' : c'.val < 2 := c'.isLt
    have ht : t1.val < 32 := lt1 t1; have ht' : t1'.val < 32 := lt1 t1'
    have hu := lt2 t2; have hu' := lt2 t2'
    simp only [coordsV] at ha' hb'
    have e1 : s = s' := Fin.ext (by omega)
    have e2 : c = c' := Fin.ext (by omega)
    have e3 : t1 = t1' := Fin.ext (by omega)
    have e4 : t2 = t2' := Fin.ext (by omega)
    subst e1 e2 e3 e4; rfl
  · have ha' := (mem_oSet0 _ _ _ x).mp ha; have hb' := (mem_oSet1 _ _ _ x).mp hb; omega
  · have ha' := (mem_oSet1 _ _ _ x).mp ha; have hb' := (mem_oSet0 _ _ _ x).mp hb; omega
  · have ha' := (mem_oSet1 _ _ _ x).mp ha; have hb' := (mem_oSet1 _ _ _ x).mp hb
    have hc : c.val < 2 := c.isLt; have hc' : c'.val < 2 := c'.isLt
    have ht : t1.val < 32 := lt4 t1; have ht' : t1'.val < 32 := lt4 t1'
    have hu := lt5 t2; have hu' := lt5 t2'
    simp only [coordsV] at ha' hb'
    have e1 : s = s' := Fin.ext (by omega)
    have e2 : c = c' := Fin.ext (by omega)
    have e3 : t1 = t1' := Fin.ext (by omega)
    have e4 : t2 = t2' := Fin.ext (by omega)
    subst e1 e2 e3 e4; rfl

theorem pc_cover : (Finset.univ : Finset (J0 ⊕ J1)).biUnion pcOf = Finset.univ := by
  ext x
  simp only [Finset.mem_biUnion, Finset.mem_univ, true_and, iff_true]
  have h0 : (x 0).val < 2 := (x 0).isLt
  have h1 : (x 1).val < 1024 := (x 1).isLt
  have h2 : (x 2).val < 512 := (x 2).isLt
  by_cases hb : (x 0).val = 0
  · refine ⟨.inl (⟨(x 1).val / 32 % 2, by omega⟩, ⟨(x 1).val / 64, by omega⟩,
      ⟨(x 1).val % 32, by rw [trips1]; omega⟩, ⟨(x 2).val / 128, by rw [trips2]; omega⟩), ?_⟩
    refine (mem_oSet0 _ _ _ x).mpr ⟨hb, ?_, ?_, ?_⟩ <;> simp only [coordsV] <;> omega
  · refine ⟨.inr (⟨(x 1).val / 32 % 2, by omega⟩, ⟨(x 1).val / 64, by omega⟩,
      ⟨(x 1).val % 32, by rw [trips4]; omega⟩, ⟨(x 2).val / 128, by rw [trips5]; omega⟩), ?_⟩
    refine (mem_oSet1 _ _ _ x).mpr ⟨by omega, ?_, ?_, ?_⟩ <;> simp only [coordsV] <;> omega

theorem o_pieces (d : Dev nD) (f : Buf (Elt F) (oLoc d)) :
    (oLoc d ↦{fullShare} f : sProp 𝕄) = bigSep Finset.univ fun c : Fin 2 => bigSep Finset.univ fun s : Fin 16 => outAt d f (coordsV c s) := by
  have e : (oLoc d ↦{fullShare} f : sProp 𝕄) = bigSep Finset.univ fun j : J0 ⊕ J1 => oLoc d ↦[pcOf j]{fullShare} f := by
    rw [← pointsTo_biUnion Finset.univ (ℓ := oLoc d) pcOf pc_disjoint, pc_cover]; try rfl
  rw [e, bigSep_univ_sum]
  unfold outAt
  simp only [bigSep_univ_prod, bigSep_sep', pcOf]
  rfl

theorem bigSep_cores (Φ : Fin 2 → sProp 𝕄) :
    (bigSep Finset.univ fun c : Fin ((K (F := F)).nCore 0) => Φ (Fin.cast nCore_zero c)) = iprop(Φ 0 ∗ Φ 1) := by
  rw [← bigSep_univ_two Φ]
  exact bigSep_congr fun _ _ => congrArg Φ (Fin.ext rfl)

theorem scShare_zero : scShare 0 = (fullShare : PosShare TreeShare).left := if_pos rfl

theorem scShare_one : scShare 1 = (fullShare : PosShare TreeShare).right := if_neg (by decide)

theorem roAt_halves (d : Dev nD) :
    (roAt m I E d fullShare : sProp 𝕄) ⊣⊢ iprop(roAt m I E d (scShare 0) ∗ roAt m I E d (scShare 1)) := by
  rw [scShare_zero, scShare_one]
  unfold roAt
  have ht := pointsTo_share (ℓ := tLoc d) (I := Finset.univ) (f := m (tLoc d)) (Val := Elt F) (Ix := HIx 1) (Name := ℕ) (U := UU) (Lvl := ℕ) (PosShare.mem_left_op_right (fullShare : PosShare TreeShare))
  have hs := pointsTo_share (ℓ := sLoc d) (I := Finset.univ) (f := m (sLoc d)) (Val := Elt F) (Ix := HIx 1) (Name := ℕ) (U := UU) (Lvl := ℕ) (PosShare.mem_left_op_right (fullShare : PosShare TreeShare))
  have hi := pointsTo_share (ℓ := iLoc d) (I := Finset.univ) (f := (I : Buf (Elt F) (iLoc d))) (Val := Elt F) (Ix := HIx 1) (Name := ℕ) (U := UU) (Lvl := ℕ) (PosShare.mem_left_op_right (fullShare : PosShare TreeShare))
  have he := pointsTo_share (ℓ := eLoc d) (I := Finset.univ) (f := (E : Buf (Elt F) (eLoc d))) (Val := Elt F) (Ix := HIx 1) (Name := ℕ) (U := UU) (Lvl := ℕ) (PosShare.mem_left_op_right (fullShare : PosShare TreeShare))
  constructor
  · iintro ⟨Ht, Hs, Hi, He⟩
    ihave Ht := ht.1 $$ Ht; ihave Hs := hs.1 $$ Hs; ihave Hi := hi.1 $$ Hi; ihave He := he.1 $$ He
    icases Ht with ⟨Ht1, Ht2⟩; icases Hs with ⟨Hs1, Hs2⟩; icases Hi with ⟨Hi1, Hi2⟩; icases He with ⟨He1, He2⟩
    isplitl [Ht1 Hs1 Hi1 He1]
    · isplitl [Ht1]; · iexact Ht1
      isplitl [Hs1]; · iexact Hs1
      isplitl [Hi1]; · iexact Hi1
      iexact He1
    · isplitl [Ht2]; · iexact Ht2
      isplitl [Hs2]; · iexact Hs2
      isplitl [Hi2]; · iexact Hi2
      iexact He2
  · iintro ⟨⟨Ht1, Hs1, Hi1, He1⟩, ⟨Ht2, Hs2, Hi2, He2⟩⟩
    isplitl [Ht1 Ht2]; · iapply ht.2; isplitl [Ht1]; · iexact Ht1
                         iexact Ht2
    isplitl [Hs1 Hs2]; · iapply hs.2; isplitl [Hs1]; · iexact Hs1
                         iexact Hs2
    isplitl [Hi1 Hi2]; · iapply hi.2; isplitl [Hi1]; · iexact Hi1
                         iexact Hi2
    iapply he.2; isplitl [He1]; · iexact He1
    iexact He2

theorem st0_intro (d : Dev nD) :
    iprop((tLoc d ↦{fullShare} m (tLoc d)) ∗ (sLoc d ↦{fullShare} m (sLoc d)) ∗ (iLoc d ↦{fullShare} (I : Buf (Elt F) (iLoc d)))
        ∗ (eLoc d ↦{fullShare} (E : Buf (Elt F) (eLoc d))) ∗ ∃ f, oLoc d ↦{fullShare} f)
      ⊢ (bigSep Finset.univ fun c : Fin ((K (F := F)).nCore 0) => (P m I E).st 0 d c : sProp 𝕄) := by
  rw [show (bigSep Finset.univ fun c : Fin ((K (F := F)).nCore 0) => (P m I E).st 0 d c : sProp 𝕄) = _ from
    bigSep_cores (F := F) (fun c' : Fin 2 => iprop(roAt m I E d (scShare c'.val) ∗ bigSep Finset.univ fun s : Fin 16 => outAny d (coordsV c' s)))]
  iintro ⟨Ht, Hs, Hi, He, %f, Ho⟩
  ihave Hro := (roAt_halves m I E d).1 $$ [Ht Hs Hi He]
  · isplitl [Ht]; · iexact Ht
    isplitl [Hs]; · iexact Hs
    isplitl [Hi]; · iexact Hi
    iexact He
  icases Hro with ⟨Hr0, Hr1⟩
  ihave Ho := (Entails.of_eq ((o_pieces d f).trans (bigSep_univ_two _))) $$ Ho
  icases Ho with ⟨Ho0, Ho1⟩
  isplitl [Hr0 Ho0]
  · isplitl [Hr0]; · iexact Hr0
    iapply (Transfers.ent (bigSep_mono (s := Finset.univ) fun s _ => outAt_any d f (coordsV 0 s))); iexact Ho0
  · isplitl [Hr1]; · iexact Hr1
    iapply (Transfers.ent (bigSep_mono (s := Finset.univ) fun s _ => outAt_any d f (coordsV 1 s))); iexact Ho1

theorem dn0_elim (d : Dev nD) :
    (bigSep Finset.univ fun c : Fin ((K (F := F)).nCore 0) => (P m I E).dn 0 d c : sProp 𝕄)
      ⊢ iprop((tLoc d ↦{fullShare} m (tLoc d)) ∗ (sLoc d ↦{fullShare} m (sLoc d)) ∗ (iLoc d ↦{fullShare} (I : Buf (Elt F) (iLoc d)))
        ∗ (eLoc d ↦{fullShare} (E : Buf (Elt F) (eLoc d))) ∗ oLoc d ↦{fullShare} (dotsM m I E d : Buf (Elt F) (oLoc d))) := by
  rw [show (bigSep Finset.univ fun c : Fin ((K (F := F)).nCore 0) => (P m I E).dn 0 d c : sProp 𝕄) = _ from
    bigSep_cores (F := F) (fun c' : Fin 2 => iprop(roAt m I E d (scShare c'.val) ∗ bigSep Finset.univ fun s : Fin 16 => outDone m I E d (coordsV c' s)))]
  iintro ⟨⟨Hr0, Ho0⟩, ⟨Hr1, Ho1⟩⟩
  ihave Hro := (roAt_halves m I E d).2 $$ [Hr0 Hr1]
  · isplitl [Hr0]; · iexact Hr0
    iexact Hr1
  icases Hro with ⟨Ht, Hs, Hi, He⟩
  isplitl [Ht]; · iexact Ht
  isplitl [Hs]; · iexact Hs
  isplitl [Hi]; · iexact Hi
  isplitl [He]; · iexact He
  iapply (Entails.of_eq ((o_pieces d (dotsM m I E d : Buf (Elt F) (oLoc d))).trans (bigSep_univ_two _)).symm)
  isplitl [Ho0]; · iexact Ho0
  iexact Ho1

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem roAt_toks (d : Dev nD) (q : PosShare TreeShare) :
    (roAt m I E d q : sProp 𝕄) ⊣⊢ iprop(roAt m I E d (Transfers.shareDrop q 16) ∗ bigSep Finset.univ fun i : Fin 16 => roAt m I E d (Transfers.shareTokN q i.val)) := by
  unfold roAt
  rw [bigSep_sep', bigSep_sep', bigSep_sep']
  have ht := Transfers.pointsTo_toks (ℓ := tLoc d) (S := Finset.univ) (f := m (tLoc d)) (Val := Elt F) (Ix := HIx 1) (Name := ℕ) (U := UU) (Lvl := ℕ) q 16
  have hs := Transfers.pointsTo_toks (ℓ := sLoc d) (S := Finset.univ) (f := m (sLoc d)) (Val := Elt F) (Ix := HIx 1) (Name := ℕ) (U := UU) (Lvl := ℕ) q 16
  have hi := Transfers.pointsTo_toks (ℓ := iLoc d) (S := Finset.univ) (f := (I : Buf (Elt F) (iLoc d))) (Val := Elt F) (Ix := HIx 1) (Name := ℕ) (U := UU) (Lvl := ℕ) q 16
  have he := Transfers.pointsTo_toks (ℓ := eLoc d) (S := Finset.univ) (f := (E : Buf (Elt F) (eLoc d))) (Val := Elt F) (Ix := HIx 1) (Name := ℕ) (U := UU) (Lvl := ℕ) q 16
  constructor
  · iintro ⟨Ht, Hs, Hi, He⟩
    ihave Ht := ht.1 $$ Ht; ihave Hs := hs.1 $$ Hs; ihave Hi := hi.1 $$ Hi; ihave He := he.1 $$ He
    icases Ht with ⟨Ht1, Ht2⟩; icases Hs with ⟨Hs1, Hs2⟩; icases Hi with ⟨Hi1, Hi2⟩; icases He with ⟨He1, He2⟩
    isplitl [Ht1 Hs1 Hi1 He1]
    · isplitl [Ht1]; · iexact Ht1
      isplitl [Hs1]; · iexact Hs1
      isplitl [Hi1]; · iexact Hi1
      iexact He1
    · isplitl [Ht2]; · iexact Ht2
      isplitl [Hs2]; · iexact Hs2
      isplitl [Hi2]; · iexact Hi2
      iexact He2
  · iintro ⟨⟨Ht1, Hs1, Hi1, He1⟩, ⟨Ht2, Hs2, Hi2, He2⟩⟩
    isplitl [Ht1 Ht2]
    · iapply ht.2; isplitl [Ht1]; · iexact Ht1
      iexact Ht2
    isplitl [Hs1 Hs2]
    · iapply hs.2; isplitl [Hs1]; · iexact Hs1
      iexact Hs2
    isplitl [Hi1 Hi2]
    · iapply hi.2; isplitl [Hi1]; · iexact Hi1
      iexact Hi2
    iapply he.2; isplitl [He1]; · iexact He1
    iexact He2

theorem vecSplit : (K (F := F)).VecSplit' (P m I E) 0 := by
  intro d c
  show iprop(roAt m I E d (scShare c.val) ∗ bigSep Finset.univ fun s : Fin 16 => outAny d (coordsV (Fin.cast nCore_zero c) s))
    ⊢ |={Set.univ}=> iprop(
      (bigSep Finset.univ fun i : Fin ((K (F := F)).nSub 0) =>
        (fun i' : Fin 16 => iprop(roAt m I E d (tileShare c.val i'.val) ∗ outAny d (coordsV (Fin.cast nCore_zero c) i'))) (Fin.cast nSub_zero i))
      ∗ ((bigSep Finset.univ fun i : Fin ((K (F := F)).nSub 0) =>
          (fun i' : Fin 16 => iprop(roAt m I E d (tileShare c.val i'.val) ∗ outDone m I E d (coordsV (Fin.cast nCore_zero c) i'))) (Fin.cast nSub_zero i))
          -∗ iprop(roAt m I E d (scShare c.val) ∗ bigSep Finset.univ fun s : Fin 16 => outDone m I E d (coordsV (Fin.cast nCore_zero c) s))))
  rw [bigSep_tasks (F := F) (fun i' : Fin 16 => iprop(roAt m I E d (tileShare c.val i'.val) ∗ outAny d (coordsV (Fin.cast nCore_zero c) i'))),
    bigSep_tasks (F := F) (fun i' : Fin 16 => iprop(roAt m I E d (tileShare c.val i'.val) ∗ outDone m I E d (coordsV (Fin.cast nCore_zero c) i'))),
    bigSep_sep' Finset.univ (fun i' : Fin 16 => roAt m I E d (tileShare c.val i'.val)) (fun i' : Fin 16 => outAny d (coordsV (Fin.cast nCore_zero c) i')),
    bigSep_sep' Finset.univ (fun i' : Fin 16 => roAt m I E d (tileShare c.val i'.val)) (fun i' : Fin 16 => outDone m I E d (coordsV (Fin.cast nCore_zero c) i'))]
  iintro ⟨Hro, Ho⟩
  ihave Hro := (roAt_toks m I E d (scShare c.val)).1 $$ Hro
  icases Hro with ⟨Hrem, Htoks⟩
  imodintro
  isplitl [Htoks Ho]
  · isplitl [Htoks]; · iexact Htoks
    iexact Ho
  iintro ⟨Htoks, Ho⟩
  isplitl [Hrem Htoks]
  · iapply (roAt_toks m I E d (scShare c.val)).2
    isplitl [Hrem]; · iexact Hrem
    iexact Htoks
  iexact Ho

end Cert.HandB

end
-- ==== Proof.HeldAgreeB.lean ====
import proofs.«204931_g11295763988758_cont_test2_10_9_alg».proof.Proof.ValsB

noncomputable section

namespace Cert.HandB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

theorem held_agree (c : Thread nD τ) (A : Finset (DevRef τ sig)) (W : Valuation τ sig (Elt F)) (s' : Phys nD τ sig (Elt F)) :
    iprop(held c A W ∗ SI s') ⊢ (⌜∀ b ∈ A, s'.mem.mem (c.1, b) = W b⌝ : sProp 𝕄) := by
  induction A using Finset.induction_on with
  | empty =>
    iintro -
    ipureintro
    intro b hb
    exact absurd hb (Finset.notMem_empty b)
  | insert b A hb ih =>
    unfold held at ih ⊢
    have e : bigSep (insert b A) (fun b => ((c.1, b) ↦{fullShare} W b : sProp 𝕄))
        = iprop(((c.1, b) ↦{fullShare} W b) ∗ bigSep A (fun b => ((c.1, b) ↦{fullShare} W b : sProp 𝕄))) :=
      bigSep_insert hb
    rw [e]
    iintro ⟨⟨Hb, HA⟩, HSI⟩
    ihave H := (persistent_entails_right (SI_pointsTo_agree (st := s') (ℓ := (c.1, b)) (I := Finset.univ) (q := fullShare) (f := W b))) $$ [HSI Hb]
    · isplitl [HSI] <;> iassumption
    icases H with ⟨%h1, HSI, -⟩
    ihave H2 := ih $$ [HA HSI]
    · isplitl [HA] <;> iassumption
    icases H2 with %h2
    ipureintro
    intro b' hb'
    rcases Finset.mem_insert.1 hb' with rfl | h
    · exact funext fun i => h1 i (Finset.mem_univ i)
    · exact h2 b' h

variable (m : (ℓ : Loc nD τ sig) → Buf (Elt F) ℓ)

def fq (d : Dev nD) (s' : Phys nD τ sig (Elt F)) : Prop :=
  ∀ b ∈ (UC : Finset (DevRef τ sig)), s'.mem.mem (d, b) = We m d b

theorem hfin (d : Dev nD) (s' : Phys nD τ sig (Elt F)) :
    iprop(held (T d) UC (We m d) ∗ SI s') ⊢ (⌜fq m d s'⌝ : sProp 𝕄) :=
  held_agree (T d) UC (We m d) s'

end Cert.HandB

end
-- ==== Proof.LaunchB.lean ====
import proofs.«204931_g11295763988758_cont_test2_10_9_alg».proof.Proof.LaunchElemB
import proofs.«204931_g11295763988758_cont_test2_10_9_alg».proof.Proof.ScPayB
import proofs.«204931_g11295763988758_cont_test2_10_9_alg».proof.Proof.HeldAgreeB

noncomputable section

namespace Cert.HandB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

abbrev d0 : Dev nD := 0

abbrev Pk : (K (F := F)).Pay (nD := nD) (Val := Elt F) (Name := ℕ) (U := UU) := P m (Ik m d0) (Ek m d0)

abbrev FIN (d : Dev nD) : sProp 𝕄 := held (T d) UC (We m d)

def QC : PUnit × MemSt nD τ sig (Elt F) → Prop := fun r => ∀ c : Dev nD, ∀ b ∈ (UC : Finset (DevRef τ sig)), r.2.mem (c, b) = We m c b

theorem run_main_of [∀ e, Nonempty (Elt F e)]
    (htile : (K (F := F)).TileObl (D (F := F)) 𝒱 (Pk m) v₀ 0)
    (hmain : ∀ (κ : GSem nD τ sig → ℕ) (d : Dev nD),
      iprop((K (F := F)).ctx EH (Pk m) κ ∗ (K (F := F)).tcSt EH d 0 ∗ (K (F := F)).tcRes m ρ d ∗ G (F := F) d)
        ⊢ wp frame (wpE ((K (F := F)).defs (D (F := F))) 𝒱 (SparseCore.T d) none) Set.univ (main d)
            fun _ => iprop((K (F := F)).tcSt EH d 1 ∗ FIN m d)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := Pk m) facts v₀
    (fun q hq => match q with | 0 => nomatch hq)
    (fun q _ => match q with | 0 => htile)
    (fun q _ => match q with | 0 => SparseCore.Cfg.VecSplit.of_plain (vecSplit m (Ik m d0) (Ek m d0)))
    m ρ main (G (F := F)) (FIN m) (u₀ (F := F)) (sep_elim_left.trans (hu₀ (Pk m) (fun _ _ => rfl))) hmain (fq m) (hfin m) (QC m) (fun _ h c => h c)

end Cert.HandB

end
-- ==== Proof.ValsKeptB.lean ====
import proofs.«204931_g11295763988758_cont_test2_10_9_alg».proof.Proof.ValsB

noncomputable section

namespace Cert.HandB

open Cert.Kernel Cert.Kernel.Gen

open Idealize.ShloMosaic
open Idealize.ShloMosaic.SparseCore (S V T)
open Idealize.SL Idealize.SL.Sem

variable {F : FTy → Type} [FloatOps F]

variable (m : (ℓ : Loc nD τ sig) → Buf (Elt F) ℓ)

theorem Wa_of_ne (c : Dev nD) {r : Ref sig .tc} (h0 : r ≠ main_v0) (h1 : r ≠ main_v1) (h2 : r ≠ main_v2) (h3 : r ≠ main_v3) :
    Wa m c (Proc.devRef .tc r) = m (c, Proc.devRef .tc r) := by
  unfold Wa
  rw [StableHlo.reshape_result_ne _ _ _ _ _ _ _ h3, StableHlo.reshape_result_ne _ _ _ _ _ _ _ h2,
    StableHlo.binary_result_ne _ _ _ _ _ _ _ _ h1, StableHlo.unary_result_ne _ _ _ _ _ _ h0]
  rfl

theorem Wb_of_ne (c : Dev nD) (r : Ref sig .tc) (hr : ∀ w, Pipeline.arrRef spec0 w ≠ r) :
    Wb m c (Proc.devRef .tc r) = Wa m c (Proc.devRef .tc r) := Wx0_of_ne (Wa m) c r hr

theorem Wb_in (c : Dev nD) (w : Fin cfg0.W) (hin : (cfg0.win w).isOut = false) :
    Wb m c (Proc.devRef .tc (Pipeline.arrRef spec0 w)) = Wa m c (Proc.devRef .tc (Pipeline.arrRef spec0 w)) :=
  (Wx0_arr (Wa m) c w).trans (((dat0 (Vof (Wa m)) c).arrAt_in w hin _).trans (A_eq0 (Vof (Wa m)) c w))

theorem Wc_of_ne (c : Dev nD) {r : Ref sig .tc} (h : r ≠ main_v5) : Wc m c (Proc.devRef .tc r) = Wb m c (Proc.devRef .tc r) := by
  unfold Wc
  exact Function.update_of_ne (StableHlo.devRef_ne_of_ne h) _ _

theorem Wd_of_ne (c : Dev nD) (r : Ref sig .tc) (hr : ∀ w, Pipeline.arrRef spec2 w ≠ r) :
    Wd m c (Proc.devRef .tc r) = Wc m c (Proc.devRef .tc r) := Wx2_of_ne (Wc m) c r hr

theorem We_of_ne (c : Dev nD) {r : Ref sig .tc} (h : r ≠ main_v7) : We m c (Proc.devRef .tc r) = Wd m c (Proc.devRef .tc r) := by
  unfold We
  exact StableHlo.reshape_result_ne _ _ _ _ _ _ _ h

theorem We_arg0 (c : Dev nD) : We m c (Proc.devRef .tc (main_arg0 : Ref sig .tc)) = m (c, Proc.devRef .tc main_arg0) :=
  calc We m c (Proc.devRef .tc (main_arg0 : Ref sig .tc))
    _ = Wd m c (Proc.devRef .tc main_arg0) := We_of_ne m c (by decide)
    _ = Wc m c (Proc.devRef .tc main_arg0) := Wd_of_ne m c main_arg0 (by decide)
    _ = Wb m c (Proc.devRef .tc main_arg0) := Wc_of_ne m c (by decide)
    _ = Wa m c (Proc.devRef .tc main_arg0) := Wb_of_ne m c main_arg0 (by decide)
    _ = m (c, Proc.devRef .tc main_arg0) := Wa_of_ne m c (by decide) (by decide) (by decide) (by decide)

theorem We_arg1 (c : Dev nD) : We m c (Proc.devRef .tc (main_arg1 : Ref sig .tc)) = m (c, Proc.devRef .tc main_arg1) :=
  calc We m c (Proc.devRef .tc (main_arg1 : Ref sig .tc))
    _ = Wd m c (Proc.devRef .tc main_arg1) := We_of_ne m c (by decide)
    _ = Wc m c (Proc.devRef .tc main_arg1) := Wd_of_ne m c main_arg1 (by decide)
    _ = Wb m c (Proc.devRef .tc main_arg1) := Wc_of_ne m c (by decide)
    _ = Wa m c (Proc.devRef .tc main_arg1) := Wb_in m c 0 rfl
    _ = m (c, Proc.devRef .tc main_arg1) := Wa_of_ne m c (by decide) (by decide) (by decide) (by decide)

theorem We_arg2 (c : Dev nD) : We m c (Proc.devRef .tc (main_arg2 : Ref sig .tc)) = m (c, Proc.devRef .tc main_arg2) :=
  calc We m c (Proc.devRef .tc (main_arg2 : Ref sig .tc))
    _ = Wd m c (Proc.devRef .tc main_arg2) := We_of_ne m c (by decide)
    _ = Wc m c (Proc.devRef .tc main_arg2) := Wd_of_ne m c main_arg2 (by decide)
    _ = Wb m c (Proc.devRef .tc main_arg2) := Wc_of_ne m c (by decide)
    _ = Wa m c (Proc.devRef .tc main_arg2) := Wb_in m c 1 rfl
    _ = m (c, Proc.devRef .tc main_arg2) := Wa_of_ne m c (by decide) (by decide) (by decide) (by decide)

theorem We_arg3 (c : Dev nD) : We m c (Proc.devRef .tc (main_arg3 : Ref sig .tc)) = m (c, Proc.devRef .tc main_arg3) :=
  calc We m c (Proc.devRef .tc (main_arg3 : Ref sig .tc))
    _ = Wd m c (Proc.devRef .tc main_arg3) := We_of_ne m c (by decide)
    _ = Wc m c (Proc.devRef .tc main_arg3) := Wd_of_ne m c main_arg3 (by decide)
    _ = Wb m c (Proc.devRef .tc main_arg3) := Wc_of_ne m c (by decide)
    _ = Wa m c (Proc.devRef .tc main_arg3) := Wb_of_ne m c main_arg3 (by decide)
    _ = m (c, Proc.devRef .tc main_arg3) := Wa_of_ne m c (by decide) (by decide) (by decide) (by decide)

theorem We_arg4 (c : Dev nD) : We m c (Proc.devRef .tc (main_arg4 : Ref sig .tc)) = m (c, Proc.devRef .tc main_arg4) :=
  calc We m c (Proc.devRef .tc (main_arg4 : Ref sig .tc))
    _ = Wd m c (Proc.devRef .tc main_arg4) := We_of_ne m c (by decide)
    _ = Wc m c (Proc.devRef .tc main_arg4) := Wd_of_ne m c main_arg4 (by decide)
    _ = Wb m c (Proc.devRef .tc main_arg4) := Wc_of_ne m c (by decide)
    _ = Wa m c (Proc.devRef .tc main_arg4) := Wb_of_ne m c main_arg4 (by decide)
    _ = m (c, Proc.devRef .tc main_arg4) := Wa_of_ne m c (by decide) (by decide) (by decide) (by decide)

theorem We_arg5 (c : Dev nD) : We m c (Proc.devRef .tc (main_arg5 : Ref sig .tc)) = m (c, Proc.devRef .tc main_arg5) :=
  calc We m c (Proc.devRef .tc (main_arg5 : Ref sig .tc))
    _ = Wd m c (Proc.devRef .tc main_arg5) := We_of_ne m c (by decide)
    _ = Wc m c (Proc.devRef .tc main_arg5) := Wd_of_ne m c main_arg5 (by decide)
    _ = Wb m c (Proc.devRef .tc main_arg5) := Wc_of_ne m c (by decide)
    _ = Wa m c (Proc.devRef .tc main_arg5) := Wb_in m c 2 rfl
    _ = m (c, Proc.devRef .tc main_arg5) := Wa_of_ne m c (by decide) (by decide) (by decide) (by decide)

theorem We_arg6 (c : Dev nD) : We m c (Proc.devRef .tc (main_arg6 : Ref sig .tc)) = m (c, Proc.devRef .tc main_arg6) :=
  calc We m c (Proc.devRef .tc (main_arg6 : Ref sig .tc))
    _ = Wd m c (Proc.devRef .tc main_arg6) := We_of_ne m c (by decide)
    _ = Wc m c (Proc.devRef .tc main_arg6) := Wd_of_ne m c main_arg6 (by decide)
    _ = Wb m c (Proc.devRef .tc main_arg6) := Wc_of_ne m c (by decide)
    _ = Wa m c (Proc.devRef .tc main_arg6) := Wb_of_ne m c main_arg6 (by decide)
    _ = m (c, Proc.devRef .tc main_arg6) := Wa_of_ne m c (by decide) (by decide) (by decide) (by decide)

theorem We_arg7 (c : Dev nD) : We m c (Proc.devRef .tc (main_arg7 : Ref sig .tc)) = m (c, Proc.devRef .tc main_arg7) :=
  calc We m c (Proc.devRef .tc (main_arg7 : Ref sig .tc))
    _ = Wd m c (Proc.devRef .tc main_arg7) := We_of_ne m c (by decide)
    _ = Wc m c (Proc.devRef .tc main_arg7) := Wd_of_ne m c main_arg7 (by decide)
    _ = Wb m c (Proc.devRef .tc main_arg7) := Wc_of_ne m c (by decide)
    _ = Wa m c (Proc.devRef .tc main_arg7) := Wb_in m c 4 rfl
    _ = m (c, Proc.devRef .tc main_arg7) := Wa_of_ne m c (by decide) (by decide) (by decide) (by decide)

theorem We_arg8 (c : Dev nD) : We m c (Proc.devRef .tc (main_arg8 : Ref sig .tc)) = m (c, Proc.devRef .tc main_arg8) :=
  calc We m c (Proc.devRef .tc (main_arg8 : Ref sig .tc))
    _ = Wd m c (Proc.devRef .tc main_arg8) := We_of_ne m c (by decide)
    _ = Wc m c (Proc.devRef .tc main_arg8) := Wd_of_ne m c main_arg8 (by decide)
    _ = Wb m c (Proc.devRef .tc main_arg8) := Wc_of_ne m c (by decide)
    _ = Wa m c (Proc.devRef .tc main_arg8) := Wb_of_ne m c main_arg8 (by decide)
    _ = m (c, Proc.devRef .tc main_arg8) := Wa_of_ne m c (by decide) (by decide) (by decide) (by decide)

theorem We_arg9 (c : Dev nD) : We m c (Proc.devRef .tc (main_arg9 : Ref sig .tc)) = m (c, Proc.devRef .tc main_arg9) :=
  calc We m c (Proc.devRef .tc (main_arg9 : Ref sig .tc))
    _ = Wd m c (Proc.devRef .tc main_arg9) := We_of_ne m c (by decide)
    _ = Wc m c (Proc.devRef .tc main_arg9) := Wd_of_ne m c main_arg9 (by decide)
    _ = Wb m c (Proc.devRef .tc main_arg9) := Wc_of_ne m c (by decide)
    _ = Wa m c (Proc.devRef .tc main_arg9) := Wb_of_ne m c main_arg9 (by decide)
    _ = m (c, Proc.devRef .tc main_arg9) := Wa_of_ne m c (by decide) (by decide) (by decide) (by decide)

theorem We_arg10 (c : Dev nD) : We m c (Proc.devRef .tc (main_arg10 : Ref sig .tc)) = m (c, Proc.devRef .tc main_arg10) :=
  calc We m c (Proc.devRef .tc (main_arg10 : Ref sig .tc))
    _ = Wd m c (Proc.devRef .tc main_arg10) := We_of_ne m c (by decide)
    _ = Wc m c (Proc.devRef .tc main_arg10) := Wd_of_ne m c main_arg10 (by decide)
    _ = Wb m c (Proc.devRef .tc main_arg10) := Wc_of_ne m c (by decide)
    _ = Wa m c (Proc.devRef .tc main_arg10) := Wb_of_ne m c main_arg10 (by decide)
    _ = m (c, Proc.devRef .tc main_arg10) := Wa_of_ne m c (by decide) (by decide) (by decide) (by decide)

theorem We_v7 (c : Dev nD) : We m c (Proc.devRef .tc (main_v7 : Ref sig .tc)) = outK m c := rfl

end Cert.HandB

end
-- ==== Proof.RegionBodiesB.lean ====
import proofs.«204931_g11295763988758_cont_test2_10_9_alg».proof.Proof.RegionDatsB

set_option maxRecDepth 16384

noncomputable section

namespace Cert.HandB

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

set_option maxHeartbeats 1000000 in

theorem sound_kernel0 (c : Dev nD) (E : Set ℕ) (i : grid0.Coords)
    (arg1 : Memref sig .tc .vmem S256x2048 .f32) (harg1 : arg1.IsWhole) (arg2 : Memref sig .tc .vmem S256x2048 .f32) (harg2 : arg2.IsWhole)
    (arg3 : Memref sig .tc .vmem S2048x128 .f32) (harg3 : arg3.IsWhole) (arg4 : Memref sig .tc .vmem S1x128 .f32) (harg4 : arg4.IsWhole)
    (arg5 : Memref sig .tc .vmem S2048x128 .f32) (harg5 : arg5.IsWhole) (arg6 : Memref sig .tc .vmem S1x128 .f32) (harg6 : arg6.IsWhole)
    (arg7 : Memref sig .tc .vmem S2x256x128 .f32) (harg7 : arg7.IsWhole)
    (x0 : Vec F S256x2048 .f32) (x1 : Vec F S256x2048 .f32) (x2 : Vec F S2048x128 .f32) (x3 : Vec F S1x128 .f32)
    (x4 : Vec F S2048x128 .f32) (x5 : Vec F S1x128 .f32) (Q : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ Q ⟨⟩))
      ⊢ wp frame (wpE (defs₀ (F := F)) Variants.none c none) E
          (cc0__emb_body i arg1 harg1 arg2 harg2 arg3 harg3 arg4 harg4 arg5 harg5 arg6 harg6 arg7 harg7) Q := by
  simp only [cc0__emb_body_eq_skeleton]; unfold cc0__emb_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover0_6 _ _)

section Regions
variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt none t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt none t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt none t.succ = (dat0 V c).owesAt none t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none none Set.univ := fun t => by
  rw [bigSep_W0, bigSep_W0]
  exact sound_body0 V c t

end Regions

set_option maxHeartbeats 1000000 in

theorem sound_kernel2 (c : Dev nD) (E : Set ℕ)
    (arg0 : Memref sig .tc .vmem S2x1024x512 .f32) (harg0 : arg0.IsWhole) (arg1 : Memref sig .tc .vmem S1x1 .f32) (harg1 : arg1.IsWhole)
    (x0 : Vec F S2x1024x512 .f32) (Q : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out2_1 x0)) -∗ Q ⟨⟩))
      ⊢ wp frame (wpE (defs₀ (F := F)) Variants.none c none) E (cc2__loss_body arg0 harg0 arg1 harg1) Q := by
  simp only [cc2__loss_body_eq_skeleton]; unfold cc2__loss_body_skel
  simp only [k2_part1_eq_skeleton]; unfold k2_part1_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  try dsimp only
  exact View.read_writes_eq_canon _ _ _ (cover2_1 _)

section Regions
variable (V : (c : Dev nD) → (b : Ref sig .tc) → Buf (Elt F) ((c : Thread nD τ).loc b))

def bodyPre2 (c : Dev nD) (t : Fin cfg2.N) : sProp 𝕄 :=
  iprop((dat2 V c).Φ t.castSucc ∗ (dat2 V c).owesAt none t.castSucc
    ∗ (∃ d, owns (c : Thread nD τ) (st2_0 t) fullShare ((dat2 V c).before 0 t d))
    ∗ (∃ d, owns (c : Thread nD τ) (st2_1 t) fullShare ((dat2 V c).before 1 t d)))

def bodyPost2 (c : Dev nD) (t : Fin cfg2.N) : sProp 𝕄 :=
  iprop((dat2 V c).Φ t.succ ∗ (dat2 V c).owesAt none t.succ
    ∗ owns (c : Thread nD τ) (st2_0 t) fullShare ((dat2 V c).after 0 t)
    ∗ owns (c : Thread nD τ) (st2_1 t) fullShare ((dat2 V c).after 1 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt none t.succ = (dat2 V c).owesAt none t.castSucc from rfl,
    after2_0, after2_1]
  iintro ⟨HΦ, Ho, ⟨%d0, H0⟩, ⟨%d1, H1⟩⟩
  iapply (sound_kernel2 c Set.univ _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation2 (c : Dev nD) : BodyObligation (dat2 (F := F) V c) (defs₀ (F := F)) Variants.none none Set.univ := fun t => by
  rw [bigSep_W2, bigSep_W2]
  exact sound_body2 V c t

end Regions

end Cert.HandB

end
-- ==== Proof.RegionSegsB.lean ====
import proofs.«204931_g11295763988758_cont_test2_10_9_alg».proof.Proof.RegionBodiesB

set_option maxRecDepth 16384

noncomputable section

namespace Cert.HandB

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

theorem sub_bound_of_WBelow {c : Dev nD} {W : Waits sig (HIx 1)} {b : ℕ} {B : Set (SemLoc sig × HIx 1)}
    (h : (K (F := F)).WBelow (SparseCore.T c) W b) : (↑W : Set (SemLoc sig × HIx 1)) ⊆ recBelow (F := F) c b ∪ B :=
  fun p hp => Or.inl (h p (Finset.mem_coe.mp hp))

theorem WBelow_of_sub_bound {c : Dev nD} {W : Waits sig (HIx 1)} {b : ℕ} (cfg : Pipeline.Cfg sig Λ₀)
    (h : (↑W : Set (SemLoc sig × HIx 1)) ⊆ recBelow (F := F) c b ∪ cfg.waitPairs none) :
    (K (F := F)).WBelow (SparseCore.T c) W b := fun p hp => by
  rcases h (Finset.mem_coe.mpr hp) with h | ⟨w, s, rfl⟩
  · exact h
  · exact Nat.zero_le _

section Segs

variable (Wa Wb : Dev nD → Valuation τ sig (Elt F))

theorem hwaits0 (c : Dev nD) :
    (levAts (K (F := F)).L (K (F := F)).lev : sProp 𝕄)
      ⊢ Pipeline.cellsWaits (Pipeline.pin (pcfgs (F := F)) adm) (pdats (Vof Wa) (Vof Wb)) none 0 c :=
  Pipeline.cellsWaits_intro (Pipeline.pin (pcfgs (F := F)) adm) (pdats (Vof Wa) (Vof Wb)) none 0 c fun w s t =>
    (K (F := F)).mayWait_none _ (Otc_none c 0)

theorem hwaits2 (c : Dev nD) :
    (levAts (K (F := F)).L (K (F := F)).lev : sProp 𝕄)
      ⊢ Pipeline.cellsWaits (Pipeline.pin (pcfgs (F := F)) adm) (pdats (Vof Wa) (Vof Wb)) none 1 c :=
  Pipeline.cellsWaits_intro (Pipeline.pin (pcfgs (F := F)) adm) (pdats (Vof Wa) (Vof Wb)) none 1 c fun w s t =>
    (K (F := F)).mayWait_none _ (Otc_none c 1)

set_option backward.isDefEq.respectTransparency.types false in

def reg0 : Pipeline.RegionSeg (pcfgs (F := F)) adm (pdats (Vof Wa) (Vof Wb)) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 (Vof Wa) c).loose
  hwaits := hwaits0 Wa Wb
  pre c := iprop(StableHlo.held (c : Thread nD τ) (Pipeline.ucRefs τ sig) (Wa c) ∗ Rn (F := F) 0 c)
  post c := iprop(StableHlo.held (c : Thread nD τ) (Pipeline.ucRefs τ sig) (Wx0 Wa c) ∗ Rn (F := F) 0 c)
  X c := iprop(emp)
  Y c := iprop(emp)
  Z c := Pipeline.unscopedRest (Ix := HIx 1) (Name := ℕ) (U := UU) (Lvl := ℕ) spec0 c (Vof Wa c)
  hentry c := by
    rw [Pipeline.ownSems0_none]
    have hsplit := Pipeline.arrays_of_unscopedBufs (p := 0) (pcfgs (F := F)) adm (pdats (Vof Wa) (Vof Wb)) launch0.win launch0.arr_whole c
      ((pdats (Vof Wa) (Vof Wb) 0 c).share_full fun _ => rfl) (Vof Wa c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact sub_bound_of_WBelow hW
      iexact HO
    isplitr; · iempintro
    iexact Hrest
  hin c := by
    rw [show (pdats (Vof Wa) (Vof Wb) 0 c).Φ 0 = ΦR (F := F) spec0 c from rfl]; unfold ΦR
    iintro ⟨-, -, Hr⟩
    iexact Hr
  hout c := by
    rw [Pipeline.ownSems0_none, show (pdats (Vof Wa) (Vof Wb) 0 c).Φ (Fin.last _) = ΦR (F := F) spec0 c from rfl]; unfold ΦR
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats (Vof Wa) (Vof Wb)) ((pdats (Vof Wa) (Vof Wb) 0 c).share_full fun _ => rfl)
      (Vof Wa c) (Vof (Wx0 Wa) c) ((pdats (Vof Wa) (Vof Wb) 0 c).arrAt · cfg0.N) (hF0 Wa c) (hrest0 Wa c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr; · ipureintro; exact WBelow_of_sub_bound cfg0 hW
    iexact HO

set_option backward.isDefEq.respectTransparency.types false in

def reg2 : Pipeline.RegionSeg (pcfgs (F := F)) adm (pdats (Vof Wa) (Vof Wb)) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation2 (Vof Wb) c).loose
  hwaits := hwaits2 Wa Wb
  pre c := iprop(StableHlo.held (c : Thread nD τ) (Pipeline.ucRefs τ sig) (Wb c) ∗ Rn (F := F) 1 c)
  post c := iprop(StableHlo.held (c : Thread nD τ) (Pipeline.ucRefs τ sig) (Wx2 Wb c) ∗ Rn (F := F) 1 c)
  X c := iprop(emp)
  Y c := iprop(emp)
  Z c := Pipeline.unscopedRest (Ix := HIx 1) (Name := ℕ) (U := UU) (Lvl := ℕ) spec2 c (Vof Wb c)
  hentry c := by
    rw [Pipeline.ownSems0_none]
    have hsplit := Pipeline.arrays_of_unscopedBufs (p := 1) (pcfgs (F := F)) adm (pdats (Vof Wa) (Vof Wb)) launch2.win launch2.arr_whole c
      ((pdats (Vof Wa) (Vof Wb) 1 c).share_full fun _ => rfl) (Vof Wb c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact sub_bound_of_WBelow hW
      iexact HO
    isplitr; · iempintro
    iexact Hrest
  hin c := by
    rw [show (pdats (Vof Wa) (Vof Wb) 1 c).Φ 0 = ΦR (F := F) spec2 c from rfl]; unfold ΦR
    iintro ⟨-, -, Hr⟩
    iexact Hr
  hout c := by
    rw [Pipeline.ownSems0_none, show (pdats (Vof Wa) (Vof Wb) 1 c).Φ (Fin.last _) = ΦR (F := F) spec2 c from rfl]; unfold ΦR
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats (Vof Wa) (Vof Wb)) ((pdats (Vof Wa) (Vof Wb) 1 c).share_full fun _ => rfl)
      (Vof Wb c) (Vof (Wx2 Wb) c) ((pdats (Vof Wa) (Vof Wb) 1 c).arrAt · cfg2.N) (hF2 Wb c) (hrest2 Wb c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr; · ipureintro; exact WBelow_of_sub_bound cfg2 hW
    iexact HO

theorem reg0_pre (c : Dev nD) : (reg0 Wa Wb).pre c = iprop(StableHlo.held (c : Thread nD τ) (Pipeline.ucRefs τ sig) (Wa c) ∗ Rn (F := F) 0 c) := rfl
theorem reg0_post (c : Dev nD) : (reg0 Wa Wb).post c = iprop(StableHlo.held (c : Thread nD τ) (Pipeline.ucRefs τ sig) (Wx0 Wa c) ∗ Rn (F := F) 0 c) := rfl

theorem reg2_pre (c : Dev nD) : (reg2 Wa Wb).pre c = iprop(StableHlo.held (c : Thread nD τ) (Pipeline.ucRefs τ sig) (Wb c) ∗ Rn (F := F) 1 c) := rfl
theorem reg2_post (c : Dev nD) : (reg2 Wa Wb).post c = iprop(StableHlo.held (c : Thread nD τ) (Pipeline.ucRefs τ sig) (Wx2 Wb c) ∗ Rn (F := F) 1 c) := rfl

end Segs

end Cert.HandB

end
-- ==== Proof.MainB.lean ====
import proofs.«204931_g11295763988758_cont_test2_10_9_alg».proof.Proof.LaunchB
import proofs.«204931_g11295763988758_cont_test2_10_9_alg».proof.Proof.ValsKeptB
import proofs.«204931_g11295763988758_cont_test2_10_9_alg».proof.Proof.RegionSegsB

noncomputable section

namespace Cert.HandB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

theorem tcSt_take (d : Dev nD) (n : ℕ) :
    ((K (F := F)).tcSt EH d n : sProp 𝕄) ⊢ iprop(Rn (F := F) n d ∗ (Rn (F := F) n d -∗ (K (F := F)).tcSt EH d n)) := by
  unfold SparseCore.Cfg.tcSt
  iintro ⟨HO, Hrest⟩
  isplitl [HO]; · iexact HO
  iintro HO
  isplitl [HO]; · iexact HO
  iexact Hrest

abbrev S5 : Finset (DevRef τ sig) := {a10', a9', v1', v4', v5'}

theorem S5_sub : S5 ⊆ (UC : Finset (DevRef τ sig)) := by decide

theorem held_S5 (d : Dev nD) (W : Valuation τ sig (Elt F)) :
    (held (T d) S5 W : sProp 𝕄) = iprop((tLoc d ↦{fullShare} W a10') ∗ (sLoc d ↦{fullShare} W a9')
      ∗ (iLoc d ↦{fullShare} W v1') ∗ (eLoc d ↦{fullShare} W v4') ∗ (oLoc d ↦{fullShare} W v5')) := by
  unfold held S5
  rw [SparseCore.bigSep_insert' (by decide), SparseCore.bigSep_insert' (by decide), SparseCore.bigSep_insert' (by decide), SparseCore.bigSep_insert' (by decide), bigSep_singleton]

theorem Wb_a10 (d : Dev nD) : Wb m d a10' = m (tLoc d) :=
  (Wb_of_ne m d main_arg10 (by decide)).trans (Wa_of_ne m d (by decide) (by decide) (by decide) (by decide))
theorem Wb_a9 (d : Dev nD) : Wb m d a9' = m (sLoc d) :=
  (Wb_of_ne m d main_arg9 (by decide)).trans (Wa_of_ne m d (by decide) (by decide) (by decide) (by decide))
theorem Wb_v1 (d : Dev nD) : Wb m d v1' = Ik m d := Wb_of_ne m d main_v1 (by decide)
theorem Wb_v4 (d : Dev nD) : Wb m d v4' = Ek m d := rfl

theorem Wc_a10 (d : Dev nD) : Wc m d a10' = m (tLoc d) := (Wc_of_ne m d (by decide)).trans (Wb_a10 m d)
theorem Wc_a9 (d : Dev nD) : Wc m d a9' = m (sLoc d) := (Wc_of_ne m d (by decide)).trans (Wb_a9 m d)
theorem Wc_v1 (d : Dev nD) : Wc m d v1' = Ik m d := (Wc_of_ne m d (by decide)).trans (Wb_v1 m d)
theorem Wc_v4 (d : Dev nD) : Wc m d v4' = Ek m d := (Wc_of_ne m d (by decide)).trans (Wb_v4 m d)
theorem Wc_out (d : Dev nD) : Wc m d v5' = Dk m d := by unfold Wc; exact Function.update_self _ _ _

theorem held_Wb_take (d : Dev nD) :
    (held (T d) UC (Wb m d) : sProp 𝕄) ⊢ iprop((tLoc d ↦{fullShare} m (tLoc d)) ∗ (sLoc d ↦{fullShare} m (sLoc d))
      ∗ (iLoc d ↦{fullShare} (Ik m d : Buf (Elt F) (iLoc d))) ∗ (eLoc d ↦{fullShare} (Ek m d : Buf (Elt F) (eLoc d)))
      ∗ (∃ f, oLoc d ↦{fullShare} f) ∗ held (T d) (UC \ S5) (Wb m d)) := by
  rw [StableHlo.held_sub_split (T d) S5_sub (Wb m d), held_S5, Wb_a10, Wb_a9, Wb_v1, Wb_v4]
  iintro ⟨⟨Ht, Hs, Hi, He, Ho⟩, Hrest⟩
  isplitl [Ht]; · iexact Ht
  isplitl [Hs]; · iexact Hs
  isplitl [Hi]; · iexact Hi
  isplitl [He]; · iexact He
  isplitl [Ho]; · iexists _; iexact Ho
  iexact Hrest

theorem held_Wc_join (d : Dev nD) :
    iprop((tLoc d ↦{fullShare} m (tLoc d)) ∗ (sLoc d ↦{fullShare} m (sLoc d))
      ∗ (iLoc d ↦{fullShare} (Ik m d : Buf (Elt F) (iLoc d))) ∗ (eLoc d ↦{fullShare} (Ek m d : Buf (Elt F) (eLoc d)))
      ∗ (oLoc d ↦{fullShare} (Dk m d : Buf (Elt F) (oLoc d))) ∗ held (T d) (UC \ S5) (Wb m d)) ⊢ (held (T d) UC (Wc m d) : sProp 𝕄) := by
  rw [StableHlo.held_sub_split (T d) S5_sub (Wc m d), held_S5, Wc_a10, Wc_a9, Wc_v1, Wc_v4, Wc_out,
    StableHlo.held_congr (T d) (S := UC \ S5) (V := Wc m d) (V' := Wb m d) (fun b hb => by
      have hne : b ≠ v5' := fun e => (Finset.mem_sdiff.mp hb).2 (by rw [e]; decide)
      unfold Wc
      exact Function.update_of_ne hne _ _)]
  iintro ⟨Ht, Hs, Hi, He, Ho, Hrest⟩
  isplitl [Ht Hs Hi He Ho]
  · isplitl [Ht]; · iexact Ht
    isplitl [Hs]; · iexact Hs
    isplitl [Hi]; · iexact Hi
    isplitl [He]; · iexact He
    iexact Ho
  iexact Hrest

set_option backward.isDefEq.respectTransparency.types false in

theorem hmain [∀ e, Nonempty (Elt F e)] (κ : GSem nD τ sig → ℕ) (d : Dev nD) :
    iprop((K (F := F)).ctx EH (Pk m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  obtain rfl : d = d0 := Subsingleton.elim _ _
  unfold SparseCore.Cfg.tcRes G
  rw [show unscopedBufs d0 (fun b => m ((SparseCore.T d0).loc b)) = held (T d0) UC (W0 m d0) from Pipeline.unscopedBufs_held d0 (W0 m d0),
    bigSep_W2, bigSep_W2]
  simp only [main, wp_bind, wp_pure]
  iintro ⟨#Hctx, Hst, ⟨Hb, Hheld, -, -⟩, ⟨⟨Hg0, Hg1⟩, ⟨Ht0, Ht1⟩⟩⟩

  iapply (wp_hlo_within 𝒱 (SparseCore.T d0) none Set.univ (op := op0) (S := UC) h0 (V := W0 m d0)) $$ [Hb Hheld]
  · isplitl [Hb]; · iexact Hb
    iexact Hheld
  iintro ⟨Hb, Hheld⟩
  rw [wp_ret]; imodintro
  iapply (wp_hlo_within 𝒱 (SparseCore.T d0) none Set.univ (op := op1) (S := UC) h1 (V := (op0 (F := F)).result (W0 m d0))) $$ [Hb Hheld]
  · isplitl [Hb]; · iexact Hb
    iexact Hheld
  iintro ⟨Hb, Hheld⟩
  rw [wp_ret]; imodintro
  iapply (wp_hlo_within 𝒱 (SparseCore.T d0) none Set.univ (op := op2) (S := UC) h2 (V := (op1 (F := F)).result ((op0 (F := F)).result (W0 m d0)))) $$ [Hb Hheld]
  · isplitl [Hb]; · iexact Hb
    iexact Hheld
  iintro ⟨Hb, Hheld⟩
  rw [wp_ret]; imodintro
  iapply (wp_hlo_within 𝒱 (SparseCore.T d0) none Set.univ (op := op3) (S := UC) h3 (V := (op2 (F := F)).result ((op1 (F := F)).result ((op0 (F := F)).result (W0 m d0))))) $$ [Hb Hheld]
  · isplitl [Hb]; · iexact Hb
    iexact Hheld
  iintro ⟨Hb, Hheld⟩
  rw [wp_ret]; imodintro

  ihave Hheld := (Entails.of_eq (show (held (T d0) UC ((op3 (F := F)).result ((op2 (F := F)).result ((op1 (F := F)).result ((op0 (F := F)).result (W0 m d0))))) : sProp 𝕄)
      = held (T d0) UC (Wa m d0) from rfl)) $$ Hheld
  ihave H := (tcSt_take (F := F) d0 0) $$ Hst
  icases H with ⟨HR, Hback⟩
  iapply ((K (F := F)).wp_liftProg (D (F := F)) 𝒱 (SparseCore.T d0) Set.univ none (Prog.lift (.customCall (Pipeline.entry 0) ())) _)
  iapply ((reg0 (Wa m) (Wc m)).wp (pcfgs (F := F)) adm (pdats (Vof (Wa m)) (Vof (Wc m))) none cellOf_inj EP defs₀ 𝒱₀ (K (F := F)).L (K (F := F)).lev d0 none
    (fun _ h => nomatch h) (fun u => .ret u) _) $$ [Hb Hheld HR Hg0 Ht0 Hback Hg1 Ht1]
  rw [reg0_pre, reg0_post]
  isplitl [Hback Hg1 Ht1]
  swap
  · isplitl [Hb]; · iexact Hb
    isplitl [Hheld HR]
    · isplitl [Hheld]; · iexact Hheld
      iexact HR
    isplitr; · iapply (SparseCore.Cfg.ctx_levAts κ); iexact Hctx
    isplitl [Hg0]; · iexact Hg0
    iexact Ht0
  iintro ⟨Hb, Hheld, HR⟩
  rw [wp_ret]; imodintro
  ihave Hst := Hback $$ HR

  ihave Hheld := (Entails.of_eq (show (held (T d0) UC (Wx0 (Wa m) d0) : sProp 𝕄) = held (T d0) UC (Wb m d0) from rfl)) $$ Hheld
  ihave H5 := (held_Wb_take m d0) $$ Hheld
  icases H5 with ⟨Ht, Hs, Hi, He, Ho, Hrest⟩
  iapply ((K (F := F)).wp_run (D (F := F)) 𝒱 (EH := EH) (P := Pk m) κ d0 0) $$ [Hst Ht Hs Hi He Ho Hb Hrest Hg1 Ht1]
  isplitr; · iexact Hctx
  isplitl [Hst]; · iexact Hst
  isplitl [Ht Hs Hi He Ho]
  · iapply (st0_intro m (Ik m d0) (Ek m d0) d0)
    isplitl [Ht]; · iexact Ht
    isplitl [Hs]; · iexact Hs
    isplitl [Hi]; · iexact Hi
    isplitl [He]; · iexact He
    iexact Ho
  iintro ⟨Hst, Hdn⟩
  ihave H5 := (dn0_elim m (Ik m d0) (Ek m d0) d0) $$ Hdn
  icases H5 with ⟨Ht, Hs, Hi, He, Ho⟩
  ihave Hheld := (held_Wc_join m d0) $$ [Ht Hs Hi He Ho Hrest]
  · isplitl [Ht]; · iexact Ht
    isplitl [Hs]; · iexact Hs
    isplitl [Hi]; · iexact Hi
    isplitl [He]; · iexact He
    isplitl [Ho]; · iexact Ho
    iexact Hrest

  ihave Hst := (Entails.of_eq (show ((K (F := F)).tcSt EH d0 ((0 : Fin 1).val + 1) : sProp 𝕄) = (K (F := F)).tcSt EH d0 1 from rfl)) $$ Hst
  ihave H := (tcSt_take (F := F) d0 1) $$ Hst
  icases H with ⟨HR, Hback⟩
  iapply ((K (F := F)).wp_liftProg (D (F := F)) 𝒱 (SparseCore.T d0) Set.univ none (Prog.lift (.customCall (Pipeline.entry 1) ())) _)
  iapply ((reg2 (Wa m) (Wc m)).wp (pcfgs (F := F)) adm (pdats (Vof (Wa m)) (Vof (Wc m))) none cellOf_inj EP defs₀ 𝒱₀ (K (F := F)).L (K (F := F)).lev d0 none
    (fun _ h => nomatch h) (fun u => .ret u) _) $$ [Hb Hheld HR Hg1 Ht1 Hback]
  rw [reg2_pre, reg2_post]
  isplitl [Hback]
  swap
  · isplitl [Hb]; · iexact Hb
    isplitl [Hheld HR]
    · isplitl [Hheld]; · iexact Hheld
      iexact HR
    isplitr; · iapply (SparseCore.Cfg.ctx_levAts κ); iexact Hctx
    isplitl [Hg1]; · iexact Hg1
    iexact Ht1
  iintro ⟨Hb, Hheld, HR⟩
  rw [wp_ret]; imodintro
  ihave Hst := Hback $$ HR

  ihave Hheld := (Entails.of_eq (show (held (T d0) UC (Wx2 (Wc m) d0) : sProp 𝕄) = held (T d0) UC (Wd m d0) from rfl)) $$ Hheld
  iapply (wp_hlo_within 𝒱 (SparseCore.T d0) none Set.univ (op := op7) (S := UC) h7 (V := Wd m d0)) $$ [Hb Hheld]
  · isplitl [Hb]; · iexact Hb
    iexact Hheld
  iintro ⟨Hb, Hheld⟩
  rw [wp_ret]; imodintro; imodintro
  isplitl [Hst]; · iexact Hst
  iexact Hheld

theorem run_main_of_tile [∀ e, Nonempty (Elt F e)] (htile : (K (F := F)).TileObl (D (F := F)) 𝒱 (Pk m) v₀ 0) :
    θ_run (Cert.Kernel.defs (F := F)) (Cert.Kernel.threads (F := F)) ⟨m, fun _ => 0, ρ⟩ (QC m) :=
  run_main_of m ρ htile (hmain m ρ)

end Cert.HandB

end
-- ==== Proof.ScTileB.lean ====
import proofs.«204931_g11295763988758_cont_test2_10_9_alg».proof.Proof.ScPayB

noncomputable section

namespace Cert.HandB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

abbrev sIdx : Memref sig .scVector .vmem S128 .i32 := Memref.whole cc1_scratch0
abbrev sRows : Memref sig .scVector .vmem S128x128 .f32 := Memref.whole cc1_scratch1
abbrev sEmb : Memref sig .scVector .vmem S128 .f32 := Memref.whole cc1_scratch2
abbrev sDots : Memref sig .scVector .vmem S128 .f32 := Memref.whole cc1_scratch3

abbrev bank0 : Fin 2 := 0
abbrev bank1 : Fin 2 := 1
abbrev tblV0 : Memref sig .scVector .hbm S100000x128 .f32 := tV
abbrev tblV1 : Memref sig .scVector .hbm S100000x128 .f32 := sV
abbrev tblLoc0 (d : Dev nD) : Loc nD τ sig := tLoc d
abbrev tblLoc1 (d : Dev nD) : Loc nD τ sig := sLoc d

abbrev lanes : IVec S16 32 := iota .scVector S16 32 [0] iota_S16_d0_w32_scVector

abbrev prog_main (L : grid1.Coords) :=
  cc1__sc_dots (F := F) L tV (Memref.isWhole_whole _) sV (Memref.isWhole_whole _) iV (Memref.isWhole_whole _) eV (Memref.isWhole_whole _) oV (Memref.isWhole_whole _)
    sIdx (Memref.isWhole_whole _) sRows (Memref.isWhole_whole _) sEmb (Memref.isWhole_whole _) sDots (Memref.isWhole_whole _)
    cc1_scratch4 cc1_scoped0 cc1_scoped1 cc1_scoped2 cc1_scoped3 cc1_scoped4 cc1_scoped5
abbrev prog_t1 (L : grid1.Coords) :=
  k1_t1_body (F := F) L tV (Memref.isWhole_whole _) sV (Memref.isWhole_whole _) iV (Memref.isWhole_whole _) eV (Memref.isWhole_whole _) oV (Memref.isWhole_whole _)
    sIdx (Memref.isWhole_whole _) sRows (Memref.isWhole_whole _) sEmb (Memref.isWhole_whole _) sDots (Memref.isWhole_whole _)
    cc1_scratch4 cc1_scoped0 cc1_scoped1 cc1_scoped2 cc1_scoped3 cc1_scoped4 cc1_scoped5 lanes
abbrev prog_t2 (L : grid1.Coords) (t1 : Fin k1_t1_loop.trips) :=
  k1_t2_body (F := F) L tV (Memref.isWhole_whole _) sV (Memref.isWhole_whole _) iV (Memref.isWhole_whole _) eV (Memref.isWhole_whole _) oV (Memref.isWhole_whole _)
    sIdx (Memref.isWhole_whole _) sRows (Memref.isWhole_whole _) sEmb (Memref.isWhole_whole _) sDots (Memref.isWhole_whole _)
    cc1_scratch4 cc1_scoped0 cc1_scoped1 cc1_scoped2 cc1_scoped3 cc1_scoped4 cc1_scoped5 lanes t1
abbrev prog_t4 (L : grid1.Coords) :=
  k1_t4_body (F := F) L tV (Memref.isWhole_whole _) sV (Memref.isWhole_whole _) iV (Memref.isWhole_whole _) eV (Memref.isWhole_whole _) oV (Memref.isWhole_whole _)
    sIdx (Memref.isWhole_whole _) sRows (Memref.isWhole_whole _) sEmb (Memref.isWhole_whole _) sDots (Memref.isWhole_whole _)
    cc1_scratch4 cc1_scoped0 cc1_scoped1 cc1_scoped2 cc1_scoped3 cc1_scoped4 cc1_scoped5 lanes
abbrev prog_t5 (L : grid1.Coords) (t4 : Fin k1_t4_loop.trips) :=
  k1_t5_body (F := F) L tV (Memref.isWhole_whole _) sV (Memref.isWhole_whole _) iV (Memref.isWhole_whole _) eV (Memref.isWhole_whole _) oV (Memref.isWhole_whole _)
    sIdx (Memref.isWhole_whole _) sRows (Memref.isWhole_whole _) sEmb (Memref.isWhole_whole _) sDots (Memref.isWhole_whole _)
    cc1_scratch4 cc1_scoped0 cc1_scoped1 cc1_scoped2 cc1_scoped3 cc1_scoped4 cc1_scoped5 lanes t4

def upto {n : ℕ} (k : ℕ) (A B : Fin n → sProp 𝕄) : sProp 𝕄 := bigSep Finset.univ fun t : Fin n => if t.val < k then A t else B t

theorem upto_zero {n : ℕ} (A B : Fin n → sProp 𝕄) : upto 0 A B = bigSep Finset.univ B :=
  bigSep_congr fun t _ => if_neg (Nat.not_lt_zero _)

theorem upto_all {n : ℕ} (A B : Fin n → sProp 𝕄) : upto n A B = bigSep Finset.univ A :=
  bigSep_congr fun t _ => if_pos t.isLt

theorem upto_take {n : ℕ} (A B : Fin n → sProp 𝕄) (t : Fin n) :
    upto t.val A B = iprop(B t ∗ bigSep (Finset.univ.erase t) fun s : Fin n => if s.val < t.val then A s else B s) := by
  unfold upto
  rw [SparseCore.bigSep_erase' (Finset.mem_univ t)]
  simp only [Nat.lt_irrefl, ↓reduceIte]

theorem upto_put {n : ℕ} (A B : Fin n → sProp 𝕄) (t : Fin n) :
    upto (t.val + 1) A B = iprop(A t ∗ bigSep (Finset.univ.erase t) fun s : Fin n => if s.val < t.val then A s else B s) := by
  unfold upto
  rw [SparseCore.bigSep_erase' (Finset.mem_univ t)]
  simp only [Nat.lt_succ_self, ↓reduceIte]
  congr 1
  refine bigSep_congr fun s hs => ?_
  have hne : s.val ≠ t.val := fun e => (Finset.mem_erase.mp hs).1 (Fin.ext e)
  by_cases h : s.val < t.val
  · rw [if_pos h, if_pos (by omega)]
  · rw [if_neg h, if_neg (by omega)]

end Cert.HandB

end
-- ==== Proof.ScOblB.lean ====
import proofs.«204931_g11295763988758_cont_test2_10_9_alg».proof.Proof.ScPayB
import proofs.«204931_g11295763988758_cont_test2_10_9_alg».proof.Proof.ScTileB

noncomputable section

namespace Cert.HandB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (I : IVec S1024x512 32) (E : FVec F S2x1024x128 .f32)

theorem defs₀_vector (c : Fin τ.nSC) (s : Fin τ.nSub) :
    defs₀ (F := F) (.scVector c s) 1 ⟨⟩
      = SparseCore.onTile hcore1 hsub1 (fun c s => prog_main (F := F) (coordsV c s)) ⟨⟩ c s := rfl

omit [FloatOps F] in

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

def TileBody : Prop :=
  ∀ (d : Dev nD) (L : grid1.Coords) (q : PosShare TreeShare) (O : CellTallies nD τ sig (HIx 1)) (W : Waits sig (HIx 1)), (∀ g, O g none = 0) →
    iprop(levAts (K (F := F)).L (K (F := F)).lev ∗ emp ∗ (roAt m I E d q ∗ outAny d L) ∗ scopedBufs (thr d L) ∗ scopedSems0 (thr d L) ∗ owes (thr d L) O W)
      ⊢ wp frame (wpE (defs₀ (F := F)) 𝒱₀ (thr d L) none) Set.univ (prog_main (F := F) L) fun _ =>
          iprop((roAt m I E d q ∗ outDone m I E d L) ∗ scopedBufs (thr d L) ∗ scopedSems0 (thr d L)
            ∗ ∃ W', ⌜∀ p ∈ W', p ∈ W ∨ p.2 = none⌝ ∗ owes (thr d L) O W')

theorem tileObl_of (htile : TileBody m I E) : (K (F := F)).TileObl (D (F := F)) 𝒱 (P m I E) v₀ 0 := by
  intro d c i O W hO _ _

  simp only [show (P m I E).ox = fun _ _ => 0 from rfl, add_zero]
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (htile d (coordsV ⟨_, hc.1⟩ ⟨_, hc.2⟩) _ O W hO).trans (wp_mono frame _ _ fun _ => obl_post)

end Cert.HandB

end
-- ==== Proof.ScAccB.lean ====
import proofs.«204931_g11295763988758_cont_test2_10_9_alg».proof.Proof.Gen.Kernel

noncomputable section

namespace Cert.HandB

open Cert.Kernel Cert.Kernel.Gen

open Idealize.ShloMosaic

variable {F : FTy → Type} [FloatOps F]

def fma1 (a x y : F .f32) : F .f32 := FloatOps.addf a (FloatOps.mulf x y)

-- The first `n` terms `x₀·y₀, …, xₙ₋₁·yₙ₋₁` accumulated onto `a`, in order.
def fmaUpTo (X Y : ℕ → F .f32) : ℕ → F .f32 → F .f32
  | 0, a => a
  | n + 1, a => fma1 (fmaUpTo X Y n a) (X n) (Y n)

def fmaFrom (X Y : ℕ → F .f32) (s n : ℕ) (a : F .f32) : F .f32 :=
  fmaUpTo (fun i => X (s + i)) (fun i => Y (s + i)) n a

theorem fmaUpTo_add (X Y : ℕ → F .f32) (s n : ℕ) (a : F .f32) :
    fmaUpTo X Y (s + n) a = fmaFrom X Y s n (fmaUpTo X Y s a) := by
  induction n with
  | zero => rfl
  | succ n ih =>
    show fma1 (fmaUpTo X Y (s + n) a) (X (s + n)) (Y (s + n)) = fma1 (fmaFrom X Y s n (fmaUpTo X Y s a)) (X (s + n)) (Y (s + n))
    rw [ih]

theorem foldl_eq_fmaUpTo (X Y : ℕ → F .f32) (z : F .f32) :
    ∀ n, Fin.foldl n (fun a (d : Fin n) => fma1 a (X d.val) (Y d.val)) z = fmaUpTo X Y n z
  | 0 => Fin.foldl_zero _ _
  | n + 1 =>
    (Fin.foldl_succ_last (fun a (d : Fin (n + 1)) => fma1 a (X d.val) (Y d.val)) z).trans
      (congrArg (fun t => fma1 t (X n) (Y n)) (foldl_eq_fmaUpTo X Y z n))

def rcIdx (r c : ℕ) : S128x128.Idx := fun a => match a with
  | ⟨0, _⟩ => ⟨r % 128, Nat.mod_lt _ (by decide)⟩
  | ⟨1, _⟩ => ⟨c % 128, Nat.mod_lt _ (by decide)⟩

def eIdx (c : ℕ) : S128.Idx := fun a => match a with
  | ⟨0, _⟩ => ⟨c % 128, Nat.mod_lt _ (by decide)⟩

theorem rcIdx_eq {r : ℕ} (hr : r < 128) (c : Fin 128) :
    rcIdx r c.val = (fun a => match a with | ⟨0, _⟩ => (⟨r, hr⟩ : Fin 128) | ⟨1, _⟩ => c : S128x128.Idx) := by
  funext a
  match a with
  | ⟨0, _⟩ => exact Fin.ext (Nat.mod_eq_of_lt hr)
  | ⟨1, _⟩ => exact Fin.ext (Nat.mod_eq_of_lt c.isLt)

theorem eIdx_eq (c : Fin 128) : eIdx c.val = (fun a => match a with | ⟨0, _⟩ => c : S128.Idx) := by
  funext a
  match a with
  | ⟨0, _⟩ => exact Fin.ext (Nat.mod_eq_of_lt c.isLt)

-- Sixteen lanes of column `c0` of the block: rows `r0, …, r0 + 15`.
def gcol (R : Vec F S128x128 .f32) (r0 c0 : ℕ) : Vec F S16 .f32 := fun x => R (rcIdx (r0 + (x 0).val) c0)

def ecol (e : Vec F S128 .f32) (k : ℕ) : Vec F S16 .f32 := fun x => e (eIdx (16 * k + (x 0).val))

def stepG (R : Vec F S128x128 .f32) (e : Vec F S128 .f32) (r0 k : ℕ) (a : FVec F S16 .f32) : FVec F S16 .f32 :=
  fun x => fmaFrom (fun c => R (rcIdx (r0 + (x 0).val) c)) (fun c => e (eIdx c)) (16 * k) 16 (a x)

-- The accumulator of rows `r0 … r0 + 15` after the first `m` columns, from zero.
def accG (R : Vec F S128x128 .f32) (e : Vec F S128 .f32) (r0 m : ℕ) : FVec F S16 .f32 :=
  fun x => fmaUpTo (fun c => R (rcIdx (r0 + (x 0).val) c)) (fun c => e (eIdx c)) m (Scalar.ofBits .f32 0x00000000#32)

theorem stepG_accG (R : Vec F S128x128 .f32) (e : Vec F S128 .f32) (r0 k : ℕ) :
    stepG R e r0 k (accG R e r0 (16 * k)) = accG R e r0 (16 * (k + 1)) := by
  funext x
  show fmaFrom _ _ (16 * k) 16 (fmaUpTo _ _ (16 * k) _) = fmaUpTo _ _ (16 * (k + 1)) _
  rw [Nat.mul_add_one, fmaUpTo_add]

theorem accG_apply (R : Vec F S128x128 .f32) (e : Vec F S128 .f32) (r0 : ℕ) (x : S16.Idx) :
    accG R e r0 128 x
      = Fin.foldl 128 (fun a (d : Fin 128) => fma1 a (R (rcIdx (r0 + (x 0).val) d.val)) (e (eIdx d.val))) (Scalar.ofBits .f32 0x00000000#32) :=
  (foldl_eq_fmaUpTo (fun c => R (rcIdx (r0 + (x 0).val) c)) (fun c => e (eIdx c)) _ 128).symm

abbrev Acc8 (F : FTy → Type) : Type :=
  FVec F S16 .f32 × FVec F S16 .f32 × FVec F S16 .f32 × FVec F S16 .f32 × FVec F S16 .f32 × FVec F S16 .f32 × FVec F S16 .f32 × FVec F S16 .f32

def accAt (R : Vec F S128x128 .f32) (e : Vec F S128 .f32) (m : ℕ) : Acc8 F :=
  (accG R e 0 m, accG R e 16 m, accG R e 32 m, accG R e 48 m, accG R e 64 m, accG R e 80 m, accG R e 96 m, accG R e 112 m)

def stepAll (R : Vec F S128x128 .f32) (e : Vec F S128 .f32) (k : ℕ) (a0 a1 a2 a3 a4 a5 a6 a7 : FVec F S16 .f32) : Acc8 F :=
  (stepG R e 0 k a0, stepG R e 16 k a1, stepG R e 32 k a2, stepG R e 48 k a3, stepG R e 64 k a4, stepG R e 80 k a5, stepG R e 96 k a6, stepG R e 112 k a7)

theorem stepAll_accAt (R : Vec F S128x128 .f32) (e : Vec F S128 .f32) (k : ℕ) :
    stepAll R e k (accG R e 0 (16 * k)) (accG R e 16 (16 * k)) (accG R e 32 (16 * k)) (accG R e 48 (16 * k))
        (accG R e 64 (16 * k)) (accG R e 80 (16 * k)) (accG R e 96 (16 * k)) (accG R e 112 (16 * k))
      = accAt R e (16 * (k + 1)) := by
  unfold stepAll accAt
  simp only [stepG_accG]

theorem rowA (w : BitVec 32) (hw : w.toNat ≤ 112) (x : S16.Idx) :
    ((addi (broadcast S16 w) (iota .scVector S16 32 [0] iota_S16_d0_w32_scVector)) x).toNat = w.toNat + (x 0).val := by
  have hx : (x 0).val < 16 := (x 0).isLt
  show (w + BitVec.ofNat 32 (0 * 16 + (x 0).val)).toNat = w.toNat + (x 0).val
  rw [BitVec.toNat_add, BitVec.toNat_ofNat]
  omega

theorem trips3 : k1_t3_loop.trips = 8 := by decide +kernel

theorem lt3 (k : Fin k1_t3_loop.trips) : k.val < 8 := lt_of_lt_of_eq k.isLt trips3

theorem colB3 : ∀ (k : Fin k1_t3_loop.trips) (j : Fin 16),
    (Scalar.addi (Scalar.muli (Scf.iv 0#32 1#32 k.val) 16#32) (BitVec.ofNat 32 j.val)).toNat = 16 * k.val + j.val := by decide +kernel

-- The column word `16 kk + j` does not wrap.
theorem colW {kk j : ℕ} (hk : kk < 8) (hj : j < 16) :
    (Scalar.addi (Scalar.muli (Scf.iv 0#32 1#32 kk) 16#32) (BitVec.ofNat 32 j)).toNat = 16 * kk + j :=
  colB3 ⟨kk, lt_of_lt_of_eq hk trips3.symm⟩ ⟨j, hj⟩

theorem chk_of {rv cv : IVec S16 32} (r0 c0 : ℕ) (hrow : ∀ x, (rv x).toNat = r0 + (x 0).val) (hcol : ∀ x, (cv x).toNat = c0)
    (hr : r0 + 15 < 128) (hc : c0 < 128) :
    ∀ a x, ((![rv, cv] : Fin 2 → IVec S16 32) a x).toNat < S128x128.size a := by
  intro a x
  have hx : (x 0).val < 16 := (x 0).isLt
  match a with
  | ⟨0, _⟩ => show (rv x).toNat < 128; rw [hrow]; omega
  | ⟨1, _⟩ => show (cv x).toNat < 128; rw [hcol]; exact hc

-- A gather at rows `r0 … r0 + 15` and one column reads sixteen lanes of that column.
theorem loadIdx_eq_gcol (R : Vec F S128x128 .f32) {rv cv : IVec S16 32} (r0 c0 : ℕ) (hrow : ∀ x, (rv x).toNat = r0 + (x 0).val)
    (hcol : ∀ x, (cv x).toNat = c0) (hr : r0 + 15 < 128) (hc : c0 < 128)
    (h : ∀ a x, ((![rv, cv] : Fin 2 → IVec S16 32) a x).toNat < S128x128.size a) :
    loadIdx R (![rv, cv] : Fin 2 → IVec S16 32) h = gcol R r0 c0 := by
  funext x
  have hx : (x 0).val < 16 := (x 0).isLt
  show R (idxAt (![rv, cv] : Fin 2 → IVec S16 32) h x) = R (rcIdx (r0 + (x 0).val) c0)
  congr 1
  funext a
  match a with
  | ⟨0, _⟩ =>
    apply Fin.ext
    show (rv x).toNat = (r0 + (x 0).val) % 128
    rw [hrow]
    exact (Nat.mod_eq_of_lt (by omega)).symm
  | ⟨1, _⟩ =>
    apply Fin.ext
    show (cv x).toNat = c0 % 128
    rw [hcol]
    exact (Nat.mod_eq_of_lt hc).symm

end Cert.HandB

end
-- ==== Proof.ScIdxB.lean ====
import proofs.«204931_g11295763988758_cont_test2_10_9_alg».proof.Proof.ScPayB
import proofs.«204931_g11295763988758_cont_test2_10_9_alg».proof.Proof.ScAccB
import Idealize.ShloMosaic.Lib.SparseCore.Stream
import Idealize.ShloMosaic.Lib.Pipeline.Value

noncomputable section

namespace Cert.HandB

open Cert.Kernel Cert.Kernel.Gen

open Idealize.ShloMosaic

variable {F : FTy → Type} [FloatOps F]

def rowN (L : grid1.Coords) (t : ℕ) : ℕ := 64 * (L 1).val + 32 * (L 0).val + t

theorem rowN_lt (L : grid1.Coords) {t : ℕ} (ht : t < 32) : rowN L t < 1024 := by
  have h0 : (L 0).val < 2 := (L 0).isLt
  have h1 : (L 1).val < 16 := (L 1).isLt
  unfold rowN
  omega

theorem eq_eIdx (y : S128.Idx) : y = eIdx (y 0).val := by
  have h : (y 0).val < 128 := (y 0).isLt
  funext a
  match a with
  | ⟨0, _⟩ => exact Fin.ext (Nat.mod_eq_of_lt h).symm

theorem reshape_S128_S1x1x128 (j : Fin 128) :
    Shape.reshapeEquiv squeezes_S1x1x128_S128.numel_eq (eIdx j.val) = (ix3 (0 : Fin 1) (0 : Fin 1) j : S1x1x128.Idx) :=
  Shape.reshapeEquiv_eq_of_rowMajor _ (by
    rw [Shape.rowMajor_val_three, Shape.rowMajor_val_one]
    show ((0 : Fin 1).val * 1 + (0 : Fin 1).val) * 128 + j.val = j.val % 128
    rw [Nat.mod_eq_of_lt j.isLt]
    show (0 * 1 + 0) * 128 + j.val = j.val
    omega)

theorem reshape_S128_S1x128 (j : Fin 128) :
    Shape.reshapeEquiv squeezes_S1x128_S128.numel_eq (eIdx j.val) = (ix2 (0 : Fin 1) j : S1x128.Idx) :=
  Shape.reshapeEquiv_eq_of_rowMajor _ (by
    rw [Shape.rowMajor_val_two, Shape.rowMajor_val_one]
    show (0 : Fin 1).val * 128 + j.val = j.val % 128
    rw [Nat.mod_eq_of_lt j.isLt]
    show 0 * 128 + j.val = j.val
    omega)

abbrev eRow0 (L : grid1.Coords) (t1 : Fin k1_t1_loop.trips) : Memref sig .scVector .hbm S128 .f32 :=
  ((Memref.whole main_v4_scv : Memref sig .scVector .hbm S2x1024x128 .f32).slice
    (Rect.unit (s := S2x1024x128) (k1_off1 L t1) S1x1x128.size (k1_off1_inb L t1)) (fun _ => rfl)).squeeze S128 squeezes_S1x1x128_S128

abbrev eRow1 (L : grid1.Coords) (t4 : Fin k1_t4_loop.trips) : Memref sig .scVector .hbm S128 .f32 :=
  ((Memref.whole main_v4_scv : Memref sig .scVector .hbm S2x1024x128 .f32).slice
    (Rect.unit (s := S2x1024x128) (k1_off5 L t4) S1x1x128.size (k1_off5_inb L t4)) (fun _ => rfl)).squeeze S128 squeezes_S1x1x128_S128

abbrev iRow0 (L : grid1.Coords) (t1 : Fin k1_t1_loop.trips) (t2 : Fin k1_t2_loop.trips) : Memref sig .scVector .hbm S128 .i32 :=
  ((Memref.whole main_v1_scv : Memref sig .scVector .hbm S1024x512 .i32).slice
    (Rect.unit (s := S1024x512) (k1_off2 L t1 t2) S1x128.size (k1_off2_inb L t1 t2)) (fun _ => rfl)).squeeze S128 squeezes_S1x128_S128

abbrev iRow1 (L : grid1.Coords) (t4 : Fin k1_t4_loop.trips) (t5 : Fin k1_t5_loop.trips) : Memref sig .scVector .hbm S128 .i32 :=
  ((Memref.whole main_v1_scv : Memref sig .scVector .hbm S1024x512 .i32).slice
    (Rect.unit (s := S1024x512) (k1_off6 L t4 t5) S1x128.size (k1_off6_inb L t4 t5)) (fun _ => rfl)).squeeze S128 squeezes_S1x128_S128

theorem emb_eRow0 (L : grid1.Coords) (t1 : Fin k1_t1_loop.trips) (dd : Fin 128) :
    (eRow0 L t1).view.emb (eIdx dd.val)
      = (ix3 (0 : Fin 2) (⟨rowN L t1.val, rowN_lt L (lt1 t1)⟩ : Fin 1024) dd : S2x1024x128.Idx) := by
  have h1 : (eRow0 L t1).view.emb (eIdx dd.val)
      = (Rect.unit (s := S2x1024x128) (k1_off1 L t1) S1x1x128.size (k1_off1_inb L t1)).emb
          (Shape.reshapeEquiv squeezes_S1x1x128_S128.numel_eq (eIdx dd.val)) := rfl
  rw [h1, reshape_S128_S1x1x128]
  funext a
  apply Fin.ext
  match a with
  | ⟨0, _⟩ =>
    show (k1_off1 L t1) 0 + 1 * (0 : Fin 1).val = (0 : Fin 2).val
    rw [k1_off1_eq]; rfl
  | ⟨1, _⟩ =>
    show (k1_off1 L t1) 1 + 1 * (0 : Fin 1).val = rowN L t1.val
    rw [k1_off1_eq]
    show 64 * (L 1).val + 32 * (L 0).val + t1.val + 1 * 0 = 64 * (L 1).val + 32 * (L 0).val + t1.val
    omega
  | ⟨2, _⟩ =>
    show (k1_off1 L t1) 2 + 1 * dd.val = dd.val
    rw [k1_off1_eq]
    show 0 + 1 * dd.val = dd.val
    omega

theorem emb_eRow1 (L : grid1.Coords) (t4 : Fin k1_t4_loop.trips) (dd : Fin 128) :
    (eRow1 L t4).view.emb (eIdx dd.val)
      = (ix3 (1 : Fin 2) (⟨rowN L t4.val, rowN_lt L (lt4 t4)⟩ : Fin 1024) dd : S2x1024x128.Idx) := by
  have h1 : (eRow1 L t4).view.emb (eIdx dd.val)
      = (Rect.unit (s := S2x1024x128) (k1_off5 L t4) S1x1x128.size (k1_off5_inb L t4)).emb
          (Shape.reshapeEquiv squeezes_S1x1x128_S128.numel_eq (eIdx dd.val)) := rfl
  rw [h1, reshape_S128_S1x1x128]
  funext a
  apply Fin.ext
  match a with
  | ⟨0, _⟩ =>
    show (k1_off5 L t4) 0 + 1 * (0 : Fin 1).val = (1 : Fin 2).val
    rw [k1_off5_eq]; rfl
  | ⟨1, _⟩ =>
    show (k1_off5 L t4) 1 + 1 * (0 : Fin 1).val = rowN L t4.val
    rw [k1_off5_eq]
    show 64 * (L 1).val + 32 * (L 0).val + t4.val + 1 * 0 = 64 * (L 1).val + 32 * (L 0).val + t4.val
    omega
  | ⟨2, _⟩ =>
    show (k1_off5 L t4) 2 + 1 * dd.val = dd.val
    rw [k1_off5_eq]
    show 0 + 1 * dd.val = dd.val
    omega

theorem emb_iRow0 (L : grid1.Coords) (t1 : Fin k1_t1_loop.trips) (t2 : Fin k1_t2_loop.trips) (j : Fin 128) :
    (iRow0 L t1 t2).view.emb (eIdx j.val)
      = (ix2 (⟨rowN L t1.val, rowN_lt L (lt1 t1)⟩ : Fin 1024)
          (⟨128 * t2.val + j.val, by have := lt2 t2; have := j.isLt; omega⟩ : Fin 512) : S1024x512.Idx) := by
  have h1 : (iRow0 L t1 t2).view.emb (eIdx j.val)
      = (Rect.unit (s := S1024x512) (k1_off2 L t1 t2) S1x128.size (k1_off2_inb L t1 t2)).emb
          (Shape.reshapeEquiv squeezes_S1x128_S128.numel_eq (eIdx j.val)) := rfl
  rw [h1, reshape_S128_S1x128]
  funext a
  apply Fin.ext
  match a with
  | ⟨0, _⟩ =>
    show (k1_off2 L t1 t2) 0 + 1 * (0 : Fin 1).val = rowN L t1.val
    rw [k1_off2_eq]
    show 64 * (L 1).val + 32 * (L 0).val + t1.val + 1 * 0 = 64 * (L 1).val + 32 * (L 0).val + t1.val
    omega
  | ⟨1, _⟩ =>
    show (k1_off2 L t1 t2) 1 + 1 * j.val = 128 * t2.val + j.val
    rw [k1_off2_eq]
    show 128 * t2.val + 1 * j.val = 128 * t2.val + j.val
    omega

theorem emb_iRow1 (L : grid1.Coords) (t4 : Fin k1_t4_loop.trips) (t5 : Fin k1_t5_loop.trips) (j : Fin 128) :
    (iRow1 L t4 t5).view.emb (eIdx j.val)
      = (ix2 (⟨rowN L t4.val, rowN_lt L (lt4 t4)⟩ : Fin 1024)
          (⟨128 * t5.val + j.val, by have := lt5 t5; have := j.isLt; omega⟩ : Fin 512) : S1024x512.Idx) := by
  have h1 : (iRow1 L t4 t5).view.emb (eIdx j.val)
      = (Rect.unit (s := S1024x512) (k1_off6 L t4 t5) S1x128.size (k1_off6_inb L t4 t5)).emb
          (Shape.reshapeEquiv squeezes_S1x128_S128.numel_eq (eIdx j.val)) := rfl
  rw [h1, reshape_S128_S1x128]
  funext a
  apply Fin.ext
  match a with
  | ⟨0, _⟩ =>
    show (k1_off6 L t4 t5) 0 + 1 * (0 : Fin 1).val = rowN L t4.val
    rw [k1_off6_eq]
    show 64 * (L 1).val + 32 * (L 0).val + t4.val + 1 * 0 = 64 * (L 1).val + 32 * (L 0).val + t4.val
    omega
  | ⟨1, _⟩ =>
    show (k1_off6 L t4 t5) 1 + 1 * j.val = 128 * t5.val + j.val
    rw [k1_off6_eq]
    show 128 * t5.val + 1 * j.val = 128 * t5.val + j.val
    omega

theorem emb_oPc0 (L : grid1.Coords) (t1 : Fin k1_t1_loop.trips) (t2 : Fin k1_t2_loop.trips) (j : Fin 128) :
    (oPc0 L t1 t2).view.emb (eIdx j.val)
      = (ix3 (0 : Fin 2) (⟨rowN L t1.val, rowN_lt L (lt1 t1)⟩ : Fin 1024)
          (⟨128 * t2.val + j.val, by have := lt2 t2; have := j.isLt; omega⟩ : Fin 512) : S2x1024x512.Idx) := by
  have h1 : (oPc0 L t1 t2).view.emb (eIdx j.val)
      = (Rect.unit (s := S2x1024x512) (k1_off4 L t1 t2) S1x1x128.size (k1_off4_inb L t1 t2)).emb
          (Shape.reshapeEquiv squeezes_S1x1x128_S128.numel_eq (eIdx j.val)) := rfl
  rw [h1, reshape_S128_S1x1x128]
  funext a
  apply Fin.ext
  match a with
  | ⟨0, _⟩ =>
    show (k1_off4 L t1 t2) 0 + 1 * (0 : Fin 1).val = (0 : Fin 2).val
    rw [k1_off4_eq]; rfl
  | ⟨1, _⟩ =>
    show (k1_off4 L t1 t2) 1 + 1 * (0 : Fin 1).val = rowN L t1.val
    rw [k1_off4_eq]
    show 64 * (L 1).val + 32 * (L 0).val + t1.val + 1 * 0 = 64 * (L 1).val + 32 * (L 0).val + t1.val
    omega
  | ⟨2, _⟩ =>
    show (k1_off4 L t1 t2) 2 + 1 * j.val = 128 * t2.val + j.val
    rw [k1_off4_eq]
    show 128 * t2.val + 1 * j.val = 128 * t2.val + j.val
    omega

theorem emb_oPc1 (L : grid1.Coords) (t4 : Fin k1_t4_loop.trips) (t5 : Fin k1_t5_loop.trips) (j : Fin 128) :
    (oPc1 L t4 t5).view.emb (eIdx j.val)
      = (ix3 (1 : Fin 2) (⟨rowN L t4.val, rowN_lt L (lt4 t4)⟩ : Fin 1024)
          (⟨128 * t5.val + j.val, by have := lt5 t5; have := j.isLt; omega⟩ : Fin 512) : S2x1024x512.Idx) := by
  have h1 : (oPc1 L t4 t5).view.emb (eIdx j.val)
      = (Rect.unit (s := S2x1024x512) (k1_off8 L t4 t5) S1x1x128.size (k1_off8_inb L t4 t5)).emb
          (Shape.reshapeEquiv squeezes_S1x1x128_S128.numel_eq (eIdx j.val)) := rfl
  rw [h1, reshape_S128_S1x1x128]
  funext a
  apply Fin.ext
  match a with
  | ⟨0, _⟩ =>
    show (k1_off8 L t4 t5) 0 + 1 * (0 : Fin 1).val = (1 : Fin 2).val
    rw [k1_off8_eq]; rfl
  | ⟨1, _⟩ =>
    show (k1_off8 L t4 t5) 1 + 1 * (0 : Fin 1).val = rowN L t4.val
    rw [k1_off8_eq]
    show 64 * (L 1).val + 32 * (L 0).val + t4.val + 1 * 0 = 64 * (L 1).val + 32 * (L 0).val + t4.val
    omega
  | ⟨2, _⟩ =>
    show (k1_off8 L t4 t5) 2 + 1 * j.val = 128 * t5.val + j.val
    rw [k1_off8_eq]
    show 128 * t5.val + 1 * j.val = 128 * t5.val + j.val
    omega

theorem mem_oPc0_exists (L : grid1.Coords) (t1 : Fin k1_t1_loop.trips) (t2 : Fin k1_t2_loop.trips) (x : S2x1024x512.Idx)
    (hx : x ∈ (oPc0 L t1 t2).view.set) : ∃ j : Fin 128, x = (oPc0 L t1 t2).view.emb (eIdx j.val) := by
  obtain ⟨y, rfl⟩ := View.exists_emb_of_mem_set (oPc0 L t1 t2).view hx
  exact ⟨⟨(y 0).val, (y 0).isLt⟩, congrArg _ (eq_eIdx y)⟩

theorem mem_oPc1_exists (L : grid1.Coords) (t4 : Fin k1_t4_loop.trips) (t5 : Fin k1_t5_loop.trips) (x : S2x1024x512.Idx)
    (hx : x ∈ (oPc1 L t4 t5).view.set) : ∃ j : Fin 128, x = (oPc1 L t4 t5).view.emb (eIdx j.val) := by
  obtain ⟨y, rfl⟩ := View.exists_emb_of_mem_set (oPc1 L t4 t5).view hx
  exact ⟨⟨(y 0).val, (y 0).isLt⟩, congrArg _ (eq_eIdx y)⟩

theorem gather_at (Mv : S100000x128.Idx → Elt F .f32) (idxv : S128.Idx → Elt F .i32)
    (hn : S128.numel = S128x128.size gathers_S100000x128_S128x128.axis')
    (hin : ∀ x, (idxv x).toNat < S100000x128.size gathers_S100000x128_S128x128.axis) (j dd : Fin 128) :
    SparseCore.gatherPayload gathers_S100000x128_S128x128 Mv (SparseCore.rows idxv hn hin) (rcIdx j.val dd.val)
      = Mv (ix2 (⟨(idxv (eIdx j.val)).toNat, hin _⟩ : Fin 100000) dd) := by
  unfold SparseCore.gatherPayload
  refine congrArg Mv (funext fun b => Fin.ext ?_)
  match b with
  | ⟨0, hb⟩ =>
    have e := congrArg Fin.val (Shape.Gathers.idx_axis gathers_S100000x128_S128x128 (SparseCore.rows idxv hn hin)
      (rcIdx j.val dd.val))
    refine e.trans ?_
    show (idxv (S128.rowMajor.symm _)).toNat = (idxv (eIdx j.val)).toNat
    refine congrArg (fun y => (idxv y).toNat) ?_
    rw [Equiv.symm_apply_eq]
    apply Fin.ext
    rw [Shape.rowMajor_val_one]
    show j.val % 128 = j.val % 128
    rfl
  | ⟨1, hb⟩ =>
    refine (Shape.Gathers.idx_of_ne gathers_S100000x128_S128x128 (SparseCore.rows idxv hn hin) (rcIdx j.val dd.val)
      ⟨1, hb⟩ Nat.one_ne_zero).trans ?_
    show dd.val % 128 = dd.val
    exact Nat.mod_eq_of_lt dd.isLt

end Cert.HandB

end
-- ==== Proof.ScInvB0B.lean ====
import proofs.«204931_g11295763988758_cont_test2_10_9_alg».proof.Proof.ScTileB
import proofs.«204931_g11295763988758_cont_test2_10_9_alg».proof.Proof.ScIdxB

noncomputable section

namespace Cert.HandB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ
variable (m : (ℓ : Loc nD τ sig) → Buf (Elt F) ℓ) (I : IVec S1024x512 32) (E : FVec F S2x1024x128 .f32)

section Bank

variable (d : Dev nD) (L : grid1.Coords)

def EmbIsB0 (t1 : Fin k1_t1_loop.trips) (fe : Buf (Elt F) ((sEmb).view.loc (thr d L))) : Prop :=
  ∀ dd : Fin 128, (sEmb).view.read (Elt F) fe (eIdx dd.val) = E (ix3 bank0 (⟨rowN L t1.val, rowN_lt L (lt1 t1)⟩ : Fin 1024) dd)

def invcB0 (q : PosShare TreeShare) (O : CellTallies nD τ sig (HIx 1)) (W : Waits sig (HIx 1)) (t1 : Fin k1_t1_loop.trips)
    (k : ℕ) (_ : BitVec 32) : sProp 𝕄 :=
  iprop(Transfers.MayWaits (thr d L) (none : HIx 1) O
    ∗ ((tblV0).view.loc (thr d L) ↦{q} m (tblLoc0 d))
    ∗ ((iV).view.loc (thr d L) ↦{q} (I : Buf (Elt F) (iLoc d)))
    ∗ (∃ f, (sIdx).view.loc (thr d L) ↦{fullShare} f)
    ∗ (∃ f, (sRows).view.loc (thr d L) ↦{fullShare} f)
    ∗ (∃ fe, ⌜EmbIsB0 E d L t1 fe⌝ ∗ (sEmb).view.loc (thr d L) ↦{fullShare} fe)
    ∗ (∃ f, (sDots).view.loc (thr d L) ↦{fullShare} f)
    ∗ semVal (thr d L, SemLoc.dma cc1_scratch4.sem) 0
    ∗ semVal (thr d L, SemLoc.dma cc1_scoped1.sem) 0
    ∗ semVal (thr d L, SemLoc.dma cc1_scoped2.sem) 0
    ∗ upto k (fun t2 : Fin k1_t2_loop.trips => (oPc0 L t1 t2).view.loc (thr d L) ↦[(oPc0 L t1 t2).view.set]{fullShare} (dotsM m I E d : Buf (Elt F) (oLoc d)))
        (fun t2 : Fin k1_t2_loop.trips => iprop(∃ f, (oPc0 L t1 t2).view.loc (thr d L) ↦[(oPc0 L t1 t2).view.set]{fullShare} f))
    ∗ ∃ W', ⌜∀ p ∈ W', p ∈ W ∨ p.2 = none⌝ ∗ owes (thr d L) O W')

def invB0 (q : PosShare TreeShare) (O : CellTallies nD τ sig (HIx 1)) (W : Waits sig (HIx 1)) (k : ℕ) (_ : BitVec 32) : sProp 𝕄 :=
  iprop(Transfers.MayWaits (thr d L) (none : HIx 1) O
    ∗ ((tblV0).view.loc (thr d L) ↦{q} m (tblLoc0 d))
    ∗ ((iV).view.loc (thr d L) ↦{q} (I : Buf (Elt F) (iLoc d)))
    ∗ ((eV).view.loc (thr d L) ↦{q} (E : Buf (Elt F) (eLoc d)))
    ∗ (∃ f, (sIdx).view.loc (thr d L) ↦{fullShare} f)
    ∗ (∃ f, (sRows).view.loc (thr d L) ↦{fullShare} f)
    ∗ (∃ f, (sEmb).view.loc (thr d L) ↦{fullShare} f)
    ∗ (∃ f, (sDots).view.loc (thr d L) ↦{fullShare} f)
    ∗ semVal (thr d L, SemLoc.dma cc1_scratch4.sem) 0
    ∗ semVal (thr d L, SemLoc.dma cc1_scoped0.sem) 0
    ∗ semVal (thr d L, SemLoc.dma cc1_scoped1.sem) 0
    ∗ semVal (thr d L, SemLoc.dma cc1_scoped2.sem) 0
    ∗ upto k (fun t1 : Fin k1_t1_loop.trips => bigSep Finset.univ fun t2 : Fin k1_t2_loop.trips =>
          (oPc0 L t1 t2).view.loc (thr d L) ↦[(oPc0 L t1 t2).view.set]{fullShare} (dotsM m I E d : Buf (Elt F) (oLoc d)))
        (fun t1 : Fin k1_t1_loop.trips => bigSep Finset.univ fun t2 : Fin k1_t2_loop.trips =>
          iprop(∃ f, (oPc0 L t1 t2).view.loc (thr d L) ↦[(oPc0 L t1 t2).view.set]{fullShare} f))
    ∗ ∃ W', ⌜∀ p ∈ W', p ∈ W ∨ p.2 = none⌝ ∗ owes (thr d L) O W')

end Bank

end Cert.HandB

end
-- ==== Proof.ScInvB1B.lean ====
import proofs.«204931_g11295763988758_cont_test2_10_9_alg».proof.Proof.ScTileB
import proofs.«204931_g11295763988758_cont_test2_10_9_alg».proof.Proof.ScIdxB

noncomputable section

namespace Cert.HandB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ
variable (m : (ℓ : Loc nD τ sig) → Buf (Elt F) ℓ) (I : IVec S1024x512 32) (E : FVec F S2x1024x128 .f32)

section Bank

variable (d : Dev nD) (L : grid1.Coords)

def EmbIsB1 (t1 : Fin k1_t4_loop.trips) (fe : Buf (Elt F) ((sEmb).view.loc (thr d L))) : Prop :=
  ∀ dd : Fin 128, (sEmb).view.read (Elt F) fe (eIdx dd.val) = E (ix3 bank1 (⟨rowN L t1.val, rowN_lt L (lt4 t1)⟩ : Fin 1024) dd)

def invcB1 (q : PosShare TreeShare) (O : CellTallies nD τ sig (HIx 1)) (W : Waits sig (HIx 1)) (t1 : Fin k1_t4_loop.trips)
    (k : ℕ) (_ : BitVec 32) : sProp 𝕄 :=
  iprop(Transfers.MayWaits (thr d L) (none : HIx 1) O
    ∗ ((tblV1).view.loc (thr d L) ↦{q} m (tblLoc1 d))
    ∗ ((iV).view.loc (thr d L) ↦{q} (I : Buf (Elt F) (iLoc d)))
    ∗ (∃ f, (sIdx).view.loc (thr d L) ↦{fullShare} f)
    ∗ (∃ f, (sRows).view.loc (thr d L) ↦{fullShare} f)
    ∗ (∃ fe, ⌜EmbIsB1 E d L t1 fe⌝ ∗ (sEmb).view.loc (thr d L) ↦{fullShare} fe)
    ∗ (∃ f, (sDots).view.loc (thr d L) ↦{fullShare} f)
    ∗ semVal (thr d L, SemLoc.dma cc1_scratch4.sem) 0
    ∗ semVal (thr d L, SemLoc.dma cc1_scoped4.sem) 0
    ∗ semVal (thr d L, SemLoc.dma cc1_scoped5.sem) 0
    ∗ upto k (fun t2 : Fin k1_t5_loop.trips => (oPc1 L t1 t2).view.loc (thr d L) ↦[(oPc1 L t1 t2).view.set]{fullShare} (dotsM m I E d : Buf (Elt F) (oLoc d)))
        (fun t2 : Fin k1_t5_loop.trips => iprop(∃ f, (oPc1 L t1 t2).view.loc (thr d L) ↦[(oPc1 L t1 t2).view.set]{fullShare} f))
    ∗ ∃ W', ⌜∀ p ∈ W', p ∈ W ∨ p.2 = none⌝ ∗ owes (thr d L) O W')

def invB1 (q : PosShare TreeShare) (O : CellTallies nD τ sig (HIx 1)) (W : Waits sig (HIx 1)) (k : ℕ) (_ : BitVec 32) : sProp 𝕄 :=
  iprop(Transfers.MayWaits (thr d L) (none : HIx 1) O
    ∗ ((tblV1).view.loc (thr d L) ↦{q} m (tblLoc1 d))
    ∗ ((iV).view.loc (thr d L) ↦{q} (I : Buf (Elt F) (iLoc d)))
    ∗ ((eV).view.loc (thr d L) ↦{q} (E : Buf (Elt F) (eLoc d)))
    ∗ (∃ f, (sIdx).view.loc (thr d L) ↦{fullShare} f)
    ∗ (∃ f, (sRows).view.loc (thr d L) ↦{fullShare} f)
    ∗ (∃ f, (sEmb).view.loc (thr d L) ↦{fullShare} f)
    ∗ (∃ f, (sDots).view.loc (thr d L) ↦{fullShare} f)
    ∗ semVal (thr d L, SemLoc.dma cc1_scratch4.sem) 0
    ∗ semVal (thr d L, SemLoc.dma cc1_scoped3.sem) 0
    ∗ semVal (thr d L, SemLoc.dma cc1_scoped4.sem) 0
    ∗ semVal (thr d L, SemLoc.dma cc1_scoped5.sem) 0
    ∗ upto k (fun t1 : Fin k1_t4_loop.trips => bigSep Finset.univ fun t2 : Fin k1_t5_loop.trips =>
          (oPc1 L t1 t2).view.loc (thr d L) ↦[(oPc1 L t1 t2).view.set]{fullShare} (dotsM m I E d : Buf (Elt F) (oLoc d)))
        (fun t1 : Fin k1_t4_loop.trips => bigSep Finset.univ fun t2 : Fin k1_t5_loop.trips =>
          iprop(∃ f, (oPc1 L t1 t2).view.loc (thr d L) ↦[(oPc1 L t1 t2).view.set]{fullShare} f))
    ∗ ∃ W', ⌜∀ p ∈ W', p ∈ W ∨ p.2 = none⌝ ∗ owes (thr d L) O W')

end Bank

end Cert.HandB

end
-- ==== Proof.ScOwnB.lean ====
import proofs.«204931_g11295763988758_cont_test2_10_9_alg».proof.Proof.ScTileB

noncomputable section

namespace Cert.HandB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid1.Coords)

def tileSems (d : Dev nD) (L : grid1.Coords) : Finset (GSem nD τ sig) :=
  {(thr d L, SemLoc.dma cc1_scratch4.sem), (thr d L, SemLoc.dma cc1_scoped0.sem), (thr d L, SemLoc.dma cc1_scoped1.sem),
   (thr d L, SemLoc.dma cc1_scoped2.sem), (thr d L, SemLoc.dma cc1_scoped3.sem), (thr d L, SemLoc.dma cc1_scoped4.sem),
   (thr d L, SemLoc.dma cc1_scoped5.sem)}

omit [FloatOps F] in

theorem isScoped_thr (a : SemLoc sig) (h : a.isScoped .scVector = true) : GSem.isScoped ((thr d L, a) : GSem nD τ sig) = true := h

omit [FloatOps F] in

theorem tileSems_sub : tileSems d L ⊆ ownCells (thr d L) := by
  intro g hg
  simp only [tileSems, Finset.mem_insert, Finset.mem_singleton] at hg
  rcases hg with rfl | rfl | rfl | rfl | rfl | rfl | rfl <;> exact mem_ownCells.mpr ⟨rfl, isScoped_thr d L _ (by decide)⟩

omit [FloatOps F] in

theorem tileSems_ne :
    (SemLoc.dma cc1_scratch4.sem : SemLoc sig) ≠ SemLoc.dma cc1_scoped0.sem ∧ (SemLoc.dma cc1_scratch4.sem : SemLoc sig) ≠ SemLoc.dma cc1_scoped1.sem
    ∧ (SemLoc.dma cc1_scratch4.sem : SemLoc sig) ≠ SemLoc.dma cc1_scoped2.sem ∧ (SemLoc.dma cc1_scratch4.sem : SemLoc sig) ≠ SemLoc.dma cc1_scoped3.sem
    ∧ (SemLoc.dma cc1_scratch4.sem : SemLoc sig) ≠ SemLoc.dma cc1_scoped4.sem ∧ (SemLoc.dma cc1_scratch4.sem : SemLoc sig) ≠ SemLoc.dma cc1_scoped5.sem
    ∧ (SemLoc.dma cc1_scoped0.sem : SemLoc sig) ≠ SemLoc.dma cc1_scoped1.sem ∧ (SemLoc.dma cc1_scoped0.sem : SemLoc sig) ≠ SemLoc.dma cc1_scoped2.sem
    ∧ (SemLoc.dma cc1_scoped0.sem : SemLoc sig) ≠ SemLoc.dma cc1_scoped3.sem ∧ (SemLoc.dma cc1_scoped0.sem : SemLoc sig) ≠ SemLoc.dma cc1_scoped4.sem
    ∧ (SemLoc.dma cc1_scoped0.sem : SemLoc sig) ≠ SemLoc.dma cc1_scoped5.sem
    ∧ (SemLoc.dma cc1_scoped1.sem : SemLoc sig) ≠ SemLoc.dma cc1_scoped2.sem ∧ (SemLoc.dma cc1_scoped1.sem : SemLoc sig) ≠ SemLoc.dma cc1_scoped3.sem
    ∧ (SemLoc.dma cc1_scoped1.sem : SemLoc sig) ≠ SemLoc.dma cc1_scoped4.sem ∧ (SemLoc.dma cc1_scoped1.sem : SemLoc sig) ≠ SemLoc.dma cc1_scoped5.sem
    ∧ (SemLoc.dma cc1_scoped2.sem : SemLoc sig) ≠ SemLoc.dma cc1_scoped3.sem ∧ (SemLoc.dma cc1_scoped2.sem : SemLoc sig) ≠ SemLoc.dma cc1_scoped4.sem
    ∧ (SemLoc.dma cc1_scoped2.sem : SemLoc sig) ≠ SemLoc.dma cc1_scoped5.sem
    ∧ (SemLoc.dma cc1_scoped3.sem : SemLoc sig) ≠ SemLoc.dma cc1_scoped4.sem ∧ (SemLoc.dma cc1_scoped3.sem : SemLoc sig) ≠ SemLoc.dma cc1_scoped5.sem
    ∧ (SemLoc.dma cc1_scoped4.sem : SemLoc sig) ≠ SemLoc.dma cc1_scoped5.sem := by decide

omit [FloatOps F] in

theorem cell_ne {a b : SemLoc sig} (h : a ≠ b) : ((thr d L, a) : GSem nD τ sig) ≠ (thr d L, b) :=
  fun e => h (Prod.mk.inj e).2

omit [FloatOps F] in

theorem ownSems0_V :
    (ownSems0 (thr d L) : sProp 𝕄)
      = iprop((semVal (thr d L, SemLoc.dma cc1_scratch4.sem) 0 ∗ semVal (thr d L, SemLoc.dma cc1_scoped0.sem) 0
          ∗ semVal (thr d L, SemLoc.dma cc1_scoped1.sem) 0 ∗ semVal (thr d L, SemLoc.dma cc1_scoped2.sem) 0
          ∗ semVal (thr d L, SemLoc.dma cc1_scoped3.sem) 0 ∗ semVal (thr d L, SemLoc.dma cc1_scoped4.sem) 0
          ∗ semVal (thr d L, SemLoc.dma cc1_scoped5.sem) 0)
          ∗ bigSep (ownCells (thr d L) \ tileSems d L) fun g => semVal g 0) := by
  obtain ⟨n01, n02, n03, n04, n05, n06, n12, n13, n14, n15, n16, n23, n24, n25, n26, n34, n35, n36, n45, n46, n56⟩ := tileSems_ne
  unfold SparseCore.Cfg.ownSems0
  rw [SparseCore.bigSep_sdiff_split' (tileSems_sub d L)]
  congr 1
  unfold tileSems
  rw [SparseCore.bigSep_insert' (by
      simp only [Finset.mem_insert, Finset.mem_singleton, not_or]
      exact ⟨cell_ne d L n01, cell_ne d L n02, cell_ne d L n03, cell_ne d L n04, cell_ne d L n05, cell_ne d L n06⟩),
    SparseCore.bigSep_insert' (by
      simp only [Finset.mem_insert, Finset.mem_singleton, not_or]
      exact ⟨cell_ne d L n12, cell_ne d L n13, cell_ne d L n14, cell_ne d L n15, cell_ne d L n16⟩),
    SparseCore.bigSep_insert' (by
      simp only [Finset.mem_insert, Finset.mem_singleton, not_or]
      exact ⟨cell_ne d L n23, cell_ne d L n24, cell_ne d L n25, cell_ne d L n26⟩),
    SparseCore.bigSep_insert' (by
      simp only [Finset.mem_insert, Finset.mem_singleton, not_or]
      exact ⟨cell_ne d L n34, cell_ne d L n35, cell_ne d L n36⟩),
    SparseCore.bigSep_insert' (by
      simp only [Finset.mem_insert, Finset.mem_singleton, not_or]
      exact ⟨cell_ne d L n45, cell_ne d L n46⟩),
    SparseCore.bigSep_insert' (by
      simp only [Finset.mem_singleton]
      exact cell_ne d L n56),
    bigSep_singleton]

def tileBufs (L : grid1.Coords) : Finset (DevRef τ sig) :=
  {(Proc.scVector (cV L) (jV L)).devRef cc1_scratch0, (Proc.scVector (cV L) (jV L)).devRef cc1_scratch1,
   (Proc.scVector (cV L) (jV L)).devRef cc1_scratch2, (Proc.scVector (cV L) (jV L)).devRef cc1_scratch3}

omit [FloatOps F] in

theorem tileBufs_sub : tileBufs L ⊆ ownRefs (τ := τ) (.scVector (cV L) (jV L)) := by
  intro b hb
  simp only [tileBufs, Finset.mem_insert, Finset.mem_singleton] at hb
  rcases hb with rfl | rfl | rfl | rfl <;> exact SparseCore.Cfg.mem_ownRefs_of_owner rfl

omit [FloatOps F] in

theorem scratch_ne {a b : Ref sig .scVector} (h : a ≠ b) :
    (Proc.scVector (cV L) (jV L)).devRef a ≠ (Proc.scVector (cV L) (jV L)).devRef b :=
  fun e => h (Proc.devRef_injective _ e)

omit [FloatOps F] in

theorem ownBufs_V :
    (ownBufs (thr d L) : sProp 𝕄)
      = iprop(((∃ f, (sIdx).view.loc (thr d L) ↦{fullShare} f) ∗ (∃ f, (sRows).view.loc (thr d L) ↦{fullShare} f)
          ∗ (∃ f, (sEmb).view.loc (thr d L) ↦{fullShare} f) ∗ (∃ f, (sDots).view.loc (thr d L) ↦{fullShare} f))
          ∗ bigSep (ownRefs (τ := τ) (.scVector (cV L) (jV L)) \ tileBufs L) fun b => iprop(∃ f, ((d, b) : Loc nD τ sig) ↦{fullShare} f)) := by
  unfold SparseCore.Cfg.ownBufs
  rw [show ((thr d L).2 : Proc τ) = .scVector (cV L) (jV L) from rfl, SparseCore.bigSep_sdiff_split' (tileBufs_sub L)]
  congr 1
  unfold tileBufs
  rw [SparseCore.bigSep_insert' (by
      simp only [Finset.mem_insert, Finset.mem_singleton, not_or]
      exact ⟨scratch_ne L (by decide), scratch_ne L (by decide), scratch_ne L (by decide)⟩),
    SparseCore.bigSep_insert' (by
      simp only [Finset.mem_insert, Finset.mem_singleton, not_or]
      exact ⟨scratch_ne L (by decide), scratch_ne L (by decide)⟩),
    SparseCore.bigSep_insert' (by
      simp only [Finset.mem_singleton]
      exact scratch_ne L (by decide)),
    bigSep_singleton]

end Cert.HandB

end
-- ==== Proof.ScBodyB.lean ====
import proofs.«204931_g11295763988758_cont_test2_10_9_alg».proof.Proof.ScInvB0B
import proofs.«204931_g11295763988758_cont_test2_10_9_alg».proof.Proof.ScInvB1B
import proofs.«204931_g11295763988758_cont_test2_10_9_alg».proof.Proof.ScOwnB
import proofs.«204931_g11295763988758_cont_test2_10_9_alg».proof.Proof.ScTileB
import Idealize.ShloMosaic.Lib.Tactic

noncomputable section

namespace Cert.HandB

open Cert.Kernel Cert.Kernel.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (I : IVec S1024x512 32) (E : FVec F S2x1024x128 .f32)

set_option maxHeartbeats 4000000 in

theorem tile_body_of (d : Dev nD) (L : grid1.Coords) (q : PosShare TreeShare)
    (O : CellTallies nD τ sig (HIx 1)) (W : Waits sig (HIx 1))
    (hrow0 : ∀ (t1 : Fin k1_t1_loop.trips) (acc : BitVec 32),
      invB0 m I E d L q O W t1.val acc
        ⊢ wp frame (wpE (defs₀ (F := F)) 𝒱₀ (thr d L) none) Set.univ (prog_t1 (F := F) L t1 acc)
            (invB0 m I E d L q O W (t1.val + 1)))
    (hrow1 : ∀ (t4 : Fin k1_t4_loop.trips) (acc : BitVec 32),
      invB1 m I E d L q O W t4.val acc
        ⊢ wp frame (wpE (defs₀ (F := F)) 𝒱₀ (thr d L) none) Set.univ (prog_t4 (F := F) L t4 acc)
            (invB1 m I E d L q O W (t4.val + 1)))
    (hF : (K (F := F)).Facts) (hO : ∀ g, O g none = 0) :
    iprop(levAts (K (F := F)).L (K (F := F)).lev ∗ emp ∗ (roAt m I E d q ∗ outAny d L)
        ∗ scopedBufs (thr d L) ∗ scopedSems0 (thr d L) ∗ owes (thr d L) O W)
      ⊢ wp frame (wpE (defs₀ (F := F)) 𝒱₀ (thr d L) none) Set.univ (prog_main (F := F) L)
          fun _ => iprop((roAt m I E d q ∗ outDone m I E d L) ∗ scopedBufs (thr d L) ∗ scopedSems0 (thr d L)
            ∗ ∃ W', ⌜∀ p ∈ W', p ∈ W ∨ p.2 = none⌝ ∗ owes (thr d L) O W') := by
  unfold prog_main
  simp only [cc1__sc_dots_eq_skeleton]; unfold cc1__sc_dots_skel
  rw [(K (F := F)).scopedBufs_V hF d (cV L) (jV L), SparseCore.Cfg.scopedSems0_V (Val := Elt F) d (cV L) (jV L), ownSems0_V, ownBufs_V]
  unfold roAt outAny outDone outAt
  iintro ⟨#Hlv, -, ⟨⟨Ht, Hs, Hi, He⟩, Hout0, Hout1⟩, ⟨⟨⟨%fi, Hsi⟩, ⟨%fr, Hsr⟩, ⟨%fe, Hse⟩, ⟨%fd, Hsd⟩⟩, Hbufs⟩,
    ⟨⟨HgA, Hg0, Hg1, Hg2, Hg3, Hg4, Hg5⟩, Hsems⟩, HO⟩
  ihave Hmw := (show levAts (K (F := F)).L (K (F := F)).lev ⊢ Transfers.MayWaits (thr d L) (none : HIx 1) O from
    (K (F := F)).mayWaits_none (thr := thr d L) hO) $$ Hlv
  sl_exec
  sl_for (invB0 m I E d L q O W) $$ [Hmw Ht Hi He Hsi Hsr Hse Hsd HgA Hg0 Hg1 Hg2 Hout0 HO]
  case region => exact fun t1 acc => hrow0 t1 acc
  · unfold invB0
    rw [upto_zero]
    isplitl [Hmw]; · iexact Hmw
    isplitl [Ht]; · iexact Ht
    isplitl [Hi]; · iexact Hi
    isplitl [He]; · iexact He
    isplitl [Hsi]; · iexists _; iexact Hsi
    isplitl [Hsr]; · iexists _; iexact Hsr
    isplitl [Hse]; · iexists _; iexact Hse
    isplitl [Hsd]; · iexists _; iexact Hsd
    isplitl [HgA]; · iexact HgA
    isplitl [Hg0]; · iexact Hg0
    isplitl [Hg1]; · iexact Hg1
    isplitl [Hg2]; · iexact Hg2
    isplitl [Hout0]; · iexact Hout0
    iexists W; isplitr
    · ipureintro; exact fun p hp => .inl hp
    · iexact HO
  iintro %_ HI
  unfold invB0
  rw [upto_all]
  icases HI with ⟨Hmw, Ht, Hi, He, ⟨%fi1, Hsi⟩, ⟨%fr1, Hsr⟩, ⟨%fe1, Hse⟩, ⟨%fd1, Hsd⟩, HgA, Hg0, Hg1, Hg2, Hdone0, %W1, %hW1, HO⟩
  sl_for (invB1 m I E d L q O W) $$ [Hmw Hs Hi He Hsi Hsr Hse Hsd HgA Hg3 Hg4 Hg5 Hout1 HO]
  case region => exact fun t4 acc => hrow1 t4 acc
  · unfold invB1
    rw [upto_zero]
    isplitl [Hmw]; · iexact Hmw
    isplitl [Hs]; · iexact Hs
    isplitl [Hi]; · iexact Hi
    isplitl [He]; · iexact He
    isplitl [Hsi]; · iexists _; iexact Hsi
    isplitl [Hsr]; · iexists _; iexact Hsr
    isplitl [Hse]; · iexists _; iexact Hse
    isplitl [Hsd]; · iexists _; iexact Hsd
    isplitl [HgA]; · iexact HgA
    isplitl [Hg3]; · iexact Hg3
    isplitl [Hg4]; · iexact Hg4
    isplitl [Hg5]; · iexact Hg5
    isplitl [Hout1]; · iexact Hout1
    iexists W1; isplitr
    · ipureintro; exact hW1
    · iexact HO
  iintro %_ HI
  unfold invB1
  rw [upto_all]
  icases HI with ⟨-, Hs, Hi, He, ⟨%fi2, Hsi⟩, ⟨%fr2, Hsr⟩, ⟨%fe2, Hse⟩, ⟨%fd2, Hsd⟩, HgA, Hg3, Hg4, Hg5, Hdone1, %W2, %hW2, HO⟩
  sl_exec
  sl_step
  isplitl [Ht Hs Hi He Hdone0 Hdone1]
  · isplitl [Ht Hs Hi He]
    · isplitl [Ht]; · iexact Ht
      isplitl [Hs]; · iexact Hs
      isplitl [Hi]; · iexact Hi
      iexact He
    isplitl [Hdone0]; · iexact Hdone0
    iexact Hdone1
  isplitl [Hsi Hsr Hse Hsd Hbufs]
  · isplitl [Hsi Hsr Hse Hsd]
    · isplitl [Hsi]; · iexists _; iexact Hsi
      isplitl [Hsr]; · iexists _; iexact Hsr
      isplitl [Hse]; · iexists _; iexact Hse
      iexists _; iexact Hsd
    iexact Hbufs
  isplitl [HgA Hg0 Hg1 Hg2 Hg3 Hg4 Hg5 Hsems]
  · isplitl [HgA Hg0 Hg1 Hg2 Hg3 Hg4 Hg5]
    · isplitl [HgA]; · iexact HgA
      isplitl [Hg0]; · iexact Hg0
      isplitl [Hg1]; · iexact Hg1
      isplitl [Hg2]; · iexact Hg2
      isplitl [Hg3]; · iexact Hg3
      isplitl [Hg4]; · iexact Hg4
      iexact Hg5
    iexact Hsems
  iexists W2; isplitr
  · ipureintro; exact hW2
  · iexact HO

end Cert.HandB

end
-- ==== Proof.ScRowB0B.lean ====
import proofs.«204931_g11295763988758_cont_test2_10_9_alg».proof.Proof.ScInvB0B
import proofs.«204931_g11295763988758_cont_test2_10_9_alg».proof.Proof.ScIdxB
import Idealize.ShloMosaic.Lib.Tactic
import Idealize.ShloMosaic.Lib.SparseCore.Stream

noncomputable section

namespace Cert.HandB

open Cert.Kernel Cert.Kernel.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (I : IVec S1024x512 32) (E : FVec F S2x1024x128 .f32)

section Bank

variable (d : Dev nD) (L : grid1.Coords)

theorem emb_landsB0 (t1 : Fin k1_t1_loop.trips) (fe : Buf (Elt F) ((sEmb).view.loc (thr d L))) :
    EmbIsB0 E d L t1 (View.write (Elt F) (sEmb).view fe ((eRow0 L t1).view.read (Elt F) (E : Buf (Elt F) (eLoc d))) Finset.univ) := by
  intro dd
  rw [View.write_whole_univ]
  simp only [Memref.view_whole, View.read_whole]
  rw [View.read_apply, emb_eRow0]
  rfl

set_option maxHeartbeats 4000000 in

theorem rowB0_of (q : PosShare TreeShare) (O : CellTallies nD τ sig (HIx 1)) (W : Waits sig (HIx 1))
    (t1 : Fin k1_t1_loop.trips) (acc : BitVec 32)
    (hchunk : ∀ (t2 : Fin k1_t2_loop.trips) (acc : BitVec 32),
      invcB0 m I E d L q O W t1 t2.val acc
        ⊢ wp frame (wpE (defs₀ (F := F)) 𝒱₀ (thr d L) none) Set.univ (prog_t2 (F := F) L t1 t2 acc)
            (invcB0 m I E d L q O W t1 (t2.val + 1))) :
    invB0 m I E d L q O W t1.val acc
      ⊢ wp frame (wpE (defs₀ (F := F)) 𝒱₀ (thr d L) none) Set.univ (prog_t1 (F := F) L t1 acc) (invB0 m I E d L q O W (t1.val + 1)) := by
  unfold prog_t1 k1_t1_body
  unfold invB0
  rw [upto_take]
  iintro ⟨Hmw, Ht, Hi, He, ⟨%fi, Hsi⟩, ⟨%fr, Hsr⟩, ⟨%fe, Hse⟩, ⟨%fd, Hsd⟩, HgA, Hg0, Hg1, Hg2, ⟨Hrow, Hrest⟩, %W', %hW', HO⟩
  sl_exec
  sl_for (invcB0 m I E d L q O W t1) $$ [Hmw Ht Hi Hsi Hsr Hse Hsd HgA Hg1 Hg2 Hrow HO]
  case region => exact fun t2 acc => hchunk t2 acc
  · unfold invcB0
    rw [upto_zero]
    isplitl [Hmw]; · iexact Hmw
    isplitl [Ht]; · iexact Ht
    isplitl [Hi]; · iexact Hi
    isplitl [Hsi]; · iexists _; iexact Hsi
    isplitl [Hsr]; · iexists _; iexact Hsr
    isplitl [Hse]
    · iexists _; isplitr
      · ipureintro; exact emb_landsB0 E d L t1 fe
      · iexact Hse
    isplitl [Hsd]; · iexists _; iexact Hsd
    isplitl [HgA]; · iexact HgA
    isplitl [Hg1]; · iexact Hg1
    isplitl [Hg2]; · iexact Hg2
    isplitl [Hrow]; · iexact Hrow
    iexists _; isplitr
    swap; · iexact HO
    ipureintro; intro p hp
    rcases Finset.mem_insert.mp hp with hp | hp; · exact .inr (hp ▸ rfl)
    exact hW' p hp
  iintro %_ HI
  unfold invcB0
  rw [upto_all]
  icases HI with ⟨Hmw, Ht, Hi, ⟨%fi1, Hsi⟩, ⟨%fr1, Hsr⟩, ⟨%fe1, -, Hse⟩, ⟨%fd1, Hsd⟩, HgA, Hg1, Hg2, Hrow, %W1, %hW1, HO⟩
  sl_exec
  sl_step
  rw [upto_put]
  isplitl [Hmw]; · iexact Hmw
  isplitl [Ht]; · iexact Ht
  isplitl [Hi]; · iexact Hi
  isplitl [He]; · iexact He
  isplitl [Hsi]; · iexists _; iexact Hsi
  isplitl [Hsr]; · iexists _; iexact Hsr
  isplitl [Hse]; · iexists _; iexact Hse
  isplitl [Hsd]; · iexists _; iexact Hsd
  isplitl [HgA]; · iexact HgA
  isplitl [Hg0]; · iexact Hg0
  isplitl [Hg1]; · iexact Hg1
  isplitl [Hg2]; · iexact Hg2
  isplitl [Hrow Hrest]
  · isplitl [Hrow]; · iexact Hrow
    iexact Hrest
  iexists W1; isplitr
  · ipureintro; exact hW1
  · iexact HO

end Bank

end Cert.HandB

end
-- ==== Proof.ScRowB1B.lean ====
import proofs.«204931_g11295763988758_cont_test2_10_9_alg».proof.Proof.ScInvB1B
import proofs.«204931_g11295763988758_cont_test2_10_9_alg».proof.Proof.ScIdxB
import Idealize.ShloMosaic.Lib.Tactic
import Idealize.ShloMosaic.Lib.SparseCore.Stream

noncomputable section

namespace Cert.HandB

open Cert.Kernel Cert.Kernel.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (I : IVec S1024x512 32) (E : FVec F S2x1024x128 .f32)

section Bank

variable (d : Dev nD) (L : grid1.Coords)

theorem emb_landsB1 (t1 : Fin k1_t4_loop.trips) (fe : Buf (Elt F) ((sEmb).view.loc (thr d L))) :
    EmbIsB1 E d L t1 (View.write (Elt F) (sEmb).view fe ((eRow1 L t1).view.read (Elt F) (E : Buf (Elt F) (eLoc d))) Finset.univ) := by
  intro dd
  rw [View.write_whole_univ]
  simp only [Memref.view_whole, View.read_whole]
  rw [View.read_apply, emb_eRow1]
  rfl

set_option maxHeartbeats 4000000 in

theorem rowB1_of (q : PosShare TreeShare) (O : CellTallies nD τ sig (HIx 1)) (W : Waits sig (HIx 1))
    (t1 : Fin k1_t4_loop.trips) (acc : BitVec 32)
    (hchunk : ∀ (t2 : Fin k1_t5_loop.trips) (acc : BitVec 32),
      invcB1 m I E d L q O W t1 t2.val acc
        ⊢ wp frame (wpE (defs₀ (F := F)) 𝒱₀ (thr d L) none) Set.univ (prog_t5 (F := F) L t1 t2 acc)
            (invcB1 m I E d L q O W t1 (t2.val + 1))) :
    invB1 m I E d L q O W t1.val acc
      ⊢ wp frame (wpE (defs₀ (F := F)) 𝒱₀ (thr d L) none) Set.univ (prog_t4 (F := F) L t1 acc) (invB1 m I E d L q O W (t1.val + 1)) := by
  unfold prog_t4 k1_t4_body
  unfold invB1
  rw [upto_take]
  iintro ⟨Hmw, Ht, Hi, He, ⟨%fi, Hsi⟩, ⟨%fr, Hsr⟩, ⟨%fe, Hse⟩, ⟨%fd, Hsd⟩, HgA, Hg0, Hg1, Hg2, ⟨Hrow, Hrest⟩, %W', %hW', HO⟩
  sl_exec
  sl_for (invcB1 m I E d L q O W t1) $$ [Hmw Ht Hi Hsi Hsr Hse Hsd HgA Hg1 Hg2 Hrow HO]
  case region => exact fun t2 acc => hchunk t2 acc
  · unfold invcB1
    rw [upto_zero]
    isplitl [Hmw]; · iexact Hmw
    isplitl [Ht]; · iexact Ht
    isplitl [Hi]; · iexact Hi
    isplitl [Hsi]; · iexists _; iexact Hsi
    isplitl [Hsr]; · iexists _; iexact Hsr
    isplitl [Hse]
    · iexists _; isplitr
      · ipureintro; exact emb_landsB1 E d L t1 fe
      · iexact Hse
    isplitl [Hsd]; · iexists _; iexact Hsd
    isplitl [HgA]; · iexact HgA
    isplitl [Hg1]; · iexact Hg1
    isplitl [Hg2]; · iexact Hg2
    isplitl [Hrow]; · iexact Hrow
    iexists _; isplitr
    swap; · iexact HO
    ipureintro; intro p hp
    rcases Finset.mem_insert.mp hp with hp | hp; · exact .inr (hp ▸ rfl)
    exact hW' p hp
  iintro %_ HI
  unfold invcB1
  rw [upto_all]
  icases HI with ⟨Hmw, Ht, Hi, ⟨%fi1, Hsi⟩, ⟨%fr1, Hsr⟩, ⟨%fe1, -, Hse⟩, ⟨%fd1, Hsd⟩, HgA, Hg1, Hg2, Hrow, %W1, %hW1, HO⟩
  sl_exec
  sl_step
  rw [upto_put]
  isplitl [Hmw]; · iexact Hmw
  isplitl [Ht]; · iexact Ht
  isplitl [Hi]; · iexact Hi
  isplitl [He]; · iexact He
  isplitl [Hsi]; · iexists _; iexact Hsi
  isplitl [Hsr]; · iexists _; iexact Hsr
  isplitl [Hse]; · iexists _; iexact Hse
  isplitl [Hsd]; · iexists _; iexact Hsd
  isplitl [HgA]; · iexact HgA
  isplitl [Hg0]; · iexact Hg0
  isplitl [Hg1]; · iexact Hg1
  isplitl [Hg2]; · iexact Hg2
  isplitl [Hrow Hrest]
  · isplitl [Hrow]; · iexact Hrow
    iexact Hrest
  iexists W1; isplitr
  · ipureintro; exact hW1
  · iexact HO

end Bank

end Cert.HandB

end
-- ==== Proof.ScReturnsB.lean ====
import proofs.«204931_g11295763988758_cont_test2_10_9_alg».proof.Proof.Gen.Kernel.Skeleton
import proofs.«204931_g11295763988758_cont_test2_10_9_alg».proof.Proof.ScAccB
import Idealize.ShloMosaic.Lib.SparseCore.Ops
import Idealize.ShloMosaic.Lib.Tactic

noncomputable section

namespace Cert.HandB

open Cert.Kernel Cert.Kernel.Gen

open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ₀} (𝒱 : Variants) (thr : Thread nD τ) (bd : Option 𝒱.V) (E : Set Name)
variable (rows : Memref sig thr.2.kind .vmem S128x128 .f32) (embv : Memref sig thr.2.kind .vmem S128 .f32)
variable (q8 q9 : PosShare TreeShare)
variable (fr : Buf (Elt F) ((rows.access (.whole S128x128)).loc thr)) (fe : Buf (Elt F) (embv.view.loc thr))

abbrev Held : sProp 𝕄 :=
  iprop(((rows.access (.whole S128x128)).loc thr ↦{q8} fr) ∗ (embv.view.loc thr ↦{q9} fe))

-- Run by a thread holding the two buffers, the program returns `v` and hands them back as they were.
def Returns {α : Type} (p : Prog (TpuEff nD τ sig (Elt F) Λ₀ thr.2) α) (v : α) : Prop :=
  ∀ Q : α → sProp 𝕄,
    iprop(Held (F := F) (Ix := Ix) (Name := Name) (U := U) (Lvl := Lvl) thr rows embv q8 q9 fr fe
        ∗ (Held (F := F) (Ix := Ix) (Name := Name) (U := U) (Lvl := Lvl) thr rows embv q8 q9 fr fe -∗ Q v))
      ⊢ wp frame (wpE defs 𝒱 thr bd) E p Q

variable {𝒱 thr bd E rows embv q8 q9 fr fe}

-- What the two buffers hold, read whole.
abbrev blockOf (fr : Buf (Elt F) ((rows.access (.whole S128x128)).loc thr)) := (rows.access (.whole S128x128)).read (Elt F) fr

abbrev featOf (fe : Buf (Elt F) (embv.view.loc thr)) := embv.view.read (Elt F) fe

theorem Returns.pure {α : Type} (v : α) : Returns (defs := defs) (Ix := Ix) (Name := Name) (U := U) (Lvl := Lvl) 𝒱 thr bd E rows embv q8 q9 fr fe (Pure.pure v) v := by
  intro Q
  rw [wp_pure]
  iintro ⟨H, HQ⟩
  imodintro
  iapply HQ; iexact H

theorem Returns.bind {α β : Type} {p : Prog (TpuEff nD τ sig (Elt F) Λ₀ thr.2) α} {k : α → Prog (TpuEff nD τ sig (Elt F) Λ₀ thr.2) β} {v : α} {w : β}
    (hp : Returns (defs := defs) (Ix := Ix) (Name := Name) (U := U) (Lvl := Lvl) 𝒱 thr bd E rows embv q8 q9 fr fe p v) (hk : Returns (defs := defs) (Ix := Ix) (Name := Name) (U := U) (Lvl := Lvl) 𝒱 thr bd E rows embv q8 q9 fr fe (k v) w) : Returns (defs := defs) (Ix := Ix) (Name := Name) (U := U) (Lvl := Lvl) 𝒱 thr bd E rows embv q8 q9 fr fe (p >>= k) w := by
  intro Q
  rw [wp_bind]
  iintro ⟨H, HQ⟩
  iapply (hp _)
  isplitl [H]; · iexact H
  iintro H
  iapply (hk Q)
  isplitl [H]; · iexact H
  iexact HQ

theorem Returns.assume {α : Type} {P : Prop} {dP : Decidable P} {k : PLift P → Prog (TpuEff nD τ sig (Elt F) Λ₀ thr.2) α} {v : α} (h : P)
    (hk : Returns (defs := defs) (Ix := Ix) (Name := Name) (U := U) (Lvl := Lvl) 𝒱 thr bd E rows embv q8 q9 fr fe (k ⟨h⟩) v) : Returns (defs := defs) (Ix := Ix) (Name := Name) (U := U) (Lvl := Lvl) 𝒱 thr bd E rows embv q8 q9 fr fe (Prog.lift (TpuEff.assume P dP) >>= k) v := by
  intro Q
  simp only [Prog.lift, Prog.bind_op, Prog.bind_ret]
  rw [wp_assume_of _ _ _ _ h]
  exact hk Q

theorem Returns.gather {α : Type} {t : Shape} {idxs : Fin S128x128.rank → IVec t 32} {h : ∀ a x, (idxs a x).toNat < S128x128.size a} {hl : rows.view.Loads}
    {k : Vec F t .f32 → Prog (TpuEff nD τ sig (Elt F) Λ₀ thr.2) α} {v : α}
    (hk : Returns (defs := defs) (Ix := Ix) (Name := Name) (U := U) (Lvl := Lvl) 𝒱 thr bd E rows embv q8 q9 fr fe (k (loadIdx ((rows.access (.whole S128x128)).read (Elt F) fr) idxs h)) v) :
    Returns (defs := defs) (Ix := Ix) (Name := Name) (U := U) (Lvl := Lvl) 𝒱 thr bd E rows embv q8 q9 fr fe (SparseCore.vectorLoadIdx rows idxs h hl >>= k) v := by
  intro Q
  iintro ⟨⟨HR, He⟩, HQ⟩
  iapply (SparseCore.wp_vectorLoadIdx 𝒱 thr bd E (base := rows) (S := Finset.univ) (q := q8) (Finset.subset_univ _)) $$ HR
  iintro HR
  iapply (hk Q)
  isplitl [HR He]
  · isplitl [HR]; · iexact HR
    iexact He
  iexact HQ

theorem Returns.gatherAt {α : Type} {rv cv : IVec S16 32} {h : ∀ a x, ((![rv, cv] : Fin 2 → IVec S16 32) a x).toNat < S128x128.size a} {hl : rows.view.Loads}
    {k : Vec F S16 .f32 → Prog (TpuEff nD τ sig (Elt F) Λ₀ thr.2) α} {v : α} (r0 c0 : ℕ)
    (hrow : ∀ x, (rv x).toNat = r0 + (x 0).val) (hcol : ∀ x, (cv x).toNat = c0) (hr : r0 + 15 < 128) (hc : c0 < 128)
    (hk : Returns (defs := defs) (Ix := Ix) (Name := Name) (U := U) (Lvl := Lvl) 𝒱 thr bd E rows embv q8 q9 fr fe (k (gcol ((rows.access (.whole S128x128)).read (Elt F) fr) r0 c0)) v) :
    Returns (defs := defs) (Ix := Ix) (Name := Name) (U := U) (Lvl := Lvl) 𝒱 thr bd E rows embv q8 q9 fr fe (SparseCore.vectorLoadIdx rows (![rv, cv] : Fin 2 → IVec S16 32) h hl >>= k) v := by
  refine Returns.gather ?_
  rw [loadIdx_eq_gcol _ r0 c0 hrow hcol hr hc h]
  exact hk

-- The returned value may be replaced by an equal one.
theorem Returns.congr {α : Type} {p : Prog (TpuEff nD τ sig (Elt F) Λ₀ thr.2) α} {v w : α}
    (h : Returns (defs := defs) (Ix := Ix) (Name := Name) (U := U) (Lvl := Lvl) 𝒱 thr bd E rows embv q8 q9 fr fe p v) (e : v = w) : Returns (defs := defs) (Ix := Ix) (Name := Name) (U := U) (Lvl := Lvl) 𝒱 thr bd E rows embv q8 q9 fr fe p w := e ▸ h

-- A gather of rows `r0 … r0 + 15` of column `c0`, both inside the block: sixteen lanes of that column.
theorem Returns.term {α : Type} {rv cv : IVec S16 32}
    {dP : Decidable (∀ a x, ((![rv, cv] : Fin 2 → IVec S16 32) a x).toNat < S128x128.size a)} {hl : rows.view.Loads}
    {k : Vec F S16 .f32 → Prog (TpuEff nD τ sig (Elt F) Λ₀ thr.2) α} {v : α} (r0 c0 : ℕ)
    (hrow : ∀ x, (rv x).toNat = r0 + (x 0).val) (hcol : ∀ x, (cv x).toNat = c0) (hr : r0 + 15 < 128) (hc : c0 < 128)
    (hk : Returns (defs := defs) (Ix := Ix) (Name := Name) (U := U) (Lvl := Lvl) 𝒱 thr bd E rows embv q8 q9 fr fe (k (gcol ((rows.access (.whole S128x128)).read (Elt F) fr) r0 c0)) v) :
    Returns (defs := defs) (Ix := Ix) (Name := Name) (U := U) (Lvl := Lvl) 𝒱 thr bd E rows embv q8 q9 fr fe
      (Prog.lift (TpuEff.assume _ dP) >>= fun hw => SparseCore.vectorLoadIdx rows (![rv, cv] : Fin 2 → IVec S16 32) hw.down hl >>= k) v :=
  Returns.assume (chk_of r0 c0 hrow hcol hr hc) (Returns.gatherAt r0 c0 hrow hcol hr hc hk)

-- The same at the column `16 kk + j`, whose word is made in place.
theorem Returns.termAt {α : Type} {rv : IVec S16 32} {kk : ℕ} (hkk : kk < 8) (j : ℕ) (hj : j < 16)
    {dP : Decidable (∀ a x, ((![rv, broadcast S16 (Scalar.addi (Scalar.muli (Scf.iv 0#32 1#32 kk) 16#32) (BitVec.ofNat 32 j))] : Fin 2 → IVec S16 32) a x).toNat < S128x128.size a)}
    {hl : rows.view.Loads} {k : Vec F S16 .f32 → Prog (TpuEff nD τ sig (Elt F) Λ₀ thr.2) α} {v : α} (r0 : ℕ)
    (hrow : ∀ x, (rv x).toNat = r0 + (x 0).val) (hr : r0 + 15 < 128)
    (hk : Returns (defs := defs) (Ix := Ix) (Name := Name) (U := U) (Lvl := Lvl) 𝒱 thr bd E rows embv q8 q9 fr fe (k (gcol ((rows.access (.whole S128x128)).read (Elt F) fr) r0 (16 * kk + j))) v) :
    Returns (defs := defs) (Ix := Ix) (Name := Name) (U := U) (Lvl := Lvl) 𝒱 thr bd E rows embv q8 q9 fr fe
      (Prog.lift (TpuEff.assume _ dP) >>= fun hw => SparseCore.vectorLoadIdx rows
        (![rv, broadcast S16 (Scalar.addi (Scalar.muli (Scf.iv 0#32 1#32 kk) 16#32) (BitVec.ofNat 32 j))] : Fin 2 → IVec S16 32) hw.down hl >>= k) v :=
  Returns.term r0 _ hrow (fun _ => colW hkk hj) hr (by omega) hk

theorem Returns.load {α : Type} {r : LoadRect S128} {hl : embv.view.LoadsAt r}
    {k : (r.shape.Idx → Elt F .f32) → Prog (TpuEff nD τ sig (Elt F) Λ₀ thr.2) α} {v : α}
    (hk : Returns (defs := defs) (Ix := Ix) (Name := Name) (U := U) (Lvl := Lvl) 𝒱 thr bd E rows embv q8 q9 fr fe (k (embv.view.readAt (Elt F) r fe)) v) :
    Returns (defs := defs) (Ix := Ix) (Name := Name) (U := U) (Lvl := Lvl) 𝒱 thr bd E rows embv q8 q9 fr fe (Prog.lift (TpuEff.load embv r hl) >>= k) v := by
  intro Q
  simp only [Prog.lift, Prog.bind_op, Prog.bind_ret]
  iintro ⟨⟨HR, He⟩, HQ⟩
  iapply (wp_load 𝒱 thr bd E (m := embv) (S := Finset.univ) (q := q9) (Finset.subset_univ _)) $$ He
  iintro He
  iapply (hk Q)
  isplitl [HR He]
  · isplitl [HR]; · iexact HR
    iexact He
  iexact HQ

theorem Returns.forFrom {σ : Type} {n : ℕ} {body : Fin n → σ → Prog (TpuEff nD τ sig (Elt F) Λ₀ thr.2) σ} (val : ℕ → σ)
    (hb : ∀ k : Fin n, Returns (defs := defs) (Ix := Ix) (Name := Name) (U := U) (Lvl := Lvl) 𝒱 thr bd E rows embv q8 q9 fr fe (body k (val k.val)) (val (k.val + 1))) :
    ∀ (k : ℕ) (_ : k ≤ n), Returns (defs := defs) (Ix := Ix) (Name := Name) (U := U) (Lvl := Lvl) 𝒱 thr bd E rows embv q8 q9 fr fe (Scf.forFrom body ((List.finRange n).drop k) (val k)) (val n) := by
  intro k
  induction h : n - k generalizing k with
  | zero =>
    intro hk
    obtain rfl : k = n := by omega
    rw [List.drop_of_length_le (by simp), Scf.forFrom_nil]
    exact Returns.pure _
  | succ m ih =>
    intro hk
    have hlt : k < n := by omega
    rw [List.drop_eq_getElem_cons (by simpa using hlt), List.getElem_finRange, Fin.cast_mk, Scf.forFrom_cons]
    exact Returns.bind (hb ⟨k, hlt⟩) (ih (k + 1) (by omega) (by omega))

-- A counted loop whose trip `k` takes `val k` to `val (k + 1)` returns `val` at its trip count.
theorem Returns.for {σ : Type} (l : Scf.Loop 32) (hok : l.OK) (init : σ) {body : Fin l.trips → σ → Prog (TpuEff nD τ sig (Elt F) Λ₀ thr.2) σ}
    (val : ℕ → σ) (h0 : val 0 = init) (hb : ∀ k : Fin l.trips, Returns (defs := defs) (Ix := Ix) (Name := Name) (U := U) (Lvl := Lvl) 𝒱 thr bd E rows embv q8 q9 fr fe (body k (val k.val)) (val (k.val + 1)))
    {fin : σ} (hfin : val l.trips = fin) :
    Returns (defs := defs) (Ix := Ix) (Name := Name) (U := U) (Lvl := Lvl) 𝒱 thr bd E rows embv q8 q9 fr fe (Scf.Loop.for l hok init body) fin := by
  subst hfin
  show Returns (defs := defs) (Ix := Ix) (Name := Name) (U := U) (Lvl := Lvl) 𝒱 thr bd E rows embv q8 q9 fr fe (Scf.for l.lb l.ub l.st hok init body) (val l.trips)
  rw [Scf.for_eq, ← h0]
  exact Returns.forFrom val hb 0 (Nat.zero_le _)

-- `Returns` for the tile `i` of device `d`.
abbrev TReturns (Ix U Lvl : Type) [DecidableEq Ix] [URA U] [Preorder Lvl] (defs : Defs nD τ sig (Elt F) Λ₀) (𝒱 : Variants) (bd : Option 𝒱.V) (E : Set Name)
    (d : Dev nD) (i : grid1.Coords) (rows : Memref sig .scVector .vmem S128x128 .f32) (embv : Memref sig .scVector .vmem S128 .f32) (q8 q9 : PosShare TreeShare)
    (fr : Buf (Elt F) ((rows.access (.whole S128x128)).loc (SparseCore.V d ((i 0).castLE hcore1) ((i 1).castLE hsub1))))
    (fe : Buf (Elt F) (embv.view.loc (SparseCore.V d ((i 0).castLE hcore1) ((i 1).castLE hsub1)))) {α : Type}
    (p : Prog (TpuEff nD τ sig (Elt F) Λ₀ (.scVector ((i 0).castLE hcore1) ((i 1).castLE hsub1))) α) (v : α) : Prop :=
  Returns (defs := defs) (Ix := Ix) (Name := Name) (U := U) (Lvl := Lvl) 𝒱 (SparseCore.V d ((i 0).castLE hcore1) ((i 1).castLE hsub1)) bd E rows embv q8 q9 fr fe p v

end Cert.HandB

end
-- ==== Proof.ScPartsAB.lean ====
import proofs.«204931_g11295763988758_cont_test2_10_9_alg».proof.Proof.Gen.Kernel.Skeleton
import proofs.«204931_g11295763988758_cont_test2_10_9_alg».proof.Proof.ScAccB
import proofs.«204931_g11295763988758_cont_test2_10_9_alg».proof.Proof.ScReturnsB
import Idealize.ShloMosaic.Lib.SparseCore.Ops
import Idealize.ShloMosaic.Lib.Tactic

set_option maxHeartbeats 0
set_option maxRecDepth 65536

noncomputable section

namespace Cert.HandB

open Cert.Kernel Cert.Kernel.Gen

open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]
variable {defs : Defs nD τ sig (Elt F) Λ₀}

private theorem Returns.loadFeat3 {α : Type} {𝒱 : Variants} {thr : Thread nD τ} {bd : Option 𝒱.V} {E : Set Name}
    {rows : Memref sig thr.2.kind .vmem S128x128 .f32} {embv : Memref sig thr.2.kind .vmem S128 .f32} {q8 q9 : PosShare TreeShare}
    {fr : Buf (Elt F) ((rows.access (.whole S128x128)).loc thr)} {fe : Buf (Elt F) (embv.view.loc thr)}
    (k3 : Fin k1_t3_loop.trips)
    {hl : embv.view.LoadsAt (Rect.unit (s := S128) (k1_off3 k3) S16.size (k1_off3_inb k3)).toLoadRect}
    {k : Vec F S16 .f32 → Prog (TpuEff nD τ sig (Elt F) Λ₀ thr.2) α} {v : α}
    (hk : Returns (defs := defs) (Ix := Ix) (Name := Name) (U := U) (Lvl := Lvl) 𝒱 thr bd E rows embv q8 q9 fr fe (k (ecol (embv.view.read (Elt F) fe) k3.val)) v) :
    Returns (defs := defs) (Ix := Ix) (Name := Name) (U := U) (Lvl := Lvl) 𝒱 thr bd E rows embv q8 q9 fr fe
      (Prog.lift (TpuEff.load embv (Rect.unit (s := S128) (k1_off3 k3) S16.size (k1_off3_inb k3)).toLoadRect hl) >>= k) v := by
  have hk8 : k3.val < 8 := lt_of_lt_of_eq k3.isLt trips3
  refine Returns.load ?_
  have e : embv.view.readAt (Elt F) (Rect.unit (s := S128) (k1_off3 k3) S16.size (k1_off3_inb k3)).toLoadRect fe
      = ecol (embv.view.read (Elt F) fe) k3.val := by
    funext (x : S16.Idx)
    have hx : (x 0).val < 16 := (x 0).isLt
    rw [View.readAt_apply]
    show embv.view.read (Elt F) fe _ = embv.view.read (Elt F) fe (eIdx (16 * k3.val + (x 0).val))
    congr 1
    funext a
    match a with
    | ⟨0, _⟩ =>
      apply Fin.ext
      rw [LoadRect.idx_apply]
      show (k1_off3 k3) 0 + 1 * (x 0).val = (16 * k3.val + (x 0).val) % 128
      rw [k1_off3_eq]
      show 16 * k3.val + 1 * (x 0).val = (16 * k3.val + (x 0).val) % 128
      omega
  rw [e]
  exact hk

-- A tile's operands, and the two buffers it holds while it accumulates.
variable {𝒱 : Variants} {bd : Option 𝒱.V} {E : Set Name} {d : Dev nD} {i : grid1.Coords} {arg2 : Memref sig .scVector .hbm S100000x128 .f32} {harg2 : arg2.IsWhole} {arg3 : Memref sig .scVector .hbm S100000x128 .f32} {harg3 : arg3.IsWhole} {arg4 : Memref sig .scVector .hbm S1024x512 .i32} {harg4 : arg4.IsWhole} {arg5 : Memref sig .scVector .hbm S2x1024x128 .f32} {harg5 : arg5.IsWhole} {arg6 : Memref sig .scVector .hbm S2x1024x512 .f32} {harg6 : arg6.IsWhole} {arg7 : Memref sig .scVector .vmem S128 .i32} {harg7 : arg7.IsWhole} {arg8 : Memref sig .scVector .vmem S128x128 .f32} {harg8 : arg8.IsWhole} {arg9 : Memref sig .scVector .vmem S128 .f32} {harg9 : arg9.IsWhole} {arg10 : Memref sig .scVector .vmem S128 .f32} {harg10 : arg10.IsWhole} {arg11 : DmaSems sig S_} {v11_r0 : DmaSems sig S_} {v33_r1 : DmaSems sig S_} {v33_r2 : DmaSems sig S_} {v11_r3 : DmaSems sig S_} {v33_r4 : DmaSems sig S_} {v33_r5 : DmaSems sig S_}
  {q8 q9 : PosShare TreeShare} {fr : Buf (Elt F) ((arg8.access (.whole S128x128)).loc (V d ((i 0).castLE hcore1) ((i 1).castLE hsub1)))} {fe : Buf (Elt F) (arg9.view.loc (V d ((i 0).castLE hcore1) ((i 1).castLE hsub1)))}

theorem part1_returns
    (k : Fin k1_t3_loop.trips) (v3 : IVec S16 32) (arg17 : FVec F S16 .f32)
    (hv3 : v3 = iota .scVector S16 32 [0] iota_S16_d0_w32_scVector) :
    TReturns Ix U Lvl defs 𝒱 bd E d i arg8 arg9 q8 q9 fr fe
      (k1_part1_skel i arg2 harg2 arg3 harg3 arg4 harg4 arg5 harg5 arg6 harg6 arg7 harg7 arg8 harg8 arg9 harg9 arg10 harg10 arg11 v11_r0 v33_r1 v33_r2 v11_r3 v33_r4 v33_r5 v3 0#32 1#32 k arg17)
      ⟨Scf.iv 0#32 1#32 k.val, ecol (featOf fe) k.val, k1_pay1 v3,
        k1_pay2 arg17 (ecol (featOf fe) k.val) (gcol (blockOf fr) 0 (16 * k.val + 0)) (gcol (blockOf fr) 0 (16 * k.val + 1))
          (gcol (blockOf fr) 0 (16 * k.val + 2)) (gcol (blockOf fr) 0 (16 * k.val + 3)),
        (Scalar.addi (Scalar.muli (Scf.iv 0#32 1#32 k.val) 16#32) 4#32)⟩ := by
  subst hv3
  have hr : 0 + 15 < 128 := by decide
  have hrow : ∀ x, ((k1_pay1 (iota .scVector S16 32 [0] iota_S16_d0_w32_scVector)) x).toNat = 0 + (x 0).val := fun x => rowA 0#32 (by decide) x
  unfold k1_part1_skel
  refine Returns.loadFeat3 k ?_
  iterate 4 refine Returns.termAt (lt3 k) _ (by decide) 0 hrow hr ?_
  exact Returns.pure _

theorem part3_returns
    (k : Fin k1_t3_loop.trips) (v35 : Vec F S16 .f32) (v37 : IVec S16 32) (v118 : FVec F S16 .f32) (v120 : BitVec 32) (r0 : ℕ)
    (hrow : ∀ x, (v37 x).toNat = r0 + (x 0).val) (hr : r0 + 15 < 128) (h120 : v120.toNat = 16 * k.val + 9) :
    TReturns Ix U Lvl defs 𝒱 bd E d i arg8 arg9 q8 q9 fr fe
      (k1_part3_skel i arg2 harg2 arg3 harg3 arg4 harg4 arg5 harg5 arg6 harg6 arg7 harg7 arg8 harg8 arg9 harg9 arg10 harg10 arg11 v11_r0 v33_r1 v33_r2 v11_r3 v33_r4 v33_r5 (Scf.iv 0#32 1#32 k.val) v35 v37 v118 v120)
      ⟨k1_pay4 v35 v118 (gcol (blockOf fr) r0 (16 * k.val + 9)) (gcol (blockOf fr) r0 (16 * k.val + 10)) (gcol (blockOf fr) r0 (16 * k.val + 11))
          (gcol (blockOf fr) r0 (16 * k.val + 12)) (gcol (blockOf fr) r0 (16 * k.val + 13)),
        (Scalar.addi (Scalar.muli (Scf.iv 0#32 1#32 k.val) 16#32) 14#32)⟩ := by
  have hk8 := lt3 k
  have c9 : ∀ x, ((broadcast S16 v120 : IVec S16 32) x).toNat = 16 * k.val + 9 := fun _ => h120
  unfold k1_part3_skel
  refine Returns.term r0 (16 * k.val + 9) hrow c9 hr (by omega) ?_
  iterate 4 refine Returns.termAt (lt3 k) _ (by decide) r0 hrow hr ?_
  exact Returns.pure _

theorem part5_returns
    (k : Fin k1_t3_loop.trips) (v35 : Vec F S16 .f32) (v183 : IVec S16 32) (v210 : FVec F S16 .f32) (c : BitVec 32) (r0 : ℕ)
    (hrow : ∀ x, (v183 x).toNat = r0 + (x 0).val) (hr : r0 + 15 < 128) (hc16 : c = 16#32) :
    TReturns Ix U Lvl defs 𝒱 bd E d i arg8 arg9 q8 q9 fr fe
      (k1_part5_skel i arg2 harg2 arg3 harg3 arg4 harg4 arg5 harg5 arg6 harg6 arg7 harg7 arg8 harg8 arg9 harg9 arg10 harg10 arg11 v11_r0 v33_r1 v33_r2 v11_r3 v33_r4 v33_r5 (Scf.iv 0#32 1#32 k.val) v35 v183 v210 c)
      ⟨k1_pay8 v35 v210 (gcol (blockOf fr) r0 (16 * k.val + 3)) (gcol (blockOf fr) r0 (16 * k.val + 4)) (gcol (blockOf fr) r0 (16 * k.val + 5))
          (gcol (blockOf fr) r0 (16 * k.val + 6)) (gcol (blockOf fr) r0 (16 * k.val + 7)),
        16#32⟩ := by
  subst hc16
  unfold k1_part5_skel
  iterate 5 refine Returns.termAt (lt3 k) _ (by decide) r0 hrow hr ?_
  exact Returns.pure _

theorem part6_returns
    (k : Fin k1_t3_loop.trips) (v35 : Vec F S16 .f32) (v183 : IVec S16 32) (v255 : FVec F S16 .f32) (c : BitVec 32) (r0 : ℕ)
    (hrow : ∀ x, (v183 x).toNat = r0 + (x 0).val) (hr : r0 + 15 < 128) (hc16 : c = 16#32) :
    TReturns Ix U Lvl defs 𝒱 bd E d i arg8 arg9 q8 q9 fr fe
      (k1_part6_skel i arg2 harg2 arg3 harg3 arg4 harg4 arg5 harg5 arg6 harg6 arg7 harg7 arg8 harg8 arg9 harg9 arg10 harg10 arg11 v11_r0 v33_r1 v33_r2 v11_r3 v33_r4 v33_r5 (Scf.iv 0#32 1#32 k.val) v35 v183 v255 c)
      ⟨k1_pay9 v35 v255 (gcol (blockOf fr) r0 (16 * k.val + 8)) (gcol (blockOf fr) r0 (16 * k.val + 9)) (gcol (blockOf fr) r0 (16 * k.val + 10))
          (gcol (blockOf fr) r0 (16 * k.val + 11)) (gcol (blockOf fr) r0 (16 * k.val + 12)),
        16#32⟩ := by
  subst hc16
  unfold k1_part6_skel
  iterate 5 refine Returns.termAt (lt3 k) _ (by decide) r0 hrow hr ?_
  exact Returns.pure _

end Cert.HandB

end
-- ==== Proof.ScPartsBB.lean ====
import proofs.«204931_g11295763988758_cont_test2_10_9_alg».proof.Proof.Gen.Kernel.Skeleton
import proofs.«204931_g11295763988758_cont_test2_10_9_alg».proof.Proof.ScAccB
import proofs.«204931_g11295763988758_cont_test2_10_9_alg».proof.Proof.ScReturnsB
import Idealize.ShloMosaic.Lib.SparseCore.Ops
import Idealize.ShloMosaic.Lib.Tactic

set_option maxHeartbeats 0
set_option maxRecDepth 65536

noncomputable section

namespace Cert.HandB

open Cert.Kernel Cert.Kernel.Gen

open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]
variable {defs : Defs nD τ sig (Elt F) Λ₀}

-- A tile's operands, and the two buffers it holds while it accumulates.
variable {𝒱 : Variants} {bd : Option 𝒱.V} {E : Set Name} {d : Dev nD} {i : grid1.Coords} {arg2 : Memref sig .scVector .hbm S100000x128 .f32} {harg2 : arg2.IsWhole} {arg3 : Memref sig .scVector .hbm S100000x128 .f32} {harg3 : arg3.IsWhole} {arg4 : Memref sig .scVector .hbm S1024x512 .i32} {harg4 : arg4.IsWhole} {arg5 : Memref sig .scVector .hbm S2x1024x128 .f32} {harg5 : arg5.IsWhole} {arg6 : Memref sig .scVector .hbm S2x1024x512 .f32} {harg6 : arg6.IsWhole} {arg7 : Memref sig .scVector .vmem S128 .i32} {harg7 : arg7.IsWhole} {arg8 : Memref sig .scVector .vmem S128x128 .f32} {harg8 : arg8.IsWhole} {arg9 : Memref sig .scVector .vmem S128 .f32} {harg9 : arg9.IsWhole} {arg10 : Memref sig .scVector .vmem S128 .f32} {harg10 : arg10.IsWhole} {arg11 : DmaSems sig S_} {v11_r0 : DmaSems sig S_} {v33_r1 : DmaSems sig S_} {v33_r2 : DmaSems sig S_} {v11_r3 : DmaSems sig S_} {v33_r4 : DmaSems sig S_} {v33_r5 : DmaSems sig S_}
  {q8 q9 : PosShare TreeShare} {fr : Buf (Elt F) ((arg8.access (.whole S128x128)).loc (V d ((i 0).castLE hcore1) ((i 1).castLE hsub1)))} {fe : Buf (Elt F) (arg9.view.loc (V d ((i 0).castLE hcore1) ((i 1).castLE hsub1)))}

theorem part2_returns
    (k : Fin k1_t3_loop.trips) (v35 : Vec F S16 .f32) (v37 : IVec S16 32) (v73 : FVec F S16 .f32) (v75 : BitVec 32) (r0 : ℕ)
    (hrow : ∀ x, (v37 x).toNat = r0 + (x 0).val) (hr : r0 + 15 < 128) (h75 : v75.toNat = 16 * k.val + 4) :
    TReturns Ix U Lvl defs 𝒱 bd E d i arg8 arg9 q8 q9 fr fe
      (k1_part2_skel i arg2 harg2 arg3 harg3 arg4 harg4 arg5 harg5 arg6 harg6 arg7 harg7 arg8 harg8 arg9 harg9 arg10 harg10 arg11 v11_r0 v33_r1 v33_r2 v11_r3 v33_r4 v33_r5 (Scf.iv 0#32 1#32 k.val) v35 v37 v73 v75)
      ⟨k1_pay3 v35 v73 (gcol (blockOf fr) r0 (16 * k.val + 4)) (gcol (blockOf fr) r0 (16 * k.val + 5)) (gcol (blockOf fr) r0 (16 * k.val + 6))
          (gcol (blockOf fr) r0 (16 * k.val + 7)) (gcol (blockOf fr) r0 (16 * k.val + 8)),
        (Scalar.addi (Scalar.muli (Scf.iv 0#32 1#32 k.val) 16#32) 9#32)⟩ := by
  have hk8 := lt3 k
  have c4 : ∀ x, ((broadcast S16 v75 : IVec S16 32) x).toNat = 16 * k.val + 4 := fun _ => h75
  unfold k1_part2_skel
  refine Returns.term r0 (16 * k.val + 4) hrow c4 hr (by omega) ?_
  iterate 4 refine Returns.termAt (lt3 k) _ (by decide) r0 hrow hr ?_
  exact Returns.pure _

theorem part8_returns
    (k : Fin k1_t3_loop.trips) (v35 : Vec F S16 .f32) (v329 : IVec S16 32) (v338 : FVec F S16 .f32) (v342 : Vec F S16 .f32) (v345 : FVec F S16 .f32) (r0 : ℕ)
    (hrow : ∀ x, (v329 x).toNat = r0 + (x 0).val) (hr : r0 + 15 < 128) :
    TReturns Ix U Lvl defs 𝒱 bd E d i arg8 arg9 q8 q9 fr fe
      (k1_part8_skel i arg2 harg2 arg3 harg3 arg4 harg4 arg5 harg5 arg6 harg6 arg7 harg7 arg8 harg8 arg9 harg9 arg10 harg10 arg11 v11_r0 v33_r1 v33_r2 v11_r3 v33_r4 v33_r5 (Scf.iv 0#32 1#32 k.val) v35 v329 v338 v342 v345)
      ⟨k1_pay14 v35 v338 v342 v345 (gcol (blockOf fr) r0 (16 * k.val + 2)) (gcol (blockOf fr) r0 (16 * k.val + 3)) (gcol (blockOf fr) r0 (16 * k.val + 4))
          (gcol (blockOf fr) r0 (16 * k.val + 5)),
        gcol (blockOf fr) r0 (16 * k.val + 6), k1_pay15 v35⟩ := by
  unfold k1_part8_skel
  iterate 5 refine Returns.termAt (lt3 k) _ (by decide) r0 hrow hr ?_
  exact Returns.pure _

theorem part9_returns
    (k : Fin k1_t3_loop.trips) (v35 : Vec F S16 .f32) (v329 : IVec S16 32) (v383 : FVec F S16 .f32) (v387 : Vec F S16 .f32) (v390 : FVec F S16 .f32) (r0 : ℕ)
    (hrow : ∀ x, (v329 x).toNat = r0 + (x 0).val) (hr : r0 + 15 < 128) :
    TReturns Ix U Lvl defs 𝒱 bd E d i arg8 arg9 q8 q9 fr fe
      (k1_part9_skel i arg2 harg2 arg3 harg3 arg4 harg4 arg5 harg5 arg6 harg6 arg7 harg7 arg8 harg8 arg9 harg9 arg10 harg10 arg11 v11_r0 v33_r1 v33_r2 v11_r3 v33_r4 v33_r5 (Scf.iv 0#32 1#32 k.val) v35 v329 v383 v387 v390)
      ⟨k1_pay16 v35 v383 v387 v390 (gcol (blockOf fr) r0 (16 * k.val + 7)) (gcol (blockOf fr) r0 (16 * k.val + 8)) (gcol (blockOf fr) r0 (16 * k.val + 9))
          (gcol (blockOf fr) r0 (16 * k.val + 10)),
        gcol (blockOf fr) r0 (16 * k.val + 11), k1_pay17 v35⟩ := by
  unfold k1_part9_skel
  iterate 5 refine Returns.termAt (lt3 k) _ (by decide) r0 hrow hr ?_
  exact Returns.pure _

theorem part13_returns
    (k : Fin k1_t3_loop.trips) (v35 : Vec F S16 .f32) (v475 : IVec S16 32) (v565 : FVec F S16 .f32) (v569 : Vec F S16 .f32) (r0 : ℕ)
    (hrow : ∀ x, (v475 x).toNat = r0 + (x 0).val) (hr : r0 + 15 < 128) :
    TReturns Ix U Lvl defs 𝒱 bd E d i arg8 arg9 q8 q9 fr fe
      (k1_part13_skel i arg2 harg2 arg3 harg3 arg4 harg4 arg5 harg5 arg6 harg6 arg7 harg7 arg8 harg8 arg9 harg9 arg10 harg10 arg11 v11_r0 v33_r1 v33_r2 v11_r3 v33_r4 v33_r5 (Scf.iv 0#32 1#32 k.val) v35 v475 v565 v569)
      ⟨k1_pay22 v35 v565 v569 (gcol (blockOf fr) r0 (16 * k.val + 11)) (gcol (blockOf fr) r0 (16 * k.val + 12)) (gcol (blockOf fr) r0 (16 * k.val + 13))
          (gcol (blockOf fr) r0 (16 * k.val + 14)),
        gcol (blockOf fr) r0 (16 * k.val + 15)⟩ := by
  unfold k1_part13_skel
  iterate 5 refine Returns.termAt (lt3 k) _ (by decide) r0 hrow hr ?_
  exact Returns.pure _

end Cert.HandB

end
-- ==== Proof.ScPartsCB.lean ====
import proofs.«204931_g11295763988758_cont_test2_10_9_alg».proof.Proof.Gen.Kernel.Skeleton
import proofs.«204931_g11295763988758_cont_test2_10_9_alg».proof.Proof.ScAccB
import proofs.«204931_g11295763988758_cont_test2_10_9_alg».proof.Proof.ScReturnsB
import Idealize.ShloMosaic.Lib.SparseCore.Ops
import Idealize.ShloMosaic.Lib.Tactic

set_option maxHeartbeats 0
set_option maxRecDepth 65536

noncomputable section

namespace Cert.HandB

open Cert.Kernel Cert.Kernel.Gen

open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]
variable {defs : Defs nD τ sig (Elt F) Λ₀}

-- A tile's operands, and the two buffers it holds while it accumulates.
variable {𝒱 : Variants} {bd : Option 𝒱.V} {E : Set Name} {d : Dev nD} {i : grid1.Coords} {arg2 : Memref sig .scVector .hbm S100000x128 .f32} {harg2 : arg2.IsWhole} {arg3 : Memref sig .scVector .hbm S100000x128 .f32} {harg3 : arg3.IsWhole} {arg4 : Memref sig .scVector .hbm S1024x512 .i32} {harg4 : arg4.IsWhole} {arg5 : Memref sig .scVector .hbm S2x1024x128 .f32} {harg5 : arg5.IsWhole} {arg6 : Memref sig .scVector .hbm S2x1024x512 .f32} {harg6 : arg6.IsWhole} {arg7 : Memref sig .scVector .vmem S128 .i32} {harg7 : arg7.IsWhole} {arg8 : Memref sig .scVector .vmem S128x128 .f32} {harg8 : arg8.IsWhole} {arg9 : Memref sig .scVector .vmem S128 .f32} {harg9 : arg9.IsWhole} {arg10 : Memref sig .scVector .vmem S128 .f32} {harg10 : arg10.IsWhole} {arg11 : DmaSems sig S_} {v11_r0 : DmaSems sig S_} {v33_r1 : DmaSems sig S_} {v33_r2 : DmaSems sig S_} {v11_r3 : DmaSems sig S_} {v33_r4 : DmaSems sig S_} {v33_r5 : DmaSems sig S_}
  {q8 q9 : PosShare TreeShare} {fr : Buf (Elt F) ((arg8.access (.whole S128x128)).loc (V d ((i 0).castLE hcore1) ((i 1).castLE hsub1)))} {fe : Buf (Elt F) (arg9.view.loc (V d ((i 0).castLE hcore1) ((i 1).castLE hsub1)))}

theorem part4_returns
    (k : Fin k1_t3_loop.trips) (v3 : IVec S16 32) (arg18 : FVec F S16 .f32) (v35 : Vec F S16 .f32) (v37 : IVec S16 32) (v163 : FVec F S16 .f32) (v165 : BitVec 32) (r0 : ℕ)
    (hv3 : v3 = iota .scVector S16 32 [0] iota_S16_d0_w32_scVector)
    (hrow : ∀ x, (v37 x).toNat = r0 + (x 0).val) (hr : r0 + 15 < 128) (h165 : v165.toNat = 16 * k.val + 14) :
    TReturns Ix U Lvl defs 𝒱 bd E d i arg8 arg9 q8 q9 fr fe
      (k1_part4_skel i arg2 harg2 arg3 harg3 arg4 harg4 arg5 harg5 arg6 harg6 arg7 harg7 arg8 harg8 arg9 harg9 arg10 harg10 arg11 v11_r0 v33_r1 v33_r2 v11_r3 v33_r4 v33_r5 v3 arg18 (Scf.iv 0#32 1#32 k.val) v35 v37 v163 v165)
      ⟨k1_pay5 v35 v163 (gcol (blockOf fr) r0 (16 * k.val + 14)) (gcol (blockOf fr) r0 (16 * k.val + 15)),
        k1_pay6 (iota .scVector S16 32 [0] iota_S16_d0_w32_scVector),
        k1_pay7 arg18 v35 (gcol (blockOf fr) 16 (16 * k.val + 0)) (gcol (blockOf fr) 16 (16 * k.val + 1)) (gcol (blockOf fr) 16 (16 * k.val + 2)),
        16#32⟩ := by
  subst hv3
  have hk8 := lt3 k
  have c14 : ∀ x, ((broadcast S16 v165 : IVec S16 32) x).toNat = 16 * k.val + 14 := fun _ => h165
  have hrow1 : ∀ x, ((k1_pay6 (iota .scVector S16 32 [0] iota_S16_d0_w32_scVector)) x).toNat = 16 + (x 0).val := fun x => rowA 16#32 (by decide) x
  have hr1 : 16 + 15 < 128 := by decide
  unfold k1_part4_skel
  refine Returns.term r0 (16 * k.val + 14) hrow c14 hr (by omega) ?_
  refine Returns.termAt (lt3 k) 15 (by decide) r0 hrow hr ?_
  iterate 3 refine Returns.termAt (lt3 k) _ (by decide) 16 hrow1 hr1 ?_
  exact Returns.pure _

theorem part7_returns
    (k : Fin k1_t3_loop.trips) (v3 : IVec S16 32) (arg19 : FVec F S16 .f32) (v35 : Vec F S16 .f32) (v183 : IVec S16 32) (v300 : FVec F S16 .f32) (c16_i32_80 : BitVec 32) (r0 : ℕ)
    (hv3 : v3 = iota .scVector S16 32 [0] iota_S16_d0_w32_scVector) (hc16 : c16_i32_80 = 16#32)
    (hrow : ∀ x, (v183 x).toNat = r0 + (x 0).val) (hr : r0 + 15 < 128) :
    TReturns Ix U Lvl defs 𝒱 bd E d i arg8 arg9 q8 q9 fr fe
      (k1_part7_skel i arg2 harg2 arg3 harg3 arg4 harg4 arg5 harg5 arg6 harg6 arg7 harg7 arg8 harg8 arg9 harg9 arg10 harg10 arg11 v11_r0 v33_r1 v33_r2 v11_r3 v33_r4 v33_r5 v3 arg19 (Scf.iv 0#32 1#32 k.val) v35 v183 v300 c16_i32_80)
      ⟨k1_pay10 v35 v300 (gcol (blockOf fr) r0 (16 * k.val + 13)) (gcol (blockOf fr) r0 (16 * k.val + 14)) (gcol (blockOf fr) r0 (16 * k.val + 15)),
        k1_pay11 (iota .scVector S16 32 [0] iota_S16_d0_w32_scVector),
        k1_pay12 arg19 v35 (gcol (blockOf fr) 32 (16 * k.val + 0)),
        (gcol (blockOf fr) 32 (16 * k.val + 1)),
        k1_pay13 v35⟩ := by
  subst hv3
  subst hc16
  have hrow1 : ∀ x, ((k1_pay11 (iota .scVector S16 32 [0] iota_S16_d0_w32_scVector)) x).toNat = 32 + (x 0).val := fun x => rowA 32#32 (by decide) x
  have hr1 : 32 + 15 < 128 := by decide
  unfold k1_part7_skel
  iterate 3 refine Returns.termAt (lt3 k) _ (by decide) r0 hrow hr ?_
  iterate 2 refine Returns.termAt (lt3 k) _ (by decide) 32 hrow1 hr1 ?_
  exact Returns.pure _

theorem part10_returns
    (k : Fin k1_t3_loop.trips) (v3 : IVec S16 32) (v35 : Vec F S16 .f32) (v329 : IVec S16 32) (v428 : FVec F S16 .f32) (v432 : Vec F S16 .f32) (v435 : FVec F S16 .f32) (r0 : ℕ)
    (hv3 : v3 = iota .scVector S16 32 [0] iota_S16_d0_w32_scVector)
    (hrow : ∀ x, (v329 x).toNat = r0 + (x 0).val) (hr : r0 + 15 < 128) :
    TReturns Ix U Lvl defs 𝒱 bd E d i arg8 arg9 q8 q9 fr fe
      (k1_part10_skel i arg2 harg2 arg3 harg3 arg4 harg4 arg5 harg5 arg6 harg6 arg7 harg7 arg8 harg8 arg9 harg9 arg10 harg10 arg11 v11_r0 v33_r1 v33_r2 v11_r3 v33_r4 v33_r5 v3 (Scf.iv 0#32 1#32 k.val) v35 v329 v428 v432 v435)
      ⟨k1_pay18 v35 v428 v432 v435 (gcol (blockOf fr) r0 (16 * k.val + 12)) (gcol (blockOf fr) r0 (16 * k.val + 13)) (gcol (blockOf fr) r0 (16 * k.val + 14)) (gcol (blockOf fr) r0 (16 * k.val + 15)),
        k1_pay19 (iota .scVector S16 32 [0] iota_S16_d0_w32_scVector),
        (gcol (blockOf fr) 48 (16 * k.val + 0))⟩ := by
  subst hv3
  have hrow1 : ∀ x, ((k1_pay19 (iota .scVector S16 32 [0] iota_S16_d0_w32_scVector)) x).toNat = 48 + (x 0).val := fun x => rowA 48#32 (by decide) x
  have hr1 : 48 + 15 < 128 := by decide
  unfold k1_part10_skel
  iterate 4 refine Returns.termAt (lt3 k) _ (by decide) r0 hrow hr ?_
  refine Returns.termAt (lt3 k) 0 (by decide) 48 hrow1 hr1 ?_
  exact Returns.pure _

end Cert.HandB

end
-- ==== Proof.ScPartsEB.lean ====
import proofs.«204931_g11295763988758_cont_test2_10_9_alg».proof.Proof.Gen.Kernel.Skeleton
import proofs.«204931_g11295763988758_cont_test2_10_9_alg».proof.Proof.ScAccB
import proofs.«204931_g11295763988758_cont_test2_10_9_alg».proof.Proof.ScReturnsB
import Idealize.ShloMosaic.Lib.SparseCore.Ops
import Idealize.ShloMosaic.Lib.Tactic

set_option maxHeartbeats 0
set_option maxRecDepth 65536

noncomputable section

namespace Cert.HandB

open Cert.Kernel Cert.Kernel.Gen

open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]
variable {defs : Defs nD τ sig (Elt F) Λ₀}

-- A tile's operands, and the two buffers it holds while it accumulates.
variable {𝒱 : Variants} {bd : Option 𝒱.V} {E : Set Name} {d : Dev nD} {i : grid1.Coords} {arg2 : Memref sig .scVector .hbm S100000x128 .f32} {harg2 : arg2.IsWhole} {arg3 : Memref sig .scVector .hbm S100000x128 .f32} {harg3 : arg3.IsWhole} {arg4 : Memref sig .scVector .hbm S1024x512 .i32} {harg4 : arg4.IsWhole} {arg5 : Memref sig .scVector .hbm S2x1024x128 .f32} {harg5 : arg5.IsWhole} {arg6 : Memref sig .scVector .hbm S2x1024x512 .f32} {harg6 : arg6.IsWhole} {arg7 : Memref sig .scVector .vmem S128 .i32} {harg7 : arg7.IsWhole} {arg8 : Memref sig .scVector .vmem S128x128 .f32} {harg8 : arg8.IsWhole} {arg9 : Memref sig .scVector .vmem S128 .f32} {harg9 : arg9.IsWhole} {arg10 : Memref sig .scVector .vmem S128 .f32} {harg10 : arg10.IsWhole} {arg11 : DmaSems sig S_} {v11_r0 : DmaSems sig S_} {v33_r1 : DmaSems sig S_} {v33_r2 : DmaSems sig S_} {v11_r3 : DmaSems sig S_} {v33_r4 : DmaSems sig S_} {v33_r5 : DmaSems sig S_}
  {q8 q9 : PosShare TreeShare} {fr : Buf (Elt F) ((arg8.access (.whole S128x128)).loc (V d ((i 0).castLE hcore1) ((i 1).castLE hsub1)))} {fe : Buf (Elt F) (arg9.view.loc (V d ((i 0).castLE hcore1) ((i 1).castLE hsub1)))}

theorem part11_returns
    (k : Fin k1_t3_loop.trips) (arg20 : FVec F S16 .f32) (v35 : Vec F S16 .f32) (v475 : IVec S16 32) (v479 : Vec F S16 .f32) (r0 : ℕ)
    (hrow : ∀ x, (v475 x).toNat = r0 + (x 0).val) (hr : r0 + 15 < 128) :
    TReturns Ix U Lvl defs 𝒱 bd E d i arg8 arg9 q8 q9 fr fe
      (k1_part11_skel i arg2 harg2 arg3 harg3 arg4 harg4 arg5 harg5 arg6 harg6 arg7 harg7 arg8 harg8 arg9 harg9 arg10 harg10 arg11 v11_r0 v33_r1 v33_r2 v11_r3 v33_r4 v33_r5 arg20 (Scf.iv 0#32 1#32 k.val) v35 v475 v479)
      ⟨k1_pay20 arg20 v35 v479 (gcol (blockOf fr) r0 (16 * k.val + 1)) (gcol (blockOf fr) r0 (16 * k.val + 2)) (gcol (blockOf fr) r0 (16 * k.val + 3))
          (gcol (blockOf fr) r0 (16 * k.val + 4)),
        gcol (blockOf fr) r0 (16 * k.val + 5)⟩ := by
  unfold k1_part11_skel
  iterate 5 refine Returns.termAt (lt3 k) _ (by decide) r0 hrow hr ?_
  exact Returns.pure _

theorem part12_returns
    (k : Fin k1_t3_loop.trips) (v35 : Vec F S16 .f32) (v475 : IVec S16 32) (v520 : FVec F S16 .f32) (v524 : Vec F S16 .f32) (r0 : ℕ)
    (hrow : ∀ x, (v475 x).toNat = r0 + (x 0).val) (hr : r0 + 15 < 128) :
    TReturns Ix U Lvl defs 𝒱 bd E d i arg8 arg9 q8 q9 fr fe
      (k1_part12_skel i arg2 harg2 arg3 harg3 arg4 harg4 arg5 harg5 arg6 harg6 arg7 harg7 arg8 harg8 arg9 harg9 arg10 harg10 arg11 v11_r0 v33_r1 v33_r2 v11_r3 v33_r4 v33_r5 (Scf.iv 0#32 1#32 k.val) v35 v475 v520 v524)
      ⟨k1_pay21 v35 v520 v524 (gcol (blockOf fr) r0 (16 * k.val + 6)) (gcol (blockOf fr) r0 (16 * k.val + 7)) (gcol (blockOf fr) r0 (16 * k.val + 8))
          (gcol (blockOf fr) r0 (16 * k.val + 9)),
        gcol (blockOf fr) r0 (16 * k.val + 10)⟩ := by
  unfold k1_part12_skel
  iterate 5 refine Returns.termAt (lt3 k) _ (by decide) r0 hrow hr ?_
  exact Returns.pure _

theorem part14_returns
    (k : Fin k1_t3_loop.trips) (v3 : IVec S16 32) (arg21 : FVec F S16 .f32) (v35 : Vec F S16 .f32) (v610 : FVec F S16 .f32) (v614 : Vec F S16 .f32)
    (hv3 : v3 = iota .scVector S16 32 [0] iota_S16_d0_w32_scVector) :
    TReturns Ix U Lvl defs 𝒱 bd E d i arg8 arg9 q8 q9 fr fe
      (k1_part14_skel i arg2 harg2 arg3 harg3 arg4 harg4 arg5 harg5 arg6 harg6 arg7 harg7 arg8 harg8 arg9 harg9 arg10 harg10 arg11 v11_r0 v33_r1 v33_r2 v11_r3 v33_r4 v33_r5 v3 arg21 (Scf.iv 0#32 1#32 k.val) v35 v610 v614)
      ⟨k1_pay23 v35 v610 v614, k1_pay24 v3,
        k1_pay25 arg21 v35 (gcol (blockOf fr) 64 (16 * k.val + 0)) (gcol (blockOf fr) 64 (16 * k.val + 1)) (gcol (blockOf fr) 64 (16 * k.val + 2))
          (gcol (blockOf fr) 64 (16 * k.val + 3)),
        (Scalar.addi (Scalar.muli (Scf.iv 0#32 1#32 k.val) 16#32) 4#32)⟩ := by
  subst hv3
  have hrow : ∀ x, ((k1_pay24 (iota .scVector S16 32 [0] iota_S16_d0_w32_scVector) : IVec S16 32) x).toNat = 64 + (x 0).val :=
    fun x => rowA 64#32 (by decide) x
  have hr : 64 + 15 < 128 := by decide
  unfold k1_part14_skel
  iterate 4 refine Returns.termAt (lt3 k) _ (by decide) 64 hrow hr ?_
  exact Returns.pure _

end Cert.HandB

end
-- ==== Proof.ScPartsFB.lean ====
import proofs.«204931_g11295763988758_cont_test2_10_9_alg».proof.Proof.Gen.Kernel.Skeleton
import proofs.«204931_g11295763988758_cont_test2_10_9_alg».proof.Proof.ScAccB
import proofs.«204931_g11295763988758_cont_test2_10_9_alg».proof.Proof.ScReturnsB
import Idealize.ShloMosaic.Lib.SparseCore.Ops
import Idealize.ShloMosaic.Lib.Tactic

set_option maxHeartbeats 0
set_option maxRecDepth 65536

noncomputable section

namespace Cert.HandB

open Cert.Kernel Cert.Kernel.Gen

open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]
variable {defs : Defs nD τ sig (Elt F) Λ₀}

-- A tile's operands, and the two buffers it holds while it accumulates.
variable {𝒱 : Variants} {bd : Option 𝒱.V} {E : Set Name} {d : Dev nD} {i : grid1.Coords} {arg2 : Memref sig .scVector .hbm S100000x128 .f32} {harg2 : arg2.IsWhole} {arg3 : Memref sig .scVector .hbm S100000x128 .f32} {harg3 : arg3.IsWhole} {arg4 : Memref sig .scVector .hbm S1024x512 .i32} {harg4 : arg4.IsWhole} {arg5 : Memref sig .scVector .hbm S2x1024x128 .f32} {harg5 : arg5.IsWhole} {arg6 : Memref sig .scVector .hbm S2x1024x512 .f32} {harg6 : arg6.IsWhole} {arg7 : Memref sig .scVector .vmem S128 .i32} {harg7 : arg7.IsWhole} {arg8 : Memref sig .scVector .vmem S128x128 .f32} {harg8 : arg8.IsWhole} {arg9 : Memref sig .scVector .vmem S128 .f32} {harg9 : arg9.IsWhole} {arg10 : Memref sig .scVector .vmem S128 .f32} {harg10 : arg10.IsWhole} {arg11 : DmaSems sig S_} {v11_r0 : DmaSems sig S_} {v33_r1 : DmaSems sig S_} {v33_r2 : DmaSems sig S_} {v11_r3 : DmaSems sig S_} {v33_r4 : DmaSems sig S_} {v33_r5 : DmaSems sig S_}
  {q8 q9 : PosShare TreeShare} {fr : Buf (Elt F) ((arg8.access (.whole S128x128)).loc (V d ((i 0).castLE hcore1) ((i 1).castLE hsub1)))} {fe : Buf (Elt F) (arg9.view.loc (V d ((i 0).castLE hcore1) ((i 1).castLE hsub1)))}

theorem part15_returns
    (k : Fin k1_t3_loop.trips) (v35 : Vec F S16 .f32) (v621 : IVec S16 32) (v657 : FVec F S16 .f32) (v659 : BitVec 32) (r0 : ℕ)
    (hrow : ∀ x, (v621 x).toNat = r0 + (x 0).val) (hr : r0 + 15 < 128) (h659 : v659.toNat = 16 * k.val + 4) :
    TReturns Ix U Lvl defs 𝒱 bd E d i arg8 arg9 q8 q9 fr fe
      (k1_part15_skel i arg2 harg2 arg3 harg3 arg4 harg4 arg5 harg5 arg6 harg6 arg7 harg7 arg8 harg8 arg9 harg9 arg10 harg10 arg11 v11_r0 v33_r1 v33_r2 v11_r3 v33_r4 v33_r5 (Scf.iv 0#32 1#32 k.val) v35 v621 v657 v659)
      ⟨k1_pay26 v35 v657 (gcol (blockOf fr) r0 (16 * k.val + 4)) (gcol (blockOf fr) r0 (16 * k.val + 5)) (gcol (blockOf fr) r0 (16 * k.val + 6))
          (gcol (blockOf fr) r0 (16 * k.val + 7)) (gcol (blockOf fr) r0 (16 * k.val + 8)),
        (Scalar.addi (Scalar.muli (Scf.iv 0#32 1#32 k.val) 16#32) 9#32)⟩ := by
  have hk8 := lt3 k
  have c4 : ∀ x, ((broadcast S16 v659 : IVec S16 32) x).toNat = 16 * k.val + 4 := fun _ => h659
  unfold k1_part15_skel
  refine Returns.term r0 (16 * k.val + 4) hrow c4 hr (by omega) ?_
  iterate 4 refine Returns.termAt (lt3 k) _ (by decide) r0 hrow hr ?_
  exact Returns.pure _

theorem part16_returns
    (k : Fin k1_t3_loop.trips) (v35 : Vec F S16 .f32) (v621 : IVec S16 32) (v702 : FVec F S16 .f32) (v704 : BitVec 32) (r0 : ℕ)
    (hrow : ∀ x, (v621 x).toNat = r0 + (x 0).val) (hr : r0 + 15 < 128) (h704 : v704.toNat = 16 * k.val + 9) :
    TReturns Ix U Lvl defs 𝒱 bd E d i arg8 arg9 q8 q9 fr fe
      (k1_part16_skel i arg2 harg2 arg3 harg3 arg4 harg4 arg5 harg5 arg6 harg6 arg7 harg7 arg8 harg8 arg9 harg9 arg10 harg10 arg11 v11_r0 v33_r1 v33_r2 v11_r3 v33_r4 v33_r5 (Scf.iv 0#32 1#32 k.val) v35 v621 v702 v704)
      ⟨k1_pay27 v35 v702 (gcol (blockOf fr) r0 (16 * k.val + 9)) (gcol (blockOf fr) r0 (16 * k.val + 10)) (gcol (blockOf fr) r0 (16 * k.val + 11))
          (gcol (blockOf fr) r0 (16 * k.val + 12)) (gcol (blockOf fr) r0 (16 * k.val + 13)),
        (Scalar.addi (Scalar.muli (Scf.iv 0#32 1#32 k.val) 16#32) 14#32)⟩ := by
  have hk8 := lt3 k
  have c9 : ∀ x, ((broadcast S16 v704 : IVec S16 32) x).toNat = 16 * k.val + 9 := fun _ => h704
  unfold k1_part16_skel
  refine Returns.term r0 (16 * k.val + 9) hrow c9 hr (by omega) ?_
  iterate 4 refine Returns.termAt (lt3 k) _ (by decide) r0 hrow hr ?_
  exact Returns.pure _

theorem part17_returns
    (k : Fin k1_t3_loop.trips) (v3 : IVec S16 32) (hv3 : v3 = iota .scVector S16 32 [0] iota_S16_d0_w32_scVector) (arg22 : FVec F S16 .f32) (v35 : Vec F S16 .f32) (v621 : IVec S16 32) (v747 : FVec F S16 .f32) (v749 : BitVec 32) (r0 : ℕ)
    (hrow : ∀ x, (v621 x).toNat = r0 + (x 0).val) (hr : r0 + 15 < 128) (h749 : v749.toNat = 16 * k.val + 14) :
    TReturns Ix U Lvl defs 𝒱 bd E d i arg8 arg9 q8 q9 fr fe
      (k1_part17_skel i arg2 harg2 arg3 harg3 arg4 harg4 arg5 harg5 arg6 harg6 arg7 harg7 arg8 harg8 arg9 harg9 arg10 harg10 arg11 v11_r0 v33_r1 v33_r2 v11_r3 v33_r4 v33_r5 v3 arg22 (Scf.iv 0#32 1#32 k.val) v35 v621 v747 v749)
      ⟨k1_pay28 v35 v747 (gcol (blockOf fr) r0 (16 * k.val + 14)) (gcol (blockOf fr) r0 (16 * k.val + 15)),
        k1_pay29 v3,
        k1_pay30 arg22 v35 (gcol (blockOf fr) 80 (16 * k.val + 0)) (gcol (blockOf fr) 80 (16 * k.val + 1)) (gcol (blockOf fr) 80 (16 * k.val + 2)),
        16#32⟩ := by
  subst hv3
  have hk8 := lt3 k
  have c14 : ∀ x, ((broadcast S16 v749 : IVec S16 32) x).toNat = 16 * k.val + 14 := fun _ => h749
  have hrowN : ∀ x, ((k1_pay29 (iota .scVector S16 32 [0] iota_S16_d0_w32_scVector) : IVec S16 32) x).toNat = 80 + (x 0).val :=
    fun x => rowA 80#32 (by decide) x
  have hrN : 80 + 15 < 128 := by decide
  unfold k1_part17_skel
  refine Returns.term r0 (16 * k.val + 14) hrow c14 hr (by omega) ?_
  refine Returns.termAt (lt3 k) 15 (by decide) r0 hrow hr ?_
  iterate 3 refine Returns.termAt (lt3 k) _ (by decide) 80 hrowN hrN ?_
  exact Returns.pure _

theorem part18_returns
    (k : Fin k1_t3_loop.trips) (v35 : Vec F S16 .f32) (v767 : IVec S16 32) (v794 : FVec F S16 .f32) (c16 : BitVec 32) (hc16 : c16 = 16#32) (r0 : ℕ)
    (hrow : ∀ x, (v767 x).toNat = r0 + (x 0).val) (hr : r0 + 15 < 128) :
    TReturns Ix U Lvl defs 𝒱 bd E d i arg8 arg9 q8 q9 fr fe
      (k1_part18_skel i arg2 harg2 arg3 harg3 arg4 harg4 arg5 harg5 arg6 harg6 arg7 harg7 arg8 harg8 arg9 harg9 arg10 harg10 arg11 v11_r0 v33_r1 v33_r2 v11_r3 v33_r4 v33_r5 (Scf.iv 0#32 1#32 k.val) v35 v767 v794 c16)
      ⟨k1_pay31 v35 v794 (gcol (blockOf fr) r0 (16 * k.val + 3)) (gcol (blockOf fr) r0 (16 * k.val + 4)) (gcol (blockOf fr) r0 (16 * k.val + 5))
          (gcol (blockOf fr) r0 (16 * k.val + 6)) (gcol (blockOf fr) r0 (16 * k.val + 7)),
        16#32⟩ := by
  subst hc16
  unfold k1_part18_skel
  iterate 5 refine Returns.termAt (lt3 k) _ (by decide) r0 hrow hr ?_
  exact Returns.pure _

end Cert.HandB

end
-- ==== Proof.ScPartsGB.lean ====
import proofs.«204931_g11295763988758_cont_test2_10_9_alg».proof.Proof.Gen.Kernel.Skeleton
import proofs.«204931_g11295763988758_cont_test2_10_9_alg».proof.Proof.ScAccB
import proofs.«204931_g11295763988758_cont_test2_10_9_alg».proof.Proof.ScReturnsB
import Idealize.ShloMosaic.Lib.SparseCore.Ops
import Idealize.ShloMosaic.Lib.Tactic

set_option maxHeartbeats 0
set_option maxRecDepth 65536

noncomputable section

namespace Cert.HandB

open Cert.Kernel Cert.Kernel.Gen

open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]
variable {defs : Defs nD τ sig (Elt F) Λ₀}

-- A tile's operands, and the two buffers it holds while it accumulates.
variable {𝒱 : Variants} {bd : Option 𝒱.V} {E : Set Name} {d : Dev nD} {i : grid1.Coords} {arg2 : Memref sig .scVector .hbm S100000x128 .f32} {harg2 : arg2.IsWhole} {arg3 : Memref sig .scVector .hbm S100000x128 .f32} {harg3 : arg3.IsWhole} {arg4 : Memref sig .scVector .hbm S1024x512 .i32} {harg4 : arg4.IsWhole} {arg5 : Memref sig .scVector .hbm S2x1024x128 .f32} {harg5 : arg5.IsWhole} {arg6 : Memref sig .scVector .hbm S2x1024x512 .f32} {harg6 : arg6.IsWhole} {arg7 : Memref sig .scVector .vmem S128 .i32} {harg7 : arg7.IsWhole} {arg8 : Memref sig .scVector .vmem S128x128 .f32} {harg8 : arg8.IsWhole} {arg9 : Memref sig .scVector .vmem S128 .f32} {harg9 : arg9.IsWhole} {arg10 : Memref sig .scVector .vmem S128 .f32} {harg10 : arg10.IsWhole} {arg11 : DmaSems sig S_} {v11_r0 : DmaSems sig S_} {v33_r1 : DmaSems sig S_} {v33_r2 : DmaSems sig S_} {v11_r3 : DmaSems sig S_} {v33_r4 : DmaSems sig S_} {v33_r5 : DmaSems sig S_}
  {q8 q9 : PosShare TreeShare} {fr : Buf (Elt F) ((arg8.access (.whole S128x128)).loc (V d ((i 0).castLE hcore1) ((i 1).castLE hsub1)))} {fe : Buf (Elt F) (arg9.view.loc (V d ((i 0).castLE hcore1) ((i 1).castLE hsub1)))}

theorem part19_returns
    (k : Fin k1_t3_loop.trips) (v35 : Vec F S16 .f32) (v767 : IVec S16 32) (v839 : FVec F S16 .f32) (c16 : BitVec 32) (r0 : ℕ)
    (hrow : ∀ x, (v767 x).toNat = r0 + (x 0).val) (hr : r0 + 15 < 128) (hc16 : c16 = 16#32) :
    TReturns Ix U Lvl defs 𝒱 bd E d i arg8 arg9 q8 q9 fr fe
      (k1_part19_skel i arg2 harg2 arg3 harg3 arg4 harg4 arg5 harg5 arg6 harg6 arg7 harg7 arg8 harg8 arg9 harg9 arg10 harg10 arg11 v11_r0 v33_r1 v33_r2 v11_r3 v33_r4 v33_r5 (Scf.iv 0#32 1#32 k.val) v35 v767 v839 c16)
      ⟨k1_pay32 v35 v839 (gcol (blockOf fr) r0 (16 * k.val + 8)) (gcol (blockOf fr) r0 (16 * k.val + 9)) (gcol (blockOf fr) r0 (16 * k.val + 10))
          (gcol (blockOf fr) r0 (16 * k.val + 11)) (gcol (blockOf fr) r0 (16 * k.val + 12)),
        16#32⟩ := by
  subst hc16
  unfold k1_part19_skel
  iterate 5 refine Returns.termAt (lt3 k) _ (by decide) r0 hrow hr ?_
  exact Returns.pure _

theorem part20_returns
    (k : Fin k1_t3_loop.trips) (v3 : IVec S16 32) (arg23 : FVec F S16 .f32) (v35 : Vec F S16 .f32) (v767 : IVec S16 32) (v884 : FVec F S16 .f32) (c16 : BitVec 32) (r0 : ℕ)
    (hv3 : v3 = iota .scVector S16 32 [0] iota_S16_d0_w32_scVector) (hrow : ∀ x, (v767 x).toNat = r0 + (x 0).val) (hr : r0 + 15 < 128) (hc16 : c16 = 16#32) :
    TReturns Ix U Lvl defs 𝒱 bd E d i arg8 arg9 q8 q9 fr fe
      (k1_part20_skel i arg2 harg2 arg3 harg3 arg4 harg4 arg5 harg5 arg6 harg6 arg7 harg7 arg8 harg8 arg9 harg9 arg10 harg10 arg11 v11_r0 v33_r1 v33_r2 v11_r3 v33_r4 v33_r5 v3 arg23 (Scf.iv 0#32 1#32 k.val) v35 v767 v884 c16)
      ⟨k1_pay33 v35 v884 (gcol (blockOf fr) r0 (16 * k.val + 13)) (gcol (blockOf fr) r0 (16 * k.val + 14)) (gcol (blockOf fr) r0 (16 * k.val + 15)),
        k1_pay34 v3,
        k1_pay35 arg23 v35 (gcol (blockOf fr) 96 (16 * k.val + 0)),
        gcol (blockOf fr) 96 (16 * k.val + 1), k1_pay36 v35⟩ := by
  subst hv3
  subst hc16
  have hrowN : ∀ x, ((k1_pay34 (iota .scVector S16 32 [0] iota_S16_d0_w32_scVector)) x).toNat = 96 + (x 0).val := fun x => rowA 96#32 (by decide) x
  unfold k1_part20_skel
  iterate 3 refine Returns.termAt (lt3 k) _ (by decide) r0 hrow hr ?_
  iterate 2 refine Returns.termAt (lt3 k) _ (by decide) 96 hrowN (by omega) ?_
  exact Returns.pure _

theorem part21_returns
    (k : Fin k1_t3_loop.trips) (v35 : Vec F S16 .f32) (v913 : IVec S16 32) (v922 : FVec F S16 .f32) (v926 : Vec F S16 .f32) (v929 : FVec F S16 .f32) (r0 : ℕ)
    (hrow : ∀ x, (v913 x).toNat = r0 + (x 0).val) (hr : r0 + 15 < 128) :
    TReturns Ix U Lvl defs 𝒱 bd E d i arg8 arg9 q8 q9 fr fe
      (k1_part21_skel i arg2 harg2 arg3 harg3 arg4 harg4 arg5 harg5 arg6 harg6 arg7 harg7 arg8 harg8 arg9 harg9 arg10 harg10 arg11 v11_r0 v33_r1 v33_r2 v11_r3 v33_r4 v33_r5 (Scf.iv 0#32 1#32 k.val) v35 v913 v922 v926 v929)
      ⟨k1_pay37 v35 v922 v926 v929 (gcol (blockOf fr) r0 (16 * k.val + 2)) (gcol (blockOf fr) r0 (16 * k.val + 3)) (gcol (blockOf fr) r0 (16 * k.val + 4))
          (gcol (blockOf fr) r0 (16 * k.val + 5)),
        gcol (blockOf fr) r0 (16 * k.val + 6), k1_pay38 v35⟩ := by
  unfold k1_part21_skel
  iterate 5 refine Returns.termAt (lt3 k) _ (by decide) r0 hrow hr ?_
  exact Returns.pure _

theorem part22_returns
    (k : Fin k1_t3_loop.trips) (v35 : Vec F S16 .f32) (v913 : IVec S16 32) (v967 : FVec F S16 .f32) (v971 : Vec F S16 .f32) (v974 : FVec F S16 .f32) (r0 : ℕ)
    (hrow : ∀ x, (v913 x).toNat = r0 + (x 0).val) (hr : r0 + 15 < 128) :
    TReturns Ix U Lvl defs 𝒱 bd E d i arg8 arg9 q8 q9 fr fe
      (k1_part22_skel i arg2 harg2 arg3 harg3 arg4 harg4 arg5 harg5 arg6 harg6 arg7 harg7 arg8 harg8 arg9 harg9 arg10 harg10 arg11 v11_r0 v33_r1 v33_r2 v11_r3 v33_r4 v33_r5 (Scf.iv 0#32 1#32 k.val) v35 v913 v967 v971 v974)
      ⟨k1_pay39 v35 v967 v971 v974 (gcol (blockOf fr) r0 (16 * k.val + 7)) (gcol (blockOf fr) r0 (16 * k.val + 8)) (gcol (blockOf fr) r0 (16 * k.val + 9))
          (gcol (blockOf fr) r0 (16 * k.val + 10)),
        gcol (blockOf fr) r0 (16 * k.val + 11), k1_pay40 v35⟩ := by
  unfold k1_part22_skel
  iterate 5 refine Returns.termAt (lt3 k) _ (by decide) r0 hrow hr ?_
  exact Returns.pure _

end Cert.HandB

end
-- ==== Proof.ScPartsHB.lean ====
import proofs.«204931_g11295763988758_cont_test2_10_9_alg».proof.Proof.Gen.Kernel.Skeleton
import proofs.«204931_g11295763988758_cont_test2_10_9_alg».proof.Proof.ScAccB
import proofs.«204931_g11295763988758_cont_test2_10_9_alg».proof.Proof.ScReturnsB
import Idealize.ShloMosaic.Lib.SparseCore.Ops
import Idealize.ShloMosaic.Lib.Tactic

set_option maxHeartbeats 0
set_option maxRecDepth 65536

noncomputable section

namespace Cert.HandB

open Cert.Kernel Cert.Kernel.Gen

open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]
variable {defs : Defs nD τ sig (Elt F) Λ₀}

-- A tile's operands, and the two buffers it holds while it accumulates.
variable {𝒱 : Variants} {bd : Option 𝒱.V} {E : Set Name} {d : Dev nD} {i : grid1.Coords} {arg2 : Memref sig .scVector .hbm S100000x128 .f32} {harg2 : arg2.IsWhole} {arg3 : Memref sig .scVector .hbm S100000x128 .f32} {harg3 : arg3.IsWhole} {arg4 : Memref sig .scVector .hbm S1024x512 .i32} {harg4 : arg4.IsWhole} {arg5 : Memref sig .scVector .hbm S2x1024x128 .f32} {harg5 : arg5.IsWhole} {arg6 : Memref sig .scVector .hbm S2x1024x512 .f32} {harg6 : arg6.IsWhole} {arg7 : Memref sig .scVector .vmem S128 .i32} {harg7 : arg7.IsWhole} {arg8 : Memref sig .scVector .vmem S128x128 .f32} {harg8 : arg8.IsWhole} {arg9 : Memref sig .scVector .vmem S128 .f32} {harg9 : arg9.IsWhole} {arg10 : Memref sig .scVector .vmem S128 .f32} {harg10 : arg10.IsWhole} {arg11 : DmaSems sig S_} {v11_r0 : DmaSems sig S_} {v33_r1 : DmaSems sig S_} {v33_r2 : DmaSems sig S_} {v11_r3 : DmaSems sig S_} {v33_r4 : DmaSems sig S_} {v33_r5 : DmaSems sig S_}
  {q8 q9 : PosShare TreeShare} {fr : Buf (Elt F) ((arg8.access (.whole S128x128)).loc (V d ((i 0).castLE hcore1) ((i 1).castLE hsub1)))} {fe : Buf (Elt F) (arg9.view.loc (V d ((i 0).castLE hcore1) ((i 1).castLE hsub1)))}

theorem part23_returns
    (k : Fin k1_t3_loop.trips) (v3 : IVec S16 32) (hv3 : v3 = iota .scVector S16 32 [0] iota_S16_d0_w32_scVector)
    (v35 : Vec F S16 .f32) (v913 : IVec S16 32) (v1012 : FVec F S16 .f32) (v1016 : Vec F S16 .f32) (v1019 : FVec F S16 .f32) (r0 : ℕ)
    (hrow : ∀ x, (v913 x).toNat = r0 + (x 0).val) (hr : r0 + 15 < 128) :
    TReturns Ix U Lvl defs 𝒱 bd E d i arg8 arg9 q8 q9 fr fe
      (k1_part23_skel i arg2 harg2 arg3 harg3 arg4 harg4 arg5 harg5 arg6 harg6 arg7 harg7 arg8 harg8 arg9 harg9 arg10 harg10 arg11 v11_r0 v33_r1 v33_r2 v11_r3 v33_r4 v33_r5 v3 (Scf.iv 0#32 1#32 k.val) v35 v913 v1012 v1016 v1019)
      ⟨k1_pay41 v35 v1012 v1016 v1019 (gcol (blockOf fr) r0 (16 * k.val + 12)) (gcol (blockOf fr) r0 (16 * k.val + 13)) (gcol (blockOf fr) r0 (16 * k.val + 14))
          (gcol (blockOf fr) r0 (16 * k.val + 15)),
        k1_pay42 v3, gcol (blockOf fr) 112 (16 * k.val + 0)⟩ := by
  subst hv3
  have hrow7 : ∀ x, ((k1_pay42 (iota .scVector S16 32 [0] iota_S16_d0_w32_scVector)) x).toNat = 112 + (x 0).val := fun x => rowA 112#32 (by decide) x
  have hr7 : 112 + 15 < 128 := by decide
  unfold k1_part23_skel
  iterate 4 refine Returns.termAt (lt3 k) _ (by decide) r0 hrow hr ?_
  refine Returns.termAt (lt3 k) 0 (by decide) 112 hrow7 hr7 ?_
  exact Returns.pure _

theorem part24_returns
    (k : Fin k1_t3_loop.trips) (arg24 : FVec F S16 .f32) (v35 : Vec F S16 .f32) (v1059 : IVec S16 32) (v1063 : Vec F S16 .f32) (r0 : ℕ)
    (hrow : ∀ x, (v1059 x).toNat = r0 + (x 0).val) (hr : r0 + 15 < 128) :
    TReturns Ix U Lvl defs 𝒱 bd E d i arg8 arg9 q8 q9 fr fe
      (k1_part24_skel i arg2 harg2 arg3 harg3 arg4 harg4 arg5 harg5 arg6 harg6 arg7 harg7 arg8 harg8 arg9 harg9 arg10 harg10 arg11 v11_r0 v33_r1 v33_r2 v11_r3 v33_r4 v33_r5 arg24 (Scf.iv 0#32 1#32 k.val) v35 v1059 v1063)
      ⟨k1_pay43 arg24 v35 v1063 (gcol (blockOf fr) r0 (16 * k.val + 1)) (gcol (blockOf fr) r0 (16 * k.val + 2)) (gcol (blockOf fr) r0 (16 * k.val + 3))
          (gcol (blockOf fr) r0 (16 * k.val + 4)),
        gcol (blockOf fr) r0 (16 * k.val + 5)⟩ := by
  unfold k1_part24_skel
  iterate 5 refine Returns.termAt (lt3 k) _ (by decide) r0 hrow hr ?_
  exact Returns.pure _

theorem part25_returns
    (k : Fin k1_t3_loop.trips) (v35 : Vec F S16 .f32) (v1059 : IVec S16 32) (v1104 : FVec F S16 .f32) (v1108 : Vec F S16 .f32) (r0 : ℕ)
    (hrow : ∀ x, (v1059 x).toNat = r0 + (x 0).val) (hr : r0 + 15 < 128) :
    TReturns Ix U Lvl defs 𝒱 bd E d i arg8 arg9 q8 q9 fr fe
      (k1_part25_skel i arg2 harg2 arg3 harg3 arg4 harg4 arg5 harg5 arg6 harg6 arg7 harg7 arg8 harg8 arg9 harg9 arg10 harg10 arg11 v11_r0 v33_r1 v33_r2 v11_r3 v33_r4 v33_r5 (Scf.iv 0#32 1#32 k.val) v35 v1059 v1104 v1108)
      ⟨k1_pay44 v35 v1104 v1108 (gcol (blockOf fr) r0 (16 * k.val + 6)) (gcol (blockOf fr) r0 (16 * k.val + 7)) (gcol (blockOf fr) r0 (16 * k.val + 8))
          (gcol (blockOf fr) r0 (16 * k.val + 9)),
        gcol (blockOf fr) r0 (16 * k.val + 10)⟩ := by
  unfold k1_part25_skel
  iterate 5 refine Returns.termAt (lt3 k) _ (by decide) r0 hrow hr ?_
  exact Returns.pure _

theorem part26_returns
    (k : Fin k1_t3_loop.trips) (v35 : Vec F S16 .f32) (v1059 : IVec S16 32) (v1149 : FVec F S16 .f32) (v1153 : Vec F S16 .f32) (r0 : ℕ)
    (hrow : ∀ x, (v1059 x).toNat = r0 + (x 0).val) (hr : r0 + 15 < 128) :
    TReturns Ix U Lvl defs 𝒱 bd E d i arg8 arg9 q8 q9 fr fe
      (k1_part26_skel i arg2 harg2 arg3 harg3 arg4 harg4 arg5 harg5 arg6 harg6 arg7 harg7 arg8 harg8 arg9 harg9 arg10 harg10 arg11 v11_r0 v33_r1 v33_r2 v11_r3 v33_r4 v33_r5 (Scf.iv 0#32 1#32 k.val) v35 v1059 v1149 v1153)
      ⟨k1_pay45 v35 v1149 v1153 (gcol (blockOf fr) r0 (16 * k.val + 11)) (gcol (blockOf fr) r0 (16 * k.val + 12)) (gcol (blockOf fr) r0 (16 * k.val + 13))
          (gcol (blockOf fr) r0 (16 * k.val + 14)),
        gcol (blockOf fr) r0 (16 * k.val + 15)⟩ := by
  unfold k1_part26_skel
  iterate 5 refine Returns.termAt (lt3 k) _ (by decide) r0 hrow hr ?_
  exact Returns.pure _

end Cert.HandB

end
-- ==== Proof.ScTripChainB.lean ====
import proofs.«204931_g11295763988758_cont_test2_10_9_alg».proof.Proof.Gen.Kernel.Skeleton
import proofs.«204931_g11295763988758_cont_test2_10_9_alg».proof.Proof.ScAccB
import proofs.«204931_g11295763988758_cont_test2_10_9_alg».proof.Proof.ScReturnsB
import proofs.«204931_g11295763988758_cont_test2_10_9_alg».proof.Proof.ScPartsAB
import proofs.«204931_g11295763988758_cont_test2_10_9_alg».proof.Proof.ScPartsBB
import proofs.«204931_g11295763988758_cont_test2_10_9_alg».proof.Proof.ScPartsCB
import proofs.«204931_g11295763988758_cont_test2_10_9_alg».proof.Proof.ScPartsEB
import proofs.«204931_g11295763988758_cont_test2_10_9_alg».proof.Proof.ScPartsFB
import proofs.«204931_g11295763988758_cont_test2_10_9_alg».proof.Proof.ScPartsGB
import proofs.«204931_g11295763988758_cont_test2_10_9_alg».proof.Proof.ScPartsHB
import Idealize.ShloMosaic.Lib.SparseCore.Ops
import Idealize.ShloMosaic.Lib.Tactic

set_option maxHeartbeats 0
set_option maxRecDepth 65536

noncomputable section

namespace Cert.HandB

open Cert.Kernel Cert.Kernel.Gen

open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]
variable {defs : Defs nD τ sig (Elt F) Λ₀}

variable {𝒱 : Variants} {bd : Option 𝒱.V} {E : Set Name} {d : Dev nD} {i : grid1.Coords} {arg2 : Memref sig .scVector .hbm S100000x128 .f32} {harg2 : arg2.IsWhole} {arg3 : Memref sig .scVector .hbm S100000x128 .f32} {harg3 : arg3.IsWhole} {arg4 : Memref sig .scVector .hbm S1024x512 .i32} {harg4 : arg4.IsWhole} {arg5 : Memref sig .scVector .hbm S2x1024x128 .f32} {harg5 : arg5.IsWhole} {arg6 : Memref sig .scVector .hbm S2x1024x512 .f32} {harg6 : arg6.IsWhole} {arg7 : Memref sig .scVector .vmem S128 .i32} {harg7 : arg7.IsWhole} {arg8 : Memref sig .scVector .vmem S128x128 .f32} {harg8 : arg8.IsWhole} {arg9 : Memref sig .scVector .vmem S128 .f32} {harg9 : arg9.IsWhole} {arg10 : Memref sig .scVector .vmem S128 .f32} {harg10 : arg10.IsWhole} {arg11 : DmaSems sig S_} {v11_r0 : DmaSems sig S_} {v33_r1 : DmaSems sig S_} {v33_r2 : DmaSems sig S_} {v11_r3 : DmaSems sig S_} {v33_r4 : DmaSems sig S_} {v33_r5 : DmaSems sig S_}
  {q8 q9 : PosShare TreeShare} {fr : Buf (Elt F) ((arg8.access (.whole S128x128)).loc (V d ((i 0).castLE hcore1) ((i 1).castLE hsub1)))} {fe : Buf (Elt F) (arg9.view.loc (V d ((i 0).castLE hcore1) ((i 1).castLE hsub1)))}

-- One trip: its twenty-six stretches in sequence; lane by lane the closing payloads are sixteen more terms of the chain.
theorem trip3_chain (k1_t1 : Fin k1_t1_loop.trips) (c0_i32_10 c1_i32_11 : BitVec 32) (k1_t2 : Fin k1_t2_loop.trips)
    (k : Fin k1_t3_loop.trips) (a0 a1 a2 a3 a4 a5 a6 a7 : FVec F S16 .f32) :
    TReturns Ix U Lvl defs 𝒱 bd E d i arg8 arg9 q8 q9 fr fe
      (k1_t3_body i arg2 harg2 arg3 harg3 arg4 harg4 arg5 harg5 arg6 harg6 arg7 harg7 arg8 harg8 arg9 harg9 arg10 harg10 arg11 v11_r0 v33_r1 v33_r2 v11_r3 v33_r4 v33_r5 (iota .scVector S16 32 [0] iota_S16_d0_w32_scVector) k1_t1 c0_i32_10 c1_i32_11 k1_t2 k (a0, a1, a2, a3, a4, a5, a6, a7))
      (stepAll (blockOf fr) (featOf fe) k.val a0 a1 a2 a3 a4 a5 a6 a7) := by
  refine Returns.congr (v := ?w) ?h1 ?h2
  case h1 =>
    unfold k1_t3_body
    rw [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton]
    refine Returns.bind (part1_returns k _ _ rfl) ?_
    refine Returns.bind (part2_returns k _ _ _ _ 0 (rowA 0#32 (by decide)) (by decide) (colW (lt3 k) (by decide))) ?_
    refine Returns.bind (part3_returns k _ _ _ _ 0 (rowA 0#32 (by decide)) (by decide) (colW (lt3 k) (by decide))) ?_
    refine Returns.bind (part4_returns k _ _ _ _ _ _ 0 rfl (rowA 0#32 (by decide)) (by decide) (colW (lt3 k) (by decide))) ?_
    refine Returns.bind (part5_returns k _ _ _ _ 16 (rowA 16#32 (by decide)) (by decide) rfl) ?_
    refine Returns.bind (part6_returns k _ _ _ _ 16 (rowA 16#32 (by decide)) (by decide) rfl) ?_
    refine Returns.bind (part7_returns k _ _ _ _ _ _ 16 rfl rfl (rowA 16#32 (by decide)) (by decide)) ?_
    refine Returns.bind (part8_returns k _ _ _ _ _ 32 (rowA 32#32 (by decide)) (by decide)) ?_
    refine Returns.bind (part9_returns k _ _ _ _ _ 32 (rowA 32#32 (by decide)) (by decide)) ?_
    refine Returns.bind (part10_returns k _ _ _ _ _ _ 32 rfl (rowA 32#32 (by decide)) (by decide)) ?_
    refine Returns.bind (part11_returns k _ _ _ _ 48 (rowA 48#32 (by decide)) (by decide)) ?_
    refine Returns.bind (part12_returns k _ _ _ _ 48 (rowA 48#32 (by decide)) (by decide)) ?_
    refine Returns.bind (part13_returns k _ _ _ _ 48 (rowA 48#32 (by decide)) (by decide)) ?_
    refine Returns.bind (part14_returns k _ _ _ _ _ rfl) ?_
    refine Returns.bind (part15_returns k _ _ _ _ 64 (rowA 64#32 (by decide)) (by decide) (colW (lt3 k) (by decide))) ?_
    refine Returns.bind (part16_returns k _ _ _ _ 64 (rowA 64#32 (by decide)) (by decide) (colW (lt3 k) (by decide))) ?_
    refine Returns.bind (part17_returns k _ rfl _ _ _ _ _ 64 (rowA 64#32 (by decide)) (by decide) (colW (lt3 k) (by decide))) ?_
    refine Returns.bind (part18_returns k _ _ _ _ rfl 80 (rowA 80#32 (by decide)) (by decide)) ?_
    refine Returns.bind (part19_returns k _ _ _ _ 80 (rowA 80#32 (by decide)) (by decide) rfl) ?_
    refine Returns.bind (part20_returns k _ _ _ _ _ _ 80 rfl (rowA 80#32 (by decide)) (by decide) rfl) ?_
    refine Returns.bind (part21_returns k _ _ _ _ _ 96 (rowA 96#32 (by decide)) (by decide)) ?_
    refine Returns.bind (part22_returns k _ _ _ _ _ 96 (rowA 96#32 (by decide)) (by decide)) ?_
    refine Returns.bind (part23_returns k _ rfl _ _ _ _ _ 96 (rowA 96#32 (by decide)) (by decide)) ?_
    refine Returns.bind (part24_returns k _ _ _ _ 112 (rowA 112#32 (by decide)) (by decide)) ?_
    refine Returns.bind (part25_returns k _ _ _ _ 112 (rowA 112#32 (by decide)) (by decide)) ?_
    refine Returns.bind (part26_returns k _ _ _ _ 112 (rowA 112#32 (by decide)) (by decide)) ?_
    exact Returns.pure (defs := defs) (Ix := Ix) (Name := Name) (U := U) (Lvl := Lvl) _
  case h2 =>
    unfold stepAll
    refine Prod.ext ?_ (Prod.ext ?_ (Prod.ext ?_ (Prod.ext ?_ (Prod.ext ?_ (Prod.ext ?_ (Prod.ext ?_ ?_))))))
    all_goals (funext x; rfl)

end Cert.HandB

end
-- ==== Proof.ScTripB.lean ====
import proofs.«204931_g11295763988758_cont_test2_10_9_alg».proof.Proof.Gen.Kernel.Skeleton
import proofs.«204931_g11295763988758_cont_test2_10_9_alg».proof.Proof.ScAccB
import proofs.«204931_g11295763988758_cont_test2_10_9_alg».proof.Proof.ScReturnsB
import proofs.«204931_g11295763988758_cont_test2_10_9_alg».proof.Proof.ScTripChainB
import Idealize.ShloMosaic.Lib.SparseCore.Ops
import Idealize.ShloMosaic.Lib.Tactic

set_option maxHeartbeats 0
set_option maxRecDepth 65536

noncomputable section

namespace Cert.HandB

open Cert.Kernel Cert.Kernel.Gen

open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]
variable {defs : Defs nD τ sig (Elt F) Λ₀}

variable (𝒱 : Variants) (bd : Option 𝒱.V) (E : Set Name) (d : Dev nD) (i : grid1.Coords) (arg2 : Memref sig .scVector .hbm S100000x128 .f32) (harg2 : arg2.IsWhole) (arg3 : Memref sig .scVector .hbm S100000x128 .f32) (harg3 : arg3.IsWhole) (arg4 : Memref sig .scVector .hbm S1024x512 .i32) (harg4 : arg4.IsWhole) (arg5 : Memref sig .scVector .hbm S2x1024x128 .f32) (harg5 : arg5.IsWhole) (arg6 : Memref sig .scVector .hbm S2x1024x512 .f32) (harg6 : arg6.IsWhole) (arg7 : Memref sig .scVector .vmem S128 .i32) (harg7 : arg7.IsWhole) (arg8 : Memref sig .scVector .vmem S128x128 .f32) (harg8 : arg8.IsWhole) (arg9 : Memref sig .scVector .vmem S128 .f32) (harg9 : arg9.IsWhole) (arg10 : Memref sig .scVector .vmem S128 .f32) (harg10 : arg10.IsWhole) (arg11 : DmaSems sig S_) (v11_r0 : DmaSems sig S_) (v33_r1 : DmaSems sig S_) (v33_r2 : DmaSems sig S_) (v11_r3 : DmaSems sig S_) (v33_r4 : DmaSems sig S_) (v33_r5 : DmaSems sig S_) (v3 : IVec S16 32)

-- Eight trips from zero leave, in lane `l` of group `g`, the chain over all 128 columns of row `16 g + l`.
theorem dotsLoop0 (k1_t1 : Fin k1_t1_loop.trips) (c0_i32_10 : BitVec 32) (c1_i32_11 : BitVec 32) (k1_t2 : Fin k1_t2_loop.trips) (hv3 : v3 = iota .scVector S16 32 [0] iota_S16_d0_w32_scVector)
    (q8 q9 : PosShare TreeShare) (fr : Buf (Elt F) ((arg8.access (.whole S128x128)).loc (V d ((i 0).castLE hcore1) ((i 1).castLE hsub1)))) (fe : Buf (Elt F) (arg9.view.loc (V d ((i 0).castLE hcore1) ((i 1).castLE hsub1)))) :
    Returns (defs := defs) (Ix := Ix) (Name := Name) (U := U) (Lvl := Lvl) 𝒱 (V d ((i 0).castLE hcore1) ((i 1).castLE hsub1)) bd E arg8 arg9 q8 q9 fr fe
      (Scf.Loop.for k1_t3_loop k1_t3_ok (k1_pay46 (F := F), k1_pay47 (F := F), k1_pay48 (F := F), k1_pay49 (F := F), k1_pay50 (F := F), k1_pay51 (F := F), k1_pay52 (F := F), k1_pay53 (F := F))
        (k1_t3_body i arg2 harg2 arg3 harg3 arg4 harg4 arg5 harg5 arg6 harg6 arg7 harg7 arg8 harg8 arg9 harg9 arg10 harg10 arg11 v11_r0 v33_r1 v33_r2 v11_r3 v33_r4 v33_r5 v3 k1_t1 c0_i32_10 c1_i32_11 k1_t2))
      (accAt ((arg8.access (.whole S128x128)).read (Elt F) fr) (arg9.view.read (Elt F) fe) 128) := by
  subst hv3
  refine Returns.for _ _ _ (fun n => accAt ((arg8.access (.whole S128x128)).read (Elt F) fr) (arg9.view.read (Elt F) fe) (16 * n)) rfl (fun k => ?_) (by rw [trips3])
  rw [← stepAll_accAt]
  unfold accAt
  exact trip3_chain k1_t1 c0_i32_10 c1_i32_11 k1_t2 k _ _ _ _ _ _ _ _

-- Bank 1's loop is bank 0's: the two loop bodies are the same term.
theorem dotsLoop1 (k1_t4 : Fin k1_t4_loop.trips) (c0_i32_10 : BitVec 32) (c1_i32_11 : BitVec 32) (k1_t5 : Fin k1_t5_loop.trips) (hv3 : v3 = iota .scVector S16 32 [0] iota_S16_d0_w32_scVector)
    (q8 q9 : PosShare TreeShare) (fr : Buf (Elt F) ((arg8.access (.whole S128x128)).loc (V d ((i 0).castLE hcore1) ((i 1).castLE hsub1)))) (fe : Buf (Elt F) (arg9.view.loc (V d ((i 0).castLE hcore1) ((i 1).castLE hsub1)))) :
    Returns (defs := defs) (Ix := Ix) (Name := Name) (U := U) (Lvl := Lvl) 𝒱 (V d ((i 0).castLE hcore1) ((i 1).castLE hsub1)) bd E arg8 arg9 q8 q9 fr fe
      (Scf.Loop.for k1_t6_loop k1_t6_ok (k1_pay100 (F := F), k1_pay101 (F := F), k1_pay102 (F := F), k1_pay103 (F := F), k1_pay104 (F := F), k1_pay105 (F := F), k1_pay106 (F := F), k1_pay107 (F := F))
        (k1_t6_body i arg2 harg2 arg3 harg3 arg4 harg4 arg5 harg5 arg6 harg6 arg7 harg7 arg8 harg8 arg9 harg9 arg10 harg10 arg11 v11_r0 v33_r1 v33_r2 v11_r3 v33_r4 v33_r5 v3 k1_t4 c0_i32_10 c1_i32_11 k1_t5))
      (accAt ((arg8.access (.whole S128x128)).read (Elt F) fr) (arg9.view.read (Elt F) fe) 128) :=
  dotsLoop0 𝒱 bd E d i arg2 harg2 arg3 harg3 arg4 harg4 arg5 harg5 arg6 harg6 arg7 harg7 arg8 harg8 arg9 harg9 arg10 harg10 arg11 v11_r0 v33_r1 v33_r2 v11_r3 v33_r4 v33_r5 v3 k1_t4 c0_i32_10 c1_i32_11 k1_t5 hv3 q8 q9 fr fe

end Cert.HandB

end
-- ==== Proof.ScValB.lean ====
import proofs.«204931_g11295763988758_cont_test2_10_9_alg».proof.Proof.ScIdxB
import proofs.«204931_g11295763988758_cont_test2_10_9_alg».proof.Proof.ScDotsB
import proofs.«204931_g11295763988758_cont_test2_10_9_alg».proof.Proof.ScAccB
import Idealize.ShloMosaic.Lib.Writes

noncomputable section

namespace Cert.HandB

open Cert.Kernel Cert.Kernel.Gen

open Idealize.ShloMosaic

variable {F : FTy → Type} [FloatOps F]

def rowChain (R : Vec F S128x128 .f32) (e : Vec F S128 .f32) (r : ℕ) : F .f32 :=
  Fin.foldl 128 (fun a (dd : Fin 128) => fma1 a (R (rcIdx r dd.val)) (e (eIdx dd.val))) (Scalar.ofBits .f32 0x00000000#32)

theorem accG_eq_rowChain (R : Vec F S128x128 .f32) (e : Vec F S128 .f32) (r0 : ℕ) (x : S16.Idx) :
    accG R e r0 128 x = rowChain R e (r0 + (x 0).val) :=
  accG_apply R e r0 x

abbrev accPieces (R : Vec F S128x128 .f32) (e : Vec F S128 .f32) : List (View.Piece (Elt F) S128 .f32) :=
  [⟨Rect.unit ![112] ![16] inb_S128_S16_112, accG R e 112 128⟩,
    ⟨Rect.unit ![96] ![16] inb_S128_S16_96, accG R e 96 128⟩,
    ⟨Rect.unit ![80] ![16] inb_S128_S16_80, accG R e 80 128⟩,
    ⟨Rect.unit ![64] S16.size inb_S128_S16_64, accG R e 64 128⟩,
    ⟨Rect.unit ![48] S16.size inb_S128_S16_48, accG R e 48 128⟩,
    ⟨Rect.unit ![32] S16.size inb_S128_S16_32, accG R e 32 128⟩,
    ⟨Rect.unit ![16] S16.size inb_S128_S16_16, accG R e 16 128⟩,
    ⟨Rect.unit ![0] S16.size inb_S128_S16_0, accG R e 0 128⟩]

theorem accPieces_cover (R : Vec F S128x128 .f32) (e : Vec F S128 .f32) (y : S128.Idx) :
    ∃ p ∈ accPieces R e, y ∈ p.1.set :=
  View.cover_of_tiled (accPieces R e) S16.size (by rfl) y

theorem accPieces_chain (R : Vec F S128x128 .f32) (e : Vec F S128 .f32) :
    ∀ p ∈ accPieces R e, ∀ x : p.1.shape.Idx, p.2 x = (fun y : S128.Idx => rowChain R e (y 0).val) (p.1.emb x) := by
  intro p hp
  simp only [accPieces, List.mem_cons, List.not_mem_nil, or_false] at hp
  rcases hp with rfl | rfl | rfl | rfl | rfl | rfl | rfl | rfl
  · intro x; show accG R e 112 128 x = rowChain R e (112 + 1 * (x 0).val); rw [accG_eq_rowChain, Nat.one_mul]
  · intro x; show accG R e 96 128 x = rowChain R e (96 + 1 * (x 0).val); rw [accG_eq_rowChain, Nat.one_mul]
  · intro x; show accG R e 80 128 x = rowChain R e (80 + 1 * (x 0).val); rw [accG_eq_rowChain, Nat.one_mul]
  · intro x; show accG R e 64 128 x = rowChain R e (64 + 1 * (x 0).val); rw [accG_eq_rowChain, Nat.one_mul]
  · intro x; show accG R e 48 128 x = rowChain R e (48 + 1 * (x 0).val); rw [accG_eq_rowChain, Nat.one_mul]
  · intro x; show accG R e 32 128 x = rowChain R e (32 + 1 * (x 0).val); rw [accG_eq_rowChain, Nat.one_mul]
  · intro x; show accG R e 16 128 x = rowChain R e (16 + 1 * (x 0).val); rw [accG_eq_rowChain, Nat.one_mul]
  · intro x; show accG R e 0 128 x = rowChain R e (0 + 1 * (x 0).val); rw [accG_eq_rowChain, Nat.one_mul]

theorem scratch_read (R : Vec F S128x128 .f32) (e : Vec F S128 .f32)
    (fd : (Memref.whole cc1_scratch3 : Memref sig .scVector .vmem S128 .f32).view.ty.Contents (Elt F)) (y : S128.Idx) :
    (Memref.whole cc1_scratch3 : Memref sig .scVector .vmem S128 .f32).view.read (Elt F)
        ((Memref.whole cc1_scratch3 : Memref sig .scVector .vmem S128 .f32).view.writes (Elt F) fd (accPieces R e)) y
      = rowChain R e (y 0).val :=
  View.read_writes_apply_of_pieces _ fd (fun y : S128.Idx => rowChain R e (y 0).val) (accPieces R e) (accPieces_chain R e) y
    (accPieces_cover R e y)

theorem piece_value0 (MT MS : FVec F S100000x128 .f32) (I : IVec S1024x512 32) (E : FVec F S2x1024x128 .f32)
    (hI : ∀ j, (I j).toNat < 100000) (L : grid1.Coords) (t1 : Fin k1_t1_loop.trips) (t2 : Fin k1_t2_loop.trips)
    (idxv : S128.Idx → Elt F .i32)
    (hidx : ∀ j : Fin 128, idxv (eIdx j.val)
      = I (ix2 (⟨rowN L t1.val, rowN_lt L (lt1 t1)⟩ : Fin 1024)
          (⟨128 * t2.val + j.val, by have := lt2 t2; have := j.isLt; omega⟩ : Fin 512)))
    (hn : S128.numel = S128x128.size gathers_S100000x128_S128x128.axis')
    (hin : ∀ x, (idxv x).toNat < S100000x128.size gathers_S100000x128_S128x128.axis)
    (R : Vec F S128x128 .f32) (hR : R = SparseCore.gatherPayload gathers_S100000x128_S128x128 MT (SparseCore.rows idxv hn hin))
    (e : Vec F S128 .f32)
    (he : ∀ dd : Fin 128, e (eIdx dd.val) = E (ix3 (0 : Fin 2) (⟨rowN L t1.val, rowN_lt L (lt1 t1)⟩ : Fin 1024) dd))
    (fd : (Memref.whole cc1_scratch3 : Memref sig .scVector .vmem S128 .f32).view.ty.Contents (Elt F))
    (fo : (oPc0 L t1 t2).view.ty.Contents (Elt F)) :
    ∀ x ∈ (oPc0 L t1 t2).view.set,
      (oPc0 L t1 t2).view.writes (Elt F) fo
          [⟨Rect.whole S128,
            (Memref.whole cc1_scratch3 : Memref sig .scVector .vmem S128 .f32).view.read (Elt F)
              ((Memref.whole cc1_scratch3 : Memref sig .scVector .vmem S128 .f32).view.writes (Elt F) fd
                [⟨Rect.unit ![112] ![16] inb_S128_S16_112, accG R e 112 128⟩,
                  ⟨Rect.unit ![96] ![16] inb_S128_S16_96, accG R e 96 128⟩,
                  ⟨Rect.unit ![80] ![16] inb_S128_S16_80, accG R e 80 128⟩,
                  ⟨Rect.unit ![64] S16.size inb_S128_S16_64, accG R e 64 128⟩,
                  ⟨Rect.unit ![48] S16.size inb_S128_S16_48, accG R e 48 128⟩,
                  ⟨Rect.unit ![32] S16.size inb_S128_S16_32, accG R e 32 128⟩,
                  ⟨Rect.unit ![16] S16.size inb_S128_S16_16, accG R e 16 128⟩,
                  ⟨Rect.unit ![0] S16.size inb_S128_S16_0, accG R e 0 128⟩])⟩] x
        = dotsK MT MS I E x := by
  intro x hx
  obtain ⟨j, rfl⟩ := mem_oPc0_exists L t1 t2 x hx
  have hj : ((eIdx j.val : S128.Idx) 0).val = j.val := Nat.mod_eq_of_lt j.isLt
  have h1 := View.read_writes_cons_emb (oPc0 L t1 t2).view fo (Rect.whole S128)
    ((Memref.whole cc1_scratch3 : Memref sig .scVector .vmem S128 .f32).view.read (Elt F)
      ((Memref.whole cc1_scratch3 : Memref sig .scVector .vmem S128 .f32).view.writes (Elt F) fd (accPieces R e))) []
    (eIdx j.val)
  rw [Rect.emb_whole_apply] at h1
  refine (h1.trans ?_)
  rw [scratch_read, hj, emb_oPc0]
  show rowChain R e j.val
    = dotAt (if ((0 : Fin 2)).val = 0 then MT else MS) E
        (I (ix2 (⟨rowN L t1.val, rowN_lt L (lt1 t1)⟩ : Fin 1024)
          (⟨128 * t2.val + j.val, by have := lt2 t2; have := j.isLt; omega⟩ : Fin 512))).toNat (0 : Fin 2)
        (⟨rowN L t1.val, rowN_lt L (lt1 t1)⟩ : Fin 1024)
  rw [if_pos (show ((0 : Fin 2)).val = 0 from rfl)]
  unfold rowChain dotAt
  refine congrArg (fun f => Fin.foldl 128 f (Scalar.ofBits .f32 0x00000000#32)) (funext fun a => funext fun dd => ?_)
  show fma1 a (R (rcIdx j.val dd.val)) (e (eIdx dd.val)) = fma1 a _ _
  rw [he dd, hR, gather_at MT idxv hn hin j dd, tblRow_of_lt (hI _)]
  exact congrArg (fun k => fma1 a (MT (ix2 k dd)) _) (Fin.ext (congrArg BitVec.toNat (hidx j)))

theorem piece_value1 (MT MS : FVec F S100000x128 .f32) (I : IVec S1024x512 32) (E : FVec F S2x1024x128 .f32)
    (hI : ∀ j, (I j).toNat < 100000) (L : grid1.Coords) (t4 : Fin k1_t4_loop.trips) (t5 : Fin k1_t5_loop.trips)
    (idxv : S128.Idx → Elt F .i32)
    (hidx : ∀ j : Fin 128, idxv (eIdx j.val)
      = I (ix2 (⟨rowN L t4.val, rowN_lt L (lt4 t4)⟩ : Fin 1024)
          (⟨128 * t5.val + j.val, by have := lt5 t5; have := j.isLt; omega⟩ : Fin 512)))
    (hn : S128.numel = S128x128.size gathers_S100000x128_S128x128.axis')
    (hin : ∀ x, (idxv x).toNat < S100000x128.size gathers_S100000x128_S128x128.axis)
    (R : Vec F S128x128 .f32) (hR : R = SparseCore.gatherPayload gathers_S100000x128_S128x128 MS (SparseCore.rows idxv hn hin))
    (e : Vec F S128 .f32)
    (he : ∀ dd : Fin 128, e (eIdx dd.val) = E (ix3 (1 : Fin 2) (⟨rowN L t4.val, rowN_lt L (lt4 t4)⟩ : Fin 1024) dd))
    (fd : (Memref.whole cc1_scratch3 : Memref sig .scVector .vmem S128 .f32).view.ty.Contents (Elt F))
    (fo : (oPc1 L t4 t5).view.ty.Contents (Elt F)) :
    ∀ x ∈ (oPc1 L t4 t5).view.set,
      (oPc1 L t4 t5).view.writes (Elt F) fo
          [⟨Rect.whole S128,
            (Memref.whole cc1_scratch3 : Memref sig .scVector .vmem S128 .f32).view.read (Elt F)
              ((Memref.whole cc1_scratch3 : Memref sig .scVector .vmem S128 .f32).view.writes (Elt F) fd
                [⟨Rect.unit ![112] ![16] inb_S128_S16_112, accG R e 112 128⟩,
                  ⟨Rect.unit ![96] ![16] inb_S128_S16_96, accG R e 96 128⟩,
                  ⟨Rect.unit ![80] ![16] inb_S128_S16_80, accG R e 80 128⟩,
                  ⟨Rect.unit ![64] S16.size inb_S128_S16_64, accG R e 64 128⟩,
                  ⟨Rect.unit ![48] S16.size inb_S128_S16_48, accG R e 48 128⟩,
                  ⟨Rect.unit ![32] S16.size inb_S128_S16_32, accG R e 32 128⟩,
                  ⟨Rect.unit ![16] S16.size inb_S128_S16_16, accG R e 16 128⟩,
                  ⟨Rect.unit ![0] S16.size inb_S128_S16_0, accG R e 0 128⟩])⟩] x
        = dotsK MT MS I E x := by
  intro x hx
  obtain ⟨j, rfl⟩ := mem_oPc1_exists L t4 t5 x hx
  have hj : ((eIdx j.val : S128.Idx) 0).val = j.val := Nat.mod_eq_of_lt j.isLt
  have h1 := View.read_writes_cons_emb (oPc1 L t4 t5).view fo (Rect.whole S128)
    ((Memref.whole cc1_scratch3 : Memref sig .scVector .vmem S128 .f32).view.read (Elt F)
      ((Memref.whole cc1_scratch3 : Memref sig .scVector .vmem S128 .f32).view.writes (Elt F) fd (accPieces R e))) []
    (eIdx j.val)
  rw [Rect.emb_whole_apply] at h1
  refine (h1.trans ?_)
  rw [scratch_read, hj, emb_oPc1]
  show rowChain R e j.val
    = dotAt (if ((1 : Fin 2)).val = 0 then MT else MS) E
        (I (ix2 (⟨rowN L t4.val, rowN_lt L (lt4 t4)⟩ : Fin 1024)
          (⟨128 * t5.val + j.val, by have := lt5 t5; have := j.isLt; omega⟩ : Fin 512))).toNat (1 : Fin 2)
        (⟨rowN L t4.val, rowN_lt L (lt4 t4)⟩ : Fin 1024)
  rw [if_neg (show ¬(((1 : Fin 2)).val = 0) by decide)]
  unfold rowChain dotAt
  refine congrArg (fun f => Fin.foldl 128 f (Scalar.ofBits .f32 0x00000000#32)) (funext fun a => funext fun dd => ?_)
  show fma1 a (R (rcIdx j.val dd.val)) (e (eIdx dd.val)) = fma1 a _ _
  rw [he dd, hR, gather_at MS idxv hn hin j dd, tblRow_of_lt (hI _)]
  exact congrArg (fun k => fma1 a (MS (ix2 k dd)) _) (Fin.ext (congrArg BitVec.toNat (hidx j)))

end Cert.HandB

end
-- ==== Proof.ScChunkB0B.lean ====
import proofs.«204931_g11295763988758_cont_test2_10_9_alg».proof.Proof.ScInvB0B
import proofs.«204931_g11295763988758_cont_test2_10_9_alg».proof.Proof.ScTripB
import proofs.«204931_g11295763988758_cont_test2_10_9_alg».proof.Proof.ScValB
import Idealize.ShloMosaic.Lib.SparseCore.Stream
import Idealize.ShloMosaic.Lib.Writes
import Idealize.ShloMosaic.Lib.Tactic

noncomputable section

namespace Cert.HandB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (I : IVec S1024x512 32) (E : FVec F S2x1024x128 .f32)

section Bank

variable (d : Dev nD) (L : grid1.Coords)

theorem read_tblB0 (f : Buf (Elt F) (tblLoc0 d)) :
    ((tblV0).slice (Rect.unit (s := S100000x128) ![0, 0] S100000x128.size inb_S100000x128_S100000x128_0_0) (fun _ => rfl)).view.read (Elt F) f = f := by
  funext x
  rw [View.read_apply]
  have hx : ((tblV0).slice (Rect.unit (s := S100000x128) ![0, 0] S100000x128.size inb_S100000x128_S100000x128_0_0) (fun _ => rfl)).view.emb x = x := by
    funext a; apply Fin.ext
    show ((Rect.unit (s := S100000x128) ![0, 0] S100000x128.size inb_S100000x128_S100000x128_0_0).emb x a : ℕ) = x a
    rw [Rect.emb_apply]
    fin_cases a <;> simp
  rw [hx]; rfl

theorem rows_readB0 (fr : Buf (Elt F) ((sRows).view.loc (thr d L))) (idxv : S128.Idx → Elt F .i32)
    (hn : S128.numel = S128x128.size gathers_S100000x128_S128x128.axis') (hin : ∀ x, (idxv x).toNat < S100000x128.size gathers_S100000x128_S128x128.axis) :
    View.read (Elt F) (sRows.access (Rect.whole S128x128)) (sRows.view.writes (Elt F) fr [⟨Rect.whole S128x128,
      SparseCore.gatherPayload gathers_S100000x128_S128x128 (View.read (Elt F) ((tblV0).slice (Rect.unit (s := S100000x128) ![0, 0] S100000x128.size inb_S100000x128_S100000x128_0_0) (fun _ => rfl)).view (m (tblLoc0 d))) (SparseCore.rows idxv hn hin)⟩])
      = SparseCore.gatherPayload gathers_S100000x128_S128x128 (m (tblLoc0 d)) (SparseCore.rows idxv hn hin) := by
  refine (Memref.read_access_whole (Elt F) cc1_scratch1 _).trans ?_
  rw [read_tblB0]
  exact Memref.write_access_whole_univ (Elt F) cc1_scratch1 fr _

set_option maxHeartbeats 1000000 in

theorem chunkB0 (hI : ∀ j, (I j).toNat < 100000) (q : PosShare TreeShare) (O : CellTallies nD τ sig (HIx 1)) (W : Waits sig (HIx 1))
    (t1 : Fin k1_t1_loop.trips) (t2 : Fin k1_t2_loop.trips) (acc : BitVec 32) :
    invcB0 m I E d L q O W t1 t2.val acc
      ⊢ wp frame (wpE (defs₀ (F := F)) 𝒱₀ (thr d L) none) Set.univ (prog_t2 (F := F) L t1 t2 acc) (invcB0 m I E d L q O W t1 (t2.val + 1)) := by
  unfold prog_t2 k1_t2_body
  simp only [k1_part27_eq_skeleton]; unfold k1_part27_skel
  unfold invcB0
  rw [upto_take]
  iintro ⟨Hmw, Ht, Hi, ⟨%fi, Hsi⟩, ⟨%fr, Hsr⟩, ⟨%fe, %hfe, Hse⟩, ⟨%fd, Hsd⟩, HgA, Hg1, Hg2, ⟨⟨%fo, Ho⟩, Hrest⟩, %W', %hW', HO⟩

  have hin : ∀ (fi' : Buf (Elt F) ((sIdx).view.loc (thr d L))) (x : S128.Idx),
      (View.read (Elt F) sIdx.view (View.write (Elt F) sIdx.view fi' ((iRow0 L t1 t2).view.read (Elt F) (I : Buf (Elt F) (iLoc d))) Finset.univ) x).toNat < 100000 := by
    intro fi' x
    rw [View.write_whole_univ]
    simp only [Memref.view_whole, View.read_whole]
    rw [show ∀ j, (iRow0 L t1 t2).view.read (Elt F) (I : Buf (Elt F) (iLoc d)) j = (I : Buf (Elt F) (iLoc d)) ((iRow0 L t1 t2).view.emb j) from
      fun j => (View.read_apply _ _).trans (cast_eq _ _)]
    exact hI _
  sl_exec

  rw [wp_bind, wp_bind]
  iapply (dotsLoop0 (F := F) (defs := defs₀ (F := F)) (Ix := HIx 1) (Name := ℕ) (U := UU) (Lvl := ℕ) 𝒱₀ none Set.univ d L
    tV (Memref.isWhole_whole _) sV (Memref.isWhole_whole _) iV (Memref.isWhole_whole _) eV (Memref.isWhole_whole _) oV (Memref.isWhole_whole _)
    sIdx (Memref.isWhole_whole _) sRows (Memref.isWhole_whole _) sEmb (Memref.isWhole_whole _) sDots (Memref.isWhole_whole _)
    cc1_scratch4 cc1_scoped0 cc1_scoped1 cc1_scoped2 cc1_scoped3 cc1_scoped4 cc1_scoped5 lanes t1 (0#32) (1#32) t2 rfl fullShare fullShare _ fe _)
  isplitl [Hsr Hse]
  · isplitl [Hsr]; · iexact Hsr
    iexact Hse
  iintro ⟨Hsr, Hse⟩
  sl_exec
  sl_step

  have hidx : ∀ j : Fin 128, (View.read (Elt F) sIdx.view (View.write (Elt F) sIdx.view fi ((iRow0 L t1 t2).view.read (Elt F) (I : Buf (Elt F) (iLoc d))) Finset.univ)) (eIdx j.val)
      = I (ix2 (⟨rowN L t1.val, rowN_lt L (lt1 t1)⟩ : Fin 1024) (⟨128 * t2.val + j.val, by have := lt2 t2; have := j.isLt; omega⟩ : Fin 512)) := by
    intro j
    rw [View.write_whole_univ]
    simp only [Memref.view_whole, View.read_whole]
    rw [View.read_apply, emb_iRow0]
    rfl
  have e1 : chunkB0.sl.gather1 m I d L t1 t2 fi hin
      = SparseCore.gatherPayload gathers_S100000x128_S128x128
          (View.read (Elt F) ((tblV0).slice (Rect.unit (s := S100000x128) ![0, 0] S100000x128.size inb_S100000x128_S100000x128_0_0) (fun _ => rfl)).view (m (tblLoc0 d)))
          (SparseCore.rows (View.read (Elt F) sIdx.view (View.write (Elt F) sIdx.view fi ((iRow0 L t1 t2).view.read (Elt F) (I : Buf (Elt F) (iLoc d))) Finset.univ)) (by decide) (fun x => hin fi x)) := rfl
  have hR0 : (View.read (Elt F) (sRows.access (Rect.whole S128x128)) (sRows.view.writes (Elt F) fr [⟨Rect.whole S128x128, chunkB0.sl.gather1 m I d L t1 t2 fi hin⟩]))
      = SparseCore.gatherPayload gathers_S100000x128_S128x128 (m (tblLoc0 d)) (SparseCore.rows (View.read (Elt F) sIdx.view (View.write (Elt F) sIdx.view fi ((iRow0 L t1 t2).view.read (Elt F) (I : Buf (Elt F) (iLoc d))) Finset.univ)) (by decide) (fun x => hin fi x)) := by
    rw [e1]; exact rows_readB0 m d L fr _ _ _
  have e2 : chunkB0.sl.Hsd_8 m I d L t1 t2 fi fr fe hin
      = [⟨Rect.unit ![112] ![16] inb_S128_S16_112, accG (View.read (Elt F) (sRows.access (Rect.whole S128x128)) (sRows.view.writes (Elt F) fr [⟨Rect.whole S128x128, chunkB0.sl.gather1 m I d L t1 t2 fi hin⟩])) (View.read (Elt F) sEmb.view fe) 112 128⟩, ⟨Rect.unit ![96] ![16] inb_S128_S16_96, accG (View.read (Elt F) (sRows.access (Rect.whole S128x128)) (sRows.view.writes (Elt F) fr [⟨Rect.whole S128x128, chunkB0.sl.gather1 m I d L t1 t2 fi hin⟩])) (View.read (Elt F) sEmb.view fe) 96 128⟩,
        ⟨Rect.unit ![80] ![16] inb_S128_S16_80, accG (View.read (Elt F) (sRows.access (Rect.whole S128x128)) (sRows.view.writes (Elt F) fr [⟨Rect.whole S128x128, chunkB0.sl.gather1 m I d L t1 t2 fi hin⟩])) (View.read (Elt F) sEmb.view fe) 80 128⟩, ⟨Rect.unit ![64] S16.size inb_S128_S16_64, accG (View.read (Elt F) (sRows.access (Rect.whole S128x128)) (sRows.view.writes (Elt F) fr [⟨Rect.whole S128x128, chunkB0.sl.gather1 m I d L t1 t2 fi hin⟩])) (View.read (Elt F) sEmb.view fe) 64 128⟩,
        ⟨Rect.unit ![48] S16.size inb_S128_S16_48, accG (View.read (Elt F) (sRows.access (Rect.whole S128x128)) (sRows.view.writes (Elt F) fr [⟨Rect.whole S128x128, chunkB0.sl.gather1 m I d L t1 t2 fi hin⟩])) (View.read (Elt F) sEmb.view fe) 48 128⟩, ⟨Rect.unit ![32] S16.size inb_S128_S16_32, accG (View.read (Elt F) (sRows.access (Rect.whole S128x128)) (sRows.view.writes (Elt F) fr [⟨Rect.whole S128x128, chunkB0.sl.gather1 m I d L t1 t2 fi hin⟩])) (View.read (Elt F) sEmb.view fe) 32 128⟩,
        ⟨Rect.unit ![16] S16.size inb_S128_S16_16, accG (View.read (Elt F) (sRows.access (Rect.whole S128x128)) (sRows.view.writes (Elt F) fr [⟨Rect.whole S128x128, chunkB0.sl.gather1 m I d L t1 t2 fi hin⟩])) (View.read (Elt F) sEmb.view fe) 16 128⟩, ⟨Rect.unit ![0] S16.size inb_S128_S16_0, accG (View.read (Elt F) (sRows.access (Rect.whole S128x128)) (sRows.view.writes (Elt F) fr [⟨Rect.whole S128x128, chunkB0.sl.gather1 m I d L t1 t2 fi hin⟩])) (View.read (Elt F) sEmb.view fe) 0 128⟩] := rfl
  have e3 : chunkB0.sl.dma16 m I d L t1 t2 fi fr fe fd hin
      = View.read (Elt F) sDots.view (sDots.view.writes (Elt F) fd (chunkB0.sl.Hsd_8 m I d L t1 t2 fi fr fe hin)) := rfl
  have hval : ∀ x ∈ (oPc0 L t1 t2).view.set,
      (oPc0 L t1 t2).view.writes (Elt F) fo [⟨Rect.whole S128, chunkB0.sl.dma16 m I d L t1 t2 fi fr fe fd hin⟩] x = (dotsM m I E d : Buf (Elt F) (oLoc d)) x := by
    rw [e3, e2]
    exact piece_value0 (F := F) (m (tLoc d)) (m (sLoc d)) I E hI L t1 t2 (View.read (Elt F) sIdx.view (View.write (Elt F) sIdx.view fi ((iRow0 L t1 t2).view.read (Elt F) (I : Buf (Elt F) (iLoc d))) Finset.univ)) hidx (by decide) (fun x => hin fi x)
      (View.read (Elt F) (sRows.access (Rect.whole S128x128)) (sRows.view.writes (Elt F) fr [⟨Rect.whole S128x128, chunkB0.sl.gather1 m I d L t1 t2 fi hin⟩])) hR0 (View.read (Elt F) sEmb.view fe) (fun dd => hfe dd) fd fo
  rw [upto_put]
  isplitl [Hmw]; · iexact Hmw
  isplitl [Ht]; · iexact Ht
  isplitl [Hi]; · iexact Hi
  isplitl [Hsi]; · iexists _; iexact Hsi
  isplitl [Hsr]; · iexists _; iexact Hsr
  isplitl [Hse]
  · iexists fe; isplitr
    · ipureintro; exact hfe
    · iexact Hse
  isplitl [Hsd]; · iexists _; iexact Hsd
  isplitl [HgA]; · iexact HgA
  isplitl [Hg1]; · iexact Hg1
  isplitl [Hg2]; · iexact Hg2
  isplitl [Ho Hrest]
  · isplitl [Ho]
    · iapply (Entails.of_eq (pointsTo_congr hval)); iexact Ho
    · iexact Hrest
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Bank

end Cert.HandB

end
-- ==== Proof.ScChunkB1B.lean ====
import proofs.«204931_g11295763988758_cont_test2_10_9_alg».proof.Proof.ScInvB1B
import proofs.«204931_g11295763988758_cont_test2_10_9_alg».proof.Proof.ScTripB
import proofs.«204931_g11295763988758_cont_test2_10_9_alg».proof.Proof.ScValB
import Idealize.ShloMosaic.Lib.SparseCore.Stream
import Idealize.ShloMosaic.Lib.Writes
import Idealize.ShloMosaic.Lib.Tactic

noncomputable section

namespace Cert.HandB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (I : IVec S1024x512 32) (E : FVec F S2x1024x128 .f32)

section Bank

variable (d : Dev nD) (L : grid1.Coords)

theorem read_tblB1 (f : Buf (Elt F) (tblLoc1 d)) :
    ((tblV1).slice (Rect.unit (s := S100000x128) ![0, 0] S100000x128.size inb_S100000x128_S100000x128_0_0) (fun _ => rfl)).view.read (Elt F) f = f := by
  funext x
  rw [View.read_apply]
  have hx : ((tblV1).slice (Rect.unit (s := S100000x128) ![0, 0] S100000x128.size inb_S100000x128_S100000x128_0_0) (fun _ => rfl)).view.emb x = x := by
    funext a; apply Fin.ext
    show ((Rect.unit (s := S100000x128) ![0, 0] S100000x128.size inb_S100000x128_S100000x128_0_0).emb x a : ℕ) = x a
    rw [Rect.emb_apply]
    fin_cases a <;> simp
  rw [hx]; rfl

theorem rows_readB1 (fr : Buf (Elt F) ((sRows).view.loc (thr d L))) (idxv : S128.Idx → Elt F .i32)
    (hn : S128.numel = S128x128.size gathers_S100000x128_S128x128.axis') (hin : ∀ x, (idxv x).toNat < S100000x128.size gathers_S100000x128_S128x128.axis) :
    View.read (Elt F) (sRows.access (Rect.whole S128x128)) (sRows.view.writes (Elt F) fr [⟨Rect.whole S128x128,
      SparseCore.gatherPayload gathers_S100000x128_S128x128 (View.read (Elt F) ((tblV1).slice (Rect.unit (s := S100000x128) ![0, 0] S100000x128.size inb_S100000x128_S100000x128_0_0) (fun _ => rfl)).view (m (tblLoc1 d))) (SparseCore.rows idxv hn hin)⟩])
      = SparseCore.gatherPayload gathers_S100000x128_S128x128 (m (tblLoc1 d)) (SparseCore.rows idxv hn hin) := by
  refine (Memref.read_access_whole (Elt F) cc1_scratch1 _).trans ?_
  rw [read_tblB1]
  exact Memref.write_access_whole_univ (Elt F) cc1_scratch1 fr _

set_option maxHeartbeats 1000000 in

theorem chunkB1 (hI : ∀ j, (I j).toNat < 100000) (q : PosShare TreeShare) (O : CellTallies nD τ sig (HIx 1)) (W : Waits sig (HIx 1))
    (t1 : Fin k1_t4_loop.trips) (t2 : Fin k1_t5_loop.trips) (acc : BitVec 32) :
    invcB1 m I E d L q O W t1 t2.val acc
      ⊢ wp frame (wpE (defs₀ (F := F)) 𝒱₀ (thr d L) none) Set.univ (prog_t5 (F := F) L t1 t2 acc) (invcB1 m I E d L q O W t1 (t2.val + 1)) := by
  unfold prog_t5 k1_t5_body
  simp only [k1_part54_eq_skeleton]; unfold k1_part54_skel
  unfold invcB1
  rw [upto_take]
  iintro ⟨Hmw, Ht, Hi, ⟨%fi, Hsi⟩, ⟨%fr, Hsr⟩, ⟨%fe, %hfe, Hse⟩, ⟨%fd, Hsd⟩, HgA, Hg1, Hg2, ⟨⟨%fo, Ho⟩, Hrest⟩, %W', %hW', HO⟩

  have hin : ∀ (fi' : Buf (Elt F) ((sIdx).view.loc (thr d L))) (x : S128.Idx),
      (View.read (Elt F) sIdx.view (View.write (Elt F) sIdx.view fi' ((iRow1 L t1 t2).view.read (Elt F) (I : Buf (Elt F) (iLoc d))) Finset.univ) x).toNat < 100000 := by
    intro fi' x
    rw [View.write_whole_univ]
    simp only [Memref.view_whole, View.read_whole]
    rw [show ∀ j, (iRow1 L t1 t2).view.read (Elt F) (I : Buf (Elt F) (iLoc d)) j = (I : Buf (Elt F) (iLoc d)) ((iRow1 L t1 t2).view.emb j) from
      fun j => (View.read_apply _ _).trans (cast_eq _ _)]
    exact hI _
  sl_exec

  rw [wp_bind, wp_bind]
  iapply (dotsLoop1 (F := F) (defs := defs₀ (F := F)) (Ix := HIx 1) (Name := ℕ) (U := UU) (Lvl := ℕ) 𝒱₀ none Set.univ d L
    tV (Memref.isWhole_whole _) sV (Memref.isWhole_whole _) iV (Memref.isWhole_whole _) eV (Memref.isWhole_whole _) oV (Memref.isWhole_whole _)
    sIdx (Memref.isWhole_whole _) sRows (Memref.isWhole_whole _) sEmb (Memref.isWhole_whole _) sDots (Memref.isWhole_whole _)
    cc1_scratch4 cc1_scoped3 cc1_scoped4 cc1_scoped5 cc1_scoped3 cc1_scoped4 cc1_scoped5 lanes t1 (0#32) (1#32) t2 rfl fullShare fullShare _ fe _)
  isplitl [Hsr Hse]
  · isplitl [Hsr]; · iexact Hsr
    iexact Hse
  iintro ⟨Hsr, Hse⟩
  sl_exec
  sl_step

  have hidx : ∀ j : Fin 128, (View.read (Elt F) sIdx.view (View.write (Elt F) sIdx.view fi ((iRow1 L t1 t2).view.read (Elt F) (I : Buf (Elt F) (iLoc d))) Finset.univ)) (eIdx j.val)
      = I (ix2 (⟨rowN L t1.val, rowN_lt L (lt4 t1)⟩ : Fin 1024) (⟨128 * t2.val + j.val, by have := lt5 t2; have := j.isLt; omega⟩ : Fin 512)) := by
    intro j
    rw [View.write_whole_univ]
    simp only [Memref.view_whole, View.read_whole]
    rw [View.read_apply, emb_iRow1]
    rfl
  have e1 : chunkB1.sl.gather1 m I d L t1 t2 fi hin
      = SparseCore.gatherPayload gathers_S100000x128_S128x128
          (View.read (Elt F) ((tblV1).slice (Rect.unit (s := S100000x128) ![0, 0] S100000x128.size inb_S100000x128_S100000x128_0_0) (fun _ => rfl)).view (m (tblLoc1 d)))
          (SparseCore.rows (View.read (Elt F) sIdx.view (View.write (Elt F) sIdx.view fi ((iRow1 L t1 t2).view.read (Elt F) (I : Buf (Elt F) (iLoc d))) Finset.univ)) (by decide) (fun x => hin fi x)) := rfl
  have hR0 : (View.read (Elt F) (sRows.access (Rect.whole S128x128)) (sRows.view.writes (Elt F) fr [⟨Rect.whole S128x128, chunkB1.sl.gather1 m I d L t1 t2 fi hin⟩]))
      = SparseCore.gatherPayload gathers_S100000x128_S128x128 (m (tblLoc1 d)) (SparseCore.rows (View.read (Elt F) sIdx.view (View.write (Elt F) sIdx.view fi ((iRow1 L t1 t2).view.read (Elt F) (I : Buf (Elt F) (iLoc d))) Finset.univ)) (by decide) (fun x => hin fi x)) := by
    rw [e1]; exact rows_readB1 m d L fr _ _ _
  have e2 : chunkB1.sl.Hsd_8 m I d L t1 t2 fi fr fe hin
      = [⟨Rect.unit ![112] ![16] inb_S128_S16_112, accG (View.read (Elt F) (sRows.access (Rect.whole S128x128)) (sRows.view.writes (Elt F) fr [⟨Rect.whole S128x128, chunkB1.sl.gather1 m I d L t1 t2 fi hin⟩])) (View.read (Elt F) sEmb.view fe) 112 128⟩, ⟨Rect.unit ![96] ![16] inb_S128_S16_96, accG (View.read (Elt F) (sRows.access (Rect.whole S128x128)) (sRows.view.writes (Elt F) fr [⟨Rect.whole S128x128, chunkB1.sl.gather1 m I d L t1 t2 fi hin⟩])) (View.read (Elt F) sEmb.view fe) 96 128⟩,
        ⟨Rect.unit ![80] ![16] inb_S128_S16_80, accG (View.read (Elt F) (sRows.access (Rect.whole S128x128)) (sRows.view.writes (Elt F) fr [⟨Rect.whole S128x128, chunkB1.sl.gather1 m I d L t1 t2 fi hin⟩])) (View.read (Elt F) sEmb.view fe) 80 128⟩, ⟨Rect.unit ![64] S16.size inb_S128_S16_64, accG (View.read (Elt F) (sRows.access (Rect.whole S128x128)) (sRows.view.writes (Elt F) fr [⟨Rect.whole S128x128, chunkB1.sl.gather1 m I d L t1 t2 fi hin⟩])) (View.read (Elt F) sEmb.view fe) 64 128⟩,
        ⟨Rect.unit ![48] S16.size inb_S128_S16_48, accG (View.read (Elt F) (sRows.access (Rect.whole S128x128)) (sRows.view.writes (Elt F) fr [⟨Rect.whole S128x128, chunkB1.sl.gather1 m I d L t1 t2 fi hin⟩])) (View.read (Elt F) sEmb.view fe) 48 128⟩, ⟨Rect.unit ![32] S16.size inb_S128_S16_32, accG (View.read (Elt F) (sRows.access (Rect.whole S128x128)) (sRows.view.writes (Elt F) fr [⟨Rect.whole S128x128, chunkB1.sl.gather1 m I d L t1 t2 fi hin⟩])) (View.read (Elt F) sEmb.view fe) 32 128⟩,
        ⟨Rect.unit ![16] S16.size inb_S128_S16_16, accG (View.read (Elt F) (sRows.access (Rect.whole S128x128)) (sRows.view.writes (Elt F) fr [⟨Rect.whole S128x128, chunkB1.sl.gather1 m I d L t1 t2 fi hin⟩])) (View.read (Elt F) sEmb.view fe) 16 128⟩, ⟨Rect.unit ![0] S16.size inb_S128_S16_0, accG (View.read (Elt F) (sRows.access (Rect.whole S128x128)) (sRows.view.writes (Elt F) fr [⟨Rect.whole S128x128, chunkB1.sl.gather1 m I d L t1 t2 fi hin⟩])) (View.read (Elt F) sEmb.view fe) 0 128⟩] := rfl
  have e3 : chunkB1.sl.dma16 m I d L t1 t2 fi fr fe fd hin
      = View.read (Elt F) sDots.view (sDots.view.writes (Elt F) fd (chunkB1.sl.Hsd_8 m I d L t1 t2 fi fr fe hin)) := rfl
  have hval : ∀ x ∈ (oPc1 L t1 t2).view.set,
      (oPc1 L t1 t2).view.writes (Elt F) fo [⟨Rect.whole S128, chunkB1.sl.dma16 m I d L t1 t2 fi fr fe fd hin⟩] x = (dotsM m I E d : Buf (Elt F) (oLoc d)) x := by
    rw [e3, e2]
    exact piece_value1 (F := F) (m (tLoc d)) (m (sLoc d)) I E hI L t1 t2 (View.read (Elt F) sIdx.view (View.write (Elt F) sIdx.view fi ((iRow1 L t1 t2).view.read (Elt F) (I : Buf (Elt F) (iLoc d))) Finset.univ)) hidx (by decide) (fun x => hin fi x)
      (View.read (Elt F) (sRows.access (Rect.whole S128x128)) (sRows.view.writes (Elt F) fr [⟨Rect.whole S128x128, chunkB1.sl.gather1 m I d L t1 t2 fi hin⟩])) hR0 (View.read (Elt F) sEmb.view fe) (fun dd => hfe dd) fd fo
  rw [upto_put]
  isplitl [Hmw]; · iexact Hmw
  isplitl [Ht]; · iexact Ht
  isplitl [Hi]; · iexact Hi
  isplitl [Hsi]; · iexists _; iexact Hsi
  isplitl [Hsr]; · iexists _; iexact Hsr
  isplitl [Hse]
  · iexists fe; isplitr
    · ipureintro; exact hfe
    · iexact Hse
  isplitl [Hsd]; · iexists _; iexact Hsd
  isplitl [HgA]; · iexact HgA
  isplitl [Hg1]; · iexact Hg1
  isplitl [Hg2]; · iexact Hg2
  isplitl [Ho Hrest]
  · isplitl [Ho]
    · iapply (Entails.of_eq (pointsTo_congr hval)); iexact Ho
    · iexact Hrest
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Bank

end Cert.HandB

end
-- ==== Proof.RunB.lean ====
import proofs.«204931_g11295763988758_cont_test2_10_9_alg».proof.Proof.MainB
import proofs.«204931_g11295763988758_cont_test2_10_9_alg».proof.Proof.ScOblB
import proofs.«204931_g11295763988758_cont_test2_10_9_alg».proof.Proof.ScBodyB
import proofs.«204931_g11295763988758_cont_test2_10_9_alg».proof.Proof.ScRowB0B
import proofs.«204931_g11295763988758_cont_test2_10_9_alg».proof.Proof.ScRowB1B
import proofs.«204931_g11295763988758_cont_test2_10_9_alg».proof.Proof.ScChunkB0B
import proofs.«204931_g11295763988758_cont_test2_10_9_alg».proof.Proof.ScChunkB1B

noncomputable section

namespace Cert.HandB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

theorem tile_body (I : IVec S1024x512 32) (E : FVec F S2x1024x128 .f32) (hI : ∀ j, (I j).toNat < 100000) : TileBody m I E :=
  fun d L q O W hO =>
    tile_body_of m I E d L q O W
      (fun t1 acc => rowB0_of m I E d L q O W t1 acc (fun t2 acc => chunkB0 m I E d L hI q O W t1 t2 acc))
      (fun t4 acc => rowB1_of m I E d L q O W t4 acc (fun t5 acc => chunkB1 m I E d L hI q O W t4 t5 acc))
      facts hO

theorem run_main [∀ e, Nonempty (Elt F e)] (hI : ∀ j, (Ik m d0 j).toNat < 100000) :
    θ_run (Cert.Kernel.defs (F := F)) (Cert.Kernel.threads (F := F)) ⟨m, fun _ => 0, ρ⟩ (QC m) :=
  run_main_of_tile m ρ (tileObl_of m (Ik m d0) (Ek m d0) (tile_body m (Ik m d0) (Ek m d0) hI))

end Cert.HandB

end
-- ==== Proof.PreFacts.lean ====
import proofs.«204931_g11295763988758_cont_test2_10_9_alg».proof.Pre_input_domain
import Idealize.ShloMosaic.Lib.ReduceAll
import Idealize.ShloMosaic.Lib.ValueIdx
import Idealize.ShloMosaic.PureOps.Ideal

noncomputable section

namespace Cert.Hand

open Cert.Pre_input_domain Idealize.ShloMosaic Idealize.ShloMosaic.ValueIdx

variable [Cert.Pre_input_domain.Facts]

theorem subsingleton_scalar_idx : Subsingleton S_.Idx := ⟨fun a b => funext fun d => d.elim0⟩

theorem andi_scalar_eq_one {x y : IVec S_ 1} {j : S_.Idx} (h : andi x y j = 1#1) : x j = 1#1 ∧ y j = 1#1 :=
  IntOp.andi_eq_one.1 (show IntOp.andi (x j) (y j) = 1#1 from h)

theorem toNat_lt_of_signed_range (w : BitVec 32) (h0 : IntOp.cmpi .sge w 0#32 = 1#1) (h1 : IntOp.cmpi .sle w 99999#32 = 1#1) :
    w.toNat < 100000 := by
  rw [IntOp.cmpi_sge] at h0
  rw [IntOp.cmpi_sle] at h1
  have e0 : (0#32 : BitVec 32).toInt = 0 := by decide
  have e1 : (99999#32 : BitVec 32).toInt = 99999 := by decide
  rw [e0] at h0
  rw [e1] at h1
  have hc := BitVec.toInt_eq_toNat_cond w
  split at hc <;> omega

theorem toInt_eq_toNat_of_small (w : BitVec 32) (hw : w.toNat < 100000) : w.toInt = (w.toNat : Int) := by
  have hc := BitVec.toInt_eq_toNat_cond w
  split at hc <;> omega

theorem lt_of_cmp_olt {x y : EReal} (h : Ideal.cmp .olt x y = 1#1) : x < y := by
  by_contra hn
  have h0 : Ideal.cmp .olt x y = 0#1 := by
    first
      | simp [Ideal.cmp, hn]
      | (unfold Ideal.cmp; simp [hn])
      | (unfold Ideal.cmp; rw [decide_eq_false hn]; rfl)
  rw [h0] at h
  exact absurd h (by decide)

theorem real_of_abs_lt_top (x : EReal) (h : max x (-x) < ⊤) : ∃ r : ℝ, x = (r : EReal) := by
  have h1 : x ≠ ⊤ := by
    rintro rfl
    simp at h
  have h2 : x ≠ ⊥ := by
    rintro rfl
    simp at h
  exact ⟨x.toReal, (EReal.coe_toReal h1 h2).symm⟩

theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  exact real_of_abs_lt_top x (lt_of_cmp_olt h')

section AnyInstance

variable {F : FTy → Type} [FloatOps F]
  {a0 : IVec S_ 32} {a1 a2 : FVec F S1024x2048 .f32} {a3 : IVec S1024 32} {a4 : IVec S1024x511 32}
  {a5 : FVec F S2048x128 .f32} {a6 : FVec F S128 .f32} {a7 : FVec F S2048x128 .f32} {a8 : FVec F S128 .f32}
  {a9 a10 : FVec F S100000x128 .f32}

theorem pre_conjuncts (h : fn (F := F) a0 a1 a2 a3 a4 a5 a6 a7 a8 a9 a10 = fun _ => 1#1) :
    (∀ i, FloatOps.cmpf .olt (FloatOps.hostAbsf (a1 i)) (FloatOps.ofBits .f32 0x7F800000#32) = 1#1)
    ∧ (∀ i, FloatOps.cmpf .olt (FloatOps.hostAbsf (a2 i)) (FloatOps.ofBits .f32 0x7F800000#32) = 1#1)
    ∧ (∀ i, FloatOps.cmpf .olt (FloatOps.hostAbsf (a5 i)) (FloatOps.ofBits .f32 0x7F800000#32) = 1#1)
    ∧ (∀ i, FloatOps.cmpf .olt (FloatOps.hostAbsf (a6 i)) (FloatOps.ofBits .f32 0x7F800000#32) = 1#1)
    ∧ (∀ i, FloatOps.cmpf .olt (FloatOps.hostAbsf (a7 i)) (FloatOps.ofBits .f32 0x7F800000#32) = 1#1)
    ∧ (∀ i, FloatOps.cmpf .olt (FloatOps.hostAbsf (a8 i)) (FloatOps.ofBits .f32 0x7F800000#32) = 1#1)
    ∧ (∀ i, FloatOps.cmpf .olt (FloatOps.hostAbsf (a9 i)) (FloatOps.ofBits .f32 0x7F800000#32) = 1#1)
    ∧ (∀ i, FloatOps.cmpf .olt (FloatOps.hostAbsf (a10 i)) (FloatOps.ofBits .f32 0x7F800000#32) = 1#1)
    ∧ (∀ i, IntOp.cmpi .sge (a3 i) 0#32 = 1#1 ∧ IntOp.cmpi .sle (a3 i) 99999#32 = 1#1)
    ∧ (∀ i, IntOp.cmpi .sge (a4 i) 0#32 = 1#1 ∧ IntOp.cmpi .sle (a4 i) 99999#32 = 1#1) := by
  haveI := subsingleton_scalar_idx
  have e := congrFun h ix0
  dsimp only [fn, fn_part1, fn_part2, fn_part3] at e
  obtain ⟨e, e4⟩ := andi_scalar_eq_one e
  obtain ⟨e, e3⟩ := andi_scalar_eq_one e
  obtain ⟨e, e0⟩ := andi_scalar_eq_one e
  obtain ⟨e, e10⟩ := andi_scalar_eq_one e
  obtain ⟨e, e9⟩ := andi_scalar_eq_one e
  obtain ⟨e, e8⟩ := andi_scalar_eq_one e
  obtain ⟨e, e7⟩ := andi_scalar_eq_one e
  obtain ⟨e, e6⟩ := andi_scalar_eq_one e
  obtain ⟨e, e5⟩ := andi_scalar_eq_one e
  obtain ⟨e1, e2⟩ := andi_scalar_eq_one e
  refine ⟨fun i => Host.reduce_andi_all _ _ _ _ _ e1 i, fun i => Host.reduce_andi_all _ _ _ _ _ e2 i,
    fun i => Host.reduce_andi_all _ _ _ _ _ e5 i, fun i => Host.reduce_andi_all _ _ _ _ _ e6 i,
    fun i => Host.reduce_andi_all _ _ _ _ _ e7 i, fun i => Host.reduce_andi_all _ _ _ _ _ e8 i,
    fun i => Host.reduce_andi_all _ _ _ _ _ e9 i, fun i => Host.reduce_andi_all _ _ _ _ _ e10 i,
    fun i => ?_, fun i => ?_⟩
  · have hi := Host.reduce_andi_all _ _ _ _ _ e3 i
    exact IntOp.andi_eq_one.1 (show IntOp.andi (IntOp.cmpi .sge (a3 i) 0#32) (IntOp.cmpi .sle (a3 i) 99999#32) = 1#1 from hi)
  · have hi := Host.reduce_andi_all _ _ _ _ _ e4 i
    exact IntOp.andi_eq_one.1 (show IntOp.andi (IntOp.cmpi .sge (a4 i) 0#32) (IntOp.cmpi .sle (a4 i) 99999#32) = 1#1 from hi)

theorem pre_idx_lt (h : fn (F := F) a0 a1 a2 a3 a4 a5 a6 a7 a8 a9 a10 = fun _ => 1#1) : ∀ i, (a3 i).toNat < 100000 := by
  obtain ⟨-, -, -, -, -, -, -, -, c3, -⟩ := pre_conjuncts h
  exact fun i => toNat_lt_of_signed_range _ (c3 i).1 (c3 i).2

theorem pre_cidx_lt (h : fn (F := F) a0 a1 a2 a3 a4 a5 a6 a7 a8 a9 a10 = fun _ => 1#1) : ∀ i, (a4 i).toNat < 100000 := by
  obtain ⟨-, -, -, -, -, -, -, -, -, c4⟩ := pre_conjuncts h
  exact fun i => toNat_lt_of_signed_range _ (c4 i).1 (c4 i).2

end AnyInstance

section AtIdeal

variable {a0 : IVec S_ 32} {a1 a2 : FVec Ideal S1024x2048 .f32} {a3 : IVec S1024 32} {a4 : IVec S1024x511 32}
  {a5 : FVec Ideal S2048x128 .f32} {a6 : FVec Ideal S128 .f32} {a7 : FVec Ideal S2048x128 .f32} {a8 : FVec Ideal S128 .f32}
  {a9 a10 : FVec Ideal S100000x128 .f32}

theorem pre_real1 (h : fn (F := Ideal) a0 a1 a2 a3 a4 a5 a6 a7 a8 a9 a10 = fun _ => 1#1) : ∀ i, ∃ r : ℝ, a1 i = (r : EReal) := by
  obtain ⟨c, -⟩ := pre_conjuncts h
  exact fun i => real_of_abs_lt_inf _ (c i)

theorem pre_real2 (h : fn (F := Ideal) a0 a1 a2 a3 a4 a5 a6 a7 a8 a9 a10 = fun _ => 1#1) : ∀ i, ∃ r : ℝ, a2 i = (r : EReal) := by
  obtain ⟨-, c, -⟩ := pre_conjuncts h
  exact fun i => real_of_abs_lt_inf _ (c i)

theorem pre_real5 (h : fn (F := Ideal) a0 a1 a2 a3 a4 a5 a6 a7 a8 a9 a10 = fun _ => 1#1) : ∀ i, ∃ r : ℝ, a5 i = (r : EReal) := by
  obtain ⟨-, -, c, -⟩ := pre_conjuncts h
  exact fun i => real_of_abs_lt_inf _ (c i)

theorem pre_real6 (h : fn (F := Ideal) a0 a1 a2 a3 a4 a5 a6 a7 a8 a9 a10 = fun _ => 1#1) : ∀ i, ∃ r : ℝ, a6 i = (r : EReal) := by
  obtain ⟨-, -, -, c, -⟩ := pre_conjuncts h
  exact fun i => real_of_abs_lt_inf _ (c i)

theorem pre_real7 (h : fn (F := Ideal) a0 a1 a2 a3 a4 a5 a6 a7 a8 a9 a10 = fun _ => 1#1) : ∀ i, ∃ r : ℝ, a7 i = (r : EReal) := by
  obtain ⟨-, -, -, -, c, -⟩ := pre_conjuncts h
  exact fun i => real_of_abs_lt_inf _ (c i)

theorem pre_real8 (h : fn (F := Ideal) a0 a1 a2 a3 a4 a5 a6 a7 a8 a9 a10 = fun _ => 1#1) : ∀ i, ∃ r : ℝ, a8 i = (r : EReal) := by
  obtain ⟨-, -, -, -, -, c, -⟩ := pre_conjuncts h
  exact fun i => real_of_abs_lt_inf _ (c i)

theorem pre_real9 (h : fn (F := Ideal) a0 a1 a2 a3 a4 a5 a6 a7 a8 a9 a10 = fun _ => 1#1) : ∀ i, ∃ r : ℝ, a9 i = (r : EReal) := by
  obtain ⟨-, -, -, -, -, -, c, -⟩ := pre_conjuncts h
  exact fun i => real_of_abs_lt_inf _ (c i)

theorem pre_real10 (h : fn (F := Ideal) a0 a1 a2 a3 a4 a5 a6 a7 a8 a9 a10 = fun _ => 1#1) : ∀ i, ∃ r : ℝ, a10 i = (r : EReal) := by
  obtain ⟨-, -, -, -, -, -, -, c, -⟩ := pre_conjuncts h
  exact fun i => real_of_abs_lt_inf _ (c i)

end AtIdeal

end Cert.Hand

end
-- ==== Proof.RefRunA.lean ====
import proofs.«204931_g11295763988758_cont_test2_10_9_alg».proof.Proof.Gen.ReferenceIdeal

noncomputable section

namespace Cert.RefHand

open Cert.ReferenceIdeal Cert.ReferenceIdeal.Gen Idealize.ShloMosaic

variable {F : FTy → Type} [FloatOps F]

def refLin (f : FVec F S1024x2048 .f32) (W : FVec F S2048x128 .f32) (b : FVec F S128 .f32) : FVec F S1024x128 .f32 :=
  addf (Host.dotGeneral dot_S1024x2048_S2048x128_S1024x128_1_0_0_1_n_n none f W)
    (broadcastInDim S1024x128 ![0, 1] bcast_S1x128_S1024x128_0_1 (broadcastInDim S1x128 ![1] bcast_S128_S1x128_1 b))

def refEmb (f : FVec F S1024x2048 .f32) (W : FVec F S2048x128 .f32) (b : FVec F S128 .f32) : FVec F S1024x128 .f32 :=
  Host.divf (refLin f W b)
    (broadcastInDim S1024x128 ![0, 1] bcast_S1024x1_S1024x128_0_1
      (Host.powf
        (broadcastInDim S1024x1 ![0] bcast_S1024_S1024x1_0
          (Host.reduceAdd
            (Host.powf (refLin f W b) (broadcastInDim S1024x128 ![] bcast_S_S1024x128 (constant S_ .f32 0x40000000#32)))
            (constant S_ .f32 0x00000000#32) reducesTo_S1024x128_S1024_d1 h_S_))
        (broadcastInDim S1024x1 ![] bcast_S_S1024x1 (constant S_ .f32 0x3F000000#32))))

def refInds (idx : IVec S1024 32) (cidx : IVec S1024x511 32) : IVec S1024x512 32 :=
  concatenate S1024x512 1 [⟨S1024x1, broadcastInDim S1024x1 ![0] bcast_S1024_S1024x1_0 idx⟩, ⟨S1024x511, cidx⟩]
    concatenates_S1024x1_S1024x511_S1024x512_d1

def refIdx (inds : IVec S1024x512 32) : IVec S1024x512x1 32 :=
  broadcastInDim S1024x512x1 ![0, 1] bcast_S1024x512_S1024x512x1_0_1
    (select (cmpi .slt inds (broadcastInDim S1024x512 ![] bcast_S_S1024x512 (constantI S_ 32 0#32)))
      (addi inds (broadcastInDim S1024x512 ![] bcast_S_S1024x512 (constantI S_ 32 100000#32)))
      inds)

def refOk (i5 : IVec S1024x512x1 32) : IVec S1024x512 1 :=
  Host.reduce IntOp.andi
    (andi (cmpi .sge i5 (broadcastInDim S1024x512x1 ![] bcast_S_S1024x512x1 (constantI S_ 32 0#32)))
      (cmpi .sle i5
        (broadcastInDim S1024x512x1 ![0, 1, 2] bcast_S1x1x1_S1024x512x1_0_1_2
          (broadcastInDim S1x1x1 ![2] bcast_S1_S1x1x1_2 (constantI S1 32 99999#32)))))
    (constantI S_ 1 1#1) reducesTo_S1024x512x1_S1024x512_d2 h_S_

def refTake (mem : FVec F S100000x128 .f32) (inds : IVec S1024x512 32) : FVec F S1024x512x128 .f32 :=
  select (broadcastInDim S1024x512x128 ![0, 1] bcast_S1024x512_S1024x512x128_0_1 (refOk (refIdx inds)))
    (Host.gather gather_S100000x128_S1024x512x1_S1024x512x128_2_0_n_n_0_2_1128 mem (refIdx inds))
    (broadcastInDim S1024x512x128 ![] bcast_S_S1024x512x128 (constant S_ .f32 0x7FC00000#32))

def refDots (w : FVec F S1024x512x128 .f32) (e : FVec F S1024x128 .f32) : FVec F S1024x512 .f32 :=
  Host.dotGeneral dot_S1024x512x128_S1024x128_S1024x512_2_1_1_n_0_0 none w e

def refExp (d : FVec F S1024x512 .f32) : FVec F S1024x512x1 .f32 :=
  broadcastInDim S1024x512x1 ![0, 1] bcast_S1024x512_S1024x512x1_0_1
    (Host.exp (Host.divf d (broadcastInDim S1024x512 ![] bcast_S_S1024x512 (constant S_ .f32 0x3D8F5C29#32))))

def refNorm (d : FVec F S1024x512 .f32) : FVec F S1024x512x1 .f32 :=
  Host.divf (refExp d)
    (broadcastInDim S1024x512x1 ![] bcast_S_S1024x512x1
      (mulf
        (Host.divf (Host.reduceAdd (refExp d) (constant S_ .f32 0x00000000#32) reducesTo_S1024x512x1_S_d0_1_2 h_S_)
          (constant S_ .f32 0x49000000#32))
        (constant S_ .f32 0x47C35000#32)))

def refCol0 (v : FVec F S1024x512x1 .f32) : FVec F S1024x1x1 .f32 :=
  extractStridedSlice S1024x1x1 ![0, 0, 0] v slices_S1024x512x1_S1024x1x1_0_0_0

def refPos (v : FVec F S1024x512x1 .f32) : FVec F S1024x1x1 .f32 :=
  Host.log
    (Host.divf (refCol0 v)
      (addf (addf (refCol0 v) (broadcastInDim S1024x1x1 ![] bcast_S_S1024x1x1 (constant S_ .f32 0x3BA771C9#32)))
        (broadcastInDim S1024x1x1 ![] bcast_S_S1024x1x1 (constant S_ .f32 0x33D6BF95#32))))

def refNeg (v : FVec F S1024x512x1 .f32) : FVec F S1024x511x1 .f32 :=
  Host.log
    (Host.divf (broadcastInDim S1024x511x1 ![] bcast_S_S1024x511x1 (constant S_ .f32 0x3BA771C9#32))
      (addf
        (addf (extractStridedSlice S1024x511x1 ![0, 1, 0] v slices_S1024x512x1_S1024x511x1_0_1_0)
          (broadcastInDim S1024x511x1 ![] bcast_S_S1024x511x1 (constant S_ .f32 0x3BA771C9#32)))
        (broadcastInDim S1024x511x1 ![] bcast_S_S1024x511x1 (constant S_ .f32 0x33D6BF95#32))))

def refLoss (v : FVec F S1024x512x1 .f32) : FVec F S_ .f32 :=
  Host.divf
    (Host.negf
      (Host.reduceAdd
        (Host.divf
          (addf
            (broadcastInDim S1 ![] bcast_S_S1
              (Host.reduceAdd (shapeCast S1024 (refPos v) shapeCasts_S1024x1x1_S1024) (constant S_ .f32 0x00000000#32)
                reducesTo_S1024_S_d0 h_S_))
            (Host.reduceAdd
              (shapeCast S523264x1
                (broadcastInDim S1x523264x1x1 ![0, 1, 2, 3] bcast_S1x523264x1x1_S1x523264x1x1_0_1_2_3
                  (shapeCast S1x523264x1x1 (shapeCast S523264x1 (refNeg v) shapeCasts_S1024x511x1_S523264x1)
                    shapeCasts_S523264x1_S1x523264x1x1))
                shapeCasts_S1x523264x1x1_S523264x1)
              (constant S_ .f32 0x00000000#32) reducesTo_S523264x1_S1_d0 h_S_))
          (broadcastInDim S1 ![] bcast_S_S1 (constant S_ .f32 0x44800000#32)))
        (constant S_ .f32 0x00000000#32) reducesTo_S1_S_d0 h_S_))
    (constant S_ .f32 0x3F800000#32)

def refTail (d0 d1 : FVec F S1024x512 .f32) : FVec F S_ .f32 :=
  addf (refLoss (refNorm d0)) (refLoss (refNorm d1))

def out (a1 a2 : FVec F S1024x2048 .f32) (a3 : IVec S1024 32) (a4 : IVec S1024x511 32) (a5 : FVec F S2048x128 .f32)
    (a6 : FVec F S128 .f32) (a7 : FVec F S2048x128 .f32) (a8 : FVec F S128 .f32) (a9 a10 : FVec F S100000x128 .f32) :
    FVec F S_ .f32 :=
  refTail (refDots (refTake a10 (refInds a3 a4)) (refEmb a1 a5 a6))
    (refDots (refTake a9 (refInds a3 a4)) (refEmb a2 a7 a8))

end Cert.RefHand

end
-- ==== Proof.TakeRef.lean ====
import proofs.«204931_g11295763988758_cont_test2_10_9_alg».proof.Proof.RefRunA
import Idealize.ShloMosaic.Lib.ValueIdx
import Idealize.ShloMosaic.Lib.Affine
import Idealize.ShloMosaic.Lib.Pipeline.Value
import Idealize.ShloMosaic.PureOps.Reduce

noncomputable section

namespace Cert.Hand

open Cert.ReferenceIdeal Cert.ReferenceIdeal.Gen Idealize.ShloMosaic Idealize.ShloMosaic.ValueIdx

theorem slt_zero_of_small (w : BitVec 32) (hw : w.toNat < 100000) : IntOp.cmpi .slt w 0#32 = 0#1 := by
  apply eq_zero_of_ne_one
  rw [IntOp.cmpi_slt]
  have e0 : (0#32 : BitVec 32).toInt = 0 := by decide
  rw [e0]
  have hc := BitVec.toInt_eq_toNat_cond w
  split at hc <;> omega

theorem in_range_of_small (w : BitVec 32) (hw : w.toNat < 100000) :
    IntOp.andi (IntOp.cmpi .sge w 0#32) (IntOp.cmpi .sle w 99999#32) = 1#1 := by
  rw [IntOp.andi_eq_one, IntOp.cmpi_sge, IntOp.cmpi_sle]
  have e0 : (0#32 : BitVec 32).toInt = 0 := by decide
  have e1 : (99999#32 : BitVec 32).toInt = 99999 := by decide
  rw [e0, e1]
  have hc := BitVec.toInt_eq_toNat_cond w
  split at hc <;> constructor <;> omega

theorem clamp_of_small (w : BitVec 32) (hw : w.toNat < 100000) : min w.toInt.toNat (100000 - 1) = w.toNat := by
  have hc := BitVec.toInt_eq_toNat_cond w
  split at hc <;> omega

theorem foldl_andi_one {ι : Type} (f : ι → BitVec 1) (l : List ι) (h : ∀ n ∈ l, f n = 1#1) :
    l.foldl (fun r n => IntOp.andi r (f n)) 1#1 = 1#1 := by
  induction l with
  | nil => rfl
  | cons a l ih =>
    have e : IntOp.andi (1#1) (1#1) = 1#1 := by decide
    rw [List.foldl_cons, h a (List.mem_cons.2 (Or.inl rfl)), e]
    exact ih fun n hn => h n (List.mem_cons.2 (Or.inr hn))

theorem bcast_col_apply {α : Type} (h : S1024.BroadcastsInDim S1024x1 (![0] : Fin 1 → Fin S1024x1.rank)) (v : S1024.Idx → α)
    (r : Fin 1024) (z : Fin 1) : broadcastInDim S1024x1 ![0] h v (ix2 r z) = v (ix1 r) := by
  simp only [broadcastInDim]
  congr 1
  funext a
  match a with
  | ⟨0, _⟩ =>
    apply Fin.ext
    split
    · next h1 => exact absurd (show (1024 : Nat) = 1 from h1) (by decide)
    · rfl

theorem bcast_lead2_apply {α : Type} {n : Nat}
    (h : S1024x512.BroadcastsInDim ⟨3, ![1024, 512, n]⟩ (![0, 1] : Fin 2 → Fin (⟨3, ![1024, 512, n]⟩ : Shape).rank))
    (x : S1024x512.Idx → α) (r : Fin 1024) (k : Fin 512) (z : Fin n) :
    broadcastInDim ⟨3, ![1024, 512, n]⟩ ![0, 1] h x (ix3 r k z) = x (ix2 r k) := by
  simp only [broadcastInDim]
  congr 1
  funext a
  match a with
  | ⟨0, _⟩ =>
    apply Fin.ext
    split
    · next h1 => exact absurd (show (1024 : Nat) = 1 from h1) (by decide)
    · rfl
  | ⟨1, _⟩ =>
    apply Fin.ext
    split
    · next h1 => exact absurd (show (512 : Nat) = 1 from h1) (by decide)
    · rfl

theorem refInds_apply (idx : IVec S1024 32) (cidx : IVec S1024x511 32) (r : Fin 1024) (k : Fin 512) :
    Cert.RefHand.refInds idx cidx (ix2 r k)
      = if h : k.val = 0 then idx (ix1 r) else cidx (ix2 r ⟨k.val - 1, by have := k.isLt; omega⟩) := by
  unfold Cert.RefHand.refInds
  by_cases h0 : k.val = 0
  · rw [dif_pos h0]
    have key := concatenate_pair_apply_left (t := S1024x512) (s₁ := S1024x1) (s₂ := S1024x511) (1 : Fin S1024x512.rank)
      (broadcastInDim S1024x1 ![0] bcast_S1024_S1024x1_0 idx) cidx concatenates_S1024x1_S1024x511_S1024x512_d1
      (ix2 r k) rfl (ix2 r (0 : Fin 1)) (by
        intro b
        match b with
        | ⟨0, _⟩ => rfl
        | ⟨1, _⟩ => exact h0.symm)
    exact key.trans (bcast_col_apply _ idx r 0)
  · rw [dif_neg h0]
    exact concatenate_pair_apply_right (t := S1024x512) (s₁ := S1024x1) (s₂ := S1024x511) (1 : Fin S1024x512.rank)
      (broadcastInDim S1024x1 ![0] bcast_S1024_S1024x1_0 idx) cidx concatenates_S1024x1_S1024x511_S1024x512_d1
      (ix2 r k) rfl rfl (ix2 r ⟨k.val - 1, by have := k.isLt; omega⟩) (by
        intro b hb
        match b, hb with
        | ⟨0, _⟩, _ => rfl
        | ⟨1, _⟩, hb => exact absurd rfl hb) (by
        show (k.val - 1) + 1 = k.val
        omega)

theorem refInds_lt {idx : IVec S1024 32} {cidx : IVec S1024x511 32} (hI : ∀ i, (idx i).toNat < 100000)
    (hC : ∀ i, (cidx i).toNat < 100000) : ∀ j, (Cert.RefHand.refInds idx cidx j).toNat < 100000 := by
  intro j
  obtain ⟨r, k, rfl⟩ : ∃ (r : Fin 1024) (k : Fin 512), j = ix2 r k := ⟨j 0, j 1, eq_ix2 j⟩
  rw [refInds_apply]
  split
  · exact hI _
  · exact hC _

theorem refIdx_apply (inds : IVec S1024x512 32) (hI : ∀ j, (inds j).toNat < 100000) (r : Fin 1024) (k : Fin 512) (z : Fin 1) :
    Cert.RefHand.refIdx inds (ix3 r k z) = inds (ix2 r k) := by
  unfold Cert.RefHand.refIdx
  rw [bcast_lead2_apply]
  show Scalar.select (IntOp.cmpi .slt (inds (ix2 r k)) (0#32)) _ (inds (ix2 r k)) = inds (ix2 r k)
  rw [slt_zero_of_small _ (hI _), select_zero]

theorem refOk_eq_one (inds : IVec S1024x512 32) (hI : ∀ j, (inds j).toNat < 100000) (j : S1024x512.Idx) :
    Cert.RefHand.refOk (Cert.RefHand.refIdx inds) j = 1#1 := by
  unfold Cert.RefHand.refOk
  rw [Host.reduce_eq_foldl]
  refine foldl_andi_one _ _ (fun i _ => ?_)
  obtain ⟨a, b, c, rfl⟩ : ∃ (a : Fin 1024) (b : Fin 512) (c : Fin 1), i = ix3 a b c := ⟨i 0, i 1, i 2, eq_ix3 i⟩
  show IntOp.andi (IntOp.cmpi .sge (Cert.RefHand.refIdx inds (ix3 a b c)) (0#32))
    (IntOp.cmpi .sle (Cert.RefHand.refIdx inds (ix3 a b c)) (99999#32)) = 1#1
  rw [refIdx_apply inds hI a b c]
  exact in_range_of_small _ (hI _)

theorem gather_row (i5 : IVec S1024x512x1 32) (r : Fin 1024) (k : Fin 512) (d : Fin 128) :
    (gather_S100000x128_S1024x512x1_S1024x512x128_2_0_n_n_0_2_1128.operandIdx (ix3 r k d) i5 0).val
      = min (i5 (ix3 r k (0 : Fin 1))).toInt.toNat (100000 - 1) := by
  have hb : gather_S100000x128_S1024x512x1_S1024x512x128_2_0_n_n_0_2_1128.batchCoord (ix3 r k d) 0 = 0 :=
    GatherDims.batchCoord_eq_zero _ _ _ List.not_mem_nil
  have ho : gather_S100000x128_S1024x512x1_S1024x512x128_2_0_n_n_0_2_1128.offCoord (ix3 r k d) 0 = 0 :=
    GatherDims.offCoord_eq_zero _ _ _ (fun h => ((GatherDims.mem_sKept _ _).mp h).1 (List.mem_singleton.mpr rfl))
  have hsi : gather_S100000x128_S1024x512x1_S1024x512x128_2_0_n_n_0_2_1128.siIdx (ix3 r k d)
      ⟨List.idxOf (0 : Fin S100000x128.rank) gather_S100000x128_S1024x512x1_S1024x512x128_2_0_n_n_0_2_1128.startIndexMap,
        List.idxOf_lt_length_iff.2 (List.mem_singleton.mpr rfl)⟩ = ix3 r k (0 : Fin 1) := by
    funext b
    refine Fin.ext ?_
    match b with
    | ⟨0, _⟩ => rfl
    | ⟨1, _⟩ => rfl
    | ⟨2, _⟩ => rfl
  have hs : gather_S100000x128_S1024x512x1_S1024x512x128_2_0_n_n_0_2_1128.start (ix3 r k d) i5 0
      = min (i5 (ix3 r k (0 : Fin 1))).toInt.toNat (100000 - 1) := by
    unfold GatherDims.start
    rw [dif_pos (show (0 : Fin S100000x128.rank) ∈ gather_S100000x128_S1024x512x1_S1024x512x128_2_0_n_n_0_2_1128.startIndexMap
      from List.mem_singleton.mpr rfl), hsi]
    rfl
  show gather_S100000x128_S1024x512x1_S1024x512x128_2_0_n_n_0_2_1128.start (ix3 r k d) i5 0
      + gather_S100000x128_S1024x512x1_S1024x512x128_2_0_n_n_0_2_1128.batchCoord (ix3 r k d) 0
      + gather_S100000x128_S1024x512x1_S1024x512x128_2_0_n_n_0_2_1128.offCoord (ix3 r k d) 0 = _
  rw [hs, hb, ho, Nat.add_zero]

theorem gather_col (i5 : IVec S1024x512x1 32) (r : Fin 1024) (k : Fin 512) (d : Fin 128) :
    (gather_S100000x128_S1024x512x1_S1024x512x128_2_0_n_n_0_2_1128.operandIdx (ix3 r k d) i5 1).val = d.val := by
  have hs : gather_S100000x128_S1024x512x1_S1024x512x128_2_0_n_n_0_2_1128.start (ix3 r k d) i5 1 = 0 := by
    unfold GatherDims.start
    exact dif_neg (by decide)
  have hb : gather_S100000x128_S1024x512x1_S1024x512x128_2_0_n_n_0_2_1128.batchCoord (ix3 r k d) 1 = 0 :=
    GatherDims.batchCoord_eq_zero _ _ _ List.not_mem_nil
  have ho : gather_S100000x128_S1024x512x1_S1024x512x128_2_0_n_n_0_2_1128.offCoord (ix3 r k d) 1 = d.val := by
    unfold GatherDims.offCoord
    rw [dif_pos (show (1 : Fin S100000x128.rank) ∈ gather_S100000x128_S1024x512x1_S1024x512x128_2_0_n_n_0_2_1128.sKept by decide)]
    rfl
  show gather_S100000x128_S1024x512x1_S1024x512x128_2_0_n_n_0_2_1128.start (ix3 r k d) i5 1
      + gather_S100000x128_S1024x512x1_S1024x512x128_2_0_n_n_0_2_1128.batchCoord (ix3 r k d) 1
      + gather_S100000x128_S1024x512x1_S1024x512x128_2_0_n_n_0_2_1128.offCoord (ix3 r k d) 1 = d.val
  rw [hs, hb, ho, Nat.add_zero, Nat.zero_add]

variable {F : FTy → Type} [FloatOps F]

theorem gather_apply (mem : FVec F S100000x128 .f32) (inds : IVec S1024x512 32) (hI : ∀ j, (inds j).toNat < 100000)
    (r : Fin 1024) (k : Fin 512) (d : Fin 128) :
    Host.gather gather_S100000x128_S1024x512x1_S1024x512x128_2_0_n_n_0_2_1128 mem (Cert.RefHand.refIdx inds) (ix3 r k d)
      = mem (ix2 ⟨(inds (ix2 r k)).toNat, hI _⟩ d) := by
  unfold Host.gather
  congr 1
  funext a
  refine Fin.ext ?_
  match a with
  | ⟨0, _⟩ =>
    refine (gather_row (Cert.RefHand.refIdx inds) r k d).trans ?_
    rw [refIdx_apply inds hI r k 0]
    exact clamp_of_small _ (hI _)
  | ⟨1, _⟩ => exact gather_col (Cert.RefHand.refIdx inds) r k d

theorem refTake_apply (mem : FVec F S100000x128 .f32) (inds : IVec S1024x512 32) (hI : ∀ j, (inds j).toNat < 100000)
    (r : Fin 1024) (k : Fin 512) (d : Fin 128) :
    Cert.RefHand.refTake mem inds (ix3 r k d) = mem (ix2 ⟨(inds (ix2 r k)).toNat, hI _⟩ d) := by
  unfold Cert.RefHand.refTake
  rw [select_apply, bcast_lead2_apply, refOk_eq_one inds hI, select_one]
  exact gather_apply mem inds hI r k d

end Cert.Hand

end
-- ==== Proof.IdxOk.lean ====
import proofs.«204931_g11295763988758_cont_test2_10_9_alg».proof.Proof.Vals
import proofs.«204931_g11295763988758_cont_test2_10_9_alg».proof.Proof.PreFacts
import proofs.«204931_g11295763988758_cont_test2_10_9_alg».proof.Proof.TakeRef

noncomputable section

namespace Cert.HandI

open Cert.KernelIdeal Cert.KernelIdeal.Gen

open Idealize.ShloMosaic
open Idealize.ShloMosaic.SparseCore (S V T)
open Idealize.SL Idealize.SL.Sem

variable {F : FTy → Type} [FloatOps F] [Named F]

variable (m : (ℓ : Loc nD τ sig) → Buf (Elt F) ℓ)

theorem Ik_eq (c : Dev nD) :
    Ik m c = concatenate S1024x512 1
      [⟨S1024x1, broadcastInDim S1024x1 ![0] bcast_S1024_S1024x1_0 (m (c, Proc.devRef .tc main_arg3) : IVec S1024 32)⟩,
        ⟨S1024x511, (m (c, Proc.devRef .tc main_arg4) : IVec S1024x511 32)⟩]
      concatenates_S1024x1_S1024x511_S1024x512_d1 := by
  unfold Ik Wa
  rw [StableHlo.reshape_result_ne _ _ _ _ _ _ _ (show main_v1 ≠ main_v3 by decide),
    StableHlo.reshape_result_ne _ _ _ _ _ _ _ (show main_v1 ≠ main_v2 by decide), StableHlo.binary_result,
    StableHlo.unary_result_ne _ _ _ _ _ _ (show main_arg4 ≠ main_v0 by decide), StableHlo.unary_result]
  rfl

theorem Ik_eq_refInds (c : Dev nD) :
    Ik m c = Cert.RefHand.refInds (m (c, Proc.devRef .tc main_arg3) : IVec S1024 32)
      (m (c, Proc.devRef .tc main_arg4) : IVec S1024x511 32) :=
  Ik_eq m c

theorem idx_ok_of [Cert.Pre_input_domain.Facts] (c : Dev nD)
    (h : Cert.Pre_input_domain.fn (F := F)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) = fun _ => 1#1) :
    ∀ j, (Ik m c j).toNat < 100000 := by
  rw [Ik_eq_refInds]
  exact Cert.Hand.refInds_lt (Cert.Hand.pre_idx_lt h) (Cert.Hand.pre_cidx_lt h)

end Cert.HandI

end
-- ==== Proof.IdxOkB.lean ====
import proofs.«204931_g11295763988758_cont_test2_10_9_alg».proof.Proof.ValsB
import proofs.«204931_g11295763988758_cont_test2_10_9_alg».proof.Proof.PreFacts
import proofs.«204931_g11295763988758_cont_test2_10_9_alg».proof.Proof.TakeRef

noncomputable section

namespace Cert.HandB

open Cert.Kernel Cert.Kernel.Gen

open Idealize.ShloMosaic
open Idealize.ShloMosaic.SparseCore (S V T)
open Idealize.SL Idealize.SL.Sem

variable {F : FTy → Type} [FloatOps F]

variable (m : (ℓ : Loc nD τ sig) → Buf (Elt F) ℓ)

theorem Ik_eq (c : Dev nD) :
    Ik m c = concatenate S1024x512 1
      [⟨S1024x1, broadcastInDim S1024x1 ![0] bcast_S1024_S1024x1_0 (m (c, Proc.devRef .tc main_arg3) : IVec S1024 32)⟩,
        ⟨S1024x511, (m (c, Proc.devRef .tc main_arg4) : IVec S1024x511 32)⟩]
      concatenates_S1024x1_S1024x511_S1024x512_d1 := by
  unfold Ik Wa
  rw [StableHlo.reshape_result_ne _ _ _ _ _ _ _ (show main_v1 ≠ main_v3 by decide),
    StableHlo.reshape_result_ne _ _ _ _ _ _ _ (show main_v1 ≠ main_v2 by decide), StableHlo.binary_result,
    StableHlo.unary_result_ne _ _ _ _ _ _ (show main_arg4 ≠ main_v0 by decide), StableHlo.unary_result]
  rfl

theorem Ik_eq_refInds (c : Dev nD) :
    Ik m c = Cert.RefHand.refInds (m (c, Proc.devRef .tc main_arg3) : IVec S1024 32)
      (m (c, Proc.devRef .tc main_arg4) : IVec S1024x511 32) :=
  Ik_eq m c

theorem idx_ok_of [Cert.Pre_input_domain.Facts] (c : Dev nD)
    (h : Cert.Pre_input_domain.fn (F := F)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) = fun _ => 1#1) :
    ∀ j, (Ik m c j).toNat < 100000 := by
  rw [Ik_eq_refInds]
  exact Cert.Hand.refInds_lt (Cert.Hand.pre_idx_lt h) (Cert.Hand.pre_cidx_lt h)

end Cert.HandB

end
-- ==== Proof.BridgeA.lean ====
import proofs.«204931_g11295763988758_cont_test2_10_9_alg».proof.Proof.Vals
import proofs.«204931_g11295763988758_cont_test2_10_9_alg».proof.Proof.ValsKept
import Idealize.ShloMosaic.Lib.ValueIdx
import Idealize.ShloMosaic.Lib.Pipeline.Value

noncomputable section

namespace Cert.HandI

open Cert.KernelIdeal Cert.KernelIdeal.Gen

open Idealize.ShloMosaic
open Idealize.ShloMosaic.SparseCore (S V T)
open Idealize.SL Idealize.SL.Sem
open Idealize.ShloMosaic.Pipeline (Dat)

variable {F : FTy → Type} [FloatOps F] [Named F]

variable (m : (ℓ : Loc nD τ sig) → Buf (Elt F) ℓ)

theorem Wa_v2 (c : Dev nD) :
    (Wa m c (Proc.devRef .tc main_v2) : FVec F S1x128 .f32)
      = shapeCast S1x128 (m (c, Proc.devRef .tc main_arg6) : FVec F S128 .f32) shapeCasts_S128_S1x128 := by
  unfold Wa
  rw [StableHlo.reshape_result_ne _ _ _ _ _ _ _ (show main_v2 ≠ main_v3 by decide), StableHlo.reshape_result,
    StableHlo.binary_result_ne _ _ _ _ _ _ _ _ (show main_arg6 ≠ main_v1 by decide),
    StableHlo.unary_result_ne _ _ _ _ _ _ (show main_arg6 ≠ main_v0 by decide)]
  rfl

theorem Wa_v3 (c : Dev nD) :
    (Wa m c (Proc.devRef .tc main_v3) : FVec F S1x128 .f32)
      = shapeCast S1x128 (m (c, Proc.devRef .tc main_arg8) : FVec F S128 .f32) shapeCasts_S128_S1x128 := by
  unfold Wa
  rw [StableHlo.reshape_result, StableHlo.reshape_result_ne _ _ _ _ _ _ _ (show main_arg8 ≠ main_v2 by decide),
    StableHlo.binary_result_ne _ _ _ _ _ _ _ _ (show main_arg8 ≠ main_v1 by decide),
    StableHlo.unary_result_ne _ _ _ _ _ _ (show main_arg8 ≠ main_v0 by decide)]
  rfl

theorem biasRow_apply (b : FVec F S128 .f32) (d : Fin 128) :
    shapeCast S1x128 b shapeCasts_S128_S1x128 (ValueIdx.ix2 (0 : Fin 1) d) = b (ValueIdx.ix1 d) := by
  refine shapeCast_apply b shapeCasts_S128_S1x128 _ _ ?_
  rw [Shape.rowMajor_val_one, Shape.rowMajor_val_two]
  show d.val = (0 : Fin 1).val * 128 + d.val
  simp

theorem Wa_arg1 (c : Dev nD) : Wa m c (Proc.devRef .tc main_arg1) = m (c, Proc.devRef .tc main_arg1) :=
  Wa_of_ne m c (by decide) (by decide) (by decide) (by decide)
theorem Wa_arg2 (c : Dev nD) : Wa m c (Proc.devRef .tc main_arg2) = m (c, Proc.devRef .tc main_arg2) :=
  Wa_of_ne m c (by decide) (by decide) (by decide) (by decide)
theorem Wa_arg5 (c : Dev nD) : Wa m c (Proc.devRef .tc main_arg5) = m (c, Proc.devRef .tc main_arg5) :=
  Wa_of_ne m c (by decide) (by decide) (by decide) (by decide)
theorem Wa_arg7 (c : Dev nD) : Wa m c (Proc.devRef .tc main_arg7) = m (c, Proc.devRef .tc main_arg7) :=
  Wa_of_ne m c (by decide) (by decide) (by decide) (by decide)

theorem Ek_eq (c : Dev nD) : Ek m c = (dat0 (Vof (Wa m)) c).arrAt 6 cfg0.N := Wx0_arr (Wa m) c 6

theorem Wc_v5 (c : Dev nD) : Wc m c v5' = Dk m c := by
  unfold Wc
  exact Function.update_self _ _ _

theorem iblk2_dots (c : Dev nD) (t : Fin cfg2.N) :
    (iblk2 (Vof (Wc m)) c 0 t : S2x1024x512.Idx → F .f32) = Dk m c := by
  funext y
  show Wc m c v5' (((cfg2.win 0).blk t).view.emb y) = _
  rw [Wc_v5]
  refine congrArg (Dk m c) (funext fun a => Fin.ext ?_)
  match a with
  | ⟨0, _⟩ => show 0 * 2 + 1 * (y 0).val = (y 0).val; omega
  | ⟨1, _⟩ => show 0 * 1024 + 1 * (y 1).val = (y 1).val; omega
  | ⟨2, _⟩ => show 0 * 512 + 1 * (y 2).val = (y 2).val; omega

theorem subsingleton_S1x1 : Subsingleton S1x1.Idx :=
  ⟨fun x y => funext fun a => Fin.ext (by
    have hx := (x a).isLt
    have hy := (y a).isLt
    match a with
    | ⟨0, _⟩ => change _ < 1 at hx hy; omega
    | ⟨1, _⟩ => change _ < 1 at hx hy; omega)⟩

theorem cover2_cell (i : S1x1.Idx) : i ∈ ((cfg2.win 1).blk ⟨0, Nat.one_pos⟩).view.set := by
  haveI := subsingleton_S1x1
  have hmem := ((cfg2.win 1).blk ⟨0, Nat.one_pos⟩).view.emb_mem_set i
  have e : ((cfg2.win 1).blk ⟨0, Nat.one_pos⟩).view.emb i = i := Subsingleton.elim (α := S1x1.Idx) _ _
  rw [e] at hmem
  exact hmem

theorem Wd_v6 (c : Dev nD) :
    (Wd m c (Proc.devRef .tc main_v6) : FVec F S1x1 .f32) = out2_1 (Dk m c) := by
  haveI := subsingleton_S1x1
  refine (Wx2_arr (Wc m) c 1).trans ?_
  refine (dat2 (Vof (Wc m)) c).arrAt_eq_of_cover 1 (out2_1 (Dk m c)) (fun t _ => ?_)
    (fun i => ⟨⟨0, Nat.one_pos⟩, rfl, cover2_cell i⟩)
  show (cfg2.win 1).cut (grid2.coords t) ((dat2 (Vof (Wc m)) c).after 1 t) = _
  rw [after2_1, iblk2_dots]
  funext y
  exact congrArg (out2_1 (Dk m c)) (Subsingleton.elim _ _)

theorem scalar_of_cell (x : FVec F S1x1 .f32) :
    shapeCast S_ x shapeCasts_S1x1_S_ ValueIdx.ix0 = x (ValueIdx.ix2 (0 : Fin 1) (0 : Fin 1)) := by
  haveI := subsingleton_S1x1
  unfold shapeCast
  exact congrArg x (Subsingleton.elim _ _)

theorem outK_cell (c : Dev nD) :
    outK m c ValueIdx.ix0 = (Wd m c (Proc.devRef .tc main_v6) : FVec F S1x1 .f32) (ValueIdx.ix2 (0 : Fin 1) (0 : Fin 1)) := by
  unfold outK We
  rw [StableHlo.reshape_result]
  exact scalar_of_cell _

theorem zeros2 : (![0, 0] : Fin 2 → Nat) = fun _ => 0 := funext fun a => by fin_cases a <;> rfl

theorem out2_1_eq (x0 : Vec F S2x1024x512 .f32) :
    out2_1 x0 = k2_pay1 (k2_pay2 (View.ld x0 r2_0)) (k2_pay3 (View.ld x0 r2_1)) (k2_pay4 (View.ld x0 r2_1)) := by
  unfold out2_1
  exact View.canon_unit_zero (S := S1x1) zeros2 inb_S1x1_S1x1_0_0 _

theorem ld_bank0 (x : Vec F S2x1024x512 .f32) (r : Fin 1024) (k : Fin 512) :
    View.ld x r2_0 (ValueIdx.ix3 (0 : Fin 1) r k) = x (ValueIdx.ix3 (0 : Fin 2) r k) := by
  show x (r2_0.idx (ValueIdx.ix3 (0 : Fin 1) r k)) = _
  refine congrArg x (funext fun a => Fin.ext ?_)
  match a with
  | ⟨0, _⟩ => rfl
  | ⟨1, _⟩ => show 0 + 1 * r.val = r.val; omega
  | ⟨2, _⟩ => show 0 + 1 * k.val = k.val; omega

theorem ld_bank1 (x : Vec F S2x1024x512 .f32) (r : Fin 1024) (k : Fin 512) :
    View.ld x r2_1 (ValueIdx.ix3 (0 : Fin 1) r k) = x (ValueIdx.ix3 (1 : Fin 2) r k) := by
  show x (r2_1.idx (ValueIdx.ix3 (0 : Fin 1) r k)) = _
  refine congrArg x (funext fun a => Fin.ext ?_)
  match a with
  | ⟨0, _⟩ => rfl
  | ⟨1, _⟩ => show 0 + 1 * r.val = r.val; omega
  | ⟨2, _⟩ => show 0 + 1 * k.val = k.val; omega

theorem outK_pay (c : Dev nD) :
    outK m c ValueIdx.ix0
      = k2_pay1 (k2_pay2 (View.ld (Dk m c) r2_0)) (k2_pay3 (View.ld (Dk m c) r2_1)) (k2_pay4 (View.ld (Dk m c) r2_1))
          (ValueIdx.ix2 (0 : Fin 1) (0 : Fin 1)) := by
  rw [outK_cell, Wd_v6, out2_1_eq]

end Cert.HandI

end
-- ==== Proof.ScDotsIdeal.lean ====
import proofs.«204931_g11295763988758_cont_test2_10_9_alg».proof.Proof.ScDots
import Idealize.ShloMosaic.PureOps.Ideal.Laws
import Idealize.ShloMosaic.Lib.ValueIdx
import Mathlib.Algebra.BigOperators.Fin

noncomputable section

open scoped BigOperators

namespace Cert.HandI

open Cert.KernelIdeal
open Idealize.ShloMosaic

theorem foldl_fma_ideal : ∀ {n : ℕ} (x y : Fin n → Ideal .f32),
    Fin.foldl n (fun acc d => fmaStep (F := Ideal) acc (x d) (y d)) (Scalar.ofBits (F := Ideal) .f32 0x00000000#32) = ∑ d, x d * y d
  | 0, x, y => by
    rw [Fin.foldl_zero, Fin.sum_univ_zero]
    exact Ideal.ofBits_zero_f32
  | n + 1, x, y => by
    rw [Fin.foldl_succ_last, Fin.sum_univ_castSucc]
    exact congrArg (· + x (Fin.last n) * y (Fin.last n)) (foldl_fma_ideal (fun i => x i.castSucc) (fun i => y i.castSucc))

theorem ix2_eq {n m : ℕ} (r : Fin n) (c : Fin m) : ix2 r c = ValueIdx.ix2 r c := by
  funext a
  match a with
  | ⟨0, _⟩ => rfl
  | ⟨1, _⟩ => rfl

theorem ix3_eq {a b c : ℕ} (x : Fin a) (y : Fin b) (z : Fin c) : ix3 x y z = ValueIdx.ix3 x y z := by
  funext i
  match i with
  | ⟨0, _⟩ => rfl
  | ⟨1, _⟩ => rfl
  | ⟨2, _⟩ => rfl

theorem dotAt_ideal (M : FVec Ideal S100000x128 .f32) (E : FVec Ideal S2x1024x128 .f32) (n : ℕ) (bank : Fin 2) (r : Fin 1024) :
    dotAt (F := Ideal) M E n bank r = ∑ d : Fin 128, M (ix2 (tblRow n) d) * E (ix3 bank r d) :=
  foldl_fma_ideal (fun d => M (ix2 (tblRow n) d)) (fun d => E (ix3 bank r d))

theorem dotsK_apply (MT MS : FVec Ideal S100000x128 .f32) (I : IVec S1024x512 32) (E : FVec Ideal S2x1024x128 .f32)
    (bank : Fin 2) (r : Fin 1024) (k : Fin 512) (hI : (I (ValueIdx.ix2 r k)).toNat < 100000) :
    dotsK (F := Ideal) MT MS I E (ValueIdx.ix3 bank r k)
      = ∑ d : Fin 128, (if bank.val = 0 then MT else MS) (ValueIdx.ix2 ⟨(I (ValueIdx.ix2 r k)).toNat, hI⟩ d) * E (ValueIdx.ix3 bank r d) := by
  show dotAt (F := Ideal) (if bank.val = 0 then MT else MS) E (I (ix2 r k)).toNat bank r = _
  rw [dotAt_ideal, ix2_eq r k, tblRow_of_lt hI]
  refine Finset.sum_congr rfl fun d _ => ?_
  rw [ix2_eq, ix3_eq]

end Cert.HandI

end
-- ==== Proof.LossSpec.lean ====
import Idealize.ShloMosaic.PureOps.Ideal
import Idealize.ShloMosaic.PureOps.Ideal.Laws
import Idealize.ShloMosaic.Lib.ValueIdx
import Idealize.ShloMosaic.Lib.ValueLayout

noncomputable section

open scoped BigOperators

namespace Cert.Hand

open Idealize.ShloMosaic Idealize.ShloMosaic.ValueIdx

def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

theorem sum_shapeCast {M : Type} [AddCommMonoid M] {s t : Shape} (x : s.Idx → M) (h : s.ShapeCasts t) :
    ∑ j, shapeCast t x h j = ∑ i, x i :=
  Equiv.sum_comp (Shape.reshapeEquiv h) x

def softX (d : Fin 1024 → Fin 512 → EReal) (r : Fin 1024) (k : Fin 512) : EReal :=
  Ideal.exp (d r k * ((134217728 / 9395241 : ℝ) : EReal))

def softZ (d : Fin 1024 → Fin 512 → EReal) : EReal :=
  (∑ r : Fin 1024, ∑ k : Fin 512, softX d r k) * ((100000 / 524288 : ℝ) : EReal)

def softV (d : Fin 1024 → Fin 512 → EReal) (r : Fin 1024) (k : Fin 512) : EReal :=
  Ideal.div (softX d r k) (softZ d)

def lossTerm (v : EReal) (k : Fin 512) : EReal :=
  if k = 0 then
    Ideal.log (Ideal.div v (v + ((719182610325 / 140737488355328 : ℝ) : EReal)))
  else
    Ideal.log (Ideal.div ((10973641 / 2147483648 : ℝ) : EReal) (v + ((719182610325 / 140737488355328 : ℝ) : EReal)))

def bankLoss (d : Fin 1024 → Fin 512 → EReal) : EReal :=
  Ideal.div (0 - ∑ r : Fin 1024, ∑ k : Fin 512, lossTerm (softV d r k) k) ((1024 : ℝ) : EReal)

def refX (d : Fin 1024 → Fin 512 → EReal) (r : Fin 1024) (k : Fin 512) : EReal :=
  Ideal.exp (Ideal.div (d r k) ((9395241 / 134217728 : ℝ) : EReal))

def refZ (d : Fin 1024 → Fin 512 → EReal) : EReal :=
  Ideal.div (∑ r : Fin 1024, ∑ k : Fin 512, refX d r k) ((524288 : ℝ) : EReal) * ((100000 : ℝ) : EReal)

def refV (d : Fin 1024 → Fin 512 → EReal) (r : Fin 1024) (k : Fin 512) : EReal :=
  Ideal.div (refX d r k) (refZ d)

def bankLossRef (d : Fin 1024 → Fin 512 → EReal) : EReal :=
  Ideal.div
    (-(Ideal.div
        ((∑ r : Fin 1024, Ideal.log (Ideal.div (refV d r 0)
              ((refV d r 0 + ((10973641 / 2147483648 : ℝ) : EReal)) + ((14073749 / 140737488355328 : ℝ) : EReal))))
          + ∑ r : Fin 1024, ∑ k : Fin 511, Ideal.log (Ideal.div ((10973641 / 2147483648 : ℝ) : EReal)
              ((refV d r k.succ + ((10973641 / 2147483648 : ℝ) : EReal)) + ((14073749 / 140737488355328 : ℝ) : EReal))))
        ((1024 : ℝ) : EReal)))
    1

theorem div_one' (x : EReal) : Ideal.div x 1 = x := by
  rw [← EReal.coe_one, Ideal.div_coe one_ne_zero, one_div, inv_one, EReal.coe_one, mul_one]

theorem add_a_add_b (v : EReal) :
    (v + ((10973641 / 2147483648 : ℝ) : EReal)) + ((14073749 / 140737488355328 : ℝ) : EReal)
      = v + ((719182610325 / 140737488355328 : ℝ) : EReal) := by
  rw [add_assoc, ← EReal.coe_add,
    show (10973641 / 2147483648 + 14073749 / 140737488355328 : ℝ) = 719182610325 / 140737488355328 by norm_num]

theorem refX_eq (d : Fin 1024 → Fin 512 → EReal) : refX d = softX d := by
  funext r k
  unfold refX softX
  rw [Ideal.div_coe (by norm_num : (9395241 / 134217728 : ℝ) ≠ 0),
    show (1 / (9395241 / 134217728) : ℝ) = 134217728 / 9395241 by norm_num]

theorem refZ_eq (d : Fin 1024 → Fin 512 → EReal) : refZ d = softZ d := by
  unfold refZ softZ
  rw [refX_eq, Ideal.div_coe (by norm_num : (524288 : ℝ) ≠ 0), mul_assoc, ← EReal.coe_mul,
    show (1 / 524288 * 100000 : ℝ) = 100000 / 524288 by norm_num]

theorem refV_eq (d : Fin 1024 → Fin 512 → EReal) : refV d = softV d := by
  funext r k
  unfold refV softV
  rw [refX_eq, refZ_eq]

theorem bankLossRef_eq (d : Fin 1024 → Fin 512 → EReal) : bankLossRef d = bankLoss d := by
  unfold bankLossRef bankLoss
  rw [refV_eq, div_one', Ideal.div_coe (by norm_num : (1024 : ℝ) ≠ 0),
    Ideal.div_coe (by norm_num : (1024 : ℝ) ≠ 0), zero_sub, EReal.neg_mul]
  congr 2
  rw [← Finset.sum_add_distrib]
  refine Finset.sum_congr rfl fun r _ => ?_
  rw [Fin.sum_univ_succ (n := 511) (fun k : Fin 512 => lossTerm (softV d r k) k)]
  refine congrArg₂ (· + ·) ?_ (Finset.sum_congr rfl fun k _ => ?_)
  · rw [add_a_add_b]
    unfold lossTerm
    exact (if_pos rfl).symm
  · rw [add_a_add_b]
    unfold lossTerm
    exact (if_neg (Fin.succ_ne_zero k)).symm

end Cert.Hand

end
-- ==== Proof.Preserves.lean ====
import proofs.«204931_g11295763988758_cont_test2_10_9_alg».proof.Defs
import Idealize.ShloMosaic.PureOps.IdealRules

noncomputable section

namespace Cert.Hand

open Idealize.ShloMosaic

theorem preserves : Cert.preserves_Kernel_KernelIdeal :=
  ⟨IdealRules.named_const.statement Cert.KernelIdeal.κ "fold_c_134217728_9395241" .f32 0x41649249#32
      ((134217728 / 9395241 : ℝ) : EReal) rfl,
   IdealRules.named_const.statement Cert.KernelIdeal.κ "fold_sum_c_10973641_2p31_c_14073749_2p47" .f32 0x3BA772A0#32
      ((719182610325 / 140737488355328 : ℝ) : EReal) rfl,
   IdealRules.named_const.statement Cert.KernelIdeal.κ "fold_sum_c_10973641_2p31_c_14073749_2p47" .f32 0x3BA772A0#32
      ((719182610325 / 140737488355328 : ℝ) : EReal) rfl,
   IdealRules.named_const.statement Cert.KernelIdeal.κ "fold_c_134217728_9395241" .f32 0x41649249#32
      ((134217728 / 9395241 : ℝ) : EReal) rfl,
   IdealRules.named_const.statement Cert.KernelIdeal.κ "fold_sum_c_10973641_2p31_c_14073749_2p47" .f32 0x3BA772A0#32
      ((719182610325 / 140737488355328 : ℝ) : EReal) rfl,
   IdealRules.named_const.statement Cert.KernelIdeal.κ "fold_sum_c_10973641_2p31_c_14073749_2p47" .f32 0x3BA772A0#32
      ((719182610325 / 140737488355328 : ℝ) : EReal) rfl⟩

theorem invD : Named.named (F := Ideal) Cert.KernelIdeal.κ "fold_c_134217728_9395241" (φ := .f32) 0x41649249#32
    = ((134217728 / 9395241 : ℝ) : EReal) :=
  IdealRules.named_const.ideal_named_scalar _ _ _ _ rfl

theorem aPlusB : Named.named (F := Ideal) Cert.KernelIdeal.κ "fold_sum_c_10973641_2p31_c_14073749_2p47" (φ := .f32) 0x3BA772A0#32
    = ((719182610325 / 140737488355328 : ℝ) : EReal) :=
  IdealRules.named_const.ideal_named_scalar _ _ _ _ rfl

theorem ofBits_D : Ideal.ofBits .f32 0x3D8F5C29#32 = ((9395241 / 134217728 : ℝ) : EReal) := by
  simp [Ideal.ofBits, Ideal.ieee, -EReal.coe_mul]; norm_num

theorem ofBits_a : Ideal.ofBits .f32 0x3BA771C9#32 = ((10973641 / 2147483648 : ℝ) : EReal) := by
  simp [Ideal.ofBits, Ideal.ieee, -EReal.coe_mul]; norm_num

theorem ofBits_b : Ideal.ofBits .f32 0x33D6BF95#32 = ((14073749 / 140737488355328 : ℝ) : EReal) := by
  simp [Ideal.ofBits, Ideal.ieee, -EReal.coe_mul]; norm_num

theorem ofBits_scale : Ideal.ofBits .f32 0x3E435000#32 = ((100000 / 524288 : ℝ) : EReal) := by
  simp [Ideal.ofBits, Ideal.ieee, -EReal.coe_mul]; norm_num

theorem ofBits_524288 : Ideal.ofBits .f32 0x49000000#32 = ((524288 : ℝ) : EReal) := by
  simp [Ideal.ofBits, Ideal.ieee, -EReal.coe_mul]; norm_num

theorem ofBits_100000 : Ideal.ofBits .f32 0x47C35000#32 = ((100000 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_one : Ideal.ofBits .f32 0x3F800000#32 = 1 := by
  simp [Ideal.ofBits, Ideal.ieee, -EReal.coe_mul]; norm_num

end Cert.Hand

end
-- ==== Proof.LossKernel.lean ====
import proofs.«204931_g11295763988758_cont_test2_10_9_alg».proof.Proof.Gen.KernelIdeal.Skeleton
import proofs.«204931_g11295763988758_cont_test2_10_9_alg».proof.Proof.LossSpec
import proofs.«204931_g11295763988758_cont_test2_10_9_alg».proof.Proof.Preserves

noncomputable section

open scoped BigOperators

namespace Cert.Hand

open Idealize.ShloMosaic Idealize.ShloMosaic.ValueIdx Cert.KernelIdeal Cert.KernelIdeal.Gen

theorem cmpi_col0 : ∀ k : Fin 512, IntOp.cmpi .slt (BitVec.ofNat 32 k.val) 1#32 = if k = 0 then 1#1 else 0#1 := by
  decide +kernel

theorem select_col0 {α : Type} (k : Fin 512) (A B : α) :
    Scalar.select (IntOp.cmpi .slt (BitVec.ofNat 32 k.val) 1#32) A B = if k = 0 then A else B := by
  rw [cmpi_col0]
  by_cases hk : k = 0
  · rw [if_pos hk, if_pos hk]; exact select_one A B
  · rw [if_neg hk, if_neg hk]; exact select_zero A B

theorem total_block (src : FVec Ideal S1x1024x512 .f32) (j : S1.Idx) :
    multiReduction .add [1, 2] S1 src 0x00000000#32 reduces_S1x1024x512_S1 (.inl rfl) rfl j
      = ∑ r : Fin 1024, ∑ k : Fin 512, src (ix3 (0 : Fin 1) r k) := by
  refine (Ideal.multiReduction_add_total src 0x00000000#32 reduces_S1x1024x512_S1 (by decide) (.inl rfl) rfl j).trans ?_
  rw [sum_idx3, Fin.sum_univ_one]

theorem total_view (x : FVec Ideal S1024x512 .f32) :
    extractAt ![0, 0, 0] (shapeCast S1x1x1 (multiReduction .add [1, 2] S1 (shapeCast S1x1024x512 x shapeCasts_S1024x512_S1x1024x512)
        0x00000000#32 reduces_S1x1024x512_S1 (.inl rfl) rfl) shapeCasts_S1_S1x1x1) inpos_S1x1x1_p0_0_0
      = ∑ r : Fin 1024, ∑ k : Fin 512, x (ix2 r k) := by
  unfold extractAt shapeCast
  refine (total_block _ _).trans ?_
  refine Finset.sum_congr rfl fun r _ => Finset.sum_congr rfl fun k _ => ?_
  exact shapeCast_ab_1ab_apply x shapeCasts_S1024x512_S1x1024x512 0 r k

def kV (v36 : FVec Ideal S1024x512 .f32) (v40 : Ideal .f32) : FVec Ideal S1024x512 .f32 :=
  divf v36 (broadcast S1024x512 (Scalar.mulf v40 (Scalar.ofBits (F := Ideal) .f32 0x3E435000#32)))

def kTerms (v43 : FVec Ideal S1024x512 .f32) : FVec Ideal S1024x512 .f32 :=
  select (cmpi .slt (iota .tc S1024x512 32 [1] iota_S1024x512_d1_w32) (broadcast S1024x512 1#32))
    (log (divf v43 (addf v43 (broadcast S1024x512
      (Named.named (F := Ideal) κ "fold_sum_c_10973641_2p31_c_14073749_2p47" (φ := .f32) 0x3BA772A0#32)))))
    (log (divf (broadcast S1024x512 (Scalar.ofBits (F := Ideal) .f32 0x3BA771C9#32))
      (addf v43 (broadcast S1024x512
        (Named.named (F := Ideal) κ "fold_sum_c_10973641_2p31_c_14073749_2p47" (φ := .f32) 0x3BA772A0#32)))))

def kTail (v36 : FVec Ideal S1024x512 .f32) (v40 : Ideal .f32) : Ideal .f32 :=
  Scalar.divf
    (Scalar.subf (Scalar.ofBits (F := Ideal) .f32 0x00000000#32)
      (extractAt ![0, 0, 0]
        (shapeCast S1x1x1
          (multiReduction .add [1, 2] S1
            (shapeCast S1x1024x512 (kTerms (kV v36 v40)) shapeCasts_S1024x512_S1x1024x512)
            0x00000000#32 reduces_S1x1024x512_S1 (.inl rfl) rfl)
          shapeCasts_S1_S1x1x1)
        inpos_S1x1x1_p0_0_0))
    (Scalar.ofBits (F := Ideal) .f32 0x44800000#32)

theorem pay1_eq (v31 : Ideal .f32) (v36 : FVec Ideal S1024x512 .f32) (v40 : Ideal .f32) (j : S1x1.Idx) :
    Gen.k2_pay1 (F := Ideal) v31 v36 v40 j = v31 + kTail v36 v40 := rfl

theorem pay2_eq (v0 : FVec Ideal S1x1024x512 .f32) :
    Gen.k2_pay2 (F := Ideal) v0 = Ideal.ofBits .f32 0x00000000#32 + kTail (Gen.k2_pay3 v0) (Gen.k2_pay4 v0) := rfl

theorem pay3_apply (v : FVec Ideal S1x1024x512 .f32) (r : Fin 1024) (k : Fin 512) :
    Gen.k2_pay3 (F := Ideal) v (ix2 r k) = softX (fun r k => v (ix3 (0 : Fin 1) r k)) r k := by
  unfold Gen.k2_pay3 softX
  show Ideal.exp (shapeCast S1024x512 v shapeCasts_S1x1024x512_S1024x512 (ix2 r k)
      * Named.named (F := Ideal) κ "fold_c_134217728_9395241" (φ := .f32) 0x41649249#32) = _
  rw [shapeCast_1ab_ab_apply, invD]

theorem pay4_eq (v : FVec Ideal S1x1024x512 .f32) :
    Gen.k2_pay4 (F := Ideal) v = ∑ r : Fin 1024, ∑ k : Fin 512, softX (fun r k => v (ix3 (0 : Fin 1) r k)) r k := by
  unfold Gen.k2_pay4
  refine (total_view _).trans ?_
  exact Finset.sum_congr rfl fun r _ => Finset.sum_congr rfl fun k _ => pay3_apply v r k

theorem kV_apply (X : FVec Ideal S1024x512 .f32) (s : Ideal .f32) (r : Fin 1024) (k : Fin 512) :
    kV X s (ix2 r k) = Ideal.div (X (ix2 r k)) (s * ((100000 / 524288 : ℝ) : EReal)) := by
  unfold kV
  show Ideal.div (X (ix2 r k)) (s * Ideal.ofBits .f32 0x3E435000#32) = _
  rw [ofBits_scale]

theorem kTerms_apply (V : FVec Ideal S1024x512 .f32) (r : Fin 1024) (k : Fin 512) :
    kTerms V (ix2 r k) = lossTerm (V (ix2 r k)) k := by
  unfold kTerms lossTerm
  show Scalar.select (IntOp.cmpi .slt (iota .tc S1024x512 32 [1] iota_S1024x512_d1_w32 (ix2 r k)) 1#32)
      (Ideal.log (Ideal.div (V (ix2 r k)) (V (ix2 r k)
        + Named.named (F := Ideal) κ "fold_sum_c_10973641_2p31_c_14073749_2p47" (φ := .f32) 0x3BA772A0#32)))
      (Ideal.log (Ideal.div (Ideal.ofBits .f32 0x3BA771C9#32) (V (ix2 r k)
        + Named.named (F := Ideal) κ "fold_sum_c_10973641_2p31_c_14073749_2p47" (φ := .f32) 0x3BA772A0#32))) = _
  rw [iota_single_apply, aPlusB, ofBits_a]
  exact select_col0 k _ _

theorem kTail_eq (X : FVec Ideal S1024x512 .f32) (s : Ideal .f32) :
    kTail X s = Ideal.div (0 - ∑ r : Fin 1024, ∑ k : Fin 512,
        lossTerm (Ideal.div (X (ix2 r k)) (s * ((100000 / 524288 : ℝ) : EReal))) k) ((1024 : ℝ) : EReal) := by
  unfold kTail
  rw [total_view]
  show Ideal.div (Ideal.ofBits .f32 0x00000000#32 - _) (Ideal.ofBits .f32 0x44800000#32) = _
  rw [Ideal.ofBits_zero_f32, ofBits_1024]
  simp only [kTerms_apply, kV_apply]

theorem lossKernel_eq (v0 v32 : Vec Ideal S1x1024x512 .f32) (j : S1x1.Idx) :
    Gen.k2_pay1 (F := Ideal) (Gen.k2_pay2 v0) (Gen.k2_pay3 v32) (Gen.k2_pay4 v32) j
      = bankLoss (fun r k => v0 (ix3 (0 : Fin 1) r k)) + bankLoss (fun r k => v32 (ix3 (0 : Fin 1) r k)) := by
  rw [pay1_eq, pay2_eq v0, Ideal.ofBits_zero_f32, zero_add, kTail_eq, kTail_eq, pay4_eq v0, pay4_eq v32]
  unfold bankLoss softV softZ
  simp only [pay3_apply v0, pay3_apply v32]

end Cert.Hand

end
-- ==== Proof.LossRef.lean ====
import proofs.«204931_g11295763988758_cont_test2_10_9_alg».proof.Proof.RefRunA
import proofs.«204931_g11295763988758_cont_test2_10_9_alg».proof.Proof.LossSpec
import proofs.«204931_g11295763988758_cont_test2_10_9_alg».proof.Proof.Preserves
import Idealize.ShloMosaic.Lib.IdealHost

noncomputable section

open scoped BigOperators

namespace Cert.Hand

open Idealize.ShloMosaic Idealize.ShloMosaic.ValueIdx Cert.ReferenceIdeal Cert.ReferenceIdeal.Gen Cert.RefHand

theorem hostSum_scalar {s : Shape} {axes : List (Fin s.rank)} (x : FVec Ideal s .f32) (h : s.ReducesTo axes S_)
    (hu : 0 < S_.numel) (j : S_.Idx) :
    Host.reduceAdd x (constant (F := Ideal) S_ .f32 0x00000000#32) h hu j = ∑ i : s.Idx, x i := by
  rw [hostReduceAdd_apply, Ideal.hostReduceAdd_total h (fun b => b.elim0), constant_apply, Ideal.ofBits_zero_f32, zero_add]

theorem hostSum_unit {s : Shape} {axes : List (Fin s.rank)} (x : FVec Ideal s .f32) (h : s.ReducesTo axes S1)
    (hu : 0 < S_.numel) (j : S1.Idx) :
    Host.reduceAdd x (constant (F := Ideal) S_ .f32 0x00000000#32) h hu j = ∑ i : s.Idx, x i := by
  rw [hostReduceAdd_apply, Ideal.hostReduceAdd_total h (by decide), constant_apply, Ideal.ofBits_zero_f32, zero_add]

theorem bcast_const {T : Shape} (h : S_.BroadcastsInDim T ![]) (w : BitVec 32) (j : T.Idx) :
    broadcastInDim T ![] h (constant (F := Ideal) S_ .f32 w) j = Ideal.ofBits .f32 w := by
  rw [broadcastInDim_scalar_apply, constant_apply]

theorem broadcastInDim_self {α : Type} {s : Shape} (dims : Fin s.rank → Fin s.rank) (hd : ∀ a, dims a = a)
    (h : s.BroadcastsInDim s dims) (x : s.Idx → α) : broadcastInDim s dims h x = x := by
  funext j
  refine broadcastInDim_apply dims h x j j (fun a => ?_)
  by_cases h1 : s.size a = 1
  · rw [if_pos h1]; have := (j a).isLt; omega
  · rw [if_neg h1, hd a]

theorem bcastId (x : S1x523264x1x1.Idx → EReal) :
    broadcastInDim S1x523264x1x1 ![0, 1, 2, 3] bcast_S1x523264x1x1_S1x523264x1x1_0_1_2_3 x = x :=
  broadcastInDim_self _ (by decide) _ x

theorem refExp_apply (d : FVec Ideal S1024x512 .f32) (r : Fin 1024) (k : Fin 512) (c : Fin 1) :
    refExp d (ix3 r k c) = refX (fun r k => d (ix2 r k)) r k := by
  unfold refExp refX
  refine (broadcastInDim_apply _ _ _ (ix3 r k c) (ix2 r k) (fun a => ?_)).trans ?_
  · match a with
    | ⟨0, _⟩ => rfl
    | ⟨1, _⟩ => rfl
  · simp only [Host.exp, hostDivf_apply, Ideal.hostUnary_exp_def]
    rw [bcast_const, ofBits_D]

theorem refExp_total (d : FVec Ideal S1024x512 .f32) :
    ∑ i : S1024x512x1.Idx, refExp d i = ∑ r : Fin 1024, ∑ k : Fin 512, refX (fun r k => d (ix2 r k)) r k := by
  rw [sum_idx3]
  simp only [Fin.sum_univ_one, refExp_apply]

theorem refNorm_apply (d : FVec Ideal S1024x512 .f32) (r : Fin 1024) (k : Fin 512) (c : Fin 1) :
    refNorm d (ix3 r k c) = refV (fun r k => d (ix2 r k)) r k := by
  unfold refNorm refV refZ
  rw [hostDivf_apply, refExp_apply, broadcastInDim_scalar_apply, mulf_apply, hostDivf_apply, hostSum_scalar, refExp_total,
    constant_apply, constant_apply, ofBits_524288, ofBits_100000]

theorem refCol0_apply (v : FVec Ideal S1024x512x1 .f32) (r : Fin 1024) (u c : Fin 1) :
    refCol0 v (ix3 r u c) = v (ix3 r (0 : Fin 512) c) := by
  unfold refCol0
  exact slice3_axis1_apply 0 v _ r u c 0 (by have := u.isLt; show 0 = 0 + u.val; omega)

theorem refPos_apply (v : FVec Ideal S1024x512x1 .f32) (r : Fin 1024) (u c : Fin 1) :
    refPos v (ix3 r u c)
      = Ideal.log (Ideal.div (v (ix3 r (0 : Fin 512) c))
          ((v (ix3 r (0 : Fin 512) c) + ((10973641 / 2147483648 : ℝ) : EReal)) + ((14073749 / 140737488355328 : ℝ) : EReal))) := by
  unfold refPos
  simp only [Host.log, hostDivf_apply, addf_apply, refCol0_apply, Ideal.hostUnary_log_def]
  rw [bcast_const, bcast_const, ofBits_a, ofBits_b]

theorem refNeg_apply (v : FVec Ideal S1024x512x1 .f32) (r : Fin 1024) (k : Fin 511) (c : Fin 1) :
    refNeg v (ix3 r k c)
      = Ideal.log (Ideal.div ((10973641 / 2147483648 : ℝ) : EReal)
          ((v (ix3 r k.succ c) + ((10973641 / 2147483648 : ℝ) : EReal)) + ((14073749 / 140737488355328 : ℝ) : EReal))) := by
  unfold refNeg
  simp only [Host.log, hostDivf_apply, addf_apply, Ideal.hostUnary_log_def]
  rw [slice3_axis1_apply 1 v _ r k c k.succ (by rw [Fin.val_succ, Nat.add_comm]), bcast_const, bcast_const, ofBits_a, ofBits_b]

theorem refPos_total (v : FVec Ideal S1024x512x1 .f32) (j : S_.Idx) :
    Host.reduceAdd (shapeCast S1024 (refPos v) shapeCasts_S1024x1x1_S1024) (constant (F := Ideal) S_ .f32 0x00000000#32)
        reducesTo_S1024_S_d0 h_S_ j
      = ∑ r : Fin 1024, refPos v (ix3 r (0 : Fin 1) (0 : Fin 1)) := by
  rw [hostSum_scalar, sum_shapeCast, sum_idx3]
  simp only [Fin.sum_univ_one]

theorem refNeg_total (v : FVec Ideal S1024x512x1 .f32) (j : S1.Idx) :
    Host.reduceAdd
        (shapeCast S523264x1
          (broadcastInDim S1x523264x1x1 ![0, 1, 2, 3] bcast_S1x523264x1x1_S1x523264x1x1_0_1_2_3
            (shapeCast S1x523264x1x1 (shapeCast S523264x1 (refNeg v) shapeCasts_S1024x511x1_S523264x1)
              shapeCasts_S523264x1_S1x523264x1x1))
          shapeCasts_S1x523264x1x1_S523264x1)
        (constant (F := Ideal) S_ .f32 0x00000000#32) reducesTo_S523264x1_S1_d0 h_S_ j
      = ∑ r : Fin 1024, ∑ k : Fin 511, refNeg v (ix3 r k (0 : Fin 1)) := by
  rw [hostSum_unit, sum_shapeCast, bcastId, sum_shapeCast, sum_shapeCast, sum_idx3]
  simp only [Fin.sum_univ_one]

theorem refLoss_apply (v : FVec Ideal S1024x512x1 .f32) :
    refLoss v ix0
      = Ideal.div
          (-(Ideal.div
              ((∑ r : Fin 1024, refPos v (ix3 r (0 : Fin 1) (0 : Fin 1)))
                + ∑ r : Fin 1024, ∑ k : Fin 511, refNeg v (ix3 r k (0 : Fin 1)))
              ((1024 : ℝ) : EReal)))
          1 := by
  unfold refLoss
  rw [hostDivf_apply, constant_apply, ofBits_one]
  show Ideal.div (-(Host.reduceAdd _ (constant (F := Ideal) S_ .f32 0x00000000#32) reducesTo_S1_S_d0 h_S_ ix0)) 1 = _
  rw [hostSum_scalar, sum_idx1, Fin.sum_univ_one, hostDivf_apply, addf_apply, broadcastInDim_scalar_apply, refPos_total,
    refNeg_total, bcast_const, ofBits_1024]

theorem refBank_eq (d : FVec Ideal S1024x512 .f32) :
    refLoss (refNorm d) ix0 = bankLoss (fun r k => d (ix2 r k)) := by
  rw [refLoss_apply, ← bankLossRef_eq]
  unfold bankLossRef
  simp only [refPos_apply, refNeg_apply, refNorm_apply]

theorem lossRef_eq (d0 d1 : FVec Ideal S1024x512 .f32) :
    refTail d0 d1 ix0 = bankLoss (fun r k => d0 (ix2 r k)) + bankLoss (fun r k => d1 (ix2 r k)) := by
  unfold refTail
  rw [addf_apply, refBank_eq, refBank_eq]

end Cert.Hand

end
-- ==== Proof.EmbSpec.lean ====
import Idealize.ShloMosaic.PureOps.Ideal
import Idealize.ShloMosaic.PureOps.Ideal.Laws
import Idealize.ShloMosaic.Lib.ValueIdx

noncomputable section

open scoped BigOperators

namespace Cert.Hand

open Idealize.ShloMosaic

def linRow (x : Fin 2048 → EReal) (W : Fin 2048 → Fin 128 → EReal) (b : Fin 128 → EReal) (d : Fin 128) : EReal :=
  (∑ k : Fin 2048, x k * W k d) + b d

def embRow (x : Fin 2048 → EReal) (W : Fin 2048 → Fin 128 → EReal) (b : Fin 128 → EReal) (d : Fin 128) : EReal :=
  Ideal.div (linRow x W b d) (Ideal.sqrt (∑ d' : Fin 128, linRow x W b d' * linRow x W b d'))

def embSpec (f : Fin 1024 → Fin 2048 → EReal) (W : Fin 2048 → Fin 128 → EReal) (b : Fin 128 → EReal)
    (r : Fin 1024) (d : Fin 128) : EReal :=
  embRow (f r) W b d

theorem embSpec_eq_embRow (f : Fin 1024 → Fin 2048 → EReal) (W : Fin 2048 → Fin 128 → EReal) (b : Fin 128 → EReal)
    (r : Fin 1024) (d : Fin 128) : embSpec f W b r d = embRow (f r) W b d := rfl

theorem emb_coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

theorem linRow_real (x : Fin 2048 → EReal) (W : Fin 2048 → Fin 128 → EReal) (b : Fin 128 → EReal)
    (hx : ∀ k, ∃ r : ℝ, x k = r) (hW : ∀ k d, ∃ r : ℝ, W k d = r) (hb : ∀ d, ∃ r : ℝ, b d = r) (d : Fin 128) :
    ∃ r : ℝ, linRow x W b d = r := by
  choose xr hxr using hx
  choose Wr hWr using hW
  choose br hbr using hb
  refine ⟨(∑ k : Fin 2048, xr k * Wr k d) + br d, ?_⟩
  unfold linRow
  rw [EReal.coe_add, emb_coe_sum, hbr]
  refine congrArg (· + ((br d : ℝ) : EReal)) ?_
  exact Finset.sum_congr rfl fun k _ => by rw [hxr, hWr, EReal.coe_mul]

theorem emb_ofBits_two : Ideal.ofBits .f32 0x40000000#32 = ((2 : ℝ) : EReal) := by
  simp [Ideal.ofBits, Ideal.ieee, -EReal.coe_mul]; norm_num

theorem emb_ofBits_half : Ideal.ofBits .f32 0x3F000000#32 = (((1 : ℝ) / 2 : ℝ) : EReal) := by
  simp [Ideal.ofBits, Ideal.ieee, -EReal.coe_mul]; norm_num

theorem pow_half_sum_pow_two {ι : Type*} [Fintype ι] (y : ι → EReal) (hy : ∀ d, ∃ r : ℝ, y d = r) :
    Ideal.pow (Ideal.ofBits .f32 0x00000000#32 + ∑ d : ι, Ideal.pow (y d) (Ideal.ofBits .f32 0x40000000#32))
        (Ideal.ofBits .f32 0x3F000000#32)
      = Ideal.sqrt (∑ d : ι, y d * y d) := by
  choose yr hyr using hy
  have h1 : ∀ d, Ideal.pow (y d) (Ideal.ofBits .f32 0x40000000#32) = ((yr d * yr d : ℝ) : EReal) := fun d => by
    rw [hyr, emb_ofBits_two, Ideal.pow_coe_coe]
    show ((yr d ^ (2 : ℝ) : ℝ) : EReal) = _
    rw [Real.rpow_two, pow_two]
  have h2 : ∀ d, y d * y d = ((yr d * yr d : ℝ) : EReal) := fun d => by rw [hyr, EReal.coe_mul]
  rw [Finset.sum_congr rfl fun d _ => h1 d, Finset.sum_congr rfl fun d _ => h2 d, ← emb_coe_sum, Ideal.ofBits_zero_f32,
    zero_add, emb_ofBits_half, Ideal.pow_coe_coe, Ideal.sqrt_coe]
  have hs : (0 : ℝ) ≤ ∑ d : ι, yr d * yr d := Finset.sum_nonneg fun d _ => mul_self_nonneg (yr d)
  rw [if_neg (not_lt.mpr hs)]
  show (((∑ d : ι, yr d * yr d) ^ ((1 : ℝ) / 2) : ℝ) : EReal) = _
  rw [← Real.sqrt_eq_rpow]

end Cert.Hand

end
-- ==== Proof.EmbKernel.lean ====
import proofs.«204931_g11295763988758_cont_test2_10_9_alg».proof.Proof.Gen.KernelIdeal.Skeleton
import proofs.«204931_g11295763988758_cont_test2_10_9_alg».proof.Proof.EmbSpec
import Idealize.ShloMosaic.Lib.ValueLayout
import Idealize.ShloMosaic.PureOps.Ideal.Laws

noncomputable section

open scoped BigOperators

namespace Cert.Hand

open Cert.KernelIdeal Cert.KernelIdeal.Gen Idealize.ShloMosaic Idealize.ShloMosaic.ValueIdx

theorem emb_shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem emb_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem emb_rowSum_apply (src : FVec Ideal S256x128 .f32) (h : S256x128.Reduces [1] S256) (hφ : FKind.Formats .f32)
    (hacc : (0x00000000#32 : BitVec 32) = FKind.add.neutral .f32 hφ) (p : Fin 256) :
    multiReduction .add [1] S256 src 0x00000000#32 h hφ hacc (ix1 p) = ∑ d : Fin 128, src (ix2 p d) := by
  refine (Ideal.multiReduction_add_single src 0x00000000#32 h hφ hacc (ix1 p)).trans ?_
  show ∑ d : Fin 128, src (h.lift (ix1 p) d) = _
  refine Finset.sum_congr rfl fun d _ => congrArg src ?_
  funext ax
  apply Fin.ext
  match ax with
  | ⟨0, _⟩ => rfl
  | ⟨1, _⟩ => rfl

theorem emb_lhs_mm_0 (i : S256x128.Idx) (q : dot_S256x2048_S2048x128_S256x128_1_0_0_1_n_n.contr.Idx) :
    (dot_S256x2048_S2048x128_S256x128_1_0_0_1_n_n.lhsIdx i q 0).val = (i 0).val := by
  unfold DotDims.lhsIdx
  rw [dif_neg (show ¬(0 : Fin S256x2048.rank) ∈ dot_S256x2048_S2048x128_S256x128_1_0_0_1_n_n.lhsBatch by decide),
    dif_pos (show (0 : Fin S256x2048.rank) ∈ dot_S256x2048_S2048x128_S256x128_1_0_0_1_n_n.lhsNonContracting by decide)]
  rfl

theorem emb_lhs_mm_1 (i : S256x128.Idx) (q : dot_S256x2048_S2048x128_S256x128_1_0_0_1_n_n.contr.Idx) :
    (dot_S256x2048_S2048x128_S256x128_1_0_0_1_n_n.lhsIdx i q 1).val = (q ⟨0, by decide⟩).val :=
  dot_S256x2048_S2048x128_S256x128_1_0_0_1_n_n.lhsIdx_val_of_single rfl i q

theorem emb_rhs_mm_0 (i : S256x128.Idx) (q : dot_S256x2048_S2048x128_S256x128_1_0_0_1_n_n.contr.Idx) :
    (dot_S256x2048_S2048x128_S256x128_1_0_0_1_n_n.rhsIdx i q 0).val = (q ⟨0, by decide⟩).val :=
  dot_S256x2048_S2048x128_S256x128_1_0_0_1_n_n.rhsIdx_val_of_single rfl i q

theorem emb_rhs_mm_1 (i : S256x128.Idx) (q : dot_S256x2048_S2048x128_S256x128_1_0_0_1_n_n.contr.Idx) :
    (dot_S256x2048_S2048x128_S256x128_1_0_0_1_n_n.rhsIdx i q 1).val = (i 1).val := by
  unfold DotDims.rhsIdx
  rw [dif_neg (show ¬(1 : Fin S2048x128.rank) ∈ dot_S256x2048_S2048x128_S256x128_1_0_0_1_n_n.rhsBatch by decide),
    dif_pos (show (1 : Fin S2048x128.rank) ∈ dot_S256x2048_S2048x128_S256x128_1_0_0_1_n_n.rhsNonContracting by decide)]
  rfl

theorem emb_mm_apply (A : FVec Ideal S256x2048 .f32) (B : FVec Ideal S2048x128 .f32) (p : Fin 256) (q : Fin 128) :
    matmul dot_S256x2048_S2048x128_S256x128_1_0_0_1_n_n (some .fp32) A B (constant (F := Ideal) S256x128 .f32 0x00000000#32)
        (ix2 p q)
      = ∑ k : Fin 2048, A (ix2 p k) * B (ix2 k q) := by
  show FloatOps.matmul dot_S256x2048_S2048x128_S256x128_1_0_0_1_n_n (some .fp32) A B
      (constant (F := Ideal) S256x128 .f32 0x00000000#32) (ix2 p q) = _
  rw [Ideal.matmul_constant_zero_apply,
    ← Equiv.sum_comp (contrEquiv1 dot_S256x2048_S2048x128_S256x128_1_0_0_1_n_n 2048 rfl rfl).symm]
  refine Finset.sum_congr rfl fun k _ => ?_
  have hk := contrEquiv1_symm_val dot_S256x2048_S2048x128_S256x128_1_0_0_1_n_n 2048 rfl rfl k
  have el : dot_S256x2048_S2048x128_S256x128_1_0_0_1_n_n.lhsIdx (ix2 p q)
      ((contrEquiv1 dot_S256x2048_S2048x128_S256x128_1_0_0_1_n_n 2048 rfl rfl).symm k) = ix2 p k :=
    funext fun a => Fin.ext (by
      match a with
      | ⟨0, _⟩ => exact emb_lhs_mm_0 _ _
      | ⟨1, _⟩ => exact (emb_lhs_mm_1 _ _).trans hk)
  have er : dot_S256x2048_S2048x128_S256x128_1_0_0_1_n_n.rhsIdx (ix2 p q)
      ((contrEquiv1 dot_S256x2048_S2048x128_S256x128_1_0_0_1_n_n 2048 rfl rfl).symm k) = ix2 k q :=
    funext fun a => Fin.ext (by
      match a with
      | ⟨0, _⟩ => exact (emb_rhs_mm_0 _ _).trans hk
      | ⟨1, _⟩ => exact emb_rhs_mm_1 _ _)
  rw [el, er]

theorem emb_lin_apply (A : FVec Ideal S256x2048 .f32) (B : FVec Ideal S2048x128 .f32) (c : FVec Ideal S1x128 .f32)
    (h1 : S1x128.ShapeCasts S1x128) (h2 : S1x128.Broadcasts S256x128) (p : Fin 256) (d : Fin 128) :
    addf (matmul dot_S256x2048_S2048x128_S256x128_1_0_0_1_n_n (some .fp32) A B (constant (F := Ideal) S256x128 .f32 0x00000000#32))
        (broadcastTo S256x128 (shapeCast S1x128 c h1) h2) (ix2 p d)
      = linRow (fun k => A (ix2 p k)) (fun k d => B (ix2 k d)) (fun d => c (ix2 (0 : Fin 1) d)) d := by
  show matmul dot_S256x2048_S2048x128_S256x128_1_0_0_1_n_n (some .fp32) A B (constant (F := Ideal) S256x128 .f32 0x00000000#32)
        (ix2 p d)
      + broadcastTo S256x128 (shapeCast S1x128 c h1) h2 (ix2 p d) = _
  rw [emb_mm_apply A B p d, broadcastTo_1b_ab_apply (shapeCast S1x128 c h1) h2 p d, shapeCast_self c h1]
  rfl

theorem emb_normalize_apply (L : FVec Ideal S256x128 .f32) (h3 : S256x128.Reduces [1] S256) (hφ : FKind.Formats .f32)
    (hacc : (0x00000000#32 : BitVec 32) = FKind.add.neutral .f32 hφ) (h4 : S256.ShapeCasts S256x1)
    (h5 : S256x1.Broadcasts S256x128) (h6 : S256x128.ShapeCasts S1x256x128) (u : Fin 1) (p : Fin 256) (q : Fin 128) :
    shapeCast S1x256x128
        (divf L (broadcastTo S256x128
          (sqrt (shapeCast S256x1 (multiReduction .add [1] S256 (mulf L L) 0x00000000#32 h3 hφ hacc) h4)) h5))
        h6 (ix3 u p q)
      = Ideal.div (L (ix2 p q)) (Ideal.sqrt (∑ d : Fin 128, L (ix2 p d) * L (ix2 p d))) := by
  refine (shapeCast_ab_1ab_apply _ h6 u p q).trans ?_
  show Ideal.div (L (ix2 p q))
      (broadcastTo S256x128 (sqrt (shapeCast S256x1 (multiReduction .add [1] S256 (mulf L L) 0x00000000#32 h3 hφ hacc) h4))
        h5 (ix2 p q)) = _
  refine congrArg (Ideal.div (L (ix2 p q))) ?_
  refine (emb_broadcastTo_a1_ab_apply _ h5 p q).trans ?_
  show Ideal.sqrt (shapeCast S256x1 (multiReduction .add [1] S256 (mulf L L) 0x00000000#32 h3 hφ hacc) h4
      (ix2 p (0 : Fin 1))) = _
  refine congrArg Ideal.sqrt ?_
  refine (emb_shapeCast_a_a1_apply _ h4 p 0).trans ?_
  exact emb_rowSum_apply (mulf L L) h3 hφ hacc p

theorem k0_pay1_apply (v0 : FVec Ideal S256x2048 .f32) (v1 : FVec Ideal S2048x128 .f32) (v3 : FVec Ideal S1x128 .f32)
    (p : Fin 256) (q : Fin 128) :
    k0_pay1 (F := Ideal) v0 v1 v3 (ix3 (0 : Fin 1) p q)
      = embRow (fun k => v0 (ix2 p k)) (fun k d => v1 (ix2 k d)) (fun d => v3 (ix2 (0 : Fin 1) d)) q := by
  unfold k0_pay1
  refine (emb_normalize_apply _ reduces_S256x128_S256 _ _ shapeCasts_S256_S256x1 broadcasts_S256x1_S256x128
    shapeCasts_S256x128_S1x256x128 0 p q).trans ?_
  unfold embRow
  exact congrArg₂ Ideal.div (emb_lin_apply v0 v1 v3 _ _ p q)
    (congrArg Ideal.sqrt (Finset.sum_congr rfl fun d _ =>
      congrArg₂ (· * ·) (emb_lin_apply v0 v1 v3 _ _ p d) (emb_lin_apply v0 v1 v3 _ _ p d)))

theorem k0_pay2_apply (v13 : FVec Ideal S256x2048 .f32) (v14 : FVec Ideal S2048x128 .f32) (v16 : FVec Ideal S1x128 .f32)
    (p : Fin 256) (q : Fin 128) :
    k0_pay2 (F := Ideal) v13 v14 v16 (ix3 (0 : Fin 1) p q)
      = embRow (fun k => v13 (ix2 p k)) (fun k d => v14 (ix2 k d)) (fun d => v16 (ix2 (0 : Fin 1) d)) q := by
  unfold k0_pay2
  refine (emb_normalize_apply _ reduces_S256x128_S256 _ _ shapeCasts_S256_S256x1 broadcasts_S256x1_S256x128
    shapeCasts_S256x128_S1x256x128 0 p q).trans ?_
  unfold embRow
  exact congrArg₂ Ideal.div (emb_lin_apply v13 v14 v16 _ _ p q)
    (congrArg Ideal.sqrt (Finset.sum_congr rfl fun d _ =>
      congrArg₂ (· * ·) (emb_lin_apply v13 v14 v16 _ _ p d) (emb_lin_apply v13 v14 v16 _ _ p d)))

section Blocks

variable {F : FTy → Type} [FloatOps F] [Named F]

def embRowBlk (r : Fin 1024) : Fin 4 := ⟨r.val / 256, by have := r.isLt; omega⟩

def embRowIn (r : Fin 1024) : Fin 256 := ⟨r.val % 256, Nat.mod_lt _ (by decide)⟩

theorem embRowBlk_of {r : Fin 1024} {t : Fin 4} {p : Fin 256} (h : r.val = 256 * t.val + p.val) : embRowBlk r = t :=
  Fin.ext (by show r.val / 256 = t.val; have := p.isLt; omega)

theorem embRowIn_of {r : Fin 1024} {t : Fin 4} {p : Fin 256} (h : r.val = 256 * t.val + p.val) : embRowIn r = p :=
  Fin.ext (by show r.val % 256 = p.val; have := p.isLt; omega)

def embRowBlock (f : FVec F S1024x2048 .f32) (t : Fin 4) : FVec F S256x2048 .f32 :=
  fun y => f (ix2 (⟨256 * t.val + (y 0).val, by have := idx2_lt0 y; have := t.isLt; omega⟩ : Fin 1024)
    (⟨(y 1).val, idx2_lt1 y⟩ : Fin 2048))

theorem embRowBlock_apply (f : FVec F S1024x2048 .f32) (t : Fin 4) (p : Fin 256) (k : Fin 2048) (r : Fin 1024)
    (h : r.val = 256 * t.val + p.val) : embRowBlock f t (ix2 p k) = f (ix2 r k) := by
  unfold embRowBlock
  exact congrArg f (by
    funext a
    apply Fin.ext
    match a with
    | ⟨0, _⟩ => exact h.symm
    | ⟨1, _⟩ => rfl)

def embKAt (f_s f_t : FVec F S1024x2048 .f32) (W_s W_t : FVec F S2048x128 .f32) (b_s b_t : FVec F S1x128 .f32)
    (bank : Fin 2) (r : Fin 1024) (q : Fin 128) : F .f32 :=
  if bank.val = 0 then k0_pay1 (embRowBlock f_s (embRowBlk r)) W_s b_s (ix3 (0 : Fin 1) (embRowIn r) q)
  else k0_pay2 (embRowBlock f_t (embRowBlk r)) W_t b_t (ix3 (0 : Fin 1) (embRowIn r) q)

def embK (f_s f_t : FVec F S1024x2048 .f32) (W_s W_t : FVec F S2048x128 .f32) (b_s b_t : FVec F S1x128 .f32) :
    FVec F S2x1024x128 .f32 :=
  fun j => embKAt f_s f_t W_s W_t b_s b_t (⟨(j 0).val, (j 0).isLt⟩ : Fin 2) (⟨(j 1).val, (j 1).isLt⟩ : Fin 1024)
    (⟨(j 2).val, (j 2).isLt⟩ : Fin 128)

theorem embK_ix3 (f_s f_t : FVec F S1024x2048 .f32) (W_s W_t : FVec F S2048x128 .f32) (b_s b_t : FVec F S1x128 .f32)
    (bank : Fin 2) (r : Fin 1024) (q : Fin 128) :
    embK f_s f_t W_s W_t b_s b_t (ix3 bank r q) = embKAt f_s f_t W_s W_t b_s b_t bank r q := rfl

theorem embK_bank0 (f_s f_t : FVec F S1024x2048 .f32) (W_s W_t : FVec F S2048x128 .f32) (b_s b_t : FVec F S1x128 .f32)
    (j : S2x1024x128.Idx) (t : Fin 4) (p : Fin 256) (q : Fin 128) (h0 : (j 0).val = 0)
    (h1 : (j 1).val = 256 * t.val + p.val) (h2 : (j 2).val = q.val) :
    embK f_s f_t W_s W_t b_s b_t j = k0_pay1 (embRowBlock f_s t) W_s b_s (ix3 (0 : Fin 1) p q) := by
  have e1 : embRowBlk (⟨(j 1).val, (j 1).isLt⟩ : Fin 1024) = t := embRowBlk_of h1
  have e1' : embRowIn (⟨(j 1).val, (j 1).isLt⟩ : Fin 1024) = p := embRowIn_of h1
  have e2 : (⟨(j 2).val, (j 2).isLt⟩ : Fin 128) = q := Fin.ext h2
  show embKAt f_s f_t W_s W_t b_s b_t (⟨(j 0).val, (j 0).isLt⟩ : Fin 2) (⟨(j 1).val, (j 1).isLt⟩ : Fin 1024)
      (⟨(j 2).val, (j 2).isLt⟩ : Fin 128) = _
  unfold embKAt
  rw [if_pos (show (⟨(j 0).val, (j 0).isLt⟩ : Fin 2).val = 0 from h0), e1, e1', e2]

theorem embK_bank1 (f_s f_t : FVec F S1024x2048 .f32) (W_s W_t : FVec F S2048x128 .f32) (b_s b_t : FVec F S1x128 .f32)
    (j : S2x1024x128.Idx) (t : Fin 4) (p : Fin 256) (q : Fin 128) (h0 : (j 0).val = 1)
    (h1 : (j 1).val = 256 * t.val + p.val) (h2 : (j 2).val = q.val) :
    embK f_s f_t W_s W_t b_s b_t j = k0_pay2 (embRowBlock f_t t) W_t b_t (ix3 (0 : Fin 1) p q) := by
  have e1 : embRowBlk (⟨(j 1).val, (j 1).isLt⟩ : Fin 1024) = t := embRowBlk_of h1
  have e1' : embRowIn (⟨(j 1).val, (j 1).isLt⟩ : Fin 1024) = p := embRowIn_of h1
  have e2 : (⟨(j 2).val, (j 2).isLt⟩ : Fin 128) = q := Fin.ext h2
  show embKAt f_s f_t W_s W_t b_s b_t (⟨(j 0).val, (j 0).isLt⟩ : Fin 2) (⟨(j 1).val, (j 1).isLt⟩ : Fin 1024)
      (⟨(j 2).val, (j 2).isLt⟩ : Fin 128) = _
  unfold embKAt
  rw [if_neg (show ¬((⟨(j 0).val, (j 0).isLt⟩ : Fin 2).val = 0) from fun h => by
    have h' : (j 0).val = 0 := h
    omega), e1, e1', e2]

theorem embK_block0 (f_s f_t : FVec F S1024x2048 .f32) (W_s W_t : FVec F S2048x128 .f32) (b_s b_t : FVec F S1x128 .f32)
    (t : Fin 4) (p : Fin 256) (q : Fin 128) (r : Fin 1024) (h : r.val = 256 * t.val + p.val) :
    embK f_s f_t W_s W_t b_s b_t (ix3 (0 : Fin 2) r q) = k0_pay1 (embRowBlock f_s t) W_s b_s (ix3 (0 : Fin 1) p q) :=
  embK_bank0 f_s f_t W_s W_t b_s b_t (ix3 (0 : Fin 2) r q) t p q rfl h rfl

theorem embK_block1 (f_s f_t : FVec F S1024x2048 .f32) (W_s W_t : FVec F S2048x128 .f32) (b_s b_t : FVec F S1x128 .f32)
    (t : Fin 4) (p : Fin 256) (q : Fin 128) (r : Fin 1024) (h : r.val = 256 * t.val + p.val) :
    embK f_s f_t W_s W_t b_s b_t (ix3 (1 : Fin 2) r q) = k0_pay2 (embRowBlock f_t t) W_t b_t (ix3 (0 : Fin 1) p q) :=
  embK_bank1 f_s f_t W_s W_t b_s b_t (ix3 (1 : Fin 2) r q) t p q rfl h rfl

end Blocks

theorem embRowBlock_row (f : FVec Ideal S1024x2048 .f32) (r : Fin 1024) :
    (fun k : Fin 2048 => embRowBlock f (embRowBlk r) (ix2 (embRowIn r) k)) = fun k => f (ix2 r k) :=
  funext fun k => embRowBlock_apply f (embRowBlk r) (embRowIn r) k r (by
    show r.val = 256 * (r.val / 256) + r.val % 256
    omega)

theorem embK_apply0 (f_s f_t : FVec Ideal S1024x2048 .f32) (W_s W_t : FVec Ideal S2048x128 .f32)
    (b_s b_t : FVec Ideal S1x128 .f32) (r : Fin 1024) (d : Fin 128) :
    embK (F := Ideal) f_s f_t W_s W_t b_s b_t (ix3 (0 : Fin 2) r d)
      = embSpec (fun r k => f_s (ix2 r k)) (fun k d => W_s (ix2 k d)) (fun d => b_s (ix2 (0 : Fin 1) d)) r d := by
  rw [embK_ix3]
  unfold embKAt
  rw [if_pos (show (0 : Fin 2).val = 0 from rfl), k0_pay1_apply, embRowBlock_row f_s r]
  rfl

theorem embK_apply1 (f_s f_t : FVec Ideal S1024x2048 .f32) (W_s W_t : FVec Ideal S2048x128 .f32)
    (b_s b_t : FVec Ideal S1x128 .f32) (r : Fin 1024) (d : Fin 128) :
    embK (F := Ideal) f_s f_t W_s W_t b_s b_t (ix3 (1 : Fin 2) r d)
      = embSpec (fun r k => f_t (ix2 r k)) (fun k d => W_t (ix2 k d)) (fun d => b_t (ix2 (0 : Fin 1) d)) r d := by
  rw [embK_ix3]
  unfold embKAt
  rw [if_neg (show ¬((1 : Fin 2).val = 0) by decide), k0_pay2_apply, embRowBlock_row f_t r]
  rfl

end Cert.Hand

end
-- ==== Proof.EmbArr.lean ====
import proofs.«204931_g11295763988758_cont_test2_10_9_alg».proof.Proof.RegionDats
import proofs.«204931_g11295763988758_cont_test2_10_9_alg».proof.Proof.EmbKernel
import Idealize.ShloMosaic.Lib.Pipeline.Value

set_option maxRecDepth 16384

noncomputable section

namespace Cert.Hand

open Cert.KernelIdeal Cert.KernelIdeal.Gen Cert.HandI
open Idealize.ShloMosaic Idealize.ShloMosaic.TcCoe Idealize.ShloMosaic.ValueIdx Idealize.SL.Sem
open Idealize.ShloMosaic.Pipeline (Dat)

variable {F : FTy → Type} [FloatOps F] [Named F]

theorem emb_hz2 : (![0, 0] : Fin 2 → Nat) = fun _ => 0 := funext fun a => by fin_cases a <;> rfl

def embBlkIdx (t : Fin 4) (y : S2x256x128.Idx) : S2x1024x128.Idx :=
  ix3 (⟨(y 0).val, (y 0).isLt⟩ : Fin 2)
    (⟨256 * t.val + (y 1).val, by have h : (y 1).val < 256 := (y 1).isLt; have := t.isLt; omega⟩ : Fin 1024)
    (⟨(y 2).val, (y 2).isLt⟩ : Fin 128)

theorem emb_piece0 (f_s f_t : FVec F S1024x2048 .f32) (W_s W_t : FVec F S2048x128 .f32) (b_s b_t : FVec F S1x128 .f32)
    (t : Fin 4) (x : S1x256x128.Idx) :
    k0_pay1 (embRowBlock f_s t) W_s b_s x = embK f_s f_t W_s W_t b_s b_t (embBlkIdx t (r0_3.emb x)) := by
  obtain ⟨u, p, q, rfl⟩ : ∃ (u : Fin 1) (p : Fin 256) (q : Fin 128), x = ix3 u p q := ⟨x 0, x 1, x 2, eq_ix3 x⟩
  obtain rfl : u = 0 := Subsingleton.elim _ _
  refine (embK_bank0 f_s f_t W_s W_t b_s b_t (embBlkIdx t (r0_3.emb (ix3 (0 : Fin 1) p q))) t p q ?_ ?_ ?_).symm
  · show 0 + 1 * (0 : Fin 1).val = 0
    rfl
  · show 256 * t.val + (0 + 1 * p.val) = 256 * t.val + p.val
    omega
  · show 0 + 1 * q.val = q.val
    omega

theorem emb_piece1 (f_s f_t : FVec F S1024x2048 .f32) (W_s W_t : FVec F S2048x128 .f32) (b_s b_t : FVec F S1x128 .f32)
    (t : Fin 4) (x : S1x256x128.Idx) :
    k0_pay2 (embRowBlock f_t t) W_t b_t x = embK f_s f_t W_s W_t b_s b_t (embBlkIdx t (r0_4.emb x)) := by
  obtain ⟨u, p, q, rfl⟩ : ∃ (u : Fin 1) (p : Fin 256) (q : Fin 128), x = ix3 u p q := ⟨x 0, x 1, x 2, eq_ix3 x⟩
  obtain rfl : u = 0 := Subsingleton.elim _ _
  refine (embK_bank1 f_s f_t W_s W_t b_s b_t (embBlkIdx t (r0_4.emb (ix3 (0 : Fin 1) p q))) t p q ?_ ?_ ?_).symm
  · show 1 + 1 * (0 : Fin 1).val = 1
    rfl
  · show 256 * t.val + (0 + 1 * p.val) = 256 * t.val + p.val
    omega
  · show 0 + 1 * q.val = q.val
    omega

theorem out0_6_eq (f_s f_t : FVec F S1024x2048 .f32) (W_s W_t : FVec F S2048x128 .f32) (b_s b_t : FVec F S1x128 .f32)
    (t : Fin 4) :
    out0_6 (embRowBlock f_s t) (embRowBlock f_t t) W_s b_s W_t b_t
      = fun y => embK f_s f_t W_s W_t b_s b_t (embBlkIdx t y) := by
  funext y
  unfold out0_6
  simp only [View.ld_unit_zero (S := S256x2048) emb_hz2, View.ld_unit_zero (S := S2048x128) emb_hz2,
    View.ld_unit_zero (S := S1x128) emb_hz2]
  refine View.canon_apply_of_pieces (fun y => embK f_s f_t W_s W_t b_s b_t (embBlkIdx t y)) _ ?_ y (cover0_6 _ _ y)
  intro pc hpc
  rcases List.mem_cons.mp hpc with rfl | hpc
  · exact fun x => emb_piece1 f_s f_t W_s W_t b_s b_t t x
  · obtain rfl := List.mem_singleton.mp hpc
    exact fun x => emb_piece0 f_s f_t W_s W_t b_s b_t t x

theorem emb_N0 : cfg0.N = 4 := by decide

theorem emb_idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = 0 ∧ win0_6.index t (1 : Fin 3) = t.val ∧ win0_6.index t (2 : Fin 3) = 0 :=
  (by decide +kernel : ∀ t : Fin grid0.N, _)

section Region
variable (V : (c : Dev nD) → (b : Ref sig .tc) → Buf (Elt F) ((c : Thread nD τ).loc b))

theorem emb_iblk0_0 (c : Dev nD) (t : Fin cfg0.N) :
    (iblk0 V c 0 t : Vec F S256x2048 .f32) = embRowBlock (V c (Pipeline.arrRef spec0 0)) (Fin.cast emb_N0 t) := by
  obtain ⟨e0, e1, -⟩ := emb_idx_facts t
  funext y
  unfold iblk0 embRowBlock
  rw [View.read_apply]
  show V c (Pipeline.arrRef spec0 0) _ = V c (Pipeline.arrRef spec0 0) _
  congr 1
  funext a
  apply Fin.ext
  match a with
  | ⟨0, _⟩ => show win0_0.index t (0 : Fin 2) * 256 + 1 * (y 0).val = 256 * t.val + (y 0).val; rw [e0]; omega
  | ⟨1, _⟩ => show win0_0.index t (1 : Fin 2) * 2048 + 1 * (y 1).val = (y 1).val; rw [e1]; omega

theorem emb_iblk0_1 (c : Dev nD) (t : Fin cfg0.N) :
    (iblk0 V c 1 t : Vec F S256x2048 .f32) = embRowBlock (V c (Pipeline.arrRef spec0 1)) (Fin.cast emb_N0 t) := by
  obtain ⟨-, -, e0, e1, -⟩ := emb_idx_facts t
  funext y
  unfold iblk0 embRowBlock
  rw [View.read_apply]
  show V c (Pipeline.arrRef spec0 1) _ = V c (Pipeline.arrRef spec0 1) _
  congr 1
  funext a
  apply Fin.ext
  match a with
  | ⟨0, _⟩ => show win0_1.index t (0 : Fin 2) * 256 + 1 * (y 0).val = 256 * t.val + (y 0).val; rw [e0]; omega
  | ⟨1, _⟩ => show win0_1.index t (1 : Fin 2) * 2048 + 1 * (y 1).val = (y 1).val; rw [e1]; omega

theorem emb_iblk0_2 (c : Dev nD) (t : Fin cfg0.N) :
    (iblk0 V c 2 t : Vec F S2048x128 .f32) = V c (Pipeline.arrRef spec0 2) := by
  obtain ⟨-, -, -, -, e0, e1, -⟩ := emb_idx_facts t
  funext y
  unfold iblk0
  rw [View.read_apply]
  show V c (Pipeline.arrRef spec0 2) _ = V c (Pipeline.arrRef spec0 2) y
  congr 1
  funext a
  apply Fin.ext
  match a with
  | ⟨0, _⟩ => show win0_2.index t (0 : Fin 2) * 2048 + 1 * (y 0).val = (y 0).val; rw [e0]; omega
  | ⟨1, _⟩ => show win0_2.index t (1 : Fin 2) * 128 + 1 * (y 1).val = (y 1).val; rw [e1]; omega

theorem emb_iblk0_3 (c : Dev nD) (t : Fin cfg0.N) :
    (iblk0 V c 3 t : Vec F S1x128 .f32) = V c (Pipeline.arrRef spec0 3) := by
  obtain ⟨-, -, -, -, -, -, e0, e1, -⟩ := emb_idx_facts t
  funext y
  unfold iblk0
  rw [View.read_apply]
  show V c (Pipeline.arrRef spec0 3) _ = V c (Pipeline.arrRef spec0 3) y
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

theorem emb_iblk0_4 (c : Dev nD) (t : Fin cfg0.N) :
    (iblk0 V c 4 t : Vec F S2048x128 .f32) = V c (Pipeline.arrRef spec0 4) := by
  obtain ⟨-, -, -, -, -, -, -, -, e0, e1, -⟩ := emb_idx_facts t
  funext y
  unfold iblk0
  rw [View.read_apply]
  show V c (Pipeline.arrRef spec0 4) _ = V c (Pipeline.arrRef spec0 4) y
  congr 1
  funext a
  apply Fin.ext
  match a with
  | ⟨0, _⟩ => show win0_4.index t (0 : Fin 2) * 2048 + 1 * (y 0).val = (y 0).val; rw [e0]; omega
  | ⟨1, _⟩ => show win0_4.index t (1 : Fin 2) * 128 + 1 * (y 1).val = (y 1).val; rw [e1]; omega

theorem emb_iblk0_5 (c : Dev nD) (t : Fin cfg0.N) :
    (iblk0 V c 5 t : Vec F S1x128 .f32) = V c (Pipeline.arrRef spec0 5) := by
  obtain ⟨-, -, -, -, -, -, -, -, -, -, e0, e1, -⟩ := emb_idx_facts t
  funext y
  unfold iblk0
  rw [View.read_apply]
  show V c (Pipeline.arrRef spec0 5) _ = V c (Pipeline.arrRef spec0 5) y
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

theorem emb_flushed_eq (c : Dev nD) (t : Fin cfg0.N) :
    (dat0 V c).flushed 6 t
      = ((cfg0.win 6).blk t).view.read (Elt F)
          (embK (V c (Pipeline.arrRef spec0 0)) (V c (Pipeline.arrRef spec0 1)) (V c (Pipeline.arrRef spec0 2))
            (V c (Pipeline.arrRef spec0 4)) (V c (Pipeline.arrRef spec0 3)) (V c (Pipeline.arrRef spec0 5))) := by
  obtain ⟨-, -, -, -, -, -, -, -, -, -, -, -, e0, e1, e2⟩ := emb_idx_facts t
  show (cfg0.win 6).cut (grid0.coords t) ((dat0 V c).after 6 t) = _
  rw [after0_6, emb_iblk0_0, emb_iblk0_1, emb_iblk0_2, emb_iblk0_3, emb_iblk0_4, emb_iblk0_5, out0_6_eq]
  funext y
  rw [View.read_apply]
  show embK (V c (Pipeline.arrRef spec0 0)) (V c (Pipeline.arrRef spec0 1)) (V c (Pipeline.arrRef spec0 2))
        (V c (Pipeline.arrRef spec0 4)) (V c (Pipeline.arrRef spec0 3)) (V c (Pipeline.arrRef spec0 5)) _
      = embK (V c (Pipeline.arrRef spec0 0)) (V c (Pipeline.arrRef spec0 1)) (V c (Pipeline.arrRef spec0 2))
        (V c (Pipeline.arrRef spec0 4)) (V c (Pipeline.arrRef spec0 3)) (V c (Pipeline.arrRef spec0 5)) _
  congr 1
  funext a
  apply Fin.ext
  match a with
  | ⟨0, _⟩ => show (y 0).val = win0_6.index t (0 : Fin 3) * 2 + 1 * (y 0).val; rw [e0]; omega
  | ⟨1, _⟩ => show 256 * t.val + (y 1).val = win0_6.index t (1 : Fin 3) * 256 + 1 * (y 1).val; rw [e1]; omega
  | ⟨2, _⟩ => show (y 2).val = win0_6.index t (2 : Fin 3) * 128 + 1 * (y 2).val; rw [e2]; omega

theorem emb_mem_blk (t : Fin cfg0.N) (i : S2x1024x128.Idx) :
    i ∈ ((cfg0.win 6).blk t).view.set ↔ ∀ a : Fin 3, win0_6.index t a * S2x256x128.size a ≤ (i a).val
      ∧ (i a).val < win0_6.index t a * S2x256x128.size a + S2x256x128.size a := by
  show i ∈ ((View.whole main_v4).slice (win0_6.rect t)).set ↔ _
  rw [View.set_slice_whole, Rect.mem_set_unit]
  exact Iff.rfl

theorem emb_cover (i : S2x1024x128.Idx) :
    ∃ t : Fin cfg0.N, (cfg0.win 6).flush t = true ∧ i ∈ ((cfg0.win 6).blk t).view.set := by
  have h0 : (i 0).val < 2 := (i 0).isLt
  have h1 : (i 1).val < 1024 := (i 1).isLt
  have h2 : (i 2).val < 128 := (i 2).isLt
  obtain ⟨t, ht⟩ : ∃ t : Fin cfg0.N, t.val = (i 1).val / 256 :=
    ⟨Fin.cast emb_N0.symm ⟨(i 1).val / 256, by omega⟩, rfl⟩
  obtain ⟨-, -, -, -, -, -, -, -, -, -, -, -, e0, e1, e2⟩ := emb_idx_facts t
  refine ⟨t, flush0_6 t, ?_⟩
  rw [emb_mem_blk]
  intro a
  match a with
  | ⟨0, _⟩ =>
    show win0_6.index t (0 : Fin 3) * 2 ≤ (i 0).val ∧ (i 0).val < win0_6.index t (0 : Fin 3) * 2 + 2
    rw [e0]; omega
  | ⟨1, _⟩ =>
    show win0_6.index t (1 : Fin 3) * 256 ≤ (i 1).val ∧ (i 1).val < win0_6.index t (1 : Fin 3) * 256 + 256
    rw [e1, ht]; omega
  | ⟨2, _⟩ =>
    show win0_6.index t (2 : Fin 3) * 128 ≤ (i 2).val ∧ (i 2).val < win0_6.index t (2 : Fin 3) * 128 + 128
    rw [e2]; omega

theorem embArr_eq (c : Dev nD) :
    (dat0 V c).arrAt 6 cfg0.N
      = embK (V c (Pipeline.arrRef spec0 0)) (V c (Pipeline.arrRef spec0 1)) (V c (Pipeline.arrRef spec0 2))
          (V c (Pipeline.arrRef spec0 4)) (V c (Pipeline.arrRef spec0 3)) (V c (Pipeline.arrRef spec0 5)) :=
  (dat0 V c).arrAt_eq_of_cover 6 _ (fun t _ => emb_flushed_eq V c t) emb_cover

end Region

end Cert.Hand

end
-- ==== Proof.EmbRef.lean ====
import proofs.«204931_g11295763988758_cont_test2_10_9_alg».proof.Proof.RefRunA
import proofs.«204931_g11295763988758_cont_test2_10_9_alg».proof.Proof.EmbSpec
import Idealize.ShloMosaic.Lib.IdealHost
import Idealize.ShloMosaic.Lib.Pipeline.Value
import Idealize.ShloMosaic.PureOps.Ideal.Laws

noncomputable section

open scoped BigOperators

namespace Cert.Hand

open Cert.ReferenceIdeal Cert.ReferenceIdeal.Gen Cert.RefHand Idealize.ShloMosaic Idealize.ShloMosaic.ValueIdx

theorem emb_bcast_row_apply {α : Type} (x : S128.Idx → α) (h : S128.BroadcastsInDim S1x128 (![1] : Fin 1 → Fin S1x128.rank))
    (u : Fin 1) (d : Fin 128) : broadcastInDim S1x128 ![1] h x (ix2 u d) = x (ix1 d) :=
  broadcastInDim_apply _ h x (ix2 u d) (ix1 d) fun a => by
    match a with
    | ⟨0, _⟩ => exact (if_neg (show ¬((128 : ℕ) = 1) by decide)).symm

theorem emb_bcast_rows_apply {α : Type} (x : S1x128.Idx → α)
    (h : S1x128.BroadcastsInDim S1024x128 (![0, 1] : Fin 2 → Fin S1024x128.rank)) (r : Fin 1024) (d : Fin 128) :
    broadcastInDim S1024x128 ![0, 1] h x (ix2 r d) = x (ix2 (0 : Fin 1) d) :=
  broadcastInDim_apply _ h x (ix2 r d) (ix2 (0 : Fin 1) d) fun a => by
    match a with
    | ⟨0, _⟩ => rfl
    | ⟨1, _⟩ => exact (if_neg (show ¬((128 : ℕ) = 1) by decide)).symm

theorem emb_bcast_col_apply {α : Type} (x : S1024.Idx → α)
    (h : S1024.BroadcastsInDim S1024x1 (![0] : Fin 1 → Fin S1024x1.rank)) (r : Fin 1024) (u : Fin 1) :
    broadcastInDim S1024x1 ![0] h x (ix2 r u) = x (ix1 r) :=
  broadcastInDim_apply _ h x (ix2 r u) (ix1 r) fun a => by
    match a with
    | ⟨0, _⟩ => exact (if_neg (show ¬((1024 : ℕ) = 1) by decide)).symm

theorem emb_bcast_cols_apply {α : Type} (x : S1024x1.Idx → α)
    (h : S1024x1.BroadcastsInDim S1024x128 (![0, 1] : Fin 2 → Fin S1024x128.rank)) (r : Fin 1024) (d : Fin 128) :
    broadcastInDim S1024x128 ![0, 1] h x (ix2 r d) = x (ix2 r (0 : Fin 1)) :=
  broadcastInDim_apply _ h x (ix2 r d) (ix2 r (0 : Fin 1)) fun a => by
    match a with
    | ⟨0, _⟩ => exact (if_neg (show ¬((1024 : ℕ) = 1) by decide)).symm
    | ⟨1, _⟩ => rfl

theorem emb_refRowSum_apply (X : FVec Ideal S1024x128 .f32) (h' : S1024x128.ReducesTo [1] S1024) (hu : 0 < S_.numel)
    (z : BitVec 32) (r : Fin 1024) :
    Host.reduceAdd X (constant (F := Ideal) S_ .f32 z) h' hu (ix1 r) = Ideal.ofBits .f32 z + ∑ d : Fin 128, X (ix2 r d) := by
  have hR : S1024x128.Reduces [1] S1024 := by decide
  show Ideal.hostReduceAdd h' X (Ideal.ofBits .f32 z) (ix1 r) = _
  refine (Ideal.hostReduceAdd_single h' hR X _ (ix1 r)).trans ?_
  show Ideal.ofBits .f32 z + ∑ d : Fin 128, X (hR.lift (ix1 r) d) = _
  refine congrArg (Ideal.ofBits .f32 z + ·) (Finset.sum_congr rfl fun d _ => congrArg X ?_)
  funext ax
  apply Fin.ext
  match ax with
  | ⟨0, _⟩ => rfl
  | ⟨1, _⟩ => rfl

theorem emb_lhs_dot_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide),
    dif_pos (show (0 : Fin S1024x2048.rank) ∈ dot_S1024x2048_S2048x128_S1024x128_1_0_0_1_n_n.lhsNonContracting by decide)]
  rfl

theorem emb_lhs_dot_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q

theorem emb_rhs_dot_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q

theorem emb_rhs_dot_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide),
    dif_pos (show (1 : Fin S2048x128.rank) ∈ dot_S1024x2048_S2048x128_S1024x128_1_0_0_1_n_n.rhsNonContracting by decide)]
  rfl

theorem emb_dot_apply (A : FVec Ideal S1024x2048 .f32) (B : FVec Ideal S2048x128 .f32) (r : Fin 1024) (d : Fin 128) :
    Host.dotGeneral dot_S1024x2048_S2048x128_S1024x128_1_0_0_1_n_n none A B (ix2 r d)
      = ∑ k : Fin 2048, A (ix2 r k) * B (ix2 k d) := by
  show FloatOps.dotGeneral dot_S1024x2048_S2048x128_S1024x128_1_0_0_1_n_n none .single A B (ix2 r d) = _
  rw [Ideal.dotGeneral_apply,
    ← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 r d)
      ((contrEquiv1 dot_S1024x2048_S2048x128_S1024x128_1_0_0_1_n_n 2048 rfl rfl).symm k) = ix2 r k :=
    funext fun a => Fin.ext (by
      match a with
      | ⟨0, _⟩ => exact emb_lhs_dot_0 _ _
      | ⟨1, _⟩ => exact (emb_lhs_dot_1 _ _).trans hk)
  have er : dot_S1024x2048_S2048x128_S1024x128_1_0_0_1_n_n.rhsIdx (ix2 r d)
      ((contrEquiv1 dot_S1024x2048_S2048x128_S1024x128_1_0_0_1_n_n 2048 rfl rfl).symm k) = ix2 k d :=
    funext fun a => Fin.ext (by
      match a with
      | ⟨0, _⟩ => exact (emb_rhs_dot_0 _ _).trans hk
      | ⟨1, _⟩ => exact emb_rhs_dot_1 _ _)
  rw [el, er]

theorem refLin_apply (f : FVec Ideal S1024x2048 .f32) (W : FVec Ideal S2048x128 .f32) (b : FVec Ideal S128 .f32)
    (r : Fin 1024) (d : Fin 128) :
    refLin f W b (ix2 r d) = linRow (fun k => f (ix2 r k)) (fun k d => W (ix2 k d)) (fun d => b (ix1 d)) d := by
  unfold refLin
  show Host.dotGeneral dot_S1024x2048_S2048x128_S1024x128_1_0_0_1_n_n none f W (ix2 r d)
      + broadcastInDim S1024x128 ![0, 1] bcast_S1x128_S1024x128_0_1 (broadcastInDim S1x128 ![1] bcast_S128_S1x128_1 b)
          (ix2 r d) = _
  rw [emb_dot_apply f W r d, emb_bcast_rows_apply _ bcast_S1x128_S1024x128_0_1 r d, emb_bcast_row_apply b bcast_S128_S1x128_1 0 d]
  rfl

theorem refNormalize_apply (L : FVec Ideal S1024x128 .f32)
    (h1 : S1024x1.BroadcastsInDim S1024x128 (![0, 1] : Fin 2 → Fin S1024x128.rank))
    (h2 : S1024.BroadcastsInDim S1024x1 (![0] : Fin 1 → Fin S1024x1.rank))
    (h3 : S_.BroadcastsInDim S1024x128 (![] : Fin 0 → Fin S1024x128.rank)) (h4 : S1024x128.ReducesTo [1] S1024)
    (h5 : 0 < S_.numel) (h6 : S_.BroadcastsInDim S1024x1 (![] : Fin 0 → Fin S1024x1.rank)) (r : Fin 1024) (d : Fin 128) :
    Host.divf L
        (broadcastInDim S1024x128 ![0, 1] h1
          (Host.powf
            (broadcastInDim S1024x1 ![0] h2
              (Host.reduceAdd (Host.powf L (broadcastInDim S1024x128 ![] h3 (constant (F := Ideal) S_ .f32 0x40000000#32)))
                (constant (F := Ideal) S_ .f32 0x00000000#32) h4 h5))
            (broadcastInDim S1024x1 ![] h6 (constant (F := Ideal) S_ .f32 0x3F000000#32))))
        (ix2 r d)
      = Ideal.div (L (ix2 r d))
          (Ideal.pow
            (Ideal.ofBits .f32 0x00000000#32
              + ∑ d' : Fin 128, Ideal.pow (L (ix2 r d')) (Ideal.ofBits .f32 0x40000000#32))
            (Ideal.ofBits .f32 0x3F000000#32)) := by
  show Ideal.div (L (ix2 r d))
      (broadcastInDim S1024x128 ![0, 1] h1
        (Host.powf
          (broadcastInDim S1024x1 ![0] h2
            (Host.reduceAdd (Host.powf L (broadcastInDim S1024x128 ![] h3 (constant (F := Ideal) S_ .f32 0x40000000#32)))
              (constant (F := Ideal) S_ .f32 0x00000000#32) h4 h5))
          (broadcastInDim S1024x1 ![] h6 (constant (F := Ideal) S_ .f32 0x3F000000#32)))
        (ix2 r d)) = _
  refine congrArg (Ideal.div (L (ix2 r d))) ?_
  refine (emb_bcast_cols_apply _ h1 r d).trans ?_
  show Ideal.pow
      (broadcastInDim S1024x1 ![0] h2
        (Host.reduceAdd (Host.powf L (broadcastInDim S1024x128 ![] h3 (constant (F := Ideal) S_ .f32 0x40000000#32)))
          (constant (F := Ideal) S_ .f32 0x00000000#32) h4 h5) (ix2 r (0 : Fin 1)))
      (Ideal.ofBits .f32 0x3F000000#32) = _
  refine congrArg (fun s => Ideal.pow s (Ideal.ofBits .f32 0x3F000000#32)) ?_
  refine (emb_bcast_col_apply _ h2 r 0).trans ?_
  exact emb_refRowSum_apply _ h4 h5 0x00000000#32 r

theorem embRef_apply (f : FVec Ideal S1024x2048 .f32) (W : FVec Ideal S2048x128 .f32) (b : FVec Ideal S128 .f32)
    (hf : ∀ i, ∃ x : ℝ, f i = x) (hW : ∀ i, ∃ x : ℝ, W i = x) (hb : ∀ i, ∃ x : ℝ, b i = x)
    (r : Fin 1024) (d : Fin 128) :
    refEmb f W b (ix2 r d)
      = embSpec (fun r k => f (ix2 r k)) (fun k d => W (ix2 k d)) (fun d => b (ix1 d)) r d := by
  have hreal : ∀ d' : Fin 128, ∃ x : ℝ,
      linRow (fun k => f (ix2 r k)) (fun k d => W (ix2 k d)) (fun d => b (ix1 d)) d' = x :=
    linRow_real _ _ _ (fun k => hf _) (fun k d => hW _) (fun d => hb _)
  unfold refEmb
  refine (refNormalize_apply (refLin f W b) bcast_S1024x1_S1024x128_0_1 bcast_S1024_S1024x1_0 bcast_S_S1024x128
    reducesTo_S1024x128_S1024_d1 h_S_ bcast_S_S1024x1 r d).trans ?_
  have hs : (∑ d' : Fin 128, Ideal.pow (refLin f W b (ix2 r d')) (Ideal.ofBits .f32 0x40000000#32))
      = ∑ d' : Fin 128,
          Ideal.pow (linRow (fun k => f (ix2 r k)) (fun k d => W (ix2 k d)) (fun d => b (ix1 d)) d')
            (Ideal.ofBits .f32 0x40000000#32) :=
    Finset.sum_congr rfl fun d' _ => by rw [refLin_apply f W b r d']
  rw [refLin_apply f W b r d, hs, pow_half_sum_pow_two _ hreal]
  rfl

end Cert.Hand

end
-- ==== Proof.DotsRef.lean ====
import proofs.«204931_g11295763988758_cont_test2_10_9_alg».proof.Proof.TakeRef
import Idealize.ShloMosaic.PureOps.Ideal.Laws

noncomputable section

namespace Cert.Hand

open Cert.ReferenceIdeal Cert.ReferenceIdeal.Gen Idealize.ShloMosaic Idealize.ShloMosaic.ValueIdx

theorem lhs_dots_0 (i : S1024x512.Idx) (q : dot_S1024x512x128_S1024x128_S1024x512_2_1_1_n_0_0.contr.Idx) :
    (dot_S1024x512x128_S1024x128_S1024x512_2_1_1_n_0_0.lhsIdx i q 0).val = (i 0).val := by
  unfold DotDims.lhsIdx
  rw [dif_pos (show (0 : Fin S1024x512x128.rank) ∈ dot_S1024x512x128_S1024x128_S1024x512_2_1_1_n_0_0.lhsBatch by decide)]
  rfl

theorem lhs_dots_1 (i : S1024x512.Idx) (q : dot_S1024x512x128_S1024x128_S1024x512_2_1_1_n_0_0.contr.Idx) :
    (dot_S1024x512x128_S1024x128_S1024x512_2_1_1_n_0_0.lhsIdx i q 1).val = (i 1).val := by
  unfold DotDims.lhsIdx
  rw [dif_neg (show ¬(1 : Fin S1024x512x128.rank) ∈ dot_S1024x512x128_S1024x128_S1024x512_2_1_1_n_0_0.lhsBatch by decide),
    dif_pos (show (1 : Fin S1024x512x128.rank) ∈ dot_S1024x512x128_S1024x128_S1024x512_2_1_1_n_0_0.lhsNonContracting by decide)]
  rfl

theorem lhs_dots_2 (i : S1024x512.Idx) (q : dot_S1024x512x128_S1024x128_S1024x512_2_1_1_n_0_0.contr.Idx) :
    (dot_S1024x512x128_S1024x128_S1024x512_2_1_1_n_0_0.lhsIdx i q 2).val = (q ⟨0, by decide⟩).val :=
  dot_S1024x512x128_S1024x128_S1024x512_2_1_1_n_0_0.lhsIdx_val_of_single rfl i q

theorem rhs_dots_0 (i : S1024x512.Idx) (q : dot_S1024x512x128_S1024x128_S1024x512_2_1_1_n_0_0.contr.Idx) :
    (dot_S1024x512x128_S1024x128_S1024x512_2_1_1_n_0_0.rhsIdx i q 0).val = (i 0).val := by
  unfold DotDims.rhsIdx
  rw [dif_pos (show (0 : Fin S1024x128.rank) ∈ dot_S1024x512x128_S1024x128_S1024x512_2_1_1_n_0_0.rhsBatch by decide)]
  rfl

theorem rhs_dots_1 (i : S1024x512.Idx) (q : dot_S1024x512x128_S1024x128_S1024x512_2_1_1_n_0_0.contr.Idx) :
    (dot_S1024x512x128_S1024x128_S1024x512_2_1_1_n_0_0.rhsIdx i q 1).val = (q ⟨0, by decide⟩).val :=
  dot_S1024x512x128_S1024x128_S1024x512_2_1_1_n_0_0.rhsIdx_val_of_single rfl i q

theorem refDots_apply (w : FVec Ideal S1024x512x128 .f32) (e : FVec Ideal S1024x128 .f32) (r : Fin 1024) (k : Fin 512) :
    Cert.RefHand.refDots w e (ix2 r k) = ∑ d : Fin 128, w (ix3 r k d) * e (ix2 r d) := by
  unfold Cert.RefHand.refDots
  simp only [Host.dotGeneral]
  rw [Ideal.dotGeneral_apply,
    ← Equiv.sum_comp (contrEquiv1 dot_S1024x512x128_S1024x128_S1024x512_2_1_1_n_0_0 128 rfl rfl).symm]
  refine Finset.sum_congr rfl fun d _ => ?_
  have hk := contrEquiv1_symm_val dot_S1024x512x128_S1024x128_S1024x512_2_1_1_n_0_0 128 rfl rfl d
  have el : dot_S1024x512x128_S1024x128_S1024x512_2_1_1_n_0_0.lhsIdx (ix2 r k)
      ((contrEquiv1 dot_S1024x512x128_S1024x128_S1024x512_2_1_1_n_0_0 128 rfl rfl).symm d) = ix3 r k d :=
    funext fun a => Fin.ext (by
      match a with
      | ⟨0, _⟩ => exact lhs_dots_0 _ _
      | ⟨1, _⟩ => exact lhs_dots_1 _ _
      | ⟨2, _⟩ => exact (lhs_dots_2 _ _).trans hk)
  have er : dot_S1024x512x128_S1024x128_S1024x512_2_1_1_n_0_0.rhsIdx (ix2 r k)
      ((contrEquiv1 dot_S1024x512x128_S1024x128_S1024x512_2_1_1_n_0_0 128 rfl rfl).symm d) = ix2 r d :=
    funext fun a => Fin.ext (by
      match a with
      | ⟨0, _⟩ => exact rhs_dots_0 _ _
      | ⟨1, _⟩ => exact (rhs_dots_1 _ _).trans hk)
  rw [el, er]

theorem refDots_take_apply (mem : FVec Ideal S100000x128 .f32) {idx : IVec S1024 32} {cidx : IVec S1024x511 32}
    (hI : ∀ i, (idx i).toNat < 100000) (hC : ∀ i, (cidx i).toNat < 100000) (e : FVec Ideal S1024x128 .f32)
    (r : Fin 1024) (k : Fin 512) :
    Cert.RefHand.refDots (Cert.RefHand.refTake mem (Cert.RefHand.refInds idx cidx)) e (ix2 r k)
      = ∑ d : Fin 128, mem (ix2 ⟨(Cert.RefHand.refInds idx cidx (ix2 r k)).toNat, refInds_lt hI hC _⟩ d) * e (ix2 r d) := by
  rw [refDots_apply]
  refine Finset.sum_congr rfl fun d _ => ?_
  rw [refTake_apply mem (Cert.RefHand.refInds idx cidx) (refInds_lt hI hC) r k d]

end Cert.Hand

end
-- ==== Proof.Bridge.lean ====
import proofs.«204931_g11295763988758_cont_test2_10_9_alg».proof.Proof.BridgeA
import proofs.«204931_g11295763988758_cont_test2_10_9_alg».proof.Proof.IdxOk
import proofs.«204931_g11295763988758_cont_test2_10_9_alg».proof.Proof.ScDotsIdeal
import proofs.«204931_g11295763988758_cont_test2_10_9_alg».proof.Proof.LossKernel
import proofs.«204931_g11295763988758_cont_test2_10_9_alg».proof.Proof.LossRef
import proofs.«204931_g11295763988758_cont_test2_10_9_alg».proof.Proof.EmbArr
import proofs.«204931_g11295763988758_cont_test2_10_9_alg».proof.Proof.EmbRef
import proofs.«204931_g11295763988758_cont_test2_10_9_alg».proof.Proof.DotsRef
import proofs.«204931_g11295763988758_cont_test2_10_9_alg».proof.Proof.PreFacts
import proofs.«204931_g11295763988758_cont_test2_10_9_alg».proof.Defs
import proofs.«204931_g11295763988758_cont_test2_10_9_alg».proof.Proof.Gen.Pre_input_domain

noncomputable section

open scoped BigOperators

namespace Cert.Hand

open Cert.KernelIdeal Cert.KernelIdeal.Gen

open Idealize.ShloMosaic Idealize.ShloMosaic.ValueIdx
open Idealize.SL Idealize.SL.Sem
open Cert.HandI (outK Ik Ek Dk Wa Vof dat0 dotsK)

variable (m : (ℓ : Loc nD τ sig) → Buf (Elt Ideal) ℓ)

abbrev arg0 (c : Dev nD) : IVec S_ 32 := m (c, Proc.devRef .tc main_arg0)
abbrev arg1 (c : Dev nD) : FVec Ideal S1024x2048 .f32 := m (c, Proc.devRef .tc main_arg1)
abbrev arg2 (c : Dev nD) : FVec Ideal S1024x2048 .f32 := m (c, Proc.devRef .tc main_arg2)
abbrev arg3 (c : Dev nD) : IVec S1024 32 := m (c, Proc.devRef .tc main_arg3)
abbrev arg4 (c : Dev nD) : IVec S1024x511 32 := m (c, Proc.devRef .tc main_arg4)
abbrev arg5 (c : Dev nD) : FVec Ideal S2048x128 .f32 := m (c, Proc.devRef .tc main_arg5)
abbrev arg6 (c : Dev nD) : FVec Ideal S128 .f32 := m (c, Proc.devRef .tc main_arg6)
abbrev arg7 (c : Dev nD) : FVec Ideal S2048x128 .f32 := m (c, Proc.devRef .tc main_arg7)
abbrev arg8 (c : Dev nD) : FVec Ideal S128 .f32 := m (c, Proc.devRef .tc main_arg8)
abbrev arg9 (c : Dev nD) : FVec Ideal S100000x128 .f32 := m (c, Proc.devRef .tc main_arg9)
abbrev arg10 (c : Dev nD) : FVec Ideal S100000x128 .f32 := m (c, Proc.devRef .tc main_arg10)

theorem embSpec_congr {f f' : Fin 1024 → Fin 2048 → EReal} {W W' : Fin 2048 → Fin 128 → EReal} {b b' : Fin 128 → EReal}
    (hf : ∀ r k, f r k = f' r k) (hW : ∀ k d, W k d = W' k d) (hb : ∀ d, b d = b' d) (r : Fin 1024) (d : Fin 128) :
    embSpec f W b r d = embSpec f' W' b' r d := by
  obtain rfl : f = f' := funext fun r => funext fun k => hf r k
  obtain rfl : W = W' := funext fun k => funext fun d => hW k d
  obtain rfl : b = b' := funext hb
  rfl

theorem Ek_apply0 (c : Dev nD) (r : Fin 1024) (d : Fin 128) :
    Ek m c (ix3 (0 : Fin 2) r d)
      = embSpec (fun r k => arg1 m c (ix2 r k)) (fun k d => arg5 m c (ix2 k d)) (fun d => arg6 m c (ix1 d)) r d := by
  rw [Cert.HandI.Ek_eq, embArr_eq, embK_apply0]
  exact embSpec_congr (fun r k => congrFun (Cert.HandI.Wa_arg1 m c) _) (fun k d => congrFun (Cert.HandI.Wa_arg5 m c) _)
    (fun d => (congrFun (Cert.HandI.Wa_v2 m c) _).trans (Cert.HandI.biasRow_apply (F := Ideal) (arg6 m c) d)) r d

theorem Ek_apply1 (c : Dev nD) (r : Fin 1024) (d : Fin 128) :
    Ek m c (ix3 (1 : Fin 2) r d)
      = embSpec (fun r k => arg2 m c (ix2 r k)) (fun k d => arg7 m c (ix2 k d)) (fun d => arg8 m c (ix1 d)) r d := by
  rw [Cert.HandI.Ek_eq, embArr_eq, embK_apply1]
  exact embSpec_congr (fun r k => congrFun (Cert.HandI.Wa_arg2 m c) _) (fun k d => congrFun (Cert.HandI.Wa_arg7 m c) _)
    (fun d => (congrFun (Cert.HandI.Wa_v3 m c) _).trans (Cert.HandI.biasRow_apply (F := Ideal) (arg8 m c) d)) r d

section Dots
variable [Cert.Pre_input_domain.Facts] (c : Dev nD)
  (h : Cert.Pre_input_domain.fn (F := Ideal) (arg0 m c) (arg1 m c) (arg2 m c) (arg3 m c) (arg4 m c) (arg5 m c) (arg6 m c)
    (arg7 m c) (arg8 m c) (arg9 m c) (arg10 m c) = fun _ => 1#1)
include h

theorem dots0_eq (r : Fin 1024) (k : Fin 512) :
    Dk m c (ix3 (0 : Fin 2) r k)
      = Cert.RefHand.refDots (Cert.RefHand.refTake (arg10 m c) (Cert.RefHand.refInds (arg3 m c) (arg4 m c)))
          (Cert.RefHand.refEmb (arg1 m c) (arg5 m c) (arg6 m c)) (ix2 r k) := by
  have hI := pre_idx_lt h
  have hC := pre_cidx_lt h
  unfold Cert.HandI.Dk
  rw [Cert.HandI.Ik_eq_refInds, Cert.HandI.dotsK_apply _ _ _ _ (0 : Fin 2) r k (refInds_lt hI hC _),
    refDots_take_apply _ hI hC]
  refine Finset.sum_congr rfl fun d _ => ?_
  rw [if_pos (show (0 : Fin 2).val = 0 from rfl), Ek_apply0, embRef_apply _ _ _ (pre_real1 h) (pre_real5 h) (pre_real6 h)]

theorem dots1_eq (r : Fin 1024) (k : Fin 512) :
    Dk m c (ix3 (1 : Fin 2) r k)
      = Cert.RefHand.refDots (Cert.RefHand.refTake (arg9 m c) (Cert.RefHand.refInds (arg3 m c) (arg4 m c)))
          (Cert.RefHand.refEmb (arg2 m c) (arg7 m c) (arg8 m c)) (ix2 r k) := by
  have hI := pre_idx_lt h
  have hC := pre_cidx_lt h
  unfold Cert.HandI.Dk
  rw [Cert.HandI.Ik_eq_refInds, Cert.HandI.dotsK_apply _ _ _ _ (1 : Fin 2) r k (refInds_lt hI hC _),
    refDots_take_apply _ hI hC]
  refine Finset.sum_congr rfl fun d _ => ?_
  rw [if_neg (show ¬((1 : Fin 2).val = 0) by decide), Ek_apply1,
    embRef_apply _ _ _ (pre_real2 h) (pre_real7 h) (pre_real8 h)]

theorem outK_apply_eq :
    outK m c ix0 = Cert.RefHand.out (arg1 m c) (arg2 m c) (arg3 m c) (arg4 m c) (arg5 m c) (arg6 m c) (arg7 m c) (arg8 m c)
      (arg9 m c) (arg10 m c) ix0 := by
  unfold Cert.RefHand.out
  rw [Cert.HandI.outK_pay, lossKernel_eq, lossRef_eq]
  refine congrArg₂ (· + ·) (congrArg bankLoss (funext fun r => funext fun k => ?_))
    (congrArg bankLoss (funext fun r => funext fun k => ?_))
  · exact (Cert.HandI.ld_bank0 (F := Ideal) (Dk m c) r k).trans (dots0_eq m c h r k)
  · exact (Cert.HandI.ld_bank1 (F := Ideal) (Dk m c) r k).trans (dots1_eq m c h r k)

end Dots

theorem outK_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.HandI.outK (F := Ideal) m c
      = Cert.RefHand.out (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10)) := by
  funext j
  obtain rfl := eq_ix0 j
  exact outK_apply_eq m c (hpre c)

theorem idx_ok (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ j, (Cert.HandI.Ik (F := Ideal) m c j).toNat < 100000 :=
  Cert.HandI.idx_ok_of m c (hpre c)

end Cert.Hand

end
-- ==== Proof.RefRunOps.lean ====
/- Tables only: @main's operations as literal lists, one per stretch of the program, the body of @_take (with @_where's
   select) written out at its two call sites over the calls' buffer records; per list the references its operations write
   and the builders' buffer-inclusion lemmas, one per operation. -/
import proofs.«204931_g11295763988758_cont_test2_10_9_alg».proof.Proof.Gen.ReferenceIdeal
import Idealize.ShloMosaic.Lib.StableHlo.Run

noncomputable section

namespace Cert.RefHand

open Cert.ReferenceIdeal Cert.ReferenceIdeal.Gen Idealize.ShloMosaic Idealize.ShloMosaic.TcCoe Idealize.SL.Sem Idealize.ShloMosaic.StableHlo

variable {F : FTy → Type} [FloatOps F]

/-- %0 … %11: the first embedding. -/
abbrev P1 : List (HloOp τ sig (Elt F)) :=
  [
    StableHlo.binary main_arg1 main_arg5 main_v0 ((fun l r => Host.dotGeneral dot_S1024x2048_S2048x128_S1024x128_1_0_0_1_n_n none l r) : (⟨S1024x2048, .f32⟩ : BufTy).Contents (Elt F) → (⟨S2048x128, .f32⟩ : BufTy).Contents (Elt F) → (⟨S1024x128, .f32⟩ : BufTy).Contents (Elt F)),
    StableHlo.unary main_arg6 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S1024x128 ![0, 1] bcast_S1x128_S1024x128_0_1 : (⟨S1x128, .f32⟩ : BufTy).Contents (Elt F) → (⟨S1024x128, .f32⟩ : BufTy).Contents (Elt F)),
    StableHlo.binary main_v0 main_v2 main_v3 (addf : (⟨S1024x128, .f32⟩ : BufTy).Contents (Elt F) → (⟨S1024x128, .f32⟩ : BufTy).Contents (Elt F) → (⟨S1024x128, .f32⟩ : BufTy).Contents (Elt F)),
    StableHlo.nullary main_cst (constant S_ .f32 0x40000000#32),
    StableHlo.unary main_cst main_v4 (broadcastInDim S1024x128 ![] bcast_S_S1024x128 : (⟨S_, .f32⟩ : BufTy).Contents (Elt F) → (⟨S1024x128, .f32⟩ : BufTy).Contents (Elt F)),
    StableHlo.binary main_v3 main_v4 main_v5 (Host.powf : (⟨S1024x128, .f32⟩ : BufTy).Contents (Elt F) → (⟨S1024x128, .f32⟩ : BufTy).Contents (Elt F) → (⟨S1024x128, .f32⟩ : BufTy).Contents (Elt F)),
    StableHlo.nullary main_cst_0 (constant S_ .f32 0x00000000#32),
    StableHlo.binary main_v5 main_cst_0 main_v6 ((fun x v => Host.reduceAdd x v reducesTo_S1024x128_S1024_d1 h_S_) : (⟨S1024x128, .f32⟩ : BufTy).Contents (Elt F) → (⟨S_, .f32⟩ : BufTy).Contents (Elt F) → (⟨S1024, .f32⟩ : BufTy).Contents (Elt F)),
    StableHlo.unary main_v6 main_v7 (broadcastInDim S1024x1 ![0] bcast_S1024_S1024x1_0 : (⟨S1024, .f32⟩ : BufTy).Contents (Elt F) → (⟨S1024x1, .f32⟩ : BufTy).Contents (Elt F)),
    StableHlo.nullary main_cst_1 (constant S_ .f32 0x3F000000#32),
    StableHlo.unary main_cst_1 main_v8 (broadcastInDim S1024x1 ![] bcast_S_S1024x1 : (⟨S_, .f32⟩ : BufTy).Contents (Elt F) → (⟨S1024x1, .f32⟩ : BufTy).Contents (Elt F)),
    StableHlo.binary main_v7 main_v8 main_v9 (Host.powf : (⟨S1024x1, .f32⟩ : BufTy).Contents (Elt F) → (⟨S1024x1, .f32⟩ : BufTy).Contents (Elt F) → (⟨S1024x1, .f32⟩ : BufTy).Contents (Elt F)),
    StableHlo.unary main_v9 main_v10 (broadcastInDim S1024x128 ![0, 1] bcast_S1024x1_S1024x128_0_1 : (⟨S1024x1, .f32⟩ : BufTy).Contents (Elt F) → (⟨S1024x128, .f32⟩ : BufTy).Contents (Elt F)),
    StableHlo.binary main_v3 main_v10 main_v11 (Host.divf : (⟨S1024x128, .f32⟩ : BufTy).Contents (Elt F) → (⟨S1024x128, .f32⟩ : BufTy).Contents (Elt F) → (⟨S1024x128, .f32⟩ : BufTy).Contents (Elt F)) ]

/-- The references `P1`'s operations write, in order. -/
abbrev P1_W : List (Ref sig .tc) := [main_v0, main_v1, main_v2, main_v3, main_cst, main_v4, main_v5, main_cst_0, main_v6, main_v7, main_cst_1, main_v8, main_v9, main_v10, main_v11]

/-- Every operation of `P1` touches TensorCore references only. -/
theorem P1_sub : (P1 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., binary_bufs_sub .., unary_bufs_sub .., nullary_bufs_sub .., unary_bufs_sub .., binary_bufs_sub .., unary_bufs_sub .., binary_bufs_sub ..⟩

/-- %12 … %23: the second embedding. -/
abbrev P2 : List (HloOp τ sig (Elt F)) :=
  [
    StableHlo.binary main_arg2 main_arg7 main_v12 ((fun l r => Host.dotGeneral dot_S1024x2048_S2048x128_S1024x128_1_0_0_1_n_n none l r) : (⟨S1024x2048, .f32⟩ : BufTy).Contents (Elt F) → (⟨S2048x128, .f32⟩ : BufTy).Contents (Elt F) → (⟨S1024x128, .f32⟩ : BufTy).Contents (Elt F)),
    StableHlo.unary main_arg8 main_v13 (broadcastInDim S1x128 ![1] bcast_S128_S1x128_1 : (⟨S128, .f32⟩ : BufTy).Contents (Elt F) → (⟨S1x128, .f32⟩ : BufTy).Contents (Elt F)),
    StableHlo.unary main_v13 main_v14 (broadcastInDim S1024x128 ![0, 1] bcast_S1x128_S1024x128_0_1 : (⟨S1x128, .f32⟩ : BufTy).Contents (Elt F) → (⟨S1024x128, .f32⟩ : BufTy).Contents (Elt F)),
    StableHlo.binary main_v12 main_v14 main_v15 (addf : (⟨S1024x128, .f32⟩ : BufTy).Contents (Elt F) → (⟨S1024x128, .f32⟩ : BufTy).Contents (Elt F) → (⟨S1024x128, .f32⟩ : BufTy).Contents (Elt F)),
    StableHlo.nullary main_cst_2 (constant S_ .f32 0x40000000#32),
    StableHlo.unary main_cst_2 main_v16 (broadcastInDim S1024x128 ![] bcast_S_S1024x128 : (⟨S_, .f32⟩ : BufTy).Contents (Elt F) → (⟨S1024x128, .f32⟩ : BufTy).Contents (Elt F)),
    StableHlo.binary main_v15 main_v16 main_v17 (Host.powf : (⟨S1024x128, .f32⟩ : BufTy).Contents (Elt F) → (⟨S1024x128, .f32⟩ : BufTy).Contents (Elt F) → (⟨S1024x128, .f32⟩ : BufTy).Contents (Elt F)),
    StableHlo.nullary main_cst_3 (constant S_ .f32 0x00000000#32),
    StableHlo.binary main_v17 main_cst_3 main_v18 ((fun x v => Host.reduceAdd x v reducesTo_S1024x128_S1024_d1 h_S_) : (⟨S1024x128, .f32⟩ : BufTy).Contents (Elt F) → (⟨S_, .f32⟩ : BufTy).Contents (Elt F) → (⟨S1024, .f32⟩ : BufTy).Contents (Elt F)),
    StableHlo.unary main_v18 main_v19 (broadcastInDim S1024x1 ![0] bcast_S1024_S1024x1_0 : (⟨S1024, .f32⟩ : BufTy).Contents (Elt F) → (⟨S1024x1, .f32⟩ : BufTy).Contents (Elt F)),
    StableHlo.nullary main_cst_4 (constant S_ .f32 0x3F000000#32),
    StableHlo.unary main_cst_4 main_v20 (broadcastInDim S1024x1 ![] bcast_S_S1024x1 : (⟨S_, .f32⟩ : BufTy).Contents (Elt F) → (⟨S1024x1, .f32⟩ : BufTy).Contents (Elt F)),
    StableHlo.binary main_v19 main_v20 main_v21 (Host.powf : (⟨S1024x1, .f32⟩ : BufTy).Contents (Elt F) → (⟨S1024x1, .f32⟩ : BufTy).Contents (Elt F) → (⟨S1024x1, .f32⟩ : BufTy).Contents (Elt F)),
    StableHlo.unary main_v21 main_v22 (broadcastInDim S1024x128 ![0, 1] bcast_S1024x1_S1024x128_0_1 : (⟨S1024x1, .f32⟩ : BufTy).Contents (Elt F) → (⟨S1024x128, .f32⟩ : BufTy).Contents (Elt F)),
    StableHlo.binary main_v15 main_v22 main_v23 (Host.divf : (⟨S1024x128, .f32⟩ : BufTy).Contents (Elt F) → (⟨S1024x128, .f32⟩ : BufTy).Contents (Elt F) → (⟨S1024x128, .f32⟩ : BufTy).Contents (Elt F)) ]

/-- The references `P2`'s operations write, in order. -/
abbrev P2_W : List (Ref sig .tc) := [main_v12, main_v13, main_v14, main_v15, main_cst_2, main_v16, main_v17, main_cst_3, main_v18, main_v19, main_cst_4, main_v20, main_v21, main_v22, main_v23]

/-- Every operation of `P2` touches TensorCore references only. -/
theorem P2_sub : (P2 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., binary_bufs_sub .., unary_bufs_sub .., nullary_bufs_sub .., unary_bufs_sub .., binary_bufs_sub .., unary_bufs_sub .., binary_bufs_sub ..⟩

/-- %24, %25: the index table. -/
abbrev P3 : List (HloOp τ sig (Elt F)) :=
  [
    StableHlo.unary main_arg3 main_v24 (broadcastInDim S1024x1 ![0] bcast_S1024_S1024x1_0 : (⟨S1024, .i32⟩ : BufTy).Contents (Elt F) → (⟨S1024x1, .i32⟩ : BufTy).Contents (Elt F)),
    StableHlo.binary main_v24 main_arg4 main_v25 ((fun a b => concatenate S1024x512 1 [⟨S1024x1, a⟩, ⟨S1024x511, b⟩] concatenates_S1024x1_S1024x511_S1024x512_d1) : (⟨S1024x1, .i32⟩ : BufTy).Contents (Elt F) → (⟨S1024x511, .i32⟩ : BufTy).Contents (Elt F) → (⟨S1024x512, .i32⟩ : BufTy).Contents (Elt F)) ]

/-- The references `P3`'s operations write, in order. -/
abbrev P3_W : List (Ref sig .tc) := [main_v24, main_v25]

/-- Every operation of `P3` touches TensorCore references only. -/
theorem P3_sub : (P3 : List (HloOp τ sig (Elt F))).Forall fun op => op.bufs ⊆ tcRefs τ sig :=
  ⟨unary_bufs_sub .., binary_bufs_sub ..⟩

/-- %26: @_take's body (with @_where's select) at the first call's buffers. -/
abbrev P4 : List (HloOp τ sig (Elt F)) :=
  [
    TRef.nullary main_call0.c (constantI S_ 32 0#32),
    TRef.unary main_call0.c main_call0.v0 (broadcastInDim S1024x512 ![] bcast_S_S1024x512),
    TRef.binary (.of main_v25 : TRef sig ⟨S1024x512, .i32⟩) main_call0.v0 main_call0.v1 (cmpi .slt),
    TRef.nullary main_call0.c_0 (constantI S_ 32 100000#32),
    TRef.unary main_call0.c_0 main_call0.v2 (broadcastInDim S1024x512 ![] bcast_S_S1024x512),
    TRef.binary (.of main_v25 : TRef sig ⟨S1024x512, .i32⟩) main_call0.v2 main_call0.v3 addi,
    TRef.ternary main_call0.v1 main_call0.v3 (.of main_v25 : TRef sig ⟨S1024x512, .i32⟩) main_call0.call0.v0 select,
    TRef.unary main_call0.call0.v0 main_call0.v5 (broadcastInDim S1024x512x1 ![0, 1] bcast_S1024x512_S1024x512x1_0_1),
    TRef.nullary main_call0.c_1 (constantI S1 32 99999#32),
    TRef.nullary main_call0.c_2 (constantI S_ 32 0#32),
    TRef.unary main_call0.c_2 main_call0.v6 (broadcastInDim S1024x512x1 ![] bcast_S_S1024x512x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1024x512x1 ![0, 1, 2] bcast_S1x1x1_S1024x512x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x512x1_S1024x512_d2 h_S_),
    TRef.binary (.of main_arg10 : TRef sig ⟨S100000x128, .f32⟩) main_call0.v5 main_call0.v13 (fun x i => Host.gather gather_S100000x128_S1024x512x1_S1024x512x128_2_0_n_n_0_2_1128 x i),
    TRef.unary main_call0.v12 main_call0.v14 (broadcastInDim S1024x512x128 ![0, 1] bcast_S1024x512_S1024x512x128_0_1),
    TRef.nullary main_call0.cst (constant S_ .f32 0x7FC00000#32),
    TRef.unary main_call0.cst main_call0.v15 (broadcastInDim S1024x512x128 ![] bcast_S_S1024x512x128),
    TRef.ternary main_call0.v14 main_call0.v13 main_call0.v15 main_call0.v16 select ]

/-- The references `P4`'s operations write, in order. -/
abbrev P4_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v26]

/-- Every operation of `P4` touches TensorCore references only. -/
theorem P4_sub : (P4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- %27: @_take's body (with @_where's select) at the second call's buffers. -/
abbrev P5 : List (HloOp τ sig (Elt F)) :=
  [
    TRef.nullary main_call1.c (constantI S_ 32 0#32),
    TRef.unary main_call1.c main_call1.v0 (broadcastInDim S1024x512 ![] bcast_S_S1024x512),
    TRef.binary (.of main_v25 : TRef sig ⟨S1024x512, .i32⟩) main_call1.v0 main_call1.v1 (cmpi .slt),
    TRef.nullary main_call1.c_0 (constantI S_ 32 100000#32),
    TRef.unary main_call1.c_0 main_call1.v2 (broadcastInDim S1024x512 ![] bcast_S_S1024x512),
    TRef.binary (.of main_v25 : TRef sig ⟨S1024x512, .i32⟩) main_call1.v2 main_call1.v3 addi,
    TRef.ternary main_call1.v1 main_call1.v3 (.of main_v25 : TRef sig ⟨S1024x512, .i32⟩) main_call1.call0.v0 select,
    TRef.unary main_call1.call0.v0 main_call1.v5 (broadcastInDim S1024x512x1 ![0, 1] bcast_S1024x512_S1024x512x1_0_1),
    TRef.nullary main_call1.c_1 (constantI S1 32 99999#32),
    TRef.nullary main_call1.c_2 (constantI S_ 32 0#32),
    TRef.unary main_call1.c_2 main_call1.v6 (broadcastInDim S1024x512x1 ![] bcast_S_S1024x512x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S1024x512x1 ![0, 1, 2] bcast_S1x1x1_S1024x512x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S1024x512x1_S1024x512_d2 h_S_),
    TRef.binary (.of main_arg9 : TRef sig ⟨S100000x128, .f32⟩) main_call1.v5 main_call1.v13 (fun x i => Host.gather gather_S100000x128_S1024x512x1_S1024x512x128_2_0_n_n_0_2_1128 x i),
    TRef.unary main_call1.v12 main_call1.v14 (broadcastInDim S1024x512x128 ![0, 1] bcast_S1024x512_S1024x512x128_0_1),
    TRef.nullary main_call1.cst (constant S_ .f32 0x7FC00000#32),
    TRef.unary main_call1.cst main_call1.v15 (broadcastInDim S1024x512x128 ![] bcast_S_S1024x512x128),
    TRef.ternary main_call1.v14 main_call1.v13 main_call1.v15 main_call1.v16 select ]

/-- The references `P5`'s operations write, in order. -/
abbrev P5_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v27]

/-- Every operation of `P5` touches TensorCore references only. -/
theorem P5_sub : (P5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- %28 … %37: bank 0's dot products, exponentials and normalisation. -/
abbrev P6 : List (HloOp τ sig (Elt F)) :=
  [
    StableHlo.binary main_v26 main_v11 main_v28 ((fun l r => Host.dotGeneral dot_S1024x512x128_S1024x128_S1024x512_2_1_1_n_0_0 none l r) : (⟨S1024x512x128, .f32⟩ : BufTy).Contents (Elt F) → (⟨S1024x128, .f32⟩ : BufTy).Contents (Elt F) → (⟨S1024x512, .f32⟩ : BufTy).Contents (Elt F)),
    StableHlo.nullary main_cst_5 (constant S_ .f32 0x3D8F5C29#32),
    StableHlo.unary main_cst_5 main_v29 (broadcastInDim S1024x512 ![] bcast_S_S1024x512 : (⟨S_, .f32⟩ : BufTy).Contents (Elt F) → (⟨S1024x512, .f32⟩ : BufTy).Contents (Elt F)),
    StableHlo.binary main_v28 main_v29 main_v30 (Host.divf : (⟨S1024x512, .f32⟩ : BufTy).Contents (Elt F) → (⟨S1024x512, .f32⟩ : BufTy).Contents (Elt F) → (⟨S1024x512, .f32⟩ : BufTy).Contents (Elt F)),
    StableHlo.unary main_v30 main_v31 (Host.exp : (⟨S1024x512, .f32⟩ : BufTy).Contents (Elt F) → (⟨S1024x512, .f32⟩ : BufTy).Contents (Elt F)),
    StableHlo.unary main_v31 main_v32 (broadcastInDim S1024x512x1 ![0, 1] bcast_S1024x512_S1024x512x1_0_1 : (⟨S1024x512, .f32⟩ : BufTy).Contents (Elt F) → (⟨S1024x512x1, .f32⟩ : BufTy).Contents (Elt F)),
    StableHlo.nullary main_cst_6 (constant S_ .f32 0x00000000#32),
    StableHlo.binary main_v32 main_cst_6 main_v33 ((fun x v => Host.reduceAdd x v reducesTo_S1024x512x1_S_d0_1_2 h_S_) : (⟨S1024x512x1, .f32⟩ : BufTy).Contents (Elt F) → (⟨S_, .f32⟩ : BufTy).Contents (Elt F) → (⟨S_, .f32⟩ : BufTy).Contents (Elt F)),
    StableHlo.nullary main_cst_7 (constant S_ .f32 0x49000000#32),
    StableHlo.binary main_v33 main_cst_7 main_v34 (Host.divf : (⟨S_, .f32⟩ : BufTy).Contents (Elt F) → (⟨S_, .f32⟩ : BufTy).Contents (Elt F) → (⟨S_, .f32⟩ : BufTy).Contents (Elt F)),
    StableHlo.nullary main_cst_8 (constant S_ .f32 0x47C35000#32),
    StableHlo.binary main_v34 main_cst_8 main_v35 (mulf : (⟨S_, .f32⟩ : BufTy).Contents (Elt F) → (⟨S_, .f32⟩ : BufTy).Contents (Elt F) → (⟨S_, .f32⟩ : BufTy).Contents (Elt F)),
    StableHlo.unary main_v35 main_v36 (broadcastInDim S1024x512x1 ![] bcast_S_S1024x512x1 : (⟨S_, .f32⟩ : BufTy).Contents (Elt F) → (⟨S1024x512x1, .f32⟩ : BufTy).Contents (Elt F)),
    StableHlo.binary main_v32 main_v36 main_v37 (Host.divf : (⟨S1024x512x1, .f32⟩ : BufTy).Contents (Elt F) → (⟨S1024x512x1, .f32⟩ : BufTy).Contents (Elt F) → (⟨S1024x512x1, .f32⟩ : BufTy).Contents (Elt F)) ]

/-- The references `P6`'s operations write, in order. -/
abbrev P6_W : List (Ref sig .tc) := [main_v28, main_cst_5, main_v29, main_v30, main_v31, main_v32, main_cst_6, main_v33, main_cst_7, main_v34, main_cst_8, main_v35, main_v36, main_v37]

/-- Every operation of `P6` touches TensorCore references only. -/
theorem P6_sub : (P6 : List (HloOp τ sig (Elt F))).Forall fun op => op.bufs ⊆ tcRefs τ sig :=
  ⟨binary_bufs_sub .., nullary_bufs_sub .., unary_bufs_sub .., binary_bufs_sub .., unary_bufs_sub .., unary_bufs_sub .., nullary_bufs_sub .., binary_bufs_sub .., nullary_bufs_sub .., binary_bufs_sub .., nullary_bufs_sub .., binary_bufs_sub .., unary_bufs_sub .., binary_bufs_sub ..⟩

/-- %38 … %45: bank 1's dot products, exponentials and normaliser. -/
abbrev P7a : List (HloOp τ sig (Elt F)) :=
  [
    StableHlo.binary main_v27 main_v23 main_v38 ((fun l r => Host.dotGeneral dot_S1024x512x128_S1024x128_S1024x512_2_1_1_n_0_0 none l r) : (⟨S1024x512x128, .f32⟩ : BufTy).Contents (Elt F) → (⟨S1024x128, .f32⟩ : BufTy).Contents (Elt F) → (⟨S1024x512, .f32⟩ : BufTy).Contents (Elt F)),
    StableHlo.nullary main_cst_9 (constant S_ .f32 0x3D8F5C29#32),
    StableHlo.unary main_cst_9 main_v39 (broadcastInDim S1024x512 ![] bcast_S_S1024x512 : (⟨S_, .f32⟩ : BufTy).Contents (Elt F) → (⟨S1024x512, .f32⟩ : BufTy).Contents (Elt F)),
    StableHlo.binary main_v38 main_v39 main_v40 (Host.divf : (⟨S1024x512, .f32⟩ : BufTy).Contents (Elt F) → (⟨S1024x512, .f32⟩ : BufTy).Contents (Elt F) → (⟨S1024x512, .f32⟩ : BufTy).Contents (Elt F)),
    StableHlo.unary main_v40 main_v41 (Host.exp : (⟨S1024x512, .f32⟩ : BufTy).Contents (Elt F) → (⟨S1024x512, .f32⟩ : BufTy).Contents (Elt F)),
    StableHlo.unary main_v41 main_v42 (broadcastInDim S1024x512x1 ![0, 1] bcast_S1024x512_S1024x512x1_0_1 : (⟨S1024x512, .f32⟩ : BufTy).Contents (Elt F) → (⟨S1024x512x1, .f32⟩ : BufTy).Contents (Elt F)),
    StableHlo.nullary main_cst_10 (constant S_ .f32 0x00000000#32),
    StableHlo.binary main_v42 main_cst_10 main_v43 ((fun x v => Host.reduceAdd x v reducesTo_S1024x512x1_S_d0_1_2 h_S_) : (⟨S1024x512x1, .f32⟩ : BufTy).Contents (Elt F) → (⟨S_, .f32⟩ : BufTy).Contents (Elt F) → (⟨S_, .f32⟩ : BufTy).Contents (Elt F)),
    StableHlo.nullary main_cst_11 (constant S_ .f32 0x49000000#32),
    StableHlo.binary main_v43 main_cst_11 main_v44 (Host.divf : (⟨S_, .f32⟩ : BufTy).Contents (Elt F) → (⟨S_, .f32⟩ : BufTy).Contents (Elt F) → (⟨S_, .f32⟩ : BufTy).Contents (Elt F)),
    StableHlo.nullary main_cst_12 (constant S_ .f32 0x47C35000#32),
    StableHlo.binary main_v44 main_cst_12 main_v45 (mulf : (⟨S_, .f32⟩ : BufTy).Contents (Elt F) → (⟨S_, .f32⟩ : BufTy).Contents (Elt F) → (⟨S_, .f32⟩ : BufTy).Contents (Elt F)) ]

/-- The references `P7a`'s operations write, in order. -/
abbrev P7a_W : List (Ref sig .tc) := [main_v38, main_cst_9, main_v39, main_v40, main_v41, main_v42, main_cst_10, main_v43, main_cst_11, main_v44, main_cst_12, main_v45]

/-- Every operation of `P7a` touches TensorCore references only. -/
theorem P7a_sub : (P7a : List (HloOp τ sig (Elt F))).Forall fun op => op.bufs ⊆ tcRefs τ sig :=
  ⟨binary_bufs_sub .., nullary_bufs_sub .., unary_bufs_sub .., binary_bufs_sub .., unary_bufs_sub .., unary_bufs_sub .., nullary_bufs_sub .., binary_bufs_sub .., nullary_bufs_sub .., binary_bufs_sub .., nullary_bufs_sub .., binary_bufs_sub ..⟩

/-- %46, %47: bank 1's normalisation. -/
abbrev P7b : List (HloOp τ sig (Elt F)) :=
  [
    StableHlo.unary main_v45 main_v46 (broadcastInDim S1024x512x1 ![] bcast_S_S1024x512x1 : (⟨S_, .f32⟩ : BufTy).Contents (Elt F) → (⟨S1024x512x1, .f32⟩ : BufTy).Contents (Elt F)),
    StableHlo.binary main_v42 main_v46 main_v47 (Host.divf : (⟨S1024x512x1, .f32⟩ : BufTy).Contents (Elt F) → (⟨S1024x512x1, .f32⟩ : BufTy).Contents (Elt F) → (⟨S1024x512x1, .f32⟩ : BufTy).Contents (Elt F)) ]

/-- The references `P7b`'s operations write, in order. -/
abbrev P7b_W : List (Ref sig .tc) := [main_v46, main_v47]

/-- Every operation of `P7b` touches TensorCore references only. -/
theorem P7b_sub : (P7b : List (HloOp τ sig (Elt F))).Forall fun op => op.bufs ⊆ tcRefs τ sig :=
  ⟨unary_bufs_sub .., binary_bufs_sub ..⟩

/-- %48 … %76: bank 0's loss. -/
abbrev P8 : List (HloOp τ sig (Elt F)) :=
  [
    StableHlo.unary main_v37 main_v48 ((extractStridedSlice S1024x1x1 ![0, 0, 0] · slices_S1024x512x1_S1024x1x1_0_0_0) : (⟨S1024x512x1, .f32⟩ : BufTy).Contents (Elt F) → (⟨S1024x1x1, .f32⟩ : BufTy).Contents (Elt F)),
    StableHlo.nullary main_cst_13 (constant S_ .f32 0x3BA771C9#32),
    StableHlo.unary main_cst_13 main_v49 (broadcastInDim S1024x1x1 ![] bcast_S_S1024x1x1 : (⟨S_, .f32⟩ : BufTy).Contents (Elt F) → (⟨S1024x1x1, .f32⟩ : BufTy).Contents (Elt F)),
    StableHlo.binary main_v48 main_v49 main_v50 (addf : (⟨S1024x1x1, .f32⟩ : BufTy).Contents (Elt F) → (⟨S1024x1x1, .f32⟩ : BufTy).Contents (Elt F) → (⟨S1024x1x1, .f32⟩ : BufTy).Contents (Elt F)),
    StableHlo.nullary main_cst_14 (constant S_ .f32 0x33D6BF95#32),
    StableHlo.unary main_cst_14 main_v51 (broadcastInDim S1024x1x1 ![] bcast_S_S1024x1x1 : (⟨S_, .f32⟩ : BufTy).Contents (Elt F) → (⟨S1024x1x1, .f32⟩ : BufTy).Contents (Elt F)),
    StableHlo.binary main_v50 main_v51 main_v52 (addf : (⟨S1024x1x1, .f32⟩ : BufTy).Contents (Elt F) → (⟨S1024x1x1, .f32⟩ : BufTy).Contents (Elt F) → (⟨S1024x1x1, .f32⟩ : BufTy).Contents (Elt F)),
    StableHlo.binary main_v48 main_v52 main_v53 (Host.divf : (⟨S1024x1x1, .f32⟩ : BufTy).Contents (Elt F) → (⟨S1024x1x1, .f32⟩ : BufTy).Contents (Elt F) → (⟨S1024x1x1, .f32⟩ : BufTy).Contents (Elt F)),
    StableHlo.unary main_v53 main_v54 (Host.log : (⟨S1024x1x1, .f32⟩ : BufTy).Contents (Elt F) → (⟨S1024x1x1, .f32⟩ : BufTy).Contents (Elt F)),
    StableHlo.unary main_v37 main_v55 ((extractStridedSlice S1024x511x1 ![0, 1, 0] · slices_S1024x512x1_S1024x511x1_0_1_0) : (⟨S1024x512x1, .f32⟩ : BufTy).Contents (Elt F) → (⟨S1024x511x1, .f32⟩ : BufTy).Contents (Elt F)),
    StableHlo.nullary main_cst_15 (constant S_ .f32 0x3BA771C9#32),
    StableHlo.unary main_cst_15 main_v56 (broadcastInDim S1024x511x1 ![] bcast_S_S1024x511x1 : (⟨S_, .f32⟩ : BufTy).Contents (Elt F) → (⟨S1024x511x1, .f32⟩ : BufTy).Contents (Elt F)),
    StableHlo.binary main_v55 main_v56 main_v57 (addf : (⟨S1024x511x1, .f32⟩ : BufTy).Contents (Elt F) → (⟨S1024x511x1, .f32⟩ : BufTy).Contents (Elt F) → (⟨S1024x511x1, .f32⟩ : BufTy).Contents (Elt F)),
    StableHlo.nullary main_cst_16 (constant S_ .f32 0x33D6BF95#32),
    StableHlo.unary main_cst_16 main_v58 (broadcastInDim S1024x511x1 ![] bcast_S_S1024x511x1 : (⟨S_, .f32⟩ : BufTy).Contents (Elt F) → (⟨S1024x511x1, .f32⟩ : BufTy).Contents (Elt F)),
    StableHlo.binary main_v57 main_v58 main_v59 (addf : (⟨S1024x511x1, .f32⟩ : BufTy).Contents (Elt F) → (⟨S1024x511x1, .f32⟩ : BufTy).Contents (Elt F) → (⟨S1024x511x1, .f32⟩ : BufTy).Contents (Elt F)),
    StableHlo.nullary main_cst_17 (constant S_ .f32 0x3BA771C9#32),
    StableHlo.unary main_cst_17 main_v60 (broadcastInDim S1024x511x1 ![] bcast_S_S1024x511x1 : (⟨S_, .f32⟩ : BufTy).Contents (Elt F) → (⟨S1024x511x1, .f32⟩ : BufTy).Contents (Elt F)),
    StableHlo.binary main_v60 main_v59 main_v61 (Host.divf : (⟨S1024x511x1, .f32⟩ : BufTy).Contents (Elt F) → (⟨S1024x511x1, .f32⟩ : BufTy).Contents (Elt F) → (⟨S1024x511x1, .f32⟩ : BufTy).Contents (Elt F)),
    StableHlo.unary main_v61 main_v62 (Host.log : (⟨S1024x511x1, .f32⟩ : BufTy).Contents (Elt F) → (⟨S1024x511x1, .f32⟩ : BufTy).Contents (Elt F)),
    StableHlo.reshape main_v54 main_v63 rfl shapeCasts_S1024x1x1_S1024,
    StableHlo.nullary main_cst_18 (constant S_ .f32 0x00000000#32),
    StableHlo.binary main_v63 main_cst_18 main_v64 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    StableHlo.reshape main_v62 main_v65 rfl shapeCasts_S1024x511x1_S523264x1,
    StableHlo.reshape main_v65 main_v66 rfl shapeCasts_S523264x1_S1x523264x1x1,
    StableHlo.unary main_v66 main_v67 (broadcastInDim S1x523264x1x1 ![0, 1, 2, 3] bcast_S1x523264x1x1_S1x523264x1x1_0_1_2_3 : (⟨S1x523264x1x1, .f32⟩ : BufTy).Contents (Elt F) → (⟨S1x523264x1x1, .f32⟩ : BufTy).Contents (Elt F)),
    StableHlo.reshape main_v67 main_v68 rfl shapeCasts_S1x523264x1x1_S523264x1,
    StableHlo.nullary main_cst_19 (constant S_ .f32 0x00000000#32),
    StableHlo.binary main_v68 main_cst_19 main_v69 ((fun x v => Host.reduceAdd x v reducesTo_S523264x1_S1_d0 h_S_) : (⟨S523264x1, .f32⟩ : BufTy).Contents (Elt F) → (⟨S_, .f32⟩ : BufTy).Contents (Elt F) → (⟨S1, .f32⟩ : BufTy).Contents (Elt F)),
    StableHlo.unary main_v64 main_v70 (broadcastInDim S1 ![] bcast_S_S1 : (⟨S_, .f32⟩ : BufTy).Contents (Elt F) → (⟨S1, .f32⟩ : BufTy).Contents (Elt F)),
    StableHlo.binary main_v70 main_v69 main_v71 (addf : (⟨S1, .f32⟩ : BufTy).Contents (Elt F) → (⟨S1, .f32⟩ : BufTy).Contents (Elt F) → (⟨S1, .f32⟩ : BufTy).Contents (Elt F)),
    StableHlo.nullary main_cst_20 (constant S_ .f32 0x44800000#32),
    StableHlo.unary main_cst_20 main_v72 (broadcastInDim S1 ![] bcast_S_S1 : (⟨S_, .f32⟩ : BufTy).Contents (Elt F) → (⟨S1, .f32⟩ : BufTy).Contents (Elt F)),
    StableHlo.binary main_v71 main_v72 main_v73 (Host.divf : (⟨S1, .f32⟩ : BufTy).Contents (Elt F) → (⟨S1, .f32⟩ : BufTy).Contents (Elt F) → (⟨S1, .f32⟩ : BufTy).Contents (Elt F)),
    StableHlo.nullary main_cst_21 (constant S_ .f32 0x00000000#32),
    StableHlo.binary main_v73 main_cst_21 main_v74 ((fun x v => Host.reduceAdd x v reducesTo_S1_S_d0 h_S_) : (⟨S1, .f32⟩ : BufTy).Contents (Elt F) → (⟨S_, .f32⟩ : BufTy).Contents (Elt F) → (⟨S_, .f32⟩ : BufTy).Contents (Elt F)),
    StableHlo.unary main_v74 main_v75 (Host.negf : (⟨S_, .f32⟩ : BufTy).Contents (Elt F) → (⟨S_, .f32⟩ : BufTy).Contents (Elt F)),
    StableHlo.nullary main_cst_22 (constant S_ .f32 0x3F800000#32),
    StableHlo.binary main_v75 main_cst_22 main_v76 (Host.divf : (⟨S_, .f32⟩ : BufTy).Contents (Elt F) → (⟨S_, .f32⟩ : BufTy).Contents (Elt F) → (⟨S_, .f32⟩ : BufTy).Contents (Elt F)) ]

/-- The references `P8`'s operations write, in order. -/
abbrev P8_W : List (Ref sig .tc) := [main_v48, main_cst_13, main_v49, main_v50, main_cst_14, main_v51, main_v52, main_v53, main_v54, main_v55, main_cst_15, main_v56, main_v57, main_cst_16, main_v58, main_v59, main_cst_17, main_v60, main_v61, main_v62, main_v63, main_cst_18, main_v64, main_v65, main_v66, main_v67, main_v68, main_cst_19, main_v69, main_v70, main_v71, main_cst_20, main_v72, main_v73, main_cst_21, main_v74, main_v75, main_cst_22, main_v76]

/-- Every operation of `P8` touches TensorCore references only. -/
theorem P8_sub : (P8 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., binary_bufs_sub .., reshape_bufs_sub .., reshape_bufs_sub .., unary_bufs_sub .., reshape_bufs_sub .., nullary_bufs_sub .., binary_bufs_sub .., unary_bufs_sub .., binary_bufs_sub .., nullary_bufs_sub .., unary_bufs_sub .., binary_bufs_sub .., nullary_bufs_sub .., binary_bufs_sub .., unary_bufs_sub .., nullary_bufs_sub .., binary_bufs_sub ..⟩

/-- %77 … %90: bank 1's terms, up to the quotient under the second logarithm. -/
abbrev P9a : List (HloOp τ sig (Elt F)) :=
  [
    StableHlo.unary main_v47 main_v77 ((extractStridedSlice S1024x1x1 ![0, 0, 0] · slices_S1024x512x1_S1024x1x1_0_0_0) : (⟨S1024x512x1, .f32⟩ : BufTy).Contents (Elt F) → (⟨S1024x1x1, .f32⟩ : BufTy).Contents (Elt F)),
    StableHlo.nullary main_cst_23 (constant S_ .f32 0x3BA771C9#32),
    StableHlo.unary main_cst_23 main_v78 (broadcastInDim S1024x1x1 ![] bcast_S_S1024x1x1 : (⟨S_, .f32⟩ : BufTy).Contents (Elt F) → (⟨S1024x1x1, .f32⟩ : BufTy).Contents (Elt F)),
    StableHlo.binary main_v77 main_v78 main_v79 (addf : (⟨S1024x1x1, .f32⟩ : BufTy).Contents (Elt F) → (⟨S1024x1x1, .f32⟩ : BufTy).Contents (Elt F) → (⟨S1024x1x1, .f32⟩ : BufTy).Contents (Elt F)),
    StableHlo.nullary main_cst_24 (constant S_ .f32 0x33D6BF95#32),
    StableHlo.unary main_cst_24 main_v80 (broadcastInDim S1024x1x1 ![] bcast_S_S1024x1x1 : (⟨S_, .f32⟩ : BufTy).Contents (Elt F) → (⟨S1024x1x1, .f32⟩ : BufTy).Contents (Elt F)),
    StableHlo.binary main_v79 main_v80 main_v81 (addf : (⟨S1024x1x1, .f32⟩ : BufTy).Contents (Elt F) → (⟨S1024x1x1, .f32⟩ : BufTy).Contents (Elt F) → (⟨S1024x1x1, .f32⟩ : BufTy).Contents (Elt F)),
    StableHlo.binary main_v77 main_v81 main_v82 (Host.divf : (⟨S1024x1x1, .f32⟩ : BufTy).Contents (Elt F) → (⟨S1024x1x1, .f32⟩ : BufTy).Contents (Elt F) → (⟨S1024x1x1, .f32⟩ : BufTy).Contents (Elt F)),
    StableHlo.unary main_v82 main_v83 (Host.log : (⟨S1024x1x1, .f32⟩ : BufTy).Contents (Elt F) → (⟨S1024x1x1, .f32⟩ : BufTy).Contents (Elt F)),
    StableHlo.unary main_v47 main_v84 ((extractStridedSlice S1024x511x1 ![0, 1, 0] · slices_S1024x512x1_S1024x511x1_0_1_0) : (⟨S1024x512x1, .f32⟩ : BufTy).Contents (Elt F) → (⟨S1024x511x1, .f32⟩ : BufTy).Contents (Elt F)),
    StableHlo.nullary main_cst_25 (constant S_ .f32 0x3BA771C9#32),
    StableHlo.unary main_cst_25 main_v85 (broadcastInDim S1024x511x1 ![] bcast_S_S1024x511x1 : (⟨S_, .f32⟩ : BufTy).Contents (Elt F) → (⟨S1024x511x1, .f32⟩ : BufTy).Contents (Elt F)),
    StableHlo.binary main_v84 main_v85 main_v86 (addf : (⟨S1024x511x1, .f32⟩ : BufTy).Contents (Elt F) → (⟨S1024x511x1, .f32⟩ : BufTy).Contents (Elt F) → (⟨S1024x511x1, .f32⟩ : BufTy).Contents (Elt F)),
    StableHlo.nullary main_cst_26 (constant S_ .f32 0x33D6BF95#32),
    StableHlo.unary main_cst_26 main_v87 (broadcastInDim S1024x511x1 ![] bcast_S_S1024x511x1 : (⟨S_, .f32⟩ : BufTy).Contents (Elt F) → (⟨S1024x511x1, .f32⟩ : BufTy).Contents (Elt F)),
    StableHlo.binary main_v86 main_v87 main_v88 (addf : (⟨S1024x511x1, .f32⟩ : BufTy).Contents (Elt F) → (⟨S1024x511x1, .f32⟩ : BufTy).Contents (Elt F) → (⟨S1024x511x1, .f32⟩ : BufTy).Contents (Elt F)),
    StableHlo.nullary main_cst_27 (constant S_ .f32 0x3BA771C9#32),
    StableHlo.unary main_cst_27 main_v89 (broadcastInDim S1024x511x1 ![] bcast_S_S1024x511x1 : (⟨S_, .f32⟩ : BufTy).Contents (Elt F) → (⟨S1024x511x1, .f32⟩ : BufTy).Contents (Elt F)),
    StableHlo.binary main_v89 main_v88 main_v90 (Host.divf : (⟨S1024x511x1, .f32⟩ : BufTy).Contents (Elt F) → (⟨S1024x511x1, .f32⟩ : BufTy).Contents (Elt F) → (⟨S1024x511x1, .f32⟩ : BufTy).Contents (Elt F)) ]

/-- The references `P9a`'s operations write, in order. -/
abbrev P9a_W : List (Ref sig .tc) := [main_v77, main_cst_23, main_v78, main_v79, main_cst_24, main_v80, main_v81, main_v82, main_v83, main_v84, main_cst_25, main_v85, main_v86, main_cst_26, main_v87, main_v88, main_cst_27, main_v89, main_v90]

/-- Every operation of `P9a` touches TensorCore references only. -/
theorem P9a_sub : (P9a : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub ..⟩

/-- %91 … %105: bank 1's loss from those. -/
abbrev P9b : List (HloOp τ sig (Elt F)) :=
  [
    StableHlo.unary main_v90 main_v91 (Host.log : (⟨S1024x511x1, .f32⟩ : BufTy).Contents (Elt F) → (⟨S1024x511x1, .f32⟩ : BufTy).Contents (Elt F)),
    StableHlo.reshape main_v83 main_v92 rfl shapeCasts_S1024x1x1_S1024,
    StableHlo.nullary main_cst_28 (constant S_ .f32 0x00000000#32),
    StableHlo.binary main_v92 main_cst_28 main_v93 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    StableHlo.reshape main_v91 main_v94 rfl shapeCasts_S1024x511x1_S523264x1,
    StableHlo.reshape main_v94 main_v95 rfl shapeCasts_S523264x1_S1x523264x1x1,
    StableHlo.unary main_v95 main_v96 (broadcastInDim S1x523264x1x1 ![0, 1, 2, 3] bcast_S1x523264x1x1_S1x523264x1x1_0_1_2_3 : (⟨S1x523264x1x1, .f32⟩ : BufTy).Contents (Elt F) → (⟨S1x523264x1x1, .f32⟩ : BufTy).Contents (Elt F)),
    StableHlo.reshape main_v96 main_v97 rfl shapeCasts_S1x523264x1x1_S523264x1,
    StableHlo.nullary main_cst_29 (constant S_ .f32 0x00000000#32),
    StableHlo.binary main_v97 main_cst_29 main_v98 ((fun x v => Host.reduceAdd x v reducesTo_S523264x1_S1_d0 h_S_) : (⟨S523264x1, .f32⟩ : BufTy).Contents (Elt F) → (⟨S_, .f32⟩ : BufTy).Contents (Elt F) → (⟨S1, .f32⟩ : BufTy).Contents (Elt F)),
    StableHlo.unary main_v93 main_v99 (broadcastInDim S1 ![] bcast_S_S1 : (⟨S_, .f32⟩ : BufTy).Contents (Elt F) → (⟨S1, .f32⟩ : BufTy).Contents (Elt F)),
    StableHlo.binary main_v99 main_v98 main_v100 (addf : (⟨S1, .f32⟩ : BufTy).Contents (Elt F) → (⟨S1, .f32⟩ : BufTy).Contents (Elt F) → (⟨S1, .f32⟩ : BufTy).Contents (Elt F)),
    StableHlo.nullary main_cst_30 (constant S_ .f32 0x44800000#32),
    StableHlo.unary main_cst_30 main_v101 (broadcastInDim S1 ![] bcast_S_S1 : (⟨S_, .f32⟩ : BufTy).Contents (Elt F) → (⟨S1, .f32⟩ : BufTy).Contents (Elt F)),
    StableHlo.binary main_v100 main_v101 main_v102 (Host.divf : (⟨S1, .f32⟩ : BufTy).Contents (Elt F) → (⟨S1, .f32⟩ : BufTy).Contents (Elt F) → (⟨S1, .f32⟩ : BufTy).Contents (Elt F)),
    StableHlo.nullary main_cst_31 (constant S_ .f32 0x00000000#32),
    StableHlo.binary main_v102 main_cst_31 main_v103 ((fun x v => Host.reduceAdd x v reducesTo_S1_S_d0 h_S_) : (⟨S1, .f32⟩ : BufTy).Contents (Elt F) → (⟨S_, .f32⟩ : BufTy).Contents (Elt F) → (⟨S_, .f32⟩ : BufTy).Contents (Elt F)),
    StableHlo.unary main_v103 main_v104 (Host.negf : (⟨S_, .f32⟩ : BufTy).Contents (Elt F) → (⟨S_, .f32⟩ : BufTy).Contents (Elt F)),
    StableHlo.nullary main_cst_32 (constant S_ .f32 0x3F800000#32),
    StableHlo.binary main_v104 main_cst_32 main_v105 (Host.divf : (⟨S_, .f32⟩ : BufTy).Contents (Elt F) → (⟨S_, .f32⟩ : BufTy).Contents (Elt F) → (⟨S_, .f32⟩ : BufTy).Contents (Elt F)) ]

/-- The references `P9b`'s operations write, in order. -/
abbrev P9b_W : List (Ref sig .tc) := [main_v91, main_v92, main_cst_28, main_v93, main_v94, main_v95, main_v96, main_v97, main_cst_29, main_v98, main_v99, main_v100, main_cst_30, main_v101, main_v102, main_cst_31, main_v103, main_v104, main_cst_32, main_v105]

/-- Every operation of `P9b` touches TensorCore references only. -/
theorem P9b_sub : (P9b : List (HloOp τ sig (Elt F))).Forall fun op => op.bufs ⊆ tcRefs τ sig :=
  ⟨unary_bufs_sub .., reshape_bufs_sub .., nullary_bufs_sub .., binary_bufs_sub .., reshape_bufs_sub .., reshape_bufs_sub .., unary_bufs_sub .., reshape_bufs_sub .., nullary_bufs_sub .., binary_bufs_sub .., unary_bufs_sub .., binary_bufs_sub .., nullary_bufs_sub .., unary_bufs_sub .., binary_bufs_sub .., nullary_bufs_sub .., binary_bufs_sub .., unary_bufs_sub .., nullary_bufs_sub .., binary_bufs_sub ..⟩

/-- %106: the sum of the two losses. -/
abbrev P10 : List (HloOp τ sig (Elt F)) :=
  [
    StableHlo.binary main_v76 main_v105 main_v106 (addf : (⟨S_, .f32⟩ : BufTy).Contents (Elt F) → (⟨S_, .f32⟩ : BufTy).Contents (Elt F) → (⟨S_, .f32⟩ : BufTy).Contents (Elt F)) ]

/-- The references `P10`'s operations write, in order. -/
abbrev P10_W : List (Ref sig .tc) := [main_v106]

/-- Every operation of `P10` touches TensorCore references only. -/
theorem P10_sub : (P10 : List (HloOp τ sig (Elt F))).Forall fun op => op.bufs ⊆ tcRefs τ sig :=
  binary_bufs_sub ..

end Cert.RefHand

end
-- ==== Proof.RefRun.lean ====
import proofs.«204931_g11295763988758_cont_test2_10_9_alg».proof.Proof.RefRunA
import proofs.«204931_g11295763988758_cont_test2_10_9_alg».proof.Proof.RefRunOps
import proofs.«204931_g11295763988758_cont_test2_10_9_alg».proof.Proof.Gen.Pre_input_domain
import proofs.«204931_g11295763988758_cont_test2_10_9_alg».proof.Defs
import Idealize.ShloMosaic.Lib.StableHlo.Run
import Idealize.ShloMosaic.PureOps.Ideal

noncomputable section

namespace Cert.RefHand

open Cert.ReferenceIdeal Cert.ReferenceIdeal.Gen Idealize.ShloMosaic Idealize.ShloMosaic.TcCoe Idealize.SL.Sem Idealize.ShloMosaic.StableHlo

variable {F : FTy → Type} [FloatOps F]

theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem forall_app {p : HloOp τ sig (Elt F) → Prop} {l₁ l₂ : List (HloOp τ sig (Elt F))} (h₁ : l₁.Forall p) (h₂ : l₂.Forall p) :
    (l₁ ++ l₂).Forall p := by
  rw [List.forall_iff_forall_mem] at h₁ h₂ ⊢
  intro x hx
  rcases List.mem_append.mp hx with h | h
  · exact h₁ x h
  · exact h₂ x h

theorem mem_app {p : HloOp τ sig (Elt F) → Prop} {l₁ l₂ : List (HloOp τ sig (Elt F))} (h₁ : ∀ op ∈ l₁, p op) (h₂ : ∀ op ∈ l₂, p op) :
    ∀ op ∈ l₁ ++ l₂, p op :=
  fun op h => (List.mem_append.mp h).elim (h₁ op) (h₂ op)

theorem keep {W : List (Ref sig .tc)} (l : List (HloOp τ sig (Elt F)))
    (hW : l.Forall fun op => op.writes ⊆ (W.map (Proc.devRef (τ := τ) .tc)).toFinset) (r : Ref sig .tc) (hr : r ∉ W)
    (V : Valuation τ sig (Elt F)) : after l V (Proc.devRef .tc r) = V (Proc.devRef .tc r) :=
  after_of_writes_sub l V hW hr

local macro "wr_one" : tactic =>
  `(tactic| (simp only [TRef.nullary, TRef.unary, TRef.binary, TRef.ternary, nullary_writes, unary_writes, binary_writes, ternary_writes, reshape_writes, Finset.singleton_subset_iff, List.mem_toFinset]
             exact List.mem_map_of_mem (by decide)))

local macro "writes_all" p:ident : tactic =>
  `(tactic| (simp only [$p:ident, List.Forall]
             repeat' apply And.intro
             all_goals wr_one))

local macro "fresh_all" : tactic =>
  `(tactic| (intro _ h; (repeat (cases h with | head => rfl | tail _ h => ?_)); exact nomatch h))

theorem P1_writes : (P1 : List (HloOp τ sig (Elt F))).Forall fun op => op.writes ⊆ (P1_W.map (Proc.devRef (τ := τ) .tc)).toFinset := by writes_all P1
theorem P2_writes : (P2 : List (HloOp τ sig (Elt F))).Forall fun op => op.writes ⊆ (P2_W.map (Proc.devRef (τ := τ) .tc)).toFinset := by writes_all P2
theorem P3_writes : (P3 : List (HloOp τ sig (Elt F))).Forall fun op => op.writes ⊆ (P3_W.map (Proc.devRef (τ := τ) .tc)).toFinset := by writes_all P3
theorem P4_writes : (P4 : List (HloOp τ sig (Elt F))).Forall fun op => op.writes ⊆ (P4_W.map (Proc.devRef (τ := τ) .tc)).toFinset := by writes_all P4
theorem P5_writes : (P5 : List (HloOp τ sig (Elt F))).Forall fun op => op.writes ⊆ (P5_W.map (Proc.devRef (τ := τ) .tc)).toFinset := by writes_all P5
theorem P6_writes : (P6 : List (HloOp τ sig (Elt F))).Forall fun op => op.writes ⊆ (P6_W.map (Proc.devRef (τ := τ) .tc)).toFinset := by writes_all P6
theorem P7a_writes : (P7a : List (HloOp τ sig (Elt F))).Forall fun op => op.writes ⊆ (P7a_W.map (Proc.devRef (τ := τ) .tc)).toFinset := by writes_all P7a
theorem P7b_writes : (P7b : List (HloOp τ sig (Elt F))).Forall fun op => op.writes ⊆ (P7b_W.map (Proc.devRef (τ := τ) .tc)).toFinset := by writes_all P7b
set_option maxRecDepth 8192 in
theorem P8_writes : (P8 : List (HloOp τ sig (Elt F))).Forall fun op => op.writes ⊆ (P8_W.map (Proc.devRef (τ := τ) .tc)).toFinset := by writes_all P8
theorem P9a_writes : (P9a : List (HloOp τ sig (Elt F))).Forall fun op => op.writes ⊆ (P9a_W.map (Proc.devRef (τ := τ) .tc)).toFinset := by writes_all P9a
theorem P9b_writes : (P9b : List (HloOp τ sig (Elt F))).Forall fun op => op.writes ⊆ (P9b_W.map (Proc.devRef (τ := τ) .tc)).toFinset := by writes_all P9b
theorem P10_writes : (P10 : List (HloOp τ sig (Elt F))).Forall fun op => op.writes ⊆ (P10_W.map (Proc.devRef (τ := τ) .tc)).toFinset := by writes_all P10

theorem P1_fresh : ∀ op ∈ (P1 : List (HloOp τ sig (Elt F))), op.fresh = ∅ := by fresh_all
theorem P2_fresh : ∀ op ∈ (P2 : List (HloOp τ sig (Elt F))), op.fresh = ∅ := by fresh_all
theorem P3_fresh : ∀ op ∈ (P3 : List (HloOp τ sig (Elt F))), op.fresh = ∅ := by fresh_all
theorem P4_fresh : ∀ op ∈ (P4 : List (HloOp τ sig (Elt F))), op.fresh = ∅ := by fresh_all
theorem P5_fresh : ∀ op ∈ (P5 : List (HloOp τ sig (Elt F))), op.fresh = ∅ := by fresh_all
theorem P6_fresh : ∀ op ∈ (P6 : List (HloOp τ sig (Elt F))), op.fresh = ∅ := by fresh_all
theorem P7a_fresh : ∀ op ∈ (P7a : List (HloOp τ sig (Elt F))), op.fresh = ∅ := by fresh_all
theorem P7b_fresh : ∀ op ∈ (P7b : List (HloOp τ sig (Elt F))), op.fresh = ∅ := by fresh_all
set_option maxRecDepth 8192 in
theorem P8_fresh : ∀ op ∈ (P8 : List (HloOp τ sig (Elt F))), op.fresh = ∅ := by fresh_all
theorem P9a_fresh : ∀ op ∈ (P9a : List (HloOp τ sig (Elt F))), op.fresh = ∅ := by fresh_all
theorem P9b_fresh : ∀ op ∈ (P9b : List (HloOp τ sig (Elt F))), op.fresh = ∅ := by fresh_all
theorem P10_fresh : ∀ op ∈ (P10 : List (HloOp τ sig (Elt F))), op.fresh = ∅ := by fresh_all

def part0ops : List (HloOp τ sig (Elt F)) := P1 ++ (P2 ++ (P3 ++ (P4 ++ (P5 ++ (P6 ++ P7a)))))

def part1ops : List (HloOp τ sig (Elt F)) := P7b ++ (P8 ++ P9a)

def part2ops : List (HloOp τ sig (Elt F)) := P9b ++ P10

def ops : List (HloOp τ sig (Elt F)) := part0ops ++ (part1ops ++ part2ops)

theorem ops_sub : (ops : List (HloOp τ sig (Elt F))).Forall fun op => op.bufs ⊆ tcRefs τ sig :=
  forall_app
    (forall_app P1_sub (forall_app P2_sub (forall_app P3_sub (forall_app P4_sub (forall_app P5_sub (forall_app P6_sub P7a_sub))))))
    (forall_app (forall_app P7b_sub (forall_app P8_sub P9a_sub)) (forall_app P9b_sub P10_sub))

theorem ops_fresh : ∀ op ∈ (ops : List (HloOp τ sig (Elt F))), op.fresh = ∅ :=
  mem_app
    (mem_app P1_fresh (mem_app P2_fresh (mem_app P3_fresh (mem_app P4_fresh (mem_app P5_fresh (mem_app P6_fresh P7a_fresh))))))
    (mem_app (mem_app P7b_fresh (mem_app P8_fresh P9a_fresh)) (mem_app P9b_fresh P10_fresh))

set_option maxRecDepth 16384 in
set_option maxHeartbeats 4000000 in

theorem main_part0_eq (c : Dev nD) : main_part0 (F := F) c = seq part0ops := by
  simp only [main_part0, fn_take.body, fn_where.body, part0ops, P1, P2, P3, P4, P5, P6, P7a, List.cons_append,
    List.nil_append, seq, bind_assoc, pure_bind] <;> rfl

set_option maxRecDepth 16384 in
set_option maxHeartbeats 4000000 in

theorem main_part1_eq (c : Dev nD) : main_part1 (F := F) c = seq part1ops := rfl

set_option maxRecDepth 16384 in
set_option maxHeartbeats 4000000 in

theorem main_part2_eq (c : Dev nD) : main_part2 (F := F) c = seq part2ops := rfl

theorem main_eq (c : Dev nD) : main (F := F) c = seq ops := by
  rw [ops, seq_append, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ofBuf_toBuf {T : BufTy} (x : TRef sig T) (v : T.Contents (Elt F)) : x.ofBuf (x.toBuf v) = v := by
  obtain ⟨r, rfl, _, _⟩ := x
  rfl

theorem ofBuf_v25 (v : (Proc.devRef .tc main_v25 : DevRef τ sig).ty.Contents (Elt F)) :
    (TRef.of main_v25 : TRef sig ⟨S1024x512, .i32⟩).ofBuf v = v := rfl
theorem ofBuf_arg10 (v : (Proc.devRef .tc main_arg10 : DevRef τ sig).ty.Contents (Elt F)) :
    (TRef.of main_arg10 : TRef sig ⟨S100000x128, .f32⟩).ofBuf v = v := rfl
theorem ofBuf_arg9 (v : (Proc.devRef .tc main_arg9 : DevRef τ sig).ty.Contents (Elt F)) :
    (TRef.of main_arg9 : TRef sig ⟨S100000x128, .f32⟩).ofBuf v = v := rfl
theorem toBuf_v26 (w : (⟨S1024x512x128, .f32⟩ : BufTy).Contents (Elt F)) :
    (TRef.of main_v26 : TRef sig ⟨S1024x512x128, .f32⟩).toBuf w = w := rfl
theorem toBuf_v27 (w : (⟨S1024x512x128, .f32⟩ : BufTy).Contents (Elt F)) :
    (TRef.of main_v27 : TRef sig ⟨S1024x512x128, .f32⟩).toBuf w = w := rfl

set_option maxRecDepth 8192 in
set_option maxHeartbeats 2000000 in

theorem Q1_v11 (V : Valuation τ sig (Elt F)) :
    after P1 V (Proc.devRef .tc main_v11) = refEmb (V (Proc.devRef .tc main_arg1)) (V (Proc.devRef .tc main_arg5)) (V (Proc.devRef .tc main_arg6)) := by
  simp only [P1]
  after_results_simp <;> rfl

set_option maxRecDepth 8192 in
set_option maxHeartbeats 2000000 in

theorem Q2_v23 (V : Valuation τ sig (Elt F)) :
    after P2 V (Proc.devRef .tc main_v23) = refEmb (V (Proc.devRef .tc main_arg2)) (V (Proc.devRef .tc main_arg7)) (V (Proc.devRef .tc main_arg8)) := by
  simp only [P2]
  after_results_simp <;> rfl

theorem Q3_v25 (V : Valuation τ sig (Elt F)) :
    after P3 V (Proc.devRef .tc main_v25) = refInds (V (Proc.devRef .tc main_arg3)) (V (Proc.devRef .tc main_arg4)) := by
  simp only [P3]
  after_results_simp <;> rfl

set_option maxRecDepth 8192 in
set_option maxHeartbeats 4000000 in

theorem Q4_v26 (V : Valuation τ sig (Elt F)) :
    after P4 V (Proc.devRef .tc main_v26) = refTake (V (Proc.devRef .tc main_arg10)) (V (Proc.devRef .tc main_v25)) := by
  simp only [P4]
  after_results_simp
  simp only [ofBuf_toBuf]
  simp only [refTake, refOk, refIdx]
  rw [toBuf_v26]
  simp only [ofBuf_v25, ofBuf_arg10]

set_option maxRecDepth 8192 in
set_option maxHeartbeats 4000000 in

theorem Q5_v27 (V : Valuation τ sig (Elt F)) :
    after P5 V (Proc.devRef .tc main_v27) = refTake (V (Proc.devRef .tc main_arg9)) (V (Proc.devRef .tc main_v25)) := by
  simp only [P5]
  after_results_simp
  simp only [ofBuf_toBuf]
  simp only [refTake, refOk, refIdx]
  rw [toBuf_v27]
  simp only [ofBuf_v25, ofBuf_arg9]

set_option maxRecDepth 8192 in
set_option maxHeartbeats 2000000 in

theorem Q6_v37 (V : Valuation τ sig (Elt F)) :
    after P6 V (Proc.devRef .tc main_v37) = refNorm (refDots (V (Proc.devRef .tc main_v26)) (V (Proc.devRef .tc main_v11))) := by
  simp only [P6]
  after_results_simp <;> rfl

set_option maxRecDepth 8192 in
set_option maxHeartbeats 2000000 in

theorem Q7_v47 (V : Valuation τ sig (Elt F)) :
    after P7b (after P7a V) (Proc.devRef .tc main_v47) = refNorm (refDots (V (Proc.devRef .tc main_v27)) (V (Proc.devRef .tc main_v23))) := by
  rw [← after_app]
  simp only [P7a, P7b, List.cons_append, List.nil_append]
  after_results_simp <;> rfl

set_option maxRecDepth 8192 in
set_option maxHeartbeats 4000000 in

theorem Q8_v76 (V : Valuation τ sig (Elt F)) :
    after P8 V (Proc.devRef .tc main_v76) = refLoss (V (Proc.devRef .tc main_v37)) := by
  simp only [P8]
  after_results_simp <;> rfl

set_option maxRecDepth 8192 in
set_option maxHeartbeats 4000000 in

theorem Q9_v105 (V : Valuation τ sig (Elt F)) :
    after P9b (after P9a V) (Proc.devRef .tc main_v105) = refLoss (V (Proc.devRef .tc main_v47)) := by
  rw [← after_app]
  simp only [P9a, P9b, List.cons_append, List.nil_append]
  after_results_simp <;> rfl

theorem Q10_v106 (V : Valuation τ sig (Elt F)) :
    after P10 V (Proc.devRef .tc main_v106) = addf (V (Proc.devRef .tc main_v76)) (V (Proc.devRef .tc main_v105)) := by
  simp only [P10]
  after_results_simp <;> rfl

theorem out_eq (V : Valuation τ sig (Elt F)) :
    after ops V (Proc.devRef .tc main_v106)
      = out (V (Proc.devRef .tc main_arg1)) (V (Proc.devRef .tc main_arg2)) (V (Proc.devRef .tc main_arg3)) (V (Proc.devRef .tc main_arg4))
          (V (Proc.devRef .tc main_arg5)) (V (Proc.devRef .tc main_arg6)) (V (Proc.devRef .tc main_arg7)) (V (Proc.devRef .tc main_arg8))
          (V (Proc.devRef .tc main_arg9)) (V (Proc.devRef .tc main_arg10)) := by
  simp only [ops, part0ops, part1ops, part2ops, after_app]
  rw [Q10_v106]
  rw [Q9_v105, keep P9b P9b_writes main_v76 (by decide), keep P9a P9a_writes main_v76 (by decide)]
  rw [Q8_v76, keep P8 P8_writes main_v47 (by decide)]
  rw [Q7_v47, keep P7b P7b_writes main_v37 (by decide), keep P7a P7a_writes main_v37 (by decide)]
  rw [Q6_v37, keep P6 P6_writes main_v27 (by decide), keep P6 P6_writes main_v23 (by decide)]
  rw [Q5_v27, keep P5 P5_writes main_v26 (by decide), keep P5 P5_writes main_v11 (by decide),
    keep P5 P5_writes main_v23 (by decide)]
  rw [Q4_v26, keep P4 P4_writes main_arg9 (by decide), keep P4 P4_writes main_v25 (by decide),
    keep P4 P4_writes main_v11 (by decide), keep P4 P4_writes main_v23 (by decide)]
  rw [Q3_v25, keep P3 P3_writes main_arg10 (by decide), keep P3 P3_writes main_arg9 (by decide),
    keep P3 P3_writes main_v11 (by decide), keep P3 P3_writes main_v23 (by decide)]
  rw [Q2_v23, keep P2 P2_writes main_arg3 (by decide), keep P2 P2_writes main_arg4 (by decide),
    keep P2 P2_writes main_arg10 (by decide), keep P2 P2_writes main_arg9 (by decide), keep P2 P2_writes main_v11 (by decide)]
  rw [Q1_v11, keep P1 P1_writes main_arg2 (by decide), keep P1 P1_writes main_arg7 (by decide),
    keep P1 P1_writes main_arg8 (by decide), keep P1 P1_writes main_arg3 (by decide), keep P1 P1_writes main_arg4 (by decide),
    keep P1 P1_writes main_arg10 (by decide), keep P1 P1_writes main_arg9 (by decide)]
  rfl

theorem ops_keep (V : Valuation τ sig (Elt F)) (r : Ref sig .tc)
    (h : r ∉ P1_W ∧ r ∉ P2_W ∧ r ∉ P3_W ∧ r ∉ P4_W ∧ r ∉ P5_W ∧ r ∉ P6_W ∧ r ∉ P7a_W ∧ r ∉ P7b_W ∧ r ∉ P8_W ∧ r ∉ P9a_W
      ∧ r ∉ P9b_W ∧ r ∉ P10_W) :
    after ops V (Proc.devRef .tc r) = V (Proc.devRef .tc r) := by
  obtain ⟨h1, h2, h3, h4, h5, h6, h7a, h7b, h8, h9a, h9b, h10⟩ := h
  simp only [ops, part0ops, part1ops, part2ops, after_app]
  rw [keep P10 P10_writes r h10, keep P9b P9b_writes r h9b, keep P9a P9a_writes r h9a, keep P8 P8_writes r h8,
    keep P7b P7b_writes r h7b, keep P7a P7a_writes r h7a, keep P6 P6_writes r h6, keep P5 P5_writes r h5,
    keep P4 P4_writes r h4, keep P3 P3_writes r h3, keep P2 P2_writes r h2, keep P1 P1_writes r h1]

theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v106)
          = out (F := Ideal) (m ((c.tc : Thread nD τ).loc main_arg1)) (m ((c.tc : Thread nD τ).loc main_arg2))
              (m ((c.tc : Thread nD τ).loc main_arg3)) (m ((c.tc : Thread nD τ).loc main_arg4))
              (m ((c.tc : Thread nD τ).loc main_arg5)) (m ((c.tc : Thread nD τ).loc main_arg6))
              (m ((c.tc : Thread nD τ).loc main_arg7)) (m ((c.tc : Thread nD τ).loc main_arg8))
              (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (defs (F := Ideal)) _ _).mono (fun _ h c => ⟨(h c main_v106).trans (out_eq _),
      (h c main_arg0).trans (ops_keep _ main_arg0 (by decide)),
      (h c main_arg1).trans (ops_keep _ main_arg1 (by decide)),
      (h c main_arg2).trans (ops_keep _ main_arg2 (by decide)),
      (h c main_arg3).trans (ops_keep _ main_arg3 (by decide)),
      (h c main_arg4).trans (ops_keep _ main_arg4 (by decide)),
      (h c main_arg5).trans (ops_keep _ main_arg5 (by decide)),
      (h c main_arg6).trans (ops_keep _ main_arg6 (by decide)),
      (h c main_arg7).trans (ops_keep _ main_arg7 (by decide)),
      (h c main_arg8).trans (ops_keep _ main_arg8 (by decide)),
      (h c main_arg9).trans (ops_keep _ main_arg9 (by decide)),
      (h c main_arg10).trans (ops_keep _ main_arg10 (by decide))⟩)
    (run_seq scopedRefs_eq scopedSems_eq (defs (F := Ideal)) (main (F := Ideal)) (fun _ => ops) main_eq (fun _ => ops_sub) m g (fun _ => ops_fresh))

theorem frame : Cert.frame_ReferenceIdeal := fun m g _ =>
  (θ_run _ _ _).mono (fun _ h c => (h c).2) (run m g)

end Cert.RefHand

end
-- ==== Proof.lean ====
import proofs.«204931_g11295763988758_cont_test2_10_9_alg».proof.Defs
import proofs.«204931_g11295763988758_cont_test2_10_9_alg».proof.Proof.Gen.Kernel
import proofs.«204931_g11295763988758_cont_test2_10_9_alg».proof.Proof.Gen.Kernel.Skeleton
import proofs.«204931_g11295763988758_cont_test2_10_9_alg».proof.Proof.Gen.Kernel.Launch
import proofs.«204931_g11295763988758_cont_test2_10_9_alg».proof.Proof.Gen.Kernel.Regions
import proofs.«204931_g11295763988758_cont_test2_10_9_alg».proof.Proof.Gen.Kernel.Points
import proofs.«204931_g11295763988758_cont_test2_10_9_alg».proof.Proof.Gen.KernelIdeal
import proofs.«204931_g11295763988758_cont_test2_10_9_alg».proof.Proof.Gen.KernelIdeal.Skeleton
import proofs.«204931_g11295763988758_cont_test2_10_9_alg».proof.Proof.Gen.KernelIdeal.Launch
import proofs.«204931_g11295763988758_cont_test2_10_9_alg».proof.Proof.Gen.KernelIdeal.Regions
import proofs.«204931_g11295763988758_cont_test2_10_9_alg».proof.Proof.Gen.KernelIdeal.Points
import proofs.«204931_g11295763988758_cont_test2_10_9_alg».proof.Proof.Gen.ReferenceIdeal
import proofs.«204931_g11295763988758_cont_test2_10_9_alg».proof.Proof.Gen.Pre_input_domain
import Idealize.ShloMosaic.Adequacy
import Idealize.ShloMosaic.Init
import proofs.«204931_g11295763988758_cont_test2_10_9_alg».proof.Proof.Run
import proofs.«204931_g11295763988758_cont_test2_10_9_alg».proof.Proof.RunB
import proofs.«204931_g11295763988758_cont_test2_10_9_alg».proof.Proof.ValsKept
import proofs.«204931_g11295763988758_cont_test2_10_9_alg».proof.Proof.ValsKeptB
import proofs.«204931_g11295763988758_cont_test2_10_9_alg».proof.Proof.IdxOk
import proofs.«204931_g11295763988758_cont_test2_10_9_alg».proof.Proof.IdxOkB
import proofs.«204931_g11295763988758_cont_test2_10_9_alg».proof.Proof.Bridge
import proofs.«204931_g11295763988758_cont_test2_10_9_alg».proof.Proof.RefRun
import proofs.«204931_g11295763988758_cont_test2_10_9_alg».proof.Proof.Preserves

noncomputable section

namespace Cert.Proof

open Idealize.ShloMosaic Idealize.SL.Sem

theorem frame_k : Cert.frame_Kernel := fun m g hpre =>
  (θ_run _ _ _).mono (fun r h c => ⟨
      (h c (Proc.devRef .tc Cert.Kernel.main_arg0) (by decide)).trans (Cert.HandB.We_arg0 m c),
      (h c (Proc.devRef .tc Cert.Kernel.main_arg1) (by decide)).trans (Cert.HandB.We_arg1 m c),
      (h c (Proc.devRef .tc Cert.Kernel.main_arg2) (by decide)).trans (Cert.HandB.We_arg2 m c),
      (h c (Proc.devRef .tc Cert.Kernel.main_arg3) (by decide)).trans (Cert.HandB.We_arg3 m c),
      (h c (Proc.devRef .tc Cert.Kernel.main_arg4) (by decide)).trans (Cert.HandB.We_arg4 m c),
      (h c (Proc.devRef .tc Cert.Kernel.main_arg5) (by decide)).trans (Cert.HandB.We_arg5 m c),
      (h c (Proc.devRef .tc Cert.Kernel.main_arg6) (by decide)).trans (Cert.HandB.We_arg6 m c),
      (h c (Proc.devRef .tc Cert.Kernel.main_arg7) (by decide)).trans (Cert.HandB.We_arg7 m c),
      (h c (Proc.devRef .tc Cert.Kernel.main_arg8) (by decide)).trans (Cert.HandB.We_arg8 m c),
      (h c (Proc.devRef .tc Cert.Kernel.main_arg9) (by decide)).trans (Cert.HandB.We_arg9 m c),
      (h c (Proc.devRef .tc Cert.Kernel.main_arg10) (by decide)).trans (Cert.HandB.We_arg10 m c)⟩)
    (Cert.HandB.run_main m g (Cert.HandB.idx_ok_of m Cert.HandB.d0 (hpre Cert.HandB.d0)))

theorem frame_ki : Cert.frame_KernelIdeal := fun m g hpre =>
  (θ_run _ _ _).mono (fun r h c => ⟨
      (h c (Proc.devRef .tc Cert.KernelIdeal.main_arg0) (by decide)).trans (Cert.HandI.We_arg0 m c),
      (h c (Proc.devRef .tc Cert.KernelIdeal.main_arg1) (by decide)).trans (Cert.HandI.We_arg1 m c),
      (h c (Proc.devRef .tc Cert.KernelIdeal.main_arg2) (by decide)).trans (Cert.HandI.We_arg2 m c),
      (h c (Proc.devRef .tc Cert.KernelIdeal.main_arg3) (by decide)).trans (Cert.HandI.We_arg3 m c),
      (h c (Proc.devRef .tc Cert.KernelIdeal.main_arg4) (by decide)).trans (Cert.HandI.We_arg4 m c),
      (h c (Proc.devRef .tc Cert.KernelIdeal.main_arg5) (by decide)).trans (Cert.HandI.We_arg5 m c),
      (h c (Proc.devRef .tc Cert.KernelIdeal.main_arg6) (by decide)).trans (Cert.HandI.We_arg6 m c),
      (h c (Proc.devRef .tc Cert.KernelIdeal.main_arg7) (by decide)).trans (Cert.HandI.We_arg7 m c),
      (h c (Proc.devRef .tc Cert.KernelIdeal.main_arg8) (by decide)).trans (Cert.HandI.We_arg8 m c),
      (h c (Proc.devRef .tc Cert.KernelIdeal.main_arg9) (by decide)).trans (Cert.HandI.We_arg9 m c),
      (h c (Proc.devRef .tc Cert.KernelIdeal.main_arg10) (by decide)).trans (Cert.HandI.We_arg10 m c)⟩)
    (Cert.HandI.run_main (F := Ideal) m g (Cert.Hand.idx_ok m hpre Cert.HandI.d0))

theorem algebraic : Cert.algebraic_KernelIdeal_ReferenceIdeal := by
  intro m g m' g' hpre hagree
  refine ⟨fun c => Cert.HandI.outK (F := Ideal) m c, ?_, ?_⟩
  · exact (θ_run _ _ _).mono (fun r h c => ⟨
      (h c (Proc.devRef .tc Cert.KernelIdeal.main_v7) (by decide)).trans (Cert.HandI.We_v7 m c),
      (h c (Proc.devRef .tc Cert.KernelIdeal.main_arg0) (by decide)).trans (Cert.HandI.We_arg0 m c),
      (h c (Proc.devRef .tc Cert.KernelIdeal.main_arg1) (by decide)).trans (Cert.HandI.We_arg1 m c),
      (h c (Proc.devRef .tc Cert.KernelIdeal.main_arg2) (by decide)).trans (Cert.HandI.We_arg2 m c),
      (h c (Proc.devRef .tc Cert.KernelIdeal.main_arg3) (by decide)).trans (Cert.HandI.We_arg3 m c),
      (h c (Proc.devRef .tc Cert.KernelIdeal.main_arg4) (by decide)).trans (Cert.HandI.We_arg4 m c),
      (h c (Proc.devRef .tc Cert.KernelIdeal.main_arg5) (by decide)).trans (Cert.HandI.We_arg5 m c),
      (h c (Proc.devRef .tc Cert.KernelIdeal.main_arg6) (by decide)).trans (Cert.HandI.We_arg6 m c),
      (h c (Proc.devRef .tc Cert.KernelIdeal.main_arg7) (by decide)).trans (Cert.HandI.We_arg7 m c),
      (h c (Proc.devRef .tc Cert.KernelIdeal.main_arg8) (by decide)).trans (Cert.HandI.We_arg8 m c),
      (h c (Proc.devRef .tc Cert.KernelIdeal.main_arg9) (by decide)).trans (Cert.HandI.We_arg9 m c),
      (h c (Proc.devRef .tc Cert.KernelIdeal.main_arg10) (by decide)).trans (Cert.HandI.We_arg10 m c)⟩)
      (Cert.HandI.run_main (F := Ideal) m g (Cert.Hand.idx_ok m hpre Cert.HandI.d0))
  · refine (θ_run _ _ _).mono (fun r h c => ⟨(h c).1.trans ?_, (h c).2⟩) (Cert.RefHand.run m' g')
    show _ = Cert.HandI.outK (F := Ideal) m c
    rw [Cert.Hand.outK_eq m hpre c, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_input_domain.Gen.facts,
    frame_k, frame_ki, Cert.RefHand.frame, Cert.Hand.preserves, algebraic⟩

end Cert.Proof

end
